-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S819200 : Shape := ⟨1, ![819200]⟩
abbrev S409600 : Shape := ⟨1, ![409600]⟩
abbrev S100000x64 : Shape := ⟨2, ![100000, 64]⟩
abbrev S50000x64 : Shape := ⟨2, ![50000, 64]⟩
abbrev S100000 : Shape := ⟨1, ![100000]⟩
abbrev S50000 : Shape := ⟨1, ![50000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S100000 : S_.BroadcastsInDim S100000 (![] : Fin 0 → Fin S100000.rank)
  reducesTo_S100000_S_d0 : S100000.ReducesTo [0] S_
  bcast_S_S50000 : S_.BroadcastsInDim S50000 (![] : Fin 0 → Fin S50000.rank)
  reducesTo_S50000_S_d0 : S50000.ReducesTo [0] S_
  bcast_S_S819200 : S_.BroadcastsInDim S819200 (![] : Fin 0 → Fin S819200.rank)
  reducesTo_S819200_S_d0 : S819200.ReducesTo [0] S_
  bcast_S_S409600 : S_.BroadcastsInDim S409600 (![] : Fin 0 → Fin S409600.rank)
  reducesTo_S409600_S_d0 : S409600.ReducesTo [0] S_

variable [Facts]

def fn_part3 {F : FTy → Type} [FloatOps F] (main_arg5 : IVec S409600 32) (main_v49 : IVec S_ 1) (main_c_19 : IVec S_ 32) : IVec S_ 1 :=
  let main_v50 : IVec S409600 32 := broadcastInDim S409600 ![] bcast_S_S409600 main_c_19
  let main_v51 : IVec S409600 1 := cmpi .sge main_arg5 main_v50
  let main_c_20 : IVec S_ 32 := constantI S_ 32 16384#32
  let main_v52 : IVec S409600 32 := broadcastInDim S409600 ![] bcast_S_S409600 main_c_20
  let main_v53 : IVec S409600 1 := cmpi .slt main_arg5 main_v52
  let main_v54 : IVec S409600 1 := andi main_v51 main_v53
  let main_c_21 : IVec S_ 1 := constantI S_ 1 1#1
  let main_v55 : IVec S_ 1 := (fun x v => Host.reduce IntOp.andi x v reducesTo_S409600_S_d0 h_S_) main_v54 main_c_21
  let main_v56 : IVec S_ 1 := andi main_v49 main_v55
  main_v56

def fn_part2 {F : FTy → Type} [FloatOps F] (main_arg3 : IVec S819200 32) (main_arg4 : IVec S409600 32) (main_arg5 : IVec S409600 32) (main_v28 : IVec S_ 1) (main_v33 : IVec S819200 1) : IVec S_ 1 :=
  let main_c_12 : IVec S_ 1 := constantI S_ 1 1#1
  let main_v34 : IVec S_ 1 := (fun x v => Host.reduce IntOp.andi x v reducesTo_S819200_S_d0 h_S_) main_v33 main_c_12
  let main_v35 : IVec S_ 1 := andi main_v28 main_v34
  let main_c_13 : IVec S_ 32 := constantI S_ 32 0#32
  let main_v36 : IVec S819200 32 := broadcastInDim S819200 ![] bcast_S_S819200 main_c_13
  let main_v37 : IVec S819200 1 := cmpi .sge main_arg3 main_v36
  let main_c_14 : IVec S_ 32 := constantI S_ 32 16384#32
  let main_v38 : IVec S819200 32 := broadcastInDim S819200 ![] bcast_S_S819200 main_c_14
  let main_v39 : IVec S819200 1 := cmpi .slt main_arg3 main_v38
  let main_v40 : IVec S819200 1 := andi main_v37 main_v39
  let main_c_15 : IVec S_ 1 := constantI S_ 1 1#1
  let main_v41 : IVec S_ 1 := (fun x v => Host.reduce IntOp.andi x v reducesTo_S819200_S_d0 h_S_) main_v40 main_c_15
  let main_v42 : IVec S_ 1 := andi main_v35 main_v41
  let main_c_16 : IVec S_ 32 := constantI S_ 32 0#32
  let main_v43 : IVec S409600 32 := broadcastInDim S409600 ![] bcast_S_S409600 main_c_16
  let main_v44 : IVec S409600 1 := cmpi .sge main_arg4 main_v43
  let main_c_17 : IVec S_ 32 := constantI S_ 32 50000#32
  let main_v45 : IVec S409600 32 := broadcastInDim S409600 ![] bcast_S_S409600 main_c_17
  let main_v46 : IVec S409600 1 := cmpi .slt main_arg4 main_v45
  let main_v47 : IVec S409600 1 := andi main_v44 main_v46
  let main_c_18 : IVec S_ 1 := constantI S_ 1 1#1
  let main_v48 : IVec S_ 1 := (fun x v => Host.reduce IntOp.andi x v reducesTo_S409600_S_d0 h_S_) main_v47 main_c_18
  let main_v49 : IVec S_ 1 := andi main_v42 main_v48
  let main_c_19 : IVec S_ 32 := constantI S_ 32 0#32
  fn_part3 (F := F) main_arg5 main_v49 main_c_19

def fn_part1 {F : FTy → Type} [FloatOps F] (main_arg2 : IVec S819200 32) (main_arg3 : IVec S819200 32) (main_arg4 : IVec S409600 32) (main_arg5 : IVec S409600 32) (main_arg10 : FVec F S50000x64 .f32) (main_arg11 : FVec F S50000x64 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S50000x64 .f32 := Host.absf main_arg10
  let main_cst_6 : FVec F S_ .f32 := constant S_ .f32 0x7F800000#32
  let main_v20 : FVec F S50000x64 .f32 := broadcastInDim S50000x64 ![] bcast_S_S50000x64 main_cst_6
  let main_v21 : IVec S50000x64 1 := cmpf .olt main_v19 main_v20
  let main_c_7 : IVec S_ 1 := constantI S_ 1 1#1
  let main_v22 : IVec S_ 1 := (fun x v => Host.reduce IntOp.andi x v reducesTo_S50000x64_S_d0_1 h_S_) main_v21 main_c_7
  let main_v23 : IVec S_ 1 := andi main_v18 main_v22
  let main_v24 : FVec F S50000x64 .f32 := Host.absf main_arg11
  let main_cst_8 : FVec F S_ .f32 := constant S_ .f32 0x7F800000#32
  let main_v25 : FVec F S50000x64 .f32 := broadcastInDim S50000x64 ![] bcast_S_S50000x64 main_cst_8
  let main_v26 : IVec S50000x64 1 := cmpf .olt main_v24 main_v25
  let main_c_9 : IVec S_ 1 := constantI S_ 1 1#1
  let main_v27 : IVec S_ 1 := (fun x v => Host.reduce IntOp.andi x v reducesTo_S50000x64_S_d0_1 h_S_) main_v26 main_c_9
  let main_v28 : IVec S_ 1 := andi main_v23 main_v27
  let main_c_10 : IVec S_ 32 := constantI S_ 32 0#32
  let main_v29 : IVec S819200 32 := broadcastInDim S819200 ![] bcast_S_S819200 main_c_10
  let main_v30 : IVec S819200 1 := cmpi .sge main_arg2 main_v29
  let main_c_11 : IVec S_ 32 := constantI S_ 32 50000#32
  let main_v31 : IVec S819200 32 := broadcastInDim S819200 ![] bcast_S_S819200 main_c_11
  let main_v32 : IVec S819200 1 := cmpi .slt main_arg2 main_v31
  let main_v33 : IVec S819200 1 := andi main_v30 main_v32
  fn_part2 (F := F) main_arg3 main_arg4 main_arg5 main_v28 main_v33

def fn {F : FTy → Type} [FloatOps F] (main_arg0 : IVec S16384 32) (main_arg1 : IVec S16384 32) (main_arg2 : IVec S819200 32) (main_arg3 : IVec S819200 32) (main_arg4 : IVec S409600 32) (main_arg5 : IVec S409600 32) (main_arg6 : FVec F S100000x64 .f32) (main_arg7 : FVec F S50000x64 .f32) (main_arg8 : FVec F S100000 .f32) (main_arg9 : FVec F S50000 .f32) (main_arg10 : FVec F S50000x64 .f32) (main_arg11 : FVec F S50000x64 .f32) : IVec S_ 1 :=
  let main_v0 : FVec F S100000x64 .f32 := Host.absf main_arg6
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg7
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S100000 .f32 := Host.absf main_arg8
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S50000 .f32 := Host.absf main_arg9
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg2 main_arg3 main_arg4 main_arg5 main_arg10 main_arg11 main_v13 main_v16
-- ==== Kernel.lean ====
abbrev S16384 : Shape := ⟨1, ![16384]⟩
abbrev S819200 : Shape := ⟨1, ![819200]⟩
abbrev S409600 : Shape := ⟨1, ![409600]⟩
abbrev S100000x64 : Shape := ⟨2, ![100000, 64]⟩
abbrev S50000x64 : Shape := ⟨2, ![50000, 64]⟩
abbrev S100000 : Shape := ⟨1, ![100000]⟩
abbrev S50000 : Shape := ⟨1, ![50000]⟩
abbrev S16384x64 : Shape := ⟨2, ![16384, 64]⟩
abbrev S16384x1 : Shape := ⟨2, ![16384, 1]⟩
abbrev S256 : Shape := ⟨1, ![256]⟩
abbrev S_ : Shape := ⟨0, ![]⟩
abbrev S1 : Shape := ⟨1, ![1]⟩
abbrev S1x64 : Shape := ⟨2, ![1, 64]⟩
abbrev S64 : Shape := ⟨1, ![64]⟩
abbrev S1x1 : Shape := ⟨2, ![1, 1]⟩
abbrev S2048x64 : Shape := ⟨2, ![2048, 64]⟩
abbrev S2048x1 : Shape := ⟨2, ![2048, 1]⟩
abbrev S2048 : Shape := ⟨1, ![2048]⟩

abbrev nBuf : Space → Nat
  | .hbm => 56
  | .vmem => 28
  | .smem => 8
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S819200, .i32⟩
  | .hbm, ⟨3, _⟩ => ⟨S819200, .i32⟩
  | .hbm, ⟨4, _⟩ => ⟨S409600, .i32⟩
  | .hbm, ⟨5, _⟩ => ⟨S409600, .i32⟩
  | .hbm, ⟨6, _⟩ => ⟨S100000x64, .f32⟩
  | .hbm, ⟨7, _⟩ => ⟨S50000x64, .f32⟩
  | .hbm, ⟨8, _⟩ => ⟨S100000, .f32⟩
  | .hbm, ⟨9, _⟩ => ⟨S50000, .f32⟩
  | .hbm, ⟨10, _⟩ => ⟨S50000x64, .f32⟩
  | .hbm, ⟨11, _⟩ => ⟨S50000x64, .f32⟩
  | .hbm, ⟨12, _⟩ => ⟨S16384x64, .f32⟩
  | .hbm, ⟨13, _⟩ => ⟨S16384x1, .f32⟩
  | .hbm, ⟨14, _⟩ => ⟨S16384x64, .f32⟩
  | .hbm, ⟨15, _⟩ => ⟨S16384x1, .f32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S16384x64, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S16384x64, .f32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S16384, .f32⟩
  | .hbm, ⟨43, _⟩ => ⟨S16384x1, .f32⟩
  | .hbm, ⟨44, _⟩ => ⟨S_, .i32⟩
  | .hbm, ⟨45, _⟩ => ⟨S16384, .i32⟩
  | .hbm, ⟨46, _⟩ => ⟨S16384, .i1⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S16384, .i32⟩
  | .hbm, ⟨51, _⟩ => ⟨S16384x1, .i32⟩
  | .hbm, ⟨52, _⟩ => ⟨S16384, .f32⟩
  | .hbm, ⟨53, _⟩ => ⟨S16384x1, .f32⟩
  | .hbm, ⟨54, _⟩ => ⟨S16384x1, .f32⟩
  | .hbm, ⟨55, _⟩ => ⟨S16384, .f32⟩
  | .local _ .vmem, ⟨0, _⟩ => ⟨S16384x64, .f32⟩
  | .local _ .vmem, ⟨1, _⟩ => ⟨S16384x1, .f32⟩
  | .local _ .vmem, ⟨2, _⟩ => ⟨S50000x64, .f32⟩
  | .local _ .vmem, ⟨3, _⟩ => ⟨S16384x64, .f32⟩
  | .local _ .vmem, ⟨4, _⟩ => ⟨S16384x1, .f32⟩
  | .local _ .vmem, ⟨5, _⟩ => ⟨S16384x64, .f32⟩
  | .local _ .vmem, ⟨6, _⟩ => ⟨S16384x1, .f32⟩
  | .local _ .vmem, ⟨7, _⟩ => ⟨S50000x64, .f32⟩
  | .local _ .vmem, ⟨8, _⟩ => ⟨S16384x64, .f32⟩
  | .local _ .vmem, ⟨9, _⟩ => ⟨S16384x1, .f32⟩
  | .local _ .vmem, ⟨10, _⟩ => ⟨S2048x64, .f32⟩
  | .local _ .vmem, ⟨11, _⟩ => ⟨S2048x64, .f32⟩
  | .local _ .vmem, ⟨12, _⟩ => ⟨S2048x1, .f32⟩
  | .local _ .vmem, ⟨13, _⟩ => ⟨S2048x1, .f32⟩
  | .local _ .vmem, ⟨14, _⟩ => ⟨S2048x64, .f32⟩
  | .local _ .vmem, ⟨15, _⟩ => ⟨S2048x64, .f32⟩
  | .local _ .vmem, ⟨16, _⟩ => ⟨S2048x1, .f32⟩
  | .local _ .vmem, ⟨17, _⟩ => ⟨S2048x1, .f32⟩
  | .local _ .vmem, ⟨18, _⟩ => ⟨S2048x64, .f32⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | .local _ .vmem, ⟨22, _⟩ => ⟨S2048x1, .f32⟩
  | .local _ .vmem, ⟨23, _⟩ => ⟨S2048x1, .f32⟩
  | .local _ .vmem, ⟨24, _⟩ => ⟨S2048x1, .f32⟩
  | .local _ .vmem, ⟨25, _⟩ => ⟨S2048x1, .f32⟩
  | .local _ .vmem, ⟨26, _⟩ => ⟨S2048x1, .f32⟩
  | .local _ .vmem, ⟨27, _⟩ => ⟨S2048x1, .f32⟩
  | .local _ .smem, ⟨0, _⟩ => ⟨S256, .i32⟩
  | .local _ .smem, ⟨1, _⟩ => ⟨S256, .i32⟩
  | .local _ .smem, ⟨2, _⟩ => ⟨S256, .i32⟩
  | .local _ .smem, ⟨3, _⟩ => ⟨S256, .i32⟩
  | .local _ .smem, ⟨4, _⟩ => ⟨S256, .i32⟩
  | .local _ .smem, ⟨5, _⟩ => ⟨S256, .i32⟩
  | .local _ .smem, ⟨6, _⟩ => ⟨S256, .i32⟩
  | .local _ .smem, ⟨7, _⟩ => ⟨S256, .i32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v1_0 : Ref sig .tc := ⟨.hbm, 14, rfl⟩
abbrev main_v1_1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev cc0_stg2_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc1_stg2_0 : Ref sig .tc := ⟨.vmem, 5, rfl⟩
abbrev cc1_stg3_0 : Ref sig .tc := ⟨.vmem, 6, rfl⟩
abbrev cc1_scratch0 : Ref sig .tc := ⟨.vmem, 7, rfl⟩
abbrev cc1_scratch1 : Ref sig .tc := ⟨.vmem, 8, rfl⟩
abbrev cc1_scratch2 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc2_stg8_0 : Ref sig .tc := ⟨.vmem, 26, rfl⟩
abbrev cc2_stg8_1 : Ref sig .tc := ⟨.vmem, 27, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc1_stg0_0 : Ref sig .tc := ⟨.smem, 4, rfl⟩
abbrev cc1_stg0_1 : Ref sig .tc := ⟨.smem, 5, rfl⟩
abbrev cc1_stg1_0 : Ref sig .tc := ⟨.smem, 6, rfl⟩
abbrev cc1_stg1_1 : Ref sig .tc := ⟨.smem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc2_sem7_0 : DmaSem sig := 28
abbrev cc2_sem7_1 : DmaSem sig := 29
abbrev cc2_sem8_0 : DmaSem sig := 30
abbrev cc2_sem8_1 : DmaSem sig := 31

abbrev nD : Nat := 1
abbrev τ : Topo := Topo.v7x

variable {F : FTy → Type} [FloatOps F]

abbrev grid0 : Pipeline.Grid := ⟨1, ![3200], ![false]⟩

def k0_off1 (v3 : BitVec 32) : Fin 2 → Nat :=
  let v5 : Index := Scalar.indexCast v3
  let c0_2 : Index := 0#32
  ![v5.toNat, 0]

def k0_chk1 (v3 : BitVec 32) : Prop :=
  (∀ a, (k0_off1 v3) a + S1x64.size a ≤ S50000x64.size a)
instance k0_chk1.dec : ∀ (v3 : BitVec 32), Decidable (k0_chk1 v3) := fun v3 => decidable_of_iff' _ (Iff.of_eq (k0_chk1.eq_1 v3))
theorem k0_off1_inb : ∀ (v3 : BitVec 32) (k0_hw1 : k0_chk1 v3), ∀ a, (k0_off1 v3) a + S1x64.size a ≤ S50000x64.size a := fun v3 k0_hw1 => k0_hw1

def k0_off2 (v4 : BitVec 32) : Fin 2 → Nat :=
  let v8 : Index := Scalar.indexCast v4
  let c0_3 : Index := 0#32
  ![v8.toNat, 0]

def k0_off3 (v4 : BitVec 32) : Fin 2 → Nat :=
  let v16 : Index := Scalar.indexCast v4
  let c0_5 : Index := 0#32
  ![v16.toNat, 0]

def k0_chk2 (v4 : BitVec 32) : Prop :=
  (∀ a, (k0_off2 v4) a + S1x64.size a ≤ S16384x64.size a) ∧
  (∀ a, (k0_off3 v4) a + S1x1.size a ≤ S16384x1.size a)
instance k0_chk2.dec : ∀ (v4 : BitVec 32), Decidable (k0_chk2 v4) := fun v4 => decidable_of_iff' _ (Iff.of_eq (k0_chk2.eq_1 v4))
theorem k0_off2_inb : ∀ (v4 : BitVec 32) (k0_hw2 : k0_chk2 v4), ∀ a, (k0_off2 v4) a + S1x64.size a ≤ S16384x64.size a := fun v4 k0_hw2 => k0_hw2.1
theorem k0_off3_inb : ∀ (v4 : BitVec 32) (k0_hw2 : k0_chk2 v4), ∀ a, (k0_off3 v4) a + S1x1.size a ≤ S16384x1.size a := fun v4 k0_hw2 => k0_hw2.2

def k0_off4 (v25 : BitVec 32) : Fin 2 → Nat :=
  let v27 : Index := Scalar.indexCast v25
  let c0_8 : Index := 0#32
  ![v27.toNat, 0]

def k0_chk3 (v25 : BitVec 32) : Prop :=
  (∀ a, (k0_off4 v25) a + S1x64.size a ≤ S50000x64.size a)
instance k0_chk3.dec : ∀ (v25 : BitVec 32), Decidable (k0_chk3 v25) := fun v25 => decidable_of_iff' _ (Iff.of_eq (k0_chk3.eq_1 v25))
theorem k0_off4_inb : ∀ (v25 : BitVec 32) (k0_hw3 : k0_chk3 v25), ∀ a, (k0_off4 v25) a + S1x64.size a ≤ S50000x64.size a := fun v25 k0_hw3 => k0_hw3

def k0_off5 (v26 : BitVec 32) : Fin 2 → Nat :=
  let v30 : Index := Scalar.indexCast v26
  let c0_9 : Index := 0#32
  ![v30.toNat, 0]

def k0_off6 (v26 : BitVec 32) : Fin 2 → Nat :=
  let v38 : Index := Scalar.indexCast v26
  let c0_11 : Index := 0#32
  ![v38.toNat, 0]

def k0_chk4 (v26 : BitVec 32) : Prop :=
  (∀ a, (k0_off5 v26) a + S1x64.size a ≤ S16384x64.size a) ∧
  (∀ a, (k0_off6 v26) a + S1x1.size a ≤ S16384x1.size a)
instance k0_chk4.dec : ∀ (v26 : BitVec 32), Decidable (k0_chk4 v26) := fun v26 => decidable_of_iff' _ (Iff.of_eq (k0_chk4.eq_1 v26))
theorem k0_off5_inb : ∀ (v26 : BitVec 32) (k0_hw4 : k0_chk4 v26), ∀ a, (k0_off5 v26) a + S1x64.size a ≤ S16384x64.size a := fun v26 k0_hw4 => k0_hw4.1
theorem k0_off6_inb : ∀ (v26 : BitVec 32) (k0_hw4 : k0_chk4 v26), ∀ a, (k0_off6 v26) a + S1x1.size a ≤ S16384x1.size a := fun v26 k0_hw4 => k0_hw4.2

def k0_off7 (v47 : BitVec 32) : Fin 2 → Nat :=
  let v49 : Index := Scalar.indexCast v47
  let c0_15 : Index := 0#32
  ![v49.toNat, 0]

def k0_chk5 (v47 : BitVec 32) : Prop :=
  (∀ a, (k0_off7 v47) a + S1x64.size a ≤ S50000x64.size a)
instance k0_chk5.dec : ∀ (v47 : BitVec 32), Decidable (k0_chk5 v47) := fun v47 => decidable_of_iff' _ (Iff.of_eq (k0_chk5.eq_1 v47))
theorem k0_off7_inb : ∀ (v47 : BitVec 32) (k0_hw5 : k0_chk5 v47), ∀ a, (k0_off7 v47) a + S1x64.size a ≤ S50000x64.size a := fun v47 k0_hw5 => k0_hw5

def k0_off8 (v48 : BitVec 32) : Fin 2 → Nat :=
  let v52 : Index := Scalar.indexCast v48
  let c0_16 : Index := 0#32
  ![v52.toNat, 0]

def k0_off9 (v48 : BitVec 32) : Fin 2 → Nat :=
  let v60 : Index := Scalar.indexCast v48
  let c0_18 : Index := 0#32
  ![v60.toNat, 0]

def k0_chk6 (v48 : BitVec 32) : Prop :=
  (∀ a, (k0_off8 v48) a + S1x64.size a ≤ S16384x64.size a) ∧
  (∀ a, (k0_off9 v48) a + S1x1.size a ≤ S16384x1.size a)
instance k0_chk6.dec : ∀ (v48 : BitVec 32), Decidable (k0_chk6 v48) := fun v48 => decidable_of_iff' _ (Iff.of_eq (k0_chk6.eq_1 v48))
theorem k0_off8_inb : ∀ (v48 : BitVec 32) (k0_hw6 : k0_chk6 v48), ∀ a, (k0_off8 v48) a + S1x64.size a ≤ S16384x64.size a := fun v48 k0_hw6 => k0_hw6.1
theorem k0_off9_inb : ∀ (v48 : BitVec 32) (k0_hw6 : k0_chk6 v48), ∀ a, (k0_off9 v48) a + S1x1.size a ≤ S16384x1.size a := fun v48 k0_hw6 => k0_hw6.2

def k0_off10 (v69 : BitVec 32) : Fin 2 → Nat :=
  let v71 : Index := Scalar.indexCast v69
  let c0_22 : Index := 0#32
  ![v71.toNat, 0]

def k0_chk7 (v69 : BitVec 32) : Prop :=
  (∀ a, (k0_off10 v69) a + S1x64.size a ≤ S50000x64.size a)
instance k0_chk7.dec : ∀ (v69 : BitVec 32), Decidable (k0_chk7 v69) := fun v69 => decidable_of_iff' _ (Iff.of_eq (k0_chk7.eq_1 v69))
theorem k0_off10_inb : ∀ (v69 : BitVec 32) (k0_hw7 : k0_chk7 v69), ∀ a, (k0_off10 v69) a + S1x64.size a ≤ S50000x64.size a := fun v69 k0_hw7 => k0_hw7

def k0_off11 (v70 : BitVec 32) : Fin 2 → Nat :=
  let v74 : Index := Scalar.indexCast v70
  let c0_23 : Index := 0#32
  ![v74.toNat, 0]

def k0_off12 (v70 : BitVec 32) : Fin 2 → Nat :=
  let v82 : Index := Scalar.indexCast v70
  let c0_25 : Index := 0#32
  ![v82.toNat, 0]

def k0_chk8 (v70 : BitVec 32) : Prop :=
  (∀ a, (k0_off11 v70) a + S1x64.size a ≤ S16384x64.size a) ∧
  (∀ a, (k0_off12 v70) a + S1x1.size a ≤ S16384x1.size a)
instance k0_chk8.dec : ∀ (v70 : BitVec 32), Decidable (k0_chk8 v70) := fun v70 => decidable_of_iff' _ (Iff.of_eq (k0_chk8.eq_1 v70))
theorem k0_off11_inb : ∀ (v70 : BitVec 32) (k0_hw8 : k0_chk8 v70), ∀ a, (k0_off11 v70) a + S1x64.size a ≤ S16384x64.size a := fun v70 k0_hw8 => k0_hw8.1
theorem k0_off12_inb : ∀ (v70 : BitVec 32) (k0_hw8 : k0_chk8 v70), ∀ a, (k0_off12 v70) a + S1x1.size a ≤ S16384x1.size a := fun v70 k0_hw8 => k0_hw8.2

def k0_off13 (v91 : BitVec 32) : Fin 2 → Nat :=
  let v93 : Index := Scalar.indexCast v91
  let c0_29 : Index := 0#32
  ![v93.toNat, 0]

def k0_chk9 (v91 : BitVec 32) : Prop :=
  (∀ a, (k0_off13 v91) a + S1x64.size a ≤ S50000x64.size a)
instance k0_chk9.dec : ∀ (v91 : BitVec 32), Decidable (k0_chk9 v91) := fun v91 => decidable_of_iff' _ (Iff.of_eq (k0_chk9.eq_1 v91))
theorem k0_off13_inb : ∀ (v91 : BitVec 32) (k0_hw9 : k0_chk9 v91), ∀ a, (k0_off13 v91) a + S1x64.size a ≤ S50000x64.size a := fun v91 k0_hw9 => k0_hw9

def k0_off14 (v92 : BitVec 32) : Fin 2 → Nat :=
  let v96 : Index := Scalar.indexCast v92
  let c0_30 : Index := 0#32
  ![v96.toNat, 0]

def k0_off15 (v92 : BitVec 32) : Fin 2 → Nat :=
  let v104 : Index := Scalar.indexCast v92
  let c0_32 : Index := 0#32
  ![v104.toNat, 0]

def k0_chk10 (v92 : BitVec 32) : Prop :=
  (∀ a, (k0_off14 v92) a + S1x64.size a ≤ S16384x64.size a) ∧
  (∀ a, (k0_off15 v92) a + S1x1.size a ≤ S16384x1.size a)
instance k0_chk10.dec : ∀ (v92 : BitVec 32), Decidable (k0_chk10 v92) := fun v92 => decidable_of_iff' _ (Iff.of_eq (k0_chk10.eq_1 v92))
theorem k0_off14_inb : ∀ (v92 : BitVec 32) (k0_hw10 : k0_chk10 v92), ∀ a, (k0_off14 v92) a + S1x64.size a ≤ S16384x64.size a := fun v92 k0_hw10 => k0_hw10.1
theorem k0_off15_inb : ∀ (v92 : BitVec 32) (k0_hw10 : k0_chk10 v92), ∀ a, (k0_off15 v92) a + S1x1.size a ≤ S16384x1.size a := fun v92 k0_hw10 => k0_hw10.2

def k0_off16 (v113 : BitVec 32) : Fin 2 → Nat :=
  let v115 : Index := Scalar.indexCast v113
  let c0_36 : Index := 0#32
  ![v115.toNat, 0]

def k0_chk11 (v113 : BitVec 32) : Prop :=
  (∀ a, (k0_off16 v113) a + S1x64.size a ≤ S50000x64.size a)
instance k0_chk11.dec : ∀ (v113 : BitVec 32), Decidable (k0_chk11 v113) := fun v113 => decidable_of_iff' _ (Iff.of_eq (k0_chk11.eq_1 v113))
theorem k0_off16_inb : ∀ (v113 : BitVec 32) (k0_hw11 : k0_chk11 v113), ∀ a, (k0_off16 v113) a + S1x64.size a ≤ S50000x64.size a := fun v113 k0_hw11 => k0_hw11

def k0_off17 (v114 : BitVec 32) : Fin 2 → Nat :=
  let v118 : Index := Scalar.indexCast v114
  let c0_37 : Index := 0#32
  ![v118.toNat, 0]

def k0_off18 (v114 : BitVec 32) : Fin 2 → Nat :=
  let v126 : Index := Scalar.indexCast v114
  let c0_39 : Index := 0#32
  ![v126.toNat, 0]

def k0_chk12 (v114 : BitVec 32) : Prop :=
  (∀ a, (k0_off17 v114) a + S1x64.size a ≤ S16384x64.size a) ∧
  (∀ a, (k0_off18 v114) a + S1x1.size a ≤ S16384x1.size a)
instance k0_chk12.dec : ∀ (v114 : BitVec 32), Decidable (k0_chk12 v114) := fun v114 => decidable_of_iff' _ (Iff.of_eq (k0_chk12.eq_1 v114))
theorem k0_off17_inb : ∀ (v114 : BitVec 32) (k0_hw12 : k0_chk12 v114), ∀ a, (k0_off17 v114) a + S1x64.size a ≤ S16384x64.size a := fun v114 k0_hw12 => k0_hw12.1
theorem k0_off18_inb : ∀ (v114 : BitVec 32) (k0_hw12 : k0_chk12 v114), ∀ a, (k0_off18 v114) a + S1x1.size a ≤ S16384x1.size a := fun v114 k0_hw12 => k0_hw12.2

def k0_off19 (v135 : BitVec 32) : Fin 2 → Nat :=
  let v137 : Index := Scalar.indexCast v135
  let c0_43 : Index := 0#32
  ![v137.toNat, 0]

def k0_chk13 (v135 : BitVec 32) : Prop :=
  (∀ a, (k0_off19 v135) a + S1x64.size a ≤ S50000x64.size a)
instance k0_chk13.dec : ∀ (v135 : BitVec 32), Decidable (k0_chk13 v135) := fun v135 => decidable_of_iff' _ (Iff.of_eq (k0_chk13.eq_1 v135))
theorem k0_off19_inb : ∀ (v135 : BitVec 32) (k0_hw13 : k0_chk13 v135), ∀ a, (k0_off19 v135) a + S1x64.size a ≤ S50000x64.size a := fun v135 k0_hw13 => k0_hw13

def k0_off20 (v136 : BitVec 32) : Fin 2 → Nat :=
  let v140 : Index := Scalar.indexCast v136
  let c0_44 : Index := 0#32
  ![v140.toNat, 0]

def k0_off21 (v136 : BitVec 32) : Fin 2 → Nat :=
  let v148 : Index := Scalar.indexCast v136
  let c0_46 : Index := 0#32
  ![v148.toNat, 0]

def k0_chk14 (v136 : BitVec 32) : Prop :=
  (∀ a, (k0_off20 v136) a + S1x64.size a ≤ S16384x64.size a) ∧
  (∀ a, (k0_off21 v136) a + S1x1.size a ≤ S16384x1.size a)
instance k0_chk14.dec : ∀ (v136 : BitVec 32), Decidable (k0_chk14 v136) := fun v136 => decidable_of_iff' _ (Iff.of_eq (k0_chk14.eq_1 v136))
theorem k0_off20_inb : ∀ (v136 : BitVec 32) (k0_hw14 : k0_chk14 v136), ∀ a, (k0_off20 v136) a + S1x64.size a ≤ S16384x64.size a := fun v136 k0_hw14 => k0_hw14.1
theorem k0_off21_inb : ∀ (v136 : BitVec 32) (k0_hw14 : k0_chk14 v136), ∀ a, (k0_off21 v136) a + S1x1.size a ≤ S16384x1.size a := fun v136 k0_hw14 => k0_hw14.2

def k0_off22 (v157 : BitVec 32) : Fin 2 → Nat :=
  let v159 : Index := Scalar.indexCast v157
  let c0_50 : Index := 0#32
  ![v159.toNat, 0]

def k0_chk15 (v157 : BitVec 32) : Prop :=
  (∀ a, (k0_off22 v157) a + S1x64.size a ≤ S50000x64.size a)
instance k0_chk15.dec : ∀ (v157 : BitVec 32), Decidable (k0_chk15 v157) := fun v157 => decidable_of_iff' _ (Iff.of_eq (k0_chk15.eq_1 v157))
theorem k0_off22_inb : ∀ (v157 : BitVec 32) (k0_hw15 : k0_chk15 v157), ∀ a, (k0_off22 v157) a + S1x64.size a ≤ S50000x64.size a := fun v157 k0_hw15 => k0_hw15

def k0_off23 (v158 : BitVec 32) : Fin 2 → Nat :=
  let v162 : Index := Scalar.indexCast v158
  let c0_51 : Index := 0#32
  ![v162.toNat, 0]

def k0_off24 (v158 : BitVec 32) : Fin 2 → Nat :=
  let v170 : Index := Scalar.indexCast v158
  let c0_53 : Index := 0#32
  ![v170.toNat, 0]

def k0_chk16 (v158 : BitVec 32) : Prop :=
  (∀ a, (k0_off23 v158) a + S1x64.size a ≤ S16384x64.size a) ∧
  (∀ a, (k0_off24 v158) a + S1x1.size a ≤ S16384x1.size a)
instance k0_chk16.dec : ∀ (v158 : BitVec 32), Decidable (k0_chk16 v158) := fun v158 => decidable_of_iff' _ (Iff.of_eq (k0_chk16.eq_1 v158))
theorem k0_off23_inb : ∀ (v158 : BitVec 32) (k0_hw16 : k0_chk16 v158), ∀ a, (k0_off23 v158) a + S1x64.size a ≤ S16384x64.size a := fun v158 k0_hw16 => k0_hw16.1
theorem k0_off24_inb : ∀ (v158 : BitVec 32) (k0_hw16 : k0_chk16 v158), ∀ a, (k0_off24 v158) a + S1x1.size a ≤ S16384x1.size a := fun v158 k0_hw16 => k0_hw16.2

def k0_off25 (v179 : BitVec 32) : Fin 2 → Nat :=
  let v181 : Index := Scalar.indexCast v179
  let c0_57 : Index := 0#32
  ![v181.toNat, 0]

def k0_chk17 (v179 : BitVec 32) : Prop :=
  (∀ a, (k0_off25 v179) a + S1x64.size a ≤ S50000x64.size a)
instance k0_chk17.dec : ∀ (v179 : BitVec 32), Decidable (k0_chk17 v179) := fun v179 => decidable_of_iff' _ (Iff.of_eq (k0_chk17.eq_1 v179))
theorem k0_off25_inb : ∀ (v179 : BitVec 32) (k0_hw17 : k0_chk17 v179), ∀ a, (k0_off25 v179) a + S1x64.size a ≤ S50000x64.size a := fun v179 k0_hw17 => k0_hw17

def k0_off26 (v180 : BitVec 32) : Fin 2 → Nat :=
  let v184 : Index := Scalar.indexCast v180
  let c0_58 : Index := 0#32
  ![v184.toNat, 0]

def k0_off27 (v180 : BitVec 32) : Fin 2 → Nat :=
  let v192 : Index := Scalar.indexCast v180
  let c0_60 : Index := 0#32
  ![v192.toNat, 0]

def k0_chk18 (v180 : BitVec 32) : Prop :=
  (∀ a, (k0_off26 v180) a + S1x64.size a ≤ S16384x64.size a) ∧
  (∀ a, (k0_off27 v180) a + S1x1.size a ≤ S16384x1.size a)
instance k0_chk18.dec : ∀ (v180 : BitVec 32), Decidable (k0_chk18 v180) := fun v180 => decidable_of_iff' _ (Iff.of_eq (k0_chk18.eq_1 v180))
theorem k0_off26_inb : ∀ (v180 : BitVec 32) (k0_hw18 : k0_chk18 v180), ∀ a, (k0_off26 v180) a + S1x64.size a ≤ S16384x64.size a := fun v180 k0_hw18 => k0_hw18.1
theorem k0_off27_inb : ∀ (v180 : BitVec 32) (k0_hw18 : k0_chk18 v180), ∀ a, (k0_off27 v180) a + S1x1.size a ≤ S16384x1.size a := fun v180 k0_hw18 => k0_hw18.2

def k0_off28 (v201 : BitVec 32) : Fin 2 → Nat :=
  let v203 : Index := Scalar.indexCast v201
  let c0_64 : Index := 0#32
  ![v203.toNat, 0]

def k0_chk19 (v201 : BitVec 32) : Prop :=
  (∀ a, (k0_off28 v201) a + S1x64.size a ≤ S50000x64.size a)
instance k0_chk19.dec : ∀ (v201 : BitVec 32), Decidable (k0_chk19 v201) := fun v201 => decidable_of_iff' _ (Iff.of_eq (k0_chk19.eq_1 v201))
theorem k0_off28_inb : ∀ (v201 : BitVec 32) (k0_hw19 : k0_chk19 v201), ∀ a, (k0_off28 v201) a + S1x64.size a ≤ S50000x64.size a := fun v201 k0_hw19 => k0_hw19

def k0_off29 (v202 : BitVec 32) : Fin 2 → Nat :=
  let v206 : Index := Scalar.indexCast v202
  let c0_65 : Index := 0#32
  ![v206.toNat, 0]

def k0_off30 (v202 : BitVec 32) : Fin 2 → Nat :=
  let v214 : Index := Scalar.indexCast v202
  let c0_67 : Index := 0#32
  ![v214.toNat, 0]

def k0_chk20 (v202 : BitVec 32) : Prop :=
  (∀ a, (k0_off29 v202) a + S1x64.size a ≤ S16384x64.size a) ∧
  (∀ a, (k0_off30 v202) a + S1x1.size a ≤ S16384x1.size a)
instance k0_chk20.dec : ∀ (v202 : BitVec 32), Decidable (k0_chk20 v202) := fun v202 => decidable_of_iff' _ (Iff.of_eq (k0_chk20.eq_1 v202))
theorem k0_off29_inb : ∀ (v202 : BitVec 32) (k0_hw20 : k0_chk20 v202), ∀ a, (k0_off29 v202) a + S1x64.size a ≤ S16384x64.size a := fun v202 k0_hw20 => k0_hw20.1
theorem k0_off30_inb : ∀ (v202 : BitVec 32) (k0_hw20 : k0_chk20 v202), ∀ a, (k0_off30 v202) a + S1x1.size a ≤ S16384x1.size a := fun v202 k0_hw20 => k0_hw20.2

def k0_off31 (v223 : BitVec 32) : Fin 2 → Nat :=
  let v225 : Index := Scalar.indexCast v223
  let c0_71 : Index := 0#32
  ![v225.toNat, 0]

def k0_chk21 (v223 : BitVec 32) : Prop :=
  (∀ a, (k0_off31 v223) a + S1x64.size a ≤ S50000x64.size a)
instance k0_chk21.dec : ∀ (v223 : BitVec 32), Decidable (k0_chk21 v223) := fun v223 => decidable_of_iff' _ (Iff.of_eq (k0_chk21.eq_1 v223))
theorem k0_off31_inb : ∀ (v223 : BitVec 32) (k0_hw21 : k0_chk21 v223), ∀ a, (k0_off31 v223) a + S1x64.size a ≤ S50000x64.size a := fun v223 k0_hw21 => k0_hw21

def k0_off32 (v224 : BitVec 32) : Fin 2 → Nat :=
  let v228 : Index := Scalar.indexCast v224
  let c0_72 : Index := 0#32
  ![v228.toNat, 0]

def k0_off33 (v224 : BitVec 32) : Fin 2 → Nat :=
  let v236 : Index := Scalar.indexCast v224
  let c0_74 : Index := 0#32
  ![v236.toNat, 0]

def k0_chk22 (v224 : BitVec 32) : Prop :=
  (∀ a, (k0_off32 v224) a + S1x64.size a ≤ S16384x64.size a) ∧
  (∀ a, (k0_off33 v224) a + S1x1.size a ≤ S16384x1.size a)
instance k0_chk22.dec : ∀ (v224 : BitVec 32), Decidable (k0_chk22 v224) := fun v224 => decidable_of_iff' _ (Iff.of_eq (k0_chk22.eq_1 v224))
theorem k0_off32_inb : ∀ (v224 : BitVec 32) (k0_hw22 : k0_chk22 v224), ∀ a, (k0_off32 v224) a + S1x64.size a ≤ S16384x64.size a := fun v224 k0_hw22 => k0_hw22.1
theorem k0_off33_inb : ∀ (v224 : BitVec 32) (k0_hw22 : k0_chk22 v224), ∀ a, (k0_off33 v224) a + S1x1.size a ≤ S16384x1.size a := fun v224 k0_hw22 => k0_hw22.2

def k0_off34 (v245 : BitVec 32) : Fin 2 → Nat :=
  let v247 : Index := Scalar.indexCast v245
  let c0_78 : Index := 0#32
  ![v247.toNat, 0]

def k0_chk23 (v245 : BitVec 32) : Prop :=
  (∀ a, (k0_off34 v245) a + S1x64.size a ≤ S50000x64.size a)
instance k0_chk23.dec : ∀ (v245 : BitVec 32), Decidable (k0_chk23 v245) := fun v245 => decidable_of_iff' _ (Iff.of_eq (k0_chk23.eq_1 v245))
theorem k0_off34_inb : ∀ (v245 : BitVec 32) (k0_hw23 : k0_chk23 v245), ∀ a, (k0_off34 v245) a + S1x64.size a ≤ S50000x64.size a := fun v245 k0_hw23 => k0_hw23

def k0_off35 (v246 : BitVec 32) : Fin 2 → Nat :=
  let v250 : Index := Scalar.indexCast v246
  let c0_79 : Index := 0#32
  ![v250.toNat, 0]

def k0_off36 (v246 : BitVec 32) : Fin 2 → Nat :=
  let v258 : Index := Scalar.indexCast v246
  let c0_81 : Index := 0#32
  ![v258.toNat, 0]

def k0_chk24 (v246 : BitVec 32) : Prop :=
  (∀ a, (k0_off35 v246) a + S1x64.size a ≤ S16384x64.size a) ∧
  (∀ a, (k0_off36 v246) a + S1x1.size a ≤ S16384x1.size a)
instance k0_chk24.dec : ∀ (v246 : BitVec 32), Decidable (k0_chk24 v246) := fun v246 => decidable_of_iff' _ (Iff.of_eq (k0_chk24.eq_1 v246))
theorem k0_off35_inb : ∀ (v246 : BitVec 32) (k0_hw24 : k0_chk24 v246), ∀ a, (k0_off35 v246) a + S1x64.size a ≤ S16384x64.size a := fun v246 k0_hw24 => k0_hw24.1
theorem k0_off36_inb : ∀ (v246 : BitVec 32) (k0_hw24 : k0_chk24 v246), ∀ a, (k0_off36 v246) a + S1x1.size a ≤ S16384x1.size a := fun v246 k0_hw24 => k0_hw24.2

def k0_off37 (v267 : BitVec 32) : Fin 2 → Nat :=
  let v269 : Index := Scalar.indexCast v267
  let c0_85 : Index := 0#32
  ![v269.toNat, 0]

def k0_chk25 (v267 : BitVec 32) : Prop :=
  (∀ a, (k0_off37 v267) a + S1x64.size a ≤ S50000x64.size a)
instance k0_chk25.dec : ∀ (v267 : BitVec 32), Decidable (k0_chk25 v267) := fun v267 => decidable_of_iff' _ (Iff.of_eq (k0_chk25.eq_1 v267))
theorem k0_off37_inb : ∀ (v267 : BitVec 32) (k0_hw25 : k0_chk25 v267), ∀ a, (k0_off37 v267) a + S1x64.size a ≤ S50000x64.size a := fun v267 k0_hw25 => k0_hw25

def k0_off38 (v268 : BitVec 32) : Fin 2 → Nat :=
  let v272 : Index := Scalar.indexCast v268
  let c0_86 : Index := 0#32
  ![v272.toNat, 0]

def k0_off39 (v268 : BitVec 32) : Fin 2 → Nat :=
  let v280 : Index := Scalar.indexCast v268
  let c0_88 : Index := 0#32
  ![v280.toNat, 0]

def k0_chk26 (v268 : BitVec 32) : Prop :=
  (∀ a, (k0_off38 v268) a + S1x64.size a ≤ S16384x64.size a) ∧
  (∀ a, (k0_off39 v268) a + S1x1.size a ≤ S16384x1.size a)
instance k0_chk26.dec : ∀ (v268 : BitVec 32), Decidable (k0_chk26 v268) := fun v268 => decidable_of_iff' _ (Iff.of_eq (k0_chk26.eq_1 v268))
theorem k0_off38_inb : ∀ (v268 : BitVec 32) (k0_hw26 : k0_chk26 v268), ∀ a, (k0_off38 v268) a + S1x64.size a ≤ S16384x64.size a := fun v268 k0_hw26 => k0_hw26.1
theorem k0_off39_inb : ∀ (v268 : BitVec 32) (k0_hw26 : k0_chk26 v268), ∀ a, (k0_off39 v268) a + S1x1.size a ≤ S16384x1.size a := fun v268 k0_hw26 => k0_hw26.2

def k0_off40 (v289 : BitVec 32) : Fin 2 → Nat :=
  let v291 : Index := Scalar.indexCast v289
  let c0_92 : Index := 0#32
  ![v291.toNat, 0]

def k0_chk27 (v289 : BitVec 32) : Prop :=
  (∀ a, (k0_off40 v289) a + S1x64.size a ≤ S50000x64.size a)
instance k0_chk27.dec : ∀ (v289 : BitVec 32), Decidable (k0_chk27 v289) := fun v289 => decidable_of_iff' _ (Iff.of_eq (k0_chk27.eq_1 v289))
theorem k0_off40_inb : ∀ (v289 : BitVec 32) (k0_hw27 : k0_chk27 v289), ∀ a, (k0_off40 v289) a + S1x64.size a ≤ S50000x64.size a := fun v289 k0_hw27 => k0_hw27

def k0_off41 (v290 : BitVec 32) : Fin 2 → Nat :=
  let v294 : Index := Scalar.indexCast v290
  let c0_93 : Index := 0#32
  ![v294.toNat, 0]

def k0_off42 (v290 : BitVec 32) : Fin 2 → Nat :=
  let v302 : Index := Scalar.indexCast v290
  let c0_95 : Index := 0#32
  ![v302.toNat, 0]

def k0_chk28 (v290 : BitVec 32) : Prop :=
  (∀ a, (k0_off41 v290) a + S1x64.size a ≤ S16384x64.size a) ∧
  (∀ a, (k0_off42 v290) a + S1x1.size a ≤ S16384x1.size a)
instance k0_chk28.dec : ∀ (v290 : BitVec 32), Decidable (k0_chk28 v290) := fun v290 => decidable_of_iff' _ (Iff.of_eq (k0_chk28.eq_1 v290))
theorem k0_off41_inb : ∀ (v290 : BitVec 32) (k0_hw28 : k0_chk28 v290), ∀ a, (k0_off41 v290) a + S1x64.size a ≤ S16384x64.size a := fun v290 k0_hw28 => k0_hw28.1
theorem k0_off42_inb : ∀ (v290 : BitVec 32) (k0_hw28 : k0_chk28 v290), ∀ a, (k0_off42 v290) a + S1x1.size a ≤ S16384x1.size a := fun v290 k0_hw28 => k0_hw28.2

def k0_off43 (v311 : BitVec 32) : Fin 2 → Nat :=
  let v313 : Index := Scalar.indexCast v311
  let c0_99 : Index := 0#32
  ![v313.toNat, 0]

def k0_chk29 (v311 : BitVec 32) : Prop :=
  (∀ a, (k0_off43 v311) a + S1x64.size a ≤ S50000x64.size a)
instance k0_chk29.dec : ∀ (v311 : BitVec 32), Decidable (k0_chk29 v311) := fun v311 => decidable_of_iff' _ (Iff.of_eq (k0_chk29.eq_1 v311))
theorem k0_off43_inb : ∀ (v311 : BitVec 32) (k0_hw29 : k0_chk29 v311), ∀ a, (k0_off43 v311) a + S1x64.size a ≤ S50000x64.size a := fun v311 k0_hw29 => k0_hw29

def k0_off44 (v312 : BitVec 32) : Fin 2 → Nat :=
  let v316 : Index := Scalar.indexCast v312
  let c0_100 : Index := 0#32
  ![v316.toNat, 0]

def k0_off45 (v312 : BitVec 32) : Fin 2 → Nat :=
  let v324 : Index := Scalar.indexCast v312
  let c0_102 : Index := 0#32
  ![v324.toNat, 0]

def k0_chk30 (v312 : BitVec 32) : Prop :=
  (∀ a, (k0_off44 v312) a + S1x64.size a ≤ S16384x64.size a) ∧
  (∀ a, (k0_off45 v312) a + S1x1.size a ≤ S16384x1.size a)
instance k0_chk30.dec : ∀ (v312 : BitVec 32), Decidable (k0_chk30 v312) := fun v312 => decidable_of_iff' _ (Iff.of_eq (k0_chk30.eq_1 v312))
theorem k0_off44_inb : ∀ (v312 : BitVec 32) (k0_hw30 : k0_chk30 v312), ∀ a, (k0_off44 v312) a + S1x64.size a ≤ S16384x64.size a := fun v312 k0_hw30 => k0_hw30.1
theorem k0_off45_inb : ∀ (v312 : BitVec 32) (k0_hw30 : k0_chk30 v312), ∀ a, (k0_off45 v312) a + S1x1.size a ≤ S16384x1.size a := fun v312 k0_hw30 => k0_hw30.2

def k0_off46 (v333 : BitVec 32) : Fin 2 → Nat :=
  let v335 : Index := Scalar.indexCast v333
  let c0_106 : Index := 0#32
  ![v335.toNat, 0]

def k0_chk31 (v333 : BitVec 32) : Prop :=
  (∀ a, (k0_off46 v333) a + S1x64.size a ≤ S50000x64.size a)
instance k0_chk31.dec : ∀ (v333 : BitVec 32), Decidable (k0_chk31 v333) := fun v333 => decidable_of_iff' _ (Iff.of_eq (k0_chk31.eq_1 v333))
theorem k0_off46_inb : ∀ (v333 : BitVec 32) (k0_hw31 : k0_chk31 v333), ∀ a, (k0_off46 v333) a + S1x64.size a ≤ S50000x64.size a := fun v333 k0_hw31 => k0_hw31

def k0_off47 (v334 : BitVec 32) : Fin 2 → Nat :=
  let v338 : Index := Scalar.indexCast v334
  let c0_107 : Index := 0#32
  ![v338.toNat, 0]

def k0_off48 (v334 : BitVec 32) : Fin 2 → Nat :=
  let v346 : Index := Scalar.indexCast v334
  let c0_109 : Index := 0#32
  ![v346.toNat, 0]

def k0_chk32 (v334 : BitVec 32) : Prop :=
  (∀ a, (k0_off47 v334) a + S1x64.size a ≤ S16384x64.size a) ∧
  (∀ a, (k0_off48 v334) a + S1x1.size a ≤ S16384x1.size a)
instance k0_chk32.dec : ∀ (v334 : BitVec 32), Decidable (k0_chk32 v334) := fun v334 => decidable_of_iff' _ (Iff.of_eq (k0_chk32.eq_1 v334))
theorem k0_off47_inb : ∀ (v334 : BitVec 32) (k0_hw32 : k0_chk32 v334), ∀ a, (k0_off47 v334) a + S1x64.size a ≤ S16384x64.size a := fun v334 k0_hw32 => k0_hw32.1
theorem k0_off48_inb : ∀ (v334 : BitVec 32) (k0_hw32 : k0_chk32 v334), ∀ a, (k0_off48 v334) a + S1x1.size a ≤ S16384x1.size a := fun v334 k0_hw32 => k0_hw32.2

def k0_off49 (v355 : BitVec 32) : Fin 2 → Nat :=
  let v357 : Index := Scalar.indexCast v355
  let c0_113 : Index := 0#32
  ![v357.toNat, 0]

def k0_chk33 (v355 : BitVec 32) : Prop :=
  (∀ a, (k0_off49 v355) a + S1x64.size a ≤ S50000x64.size a)
instance k0_chk33.dec : ∀ (v355 : BitVec 32), Decidable (k0_chk33 v355) := fun v355 => decidable_of_iff' _ (Iff.of_eq (k0_chk33.eq_1 v355))
theorem k0_off49_inb : ∀ (v355 : BitVec 32) (k0_hw33 : k0_chk33 v355), ∀ a, (k0_off49 v355) a + S1x64.size a ≤ S50000x64.size a := fun v355 k0_hw33 => k0_hw33

def k0_off50 (v356 : BitVec 32) : Fin 2 → Nat :=
  let v360 : Index := Scalar.indexCast v356
  let c0_114 : Index := 0#32
  ![v360.toNat, 0]

def k0_off51 (v356 : BitVec 32) : Fin 2 → Nat :=
  let v368 : Index := Scalar.indexCast v356
  let c0_116 : Index := 0#32
  ![v368.toNat, 0]

def k0_chk34 (v356 : BitVec 32) : Prop :=
  (∀ a, (k0_off50 v356) a + S1x64.size a ≤ S16384x64.size a) ∧
  (∀ a, (k0_off51 v356) a + S1x1.size a ≤ S16384x1.size a)
instance k0_chk34.dec : ∀ (v356 : BitVec 32), Decidable (k0_chk34 v356) := fun v356 => decidable_of_iff' _ (Iff.of_eq (k0_chk34.eq_1 v356))
theorem k0_off50_inb : ∀ (v356 : BitVec 32) (k0_hw34 : k0_chk34 v356), ∀ a, (k0_off50 v356) a + S1x64.size a ≤ S16384x64.size a := fun v356 k0_hw34 => k0_hw34.1
theorem k0_off51_inb : ∀ (v356 : BitVec 32) (k0_hw34 : k0_chk34 v356), ∀ a, (k0_off51 v356) a + S1x1.size a ≤ S16384x1.size a := fun v356 k0_hw34 => k0_hw34.2

def k0_off52 (v377 : BitVec 32) : Fin 2 → Nat :=
  let v379 : Index := Scalar.indexCast v377
  let c0_120 : Index := 0#32
  ![v379.toNat, 0]

def k0_chk35 (v377 : BitVec 32) : Prop :=
  (∀ a, (k0_off52 v377) a + S1x64.size a ≤ S50000x64.size a)
instance k0_chk35.dec : ∀ (v377 : BitVec 32), Decidable (k0_chk35 v377) := fun v377 => decidable_of_iff' _ (Iff.of_eq (k0_chk35.eq_1 v377))
theorem k0_off52_inb : ∀ (v377 : BitVec 32) (k0_hw35 : k0_chk35 v377), ∀ a, (k0_off52 v377) a + S1x64.size a ≤ S50000x64.size a := fun v377 k0_hw35 => k0_hw35

def k0_off53 (v378 : BitVec 32) : Fin 2 → Nat :=
  let v382 : Index := Scalar.indexCast v378
  let c0_121 : Index := 0#32
  ![v382.toNat, 0]

def k0_off54 (v378 : BitVec 32) : Fin 2 → Nat :=
  let v390 : Index := Scalar.indexCast v378
  let c0_123 : Index := 0#32
  ![v390.toNat, 0]

def k0_chk36 (v378 : BitVec 32) : Prop :=
  (∀ a, (k0_off53 v378) a + S1x64.size a ≤ S16384x64.size a) ∧
  (∀ a, (k0_off54 v378) a + S1x1.size a ≤ S16384x1.size a)
instance k0_chk36.dec : ∀ (v378 : BitVec 32), Decidable (k0_chk36 v378) := fun v378 => decidable_of_iff' _ (Iff.of_eq (k0_chk36.eq_1 v378))
theorem k0_off53_inb : ∀ (v378 : BitVec 32) (k0_hw36 : k0_chk36 v378), ∀ a, (k0_off53 v378) a + S1x64.size a ≤ S16384x64.size a := fun v378 k0_hw36 => k0_hw36.1
theorem k0_off54_inb : ∀ (v378 : BitVec 32) (k0_hw36 : k0_chk36 v378), ∀ a, (k0_off54 v378) a + S1x1.size a ≤ S16384x1.size a := fun v378 k0_hw36 => k0_hw36.2

def k0_off55 (v399 : BitVec 32) : Fin 2 → Nat :=
  let v401 : Index := Scalar.indexCast v399
  let c0_127 : Index := 0#32
  ![v401.toNat, 0]

def k0_chk37 (v399 : BitVec 32) : Prop :=
  (∀ a, (k0_off55 v399) a + S1x64.size a ≤ S50000x64.size a)
instance k0_chk37.dec : ∀ (v399 : BitVec 32), Decidable (k0_chk37 v399) := fun v399 => decidable_of_iff' _ (Iff.of_eq (k0_chk37.eq_1 v399))
theorem k0_off55_inb : ∀ (v399 : BitVec 32) (k0_hw37 : k0_chk37 v399), ∀ a, (k0_off55 v399) a + S1x64.size a ≤ S50000x64.size a := fun v399 k0_hw37 => k0_hw37

def k0_off56 (v400 : BitVec 32) : Fin 2 → Nat :=
  let v404 : Index := Scalar.indexCast v400
  let c0_128 : Index := 0#32
  ![v404.toNat, 0]

def k0_off57 (v400 : BitVec 32) : Fin 2 → Nat :=
  let v412 : Index := Scalar.indexCast v400
  let c0_130 : Index := 0#32
  ![v412.toNat, 0]

def k0_chk38 (v400 : BitVec 32) : Prop :=
  (∀ a, (k0_off56 v400) a + S1x64.size a ≤ S16384x64.size a) ∧
  (∀ a, (k0_off57 v400) a + S1x1.size a ≤ S16384x1.size a)
instance k0_chk38.dec : ∀ (v400 : BitVec 32), Decidable (k0_chk38 v400) := fun v400 => decidable_of_iff' _ (Iff.of_eq (k0_chk38.eq_1 v400))
theorem k0_off56_inb : ∀ (v400 : BitVec 32) (k0_hw38 : k0_chk38 v400), ∀ a, (k0_off56 v400) a + S1x64.size a ≤ S16384x64.size a := fun v400 k0_hw38 => k0_hw38.1
theorem k0_off57_inb : ∀ (v400 : BitVec 32) (k0_hw38 : k0_chk38 v400), ∀ a, (k0_off57 v400) a + S1x1.size a ≤ S16384x1.size a := fun v400 k0_hw38 => k0_hw38.2

def k0_off58 (v421 : BitVec 32) : Fin 2 → Nat :=
  let v423 : Index := Scalar.indexCast v421
  let c0_134 : Index := 0#32
  ![v423.toNat, 0]

def k0_chk39 (v421 : BitVec 32) : Prop :=
  (∀ a, (k0_off58 v421) a + S1x64.size a ≤ S50000x64.size a)
instance k0_chk39.dec : ∀ (v421 : BitVec 32), Decidable (k0_chk39 v421) := fun v421 => decidable_of_iff' _ (Iff.of_eq (k0_chk39.eq_1 v421))
theorem k0_off58_inb : ∀ (v421 : BitVec 32) (k0_hw39 : k0_chk39 v421), ∀ a, (k0_off58 v421) a + S1x64.size a ≤ S50000x64.size a := fun v421 k0_hw39 => k0_hw39

def k0_off59 (v422 : BitVec 32) : Fin 2 → Nat :=
  let v426 : Index := Scalar.indexCast v422
  let c0_135 : Index := 0#32
  ![v426.toNat, 0]

def k0_off60 (v422 : BitVec 32) : Fin 2 → Nat :=
  let v434 : Index := Scalar.indexCast v422
  let c0_137 : Index := 0#32
  ![v434.toNat, 0]

def k0_chk40 (v422 : BitVec 32) : Prop :=
  (∀ a, (k0_off59 v422) a + S1x64.size a ≤ S16384x64.size a) ∧
  (∀ a, (k0_off60 v422) a + S1x1.size a ≤ S16384x1.size a)
instance k0_chk40.dec : ∀ (v422 : BitVec 32), Decidable (k0_chk40 v422) := fun v422 => decidable_of_iff' _ (Iff.of_eq (k0_chk40.eq_1 v422))
theorem k0_off59_inb : ∀ (v422 : BitVec 32) (k0_hw40 : k0_chk40 v422), ∀ a, (k0_off59 v422) a + S1x64.size a ≤ S16384x64.size a := fun v422 k0_hw40 => k0_hw40.1
theorem k0_off60_inb : ∀ (v422 : BitVec 32) (k0_hw40 : k0_chk40 v422), ∀ a, (k0_off60 v422) a + S1x1.size a ≤ S16384x1.size a := fun v422 k0_hw40 => k0_hw40.2

def k0_off61 (v443 : BitVec 32) : Fin 2 → Nat :=
  let v445 : Index := Scalar.indexCast v443
  let c0_141 : Index := 0#32
  ![v445.toNat, 0]

def k0_chk41 (v443 : BitVec 32) : Prop :=
  (∀ a, (k0_off61 v443) a + S1x64.size a ≤ S50000x64.size a)
instance k0_chk41.dec : ∀ (v443 : BitVec 32), Decidable (k0_chk41 v443) := fun v443 => decidable_of_iff' _ (Iff.of_eq (k0_chk41.eq_1 v443))
theorem k0_off61_inb : ∀ (v443 : BitVec 32) (k0_hw41 : k0_chk41 v443), ∀ a, (k0_off61 v443) a + S1x64.size a ≤ S50000x64.size a := fun v443 k0_hw41 => k0_hw41

def k0_off62 (v444 : BitVec 32) : Fin 2 → Nat :=
  let v448 : Index := Scalar.indexCast v444
  let c0_142 : Index := 0#32
  ![v448.toNat, 0]

def k0_off63 (v444 : BitVec 32) : Fin 2 → Nat :=
  let v456 : Index := Scalar.indexCast v444
  let c0_144 : Index := 0#32
  ![v456.toNat, 0]

def k0_chk42 (v444 : BitVec 32) : Prop :=
  (∀ a, (k0_off62 v444) a + S1x64.size a ≤ S16384x64.size a) ∧
  (∀ a, (k0_off63 v444) a + S1x1.size a ≤ S16384x1.size a)
instance k0_chk42.dec : ∀ (v444 : BitVec 32), Decidable (k0_chk42 v444) := fun v444 => decidable_of_iff' _ (Iff.of_eq (k0_chk42.eq_1 v444))
theorem k0_off62_inb : ∀ (v444 : BitVec 32) (k0_hw42 : k0_chk42 v444), ∀ a, (k0_off62 v444) a + S1x64.size a ≤ S16384x64.size a := fun v444 k0_hw42 => k0_hw42.1
theorem k0_off63_inb : ∀ (v444 : BitVec 32) (k0_hw42 : k0_chk42 v444), ∀ a, (k0_off63 v444) a + S1x1.size a ≤ S16384x1.size a := fun v444 k0_hw42 => k0_hw42.2

def k0_off64 (v465 : BitVec 32) : Fin 2 → Nat :=
  let v467 : Index := Scalar.indexCast v465
  let c0_148 : Index := 0#32
  ![v467.toNat, 0]

def k0_chk43 (v465 : BitVec 32) : Prop :=
  (∀ a, (k0_off64 v465) a + S1x64.size a ≤ S50000x64.size a)
instance k0_chk43.dec : ∀ (v465 : BitVec 32), Decidable (k0_chk43 v465) := fun v465 => decidable_of_iff' _ (Iff.of_eq (k0_chk43.eq_1 v465))
theorem k0_off64_inb : ∀ (v465 : BitVec 32) (k0_hw43 : k0_chk43 v465), ∀ a, (k0_off64 v465) a + S1x64.size a ≤ S50000x64.size a := fun v465 k0_hw43 => k0_hw43

def k0_off65 (v466 : BitVec 32) : Fin 2 → Nat :=
  let v470 : Index := Scalar.indexCast v466
  let c0_149 : Index := 0#32
  ![v470.toNat, 0]

def k0_off66 (v466 : BitVec 32) : Fin 2 → Nat :=
  let v478 : Index := Scalar.indexCast v466
  let c0_151 : Index := 0#32
  ![v478.toNat, 0]

def k0_chk44 (v466 : BitVec 32) : Prop :=
  (∀ a, (k0_off65 v466) a + S1x64.size a ≤ S16384x64.size a) ∧
  (∀ a, (k0_off66 v466) a + S1x1.size a ≤ S16384x1.size a)
instance k0_chk44.dec : ∀ (v466 : BitVec 32), Decidable (k0_chk44 v466) := fun v466 => decidable_of_iff' _ (Iff.of_eq (k0_chk44.eq_1 v466))
theorem k0_off65_inb : ∀ (v466 : BitVec 32) (k0_hw44 : k0_chk44 v466), ∀ a, (k0_off65 v466) a + S1x64.size a ≤ S16384x64.size a := fun v466 k0_hw44 => k0_hw44.1
theorem k0_off66_inb : ∀ (v466 : BitVec 32) (k0_hw44 : k0_chk44 v466), ∀ a, (k0_off66 v466) a + S1x1.size a ≤ S16384x1.size a := fun v466 k0_hw44 => k0_hw44.2

def k0_off67 (v487 : BitVec 32) : Fin 2 → Nat :=
  let v489 : Index := Scalar.indexCast v487
  let c0_155 : Index := 0#32
  ![v489.toNat, 0]

def k0_chk45 (v487 : BitVec 32) : Prop :=
  (∀ a, (k0_off67 v487) a + S1x64.size a ≤ S50000x64.size a)
instance k0_chk45.dec : ∀ (v487 : BitVec 32), Decidable (k0_chk45 v487) := fun v487 => decidable_of_iff' _ (Iff.of_eq (k0_chk45.eq_1 v487))
theorem k0_off67_inb : ∀ (v487 : BitVec 32) (k0_hw45 : k0_chk45 v487), ∀ a, (k0_off67 v487) a + S1x64.size a ≤ S50000x64.size a := fun v487 k0_hw45 => k0_hw45

def k0_off68 (v488 : BitVec 32) : Fin 2 → Nat :=
  let v492 : Index := Scalar.indexCast v488
  let c0_156 : Index := 0#32
  ![v492.toNat, 0]

def k0_off69 (v488 : BitVec 32) : Fin 2 → Nat :=
  let v500 : Index := Scalar.indexCast v488
  let c0_158 : Index := 0#32
  ![v500.toNat, 0]

def k0_chk46 (v488 : BitVec 32) : Prop :=
  (∀ a, (k0_off68 v488) a + S1x64.size a ≤ S16384x64.size a) ∧
  (∀ a, (k0_off69 v488) a + S1x1.size a ≤ S16384x1.size a)
instance k0_chk46.dec : ∀ (v488 : BitVec 32), Decidable (k0_chk46 v488) := fun v488 => decidable_of_iff' _ (Iff.of_eq (k0_chk46.eq_1 v488))
theorem k0_off68_inb : ∀ (v488 : BitVec 32) (k0_hw46 : k0_chk46 v488), ∀ a, (k0_off68 v488) a + S1x64.size a ≤ S16384x64.size a := fun v488 k0_hw46 => k0_hw46.1
theorem k0_off69_inb : ∀ (v488 : BitVec 32) (k0_hw46 : k0_chk46 v488), ∀ a, (k0_off69 v488) a + S1x1.size a ≤ S16384x1.size a := fun v488 k0_hw46 => k0_hw46.2

def k0_off70 (v509 : BitVec 32) : Fin 2 → Nat :=
  let v511 : Index := Scalar.indexCast v509
  let c0_162 : Index := 0#32
  ![v511.toNat, 0]

def k0_chk47 (v509 : BitVec 32) : Prop :=
  (∀ a, (k0_off70 v509) a + S1x64.size a ≤ S50000x64.size a)
instance k0_chk47.dec : ∀ (v509 : BitVec 32), Decidable (k0_chk47 v509) := fun v509 => decidable_of_iff' _ (Iff.of_eq (k0_chk47.eq_1 v509))
theorem k0_off70_inb : ∀ (v509 : BitVec 32) (k0_hw47 : k0_chk47 v509), ∀ a, (k0_off70 v509) a + S1x64.size a ≤ S50000x64.size a := fun v509 k0_hw47 => k0_hw47

def k0_off71 (v510 : BitVec 32) : Fin 2 → Nat :=
  let v514 : Index := Scalar.indexCast v510
  let c0_163 : Index := 0#32
  ![v514.toNat, 0]

def k0_off72 (v510 : BitVec 32) : Fin 2 → Nat :=
  let v522 : Index := Scalar.indexCast v510
  let c0_165 : Index := 0#32
  ![v522.toNat, 0]

def k0_chk48 (v510 : BitVec 32) : Prop :=
  (∀ a, (k0_off71 v510) a + S1x64.size a ≤ S16384x64.size a) ∧
  (∀ a, (k0_off72 v510) a + S1x1.size a ≤ S16384x1.size a)
instance k0_chk48.dec : ∀ (v510 : BitVec 32), Decidable (k0_chk48 v510) := fun v510 => decidable_of_iff' _ (Iff.of_eq (k0_chk48.eq_1 v510))
theorem k0_off71_inb : ∀ (v510 : BitVec 32) (k0_hw48 : k0_chk48 v510), ∀ a, (k0_off71 v510) a + S1x64.size a ≤ S16384x64.size a := fun v510 k0_hw48 => k0_hw48.1
theorem k0_off72_inb : ∀ (v510 : BitVec 32) (k0_hw48 : k0_chk48 v510), ∀ a, (k0_off72 v510) a + S1x1.size a ≤ S16384x1.size a := fun v510 k0_hw48 => k0_hw48.2

def k0_off73 (v531 : BitVec 32) : Fin 2 → Nat :=
  let v533 : Index := Scalar.indexCast v531
  let c0_169 : Index := 0#32
  ![v533.toNat, 0]

def k0_chk49 (v531 : BitVec 32) : Prop :=
  (∀ a, (k0_off73 v531) a + S1x64.size a ≤ S50000x64.size a)
instance k0_chk49.dec : ∀ (v531 : BitVec 32), Decidable (k0_chk49 v531) := fun v531 => decidable_of_iff' _ (Iff.of_eq (k0_chk49.eq_1 v531))
theorem k0_off73_inb : ∀ (v531 : BitVec 32) (k0_hw49 : k0_chk49 v531), ∀ a, (k0_off73 v531) a + S1x64.size a ≤ S50000x64.size a := fun v531 k0_hw49 => k0_hw49

def k0_off74 (v532 : BitVec 32) : Fin 2 → Nat :=
  let v536 : Index := Scalar.indexCast v532
  let c0_170 : Index := 0#32
  ![v536.toNat, 0]

def k0_off75 (v532 : BitVec 32) : Fin 2 → Nat :=
  let v544 : Index := Scalar.indexCast v532
  let c0_172 : Index := 0#32
  ![v544.toNat, 0]

def k0_chk50 (v532 : BitVec 32) : Prop :=
  (∀ a, (k0_off74 v532) a + S1x64.size a ≤ S16384x64.size a) ∧
  (∀ a, (k0_off75 v532) a + S1x1.size a ≤ S16384x1.size a)
instance k0_chk50.dec : ∀ (v532 : BitVec 32), Decidable (k0_chk50 v532) := fun v532 => decidable_of_iff' _ (Iff.of_eq (k0_chk50.eq_1 v532))
theorem k0_off74_inb : ∀ (v532 : BitVec 32) (k0_hw50 : k0_chk50 v532), ∀ a, (k0_off74 v532) a + S1x64.size a ≤ S16384x64.size a := fun v532 k0_hw50 => k0_hw50.1
theorem k0_off75_inb : ∀ (v532 : BitVec 32) (k0_hw50 : k0_chk50 v532), ∀ a, (k0_off75 v532) a + S1x1.size a ≤ S16384x1.size a := fun v532 k0_hw50 => k0_hw50.2

def k0_off76 (v553 : BitVec 32) : Fin 2 → Nat :=
  let v555 : Index := Scalar.indexCast v553
  let c0_176 : Index := 0#32
  ![v555.toNat, 0]

def k0_chk51 (v553 : BitVec 32) : Prop :=
  (∀ a, (k0_off76 v553) a + S1x64.size a ≤ S50000x64.size a)
instance k0_chk51.dec : ∀ (v553 : BitVec 32), Decidable (k0_chk51 v553) := fun v553 => decidable_of_iff' _ (Iff.of_eq (k0_chk51.eq_1 v553))
theorem k0_off76_inb : ∀ (v553 : BitVec 32) (k0_hw51 : k0_chk51 v553), ∀ a, (k0_off76 v553) a + S1x64.size a ≤ S50000x64.size a := fun v553 k0_hw51 => k0_hw51

def k0_off77 (v554 : BitVec 32) : Fin 2 → Nat :=
  let v558 : Index := Scalar.indexCast v554
  let c0_177 : Index := 0#32
  ![v558.toNat, 0]

def k0_off78 (v554 : BitVec 32) : Fin 2 → Nat :=
  let v566 : Index := Scalar.indexCast v554
  let c0_179 : Index := 0#32
  ![v566.toNat, 0]

def k0_chk52 (v554 : BitVec 32) : Prop :=
  (∀ a, (k0_off77 v554) a + S1x64.size a ≤ S16384x64.size a) ∧
  (∀ a, (k0_off78 v554) a + S1x1.size a ≤ S16384x1.size a)
instance k0_chk52.dec : ∀ (v554 : BitVec 32), Decidable (k0_chk52 v554) := fun v554 => decidable_of_iff' _ (Iff.of_eq (k0_chk52.eq_1 v554))
theorem k0_off77_inb : ∀ (v554 : BitVec 32) (k0_hw52 : k0_chk52 v554), ∀ a, (k0_off77 v554) a + S1x64.size a ≤ S16384x64.size a := fun v554 k0_hw52 => k0_hw52.1
theorem k0_off78_inb : ∀ (v554 : BitVec 32) (k0_hw52 : k0_chk52 v554), ∀ a, (k0_off78 v554) a + S1x1.size a ≤ S16384x1.size a := fun v554 k0_hw52 => k0_hw52.2

def k0_off79 (v575 : BitVec 32) : Fin 2 → Nat :=
  let v577 : Index := Scalar.indexCast v575
  let c0_183 : Index := 0#32
  ![v577.toNat, 0]

def k0_chk53 (v575 : BitVec 32) : Prop :=
  (∀ a, (k0_off79 v575) a + S1x64.size a ≤ S50000x64.size a)
instance k0_chk53.dec : ∀ (v575 : BitVec 32), Decidable (k0_chk53 v575) := fun v575 => decidable_of_iff' _ (Iff.of_eq (k0_chk53.eq_1 v575))
theorem k0_off79_inb : ∀ (v575 : BitVec 32) (k0_hw53 : k0_chk53 v575), ∀ a, (k0_off79 v575) a + S1x64.size a ≤ S50000x64.size a := fun v575 k0_hw53 => k0_hw53

def k0_off80 (v576 : BitVec 32) : Fin 2 → Nat :=
  let v580 : Index := Scalar.indexCast v576
  let c0_184 : Index := 0#32
  ![v580.toNat, 0]

def k0_off81 (v576 : BitVec 32) : Fin 2 → Nat :=
  let v588 : Index := Scalar.indexCast v576
  let c0_186 : Index := 0#32
  ![v588.toNat, 0]

def k0_chk54 (v576 : BitVec 32) : Prop :=
  (∀ a, (k0_off80 v576) a + S1x64.size a ≤ S16384x64.size a) ∧
  (∀ a, (k0_off81 v576) a + S1x1.size a ≤ S16384x1.size a)
instance k0_chk54.dec : ∀ (v576 : BitVec 32), Decidable (k0_chk54 v576) := fun v576 => decidable_of_iff' _ (Iff.of_eq (k0_chk54.eq_1 v576))
theorem k0_off80_inb : ∀ (v576 : BitVec 32) (k0_hw54 : k0_chk54 v576), ∀ a, (k0_off80 v576) a + S1x64.size a ≤ S16384x64.size a := fun v576 k0_hw54 => k0_hw54.1
theorem k0_off81_inb : ∀ (v576 : BitVec 32) (k0_hw54 : k0_chk54 v576), ∀ a, (k0_off81 v576) a + S1x1.size a ≤ S16384x1.size a := fun v576 k0_hw54 => k0_hw54.2

def k0_off82 (v597 : BitVec 32) : Fin 2 → Nat :=
  let v599 : Index := Scalar.indexCast v597
  let c0_190 : Index := 0#32
  ![v599.toNat, 0]

def k0_chk55 (v597 : BitVec 32) : Prop :=
  (∀ a, (k0_off82 v597) a + S1x64.size a ≤ S50000x64.size a)
instance k0_chk55.dec : ∀ (v597 : BitVec 32), Decidable (k0_chk55 v597) := fun v597 => decidable_of_iff' _ (Iff.of_eq (k0_chk55.eq_1 v597))
theorem k0_off82_inb : ∀ (v597 : BitVec 32) (k0_hw55 : k0_chk55 v597), ∀ a, (k0_off82 v597) a + S1x64.size a ≤ S50000x64.size a := fun v597 k0_hw55 => k0_hw55

def k0_off83 (v598 : BitVec 32) : Fin 2 → Nat :=
  let v602 : Index := Scalar.indexCast v598
  let c0_191 : Index := 0#32
  ![v602.toNat, 0]

def k0_off84 (v598 : BitVec 32) : Fin 2 → Nat :=
  let v610 : Index := Scalar.indexCast v598
  let c0_193 : Index := 0#32
  ![v610.toNat, 0]

def k0_chk56 (v598 : BitVec 32) : Prop :=
  (∀ a, (k0_off83 v598) a + S1x64.size a ≤ S16384x64.size a) ∧
  (∀ a, (k0_off84 v598) a + S1x1.size a ≤ S16384x1.size a)
instance k0_chk56.dec : ∀ (v598 : BitVec 32), Decidable (k0_chk56 v598) := fun v598 => decidable_of_iff' _ (Iff.of_eq (k0_chk56.eq_1 v598))
theorem k0_off83_inb : ∀ (v598 : BitVec 32) (k0_hw56 : k0_chk56 v598), ∀ a, (k0_off83 v598) a + S1x64.size a ≤ S16384x64.size a := fun v598 k0_hw56 => k0_hw56.1
theorem k0_off84_inb : ∀ (v598 : BitVec 32) (k0_hw56 : k0_chk56 v598), ∀ a, (k0_off84 v598) a + S1x1.size a ≤ S16384x1.size a := fun v598 k0_hw56 => k0_hw56.2

def k0_off85 (v619 : BitVec 32) : Fin 2 → Nat :=
  let v621 : Index := Scalar.indexCast v619
  let c0_197 : Index := 0#32
  ![v621.toNat, 0]

def k0_chk57 (v619 : BitVec 32) : Prop :=
  (∀ a, (k0_off85 v619) a + S1x64.size a ≤ S50000x64.size a)
instance k0_chk57.dec : ∀ (v619 : BitVec 32), Decidable (k0_chk57 v619) := fun v619 => decidable_of_iff' _ (Iff.of_eq (k0_chk57.eq_1 v619))
theorem k0_off85_inb : ∀ (v619 : BitVec 32) (k0_hw57 : k0_chk57 v619), ∀ a, (k0_off85 v619) a + S1x64.size a ≤ S50000x64.size a := fun v619 k0_hw57 => k0_hw57

def k0_off86 (v620 : BitVec 32) : Fin 2 → Nat :=
  let v624 : Index := Scalar.indexCast v620
  let c0_198 : Index := 0#32
  ![v624.toNat, 0]

def k0_off87 (v620 : BitVec 32) : Fin 2 → Nat :=
  let v632 : Index := Scalar.indexCast v620
  let c0_200 : Index := 0#32
  ![v632.toNat, 0]

def k0_chk58 (v620 : BitVec 32) : Prop :=
  (∀ a, (k0_off86 v620) a + S1x64.size a ≤ S16384x64.size a) ∧
  (∀ a, (k0_off87 v620) a + S1x1.size a ≤ S16384x1.size a)
instance k0_chk58.dec : ∀ (v620 : BitVec 32), Decidable (k0_chk58 v620) := fun v620 => decidable_of_iff' _ (Iff.of_eq (k0_chk58.eq_1 v620))
theorem k0_off86_inb : ∀ (v620 : BitVec 32) (k0_hw58 : k0_chk58 v620), ∀ a, (k0_off86 v620) a + S1x64.size a ≤ S16384x64.size a := fun v620 k0_hw58 => k0_hw58.1
theorem k0_off87_inb : ∀ (v620 : BitVec 32) (k0_hw58 : k0_chk58 v620), ∀ a, (k0_off87 v620) a + S1x1.size a ≤ S16384x1.size a := fun v620 k0_hw58 => k0_hw58.2

def k0_off88 (v641 : BitVec 32) : Fin 2 → Nat :=
  let v643 : Index := Scalar.indexCast v641
  let c0_204 : Index := 0#32
  ![v643.toNat, 0]

def k0_chk59 (v641 : BitVec 32) : Prop :=
  (∀ a, (k0_off88 v641) a + S1x64.size a ≤ S50000x64.size a)
instance k0_chk59.dec : ∀ (v641 : BitVec 32), Decidable (k0_chk59 v641) := fun v641 => decidable_of_iff' _ (Iff.of_eq (k0_chk59.eq_1 v641))
theorem k0_off88_inb : ∀ (v641 : BitVec 32) (k0_hw59 : k0_chk59 v641), ∀ a, (k0_off88 v641) a + S1x64.size a ≤ S50000x64.size a := fun v641 k0_hw59 => k0_hw59

def k0_off89 (v642 : BitVec 32) : Fin 2 → Nat :=
  let v646 : Index := Scalar.indexCast v642
  let c0_205 : Index := 0#32
  ![v646.toNat, 0]

def k0_off90 (v642 : BitVec 32) : Fin 2 → Nat :=
  let v654 : Index := Scalar.indexCast v642
  let c0_207 : Index := 0#32
  ![v654.toNat, 0]

def k0_chk60 (v642 : BitVec 32) : Prop :=
  (∀ a, (k0_off89 v642) a + S1x64.size a ≤ S16384x64.size a) ∧
  (∀ a, (k0_off90 v642) a + S1x1.size a ≤ S16384x1.size a)
instance k0_chk60.dec : ∀ (v642 : BitVec 32), Decidable (k0_chk60 v642) := fun v642 => decidable_of_iff' _ (Iff.of_eq (k0_chk60.eq_1 v642))
theorem k0_off89_inb : ∀ (v642 : BitVec 32) (k0_hw60 : k0_chk60 v642), ∀ a, (k0_off89 v642) a + S1x64.size a ≤ S16384x64.size a := fun v642 k0_hw60 => k0_hw60.1
theorem k0_off90_inb : ∀ (v642 : BitVec 32) (k0_hw60 : k0_chk60 v642), ∀ a, (k0_off90 v642) a + S1x1.size a ≤ S16384x1.size a := fun v642 k0_hw60 => k0_hw60.2

def k0_off91 (v663 : BitVec 32) : Fin 2 → Nat :=
  let v665 : Index := Scalar.indexCast v663
  let c0_211 : Index := 0#32
  ![v665.toNat, 0]

def k0_chk61 (v663 : BitVec 32) : Prop :=
  (∀ a, (k0_off91 v663) a + S1x64.size a ≤ S50000x64.size a)
instance k0_chk61.dec : ∀ (v663 : BitVec 32), Decidable (k0_chk61 v663) := fun v663 => decidable_of_iff' _ (Iff.of_eq (k0_chk61.eq_1 v663))
theorem k0_off91_inb : ∀ (v663 : BitVec 32) (k0_hw61 : k0_chk61 v663), ∀ a, (k0_off91 v663) a + S1x64.size a ≤ S50000x64.size a := fun v663 k0_hw61 => k0_hw61

def k0_off92 (v664 : BitVec 32) : Fin 2 → Nat :=
  let v668 : Index := Scalar.indexCast v664
  let c0_212 : Index := 0#32
  ![v668.toNat, 0]

def k0_off93 (v664 : BitVec 32) : Fin 2 → Nat :=
  let v676 : Index := Scalar.indexCast v664
  let c0_214 : Index := 0#32
  ![v676.toNat, 0]

def k0_chk62 (v664 : BitVec 32) : Prop :=
  (∀ a, (k0_off92 v664) a + S1x64.size a ≤ S16384x64.size a) ∧
  (∀ a, (k0_off93 v664) a + S1x1.size a ≤ S16384x1.size a)
instance k0_chk62.dec : ∀ (v664 : BitVec 32), Decidable (k0_chk62 v664) := fun v664 => decidable_of_iff' _ (Iff.of_eq (k0_chk62.eq_1 v664))
theorem k0_off92_inb : ∀ (v664 : BitVec 32) (k0_hw62 : k0_chk62 v664), ∀ a, (k0_off92 v664) a + S1x64.size a ≤ S16384x64.size a := fun v664 k0_hw62 => k0_hw62.1
theorem k0_off93_inb : ∀ (v664 : BitVec 32) (k0_hw62 : k0_chk62 v664), ∀ a, (k0_off93 v664) a + S1x1.size a ≤ S16384x1.size a := fun v664 k0_hw62 => k0_hw62.2

def k0_off94 (v685 : BitVec 32) : Fin 2 → Nat :=
  let v687 : Index := Scalar.indexCast v685
  let c0_218 : Index := 0#32
  ![v687.toNat, 0]

def k0_chk63 (v685 : BitVec 32) : Prop :=
  (∀ a, (k0_off94 v685) a + S1x64.size a ≤ S50000x64.size a)
instance k0_chk63.dec : ∀ (v685 : BitVec 32), Decidable (k0_chk63 v685) := fun v685 => decidable_of_iff' _ (Iff.of_eq (k0_chk63.eq_1 v685))
theorem k0_off94_inb : ∀ (v685 : BitVec 32) (k0_hw63 : k0_chk63 v685), ∀ a, (k0_off94 v685) a + S1x64.size a ≤ S50000x64.size a := fun v685 k0_hw63 => k0_hw63

def k0_off95 (v686 : BitVec 32) : Fin 2 → Nat :=
  let v690 : Index := Scalar.indexCast v686
  let c0_219 : Index := 0#32
  ![v690.toNat, 0]

def k0_off96 (v686 : BitVec 32) : Fin 2 → Nat :=
  let v698 : Index := Scalar.indexCast v686
  let c0_221 : Index := 0#32
  ![v698.toNat, 0]

def k0_chk64 (v686 : BitVec 32) : Prop :=
  (∀ a, (k0_off95 v686) a + S1x64.size a ≤ S16384x64.size a) ∧
  (∀ a, (k0_off96 v686) a + S1x1.size a ≤ S16384x1.size a)
instance k0_chk64.dec : ∀ (v686 : BitVec 32), Decidable (k0_chk64 v686) := fun v686 => decidable_of_iff' _ (Iff.of_eq (k0_chk64.eq_1 v686))
theorem k0_off95_inb : ∀ (v686 : BitVec 32) (k0_hw64 : k0_chk64 v686), ∀ a, (k0_off95 v686) a + S1x64.size a ≤ S16384x64.size a := fun v686 k0_hw64 => k0_hw64.1
theorem k0_off96_inb : ∀ (v686 : BitVec 32) (k0_hw64 : k0_chk64 v686), ∀ a, (k0_off96 v686) a + S1x1.size a ≤ S16384x1.size a := fun v686 k0_hw64 => k0_hw64.2

def k0_off97 (v707 : BitVec 32) : Fin 2 → Nat :=
  let v709 : Index := Scalar.indexCast v707
  let c0_225 : Index := 0#32
  ![v709.toNat, 0]

def k0_chk65 (v707 : BitVec 32) : Prop :=
  (∀ a, (k0_off97 v707) a + S1x64.size a ≤ S50000x64.size a)
instance k0_chk65.dec : ∀ (v707 : BitVec 32), Decidable (k0_chk65 v707) := fun v707 => decidable_of_iff' _ (Iff.of_eq (k0_chk65.eq_1 v707))
theorem k0_off97_inb : ∀ (v707 : BitVec 32) (k0_hw65 : k0_chk65 v707), ∀ a, (k0_off97 v707) a + S1x64.size a ≤ S50000x64.size a := fun v707 k0_hw65 => k0_hw65

def k0_off98 (v708 : BitVec 32) : Fin 2 → Nat :=
  let v712 : Index := Scalar.indexCast v708
  let c0_226 : Index := 0#32
  ![v712.toNat, 0]

def k0_off99 (v708 : BitVec 32) : Fin 2 → Nat :=
  let v720 : Index := Scalar.indexCast v708
  let c0_228 : Index := 0#32
  ![v720.toNat, 0]

def k0_chk66 (v708 : BitVec 32) : Prop :=
  (∀ a, (k0_off98 v708) a + S1x64.size a ≤ S16384x64.size a) ∧
  (∀ a, (k0_off99 v708) a + S1x1.size a ≤ S16384x1.size a)
instance k0_chk66.dec : ∀ (v708 : BitVec 32), Decidable (k0_chk66 v708) := fun v708 => decidable_of_iff' _ (Iff.of_eq (k0_chk66.eq_1 v708))
theorem k0_off98_inb : ∀ (v708 : BitVec 32) (k0_hw66 : k0_chk66 v708), ∀ a, (k0_off98 v708) a + S1x64.size a ≤ S16384x64.size a := fun v708 k0_hw66 => k0_hw66.1
theorem k0_off99_inb : ∀ (v708 : BitVec 32) (k0_hw66 : k0_chk66 v708), ∀ a, (k0_off99 v708) a + S1x1.size a ≤ S16384x1.size a := fun v708 k0_hw66 => k0_hw66.2

def k0_off100 (v729 : BitVec 32) : Fin 2 → Nat :=
  let v731 : Index := Scalar.indexCast v729
  let c0_232 : Index := 0#32
  ![v731.toNat, 0]

def k0_chk67 (v729 : BitVec 32) : Prop :=
  (∀ a, (k0_off100 v729) a + S1x64.size a ≤ S50000x64.size a)
instance k0_chk67.dec : ∀ (v729 : BitVec 32), Decidable (k0_chk67 v729) := fun v729 => decidable_of_iff' _ (Iff.of_eq (k0_chk67.eq_1 v729))
theorem k0_off100_inb : ∀ (v729 : BitVec 32) (k0_hw67 : k0_chk67 v729), ∀ a, (k0_off100 v729) a + S1x64.size a ≤ S50000x64.size a := fun v729 k0_hw67 => k0_hw67

def k0_off101 (v730 : BitVec 32) : Fin 2 → Nat :=
  let v734 : Index := Scalar.indexCast v730
  let c0_233 : Index := 0#32
  ![v734.toNat, 0]

def k0_off102 (v730 : BitVec 32) : Fin 2 → Nat :=
  let v742 : Index := Scalar.indexCast v730
  let c0_235 : Index := 0#32
  ![v742.toNat, 0]

def k0_chk68 (v730 : BitVec 32) : Prop :=
  (∀ a, (k0_off101 v730) a + S1x64.size a ≤ S16384x64.size a) ∧
  (∀ a, (k0_off102 v730) a + S1x1.size a ≤ S16384x1.size a)
instance k0_chk68.dec : ∀ (v730 : BitVec 32), Decidable (k0_chk68 v730) := fun v730 => decidable_of_iff' _ (Iff.of_eq (k0_chk68.eq_1 v730))
theorem k0_off101_inb : ∀ (v730 : BitVec 32) (k0_hw68 : k0_chk68 v730), ∀ a, (k0_off101 v730) a + S1x64.size a ≤ S16384x64.size a := fun v730 k0_hw68 => k0_hw68.1
theorem k0_off102_inb : ∀ (v730 : BitVec 32) (k0_hw68 : k0_chk68 v730), ∀ a, (k0_off102 v730) a + S1x1.size a ≤ S16384x1.size a := fun v730 k0_hw68 => k0_hw68.2

def k0_off103 (v751 : BitVec 32) : Fin 2 → Nat :=
  let v753 : Index := Scalar.indexCast v751
  let c0_239 : Index := 0#32
  ![v753.toNat, 0]

def k0_chk69 (v751 : BitVec 32) : Prop :=
  (∀ a, (k0_off103 v751) a + S1x64.size a ≤ S50000x64.size a)
instance k0_chk69.dec : ∀ (v751 : BitVec 32), Decidable (k0_chk69 v751) := fun v751 => decidable_of_iff' _ (Iff.of_eq (k0_chk69.eq_1 v751))
theorem k0_off103_inb : ∀ (v751 : BitVec 32) (k0_hw69 : k0_chk69 v751), ∀ a, (k0_off103 v751) a + S1x64.size a ≤ S50000x64.size a := fun v751 k0_hw69 => k0_hw69

def k0_off104 (v752 : BitVec 32) : Fin 2 → Nat :=
  let v756 : Index := Scalar.indexCast v752
  let c0_240 : Index := 0#32
  ![v756.toNat, 0]

def k0_off105 (v752 : BitVec 32) : Fin 2 → Nat :=
  let v764 : Index := Scalar.indexCast v752
  let c0_242 : Index := 0#32
  ![v764.toNat, 0]

def k0_chk70 (v752 : BitVec 32) : Prop :=
  (∀ a, (k0_off104 v752) a + S1x64.size a ≤ S16384x64.size a) ∧
  (∀ a, (k0_off105 v752) a + S1x1.size a ≤ S16384x1.size a)
instance k0_chk70.dec : ∀ (v752 : BitVec 32), Decidable (k0_chk70 v752) := fun v752 => decidable_of_iff' _ (Iff.of_eq (k0_chk70.eq_1 v752))
theorem k0_off104_inb : ∀ (v752 : BitVec 32) (k0_hw70 : k0_chk70 v752), ∀ a, (k0_off104 v752) a + S1x64.size a ≤ S16384x64.size a := fun v752 k0_hw70 => k0_hw70.1
theorem k0_off105_inb : ∀ (v752 : BitVec 32) (k0_hw70 : k0_chk70 v752), ∀ a, (k0_off105 v752) a + S1x1.size a ≤ S16384x1.size a := fun v752 k0_hw70 => k0_hw70.2

def k0_off106 (v773 : BitVec 32) : Fin 2 → Nat :=
  let v775 : Index := Scalar.indexCast v773
  let c0_246 : Index := 0#32
  ![v775.toNat, 0]

def k0_chk71 (v773 : BitVec 32) : Prop :=
  (∀ a, (k0_off106 v773) a + S1x64.size a ≤ S50000x64.size a)
instance k0_chk71.dec : ∀ (v773 : BitVec 32), Decidable (k0_chk71 v773) := fun v773 => decidable_of_iff' _ (Iff.of_eq (k0_chk71.eq_1 v773))
theorem k0_off106_inb : ∀ (v773 : BitVec 32) (k0_hw71 : k0_chk71 v773), ∀ a, (k0_off106 v773) a + S1x64.size a ≤ S50000x64.size a := fun v773 k0_hw71 => k0_hw71

def k0_off107 (v774 : BitVec 32) : Fin 2 → Nat :=
  let v778 : Index := Scalar.indexCast v774
  let c0_247 : Index := 0#32
  ![v778.toNat, 0]

def k0_off108 (v774 : BitVec 32) : Fin 2 → Nat :=
  let v786 : Index := Scalar.indexCast v774
  let c0_249 : Index := 0#32
  ![v786.toNat, 0]

def k0_chk72 (v774 : BitVec 32) : Prop :=
  (∀ a, (k0_off107 v774) a + S1x64.size a ≤ S16384x64.size a) ∧
  (∀ a, (k0_off108 v774) a + S1x1.size a ≤ S16384x1.size a)
instance k0_chk72.dec : ∀ (v774 : BitVec 32), Decidable (k0_chk72 v774) := fun v774 => decidable_of_iff' _ (Iff.of_eq (k0_chk72.eq_1 v774))
theorem k0_off107_inb : ∀ (v774 : BitVec 32) (k0_hw72 : k0_chk72 v774), ∀ a, (k0_off107 v774) a + S1x64.size a ≤ S16384x64.size a := fun v774 k0_hw72 => k0_hw72.1
theorem k0_off108_inb : ∀ (v774 : BitVec 32) (k0_hw72 : k0_chk72 v774), ∀ a, (k0_off108 v774) a + S1x1.size a ≤ S16384x1.size a := fun v774 k0_hw72 => k0_hw72.2

def k0_off109 (v795 : BitVec 32) : Fin 2 → Nat :=
  let v797 : Index := Scalar.indexCast v795
  let c0_253 : Index := 0#32
  ![v797.toNat, 0]

def k0_chk73 (v795 : BitVec 32) : Prop :=
  (∀ a, (k0_off109 v795) a + S1x64.size a ≤ S50000x64.size a)
instance k0_chk73.dec : ∀ (v795 : BitVec 32), Decidable (k0_chk73 v795) := fun v795 => decidable_of_iff' _ (Iff.of_eq (k0_chk73.eq_1 v795))
theorem k0_off109_inb : ∀ (v795 : BitVec 32) (k0_hw73 : k0_chk73 v795), ∀ a, (k0_off109 v795) a + S1x64.size a ≤ S50000x64.size a := fun v795 k0_hw73 => k0_hw73

def k0_off110 (v796 : BitVec 32) : Fin 2 → Nat :=
  let v800 : Index := Scalar.indexCast v796
  let c0_254 : Index := 0#32
  ![v800.toNat, 0]

def k0_off111 (v796 : BitVec 32) : Fin 2 → Nat :=
  let v808 : Index := Scalar.indexCast v796
  let c0_256 : Index := 0#32
  ![v808.toNat, 0]

def k0_chk74 (v796 : BitVec 32) : Prop :=
  (∀ a, (k0_off110 v796) a + S1x64.size a ≤ S16384x64.size a) ∧
  (∀ a, (k0_off111 v796) a + S1x1.size a ≤ S16384x1.size a)
instance k0_chk74.dec : ∀ (v796 : BitVec 32), Decidable (k0_chk74 v796) := fun v796 => decidable_of_iff' _ (Iff.of_eq (k0_chk74.eq_1 v796))
theorem k0_off110_inb : ∀ (v796 : BitVec 32) (k0_hw74 : k0_chk74 v796), ∀ a, (k0_off110 v796) a + S1x64.size a ≤ S16384x64.size a := fun v796 k0_hw74 => k0_hw74.1
theorem k0_off111_inb : ∀ (v796 : BitVec 32) (k0_hw74 : k0_chk74 v796), ∀ a, (k0_off111 v796) a + S1x1.size a ≤ S16384x1.size a := fun v796 k0_hw74 => k0_hw74.2

def k0_off112 (v817 : BitVec 32) : Fin 2 → Nat :=
  let v819 : Index := Scalar.indexCast v817
  let c0_260 : Index := 0#32
  ![v819.toNat, 0]

def k0_chk75 (v817 : BitVec 32) : Prop :=
  (∀ a, (k0_off112 v817) a + S1x64.size a ≤ S50000x64.size a)
instance k0_chk75.dec : ∀ (v817 : BitVec 32), Decidable (k0_chk75 v817) := fun v817 => decidable_of_iff' _ (Iff.of_eq (k0_chk75.eq_1 v817))
theorem k0_off112_inb : ∀ (v817 : BitVec 32) (k0_hw75 : k0_chk75 v817), ∀ a, (k0_off112 v817) a + S1x64.size a ≤ S50000x64.size a := fun v817 k0_hw75 => k0_hw75

def k0_off113 (v818 : BitVec 32) : Fin 2 → Nat :=
  let v822 : Index := Scalar.indexCast v818
  let c0_261 : Index := 0#32
  ![v822.toNat, 0]

def k0_off114 (v818 : BitVec 32) : Fin 2 → Nat :=
  let v830 : Index := Scalar.indexCast v818
  let c0_263 : Index := 0#32
  ![v830.toNat, 0]

def k0_chk76 (v818 : BitVec 32) : Prop :=
  (∀ a, (k0_off113 v818) a + S1x64.size a ≤ S16384x64.size a) ∧
  (∀ a, (k0_off114 v818) a + S1x1.size a ≤ S16384x1.size a)
instance k0_chk76.dec : ∀ (v818 : BitVec 32), Decidable (k0_chk76 v818) := fun v818 => decidable_of_iff' _ (Iff.of_eq (k0_chk76.eq_1 v818))
theorem k0_off113_inb : ∀ (v818 : BitVec 32) (k0_hw76 : k0_chk76 v818), ∀ a, (k0_off113 v818) a + S1x64.size a ≤ S16384x64.size a := fun v818 k0_hw76 => k0_hw76.1
theorem k0_off114_inb : ∀ (v818 : BitVec 32) (k0_hw76 : k0_chk76 v818), ∀ a, (k0_off114 v818) a + S1x1.size a ≤ S16384x1.size a := fun v818 k0_hw76 => k0_hw76.2

def k0_off115 (v839 : BitVec 32) : Fin 2 → Nat :=
  let v841 : Index := Scalar.indexCast v839
  let c0_267 : Index := 0#32
  ![v841.toNat, 0]

def k0_chk77 (v839 : BitVec 32) : Prop :=
  (∀ a, (k0_off115 v839) a + S1x64.size a ≤ S50000x64.size a)
instance k0_chk77.dec : ∀ (v839 : BitVec 32), Decidable (k0_chk77 v839) := fun v839 => decidable_of_iff' _ (Iff.of_eq (k0_chk77.eq_1 v839))
theorem k0_off115_inb : ∀ (v839 : BitVec 32) (k0_hw77 : k0_chk77 v839), ∀ a, (k0_off115 v839) a + S1x64.size a ≤ S50000x64.size a := fun v839 k0_hw77 => k0_hw77

def k0_off116 (v840 : BitVec 32) : Fin 2 → Nat :=
  let v844 : Index := Scalar.indexCast v840
  let c0_268 : Index := 0#32
  ![v844.toNat, 0]

def k0_off117 (v840 : BitVec 32) : Fin 2 → Nat :=
  let v852 : Index := Scalar.indexCast v840
  let c0_270 : Index := 0#32
  ![v852.toNat, 0]

def k0_chk78 (v840 : BitVec 32) : Prop :=
  (∀ a, (k0_off116 v840) a + S1x64.size a ≤ S16384x64.size a) ∧
  (∀ a, (k0_off117 v840) a + S1x1.size a ≤ S16384x1.size a)
instance k0_chk78.dec : ∀ (v840 : BitVec 32), Decidable (k0_chk78 v840) := fun v840 => decidable_of_iff' _ (Iff.of_eq (k0_chk78.eq_1 v840))
theorem k0_off116_inb : ∀ (v840 : BitVec 32) (k0_hw78 : k0_chk78 v840), ∀ a, (k0_off116 v840) a + S1x64.size a ≤ S16384x64.size a := fun v840 k0_hw78 => k0_hw78.1
theorem k0_off117_inb : ∀ (v840 : BitVec 32) (k0_hw78 : k0_chk78 v840), ∀ a, (k0_off117 v840) a + S1x1.size a ≤ S16384x1.size a := fun v840 k0_hw78 => k0_hw78.2

def k0_off118 (v861 : BitVec 32) : Fin 2 → Nat :=
  let v863 : Index := Scalar.indexCast v861
  let c0_274 : Index := 0#32
  ![v863.toNat, 0]

def k0_chk79 (v861 : BitVec 32) : Prop :=
  (∀ a, (k0_off118 v861) a + S1x64.size a ≤ S50000x64.size a)
instance k0_chk79.dec : ∀ (v861 : BitVec 32), Decidable (k0_chk79 v861) := fun v861 => decidable_of_iff' _ (Iff.of_eq (k0_chk79.eq_1 v861))
theorem k0_off118_inb : ∀ (v861 : BitVec 32) (k0_hw79 : k0_chk79 v861), ∀ a, (k0_off118 v861) a + S1x64.size a ≤ S50000x64.size a := fun v861 k0_hw79 => k0_hw79

def k0_off119 (v862 : BitVec 32) : Fin 2 → Nat :=
  let v866 : Index := Scalar.indexCast v862
  let c0_275 : Index := 0#32
  ![v866.toNat, 0]

def k0_off120 (v862 : BitVec 32) : Fin 2 → Nat :=
  let v874 : Index := Scalar.indexCast v862
  let c0_277 : Index := 0#32
  ![v874.toNat, 0]

def k0_chk80 (v862 : BitVec 32) : Prop :=
  (∀ a, (k0_off119 v862) a + S1x64.size a ≤ S16384x64.size a) ∧
  (∀ a, (k0_off120 v862) a + S1x1.size a ≤ S16384x1.size a)
instance k0_chk80.dec : ∀ (v862 : BitVec 32), Decidable (k0_chk80 v862) := fun v862 => decidable_of_iff' _ (Iff.of_eq (k0_chk80.eq_1 v862))
theorem k0_off119_inb : ∀ (v862 : BitVec 32) (k0_hw80 : k0_chk80 v862), ∀ a, (k0_off119 v862) a + S1x64.size a ≤ S16384x64.size a := fun v862 k0_hw80 => k0_hw80.1
theorem k0_off120_inb : ∀ (v862 : BitVec 32) (k0_hw80 : k0_chk80 v862), ∀ a, (k0_off120 v862) a + S1x1.size a ≤ S16384x1.size a := fun v862 k0_hw80 => k0_hw80.2

def k0_off121 (v883 : BitVec 32) : Fin 2 → Nat :=
  let v885 : Index := Scalar.indexCast v883
  let c0_281 : Index := 0#32
  ![v885.toNat, 0]

def k0_chk81 (v883 : BitVec 32) : Prop :=
  (∀ a, (k0_off121 v883) a + S1x64.size a ≤ S50000x64.size a)
instance k0_chk81.dec : ∀ (v883 : BitVec 32), Decidable (k0_chk81 v883) := fun v883 => decidable_of_iff' _ (Iff.of_eq (k0_chk81.eq_1 v883))
theorem k0_off121_inb : ∀ (v883 : BitVec 32) (k0_hw81 : k0_chk81 v883), ∀ a, (k0_off121 v883) a + S1x64.size a ≤ S50000x64.size a := fun v883 k0_hw81 => k0_hw81

def k0_off122 (v884 : BitVec 32) : Fin 2 → Nat :=
  let v888 : Index := Scalar.indexCast v884
  let c0_282 : Index := 0#32
  ![v888.toNat, 0]

def k0_off123 (v884 : BitVec 32) : Fin 2 → Nat :=
  let v896 : Index := Scalar.indexCast v884
  let c0_284 : Index := 0#32
  ![v896.toNat, 0]

def k0_chk82 (v884 : BitVec 32) : Prop :=
  (∀ a, (k0_off122 v884) a + S1x64.size a ≤ S16384x64.size a) ∧
  (∀ a, (k0_off123 v884) a + S1x1.size a ≤ S16384x1.size a)
instance k0_chk82.dec : ∀ (v884 : BitVec 32), Decidable (k0_chk82 v884) := fun v884 => decidable_of_iff' _ (Iff.of_eq (k0_chk82.eq_1 v884))
theorem k0_off122_inb : ∀ (v884 : BitVec 32) (k0_hw82 : k0_chk82 v884), ∀ a, (k0_off122 v884) a + S1x64.size a ≤ S16384x64.size a := fun v884 k0_hw82 => k0_hw82.1
theorem k0_off123_inb : ∀ (v884 : BitVec 32) (k0_hw82 : k0_chk82 v884), ∀ a, (k0_off123 v884) a + S1x1.size a ≤ S16384x1.size a := fun v884 k0_hw82 => k0_hw82.2

def k0_off124 (v905 : BitVec 32) : Fin 2 → Nat :=
  let v907 : Index := Scalar.indexCast v905
  let c0_288 : Index := 0#32
  ![v907.toNat, 0]

def k0_chk83 (v905 : BitVec 32) : Prop :=
  (∀ a, (k0_off124 v905) a + S1x64.size a ≤ S50000x64.size a)
instance k0_chk83.dec : ∀ (v905 : BitVec 32), Decidable (k0_chk83 v905) := fun v905 => decidable_of_iff' _ (Iff.of_eq (k0_chk83.eq_1 v905))
theorem k0_off124_inb : ∀ (v905 : BitVec 32) (k0_hw83 : k0_chk83 v905), ∀ a, (k0_off124 v905) a + S1x64.size a ≤ S50000x64.size a := fun v905 k0_hw83 => k0_hw83

def k0_off125 (v906 : BitVec 32) : Fin 2 → Nat :=
  let v910 : Index := Scalar.indexCast v906
  let c0_289 : Index := 0#32
  ![v910.toNat, 0]

def k0_off126 (v906 : BitVec 32) : Fin 2 → Nat :=
  let v918 : Index := Scalar.indexCast v906
  let c0_291 : Index := 0#32
  ![v918.toNat, 0]

def k0_chk84 (v906 : BitVec 32) : Prop :=
  (∀ a, (k0_off125 v906) a + S1x64.size a ≤ S16384x64.size a) ∧
  (∀ a, (k0_off126 v906) a + S1x1.size a ≤ S16384x1.size a)
instance k0_chk84.dec : ∀ (v906 : BitVec 32), Decidable (k0_chk84 v906) := fun v906 => decidable_of_iff' _ (Iff.of_eq (k0_chk84.eq_1 v906))
theorem k0_off125_inb : ∀ (v906 : BitVec 32) (k0_hw84 : k0_chk84 v906), ∀ a, (k0_off125 v906) a + S1x64.size a ≤ S16384x64.size a := fun v906 k0_hw84 => k0_hw84.1
theorem k0_off126_inb : ∀ (v906 : BitVec 32) (k0_hw84 : k0_chk84 v906), ∀ a, (k0_off126 v906) a + S1x1.size a ≤ S16384x1.size a := fun v906 k0_hw84 => k0_hw84.2

def k0_off127 (v927 : BitVec 32) : Fin 2 → Nat :=
  let v929 : Index := Scalar.indexCast v927
  let c0_295 : Index := 0#32
  ![v929.toNat, 0]

def k0_chk85 (v927 : BitVec 32) : Prop :=
  (∀ a, (k0_off127 v927) a + S1x64.size a ≤ S50000x64.size a)
instance k0_chk85.dec : ∀ (v927 : BitVec 32), Decidable (k0_chk85 v927) := fun v927 => decidable_of_iff' _ (Iff.of_eq (k0_chk85.eq_1 v927))
theorem k0_off127_inb : ∀ (v927 : BitVec 32) (k0_hw85 : k0_chk85 v927), ∀ a, (k0_off127 v927) a + S1x64.size a ≤ S50000x64.size a := fun v927 k0_hw85 => k0_hw85

def k0_off128 (v928 : BitVec 32) : Fin 2 → Nat :=
  let v932 : Index := Scalar.indexCast v928
  let c0_296 : Index := 0#32
  ![v932.toNat, 0]

def k0_off129 (v928 : BitVec 32) : Fin 2 → Nat :=
  let v940 : Index := Scalar.indexCast v928
  let c0_298 : Index := 0#32
  ![v940.toNat, 0]

def k0_chk86 (v928 : BitVec 32) : Prop :=
  (∀ a, (k0_off128 v928) a + S1x64.size a ≤ S16384x64.size a) ∧
  (∀ a, (k0_off129 v928) a + S1x1.size a ≤ S16384x1.size a)
instance k0_chk86.dec : ∀ (v928 : BitVec 32), Decidable (k0_chk86 v928) := fun v928 => decidable_of_iff' _ (Iff.of_eq (k0_chk86.eq_1 v928))
theorem k0_off128_inb : ∀ (v928 : BitVec 32) (k0_hw86 : k0_chk86 v928), ∀ a, (k0_off128 v928) a + S1x64.size a ≤ S16384x64.size a := fun v928 k0_hw86 => k0_hw86.1
theorem k0_off129_inb : ∀ (v928 : BitVec 32) (k0_hw86 : k0_chk86 v928), ∀ a, (k0_off129 v928) a + S1x1.size a ≤ S16384x1.size a := fun v928 k0_hw86 => k0_hw86.2

def k0_off130 (v949 : BitVec 32) : Fin 2 → Nat :=
  let v951 : Index := Scalar.indexCast v949
  let c0_302 : Index := 0#32
  ![v951.toNat, 0]

def k0_chk87 (v949 : BitVec 32) : Prop :=
  (∀ a, (k0_off130 v949) a + S1x64.size a ≤ S50000x64.size a)
instance k0_chk87.dec : ∀ (v949 : BitVec 32), Decidable (k0_chk87 v949) := fun v949 => decidable_of_iff' _ (Iff.of_eq (k0_chk87.eq_1 v949))
theorem k0_off130_inb : ∀ (v949 : BitVec 32) (k0_hw87 : k0_chk87 v949), ∀ a, (k0_off130 v949) a + S1x64.size a ≤ S50000x64.size a := fun v949 k0_hw87 => k0_hw87

def k0_off131 (v950 : BitVec 32) : Fin 2 → Nat :=
  let v954 : Index := Scalar.indexCast v950
  let c0_303 : Index := 0#32
  ![v954.toNat, 0]

def k0_off132 (v950 : BitVec 32) : Fin 2 → Nat :=
  let v962 : Index := Scalar.indexCast v950
  let c0_305 : Index := 0#32
  ![v962.toNat, 0]

def k0_chk88 (v950 : BitVec 32) : Prop :=
  (∀ a, (k0_off131 v950) a + S1x64.size a ≤ S16384x64.size a) ∧
  (∀ a, (k0_off132 v950) a + S1x1.size a ≤ S16384x1.size a)
instance k0_chk88.dec : ∀ (v950 : BitVec 32), Decidable (k0_chk88 v950) := fun v950 => decidable_of_iff' _ (Iff.of_eq (k0_chk88.eq_1 v950))
theorem k0_off131_inb : ∀ (v950 : BitVec 32) (k0_hw88 : k0_chk88 v950), ∀ a, (k0_off131 v950) a + S1x64.size a ≤ S16384x64.size a := fun v950 k0_hw88 => k0_hw88.1
theorem k0_off132_inb : ∀ (v950 : BitVec 32) (k0_hw88 : k0_chk88 v950), ∀ a, (k0_off132 v950) a + S1x1.size a ≤ S16384x1.size a := fun v950 k0_hw88 => k0_hw88.2

def k0_off133 (v971 : BitVec 32) : Fin 2 → Nat :=
  let v973 : Index := Scalar.indexCast v971
  let c0_309 : Index := 0#32
  ![v973.toNat, 0]

def k0_chk89 (v971 : BitVec 32) : Prop :=
  (∀ a, (k0_off133 v971) a + S1x64.size a ≤ S50000x64.size a)
instance k0_chk89.dec : ∀ (v971 : BitVec 32), Decidable (k0_chk89 v971) := fun v971 => decidable_of_iff' _ (Iff.of_eq (k0_chk89.eq_1 v971))
theorem k0_off133_inb : ∀ (v971 : BitVec 32) (k0_hw89 : k0_chk89 v971), ∀ a, (k0_off133 v971) a + S1x64.size a ≤ S50000x64.size a := fun v971 k0_hw89 => k0_hw89

def k0_off134 (v972 : BitVec 32) : Fin 2 → Nat :=
  let v976 : Index := Scalar.indexCast v972
  let c0_310 : Index := 0#32
  ![v976.toNat, 0]

def k0_off135 (v972 : BitVec 32) : Fin 2 → Nat :=
  let v984 : Index := Scalar.indexCast v972
  let c0_312 : Index := 0#32
  ![v984.toNat, 0]

def k0_chk90 (v972 : BitVec 32) : Prop :=
  (∀ a, (k0_off134 v972) a + S1x64.size a ≤ S16384x64.size a) ∧
  (∀ a, (k0_off135 v972) a + S1x1.size a ≤ S16384x1.size a)
instance k0_chk90.dec : ∀ (v972 : BitVec 32), Decidable (k0_chk90 v972) := fun v972 => decidable_of_iff' _ (Iff.of_eq (k0_chk90.eq_1 v972))
theorem k0_off134_inb : ∀ (v972 : BitVec 32) (k0_hw90 : k0_chk90 v972), ∀ a, (k0_off134 v972) a + S1x64.size a ≤ S16384x64.size a := fun v972 k0_hw90 => k0_hw90.1
theorem k0_off135_inb : ∀ (v972 : BitVec 32) (k0_hw90 : k0_chk90 v972), ∀ a, (k0_off135 v972) a + S1x1.size a ≤ S16384x1.size a := fun v972 k0_hw90 => k0_hw90.2

def k0_off136 (v993 : BitVec 32) : Fin 2 → Nat :=
  let v995 : Index := Scalar.indexCast v993
  let c0_316 : Index := 0#32
  ![v995.toNat, 0]

def k0_chk91 (v993 : BitVec 32) : Prop :=
  (∀ a, (k0_off136 v993) a + S1x64.size a ≤ S50000x64.size a)
instance k0_chk91.dec : ∀ (v993 : BitVec 32), Decidable (k0_chk91 v993) := fun v993 => decidable_of_iff' _ (Iff.of_eq (k0_chk91.eq_1 v993))
theorem k0_off136_inb : ∀ (v993 : BitVec 32) (k0_hw91 : k0_chk91 v993), ∀ a, (k0_off136 v993) a + S1x64.size a ≤ S50000x64.size a := fun v993 k0_hw91 => k0_hw91

def k0_off137 (v994 : BitVec 32) : Fin 2 → Nat :=
  let v998 : Index := Scalar.indexCast v994
  let c0_317 : Index := 0#32
  ![v998.toNat, 0]

def k0_off138 (v994 : BitVec 32) : Fin 2 → Nat :=
  let v1006 : Index := Scalar.indexCast v994
  let c0_319 : Index := 0#32
  ![v1006.toNat, 0]

def k0_chk92 (v994 : BitVec 32) : Prop :=
  (∀ a, (k0_off137 v994) a + S1x64.size a ≤ S16384x64.size a) ∧
  (∀ a, (k0_off138 v994) a + S1x1.size a ≤ S16384x1.size a)
instance k0_chk92.dec : ∀ (v994 : BitVec 32), Decidable (k0_chk92 v994) := fun v994 => decidable_of_iff' _ (Iff.of_eq (k0_chk92.eq_1 v994))
theorem k0_off137_inb : ∀ (v994 : BitVec 32) (k0_hw92 : k0_chk92 v994), ∀ a, (k0_off137 v994) a + S1x64.size a ≤ S16384x64.size a := fun v994 k0_hw92 => k0_hw92.1
theorem k0_off138_inb : ∀ (v994 : BitVec 32) (k0_hw92 : k0_chk92 v994), ∀ a, (k0_off138 v994) a + S1x1.size a ≤ S16384x1.size a := fun v994 k0_hw92 => k0_hw92.2

def k0_off139 (v1015 : BitVec 32) : Fin 2 → Nat :=
  let v1017 : Index := Scalar.indexCast v1015
  let c0_323 : Index := 0#32
  ![v1017.toNat, 0]

def k0_chk93 (v1015 : BitVec 32) : Prop :=
  (∀ a, (k0_off139 v1015) a + S1x64.size a ≤ S50000x64.size a)
instance k0_chk93.dec : ∀ (v1015 : BitVec 32), Decidable (k0_chk93 v1015) := fun v1015 => decidable_of_iff' _ (Iff.of_eq (k0_chk93.eq_1 v1015))
theorem k0_off139_inb : ∀ (v1015 : BitVec 32) (k0_hw93 : k0_chk93 v1015), ∀ a, (k0_off139 v1015) a + S1x64.size a ≤ S50000x64.size a := fun v1015 k0_hw93 => k0_hw93

def k0_off140 (v1016 : BitVec 32) : Fin 2 → Nat :=
  let v1020 : Index := Scalar.indexCast v1016
  let c0_324 : Index := 0#32
  ![v1020.toNat, 0]

def k0_off141 (v1016 : BitVec 32) : Fin 2 → Nat :=
  let v1028 : Index := Scalar.indexCast v1016
  let c0_326 : Index := 0#32
  ![v1028.toNat, 0]

def k0_chk94 (v1016 : BitVec 32) : Prop :=
  (∀ a, (k0_off140 v1016) a + S1x64.size a ≤ S16384x64.size a) ∧
  (∀ a, (k0_off141 v1016) a + S1x1.size a ≤ S16384x1.size a)
instance k0_chk94.dec : ∀ (v1016 : BitVec 32), Decidable (k0_chk94 v1016) := fun v1016 => decidable_of_iff' _ (Iff.of_eq (k0_chk94.eq_1 v1016))
theorem k0_off140_inb : ∀ (v1016 : BitVec 32) (k0_hw94 : k0_chk94 v1016), ∀ a, (k0_off140 v1016) a + S1x64.size a ≤ S16384x64.size a := fun v1016 k0_hw94 => k0_hw94.1
theorem k0_off141_inb : ∀ (v1016 : BitVec 32) (k0_hw94 : k0_chk94 v1016), ∀ a, (k0_off141 v1016) a + S1x1.size a ≤ S16384x1.size a := fun v1016 k0_hw94 => k0_hw94.2

def k0_off142 (v1037 : BitVec 32) : Fin 2 → Nat :=
  let v1039 : Index := Scalar.indexCast v1037
  let c0_330 : Index := 0#32
  ![v1039.toNat, 0]

def k0_chk95 (v1037 : BitVec 32) : Prop :=
  (∀ a, (k0_off142 v1037) a + S1x64.size a ≤ S50000x64.size a)
instance k0_chk95.dec : ∀ (v1037 : BitVec 32), Decidable (k0_chk95 v1037) := fun v1037 => decidable_of_iff' _ (Iff.of_eq (k0_chk95.eq_1 v1037))
theorem k0_off142_inb : ∀ (v1037 : BitVec 32) (k0_hw95 : k0_chk95 v1037), ∀ a, (k0_off142 v1037) a + S1x64.size a ≤ S50000x64.size a := fun v1037 k0_hw95 => k0_hw95

def k0_off143 (v1038 : BitVec 32) : Fin 2 → Nat :=
  let v1042 : Index := Scalar.indexCast v1038
  let c0_331 : Index := 0#32
  ![v1042.toNat, 0]

def k0_off144 (v1038 : BitVec 32) : Fin 2 → Nat :=
  let v1050 : Index := Scalar.indexCast v1038
  let c0_333 : Index := 0#32
  ![v1050.toNat, 0]

def k0_chk96 (v1038 : BitVec 32) : Prop :=
  (∀ a, (k0_off143 v1038) a + S1x64.size a ≤ S16384x64.size a) ∧
  (∀ a, (k0_off144 v1038) a + S1x1.size a ≤ S16384x1.size a)
instance k0_chk96.dec : ∀ (v1038 : BitVec 32), Decidable (k0_chk96 v1038) := fun v1038 => decidable_of_iff' _ (Iff.of_eq (k0_chk96.eq_1 v1038))
theorem k0_off143_inb : ∀ (v1038 : BitVec 32) (k0_hw96 : k0_chk96 v1038), ∀ a, (k0_off143 v1038) a + S1x64.size a ≤ S16384x64.size a := fun v1038 k0_hw96 => k0_hw96.1
theorem k0_off144_inb : ∀ (v1038 : BitVec 32) (k0_hw96 : k0_chk96 v1038), ∀ a, (k0_off144 v1038) a + S1x1.size a ≤ S16384x1.size a := fun v1038 k0_hw96 => k0_hw96.2

def k0_off145 (v1059 : BitVec 32) : Fin 2 → Nat :=
  let v1061 : Index := Scalar.indexCast v1059
  let c0_337 : Index := 0#32
  ![v1061.toNat, 0]

def k0_chk97 (v1059 : BitVec 32) : Prop :=
  (∀ a, (k0_off145 v1059) a + S1x64.size a ≤ S50000x64.size a)
instance k0_chk97.dec : ∀ (v1059 : BitVec 32), Decidable (k0_chk97 v1059) := fun v1059 => decidable_of_iff' _ (Iff.of_eq (k0_chk97.eq_1 v1059))
theorem k0_off145_inb : ∀ (v1059 : BitVec 32) (k0_hw97 : k0_chk97 v1059), ∀ a, (k0_off145 v1059) a + S1x64.size a ≤ S50000x64.size a := fun v1059 k0_hw97 => k0_hw97

def k0_off146 (v1060 : BitVec 32) : Fin 2 → Nat :=
  let v1064 : Index := Scalar.indexCast v1060
  let c0_338 : Index := 0#32
  ![v1064.toNat, 0]

def k0_off147 (v1060 : BitVec 32) : Fin 2 → Nat :=
  let v1072 : Index := Scalar.indexCast v1060
  let c0_340 : Index := 0#32
  ![v1072.toNat, 0]

def k0_chk98 (v1060 : BitVec 32) : Prop :=
  (∀ a, (k0_off146 v1060) a + S1x64.size a ≤ S16384x64.size a) ∧
  (∀ a, (k0_off147 v1060) a + S1x1.size a ≤ S16384x1.size a)
instance k0_chk98.dec : ∀ (v1060 : BitVec 32), Decidable (k0_chk98 v1060) := fun v1060 => decidable_of_iff' _ (Iff.of_eq (k0_chk98.eq_1 v1060))
theorem k0_off146_inb : ∀ (v1060 : BitVec 32) (k0_hw98 : k0_chk98 v1060), ∀ a, (k0_off146 v1060) a + S1x64.size a ≤ S16384x64.size a := fun v1060 k0_hw98 => k0_hw98.1
theorem k0_off147_inb : ∀ (v1060 : BitVec 32) (k0_hw98 : k0_chk98 v1060), ∀ a, (k0_off147 v1060) a + S1x1.size a ≤ S16384x1.size a := fun v1060 k0_hw98 => k0_hw98.2

def k0_off148 (v1081 : BitVec 32) : Fin 2 → Nat :=
  let v1083 : Index := Scalar.indexCast v1081
  let c0_344 : Index := 0#32
  ![v1083.toNat, 0]

def k0_chk99 (v1081 : BitVec 32) : Prop :=
  (∀ a, (k0_off148 v1081) a + S1x64.size a ≤ S50000x64.size a)
instance k0_chk99.dec : ∀ (v1081 : BitVec 32), Decidable (k0_chk99 v1081) := fun v1081 => decidable_of_iff' _ (Iff.of_eq (k0_chk99.eq_1 v1081))
theorem k0_off148_inb : ∀ (v1081 : BitVec 32) (k0_hw99 : k0_chk99 v1081), ∀ a, (k0_off148 v1081) a + S1x64.size a ≤ S50000x64.size a := fun v1081 k0_hw99 => k0_hw99

def k0_off149 (v1082 : BitVec 32) : Fin 2 → Nat :=
  let v1086 : Index := Scalar.indexCast v1082
  let c0_345 : Index := 0#32
  ![v1086.toNat, 0]

def k0_off150 (v1082 : BitVec 32) : Fin 2 → Nat :=
  let v1094 : Index := Scalar.indexCast v1082
  let c0_347 : Index := 0#32
  ![v1094.toNat, 0]

def k0_chk100 (v1082 : BitVec 32) : Prop :=
  (∀ a, (k0_off149 v1082) a + S1x64.size a ≤ S16384x64.size a) ∧
  (∀ a, (k0_off150 v1082) a + S1x1.size a ≤ S16384x1.size a)
instance k0_chk100.dec : ∀ (v1082 : BitVec 32), Decidable (k0_chk100 v1082) := fun v1082 => decidable_of_iff' _ (Iff.of_eq (k0_chk100.eq_1 v1082))
theorem k0_off149_inb : ∀ (v1082 : BitVec 32) (k0_hw100 : k0_chk100 v1082), ∀ a, (k0_off149 v1082) a + S1x64.size a ≤ S16384x64.size a := fun v1082 k0_hw100 => k0_hw100.1
theorem k0_off150_inb : ∀ (v1082 : BitVec 32) (k0_hw100 : k0_chk100 v1082), ∀ a, (k0_off150 v1082) a + S1x1.size a ≤ S16384x1.size a := fun v1082 k0_hw100 => k0_hw100.2

def k0_off151 (v1103 : BitVec 32) : Fin 2 → Nat :=
  let v1105 : Index := Scalar.indexCast v1103
  let c0_351 : Index := 0#32
  ![v1105.toNat, 0]

def k0_chk101 (v1103 : BitVec 32) : Prop :=
  (∀ a, (k0_off151 v1103) a + S1x64.size a ≤ S50000x64.size a)
instance k0_chk101.dec : ∀ (v1103 : BitVec 32), Decidable (k0_chk101 v1103) := fun v1103 => decidable_of_iff' _ (Iff.of_eq (k0_chk101.eq_1 v1103))
theorem k0_off151_inb : ∀ (v1103 : BitVec 32) (k0_hw101 : k0_chk101 v1103), ∀ a, (k0_off151 v1103) a + S1x64.size a ≤ S50000x64.size a := fun v1103 k0_hw101 => k0_hw101

def k0_off152 (v1104 : BitVec 32) : Fin 2 → Nat :=
  let v1108 : Index := Scalar.indexCast v1104
  let c0_352 : Index := 0#32
  ![v1108.toNat, 0]

def k0_off153 (v1104 : BitVec 32) : Fin 2 → Nat :=
  let v1116 : Index := Scalar.indexCast v1104
  let c0_354 : Index := 0#32
  ![v1116.toNat, 0]

def k0_chk102 (v1104 : BitVec 32) : Prop :=
  (∀ a, (k0_off152 v1104) a + S1x64.size a ≤ S16384x64.size a) ∧
  (∀ a, (k0_off153 v1104) a + S1x1.size a ≤ S16384x1.size a)
instance k0_chk102.dec : ∀ (v1104 : BitVec 32), Decidable (k0_chk102 v1104) := fun v1104 => decidable_of_iff' _ (Iff.of_eq (k0_chk102.eq_1 v1104))
theorem k0_off152_inb : ∀ (v1104 : BitVec 32) (k0_hw102 : k0_chk102 v1104), ∀ a, (k0_off152 v1104) a + S1x64.size a ≤ S16384x64.size a := fun v1104 k0_hw102 => k0_hw102.1
theorem k0_off153_inb : ∀ (v1104 : BitVec 32) (k0_hw102 : k0_chk102 v1104), ∀ a, (k0_off153 v1104) a + S1x1.size a ≤ S16384x1.size a := fun v1104 k0_hw102 => k0_hw102.2

def k0_off154 (v1125 : BitVec 32) : Fin 2 → Nat :=
  let v1127 : Index := Scalar.indexCast v1125
  let c0_358 : Index := 0#32
  ![v1127.toNat, 0]

def k0_chk103 (v1125 : BitVec 32) : Prop :=
  (∀ a, (k0_off154 v1125) a + S1x64.size a ≤ S50000x64.size a)
instance k0_chk103.dec : ∀ (v1125 : BitVec 32), Decidable (k0_chk103 v1125) := fun v1125 => decidable_of_iff' _ (Iff.of_eq (k0_chk103.eq_1 v1125))
theorem k0_off154_inb : ∀ (v1125 : BitVec 32) (k0_hw103 : k0_chk103 v1125), ∀ a, (k0_off154 v1125) a + S1x64.size a ≤ S50000x64.size a := fun v1125 k0_hw103 => k0_hw103

def k0_off155 (v1126 : BitVec 32) : Fin 2 → Nat :=
  let v1130 : Index := Scalar.indexCast v1126
  let c0_359 : Index := 0#32
  ![v1130.toNat, 0]

def k0_off156 (v1126 : BitVec 32) : Fin 2 → Nat :=
  let v1138 : Index := Scalar.indexCast v1126
  let c0_361 : Index := 0#32
  ![v1138.toNat, 0]

def k0_chk104 (v1126 : BitVec 32) : Prop :=
  (∀ a, (k0_off155 v1126) a + S1x64.size a ≤ S16384x64.size a) ∧
  (∀ a, (k0_off156 v1126) a + S1x1.size a ≤ S16384x1.size a)
instance k0_chk104.dec : ∀ (v1126 : BitVec 32), Decidable (k0_chk104 v1126) := fun v1126 => decidable_of_iff' _ (Iff.of_eq (k0_chk104.eq_1 v1126))
theorem k0_off155_inb : ∀ (v1126 : BitVec 32) (k0_hw104 : k0_chk104 v1126), ∀ a, (k0_off155 v1126) a + S1x64.size a ≤ S16384x64.size a := fun v1126 k0_hw104 => k0_hw104.1
theorem k0_off156_inb : ∀ (v1126 : BitVec 32) (k0_hw104 : k0_chk104 v1126), ∀ a, (k0_off156 v1126) a + S1x1.size a ≤ S16384x1.size a := fun v1126 k0_hw104 => k0_hw104.2

def k0_off157 (v1147 : BitVec 32) : Fin 2 → Nat :=
  let v1149 : Index := Scalar.indexCast v1147
  let c0_365 : Index := 0#32
  ![v1149.toNat, 0]

def k0_chk105 (v1147 : BitVec 32) : Prop :=
  (∀ a, (k0_off157 v1147) a + S1x64.size a ≤ S50000x64.size a)
instance k0_chk105.dec : ∀ (v1147 : BitVec 32), Decidable (k0_chk105 v1147) := fun v1147 => decidable_of_iff' _ (Iff.of_eq (k0_chk105.eq_1 v1147))
theorem k0_off157_inb : ∀ (v1147 : BitVec 32) (k0_hw105 : k0_chk105 v1147), ∀ a, (k0_off157 v1147) a + S1x64.size a ≤ S50000x64.size a := fun v1147 k0_hw105 => k0_hw105

def k0_off158 (v1148 : BitVec 32) : Fin 2 → Nat :=
  let v1152 : Index := Scalar.indexCast v1148
  let c0_366 : Index := 0#32
  ![v1152.toNat, 0]

def k0_off159 (v1148 : BitVec 32) : Fin 2 → Nat :=
  let v1160 : Index := Scalar.indexCast v1148
  let c0_368 : Index := 0#32
  ![v1160.toNat, 0]

def k0_chk106 (v1148 : BitVec 32) : Prop :=
  (∀ a, (k0_off158 v1148) a + S1x64.size a ≤ S16384x64.size a) ∧
  (∀ a, (k0_off159 v1148) a + S1x1.size a ≤ S16384x1.size a)
instance k0_chk106.dec : ∀ (v1148 : BitVec 32), Decidable (k0_chk106 v1148) := fun v1148 => decidable_of_iff' _ (Iff.of_eq (k0_chk106.eq_1 v1148))
theorem k0_off158_inb : ∀ (v1148 : BitVec 32) (k0_hw106 : k0_chk106 v1148), ∀ a, (k0_off158 v1148) a + S1x64.size a ≤ S16384x64.size a := fun v1148 k0_hw106 => k0_hw106.1
theorem k0_off159_inb : ∀ (v1148 : BitVec 32) (k0_hw106 : k0_chk106 v1148), ∀ a, (k0_off159 v1148) a + S1x1.size a ≤ S16384x1.size a := fun v1148 k0_hw106 => k0_hw106.2

def k0_off160 (v1169 : BitVec 32) : Fin 2 → Nat :=
  let v1171 : Index := Scalar.indexCast v1169
  let c0_372 : Index := 0#32
  ![v1171.toNat, 0]

def k0_chk107 (v1169 : BitVec 32) : Prop :=
  (∀ a, (k0_off160 v1169) a + S1x64.size a ≤ S50000x64.size a)
instance k0_chk107.dec : ∀ (v1169 : BitVec 32), Decidable (k0_chk107 v1169) := fun v1169 => decidable_of_iff' _ (Iff.of_eq (k0_chk107.eq_1 v1169))
theorem k0_off160_inb : ∀ (v1169 : BitVec 32) (k0_hw107 : k0_chk107 v1169), ∀ a, (k0_off160 v1169) a + S1x64.size a ≤ S50000x64.size a := fun v1169 k0_hw107 => k0_hw107

def k0_off161 (v1170 : BitVec 32) : Fin 2 → Nat :=
  let v1174 : Index := Scalar.indexCast v1170
  let c0_373 : Index := 0#32
  ![v1174.toNat, 0]

def k0_off162 (v1170 : BitVec 32) : Fin 2 → Nat :=
  let v1182 : Index := Scalar.indexCast v1170
  let c0_375 : Index := 0#32
  ![v1182.toNat, 0]

def k0_chk108 (v1170 : BitVec 32) : Prop :=
  (∀ a, (k0_off161 v1170) a + S1x64.size a ≤ S16384x64.size a) ∧
  (∀ a, (k0_off162 v1170) a + S1x1.size a ≤ S16384x1.size a)
instance k0_chk108.dec : ∀ (v1170 : BitVec 32), Decidable (k0_chk108 v1170) := fun v1170 => decidable_of_iff' _ (Iff.of_eq (k0_chk108.eq_1 v1170))
theorem k0_off161_inb : ∀ (v1170 : BitVec 32) (k0_hw108 : k0_chk108 v1170), ∀ a, (k0_off161 v1170) a + S1x64.size a ≤ S16384x64.size a := fun v1170 k0_hw108 => k0_hw108.1
theorem k0_off162_inb : ∀ (v1170 : BitVec 32) (k0_hw108 : k0_chk108 v1170), ∀ a, (k0_off162 v1170) a + S1x1.size a ≤ S16384x1.size a := fun v1170 k0_hw108 => k0_hw108.2

def k0_off163 (v1191 : BitVec 32) : Fin 2 → Nat :=
  let v1193 : Index := Scalar.indexCast v1191
  let c0_379 : Index := 0#32
  ![v1193.toNat, 0]

def k0_chk109 (v1191 : BitVec 32) : Prop :=
  (∀ a, (k0_off163 v1191) a + S1x64.size a ≤ S50000x64.size a)
instance k0_chk109.dec : ∀ (v1191 : BitVec 32), Decidable (k0_chk109 v1191) := fun v1191 => decidable_of_iff' _ (Iff.of_eq (k0_chk109.eq_1 v1191))
theorem k0_off163_inb : ∀ (v1191 : BitVec 32) (k0_hw109 : k0_chk109 v1191), ∀ a, (k0_off163 v1191) a + S1x64.size a ≤ S50000x64.size a := fun v1191 k0_hw109 => k0_hw109

def k0_off164 (v1192 : BitVec 32) : Fin 2 → Nat :=
  let v1196 : Index := Scalar.indexCast v1192
  let c0_380 : Index := 0#32
  ![v1196.toNat, 0]

def k0_off165 (v1192 : BitVec 32) : Fin 2 → Nat :=
  let v1204 : Index := Scalar.indexCast v1192
  let c0_382 : Index := 0#32
  ![v1204.toNat, 0]

def k0_chk110 (v1192 : BitVec 32) : Prop :=
  (∀ a, (k0_off164 v1192) a + S1x64.size a ≤ S16384x64.size a) ∧
  (∀ a, (k0_off165 v1192) a + S1x1.size a ≤ S16384x1.size a)
instance k0_chk110.dec : ∀ (v1192 : BitVec 32), Decidable (k0_chk110 v1192) := fun v1192 => decidable_of_iff' _ (Iff.of_eq (k0_chk110.eq_1 v1192))
theorem k0_off164_inb : ∀ (v1192 : BitVec 32) (k0_hw110 : k0_chk110 v1192), ∀ a, (k0_off164 v1192) a + S1x64.size a ≤ S16384x64.size a := fun v1192 k0_hw110 => k0_hw110.1
theorem k0_off165_inb : ∀ (v1192 : BitVec 32) (k0_hw110 : k0_chk110 v1192), ∀ a, (k0_off165 v1192) a + S1x1.size a ≤ S16384x1.size a := fun v1192 k0_hw110 => k0_hw110.2

def k0_off166 (v1213 : BitVec 32) : Fin 2 → Nat :=
  let v1215 : Index := Scalar.indexCast v1213
  let c0_386 : Index := 0#32
  ![v1215.toNat, 0]

def k0_chk111 (v1213 : BitVec 32) : Prop :=
  (∀ a, (k0_off166 v1213) a + S1x64.size a ≤ S50000x64.size a)
instance k0_chk111.dec : ∀ (v1213 : BitVec 32), Decidable (k0_chk111 v1213) := fun v1213 => decidable_of_iff' _ (Iff.of_eq (k0_chk111.eq_1 v1213))
theorem k0_off166_inb : ∀ (v1213 : BitVec 32) (k0_hw111 : k0_chk111 v1213), ∀ a, (k0_off166 v1213) a + S1x64.size a ≤ S50000x64.size a := fun v1213 k0_hw111 => k0_hw111

def k0_off167 (v1214 : BitVec 32) : Fin 2 → Nat :=
  let v1218 : Index := Scalar.indexCast v1214
  let c0_387 : Index := 0#32
  ![v1218.toNat, 0]

def k0_off168 (v1214 : BitVec 32) : Fin 2 → Nat :=
  let v1226 : Index := Scalar.indexCast v1214
  let c0_389 : Index := 0#32
  ![v1226.toNat, 0]

def k0_chk112 (v1214 : BitVec 32) : Prop :=
  (∀ a, (k0_off167 v1214) a + S1x64.size a ≤ S16384x64.size a) ∧
  (∀ a, (k0_off168 v1214) a + S1x1.size a ≤ S16384x1.size a)
instance k0_chk112.dec : ∀ (v1214 : BitVec 32), Decidable (k0_chk112 v1214) := fun v1214 => decidable_of_iff' _ (Iff.of_eq (k0_chk112.eq_1 v1214))
theorem k0_off167_inb : ∀ (v1214 : BitVec 32) (k0_hw112 : k0_chk112 v1214), ∀ a, (k0_off167 v1214) a + S1x64.size a ≤ S16384x64.size a := fun v1214 k0_hw112 => k0_hw112.1
theorem k0_off168_inb : ∀ (v1214 : BitVec 32) (k0_hw112 : k0_chk112 v1214), ∀ a, (k0_off168 v1214) a + S1x1.size a ≤ S16384x1.size a := fun v1214 k0_hw112 => k0_hw112.2

def k0_off169 (v1235 : BitVec 32) : Fin 2 → Nat :=
  let v1237 : Index := Scalar.indexCast v1235
  let c0_393 : Index := 0#32
  ![v1237.toNat, 0]

def k0_chk113 (v1235 : BitVec 32) : Prop :=
  (∀ a, (k0_off169 v1235) a + S1x64.size a ≤ S50000x64.size a)
instance k0_chk113.dec : ∀ (v1235 : BitVec 32), Decidable (k0_chk113 v1235) := fun v1235 => decidable_of_iff' _ (Iff.of_eq (k0_chk113.eq_1 v1235))
theorem k0_off169_inb : ∀ (v1235 : BitVec 32) (k0_hw113 : k0_chk113 v1235), ∀ a, (k0_off169 v1235) a + S1x64.size a ≤ S50000x64.size a := fun v1235 k0_hw113 => k0_hw113

def k0_off170 (v1236 : BitVec 32) : Fin 2 → Nat :=
  let v1240 : Index := Scalar.indexCast v1236
  let c0_394 : Index := 0#32
  ![v1240.toNat, 0]

def k0_off171 (v1236 : BitVec 32) : Fin 2 → Nat :=
  let v1248 : Index := Scalar.indexCast v1236
  let c0_396 : Index := 0#32
  ![v1248.toNat, 0]

def k0_chk114 (v1236 : BitVec 32) : Prop :=
  (∀ a, (k0_off170 v1236) a + S1x64.size a ≤ S16384x64.size a) ∧
  (∀ a, (k0_off171 v1236) a + S1x1.size a ≤ S16384x1.size a)
instance k0_chk114.dec : ∀ (v1236 : BitVec 32), Decidable (k0_chk114 v1236) := fun v1236 => decidable_of_iff' _ (Iff.of_eq (k0_chk114.eq_1 v1236))
theorem k0_off170_inb : ∀ (v1236 : BitVec 32) (k0_hw114 : k0_chk114 v1236), ∀ a, (k0_off170 v1236) a + S1x64.size a ≤ S16384x64.size a := fun v1236 k0_hw114 => k0_hw114.1
theorem k0_off171_inb : ∀ (v1236 : BitVec 32) (k0_hw114 : k0_chk114 v1236), ∀ a, (k0_off171 v1236) a + S1x1.size a ≤ S16384x1.size a := fun v1236 k0_hw114 => k0_hw114.2

def k0_off172 (v1257 : BitVec 32) : Fin 2 → Nat :=
  let v1259 : Index := Scalar.indexCast v1257
  let c0_400 : Index := 0#32
  ![v1259.toNat, 0]

def k0_chk115 (v1257 : BitVec 32) : Prop :=
  (∀ a, (k0_off172 v1257) a + S1x64.size a ≤ S50000x64.size a)
instance k0_chk115.dec : ∀ (v1257 : BitVec 32), Decidable (k0_chk115 v1257) := fun v1257 => decidable_of_iff' _ (Iff.of_eq (k0_chk115.eq_1 v1257))
theorem k0_off172_inb : ∀ (v1257 : BitVec 32) (k0_hw115 : k0_chk115 v1257), ∀ a, (k0_off172 v1257) a + S1x64.size a ≤ S50000x64.size a := fun v1257 k0_hw115 => k0_hw115

def k0_off173 (v1258 : BitVec 32) : Fin 2 → Nat :=
  let v1262 : Index := Scalar.indexCast v1258
  let c0_401 : Index := 0#32
  ![v1262.toNat, 0]

def k0_off174 (v1258 : BitVec 32) : Fin 2 → Nat :=
  let v1270 : Index := Scalar.indexCast v1258
  let c0_403 : Index := 0#32
  ![v1270.toNat, 0]

def k0_chk116 (v1258 : BitVec 32) : Prop :=
  (∀ a, (k0_off173 v1258) a + S1x64.size a ≤ S16384x64.size a) ∧
  (∀ a, (k0_off174 v1258) a + S1x1.size a ≤ S16384x1.size a)
instance k0_chk116.dec : ∀ (v1258 : BitVec 32), Decidable (k0_chk116 v1258) := fun v1258 => decidable_of_iff' _ (Iff.of_eq (k0_chk116.eq_1 v1258))
theorem k0_off173_inb : ∀ (v1258 : BitVec 32) (k0_hw116 : k0_chk116 v1258), ∀ a, (k0_off173 v1258) a + S1x64.size a ≤ S16384x64.size a := fun v1258 k0_hw116 => k0_hw116.1
theorem k0_off174_inb : ∀ (v1258 : BitVec 32) (k0_hw116 : k0_chk116 v1258), ∀ a, (k0_off174 v1258) a + S1x1.size a ≤ S16384x1.size a := fun v1258 k0_hw116 => k0_hw116.2

def k0_off175 (v1279 : BitVec 32) : Fin 2 → Nat :=
  let v1281 : Index := Scalar.indexCast v1279
  let c0_407 : Index := 0#32
  ![v1281.toNat, 0]

def k0_chk117 (v1279 : BitVec 32) : Prop :=
  (∀ a, (k0_off175 v1279) a + S1x64.size a ≤ S50000x64.size a)
instance k0_chk117.dec : ∀ (v1279 : BitVec 32), Decidable (k0_chk117 v1279) := fun v1279 => decidable_of_iff' _ (Iff.of_eq (k0_chk117.eq_1 v1279))
theorem k0_off175_inb : ∀ (v1279 : BitVec 32) (k0_hw117 : k0_chk117 v1279), ∀ a, (k0_off175 v1279) a + S1x64.size a ≤ S50000x64.size a := fun v1279 k0_hw117 => k0_hw117

def k0_off176 (v1280 : BitVec 32) : Fin 2 → Nat :=
  let v1284 : Index := Scalar.indexCast v1280
  let c0_408 : Index := 0#32
  ![v1284.toNat, 0]

def k0_off177 (v1280 : BitVec 32) : Fin 2 → Nat :=
  let v1292 : Index := Scalar.indexCast v1280
  let c0_410 : Index := 0#32
  ![v1292.toNat, 0]

def k0_chk118 (v1280 : BitVec 32) : Prop :=
  (∀ a, (k0_off176 v1280) a + S1x64.size a ≤ S16384x64.size a) ∧
  (∀ a, (k0_off177 v1280) a + S1x1.size a ≤ S16384x1.size a)
instance k0_chk118.dec : ∀ (v1280 : BitVec 32), Decidable (k0_chk118 v1280) := fun v1280 => decidable_of_iff' _ (Iff.of_eq (k0_chk118.eq_1 v1280))
theorem k0_off176_inb : ∀ (v1280 : BitVec 32) (k0_hw118 : k0_chk118 v1280), ∀ a, (k0_off176 v1280) a + S1x64.size a ≤ S16384x64.size a := fun v1280 k0_hw118 => k0_hw118.1
theorem k0_off177_inb : ∀ (v1280 : BitVec 32) (k0_hw118 : k0_chk118 v1280), ∀ a, (k0_off177 v1280) a + S1x1.size a ≤ S16384x1.size a := fun v1280 k0_hw118 => k0_hw118.2

def k0_off178 (v1301 : BitVec 32) : Fin 2 → Nat :=
  let v1303 : Index := Scalar.indexCast v1301
  let c0_414 : Index := 0#32
  ![v1303.toNat, 0]

def k0_chk119 (v1301 : BitVec 32) : Prop :=
  (∀ a, (k0_off178 v1301) a + S1x64.size a ≤ S50000x64.size a)
instance k0_chk119.dec : ∀ (v1301 : BitVec 32), Decidable (k0_chk119 v1301) := fun v1301 => decidable_of_iff' _ (Iff.of_eq (k0_chk119.eq_1 v1301))
theorem k0_off178_inb : ∀ (v1301 : BitVec 32) (k0_hw119 : k0_chk119 v1301), ∀ a, (k0_off178 v1301) a + S1x64.size a ≤ S50000x64.size a := fun v1301 k0_hw119 => k0_hw119

def k0_off179 (v1302 : BitVec 32) : Fin 2 → Nat :=
  let v1306 : Index := Scalar.indexCast v1302
  let c0_415 : Index := 0#32
  ![v1306.toNat, 0]

def k0_off180 (v1302 : BitVec 32) : Fin 2 → Nat :=
  let v1314 : Index := Scalar.indexCast v1302
  let c0_417 : Index := 0#32
  ![v1314.toNat, 0]

def k0_chk120 (v1302 : BitVec 32) : Prop :=
  (∀ a, (k0_off179 v1302) a + S1x64.size a ≤ S16384x64.size a) ∧
  (∀ a, (k0_off180 v1302) a + S1x1.size a ≤ S16384x1.size a)
instance k0_chk120.dec : ∀ (v1302 : BitVec 32), Decidable (k0_chk120 v1302) := fun v1302 => decidable_of_iff' _ (Iff.of_eq (k0_chk120.eq_1 v1302))
theorem k0_off179_inb : ∀ (v1302 : BitVec 32) (k0_hw120 : k0_chk120 v1302), ∀ a, (k0_off179 v1302) a + S1x64.size a ≤ S16384x64.size a := fun v1302 k0_hw120 => k0_hw120.1
theorem k0_off180_inb : ∀ (v1302 : BitVec 32) (k0_hw120 : k0_chk120 v1302), ∀ a, (k0_off180 v1302) a + S1x1.size a ≤ S16384x1.size a := fun v1302 k0_hw120 => k0_hw120.2

def k0_off181 (v1323 : BitVec 32) : Fin 2 → Nat :=
  let v1325 : Index := Scalar.indexCast v1323
  let c0_421 : Index := 0#32
  ![v1325.toNat, 0]

def k0_chk121 (v1323 : BitVec 32) : Prop :=
  (∀ a, (k0_off181 v1323) a + S1x64.size a ≤ S50000x64.size a)
instance k0_chk121.dec : ∀ (v1323 : BitVec 32), Decidable (k0_chk121 v1323) := fun v1323 => decidable_of_iff' _ (Iff.of_eq (k0_chk121.eq_1 v1323))
theorem k0_off181_inb : ∀ (v1323 : BitVec 32) (k0_hw121 : k0_chk121 v1323), ∀ a, (k0_off181 v1323) a + S1x64.size a ≤ S50000x64.size a := fun v1323 k0_hw121 => k0_hw121

def k0_off182 (v1324 : BitVec 32) : Fin 2 → Nat :=
  let v1328 : Index := Scalar.indexCast v1324
  let c0_422 : Index := 0#32
  ![v1328.toNat, 0]

def k0_off183 (v1324 : BitVec 32) : Fin 2 → Nat :=
  let v1336 : Index := Scalar.indexCast v1324
  let c0_424 : Index := 0#32
  ![v1336.toNat, 0]

def k0_chk122 (v1324 : BitVec 32) : Prop :=
  (∀ a, (k0_off182 v1324) a + S1x64.size a ≤ S16384x64.size a) ∧
  (∀ a, (k0_off183 v1324) a + S1x1.size a ≤ S16384x1.size a)
instance k0_chk122.dec : ∀ (v1324 : BitVec 32), Decidable (k0_chk122 v1324) := fun v1324 => decidable_of_iff' _ (Iff.of_eq (k0_chk122.eq_1 v1324))
theorem k0_off182_inb : ∀ (v1324 : BitVec 32) (k0_hw122 : k0_chk122 v1324), ∀ a, (k0_off182 v1324) a + S1x64.size a ≤ S16384x64.size a := fun v1324 k0_hw122 => k0_hw122.1
theorem k0_off183_inb : ∀ (v1324 : BitVec 32) (k0_hw122 : k0_chk122 v1324), ∀ a, (k0_off183 v1324) a + S1x1.size a ≤ S16384x1.size a := fun v1324 k0_hw122 => k0_hw122.2

def k0_off184 (v1345 : BitVec 32) : Fin 2 → Nat :=
  let v1347 : Index := Scalar.indexCast v1345
  let c0_428 : Index := 0#32
  ![v1347.toNat, 0]

def k0_chk123 (v1345 : BitVec 32) : Prop :=
  (∀ a, (k0_off184 v1345) a + S1x64.size a ≤ S50000x64.size a)
instance k0_chk123.dec : ∀ (v1345 : BitVec 32), Decidable (k0_chk123 v1345) := fun v1345 => decidable_of_iff' _ (Iff.of_eq (k0_chk123.eq_1 v1345))
theorem k0_off184_inb : ∀ (v1345 : BitVec 32) (k0_hw123 : k0_chk123 v1345), ∀ a, (k0_off184 v1345) a + S1x64.size a ≤ S50000x64.size a := fun v1345 k0_hw123 => k0_hw123

def k0_off185 (v1346 : BitVec 32) : Fin 2 → Nat :=
  let v1350 : Index := Scalar.indexCast v1346
  let c0_429 : Index := 0#32
  ![v1350.toNat, 0]

def k0_off186 (v1346 : BitVec 32) : Fin 2 → Nat :=
  let v1358 : Index := Scalar.indexCast v1346
  let c0_431 : Index := 0#32
  ![v1358.toNat, 0]

def k0_chk124 (v1346 : BitVec 32) : Prop :=
  (∀ a, (k0_off185 v1346) a + S1x64.size a ≤ S16384x64.size a) ∧
  (∀ a, (k0_off186 v1346) a + S1x1.size a ≤ S16384x1.size a)
instance k0_chk124.dec : ∀ (v1346 : BitVec 32), Decidable (k0_chk124 v1346) := fun v1346 => decidable_of_iff' _ (Iff.of_eq (k0_chk124.eq_1 v1346))
theorem k0_off185_inb : ∀ (v1346 : BitVec 32) (k0_hw124 : k0_chk124 v1346), ∀ a, (k0_off185 v1346) a + S1x64.size a ≤ S16384x64.size a := fun v1346 k0_hw124 => k0_hw124.1
theorem k0_off186_inb : ∀ (v1346 : BitVec 32) (k0_hw124 : k0_chk124 v1346), ∀ a, (k0_off186 v1346) a + S1x1.size a ≤ S16384x1.size a := fun v1346 k0_hw124 => k0_hw124.2

def k0_off187 (v1367 : BitVec 32) : Fin 2 → Nat :=
  let v1369 : Index := Scalar.indexCast v1367
  let c0_435 : Index := 0#32
  ![v1369.toNat, 0]

def k0_chk125 (v1367 : BitVec 32) : Prop :=
  (∀ a, (k0_off187 v1367) a + S1x64.size a ≤ S50000x64.size a)
instance k0_chk125.dec : ∀ (v1367 : BitVec 32), Decidable (k0_chk125 v1367) := fun v1367 => decidable_of_iff' _ (Iff.of_eq (k0_chk125.eq_1 v1367))
theorem k0_off187_inb : ∀ (v1367 : BitVec 32) (k0_hw125 : k0_chk125 v1367), ∀ a, (k0_off187 v1367) a + S1x64.size a ≤ S50000x64.size a := fun v1367 k0_hw125 => k0_hw125

def k0_off188 (v1368 : BitVec 32) : Fin 2 → Nat :=
  let v1372 : Index := Scalar.indexCast v1368
  let c0_436 : Index := 0#32
  ![v1372.toNat, 0]

def k0_off189 (v1368 : BitVec 32) : Fin 2 → Nat :=
  let v1380 : Index := Scalar.indexCast v1368
  let c0_438 : Index := 0#32
  ![v1380.toNat, 0]

def k0_chk126 (v1368 : BitVec 32) : Prop :=
  (∀ a, (k0_off188 v1368) a + S1x64.size a ≤ S16384x64.size a) ∧
  (∀ a, (k0_off189 v1368) a + S1x1.size a ≤ S16384x1.size a)
instance k0_chk126.dec : ∀ (v1368 : BitVec 32), Decidable (k0_chk126 v1368) := fun v1368 => decidable_of_iff' _ (Iff.of_eq (k0_chk126.eq_1 v1368))
theorem k0_off188_inb : ∀ (v1368 : BitVec 32) (k0_hw126 : k0_chk126 v1368), ∀ a, (k0_off188 v1368) a + S1x64.size a ≤ S16384x64.size a := fun v1368 k0_hw126 => k0_hw126.1
theorem k0_off189_inb : ∀ (v1368 : BitVec 32) (k0_hw126 : k0_chk126 v1368), ∀ a, (k0_off189 v1368) a + S1x1.size a ≤ S16384x1.size a := fun v1368 k0_hw126 => k0_hw126.2

def k0_off190 (v1389 : BitVec 32) : Fin 2 → Nat :=
  let v1391 : Index := Scalar.indexCast v1389
  let c0_442 : Index := 0#32
  ![v1391.toNat, 0]

def k0_chk127 (v1389 : BitVec 32) : Prop :=
  (∀ a, (k0_off190 v1389) a + S1x64.size a ≤ S50000x64.size a)
instance k0_chk127.dec : ∀ (v1389 : BitVec 32), Decidable (k0_chk127 v1389) := fun v1389 => decidable_of_iff' _ (Iff.of_eq (k0_chk127.eq_1 v1389))
theorem k0_off190_inb : ∀ (v1389 : BitVec 32) (k0_hw127 : k0_chk127 v1389), ∀ a, (k0_off190 v1389) a + S1x64.size a ≤ S50000x64.size a := fun v1389 k0_hw127 => k0_hw127

def k0_off191 (v1390 : BitVec 32) : Fin 2 → Nat :=
  let v1394 : Index := Scalar.indexCast v1390
  let c0_443 : Index := 0#32
  ![v1394.toNat, 0]

def k0_off192 (v1390 : BitVec 32) : Fin 2 → Nat :=
  let v1402 : Index := Scalar.indexCast v1390
  let c0_445 : Index := 0#32
  ![v1402.toNat, 0]

def k0_chk128 (v1390 : BitVec 32) : Prop :=
  (∀ a, (k0_off191 v1390) a + S1x64.size a ≤ S16384x64.size a) ∧
  (∀ a, (k0_off192 v1390) a + S1x1.size a ≤ S16384x1.size a)
instance k0_chk128.dec : ∀ (v1390 : BitVec 32), Decidable (k0_chk128 v1390) := fun v1390 => decidable_of_iff' _ (Iff.of_eq (k0_chk128.eq_1 v1390))
theorem k0_off191_inb : ∀ (v1390 : BitVec 32) (k0_hw128 : k0_chk128 v1390), ∀ a, (k0_off191 v1390) a + S1x64.size a ≤ S16384x64.size a := fun v1390 k0_hw128 => k0_hw128.1
theorem k0_off192_inb : ∀ (v1390 : BitVec 32) (k0_hw128 : k0_chk128 v1390), ∀ a, (k0_off192 v1390) a + S1x1.size a ≤ S16384x1.size a := fun v1390 k0_hw128 => k0_hw128.2

def k0_off193 (v1411 : BitVec 32) : Fin 2 → Nat :=
  let v1413 : Index := Scalar.indexCast v1411
  let c0_449 : Index := 0#32
  ![v1413.toNat, 0]

def k0_chk129 (v1411 : BitVec 32) : Prop :=
  (∀ a, (k0_off193 v1411) a + S1x64.size a ≤ S50000x64.size a)
instance k0_chk129.dec : ∀ (v1411 : BitVec 32), Decidable (k0_chk129 v1411) := fun v1411 => decidable_of_iff' _ (Iff.of_eq (k0_chk129.eq_1 v1411))
theorem k0_off193_inb : ∀ (v1411 : BitVec 32) (k0_hw129 : k0_chk129 v1411), ∀ a, (k0_off193 v1411) a + S1x64.size a ≤ S50000x64.size a := fun v1411 k0_hw129 => k0_hw129

def k0_off194 (v1412 : BitVec 32) : Fin 2 → Nat :=
  let v1416 : Index := Scalar.indexCast v1412
  let c0_450 : Index := 0#32
  ![v1416.toNat, 0]

def k0_off195 (v1412 : BitVec 32) : Fin 2 → Nat :=
  let v1424 : Index := Scalar.indexCast v1412
  let c0_452 : Index := 0#32
  ![v1424.toNat, 0]

def k0_chk130 (v1412 : BitVec 32) : Prop :=
  (∀ a, (k0_off194 v1412) a + S1x64.size a ≤ S16384x64.size a) ∧
  (∀ a, (k0_off195 v1412) a + S1x1.size a ≤ S16384x1.size a)
instance k0_chk130.dec : ∀ (v1412 : BitVec 32), Decidable (k0_chk130 v1412) := fun v1412 => decidable_of_iff' _ (Iff.of_eq (k0_chk130.eq_1 v1412))
theorem k0_off194_inb : ∀ (v1412 : BitVec 32) (k0_hw130 : k0_chk130 v1412), ∀ a, (k0_off194 v1412) a + S1x64.size a ≤ S16384x64.size a := fun v1412 k0_hw130 => k0_hw130.1
theorem k0_off195_inb : ∀ (v1412 : BitVec 32) (k0_hw130 : k0_chk130 v1412), ∀ a, (k0_off195 v1412) a + S1x1.size a ≤ S16384x1.size a := fun v1412 k0_hw130 => k0_hw130.2

def k0_off196 (v1433 : BitVec 32) : Fin 2 → Nat :=
  let v1435 : Index := Scalar.indexCast v1433
  let c0_456 : Index := 0#32
  ![v1435.toNat, 0]

def k0_chk131 (v1433 : BitVec 32) : Prop :=
  (∀ a, (k0_off196 v1433) a + S1x64.size a ≤ S50000x64.size a)
instance k0_chk131.dec : ∀ (v1433 : BitVec 32), Decidable (k0_chk131 v1433) := fun v1433 => decidable_of_iff' _ (Iff.of_eq (k0_chk131.eq_1 v1433))
theorem k0_off196_inb : ∀ (v1433 : BitVec 32) (k0_hw131 : k0_chk131 v1433), ∀ a, (k0_off196 v1433) a + S1x64.size a ≤ S50000x64.size a := fun v1433 k0_hw131 => k0_hw131

def k0_off197 (v1434 : BitVec 32) : Fin 2 → Nat :=
  let v1438 : Index := Scalar.indexCast v1434
  let c0_457 : Index := 0#32
  ![v1438.toNat, 0]

def k0_off198 (v1434 : BitVec 32) : Fin 2 → Nat :=
  let v1446 : Index := Scalar.indexCast v1434
  let c0_459 : Index := 0#32
  ![v1446.toNat, 0]

def k0_chk132 (v1434 : BitVec 32) : Prop :=
  (∀ a, (k0_off197 v1434) a + S1x64.size a ≤ S16384x64.size a) ∧
  (∀ a, (k0_off198 v1434) a + S1x1.size a ≤ S16384x1.size a)
instance k0_chk132.dec : ∀ (v1434 : BitVec 32), Decidable (k0_chk132 v1434) := fun v1434 => decidable_of_iff' _ (Iff.of_eq (k0_chk132.eq_1 v1434))
theorem k0_off197_inb : ∀ (v1434 : BitVec 32) (k0_hw132 : k0_chk132 v1434), ∀ a, (k0_off197 v1434) a + S1x64.size a ≤ S16384x64.size a := fun v1434 k0_hw132 => k0_hw132.1
theorem k0_off198_inb : ∀ (v1434 : BitVec 32) (k0_hw132 : k0_chk132 v1434), ∀ a, (k0_off198 v1434) a + S1x1.size a ≤ S16384x1.size a := fun v1434 k0_hw132 => k0_hw132.2

def k0_off199 (v1455 : BitVec 32) : Fin 2 → Nat :=
  let v1457 : Index := Scalar.indexCast v1455
  let c0_463 : Index := 0#32
  ![v1457.toNat, 0]

def k0_chk133 (v1455 : BitVec 32) : Prop :=
  (∀ a, (k0_off199 v1455) a + S1x64.size a ≤ S50000x64.size a)
instance k0_chk133.dec : ∀ (v1455 : BitVec 32), Decidable (k0_chk133 v1455) := fun v1455 => decidable_of_iff' _ (Iff.of_eq (k0_chk133.eq_1 v1455))
theorem k0_off199_inb : ∀ (v1455 : BitVec 32) (k0_hw133 : k0_chk133 v1455), ∀ a, (k0_off199 v1455) a + S1x64.size a ≤ S50000x64.size a := fun v1455 k0_hw133 => k0_hw133

def k0_off200 (v1456 : BitVec 32) : Fin 2 → Nat :=
  let v1460 : Index := Scalar.indexCast v1456
  let c0_464 : Index := 0#32
  ![v1460.toNat, 0]

def k0_off201 (v1456 : BitVec 32) : Fin 2 → Nat :=
  let v1468 : Index := Scalar.indexCast v1456
  let c0_466 : Index := 0#32
  ![v1468.toNat, 0]

def k0_chk134 (v1456 : BitVec 32) : Prop :=
  (∀ a, (k0_off200 v1456) a + S1x64.size a ≤ S16384x64.size a) ∧
  (∀ a, (k0_off201 v1456) a + S1x1.size a ≤ S16384x1.size a)
instance k0_chk134.dec : ∀ (v1456 : BitVec 32), Decidable (k0_chk134 v1456) := fun v1456 => decidable_of_iff' _ (Iff.of_eq (k0_chk134.eq_1 v1456))
theorem k0_off200_inb : ∀ (v1456 : BitVec 32) (k0_hw134 : k0_chk134 v1456), ∀ a, (k0_off200 v1456) a + S1x64.size a ≤ S16384x64.size a := fun v1456 k0_hw134 => k0_hw134.1
theorem k0_off201_inb : ∀ (v1456 : BitVec 32) (k0_hw134 : k0_chk134 v1456), ∀ a, (k0_off201 v1456) a + S1x1.size a ≤ S16384x1.size a := fun v1456 k0_hw134 => k0_hw134.2

def k0_off202 (v1477 : BitVec 32) : Fin 2 → Nat :=
  let v1479 : Index := Scalar.indexCast v1477
  let c0_470 : Index := 0#32
  ![v1479.toNat, 0]

def k0_chk135 (v1477 : BitVec 32) : Prop :=
  (∀ a, (k0_off202 v1477) a + S1x64.size a ≤ S50000x64.size a)
instance k0_chk135.dec : ∀ (v1477 : BitVec 32), Decidable (k0_chk135 v1477) := fun v1477 => decidable_of_iff' _ (Iff.of_eq (k0_chk135.eq_1 v1477))
theorem k0_off202_inb : ∀ (v1477 : BitVec 32) (k0_hw135 : k0_chk135 v1477), ∀ a, (k0_off202 v1477) a + S1x64.size a ≤ S50000x64.size a := fun v1477 k0_hw135 => k0_hw135

def k0_off203 (v1478 : BitVec 32) : Fin 2 → Nat :=
  let v1482 : Index := Scalar.indexCast v1478
  let c0_471 : Index := 0#32
  ![v1482.toNat, 0]

def k0_off204 (v1478 : BitVec 32) : Fin 2 → Nat :=
  let v1490 : Index := Scalar.indexCast v1478
  let c0_473 : Index := 0#32
  ![v1490.toNat, 0]

def k0_chk136 (v1478 : BitVec 32) : Prop :=
  (∀ a, (k0_off203 v1478) a + S1x64.size a ≤ S16384x64.size a) ∧
  (∀ a, (k0_off204 v1478) a + S1x1.size a ≤ S16384x1.size a)
instance k0_chk136.dec : ∀ (v1478 : BitVec 32), Decidable (k0_chk136 v1478) := fun v1478 => decidable_of_iff' _ (Iff.of_eq (k0_chk136.eq_1 v1478))
theorem k0_off203_inb : ∀ (v1478 : BitVec 32) (k0_hw136 : k0_chk136 v1478), ∀ a, (k0_off203 v1478) a + S1x64.size a ≤ S16384x64.size a := fun v1478 k0_hw136 => k0_hw136.1
theorem k0_off204_inb : ∀ (v1478 : BitVec 32) (k0_hw136 : k0_chk136 v1478), ∀ a, (k0_off204 v1478) a + S1x1.size a ≤ S16384x1.size a := fun v1478 k0_hw136 => k0_hw136.2

def k0_off205 (v1499 : BitVec 32) : Fin 2 → Nat :=
  let v1501 : Index := Scalar.indexCast v1499
  let c0_477 : Index := 0#32
  ![v1501.toNat, 0]

def k0_chk137 (v1499 : BitVec 32) : Prop :=
  (∀ a, (k0_off205 v1499) a + S1x64.size a ≤ S50000x64.size a)
instance k0_chk137.dec : ∀ (v1499 : BitVec 32), Decidable (k0_chk137 v1499) := fun v1499 => decidable_of_iff' _ (Iff.of_eq (k0_chk137.eq_1 v1499))
theorem k0_off205_inb : ∀ (v1499 : BitVec 32) (k0_hw137 : k0_chk137 v1499), ∀ a, (k0_off205 v1499) a + S1x64.size a ≤ S50000x64.size a := fun v1499 k0_hw137 => k0_hw137

def k0_off206 (v1500 : BitVec 32) : Fin 2 → Nat :=
  let v1504 : Index := Scalar.indexCast v1500
  let c0_478 : Index := 0#32
  ![v1504.toNat, 0]

def k0_off207 (v1500 : BitVec 32) : Fin 2 → Nat :=
  let v1512 : Index := Scalar.indexCast v1500
  let c0_480 : Index := 0#32
  ![v1512.toNat, 0]

def k0_chk138 (v1500 : BitVec 32) : Prop :=
  (∀ a, (k0_off206 v1500) a + S1x64.size a ≤ S16384x64.size a) ∧
  (∀ a, (k0_off207 v1500) a + S1x1.size a ≤ S16384x1.size a)
instance k0_chk138.dec : ∀ (v1500 : BitVec 32), Decidable (k0_chk138 v1500) := fun v1500 => decidable_of_iff' _ (Iff.of_eq (k0_chk138.eq_1 v1500))
theorem k0_off206_inb : ∀ (v1500 : BitVec 32) (k0_hw138 : k0_chk138 v1500), ∀ a, (k0_off206 v1500) a + S1x64.size a ≤ S16384x64.size a := fun v1500 k0_hw138 => k0_hw138.1
theorem k0_off207_inb : ∀ (v1500 : BitVec 32) (k0_hw138 : k0_chk138 v1500), ∀ a, (k0_off207 v1500) a + S1x1.size a ≤ S16384x1.size a := fun v1500 k0_hw138 => k0_hw138.2

def k0_off208 (v1521 : BitVec 32) : Fin 2 → Nat :=
  let v1523 : Index := Scalar.indexCast v1521
  let c0_484 : Index := 0#32
  ![v1523.toNat, 0]

def k0_chk139 (v1521 : BitVec 32) : Prop :=
  (∀ a, (k0_off208 v1521) a + S1x64.size a ≤ S50000x64.size a)
instance k0_chk139.dec : ∀ (v1521 : BitVec 32), Decidable (k0_chk139 v1521) := fun v1521 => decidable_of_iff' _ (Iff.of_eq (k0_chk139.eq_1 v1521))
theorem k0_off208_inb : ∀ (v1521 : BitVec 32) (k0_hw139 : k0_chk139 v1521), ∀ a, (k0_off208 v1521) a + S1x64.size a ≤ S50000x64.size a := fun v1521 k0_hw139 => k0_hw139

def k0_off209 (v1522 : BitVec 32) : Fin 2 → Nat :=
  let v1526 : Index := Scalar.indexCast v1522
  let c0_485 : Index := 0#32
  ![v1526.toNat, 0]

def k0_off210 (v1522 : BitVec 32) : Fin 2 → Nat :=
  let v1534 : Index := Scalar.indexCast v1522
  let c0_487 : Index := 0#32
  ![v1534.toNat, 0]

def k0_chk140 (v1522 : BitVec 32) : Prop :=
  (∀ a, (k0_off209 v1522) a + S1x64.size a ≤ S16384x64.size a) ∧
  (∀ a, (k0_off210 v1522) a + S1x1.size a ≤ S16384x1.size a)
instance k0_chk140.dec : ∀ (v1522 : BitVec 32), Decidable (k0_chk140 v1522) := fun v1522 => decidable_of_iff' _ (Iff.of_eq (k0_chk140.eq_1 v1522))
theorem k0_off209_inb : ∀ (v1522 : BitVec 32) (k0_hw140 : k0_chk140 v1522), ∀ a, (k0_off209 v1522) a + S1x64.size a ≤ S16384x64.size a := fun v1522 k0_hw140 => k0_hw140.1
theorem k0_off210_inb : ∀ (v1522 : BitVec 32) (k0_hw140 : k0_chk140 v1522), ∀ a, (k0_off210 v1522) a + S1x1.size a ≤ S16384x1.size a := fun v1522 k0_hw140 => k0_hw140.2

def k0_off211 (v1543 : BitVec 32) : Fin 2 → Nat :=
  let v1545 : Index := Scalar.indexCast v1543
  let c0_491 : Index := 0#32
  ![v1545.toNat, 0]

def k0_chk141 (v1543 : BitVec 32) : Prop :=
  (∀ a, (k0_off211 v1543) a + S1x64.size a ≤ S50000x64.size a)
instance k0_chk141.dec : ∀ (v1543 : BitVec 32), Decidable (k0_chk141 v1543) := fun v1543 => decidable_of_iff' _ (Iff.of_eq (k0_chk141.eq_1 v1543))
theorem k0_off211_inb : ∀ (v1543 : BitVec 32) (k0_hw141 : k0_chk141 v1543), ∀ a, (k0_off211 v1543) a + S1x64.size a ≤ S50000x64.size a := fun v1543 k0_hw141 => k0_hw141

def k0_off212 (v1544 : BitVec 32) : Fin 2 → Nat :=
  let v1548 : Index := Scalar.indexCast v1544
  let c0_492 : Index := 0#32
  ![v1548.toNat, 0]

def k0_off213 (v1544 : BitVec 32) : Fin 2 → Nat :=
  let v1556 : Index := Scalar.indexCast v1544
  let c0_494 : Index := 0#32
  ![v1556.toNat, 0]

def k0_chk142 (v1544 : BitVec 32) : Prop :=
  (∀ a, (k0_off212 v1544) a + S1x64.size a ≤ S16384x64.size a) ∧
  (∀ a, (k0_off213 v1544) a + S1x1.size a ≤ S16384x1.size a)
instance k0_chk142.dec : ∀ (v1544 : BitVec 32), Decidable (k0_chk142 v1544) := fun v1544 => decidable_of_iff' _ (Iff.of_eq (k0_chk142.eq_1 v1544))
theorem k0_off212_inb : ∀ (v1544 : BitVec 32) (k0_hw142 : k0_chk142 v1544), ∀ a, (k0_off212 v1544) a + S1x64.size a ≤ S16384x64.size a := fun v1544 k0_hw142 => k0_hw142.1
theorem k0_off213_inb : ∀ (v1544 : BitVec 32) (k0_hw142 : k0_chk142 v1544), ∀ a, (k0_off213 v1544) a + S1x1.size a ≤ S16384x1.size a := fun v1544 k0_hw142 => k0_hw142.2

def k0_off214 (v1565 : BitVec 32) : Fin 2 → Nat :=
  let v1567 : Index := Scalar.indexCast v1565
  let c0_498 : Index := 0#32
  ![v1567.toNat, 0]

def k0_chk143 (v1565 : BitVec 32) : Prop :=
  (∀ a, (k0_off214 v1565) a + S1x64.size a ≤ S50000x64.size a)
instance k0_chk143.dec : ∀ (v1565 : BitVec 32), Decidable (k0_chk143 v1565) := fun v1565 => decidable_of_iff' _ (Iff.of_eq (k0_chk143.eq_1 v1565))
theorem k0_off214_inb : ∀ (v1565 : BitVec 32) (k0_hw143 : k0_chk143 v1565), ∀ a, (k0_off214 v1565) a + S1x64.size a ≤ S50000x64.size a := fun v1565 k0_hw143 => k0_hw143

def k0_off215 (v1566 : BitVec 32) : Fin 2 → Nat :=
  let v1570 : Index := Scalar.indexCast v1566
  let c0_499 : Index := 0#32
  ![v1570.toNat, 0]

def k0_off216 (v1566 : BitVec 32) : Fin 2 → Nat :=
  let v1578 : Index := Scalar.indexCast v1566
  let c0_501 : Index := 0#32
  ![v1578.toNat, 0]

def k0_chk144 (v1566 : BitVec 32) : Prop :=
  (∀ a, (k0_off215 v1566) a + S1x64.size a ≤ S16384x64.size a) ∧
  (∀ a, (k0_off216 v1566) a + S1x1.size a ≤ S16384x1.size a)
instance k0_chk144.dec : ∀ (v1566 : BitVec 32), Decidable (k0_chk144 v1566) := fun v1566 => decidable_of_iff' _ (Iff.of_eq (k0_chk144.eq_1 v1566))
theorem k0_off215_inb : ∀ (v1566 : BitVec 32) (k0_hw144 : k0_chk144 v1566), ∀ a, (k0_off215 v1566) a + S1x64.size a ≤ S16384x64.size a := fun v1566 k0_hw144 => k0_hw144.1
theorem k0_off216_inb : ∀ (v1566 : BitVec 32) (k0_hw144 : k0_chk144 v1566), ∀ a, (k0_off216 v1566) a + S1x1.size a ≤ S16384x1.size a := fun v1566 k0_hw144 => k0_hw144.2

def k0_off217 (v1587 : BitVec 32) : Fin 2 → Nat :=
  let v1589 : Index := Scalar.indexCast v1587
  let c0_505 : Index := 0#32
  ![v1589.toNat, 0]

def k0_chk145 (v1587 : BitVec 32) : Prop :=
  (∀ a, (k0_off217 v1587) a + S1x64.size a ≤ S50000x64.size a)
instance k0_chk145.dec : ∀ (v1587 : BitVec 32), Decidable (k0_chk145 v1587) := fun v1587 => decidable_of_iff' _ (Iff.of_eq (k0_chk145.eq_1 v1587))
theorem k0_off217_inb : ∀ (v1587 : BitVec 32) (k0_hw145 : k0_chk145 v1587), ∀ a, (k0_off217 v1587) a + S1x64.size a ≤ S50000x64.size a := fun v1587 k0_hw145 => k0_hw145

def k0_off218 (v1588 : BitVec 32) : Fin 2 → Nat :=
  let v1592 : Index := Scalar.indexCast v1588
  let c0_506 : Index := 0#32
  ![v1592.toNat, 0]

def k0_off219 (v1588 : BitVec 32) : Fin 2 → Nat :=
  let v1600 : Index := Scalar.indexCast v1588
  let c0_508 : Index := 0#32
  ![v1600.toNat, 0]

def k0_chk146 (v1588 : BitVec 32) : Prop :=
  (∀ a, (k0_off218 v1588) a + S1x64.size a ≤ S16384x64.size a) ∧
  (∀ a, (k0_off219 v1588) a + S1x1.size a ≤ S16384x1.size a)
instance k0_chk146.dec : ∀ (v1588 : BitVec 32), Decidable (k0_chk146 v1588) := fun v1588 => decidable_of_iff' _ (Iff.of_eq (k0_chk146.eq_1 v1588))
theorem k0_off218_inb : ∀ (v1588 : BitVec 32) (k0_hw146 : k0_chk146 v1588), ∀ a, (k0_off218 v1588) a + S1x64.size a ≤ S16384x64.size a := fun v1588 k0_hw146 => k0_hw146.1
theorem k0_off219_inb : ∀ (v1588 : BitVec 32) (k0_hw146 : k0_chk146 v1588), ∀ a, (k0_off219 v1588) a + S1x1.size a ≤ S16384x1.size a := fun v1588 k0_hw146 => k0_hw146.2

def k0_off220 (v1609 : BitVec 32) : Fin 2 → Nat :=
  let v1611 : Index := Scalar.indexCast v1609
  let c0_512 : Index := 0#32
  ![v1611.toNat, 0]

def k0_chk147 (v1609 : BitVec 32) : Prop :=
  (∀ a, (k0_off220 v1609) a + S1x64.size a ≤ S50000x64.size a)
instance k0_chk147.dec : ∀ (v1609 : BitVec 32), Decidable (k0_chk147 v1609) := fun v1609 => decidable_of_iff' _ (Iff.of_eq (k0_chk147.eq_1 v1609))
theorem k0_off220_inb : ∀ (v1609 : BitVec 32) (k0_hw147 : k0_chk147 v1609), ∀ a, (k0_off220 v1609) a + S1x64.size a ≤ S50000x64.size a := fun v1609 k0_hw147 => k0_hw147

def k0_off221 (v1610 : BitVec 32) : Fin 2 → Nat :=
  let v1614 : Index := Scalar.indexCast v1610
  let c0_513 : Index := 0#32
  ![v1614.toNat, 0]

def k0_off222 (v1610 : BitVec 32) : Fin 2 → Nat :=
  let v1622 : Index := Scalar.indexCast v1610
  let c0_515 : Index := 0#32
  ![v1622.toNat, 0]

def k0_chk148 (v1610 : BitVec 32) : Prop :=
  (∀ a, (k0_off221 v1610) a + S1x64.size a ≤ S16384x64.size a) ∧
  (∀ a, (k0_off222 v1610) a + S1x1.size a ≤ S16384x1.size a)
instance k0_chk148.dec : ∀ (v1610 : BitVec 32), Decidable (k0_chk148 v1610) := fun v1610 => decidable_of_iff' _ (Iff.of_eq (k0_chk148.eq_1 v1610))
theorem k0_off221_inb : ∀ (v1610 : BitVec 32) (k0_hw148 : k0_chk148 v1610), ∀ a, (k0_off221 v1610) a + S1x64.size a ≤ S16384x64.size a := fun v1610 k0_hw148 => k0_hw148.1
theorem k0_off222_inb : ∀ (v1610 : BitVec 32) (k0_hw148 : k0_chk148 v1610), ∀ a, (k0_off222 v1610) a + S1x1.size a ≤ S16384x1.size a := fun v1610 k0_hw148 => k0_hw148.2

def k0_off223 (v1631 : BitVec 32) : Fin 2 → Nat :=
  let v1633 : Index := Scalar.indexCast v1631
  let c0_519 : Index := 0#32
  ![v1633.toNat, 0]

def k0_chk149 (v1631 : BitVec 32) : Prop :=
  (∀ a, (k0_off223 v1631) a + S1x64.size a ≤ S50000x64.size a)
instance k0_chk149.dec : ∀ (v1631 : BitVec 32), Decidable (k0_chk149 v1631) := fun v1631 => decidable_of_iff' _ (Iff.of_eq (k0_chk149.eq_1 v1631))
theorem k0_off223_inb : ∀ (v1631 : BitVec 32) (k0_hw149 : k0_chk149 v1631), ∀ a, (k0_off223 v1631) a + S1x64.size a ≤ S50000x64.size a := fun v1631 k0_hw149 => k0_hw149

def k0_off224 (v1632 : BitVec 32) : Fin 2 → Nat :=
  let v1636 : Index := Scalar.indexCast v1632
  let c0_520 : Index := 0#32
  ![v1636.toNat, 0]

def k0_off225 (v1632 : BitVec 32) : Fin 2 → Nat :=
  let v1644 : Index := Scalar.indexCast v1632
  let c0_522 : Index := 0#32
  ![v1644.toNat, 0]

def k0_chk150 (v1632 : BitVec 32) : Prop :=
  (∀ a, (k0_off224 v1632) a + S1x64.size a ≤ S16384x64.size a) ∧
  (∀ a, (k0_off225 v1632) a + S1x1.size a ≤ S16384x1.size a)
instance k0_chk150.dec : ∀ (v1632 : BitVec 32), Decidable (k0_chk150 v1632) := fun v1632 => decidable_of_iff' _ (Iff.of_eq (k0_chk150.eq_1 v1632))
theorem k0_off224_inb : ∀ (v1632 : BitVec 32) (k0_hw150 : k0_chk150 v1632), ∀ a, (k0_off224 v1632) a + S1x64.size a ≤ S16384x64.size a := fun v1632 k0_hw150 => k0_hw150.1
theorem k0_off225_inb : ∀ (v1632 : BitVec 32) (k0_hw150 : k0_chk150 v1632), ∀ a, (k0_off225 v1632) a + S1x1.size a ≤ S16384x1.size a := fun v1632 k0_hw150 => k0_hw150.2

def k0_off226 (v1653 : BitVec 32) : Fin 2 → Nat :=
  let v1655 : Index := Scalar.indexCast v1653
  let c0_526 : Index := 0#32
  ![v1655.toNat, 0]

def k0_chk151 (v1653 : BitVec 32) : Prop :=
  (∀ a, (k0_off226 v1653) a + S1x64.size a ≤ S50000x64.size a)
instance k0_chk151.dec : ∀ (v1653 : BitVec 32), Decidable (k0_chk151 v1653) := fun v1653 => decidable_of_iff' _ (Iff.of_eq (k0_chk151.eq_1 v1653))
theorem k0_off226_inb : ∀ (v1653 : BitVec 32) (k0_hw151 : k0_chk151 v1653), ∀ a, (k0_off226 v1653) a + S1x64.size a ≤ S50000x64.size a := fun v1653 k0_hw151 => k0_hw151

def k0_off227 (v1654 : BitVec 32) : Fin 2 → Nat :=
  let v1658 : Index := Scalar.indexCast v1654
  let c0_527 : Index := 0#32
  ![v1658.toNat, 0]

def k0_off228 (v1654 : BitVec 32) : Fin 2 → Nat :=
  let v1666 : Index := Scalar.indexCast v1654
  let c0_529 : Index := 0#32
  ![v1666.toNat, 0]

def k0_chk152 (v1654 : BitVec 32) : Prop :=
  (∀ a, (k0_off227 v1654) a + S1x64.size a ≤ S16384x64.size a) ∧
  (∀ a, (k0_off228 v1654) a + S1x1.size a ≤ S16384x1.size a)
instance k0_chk152.dec : ∀ (v1654 : BitVec 32), Decidable (k0_chk152 v1654) := fun v1654 => decidable_of_iff' _ (Iff.of_eq (k0_chk152.eq_1 v1654))
theorem k0_off227_inb : ∀ (v1654 : BitVec 32) (k0_hw152 : k0_chk152 v1654), ∀ a, (k0_off227 v1654) a + S1x64.size a ≤ S16384x64.size a := fun v1654 k0_hw152 => k0_hw152.1
theorem k0_off228_inb : ∀ (v1654 : BitVec 32) (k0_hw152 : k0_chk152 v1654), ∀ a, (k0_off228 v1654) a + S1x1.size a ≤ S16384x1.size a := fun v1654 k0_hw152 => k0_hw152.2

def k0_off229 (v1675 : BitVec 32) : Fin 2 → Nat :=
  let v1677 : Index := Scalar.indexCast v1675
  let c0_533 : Index := 0#32
  ![v1677.toNat, 0]

def k0_chk153 (v1675 : BitVec 32) : Prop :=
  (∀ a, (k0_off229 v1675) a + S1x64.size a ≤ S50000x64.size a)
instance k0_chk153.dec : ∀ (v1675 : BitVec 32), Decidable (k0_chk153 v1675) := fun v1675 => decidable_of_iff' _ (Iff.of_eq (k0_chk153.eq_1 v1675))
theorem k0_off229_inb : ∀ (v1675 : BitVec 32) (k0_hw153 : k0_chk153 v1675), ∀ a, (k0_off229 v1675) a + S1x64.size a ≤ S50000x64.size a := fun v1675 k0_hw153 => k0_hw153

def k0_off230 (v1676 : BitVec 32) : Fin 2 → Nat :=
  let v1680 : Index := Scalar.indexCast v1676
  let c0_534 : Index := 0#32
  ![v1680.toNat, 0]

def k0_off231 (v1676 : BitVec 32) : Fin 2 → Nat :=
  let v1688 : Index := Scalar.indexCast v1676
  let c0_536 : Index := 0#32
  ![v1688.toNat, 0]

def k0_chk154 (v1676 : BitVec 32) : Prop :=
  (∀ a, (k0_off230 v1676) a + S1x64.size a ≤ S16384x64.size a) ∧
  (∀ a, (k0_off231 v1676) a + S1x1.size a ≤ S16384x1.size a)
instance k0_chk154.dec : ∀ (v1676 : BitVec 32), Decidable (k0_chk154 v1676) := fun v1676 => decidable_of_iff' _ (Iff.of_eq (k0_chk154.eq_1 v1676))
theorem k0_off230_inb : ∀ (v1676 : BitVec 32) (k0_hw154 : k0_chk154 v1676), ∀ a, (k0_off230 v1676) a + S1x64.size a ≤ S16384x64.size a := fun v1676 k0_hw154 => k0_hw154.1
theorem k0_off231_inb : ∀ (v1676 : BitVec 32) (k0_hw154 : k0_chk154 v1676), ∀ a, (k0_off231 v1676) a + S1x1.size a ≤ S16384x1.size a := fun v1676 k0_hw154 => k0_hw154.2

def k0_off232 (v1697 : BitVec 32) : Fin 2 → Nat :=
  let v1699 : Index := Scalar.indexCast v1697
  let c0_540 : Index := 0#32
  ![v1699.toNat, 0]

def k0_chk155 (v1697 : BitVec 32) : Prop :=
  (∀ a, (k0_off232 v1697) a + S1x64.size a ≤ S50000x64.size a)
instance k0_chk155.dec : ∀ (v1697 : BitVec 32), Decidable (k0_chk155 v1697) := fun v1697 => decidable_of_iff' _ (Iff.of_eq (k0_chk155.eq_1 v1697))
theorem k0_off232_inb : ∀ (v1697 : BitVec 32) (k0_hw155 : k0_chk155 v1697), ∀ a, (k0_off232 v1697) a + S1x64.size a ≤ S50000x64.size a := fun v1697 k0_hw155 => k0_hw155

def k0_off233 (v1698 : BitVec 32) : Fin 2 → Nat :=
  let v1702 : Index := Scalar.indexCast v1698
  let c0_541 : Index := 0#32
  ![v1702.toNat, 0]

def k0_off234 (v1698 : BitVec 32) : Fin 2 → Nat :=
  let v1710 : Index := Scalar.indexCast v1698
  let c0_543 : Index := 0#32
  ![v1710.toNat, 0]

def k0_chk156 (v1698 : BitVec 32) : Prop :=
  (∀ a, (k0_off233 v1698) a + S1x64.size a ≤ S16384x64.size a) ∧
  (∀ a, (k0_off234 v1698) a + S1x1.size a ≤ S16384x1.size a)
instance k0_chk156.dec : ∀ (v1698 : BitVec 32), Decidable (k0_chk156 v1698) := fun v1698 => decidable_of_iff' _ (Iff.of_eq (k0_chk156.eq_1 v1698))
theorem k0_off233_inb : ∀ (v1698 : BitVec 32) (k0_hw156 : k0_chk156 v1698), ∀ a, (k0_off233 v1698) a + S1x64.size a ≤ S16384x64.size a := fun v1698 k0_hw156 => k0_hw156.1
theorem k0_off234_inb : ∀ (v1698 : BitVec 32) (k0_hw156 : k0_chk156 v1698), ∀ a, (k0_off234 v1698) a + S1x1.size a ≤ S16384x1.size a := fun v1698 k0_hw156 => k0_hw156.2

def k0_off235 (v1719 : BitVec 32) : Fin 2 → Nat :=
  let v1721 : Index := Scalar.indexCast v1719
  let c0_547 : Index := 0#32
  ![v1721.toNat, 0]

def k0_chk157 (v1719 : BitVec 32) : Prop :=
  (∀ a, (k0_off235 v1719) a + S1x64.size a ≤ S50000x64.size a)
instance k0_chk157.dec : ∀ (v1719 : BitVec 32), Decidable (k0_chk157 v1719) := fun v1719 => decidable_of_iff' _ (Iff.of_eq (k0_chk157.eq_1 v1719))
theorem k0_off235_inb : ∀ (v1719 : BitVec 32) (k0_hw157 : k0_chk157 v1719), ∀ a, (k0_off235 v1719) a + S1x64.size a ≤ S50000x64.size a := fun v1719 k0_hw157 => k0_hw157

def k0_off236 (v1720 : BitVec 32) : Fin 2 → Nat :=
  let v1724 : Index := Scalar.indexCast v1720
  let c0_548 : Index := 0#32
  ![v1724.toNat, 0]

def k0_off237 (v1720 : BitVec 32) : Fin 2 → Nat :=
  let v1732 : Index := Scalar.indexCast v1720
  let c0_550 : Index := 0#32
  ![v1732.toNat, 0]

def k0_chk158 (v1720 : BitVec 32) : Prop :=
  (∀ a, (k0_off236 v1720) a + S1x64.size a ≤ S16384x64.size a) ∧
  (∀ a, (k0_off237 v1720) a + S1x1.size a ≤ S16384x1.size a)
instance k0_chk158.dec : ∀ (v1720 : BitVec 32), Decidable (k0_chk158 v1720) := fun v1720 => decidable_of_iff' _ (Iff.of_eq (k0_chk158.eq_1 v1720))
theorem k0_off236_inb : ∀ (v1720 : BitVec 32) (k0_hw158 : k0_chk158 v1720), ∀ a, (k0_off236 v1720) a + S1x64.size a ≤ S16384x64.size a := fun v1720 k0_hw158 => k0_hw158.1
theorem k0_off237_inb : ∀ (v1720 : BitVec 32) (k0_hw158 : k0_chk158 v1720), ∀ a, (k0_off237 v1720) a + S1x1.size a ≤ S16384x1.size a := fun v1720 k0_hw158 => k0_hw158.2

def k0_off238 (v1741 : BitVec 32) : Fin 2 → Nat :=
  let v1743 : Index := Scalar.indexCast v1741
  let c0_554 : Index := 0#32
  ![v1743.toNat, 0]

def k0_chk159 (v1741 : BitVec 32) : Prop :=
  (∀ a, (k0_off238 v1741) a + S1x64.size a ≤ S50000x64.size a)
instance k0_chk159.dec : ∀ (v1741 : BitVec 32), Decidable (k0_chk159 v1741) := fun v1741 => decidable_of_iff' _ (Iff.of_eq (k0_chk159.eq_1 v1741))
theorem k0_off238_inb : ∀ (v1741 : BitVec 32) (k0_hw159 : k0_chk159 v1741), ∀ a, (k0_off238 v1741) a + S1x64.size a ≤ S50000x64.size a := fun v1741 k0_hw159 => k0_hw159

def k0_off239 (v1742 : BitVec 32) : Fin 2 → Nat :=
  let v1746 : Index := Scalar.indexCast v1742
  let c0_555 : Index := 0#32
  ![v1746.toNat, 0]

def k0_off240 (v1742 : BitVec 32) : Fin 2 → Nat :=
  let v1754 : Index := Scalar.indexCast v1742
  let c0_557 : Index := 0#32
  ![v1754.toNat, 0]

def k0_chk160 (v1742 : BitVec 32) : Prop :=
  (∀ a, (k0_off239 v1742) a + S1x64.size a ≤ S16384x64.size a) ∧
  (∀ a, (k0_off240 v1742) a + S1x1.size a ≤ S16384x1.size a)
instance k0_chk160.dec : ∀ (v1742 : BitVec 32), Decidable (k0_chk160 v1742) := fun v1742 => decidable_of_iff' _ (Iff.of_eq (k0_chk160.eq_1 v1742))
theorem k0_off239_inb : ∀ (v1742 : BitVec 32) (k0_hw160 : k0_chk160 v1742), ∀ a, (k0_off239 v1742) a + S1x64.size a ≤ S16384x64.size a := fun v1742 k0_hw160 => k0_hw160.1
theorem k0_off240_inb : ∀ (v1742 : BitVec 32) (k0_hw160 : k0_chk160 v1742), ∀ a, (k0_off240 v1742) a + S1x1.size a ≤ S16384x1.size a := fun v1742 k0_hw160 => k0_hw160.2

def k0_off241 (v1763 : BitVec 32) : Fin 2 → Nat :=
  let v1765 : Index := Scalar.indexCast v1763
  let c0_561 : Index := 0#32
  ![v1765.toNat, 0]

def k0_chk161 (v1763 : BitVec 32) : Prop :=
  (∀ a, (k0_off241 v1763) a + S1x64.size a ≤ S50000x64.size a)
instance k0_chk161.dec : ∀ (v1763 : BitVec 32), Decidable (k0_chk161 v1763) := fun v1763 => decidable_of_iff' _ (Iff.of_eq (k0_chk161.eq_1 v1763))
theorem k0_off241_inb : ∀ (v1763 : BitVec 32) (k0_hw161 : k0_chk161 v1763), ∀ a, (k0_off241 v1763) a + S1x64.size a ≤ S50000x64.size a := fun v1763 k0_hw161 => k0_hw161

def k0_off242 (v1764 : BitVec 32) : Fin 2 → Nat :=
  let v1768 : Index := Scalar.indexCast v1764
  let c0_562 : Index := 0#32
  ![v1768.toNat, 0]

def k0_off243 (v1764 : BitVec 32) : Fin 2 → Nat :=
  let v1776 : Index := Scalar.indexCast v1764
  let c0_564 : Index := 0#32
  ![v1776.toNat, 0]

def k0_chk162 (v1764 : BitVec 32) : Prop :=
  (∀ a, (k0_off242 v1764) a + S1x64.size a ≤ S16384x64.size a) ∧
  (∀ a, (k0_off243 v1764) a + S1x1.size a ≤ S16384x1.size a)
instance k0_chk162.dec : ∀ (v1764 : BitVec 32), Decidable (k0_chk162 v1764) := fun v1764 => decidable_of_iff' _ (Iff.of_eq (k0_chk162.eq_1 v1764))
theorem k0_off242_inb : ∀ (v1764 : BitVec 32) (k0_hw162 : k0_chk162 v1764), ∀ a, (k0_off242 v1764) a + S1x64.size a ≤ S16384x64.size a := fun v1764 k0_hw162 => k0_hw162.1
theorem k0_off243_inb : ∀ (v1764 : BitVec 32) (k0_hw162 : k0_chk162 v1764), ∀ a, (k0_off243 v1764) a + S1x1.size a ≤ S16384x1.size a := fun v1764 k0_hw162 => k0_hw162.2

def k0_off244 (v1785 : BitVec 32) : Fin 2 → Nat :=
  let v1787 : Index := Scalar.indexCast v1785
  let c0_568 : Index := 0#32
  ![v1787.toNat, 0]

def k0_chk163 (v1785 : BitVec 32) : Prop :=
  (∀ a, (k0_off244 v1785) a + S1x64.size a ≤ S50000x64.size a)
instance k0_chk163.dec : ∀ (v1785 : BitVec 32), Decidable (k0_chk163 v1785) := fun v1785 => decidable_of_iff' _ (Iff.of_eq (k0_chk163.eq_1 v1785))
theorem k0_off244_inb : ∀ (v1785 : BitVec 32) (k0_hw163 : k0_chk163 v1785), ∀ a, (k0_off244 v1785) a + S1x64.size a ≤ S50000x64.size a := fun v1785 k0_hw163 => k0_hw163

def k0_off245 (v1786 : BitVec 32) : Fin 2 → Nat :=
  let v1790 : Index := Scalar.indexCast v1786
  let c0_569 : Index := 0#32
  ![v1790.toNat, 0]

def k0_off246 (v1786 : BitVec 32) : Fin 2 → Nat :=
  let v1798 : Index := Scalar.indexCast v1786
  let c0_571 : Index := 0#32
  ![v1798.toNat, 0]

def k0_chk164 (v1786 : BitVec 32) : Prop :=
  (∀ a, (k0_off245 v1786) a + S1x64.size a ≤ S16384x64.size a) ∧
  (∀ a, (k0_off246 v1786) a + S1x1.size a ≤ S16384x1.size a)
instance k0_chk164.dec : ∀ (v1786 : BitVec 32), Decidable (k0_chk164 v1786) := fun v1786 => decidable_of_iff' _ (Iff.of_eq (k0_chk164.eq_1 v1786))
theorem k0_off245_inb : ∀ (v1786 : BitVec 32) (k0_hw164 : k0_chk164 v1786), ∀ a, (k0_off245 v1786) a + S1x64.size a ≤ S16384x64.size a := fun v1786 k0_hw164 => k0_hw164.1
theorem k0_off246_inb : ∀ (v1786 : BitVec 32) (k0_hw164 : k0_chk164 v1786), ∀ a, (k0_off246 v1786) a + S1x1.size a ≤ S16384x1.size a := fun v1786 k0_hw164 => k0_hw164.2

def k0_off247 (v1807 : BitVec 32) : Fin 2 → Nat :=
  let v1809 : Index := Scalar.indexCast v1807
  let c0_575 : Index := 0#32
  ![v1809.toNat, 0]

def k0_chk165 (v1807 : BitVec 32) : Prop :=
  (∀ a, (k0_off247 v1807) a + S1x64.size a ≤ S50000x64.size a)
instance k0_chk165.dec : ∀ (v1807 : BitVec 32), Decidable (k0_chk165 v1807) := fun v1807 => decidable_of_iff' _ (Iff.of_eq (k0_chk165.eq_1 v1807))
theorem k0_off247_inb : ∀ (v1807 : BitVec 32) (k0_hw165 : k0_chk165 v1807), ∀ a, (k0_off247 v1807) a + S1x64.size a ≤ S50000x64.size a := fun v1807 k0_hw165 => k0_hw165

def k0_off248 (v1808 : BitVec 32) : Fin 2 → Nat :=
  let v1812 : Index := Scalar.indexCast v1808
  let c0_576 : Index := 0#32
  ![v1812.toNat, 0]

def k0_off249 (v1808 : BitVec 32) : Fin 2 → Nat :=
  let v1820 : Index := Scalar.indexCast v1808
  let c0_578 : Index := 0#32
  ![v1820.toNat, 0]

def k0_chk166 (v1808 : BitVec 32) : Prop :=
  (∀ a, (k0_off248 v1808) a + S1x64.size a ≤ S16384x64.size a) ∧
  (∀ a, (k0_off249 v1808) a + S1x1.size a ≤ S16384x1.size a)
instance k0_chk166.dec : ∀ (v1808 : BitVec 32), Decidable (k0_chk166 v1808) := fun v1808 => decidable_of_iff' _ (Iff.of_eq (k0_chk166.eq_1 v1808))
theorem k0_off248_inb : ∀ (v1808 : BitVec 32) (k0_hw166 : k0_chk166 v1808), ∀ a, (k0_off248 v1808) a + S1x64.size a ≤ S16384x64.size a := fun v1808 k0_hw166 => k0_hw166.1
theorem k0_off249_inb : ∀ (v1808 : BitVec 32) (k0_hw166 : k0_chk166 v1808), ∀ a, (k0_off249 v1808) a + S1x1.size a ≤ S16384x1.size a := fun v1808 k0_hw166 => k0_hw166.2

def k0_off250 (v1829 : BitVec 32) : Fin 2 → Nat :=
  let v1831 : Index := Scalar.indexCast v1829
  let c0_582 : Index := 0#32
  ![v1831.toNat, 0]

def k0_chk167 (v1829 : BitVec 32) : Prop :=
  (∀ a, (k0_off250 v1829) a + S1x64.size a ≤ S50000x64.size a)
instance k0_chk167.dec : ∀ (v1829 : BitVec 32), Decidable (k0_chk167 v1829) := fun v1829 => decidable_of_iff' _ (Iff.of_eq (k0_chk167.eq_1 v1829))
theorem k0_off250_inb : ∀ (v1829 : BitVec 32) (k0_hw167 : k0_chk167 v1829), ∀ a, (k0_off250 v1829) a + S1x64.size a ≤ S50000x64.size a := fun v1829 k0_hw167 => k0_hw167

def k0_off251 (v1830 : BitVec 32) : Fin 2 → Nat :=
  let v1834 : Index := Scalar.indexCast v1830
  let c0_583 : Index := 0#32
  ![v1834.toNat, 0]

def k0_off252 (v1830 : BitVec 32) : Fin 2 → Nat :=
  let v1842 : Index := Scalar.indexCast v1830
  let c0_585 : Index := 0#32
  ![v1842.toNat, 0]

def k0_chk168 (v1830 : BitVec 32) : Prop :=
  (∀ a, (k0_off251 v1830) a + S1x64.size a ≤ S16384x64.size a) ∧
  (∀ a, (k0_off252 v1830) a + S1x1.size a ≤ S16384x1.size a)
instance k0_chk168.dec : ∀ (v1830 : BitVec 32), Decidable (k0_chk168 v1830) := fun v1830 => decidable_of_iff' _ (Iff.of_eq (k0_chk168.eq_1 v1830))
theorem k0_off251_inb : ∀ (v1830 : BitVec 32) (k0_hw168 : k0_chk168 v1830), ∀ a, (k0_off251 v1830) a + S1x64.size a ≤ S16384x64.size a := fun v1830 k0_hw168 => k0_hw168.1
theorem k0_off252_inb : ∀ (v1830 : BitVec 32) (k0_hw168 : k0_chk168 v1830), ∀ a, (k0_off252 v1830) a + S1x1.size a ≤ S16384x1.size a := fun v1830 k0_hw168 => k0_hw168.2

def k0_off253 (v1851 : BitVec 32) : Fin 2 → Nat :=
  let v1853 : Index := Scalar.indexCast v1851
  let c0_589 : Index := 0#32
  ![v1853.toNat, 0]

def k0_chk169 (v1851 : BitVec 32) : Prop :=
  (∀ a, (k0_off253 v1851) a + S1x64.size a ≤ S50000x64.size a)
instance k0_chk169.dec : ∀ (v1851 : BitVec 32), Decidable (k0_chk169 v1851) := fun v1851 => decidable_of_iff' _ (Iff.of_eq (k0_chk169.eq_1 v1851))
theorem k0_off253_inb : ∀ (v1851 : BitVec 32) (k0_hw169 : k0_chk169 v1851), ∀ a, (k0_off253 v1851) a + S1x64.size a ≤ S50000x64.size a := fun v1851 k0_hw169 => k0_hw169

def k0_off254 (v1852 : BitVec 32) : Fin 2 → Nat :=
  let v1856 : Index := Scalar.indexCast v1852
  let c0_590 : Index := 0#32
  ![v1856.toNat, 0]

def k0_off255 (v1852 : BitVec 32) : Fin 2 → Nat :=
  let v1864 : Index := Scalar.indexCast v1852
  let c0_592 : Index := 0#32
  ![v1864.toNat, 0]

def k0_chk170 (v1852 : BitVec 32) : Prop :=
  (∀ a, (k0_off254 v1852) a + S1x64.size a ≤ S16384x64.size a) ∧
  (∀ a, (k0_off255 v1852) a + S1x1.size a ≤ S16384x1.size a)
instance k0_chk170.dec : ∀ (v1852 : BitVec 32), Decidable (k0_chk170 v1852) := fun v1852 => decidable_of_iff' _ (Iff.of_eq (k0_chk170.eq_1 v1852))
theorem k0_off254_inb : ∀ (v1852 : BitVec 32) (k0_hw170 : k0_chk170 v1852), ∀ a, (k0_off254 v1852) a + S1x64.size a ≤ S16384x64.size a := fun v1852 k0_hw170 => k0_hw170.1
theorem k0_off255_inb : ∀ (v1852 : BitVec 32) (k0_hw170 : k0_chk170 v1852), ∀ a, (k0_off255 v1852) a + S1x1.size a ≤ S16384x1.size a := fun v1852 k0_hw170 => k0_hw170.2

def k0_off256 (v1873 : BitVec 32) : Fin 2 → Nat :=
  let v1875 : Index := Scalar.indexCast v1873
  let c0_596 : Index := 0#32
  ![v1875.toNat, 0]

def k0_chk171 (v1873 : BitVec 32) : Prop :=
  (∀ a, (k0_off256 v1873) a + S1x64.size a ≤ S50000x64.size a)
instance k0_chk171.dec : ∀ (v1873 : BitVec 32), Decidable (k0_chk171 v1873) := fun v1873 => decidable_of_iff' _ (Iff.of_eq (k0_chk171.eq_1 v1873))
theorem k0_off256_inb : ∀ (v1873 : BitVec 32) (k0_hw171 : k0_chk171 v1873), ∀ a, (k0_off256 v1873) a + S1x64.size a ≤ S50000x64.size a := fun v1873 k0_hw171 => k0_hw171

def k0_off257 (v1874 : BitVec 32) : Fin 2 → Nat :=
  let v1878 : Index := Scalar.indexCast v1874
  let c0_597 : Index := 0#32
  ![v1878.toNat, 0]

def k0_off258 (v1874 : BitVec 32) : Fin 2 → Nat :=
  let v1886 : Index := Scalar.indexCast v1874
  let c0_599 : Index := 0#32
  ![v1886.toNat, 0]

def k0_chk172 (v1874 : BitVec 32) : Prop :=
  (∀ a, (k0_off257 v1874) a + S1x64.size a ≤ S16384x64.size a) ∧
  (∀ a, (k0_off258 v1874) a + S1x1.size a ≤ S16384x1.size a)
instance k0_chk172.dec : ∀ (v1874 : BitVec 32), Decidable (k0_chk172 v1874) := fun v1874 => decidable_of_iff' _ (Iff.of_eq (k0_chk172.eq_1 v1874))
theorem k0_off257_inb : ∀ (v1874 : BitVec 32) (k0_hw172 : k0_chk172 v1874), ∀ a, (k0_off257 v1874) a + S1x64.size a ≤ S16384x64.size a := fun v1874 k0_hw172 => k0_hw172.1
theorem k0_off258_inb : ∀ (v1874 : BitVec 32) (k0_hw172 : k0_chk172 v1874), ∀ a, (k0_off258 v1874) a + S1x1.size a ≤ S16384x1.size a := fun v1874 k0_hw172 => k0_hw172.2

def k0_off259 (v1895 : BitVec 32) : Fin 2 → Nat :=
  let v1897 : Index := Scalar.indexCast v1895
  let c0_603 : Index := 0#32
  ![v1897.toNat, 0]

def k0_chk173 (v1895 : BitVec 32) : Prop :=
  (∀ a, (k0_off259 v1895) a + S1x64.size a ≤ S50000x64.size a)
instance k0_chk173.dec : ∀ (v1895 : BitVec 32), Decidable (k0_chk173 v1895) := fun v1895 => decidable_of_iff' _ (Iff.of_eq (k0_chk173.eq_1 v1895))
theorem k0_off259_inb : ∀ (v1895 : BitVec 32) (k0_hw173 : k0_chk173 v1895), ∀ a, (k0_off259 v1895) a + S1x64.size a ≤ S50000x64.size a := fun v1895 k0_hw173 => k0_hw173

def k0_off260 (v1896 : BitVec 32) : Fin 2 → Nat :=
  let v1900 : Index := Scalar.indexCast v1896
  let c0_604 : Index := 0#32
  ![v1900.toNat, 0]

def k0_off261 (v1896 : BitVec 32) : Fin 2 → Nat :=
  let v1908 : Index := Scalar.indexCast v1896
  let c0_606 : Index := 0#32
  ![v1908.toNat, 0]

def k0_chk174 (v1896 : BitVec 32) : Prop :=
  (∀ a, (k0_off260 v1896) a + S1x64.size a ≤ S16384x64.size a) ∧
  (∀ a, (k0_off261 v1896) a + S1x1.size a ≤ S16384x1.size a)
instance k0_chk174.dec : ∀ (v1896 : BitVec 32), Decidable (k0_chk174 v1896) := fun v1896 => decidable_of_iff' _ (Iff.of_eq (k0_chk174.eq_1 v1896))
theorem k0_off260_inb : ∀ (v1896 : BitVec 32) (k0_hw174 : k0_chk174 v1896), ∀ a, (k0_off260 v1896) a + S1x64.size a ≤ S16384x64.size a := fun v1896 k0_hw174 => k0_hw174.1
theorem k0_off261_inb : ∀ (v1896 : BitVec 32) (k0_hw174 : k0_chk174 v1896), ∀ a, (k0_off261 v1896) a + S1x1.size a ≤ S16384x1.size a := fun v1896 k0_hw174 => k0_hw174.2

def k0_off262 (v1917 : BitVec 32) : Fin 2 → Nat :=
  let v1919 : Index := Scalar.indexCast v1917
  let c0_610 : Index := 0#32
  ![v1919.toNat, 0]

def k0_chk175 (v1917 : BitVec 32) : Prop :=
  (∀ a, (k0_off262 v1917) a + S1x64.size a ≤ S50000x64.size a)
instance k0_chk175.dec : ∀ (v1917 : BitVec 32), Decidable (k0_chk175 v1917) := fun v1917 => decidable_of_iff' _ (Iff.of_eq (k0_chk175.eq_1 v1917))
theorem k0_off262_inb : ∀ (v1917 : BitVec 32) (k0_hw175 : k0_chk175 v1917), ∀ a, (k0_off262 v1917) a + S1x64.size a ≤ S50000x64.size a := fun v1917 k0_hw175 => k0_hw175

def k0_off263 (v1918 : BitVec 32) : Fin 2 → Nat :=
  let v1922 : Index := Scalar.indexCast v1918
  let c0_611 : Index := 0#32
  ![v1922.toNat, 0]

def k0_off264 (v1918 : BitVec 32) : Fin 2 → Nat :=
  let v1930 : Index := Scalar.indexCast v1918
  let c0_613 : Index := 0#32
  ![v1930.toNat, 0]

def k0_chk176 (v1918 : BitVec 32) : Prop :=
  (∀ a, (k0_off263 v1918) a + S1x64.size a ≤ S16384x64.size a) ∧
  (∀ a, (k0_off264 v1918) a + S1x1.size a ≤ S16384x1.size a)
instance k0_chk176.dec : ∀ (v1918 : BitVec 32), Decidable (k0_chk176 v1918) := fun v1918 => decidable_of_iff' _ (Iff.of_eq (k0_chk176.eq_1 v1918))
theorem k0_off263_inb : ∀ (v1918 : BitVec 32) (k0_hw176 : k0_chk176 v1918), ∀ a, (k0_off263 v1918) a + S1x64.size a ≤ S16384x64.size a := fun v1918 k0_hw176 => k0_hw176.1
theorem k0_off264_inb : ∀ (v1918 : BitVec 32) (k0_hw176 : k0_chk176 v1918), ∀ a, (k0_off264 v1918) a + S1x1.size a ≤ S16384x1.size a := fun v1918 k0_hw176 => k0_hw176.2

def k0_off265 (v1939 : BitVec 32) : Fin 2 → Nat :=
  let v1941 : Index := Scalar.indexCast v1939
  let c0_617 : Index := 0#32
  ![v1941.toNat, 0]

def k0_chk177 (v1939 : BitVec 32) : Prop :=
  (∀ a, (k0_off265 v1939) a + S1x64.size a ≤ S50000x64.size a)
instance k0_chk177.dec : ∀ (v1939 : BitVec 32), Decidable (k0_chk177 v1939) := fun v1939 => decidable_of_iff' _ (Iff.of_eq (k0_chk177.eq_1 v1939))
theorem k0_off265_inb : ∀ (v1939 : BitVec 32) (k0_hw177 : k0_chk177 v1939), ∀ a, (k0_off265 v1939) a + S1x64.size a ≤ S50000x64.size a := fun v1939 k0_hw177 => k0_hw177

def k0_off266 (v1940 : BitVec 32) : Fin 2 → Nat :=
  let v1944 : Index := Scalar.indexCast v1940
  let c0_618 : Index := 0#32
  ![v1944.toNat, 0]

def k0_off267 (v1940 : BitVec 32) : Fin 2 → Nat :=
  let v1952 : Index := Scalar.indexCast v1940
  let c0_620 : Index := 0#32
  ![v1952.toNat, 0]

def k0_chk178 (v1940 : BitVec 32) : Prop :=
  (∀ a, (k0_off266 v1940) a + S1x64.size a ≤ S16384x64.size a) ∧
  (∀ a, (k0_off267 v1940) a + S1x1.size a ≤ S16384x1.size a)
instance k0_chk178.dec : ∀ (v1940 : BitVec 32), Decidable (k0_chk178 v1940) := fun v1940 => decidable_of_iff' _ (Iff.of_eq (k0_chk178.eq_1 v1940))
theorem k0_off266_inb : ∀ (v1940 : BitVec 32) (k0_hw178 : k0_chk178 v1940), ∀ a, (k0_off266 v1940) a + S1x64.size a ≤ S16384x64.size a := fun v1940 k0_hw178 => k0_hw178.1
theorem k0_off267_inb : ∀ (v1940 : BitVec 32) (k0_hw178 : k0_chk178 v1940), ∀ a, (k0_off267 v1940) a + S1x1.size a ≤ S16384x1.size a := fun v1940 k0_hw178 => k0_hw178.2

def k0_off268 (v1961 : BitVec 32) : Fin 2 → Nat :=
  let v1963 : Index := Scalar.indexCast v1961
  let c0_624 : Index := 0#32
  ![v1963.toNat, 0]

def k0_chk179 (v1961 : BitVec 32) : Prop :=
  (∀ a, (k0_off268 v1961) a + S1x64.size a ≤ S50000x64.size a)
instance k0_chk179.dec : ∀ (v1961 : BitVec 32), Decidable (k0_chk179 v1961) := fun v1961 => decidable_of_iff' _ (Iff.of_eq (k0_chk179.eq_1 v1961))
theorem k0_off268_inb : ∀ (v1961 : BitVec 32) (k0_hw179 : k0_chk179 v1961), ∀ a, (k0_off268 v1961) a + S1x64.size a ≤ S50000x64.size a := fun v1961 k0_hw179 => k0_hw179

def k0_off269 (v1962 : BitVec 32) : Fin 2 → Nat :=
  let v1966 : Index := Scalar.indexCast v1962
  let c0_625 : Index := 0#32
  ![v1966.toNat, 0]

def k0_off270 (v1962 : BitVec 32) : Fin 2 → Nat :=
  let v1974 : Index := Scalar.indexCast v1962
  let c0_627 : Index := 0#32
  ![v1974.toNat, 0]

def k0_chk180 (v1962 : BitVec 32) : Prop :=
  (∀ a, (k0_off269 v1962) a + S1x64.size a ≤ S16384x64.size a) ∧
  (∀ a, (k0_off270 v1962) a + S1x1.size a ≤ S16384x1.size a)
instance k0_chk180.dec : ∀ (v1962 : BitVec 32), Decidable (k0_chk180 v1962) := fun v1962 => decidable_of_iff' _ (Iff.of_eq (k0_chk180.eq_1 v1962))
theorem k0_off269_inb : ∀ (v1962 : BitVec 32) (k0_hw180 : k0_chk180 v1962), ∀ a, (k0_off269 v1962) a + S1x64.size a ≤ S16384x64.size a := fun v1962 k0_hw180 => k0_hw180.1
theorem k0_off270_inb : ∀ (v1962 : BitVec 32) (k0_hw180 : k0_chk180 v1962), ∀ a, (k0_off270 v1962) a + S1x1.size a ≤ S16384x1.size a := fun v1962 k0_hw180 => k0_hw180.2

def k0_off271 (v1983 : BitVec 32) : Fin 2 → Nat :=
  let v1985 : Index := Scalar.indexCast v1983
  let c0_631 : Index := 0#32
  ![v1985.toNat, 0]

def k0_chk181 (v1983 : BitVec 32) : Prop :=
  (∀ a, (k0_off271 v1983) a + S1x64.size a ≤ S50000x64.size a)
instance k0_chk181.dec : ∀ (v1983 : BitVec 32), Decidable (k0_chk181 v1983) := fun v1983 => decidable_of_iff' _ (Iff.of_eq (k0_chk181.eq_1 v1983))
theorem k0_off271_inb : ∀ (v1983 : BitVec 32) (k0_hw181 : k0_chk181 v1983), ∀ a, (k0_off271 v1983) a + S1x64.size a ≤ S50000x64.size a := fun v1983 k0_hw181 => k0_hw181

def k0_off272 (v1984 : BitVec 32) : Fin 2 → Nat :=
  let v1988 : Index := Scalar.indexCast v1984
  let c0_632 : Index := 0#32
  ![v1988.toNat, 0]

def k0_off273 (v1984 : BitVec 32) : Fin 2 → Nat :=
  let v1996 : Index := Scalar.indexCast v1984
  let c0_634 : Index := 0#32
  ![v1996.toNat, 0]

def k0_chk182 (v1984 : BitVec 32) : Prop :=
  (∀ a, (k0_off272 v1984) a + S1x64.size a ≤ S16384x64.size a) ∧
  (∀ a, (k0_off273 v1984) a + S1x1.size a ≤ S16384x1.size a)
instance k0_chk182.dec : ∀ (v1984 : BitVec 32), Decidable (k0_chk182 v1984) := fun v1984 => decidable_of_iff' _ (Iff.of_eq (k0_chk182.eq_1 v1984))
theorem k0_off272_inb : ∀ (v1984 : BitVec 32) (k0_hw182 : k0_chk182 v1984), ∀ a, (k0_off272 v1984) a + S1x64.size a ≤ S16384x64.size a := fun v1984 k0_hw182 => k0_hw182.1
theorem k0_off273_inb : ∀ (v1984 : BitVec 32) (k0_hw182 : k0_chk182 v1984), ∀ a, (k0_off273 v1984) a + S1x1.size a ≤ S16384x1.size a := fun v1984 k0_hw182 => k0_hw182.2

def k0_off274 (v2005 : BitVec 32) : Fin 2 → Nat :=
  let v2007 : Index := Scalar.indexCast v2005
  let c0_638 : Index := 0#32
  ![v2007.toNat, 0]

def k0_chk183 (v2005 : BitVec 32) : Prop :=
  (∀ a, (k0_off274 v2005) a + S1x64.size a ≤ S50000x64.size a)
instance k0_chk183.dec : ∀ (v2005 : BitVec 32), Decidable (k0_chk183 v2005) := fun v2005 => decidable_of_iff' _ (Iff.of_eq (k0_chk183.eq_1 v2005))
theorem k0_off274_inb : ∀ (v2005 : BitVec 32) (k0_hw183 : k0_chk183 v2005), ∀ a, (k0_off274 v2005) a + S1x64.size a ≤ S50000x64.size a := fun v2005 k0_hw183 => k0_hw183

def k0_off275 (v2006 : BitVec 32) : Fin 2 → Nat :=
  let v2010 : Index := Scalar.indexCast v2006
  let c0_639 : Index := 0#32
  ![v2010.toNat, 0]

def k0_off276 (v2006 : BitVec 32) : Fin 2 → Nat :=
  let v2018 : Index := Scalar.indexCast v2006
  let c0_641 : Index := 0#32
  ![v2018.toNat, 0]

def k0_chk184 (v2006 : BitVec 32) : Prop :=
  (∀ a, (k0_off275 v2006) a + S1x64.size a ≤ S16384x64.size a) ∧
  (∀ a, (k0_off276 v2006) a + S1x1.size a ≤ S16384x1.size a)
instance k0_chk184.dec : ∀ (v2006 : BitVec 32), Decidable (k0_chk184 v2006) := fun v2006 => decidable_of_iff' _ (Iff.of_eq (k0_chk184.eq_1 v2006))
theorem k0_off275_inb : ∀ (v2006 : BitVec 32) (k0_hw184 : k0_chk184 v2006), ∀ a, (k0_off275 v2006) a + S1x64.size a ≤ S16384x64.size a := fun v2006 k0_hw184 => k0_hw184.1
theorem k0_off276_inb : ∀ (v2006 : BitVec 32) (k0_hw184 : k0_chk184 v2006), ∀ a, (k0_off276 v2006) a + S1x1.size a ≤ S16384x1.size a := fun v2006 k0_hw184 => k0_hw184.2

def k0_off277 (v2027 : BitVec 32) : Fin 2 → Nat :=
  let v2029 : Index := Scalar.indexCast v2027
  let c0_645 : Index := 0#32
  ![v2029.toNat, 0]

def k0_chk185 (v2027 : BitVec 32) : Prop :=
  (∀ a, (k0_off277 v2027) a + S1x64.size a ≤ S50000x64.size a)
instance k0_chk185.dec : ∀ (v2027 : BitVec 32), Decidable (k0_chk185 v2027) := fun v2027 => decidable_of_iff' _ (Iff.of_eq (k0_chk185.eq_1 v2027))
theorem k0_off277_inb : ∀ (v2027 : BitVec 32) (k0_hw185 : k0_chk185 v2027), ∀ a, (k0_off277 v2027) a + S1x64.size a ≤ S50000x64.size a := fun v2027 k0_hw185 => k0_hw185

def k0_off278 (v2028 : BitVec 32) : Fin 2 → Nat :=
  let v2032 : Index := Scalar.indexCast v2028
  let c0_646 : Index := 0#32
  ![v2032.toNat, 0]

def k0_off279 (v2028 : BitVec 32) : Fin 2 → Nat :=
  let v2040 : Index := Scalar.indexCast v2028
  let c0_648 : Index := 0#32
  ![v2040.toNat, 0]

def k0_chk186 (v2028 : BitVec 32) : Prop :=
  (∀ a, (k0_off278 v2028) a + S1x64.size a ≤ S16384x64.size a) ∧
  (∀ a, (k0_off279 v2028) a + S1x1.size a ≤ S16384x1.size a)
instance k0_chk186.dec : ∀ (v2028 : BitVec 32), Decidable (k0_chk186 v2028) := fun v2028 => decidable_of_iff' _ (Iff.of_eq (k0_chk186.eq_1 v2028))
theorem k0_off278_inb : ∀ (v2028 : BitVec 32) (k0_hw186 : k0_chk186 v2028), ∀ a, (k0_off278 v2028) a + S1x64.size a ≤ S16384x64.size a := fun v2028 k0_hw186 => k0_hw186.1
theorem k0_off279_inb : ∀ (v2028 : BitVec 32) (k0_hw186 : k0_chk186 v2028), ∀ a, (k0_off279 v2028) a + S1x1.size a ≤ S16384x1.size a := fun v2028 k0_hw186 => k0_hw186.2

def k0_off280 (v2049 : BitVec 32) : Fin 2 → Nat :=
  let v2051 : Index := Scalar.indexCast v2049
  let c0_652 : Index := 0#32
  ![v2051.toNat, 0]

def k0_chk187 (v2049 : BitVec 32) : Prop :=
  (∀ a, (k0_off280 v2049) a + S1x64.size a ≤ S50000x64.size a)
instance k0_chk187.dec : ∀ (v2049 : BitVec 32), Decidable (k0_chk187 v2049) := fun v2049 => decidable_of_iff' _ (Iff.of_eq (k0_chk187.eq_1 v2049))
theorem k0_off280_inb : ∀ (v2049 : BitVec 32) (k0_hw187 : k0_chk187 v2049), ∀ a, (k0_off280 v2049) a + S1x64.size a ≤ S50000x64.size a := fun v2049 k0_hw187 => k0_hw187

def k0_off281 (v2050 : BitVec 32) : Fin 2 → Nat :=
  let v2054 : Index := Scalar.indexCast v2050
  let c0_653 : Index := 0#32
  ![v2054.toNat, 0]

def k0_off282 (v2050 : BitVec 32) : Fin 2 → Nat :=
  let v2062 : Index := Scalar.indexCast v2050
  let c0_655 : Index := 0#32
  ![v2062.toNat, 0]

def k0_chk188 (v2050 : BitVec 32) : Prop :=
  (∀ a, (k0_off281 v2050) a + S1x64.size a ≤ S16384x64.size a) ∧
  (∀ a, (k0_off282 v2050) a + S1x1.size a ≤ S16384x1.size a)
instance k0_chk188.dec : ∀ (v2050 : BitVec 32), Decidable (k0_chk188 v2050) := fun v2050 => decidable_of_iff' _ (Iff.of_eq (k0_chk188.eq_1 v2050))
theorem k0_off281_inb : ∀ (v2050 : BitVec 32) (k0_hw188 : k0_chk188 v2050), ∀ a, (k0_off281 v2050) a + S1x64.size a ≤ S16384x64.size a := fun v2050 k0_hw188 => k0_hw188.1
theorem k0_off282_inb : ∀ (v2050 : BitVec 32) (k0_hw188 : k0_chk188 v2050), ∀ a, (k0_off282 v2050) a + S1x1.size a ≤ S16384x1.size a := fun v2050 k0_hw188 => k0_hw188.2

def k0_off283 (v2071 : BitVec 32) : Fin 2 → Nat :=
  let v2073 : Index := Scalar.indexCast v2071
  let c0_659 : Index := 0#32
  ![v2073.toNat, 0]

def k0_chk189 (v2071 : BitVec 32) : Prop :=
  (∀ a, (k0_off283 v2071) a + S1x64.size a ≤ S50000x64.size a)
instance k0_chk189.dec : ∀ (v2071 : BitVec 32), Decidable (k0_chk189 v2071) := fun v2071 => decidable_of_iff' _ (Iff.of_eq (k0_chk189.eq_1 v2071))
theorem k0_off283_inb : ∀ (v2071 : BitVec 32) (k0_hw189 : k0_chk189 v2071), ∀ a, (k0_off283 v2071) a + S1x64.size a ≤ S50000x64.size a := fun v2071 k0_hw189 => k0_hw189

def k0_off284 (v2072 : BitVec 32) : Fin 2 → Nat :=
  let v2076 : Index := Scalar.indexCast v2072
  let c0_660 : Index := 0#32
  ![v2076.toNat, 0]

def k0_off285 (v2072 : BitVec 32) : Fin 2 → Nat :=
  let v2084 : Index := Scalar.indexCast v2072
  let c0_662 : Index := 0#32
  ![v2084.toNat, 0]

def k0_chk190 (v2072 : BitVec 32) : Prop :=
  (∀ a, (k0_off284 v2072) a + S1x64.size a ≤ S16384x64.size a) ∧
  (∀ a, (k0_off285 v2072) a + S1x1.size a ≤ S16384x1.size a)
instance k0_chk190.dec : ∀ (v2072 : BitVec 32), Decidable (k0_chk190 v2072) := fun v2072 => decidable_of_iff' _ (Iff.of_eq (k0_chk190.eq_1 v2072))
theorem k0_off284_inb : ∀ (v2072 : BitVec 32) (k0_hw190 : k0_chk190 v2072), ∀ a, (k0_off284 v2072) a + S1x64.size a ≤ S16384x64.size a := fun v2072 k0_hw190 => k0_hw190.1
theorem k0_off285_inb : ∀ (v2072 : BitVec 32) (k0_hw190 : k0_chk190 v2072), ∀ a, (k0_off285 v2072) a + S1x1.size a ≤ S16384x1.size a := fun v2072 k0_hw190 => k0_hw190.2

def k0_off286 (v2093 : BitVec 32) : Fin 2 → Nat :=
  let v2095 : Index := Scalar.indexCast v2093
  let c0_666 : Index := 0#32
  ![v2095.toNat, 0]

def k0_chk191 (v2093 : BitVec 32) : Prop :=
  (∀ a, (k0_off286 v2093) a + S1x64.size a ≤ S50000x64.size a)
instance k0_chk191.dec : ∀ (v2093 : BitVec 32), Decidable (k0_chk191 v2093) := fun v2093 => decidable_of_iff' _ (Iff.of_eq (k0_chk191.eq_1 v2093))
theorem k0_off286_inb : ∀ (v2093 : BitVec 32) (k0_hw191 : k0_chk191 v2093), ∀ a, (k0_off286 v2093) a + S1x64.size a ≤ S50000x64.size a := fun v2093 k0_hw191 => k0_hw191

def k0_off287 (v2094 : BitVec 32) : Fin 2 → Nat :=
  let v2098 : Index := Scalar.indexCast v2094
  let c0_667 : Index := 0#32
  ![v2098.toNat, 0]

def k0_off288 (v2094 : BitVec 32) : Fin 2 → Nat :=
  let v2106 : Index := Scalar.indexCast v2094
  let c0_669 : Index := 0#32
  ![v2106.toNat, 0]

def k0_chk192 (v2094 : BitVec 32) : Prop :=
  (∀ a, (k0_off287 v2094) a + S1x64.size a ≤ S16384x64.size a) ∧
  (∀ a, (k0_off288 v2094) a + S1x1.size a ≤ S16384x1.size a)
instance k0_chk192.dec : ∀ (v2094 : BitVec 32), Decidable (k0_chk192 v2094) := fun v2094 => decidable_of_iff' _ (Iff.of_eq (k0_chk192.eq_1 v2094))
theorem k0_off287_inb : ∀ (v2094 : BitVec 32) (k0_hw192 : k0_chk192 v2094), ∀ a, (k0_off287 v2094) a + S1x64.size a ≤ S16384x64.size a := fun v2094 k0_hw192 => k0_hw192.1
theorem k0_off288_inb : ∀ (v2094 : BitVec 32) (k0_hw192 : k0_chk192 v2094), ∀ a, (k0_off288 v2094) a + S1x1.size a ≤ S16384x1.size a := fun v2094 k0_hw192 => k0_hw192.2

def k0_off289 (v2115 : BitVec 32) : Fin 2 → Nat :=
  let v2117 : Index := Scalar.indexCast v2115
  let c0_673 : Index := 0#32
  ![v2117.toNat, 0]

def k0_chk193 (v2115 : BitVec 32) : Prop :=
  (∀ a, (k0_off289 v2115) a + S1x64.size a ≤ S50000x64.size a)
instance k0_chk193.dec : ∀ (v2115 : BitVec 32), Decidable (k0_chk193 v2115) := fun v2115 => decidable_of_iff' _ (Iff.of_eq (k0_chk193.eq_1 v2115))
theorem k0_off289_inb : ∀ (v2115 : BitVec 32) (k0_hw193 : k0_chk193 v2115), ∀ a, (k0_off289 v2115) a + S1x64.size a ≤ S50000x64.size a := fun v2115 k0_hw193 => k0_hw193

def k0_off290 (v2116 : BitVec 32) : Fin 2 → Nat :=
  let v2120 : Index := Scalar.indexCast v2116
  let c0_674 : Index := 0#32
  ![v2120.toNat, 0]

def k0_off291 (v2116 : BitVec 32) : Fin 2 → Nat :=
  let v2128 : Index := Scalar.indexCast v2116
  let c0_676 : Index := 0#32
  ![v2128.toNat, 0]

def k0_chk194 (v2116 : BitVec 32) : Prop :=
  (∀ a, (k0_off290 v2116) a + S1x64.size a ≤ S16384x64.size a) ∧
  (∀ a, (k0_off291 v2116) a + S1x1.size a ≤ S16384x1.size a)
instance k0_chk194.dec : ∀ (v2116 : BitVec 32), Decidable (k0_chk194 v2116) := fun v2116 => decidable_of_iff' _ (Iff.of_eq (k0_chk194.eq_1 v2116))
theorem k0_off290_inb : ∀ (v2116 : BitVec 32) (k0_hw194 : k0_chk194 v2116), ∀ a, (k0_off290 v2116) a + S1x64.size a ≤ S16384x64.size a := fun v2116 k0_hw194 => k0_hw194.1
theorem k0_off291_inb : ∀ (v2116 : BitVec 32) (k0_hw194 : k0_chk194 v2116), ∀ a, (k0_off291 v2116) a + S1x1.size a ≤ S16384x1.size a := fun v2116 k0_hw194 => k0_hw194.2

def k0_off292 (v2137 : BitVec 32) : Fin 2 → Nat :=
  let v2139 : Index := Scalar.indexCast v2137
  let c0_680 : Index := 0#32
  ![v2139.toNat, 0]

def k0_chk195 (v2137 : BitVec 32) : Prop :=
  (∀ a, (k0_off292 v2137) a + S1x64.size a ≤ S50000x64.size a)
instance k0_chk195.dec : ∀ (v2137 : BitVec 32), Decidable (k0_chk195 v2137) := fun v2137 => decidable_of_iff' _ (Iff.of_eq (k0_chk195.eq_1 v2137))
theorem k0_off292_inb : ∀ (v2137 : BitVec 32) (k0_hw195 : k0_chk195 v2137), ∀ a, (k0_off292 v2137) a + S1x64.size a ≤ S50000x64.size a := fun v2137 k0_hw195 => k0_hw195

def k0_off293 (v2138 : BitVec 32) : Fin 2 → Nat :=
  let v2142 : Index := Scalar.indexCast v2138
  let c0_681 : Index := 0#32
  ![v2142.toNat, 0]

def k0_off294 (v2138 : BitVec 32) : Fin 2 → Nat :=
  let v2150 : Index := Scalar.indexCast v2138
  let c0_683 : Index := 0#32
  ![v2150.toNat, 0]

def k0_chk196 (v2138 : BitVec 32) : Prop :=
  (∀ a, (k0_off293 v2138) a + S1x64.size a ≤ S16384x64.size a) ∧
  (∀ a, (k0_off294 v2138) a + S1x1.size a ≤ S16384x1.size a)
instance k0_chk196.dec : ∀ (v2138 : BitVec 32), Decidable (k0_chk196 v2138) := fun v2138 => decidable_of_iff' _ (Iff.of_eq (k0_chk196.eq_1 v2138))
theorem k0_off293_inb : ∀ (v2138 : BitVec 32) (k0_hw196 : k0_chk196 v2138), ∀ a, (k0_off293 v2138) a + S1x64.size a ≤ S16384x64.size a := fun v2138 k0_hw196 => k0_hw196.1
theorem k0_off294_inb : ∀ (v2138 : BitVec 32) (k0_hw196 : k0_chk196 v2138), ∀ a, (k0_off294 v2138) a + S1x1.size a ≤ S16384x1.size a := fun v2138 k0_hw196 => k0_hw196.2

def k0_off295 (v2159 : BitVec 32) : Fin 2 → Nat :=
  let v2161 : Index := Scalar.indexCast v2159
  let c0_687 : Index := 0#32
  ![v2161.toNat, 0]

def k0_chk197 (v2159 : BitVec 32) : Prop :=
  (∀ a, (k0_off295 v2159) a + S1x64.size a ≤ S50000x64.size a)
instance k0_chk197.dec : ∀ (v2159 : BitVec 32), Decidable (k0_chk197 v2159) := fun v2159 => decidable_of_iff' _ (Iff.of_eq (k0_chk197.eq_1 v2159))
theorem k0_off295_inb : ∀ (v2159 : BitVec 32) (k0_hw197 : k0_chk197 v2159), ∀ a, (k0_off295 v2159) a + S1x64.size a ≤ S50000x64.size a := fun v2159 k0_hw197 => k0_hw197

def k0_off296 (v2160 : BitVec 32) : Fin 2 → Nat :=
  let v2164 : Index := Scalar.indexCast v2160
  let c0_688 : Index := 0#32
  ![v2164.toNat, 0]

def k0_off297 (v2160 : BitVec 32) : Fin 2 → Nat :=
  let v2172 : Index := Scalar.indexCast v2160
  let c0_690 : Index := 0#32
  ![v2172.toNat, 0]

def k0_chk198 (v2160 : BitVec 32) : Prop :=
  (∀ a, (k0_off296 v2160) a + S1x64.size a ≤ S16384x64.size a) ∧
  (∀ a, (k0_off297 v2160) a + S1x1.size a ≤ S16384x1.size a)
instance k0_chk198.dec : ∀ (v2160 : BitVec 32), Decidable (k0_chk198 v2160) := fun v2160 => decidable_of_iff' _ (Iff.of_eq (k0_chk198.eq_1 v2160))
theorem k0_off296_inb : ∀ (v2160 : BitVec 32) (k0_hw198 : k0_chk198 v2160), ∀ a, (k0_off296 v2160) a + S1x64.size a ≤ S16384x64.size a := fun v2160 k0_hw198 => k0_hw198.1
theorem k0_off297_inb : ∀ (v2160 : BitVec 32) (k0_hw198 : k0_chk198 v2160), ∀ a, (k0_off297 v2160) a + S1x1.size a ≤ S16384x1.size a := fun v2160 k0_hw198 => k0_hw198.2

def k0_off298 (v2181 : BitVec 32) : Fin 2 → Nat :=
  let v2183 : Index := Scalar.indexCast v2181
  let c0_694 : Index := 0#32
  ![v2183.toNat, 0]

def k0_chk199 (v2181 : BitVec 32) : Prop :=
  (∀ a, (k0_off298 v2181) a + S1x64.size a ≤ S50000x64.size a)
instance k0_chk199.dec : ∀ (v2181 : BitVec 32), Decidable (k0_chk199 v2181) := fun v2181 => decidable_of_iff' _ (Iff.of_eq (k0_chk199.eq_1 v2181))
theorem k0_off298_inb : ∀ (v2181 : BitVec 32) (k0_hw199 : k0_chk199 v2181), ∀ a, (k0_off298 v2181) a + S1x64.size a ≤ S50000x64.size a := fun v2181 k0_hw199 => k0_hw199

def k0_off299 (v2182 : BitVec 32) : Fin 2 → Nat :=
  let v2186 : Index := Scalar.indexCast v2182
  let c0_695 : Index := 0#32
  ![v2186.toNat, 0]

def k0_off300 (v2182 : BitVec 32) : Fin 2 → Nat :=
  let v2194 : Index := Scalar.indexCast v2182
  let c0_697 : Index := 0#32
  ![v2194.toNat, 0]

def k0_chk200 (v2182 : BitVec 32) : Prop :=
  (∀ a, (k0_off299 v2182) a + S1x64.size a ≤ S16384x64.size a) ∧
  (∀ a, (k0_off300 v2182) a + S1x1.size a ≤ S16384x1.size a)
instance k0_chk200.dec : ∀ (v2182 : BitVec 32), Decidable (k0_chk200 v2182) := fun v2182 => decidable_of_iff' _ (Iff.of_eq (k0_chk200.eq_1 v2182))
theorem k0_off299_inb : ∀ (v2182 : BitVec 32) (k0_hw200 : k0_chk200 v2182), ∀ a, (k0_off299 v2182) a + S1x64.size a ≤ S16384x64.size a := fun v2182 k0_hw200 => k0_hw200.1
theorem k0_off300_inb : ∀ (v2182 : BitVec 32) (k0_hw200 : k0_chk200 v2182), ∀ a, (k0_off300 v2182) a + S1x1.size a ≤ S16384x1.size a := fun v2182 k0_hw200 => k0_hw200.2

def k0_off301 (v2203 : BitVec 32) : Fin 2 → Nat :=
  let v2205 : Index := Scalar.indexCast v2203
  let c0_701 : Index := 0#32
  ![v2205.toNat, 0]

def k0_chk201 (v2203 : BitVec 32) : Prop :=
  (∀ a, (k0_off301 v2203) a + S1x64.size a ≤ S50000x64.size a)
instance k0_chk201.dec : ∀ (v2203 : BitVec 32), Decidable (k0_chk201 v2203) := fun v2203 => decidable_of_iff' _ (Iff.of_eq (k0_chk201.eq_1 v2203))
theorem k0_off301_inb : ∀ (v2203 : BitVec 32) (k0_hw201 : k0_chk201 v2203), ∀ a, (k0_off301 v2203) a + S1x64.size a ≤ S50000x64.size a := fun v2203 k0_hw201 => k0_hw201

def k0_off302 (v2204 : BitVec 32) : Fin 2 → Nat :=
  let v2208 : Index := Scalar.indexCast v2204
  let c0_702 : Index := 0#32
  ![v2208.toNat, 0]

def k0_off303 (v2204 : BitVec 32) : Fin 2 → Nat :=
  let v2216 : Index := Scalar.indexCast v2204
  let c0_704 : Index := 0#32
  ![v2216.toNat, 0]

def k0_chk202 (v2204 : BitVec 32) : Prop :=
  (∀ a, (k0_off302 v2204) a + S1x64.size a ≤ S16384x64.size a) ∧
  (∀ a, (k0_off303 v2204) a + S1x1.size a ≤ S16384x1.size a)
instance k0_chk202.dec : ∀ (v2204 : BitVec 32), Decidable (k0_chk202 v2204) := fun v2204 => decidable_of_iff' _ (Iff.of_eq (k0_chk202.eq_1 v2204))
theorem k0_off302_inb : ∀ (v2204 : BitVec 32) (k0_hw202 : k0_chk202 v2204), ∀ a, (k0_off302 v2204) a + S1x64.size a ≤ S16384x64.size a := fun v2204 k0_hw202 => k0_hw202.1
theorem k0_off303_inb : ∀ (v2204 : BitVec 32) (k0_hw202 : k0_chk202 v2204), ∀ a, (k0_off303 v2204) a + S1x1.size a ≤ S16384x1.size a := fun v2204 k0_hw202 => k0_hw202.2

def k0_off304 (v2225 : BitVec 32) : Fin 2 → Nat :=
  let v2227 : Index := Scalar.indexCast v2225
  let c0_708 : Index := 0#32
  ![v2227.toNat, 0]

def k0_chk203 (v2225 : BitVec 32) : Prop :=
  (∀ a, (k0_off304 v2225) a + S1x64.size a ≤ S50000x64.size a)
instance k0_chk203.dec : ∀ (v2225 : BitVec 32), Decidable (k0_chk203 v2225) := fun v2225 => decidable_of_iff' _ (Iff.of_eq (k0_chk203.eq_1 v2225))
theorem k0_off304_inb : ∀ (v2225 : BitVec 32) (k0_hw203 : k0_chk203 v2225), ∀ a, (k0_off304 v2225) a + S1x64.size a ≤ S50000x64.size a := fun v2225 k0_hw203 => k0_hw203

def k0_off305 (v2226 : BitVec 32) : Fin 2 → Nat :=
  let v2230 : Index := Scalar.indexCast v2226
  let c0_709 : Index := 0#32
  ![v2230.toNat, 0]

def k0_off306 (v2226 : BitVec 32) : Fin 2 → Nat :=
  let v2238 : Index := Scalar.indexCast v2226
  let c0_711 : Index := 0#32
  ![v2238.toNat, 0]

def k0_chk204 (v2226 : BitVec 32) : Prop :=
  (∀ a, (k0_off305 v2226) a + S1x64.size a ≤ S16384x64.size a) ∧
  (∀ a, (k0_off306 v2226) a + S1x1.size a ≤ S16384x1.size a)
instance k0_chk204.dec : ∀ (v2226 : BitVec 32), Decidable (k0_chk204 v2226) := fun v2226 => decidable_of_iff' _ (Iff.of_eq (k0_chk204.eq_1 v2226))
theorem k0_off305_inb : ∀ (v2226 : BitVec 32) (k0_hw204 : k0_chk204 v2226), ∀ a, (k0_off305 v2226) a + S1x64.size a ≤ S16384x64.size a := fun v2226 k0_hw204 => k0_hw204.1
theorem k0_off306_inb : ∀ (v2226 : BitVec 32) (k0_hw204 : k0_chk204 v2226), ∀ a, (k0_off306 v2226) a + S1x1.size a ≤ S16384x1.size a := fun v2226 k0_hw204 => k0_hw204.2

def k0_off307 (v2247 : BitVec 32) : Fin 2 → Nat :=
  let v2249 : Index := Scalar.indexCast v2247
  let c0_715 : Index := 0#32
  ![v2249.toNat, 0]

def k0_chk205 (v2247 : BitVec 32) : Prop :=
  (∀ a, (k0_off307 v2247) a + S1x64.size a ≤ S50000x64.size a)
instance k0_chk205.dec : ∀ (v2247 : BitVec 32), Decidable (k0_chk205 v2247) := fun v2247 => decidable_of_iff' _ (Iff.of_eq (k0_chk205.eq_1 v2247))
theorem k0_off307_inb : ∀ (v2247 : BitVec 32) (k0_hw205 : k0_chk205 v2247), ∀ a, (k0_off307 v2247) a + S1x64.size a ≤ S50000x64.size a := fun v2247 k0_hw205 => k0_hw205

def k0_off308 (v2248 : BitVec 32) : Fin 2 → Nat :=
  let v2252 : Index := Scalar.indexCast v2248
  let c0_716 : Index := 0#32
  ![v2252.toNat, 0]

def k0_off309 (v2248 : BitVec 32) : Fin 2 → Nat :=
  let v2260 : Index := Scalar.indexCast v2248
  let c0_718 : Index := 0#32
  ![v2260.toNat, 0]

def k0_chk206 (v2248 : BitVec 32) : Prop :=
  (∀ a, (k0_off308 v2248) a + S1x64.size a ≤ S16384x64.size a) ∧
  (∀ a, (k0_off309 v2248) a + S1x1.size a ≤ S16384x1.size a)
instance k0_chk206.dec : ∀ (v2248 : BitVec 32), Decidable (k0_chk206 v2248) := fun v2248 => decidable_of_iff' _ (Iff.of_eq (k0_chk206.eq_1 v2248))
theorem k0_off308_inb : ∀ (v2248 : BitVec 32) (k0_hw206 : k0_chk206 v2248), ∀ a, (k0_off308 v2248) a + S1x64.size a ≤ S16384x64.size a := fun v2248 k0_hw206 => k0_hw206.1
theorem k0_off309_inb : ∀ (v2248 : BitVec 32) (k0_hw206 : k0_chk206 v2248), ∀ a, (k0_off309 v2248) a + S1x1.size a ≤ S16384x1.size a := fun v2248 k0_hw206 => k0_hw206.2

def k0_off310 (v2269 : BitVec 32) : Fin 2 → Nat :=
  let v2271 : Index := Scalar.indexCast v2269
  let c0_722 : Index := 0#32
  ![v2271.toNat, 0]

def k0_chk207 (v2269 : BitVec 32) : Prop :=
  (∀ a, (k0_off310 v2269) a + S1x64.size a ≤ S50000x64.size a)
instance k0_chk207.dec : ∀ (v2269 : BitVec 32), Decidable (k0_chk207 v2269) := fun v2269 => decidable_of_iff' _ (Iff.of_eq (k0_chk207.eq_1 v2269))
theorem k0_off310_inb : ∀ (v2269 : BitVec 32) (k0_hw207 : k0_chk207 v2269), ∀ a, (k0_off310 v2269) a + S1x64.size a ≤ S50000x64.size a := fun v2269 k0_hw207 => k0_hw207

def k0_off311 (v2270 : BitVec 32) : Fin 2 → Nat :=
  let v2274 : Index := Scalar.indexCast v2270
  let c0_723 : Index := 0#32
  ![v2274.toNat, 0]

def k0_off312 (v2270 : BitVec 32) : Fin 2 → Nat :=
  let v2282 : Index := Scalar.indexCast v2270
  let c0_725 : Index := 0#32
  ![v2282.toNat, 0]

def k0_chk208 (v2270 : BitVec 32) : Prop :=
  (∀ a, (k0_off311 v2270) a + S1x64.size a ≤ S16384x64.size a) ∧
  (∀ a, (k0_off312 v2270) a + S1x1.size a ≤ S16384x1.size a)
instance k0_chk208.dec : ∀ (v2270 : BitVec 32), Decidable (k0_chk208 v2270) := fun v2270 => decidable_of_iff' _ (Iff.of_eq (k0_chk208.eq_1 v2270))
theorem k0_off311_inb : ∀ (v2270 : BitVec 32) (k0_hw208 : k0_chk208 v2270), ∀ a, (k0_off311 v2270) a + S1x64.size a ≤ S16384x64.size a := fun v2270 k0_hw208 => k0_hw208.1
theorem k0_off312_inb : ∀ (v2270 : BitVec 32) (k0_hw208 : k0_chk208 v2270), ∀ a, (k0_off312 v2270) a + S1x1.size a ≤ S16384x1.size a := fun v2270 k0_hw208 => k0_hw208.2

def k0_off313 (v2291 : BitVec 32) : Fin 2 → Nat :=
  let v2293 : Index := Scalar.indexCast v2291
  let c0_729 : Index := 0#32
  ![v2293.toNat, 0]

def k0_chk209 (v2291 : BitVec 32) : Prop :=
  (∀ a, (k0_off313 v2291) a + S1x64.size a ≤ S50000x64.size a)
instance k0_chk209.dec : ∀ (v2291 : BitVec 32), Decidable (k0_chk209 v2291) := fun v2291 => decidable_of_iff' _ (Iff.of_eq (k0_chk209.eq_1 v2291))
theorem k0_off313_inb : ∀ (v2291 : BitVec 32) (k0_hw209 : k0_chk209 v2291), ∀ a, (k0_off313 v2291) a + S1x64.size a ≤ S50000x64.size a := fun v2291 k0_hw209 => k0_hw209

def k0_off314 (v2292 : BitVec 32) : Fin 2 → Nat :=
  let v2296 : Index := Scalar.indexCast v2292
  let c0_730 : Index := 0#32
  ![v2296.toNat, 0]

def k0_off315 (v2292 : BitVec 32) : Fin 2 → Nat :=
  let v2304 : Index := Scalar.indexCast v2292
  let c0_732 : Index := 0#32
  ![v2304.toNat, 0]

def k0_chk210 (v2292 : BitVec 32) : Prop :=
  (∀ a, (k0_off314 v2292) a + S1x64.size a ≤ S16384x64.size a) ∧
  (∀ a, (k0_off315 v2292) a + S1x1.size a ≤ S16384x1.size a)
instance k0_chk210.dec : ∀ (v2292 : BitVec 32), Decidable (k0_chk210 v2292) := fun v2292 => decidable_of_iff' _ (Iff.of_eq (k0_chk210.eq_1 v2292))
theorem k0_off314_inb : ∀ (v2292 : BitVec 32) (k0_hw210 : k0_chk210 v2292), ∀ a, (k0_off314 v2292) a + S1x64.size a ≤ S16384x64.size a := fun v2292 k0_hw210 => k0_hw210.1
theorem k0_off315_inb : ∀ (v2292 : BitVec 32) (k0_hw210 : k0_chk210 v2292), ∀ a, (k0_off315 v2292) a + S1x1.size a ≤ S16384x1.size a := fun v2292 k0_hw210 => k0_hw210.2

def k0_off316 (v2313 : BitVec 32) : Fin 2 → Nat :=
  let v2315 : Index := Scalar.indexCast v2313
  let c0_736 : Index := 0#32
  ![v2315.toNat, 0]

def k0_chk211 (v2313 : BitVec 32) : Prop :=
  (∀ a, (k0_off316 v2313) a + S1x64.size a ≤ S50000x64.size a)
instance k0_chk211.dec : ∀ (v2313 : BitVec 32), Decidable (k0_chk211 v2313) := fun v2313 => decidable_of_iff' _ (Iff.of_eq (k0_chk211.eq_1 v2313))
theorem k0_off316_inb : ∀ (v2313 : BitVec 32) (k0_hw211 : k0_chk211 v2313), ∀ a, (k0_off316 v2313) a + S1x64.size a ≤ S50000x64.size a := fun v2313 k0_hw211 => k0_hw211

def k0_off317 (v2314 : BitVec 32) : Fin 2 → Nat :=
  let v2318 : Index := Scalar.indexCast v2314
  let c0_737 : Index := 0#32
  ![v2318.toNat, 0]

def k0_off318 (v2314 : BitVec 32) : Fin 2 → Nat :=
  let v2326 : Index := Scalar.indexCast v2314
  let c0_739 : Index := 0#32
  ![v2326.toNat, 0]

def k0_chk212 (v2314 : BitVec 32) : Prop :=
  (∀ a, (k0_off317 v2314) a + S1x64.size a ≤ S16384x64.size a) ∧
  (∀ a, (k0_off318 v2314) a + S1x1.size a ≤ S16384x1.size a)
instance k0_chk212.dec : ∀ (v2314 : BitVec 32), Decidable (k0_chk212 v2314) := fun v2314 => decidable_of_iff' _ (Iff.of_eq (k0_chk212.eq_1 v2314))
theorem k0_off317_inb : ∀ (v2314 : BitVec 32) (k0_hw212 : k0_chk212 v2314), ∀ a, (k0_off317 v2314) a + S1x64.size a ≤ S16384x64.size a := fun v2314 k0_hw212 => k0_hw212.1
theorem k0_off318_inb : ∀ (v2314 : BitVec 32) (k0_hw212 : k0_chk212 v2314), ∀ a, (k0_off318 v2314) a + S1x1.size a ≤ S16384x1.size a := fun v2314 k0_hw212 => k0_hw212.2

def k0_off319 (v2335 : BitVec 32) : Fin 2 → Nat :=
  let v2337 : Index := Scalar.indexCast v2335
  let c0_743 : Index := 0#32
  ![v2337.toNat, 0]

def k0_chk213 (v2335 : BitVec 32) : Prop :=
  (∀ a, (k0_off319 v2335) a + S1x64.size a ≤ S50000x64.size a)
instance k0_chk213.dec : ∀ (v2335 : BitVec 32), Decidable (k0_chk213 v2335) := fun v2335 => decidable_of_iff' _ (Iff.of_eq (k0_chk213.eq_1 v2335))
theorem k0_off319_inb : ∀ (v2335 : BitVec 32) (k0_hw213 : k0_chk213 v2335), ∀ a, (k0_off319 v2335) a + S1x64.size a ≤ S50000x64.size a := fun v2335 k0_hw213 => k0_hw213

def k0_off320 (v2336 : BitVec 32) : Fin 2 → Nat :=
  let v2340 : Index := Scalar.indexCast v2336
  let c0_744 : Index := 0#32
  ![v2340.toNat, 0]

def k0_off321 (v2336 : BitVec 32) : Fin 2 → Nat :=
  let v2348 : Index := Scalar.indexCast v2336
  let c0_746 : Index := 0#32
  ![v2348.toNat, 0]

def k0_chk214 (v2336 : BitVec 32) : Prop :=
  (∀ a, (k0_off320 v2336) a + S1x64.size a ≤ S16384x64.size a) ∧
  (∀ a, (k0_off321 v2336) a + S1x1.size a ≤ S16384x1.size a)
instance k0_chk214.dec : ∀ (v2336 : BitVec 32), Decidable (k0_chk214 v2336) := fun v2336 => decidable_of_iff' _ (Iff.of_eq (k0_chk214.eq_1 v2336))
theorem k0_off320_inb : ∀ (v2336 : BitVec 32) (k0_hw214 : k0_chk214 v2336), ∀ a, (k0_off320 v2336) a + S1x64.size a ≤ S16384x64.size a := fun v2336 k0_hw214 => k0_hw214.1
theorem k0_off321_inb : ∀ (v2336 : BitVec 32) (k0_hw214 : k0_chk214 v2336), ∀ a, (k0_off321 v2336) a + S1x1.size a ≤ S16384x1.size a := fun v2336 k0_hw214 => k0_hw214.2

def k0_off322 (v2357 : BitVec 32) : Fin 2 → Nat :=
  let v2359 : Index := Scalar.indexCast v2357
  let c0_750 : Index := 0#32
  ![v2359.toNat, 0]

def k0_chk215 (v2357 : BitVec 32) : Prop :=
  (∀ a, (k0_off322 v2357) a + S1x64.size a ≤ S50000x64.size a)
instance k0_chk215.dec : ∀ (v2357 : BitVec 32), Decidable (k0_chk215 v2357) := fun v2357 => decidable_of_iff' _ (Iff.of_eq (k0_chk215.eq_1 v2357))
theorem k0_off322_inb : ∀ (v2357 : BitVec 32) (k0_hw215 : k0_chk215 v2357), ∀ a, (k0_off322 v2357) a + S1x64.size a ≤ S50000x64.size a := fun v2357 k0_hw215 => k0_hw215

def k0_off323 (v2358 : BitVec 32) : Fin 2 → Nat :=
  let v2362 : Index := Scalar.indexCast v2358
  let c0_751 : Index := 0#32
  ![v2362.toNat, 0]

def k0_off324 (v2358 : BitVec 32) : Fin 2 → Nat :=
  let v2370 : Index := Scalar.indexCast v2358
  let c0_753 : Index := 0#32
  ![v2370.toNat, 0]

def k0_chk216 (v2358 : BitVec 32) : Prop :=
  (∀ a, (k0_off323 v2358) a + S1x64.size a ≤ S16384x64.size a) ∧
  (∀ a, (k0_off324 v2358) a + S1x1.size a ≤ S16384x1.size a)
instance k0_chk216.dec : ∀ (v2358 : BitVec 32), Decidable (k0_chk216 v2358) := fun v2358 => decidable_of_iff' _ (Iff.of_eq (k0_chk216.eq_1 v2358))
theorem k0_off323_inb : ∀ (v2358 : BitVec 32) (k0_hw216 : k0_chk216 v2358), ∀ a, (k0_off323 v2358) a + S1x64.size a ≤ S16384x64.size a := fun v2358 k0_hw216 => k0_hw216.1
theorem k0_off324_inb : ∀ (v2358 : BitVec 32) (k0_hw216 : k0_chk216 v2358), ∀ a, (k0_off324 v2358) a + S1x1.size a ≤ S16384x1.size a := fun v2358 k0_hw216 => k0_hw216.2

def k0_off325 (v2379 : BitVec 32) : Fin 2 → Nat :=
  let v2381 : Index := Scalar.indexCast v2379
  let c0_757 : Index := 0#32
  ![v2381.toNat, 0]

def k0_chk217 (v2379 : BitVec 32) : Prop :=
  (∀ a, (k0_off325 v2379) a + S1x64.size a ≤ S50000x64.size a)
instance k0_chk217.dec : ∀ (v2379 : BitVec 32), Decidable (k0_chk217 v2379) := fun v2379 => decidable_of_iff' _ (Iff.of_eq (k0_chk217.eq_1 v2379))
theorem k0_off325_inb : ∀ (v2379 : BitVec 32) (k0_hw217 : k0_chk217 v2379), ∀ a, (k0_off325 v2379) a + S1x64.size a ≤ S50000x64.size a := fun v2379 k0_hw217 => k0_hw217

def k0_off326 (v2380 : BitVec 32) : Fin 2 → Nat :=
  let v2384 : Index := Scalar.indexCast v2380
  let c0_758 : Index := 0#32
  ![v2384.toNat, 0]

def k0_off327 (v2380 : BitVec 32) : Fin 2 → Nat :=
  let v2392 : Index := Scalar.indexCast v2380
  let c0_760 : Index := 0#32
  ![v2392.toNat, 0]

def k0_chk218 (v2380 : BitVec 32) : Prop :=
  (∀ a, (k0_off326 v2380) a + S1x64.size a ≤ S16384x64.size a) ∧
  (∀ a, (k0_off327 v2380) a + S1x1.size a ≤ S16384x1.size a)
instance k0_chk218.dec : ∀ (v2380 : BitVec 32), Decidable (k0_chk218 v2380) := fun v2380 => decidable_of_iff' _ (Iff.of_eq (k0_chk218.eq_1 v2380))
theorem k0_off326_inb : ∀ (v2380 : BitVec 32) (k0_hw218 : k0_chk218 v2380), ∀ a, (k0_off326 v2380) a + S1x64.size a ≤ S16384x64.size a := fun v2380 k0_hw218 => k0_hw218.1
theorem k0_off327_inb : ∀ (v2380 : BitVec 32) (k0_hw218 : k0_chk218 v2380), ∀ a, (k0_off327 v2380) a + S1x1.size a ≤ S16384x1.size a := fun v2380 k0_hw218 => k0_hw218.2

def k0_off328 (v2401 : BitVec 32) : Fin 2 → Nat :=
  let v2403 : Index := Scalar.indexCast v2401
  let c0_764 : Index := 0#32
  ![v2403.toNat, 0]

def k0_chk219 (v2401 : BitVec 32) : Prop :=
  (∀ a, (k0_off328 v2401) a + S1x64.size a ≤ S50000x64.size a)
instance k0_chk219.dec : ∀ (v2401 : BitVec 32), Decidable (k0_chk219 v2401) := fun v2401 => decidable_of_iff' _ (Iff.of_eq (k0_chk219.eq_1 v2401))
theorem k0_off328_inb : ∀ (v2401 : BitVec 32) (k0_hw219 : k0_chk219 v2401), ∀ a, (k0_off328 v2401) a + S1x64.size a ≤ S50000x64.size a := fun v2401 k0_hw219 => k0_hw219

def k0_off329 (v2402 : BitVec 32) : Fin 2 → Nat :=
  let v2406 : Index := Scalar.indexCast v2402
  let c0_765 : Index := 0#32
  ![v2406.toNat, 0]

def k0_off330 (v2402 : BitVec 32) : Fin 2 → Nat :=
  let v2414 : Index := Scalar.indexCast v2402
  let c0_767 : Index := 0#32
  ![v2414.toNat, 0]

def k0_chk220 (v2402 : BitVec 32) : Prop :=
  (∀ a, (k0_off329 v2402) a + S1x64.size a ≤ S16384x64.size a) ∧
  (∀ a, (k0_off330 v2402) a + S1x1.size a ≤ S16384x1.size a)
instance k0_chk220.dec : ∀ (v2402 : BitVec 32), Decidable (k0_chk220 v2402) := fun v2402 => decidable_of_iff' _ (Iff.of_eq (k0_chk220.eq_1 v2402))
theorem k0_off329_inb : ∀ (v2402 : BitVec 32) (k0_hw220 : k0_chk220 v2402), ∀ a, (k0_off329 v2402) a + S1x64.size a ≤ S16384x64.size a := fun v2402 k0_hw220 => k0_hw220.1
theorem k0_off330_inb : ∀ (v2402 : BitVec 32) (k0_hw220 : k0_chk220 v2402), ∀ a, (k0_off330 v2402) a + S1x1.size a ≤ S16384x1.size a := fun v2402 k0_hw220 => k0_hw220.2

def k0_off331 (v2423 : BitVec 32) : Fin 2 → Nat :=
  let v2425 : Index := Scalar.indexCast v2423
  let c0_771 : Index := 0#32
  ![v2425.toNat, 0]

def k0_chk221 (v2423 : BitVec 32) : Prop :=
  (∀ a, (k0_off331 v2423) a + S1x64.size a ≤ S50000x64.size a)
instance k0_chk221.dec : ∀ (v2423 : BitVec 32), Decidable (k0_chk221 v2423) := fun v2423 => decidable_of_iff' _ (Iff.of_eq (k0_chk221.eq_1 v2423))
theorem k0_off331_inb : ∀ (v2423 : BitVec 32) (k0_hw221 : k0_chk221 v2423), ∀ a, (k0_off331 v2423) a + S1x64.size a ≤ S50000x64.size a := fun v2423 k0_hw221 => k0_hw221

def k0_off332 (v2424 : BitVec 32) : Fin 2 → Nat :=
  let v2428 : Index := Scalar.indexCast v2424
  let c0_772 : Index := 0#32
  ![v2428.toNat, 0]

def k0_off333 (v2424 : BitVec 32) : Fin 2 → Nat :=
  let v2436 : Index := Scalar.indexCast v2424
  let c0_774 : Index := 0#32
  ![v2436.toNat, 0]

def k0_chk222 (v2424 : BitVec 32) : Prop :=
  (∀ a, (k0_off332 v2424) a + S1x64.size a ≤ S16384x64.size a) ∧
  (∀ a, (k0_off333 v2424) a + S1x1.size a ≤ S16384x1.size a)
instance k0_chk222.dec : ∀ (v2424 : BitVec 32), Decidable (k0_chk222 v2424) := fun v2424 => decidable_of_iff' _ (Iff.of_eq (k0_chk222.eq_1 v2424))
theorem k0_off332_inb : ∀ (v2424 : BitVec 32) (k0_hw222 : k0_chk222 v2424), ∀ a, (k0_off332 v2424) a + S1x64.size a ≤ S16384x64.size a := fun v2424 k0_hw222 => k0_hw222.1
theorem k0_off333_inb : ∀ (v2424 : BitVec 32) (k0_hw222 : k0_chk222 v2424), ∀ a, (k0_off333 v2424) a + S1x1.size a ≤ S16384x1.size a := fun v2424 k0_hw222 => k0_hw222.2

def k0_off334 (v2445 : BitVec 32) : Fin 2 → Nat :=
  let v2447 : Index := Scalar.indexCast v2445
  let c0_778 : Index := 0#32
  ![v2447.toNat, 0]

def k0_chk223 (v2445 : BitVec 32) : Prop :=
  (∀ a, (k0_off334 v2445) a + S1x64.size a ≤ S50000x64.size a)
instance k0_chk223.dec : ∀ (v2445 : BitVec 32), Decidable (k0_chk223 v2445) := fun v2445 => decidable_of_iff' _ (Iff.of_eq (k0_chk223.eq_1 v2445))
theorem k0_off334_inb : ∀ (v2445 : BitVec 32) (k0_hw223 : k0_chk223 v2445), ∀ a, (k0_off334 v2445) a + S1x64.size a ≤ S50000x64.size a := fun v2445 k0_hw223 => k0_hw223

def k0_off335 (v2446 : BitVec 32) : Fin 2 → Nat :=
  let v2450 : Index := Scalar.indexCast v2446
  let c0_779 : Index := 0#32
  ![v2450.toNat, 0]

def k0_off336 (v2446 : BitVec 32) : Fin 2 → Nat :=
  let v2458 : Index := Scalar.indexCast v2446
  let c0_781 : Index := 0#32
  ![v2458.toNat, 0]

def k0_chk224 (v2446 : BitVec 32) : Prop :=
  (∀ a, (k0_off335 v2446) a + S1x64.size a ≤ S16384x64.size a) ∧
  (∀ a, (k0_off336 v2446) a + S1x1.size a ≤ S16384x1.size a)
instance k0_chk224.dec : ∀ (v2446 : BitVec 32), Decidable (k0_chk224 v2446) := fun v2446 => decidable_of_iff' _ (Iff.of_eq (k0_chk224.eq_1 v2446))
theorem k0_off335_inb : ∀ (v2446 : BitVec 32) (k0_hw224 : k0_chk224 v2446), ∀ a, (k0_off335 v2446) a + S1x64.size a ≤ S16384x64.size a := fun v2446 k0_hw224 => k0_hw224.1
theorem k0_off336_inb : ∀ (v2446 : BitVec 32) (k0_hw224 : k0_chk224 v2446), ∀ a, (k0_off336 v2446) a + S1x1.size a ≤ S16384x1.size a := fun v2446 k0_hw224 => k0_hw224.2

def k0_off337 (v2467 : BitVec 32) : Fin 2 → Nat :=
  let v2469 : Index := Scalar.indexCast v2467
  let c0_785 : Index := 0#32
  ![v2469.toNat, 0]

def k0_chk225 (v2467 : BitVec 32) : Prop :=
  (∀ a, (k0_off337 v2467) a + S1x64.size a ≤ S50000x64.size a)
instance k0_chk225.dec : ∀ (v2467 : BitVec 32), Decidable (k0_chk225 v2467) := fun v2467 => decidable_of_iff' _ (Iff.of_eq (k0_chk225.eq_1 v2467))
theorem k0_off337_inb : ∀ (v2467 : BitVec 32) (k0_hw225 : k0_chk225 v2467), ∀ a, (k0_off337 v2467) a + S1x64.size a ≤ S50000x64.size a := fun v2467 k0_hw225 => k0_hw225

def k0_off338 (v2468 : BitVec 32) : Fin 2 → Nat :=
  let v2472 : Index := Scalar.indexCast v2468
  let c0_786 : Index := 0#32
  ![v2472.toNat, 0]

def k0_off339 (v2468 : BitVec 32) : Fin 2 → Nat :=
  let v2480 : Index := Scalar.indexCast v2468
  let c0_788 : Index := 0#32
  ![v2480.toNat, 0]

def k0_chk226 (v2468 : BitVec 32) : Prop :=
  (∀ a, (k0_off338 v2468) a + S1x64.size a ≤ S16384x64.size a) ∧
  (∀ a, (k0_off339 v2468) a + S1x1.size a ≤ S16384x1.size a)
instance k0_chk226.dec : ∀ (v2468 : BitVec 32), Decidable (k0_chk226 v2468) := fun v2468 => decidable_of_iff' _ (Iff.of_eq (k0_chk226.eq_1 v2468))
theorem k0_off338_inb : ∀ (v2468 : BitVec 32) (k0_hw226 : k0_chk226 v2468), ∀ a, (k0_off338 v2468) a + S1x64.size a ≤ S16384x64.size a := fun v2468 k0_hw226 => k0_hw226.1
theorem k0_off339_inb : ∀ (v2468 : BitVec 32) (k0_hw226 : k0_chk226 v2468), ∀ a, (k0_off339 v2468) a + S1x1.size a ≤ S16384x1.size a := fun v2468 k0_hw226 => k0_hw226.2

def k0_off340 (v2489 : BitVec 32) : Fin 2 → Nat :=
  let v2491 : Index := Scalar.indexCast v2489
  let c0_792 : Index := 0#32
  ![v2491.toNat, 0]

def k0_chk227 (v2489 : BitVec 32) : Prop :=
  (∀ a, (k0_off340 v2489) a + S1x64.size a ≤ S50000x64.size a)
instance k0_chk227.dec : ∀ (v2489 : BitVec 32), Decidable (k0_chk227 v2489) := fun v2489 => decidable_of_iff' _ (Iff.of_eq (k0_chk227.eq_1 v2489))
theorem k0_off340_inb : ∀ (v2489 : BitVec 32) (k0_hw227 : k0_chk227 v2489), ∀ a, (k0_off340 v2489) a + S1x64.size a ≤ S50000x64.size a := fun v2489 k0_hw227 => k0_hw227

def k0_off341 (v2490 : BitVec 32) : Fin 2 → Nat :=
  let v2494 : Index := Scalar.indexCast v2490
  let c0_793 : Index := 0#32
  ![v2494.toNat, 0]

def k0_off342 (v2490 : BitVec 32) : Fin 2 → Nat :=
  let v2502 : Index := Scalar.indexCast v2490
  let c0_795 : Index := 0#32
  ![v2502.toNat, 0]

def k0_chk228 (v2490 : BitVec 32) : Prop :=
  (∀ a, (k0_off341 v2490) a + S1x64.size a ≤ S16384x64.size a) ∧
  (∀ a, (k0_off342 v2490) a + S1x1.size a ≤ S16384x1.size a)
instance k0_chk228.dec : ∀ (v2490 : BitVec 32), Decidable (k0_chk228 v2490) := fun v2490 => decidable_of_iff' _ (Iff.of_eq (k0_chk228.eq_1 v2490))
theorem k0_off341_inb : ∀ (v2490 : BitVec 32) (k0_hw228 : k0_chk228 v2490), ∀ a, (k0_off341 v2490) a + S1x64.size a ≤ S16384x64.size a := fun v2490 k0_hw228 => k0_hw228.1
theorem k0_off342_inb : ∀ (v2490 : BitVec 32) (k0_hw228 : k0_chk228 v2490), ∀ a, (k0_off342 v2490) a + S1x1.size a ≤ S16384x1.size a := fun v2490 k0_hw228 => k0_hw228.2

def k0_off343 (v2511 : BitVec 32) : Fin 2 → Nat :=
  let v2513 : Index := Scalar.indexCast v2511
  let c0_799 : Index := 0#32
  ![v2513.toNat, 0]

def k0_chk229 (v2511 : BitVec 32) : Prop :=
  (∀ a, (k0_off343 v2511) a + S1x64.size a ≤ S50000x64.size a)
instance k0_chk229.dec : ∀ (v2511 : BitVec 32), Decidable (k0_chk229 v2511) := fun v2511 => decidable_of_iff' _ (Iff.of_eq (k0_chk229.eq_1 v2511))
theorem k0_off343_inb : ∀ (v2511 : BitVec 32) (k0_hw229 : k0_chk229 v2511), ∀ a, (k0_off343 v2511) a + S1x64.size a ≤ S50000x64.size a := fun v2511 k0_hw229 => k0_hw229

def k0_off344 (v2512 : BitVec 32) : Fin 2 → Nat :=
  let v2516 : Index := Scalar.indexCast v2512
  let c0_800 : Index := 0#32
  ![v2516.toNat, 0]

def k0_off345 (v2512 : BitVec 32) : Fin 2 → Nat :=
  let v2524 : Index := Scalar.indexCast v2512
  let c0_802 : Index := 0#32
  ![v2524.toNat, 0]

def k0_chk230 (v2512 : BitVec 32) : Prop :=
  (∀ a, (k0_off344 v2512) a + S1x64.size a ≤ S16384x64.size a) ∧
  (∀ a, (k0_off345 v2512) a + S1x1.size a ≤ S16384x1.size a)
instance k0_chk230.dec : ∀ (v2512 : BitVec 32), Decidable (k0_chk230 v2512) := fun v2512 => decidable_of_iff' _ (Iff.of_eq (k0_chk230.eq_1 v2512))
theorem k0_off344_inb : ∀ (v2512 : BitVec 32) (k0_hw230 : k0_chk230 v2512), ∀ a, (k0_off344 v2512) a + S1x64.size a ≤ S16384x64.size a := fun v2512 k0_hw230 => k0_hw230.1
theorem k0_off345_inb : ∀ (v2512 : BitVec 32) (k0_hw230 : k0_chk230 v2512), ∀ a, (k0_off345 v2512) a + S1x1.size a ≤ S16384x1.size a := fun v2512 k0_hw230 => k0_hw230.2

def k0_off346 (v2533 : BitVec 32) : Fin 2 → Nat :=
  let v2535 : Index := Scalar.indexCast v2533
  let c0_806 : Index := 0#32
  ![v2535.toNat, 0]

def k0_chk231 (v2533 : BitVec 32) : Prop :=
  (∀ a, (k0_off346 v2533) a + S1x64.size a ≤ S50000x64.size a)
instance k0_chk231.dec : ∀ (v2533 : BitVec 32), Decidable (k0_chk231 v2533) := fun v2533 => decidable_of_iff' _ (Iff.of_eq (k0_chk231.eq_1 v2533))
theorem k0_off346_inb : ∀ (v2533 : BitVec 32) (k0_hw231 : k0_chk231 v2533), ∀ a, (k0_off346 v2533) a + S1x64.size a ≤ S50000x64.size a := fun v2533 k0_hw231 => k0_hw231

def k0_off347 (v2534 : BitVec 32) : Fin 2 → Nat :=
  let v2538 : Index := Scalar.indexCast v2534
  let c0_807 : Index := 0#32
  ![v2538.toNat, 0]

def k0_off348 (v2534 : BitVec 32) : Fin 2 → Nat :=
  let v2546 : Index := Scalar.indexCast v2534
  let c0_809 : Index := 0#32
  ![v2546.toNat, 0]

def k0_chk232 (v2534 : BitVec 32) : Prop :=
  (∀ a, (k0_off347 v2534) a + S1x64.size a ≤ S16384x64.size a) ∧
  (∀ a, (k0_off348 v2534) a + S1x1.size a ≤ S16384x1.size a)
instance k0_chk232.dec : ∀ (v2534 : BitVec 32), Decidable (k0_chk232 v2534) := fun v2534 => decidable_of_iff' _ (Iff.of_eq (k0_chk232.eq_1 v2534))
theorem k0_off347_inb : ∀ (v2534 : BitVec 32) (k0_hw232 : k0_chk232 v2534), ∀ a, (k0_off347 v2534) a + S1x64.size a ≤ S16384x64.size a := fun v2534 k0_hw232 => k0_hw232.1
theorem k0_off348_inb : ∀ (v2534 : BitVec 32) (k0_hw232 : k0_chk232 v2534), ∀ a, (k0_off348 v2534) a + S1x1.size a ≤ S16384x1.size a := fun v2534 k0_hw232 => k0_hw232.2

def k0_off349 (v2555 : BitVec 32) : Fin 2 → Nat :=
  let v2557 : Index := Scalar.indexCast v2555
  let c0_813 : Index := 0#32
  ![v2557.toNat, 0]

def k0_chk233 (v2555 : BitVec 32) : Prop :=
  (∀ a, (k0_off349 v2555) a + S1x64.size a ≤ S50000x64.size a)
instance k0_chk233.dec : ∀ (v2555 : BitVec 32), Decidable (k0_chk233 v2555) := fun v2555 => decidable_of_iff' _ (Iff.of_eq (k0_chk233.eq_1 v2555))
theorem k0_off349_inb : ∀ (v2555 : BitVec 32) (k0_hw233 : k0_chk233 v2555), ∀ a, (k0_off349 v2555) a + S1x64.size a ≤ S50000x64.size a := fun v2555 k0_hw233 => k0_hw233

def k0_off350 (v2556 : BitVec 32) : Fin 2 → Nat :=
  let v2560 : Index := Scalar.indexCast v2556
  let c0_814 : Index := 0#32
  ![v2560.toNat, 0]

def k0_off351 (v2556 : BitVec 32) : Fin 2 → Nat :=
  let v2568 : Index := Scalar.indexCast v2556
  let c0_816 : Index := 0#32
  ![v2568.toNat, 0]

def k0_chk234 (v2556 : BitVec 32) : Prop :=
  (∀ a, (k0_off350 v2556) a + S1x64.size a ≤ S16384x64.size a) ∧
  (∀ a, (k0_off351 v2556) a + S1x1.size a ≤ S16384x1.size a)
instance k0_chk234.dec : ∀ (v2556 : BitVec 32), Decidable (k0_chk234 v2556) := fun v2556 => decidable_of_iff' _ (Iff.of_eq (k0_chk234.eq_1 v2556))
theorem k0_off350_inb : ∀ (v2556 : BitVec 32) (k0_hw234 : k0_chk234 v2556), ∀ a, (k0_off350 v2556) a + S1x64.size a ≤ S16384x64.size a := fun v2556 k0_hw234 => k0_hw234.1
theorem k0_off351_inb : ∀ (v2556 : BitVec 32) (k0_hw234 : k0_chk234 v2556), ∀ a, (k0_off351 v2556) a + S1x1.size a ≤ S16384x1.size a := fun v2556 k0_hw234 => k0_hw234.2

def k0_off352 (v2577 : BitVec 32) : Fin 2 → Nat :=
  let v2579 : Index := Scalar.indexCast v2577
  let c0_820 : Index := 0#32
  ![v2579.toNat, 0]

def k0_chk235 (v2577 : BitVec 32) : Prop :=
  (∀ a, (k0_off352 v2577) a + S1x64.size a ≤ S50000x64.size a)
instance k0_chk235.dec : ∀ (v2577 : BitVec 32), Decidable (k0_chk235 v2577) := fun v2577 => decidable_of_iff' _ (Iff.of_eq (k0_chk235.eq_1 v2577))
theorem k0_off352_inb : ∀ (v2577 : BitVec 32) (k0_hw235 : k0_chk235 v2577), ∀ a, (k0_off352 v2577) a + S1x64.size a ≤ S50000x64.size a := fun v2577 k0_hw235 => k0_hw235

def k0_off353 (v2578 : BitVec 32) : Fin 2 → Nat :=
  let v2582 : Index := Scalar.indexCast v2578
  let c0_821 : Index := 0#32
  ![v2582.toNat, 0]

def k0_off354 (v2578 : BitVec 32) : Fin 2 → Nat :=
  let v2590 : Index := Scalar.indexCast v2578
  let c0_823 : Index := 0#32
  ![v2590.toNat, 0]

def k0_chk236 (v2578 : BitVec 32) : Prop :=
  (∀ a, (k0_off353 v2578) a + S1x64.size a ≤ S16384x64.size a) ∧
  (∀ a, (k0_off354 v2578) a + S1x1.size a ≤ S16384x1.size a)
instance k0_chk236.dec : ∀ (v2578 : BitVec 32), Decidable (k0_chk236 v2578) := fun v2578 => decidable_of_iff' _ (Iff.of_eq (k0_chk236.eq_1 v2578))
theorem k0_off353_inb : ∀ (v2578 : BitVec 32) (k0_hw236 : k0_chk236 v2578), ∀ a, (k0_off353 v2578) a + S1x64.size a ≤ S16384x64.size a := fun v2578 k0_hw236 => k0_hw236.1
theorem k0_off354_inb : ∀ (v2578 : BitVec 32) (k0_hw236 : k0_chk236 v2578), ∀ a, (k0_off354 v2578) a + S1x1.size a ≤ S16384x1.size a := fun v2578 k0_hw236 => k0_hw236.2

def k0_off355 (v2599 : BitVec 32) : Fin 2 → Nat :=
  let v2601 : Index := Scalar.indexCast v2599
  let c0_827 : Index := 0#32
  ![v2601.toNat, 0]

def k0_chk237 (v2599 : BitVec 32) : Prop :=
  (∀ a, (k0_off355 v2599) a + S1x64.size a ≤ S50000x64.size a)
instance k0_chk237.dec : ∀ (v2599 : BitVec 32), Decidable (k0_chk237 v2599) := fun v2599 => decidable_of_iff' _ (Iff.of_eq (k0_chk237.eq_1 v2599))
theorem k0_off355_inb : ∀ (v2599 : BitVec 32) (k0_hw237 : k0_chk237 v2599), ∀ a, (k0_off355 v2599) a + S1x64.size a ≤ S50000x64.size a := fun v2599 k0_hw237 => k0_hw237

def k0_off356 (v2600 : BitVec 32) : Fin 2 → Nat :=
  let v2604 : Index := Scalar.indexCast v2600
  let c0_828 : Index := 0#32
  ![v2604.toNat, 0]

def k0_off357 (v2600 : BitVec 32) : Fin 2 → Nat :=
  let v2612 : Index := Scalar.indexCast v2600
  let c0_830 : Index := 0#32
  ![v2612.toNat, 0]

def k0_chk238 (v2600 : BitVec 32) : Prop :=
  (∀ a, (k0_off356 v2600) a + S1x64.size a ≤ S16384x64.size a) ∧
  (∀ a, (k0_off357 v2600) a + S1x1.size a ≤ S16384x1.size a)
instance k0_chk238.dec : ∀ (v2600 : BitVec 32), Decidable (k0_chk238 v2600) := fun v2600 => decidable_of_iff' _ (Iff.of_eq (k0_chk238.eq_1 v2600))
theorem k0_off356_inb : ∀ (v2600 : BitVec 32) (k0_hw238 : k0_chk238 v2600), ∀ a, (k0_off356 v2600) a + S1x64.size a ≤ S16384x64.size a := fun v2600 k0_hw238 => k0_hw238.1
theorem k0_off357_inb : ∀ (v2600 : BitVec 32) (k0_hw238 : k0_chk238 v2600), ∀ a, (k0_off357 v2600) a + S1x1.size a ≤ S16384x1.size a := fun v2600 k0_hw238 => k0_hw238.2

def k0_off358 (v2621 : BitVec 32) : Fin 2 → Nat :=
  let v2623 : Index := Scalar.indexCast v2621
  let c0_834 : Index := 0#32
  ![v2623.toNat, 0]

def k0_chk239 (v2621 : BitVec 32) : Prop :=
  (∀ a, (k0_off358 v2621) a + S1x64.size a ≤ S50000x64.size a)
instance k0_chk239.dec : ∀ (v2621 : BitVec 32), Decidable (k0_chk239 v2621) := fun v2621 => decidable_of_iff' _ (Iff.of_eq (k0_chk239.eq_1 v2621))
theorem k0_off358_inb : ∀ (v2621 : BitVec 32) (k0_hw239 : k0_chk239 v2621), ∀ a, (k0_off358 v2621) a + S1x64.size a ≤ S50000x64.size a := fun v2621 k0_hw239 => k0_hw239

def k0_off359 (v2622 : BitVec 32) : Fin 2 → Nat :=
  let v2626 : Index := Scalar.indexCast v2622
  let c0_835 : Index := 0#32
  ![v2626.toNat, 0]

def k0_off360 (v2622 : BitVec 32) : Fin 2 → Nat :=
  let v2634 : Index := Scalar.indexCast v2622
  let c0_837 : Index := 0#32
  ![v2634.toNat, 0]

def k0_chk240 (v2622 : BitVec 32) : Prop :=
  (∀ a, (k0_off359 v2622) a + S1x64.size a ≤ S16384x64.size a) ∧
  (∀ a, (k0_off360 v2622) a + S1x1.size a ≤ S16384x1.size a)
instance k0_chk240.dec : ∀ (v2622 : BitVec 32), Decidable (k0_chk240 v2622) := fun v2622 => decidable_of_iff' _ (Iff.of_eq (k0_chk240.eq_1 v2622))
theorem k0_off359_inb : ∀ (v2622 : BitVec 32) (k0_hw240 : k0_chk240 v2622), ∀ a, (k0_off359 v2622) a + S1x64.size a ≤ S16384x64.size a := fun v2622 k0_hw240 => k0_hw240.1
theorem k0_off360_inb : ∀ (v2622 : BitVec 32) (k0_hw240 : k0_chk240 v2622), ∀ a, (k0_off360 v2622) a + S1x1.size a ≤ S16384x1.size a := fun v2622 k0_hw240 => k0_hw240.2

def k0_off361 (v2643 : BitVec 32) : Fin 2 → Nat :=
  let v2645 : Index := Scalar.indexCast v2643
  let c0_841 : Index := 0#32
  ![v2645.toNat, 0]

def k0_chk241 (v2643 : BitVec 32) : Prop :=
  (∀ a, (k0_off361 v2643) a + S1x64.size a ≤ S50000x64.size a)
instance k0_chk241.dec : ∀ (v2643 : BitVec 32), Decidable (k0_chk241 v2643) := fun v2643 => decidable_of_iff' _ (Iff.of_eq (k0_chk241.eq_1 v2643))
theorem k0_off361_inb : ∀ (v2643 : BitVec 32) (k0_hw241 : k0_chk241 v2643), ∀ a, (k0_off361 v2643) a + S1x64.size a ≤ S50000x64.size a := fun v2643 k0_hw241 => k0_hw241

def k0_off362 (v2644 : BitVec 32) : Fin 2 → Nat :=
  let v2648 : Index := Scalar.indexCast v2644
  let c0_842 : Index := 0#32
  ![v2648.toNat, 0]

def k0_off363 (v2644 : BitVec 32) : Fin 2 → Nat :=
  let v2656 : Index := Scalar.indexCast v2644
  let c0_844 : Index := 0#32
  ![v2656.toNat, 0]

def k0_chk242 (v2644 : BitVec 32) : Prop :=
  (∀ a, (k0_off362 v2644) a + S1x64.size a ≤ S16384x64.size a) ∧
  (∀ a, (k0_off363 v2644) a + S1x1.size a ≤ S16384x1.size a)
instance k0_chk242.dec : ∀ (v2644 : BitVec 32), Decidable (k0_chk242 v2644) := fun v2644 => decidable_of_iff' _ (Iff.of_eq (k0_chk242.eq_1 v2644))
theorem k0_off362_inb : ∀ (v2644 : BitVec 32) (k0_hw242 : k0_chk242 v2644), ∀ a, (k0_off362 v2644) a + S1x64.size a ≤ S16384x64.size a := fun v2644 k0_hw242 => k0_hw242.1
theorem k0_off363_inb : ∀ (v2644 : BitVec 32) (k0_hw242 : k0_chk242 v2644), ∀ a, (k0_off363 v2644) a + S1x1.size a ≤ S16384x1.size a := fun v2644 k0_hw242 => k0_hw242.2

def k0_off364 (v2665 : BitVec 32) : Fin 2 → Nat :=
  let v2667 : Index := Scalar.indexCast v2665
  let c0_848 : Index := 0#32
  ![v2667.toNat, 0]

def k0_chk243 (v2665 : BitVec 32) : Prop :=
  (∀ a, (k0_off364 v2665) a + S1x64.size a ≤ S50000x64.size a)
instance k0_chk243.dec : ∀ (v2665 : BitVec 32), Decidable (k0_chk243 v2665) := fun v2665 => decidable_of_iff' _ (Iff.of_eq (k0_chk243.eq_1 v2665))
theorem k0_off364_inb : ∀ (v2665 : BitVec 32) (k0_hw243 : k0_chk243 v2665), ∀ a, (k0_off364 v2665) a + S1x64.size a ≤ S50000x64.size a := fun v2665 k0_hw243 => k0_hw243

def k0_off365 (v2666 : BitVec 32) : Fin 2 → Nat :=
  let v2670 : Index := Scalar.indexCast v2666
  let c0_849 : Index := 0#32
  ![v2670.toNat, 0]

def k0_off366 (v2666 : BitVec 32) : Fin 2 → Nat :=
  let v2678 : Index := Scalar.indexCast v2666
  let c0_851 : Index := 0#32
  ![v2678.toNat, 0]

def k0_chk244 (v2666 : BitVec 32) : Prop :=
  (∀ a, (k0_off365 v2666) a + S1x64.size a ≤ S16384x64.size a) ∧
  (∀ a, (k0_off366 v2666) a + S1x1.size a ≤ S16384x1.size a)
instance k0_chk244.dec : ∀ (v2666 : BitVec 32), Decidable (k0_chk244 v2666) := fun v2666 => decidable_of_iff' _ (Iff.of_eq (k0_chk244.eq_1 v2666))
theorem k0_off365_inb : ∀ (v2666 : BitVec 32) (k0_hw244 : k0_chk244 v2666), ∀ a, (k0_off365 v2666) a + S1x64.size a ≤ S16384x64.size a := fun v2666 k0_hw244 => k0_hw244.1
theorem k0_off366_inb : ∀ (v2666 : BitVec 32) (k0_hw244 : k0_chk244 v2666), ∀ a, (k0_off366 v2666) a + S1x1.size a ≤ S16384x1.size a := fun v2666 k0_hw244 => k0_hw244.2

def k0_off367 (v2687 : BitVec 32) : Fin 2 → Nat :=
  let v2689 : Index := Scalar.indexCast v2687
  let c0_855 : Index := 0#32
  ![v2689.toNat, 0]

def k0_chk245 (v2687 : BitVec 32) : Prop :=
  (∀ a, (k0_off367 v2687) a + S1x64.size a ≤ S50000x64.size a)
instance k0_chk245.dec : ∀ (v2687 : BitVec 32), Decidable (k0_chk245 v2687) := fun v2687 => decidable_of_iff' _ (Iff.of_eq (k0_chk245.eq_1 v2687))
theorem k0_off367_inb : ∀ (v2687 : BitVec 32) (k0_hw245 : k0_chk245 v2687), ∀ a, (k0_off367 v2687) a + S1x64.size a ≤ S50000x64.size a := fun v2687 k0_hw245 => k0_hw245

def k0_off368 (v2688 : BitVec 32) : Fin 2 → Nat :=
  let v2692 : Index := Scalar.indexCast v2688
  let c0_856 : Index := 0#32
  ![v2692.toNat, 0]

def k0_off369 (v2688 : BitVec 32) : Fin 2 → Nat :=
  let v2700 : Index := Scalar.indexCast v2688
  let c0_858 : Index := 0#32
  ![v2700.toNat, 0]

def k0_chk246 (v2688 : BitVec 32) : Prop :=
  (∀ a, (k0_off368 v2688) a + S1x64.size a ≤ S16384x64.size a) ∧
  (∀ a, (k0_off369 v2688) a + S1x1.size a ≤ S16384x1.size a)
instance k0_chk246.dec : ∀ (v2688 : BitVec 32), Decidable (k0_chk246 v2688) := fun v2688 => decidable_of_iff' _ (Iff.of_eq (k0_chk246.eq_1 v2688))
theorem k0_off368_inb : ∀ (v2688 : BitVec 32) (k0_hw246 : k0_chk246 v2688), ∀ a, (k0_off368 v2688) a + S1x64.size a ≤ S16384x64.size a := fun v2688 k0_hw246 => k0_hw246.1
theorem k0_off369_inb : ∀ (v2688 : BitVec 32) (k0_hw246 : k0_chk246 v2688), ∀ a, (k0_off369 v2688) a + S1x1.size a ≤ S16384x1.size a := fun v2688 k0_hw246 => k0_hw246.2

def k0_off370 (v2709 : BitVec 32) : Fin 2 → Nat :=
  let v2711 : Index := Scalar.indexCast v2709
  let c0_862 : Index := 0#32
  ![v2711.toNat, 0]

def k0_chk247 (v2709 : BitVec 32) : Prop :=
  (∀ a, (k0_off370 v2709) a + S1x64.size a ≤ S50000x64.size a)
instance k0_chk247.dec : ∀ (v2709 : BitVec 32), Decidable (k0_chk247 v2709) := fun v2709 => decidable_of_iff' _ (Iff.of_eq (k0_chk247.eq_1 v2709))
theorem k0_off370_inb : ∀ (v2709 : BitVec 32) (k0_hw247 : k0_chk247 v2709), ∀ a, (k0_off370 v2709) a + S1x64.size a ≤ S50000x64.size a := fun v2709 k0_hw247 => k0_hw247

def k0_off371 (v2710 : BitVec 32) : Fin 2 → Nat :=
  let v2714 : Index := Scalar.indexCast v2710
  let c0_863 : Index := 0#32
  ![v2714.toNat, 0]

def k0_off372 (v2710 : BitVec 32) : Fin 2 → Nat :=
  let v2722 : Index := Scalar.indexCast v2710
  let c0_865 : Index := 0#32
  ![v2722.toNat, 0]

def k0_chk248 (v2710 : BitVec 32) : Prop :=
  (∀ a, (k0_off371 v2710) a + S1x64.size a ≤ S16384x64.size a) ∧
  (∀ a, (k0_off372 v2710) a + S1x1.size a ≤ S16384x1.size a)
instance k0_chk248.dec : ∀ (v2710 : BitVec 32), Decidable (k0_chk248 v2710) := fun v2710 => decidable_of_iff' _ (Iff.of_eq (k0_chk248.eq_1 v2710))
theorem k0_off371_inb : ∀ (v2710 : BitVec 32) (k0_hw248 : k0_chk248 v2710), ∀ a, (k0_off371 v2710) a + S1x64.size a ≤ S16384x64.size a := fun v2710 k0_hw248 => k0_hw248.1
theorem k0_off372_inb : ∀ (v2710 : BitVec 32) (k0_hw248 : k0_chk248 v2710), ∀ a, (k0_off372 v2710) a + S1x1.size a ≤ S16384x1.size a := fun v2710 k0_hw248 => k0_hw248.2

def k0_off373 (v2731 : BitVec 32) : Fin 2 → Nat :=
  let v2733 : Index := Scalar.indexCast v2731
  let c0_869 : Index := 0#32
  ![v2733.toNat, 0]

def k0_chk249 (v2731 : BitVec 32) : Prop :=
  (∀ a, (k0_off373 v2731) a + S1x64.size a ≤ S50000x64.size a)
instance k0_chk249.dec : ∀ (v2731 : BitVec 32), Decidable (k0_chk249 v2731) := fun v2731 => decidable_of_iff' _ (Iff.of_eq (k0_chk249.eq_1 v2731))
theorem k0_off373_inb : ∀ (v2731 : BitVec 32) (k0_hw249 : k0_chk249 v2731), ∀ a, (k0_off373 v2731) a + S1x64.size a ≤ S50000x64.size a := fun v2731 k0_hw249 => k0_hw249

def k0_off374 (v2732 : BitVec 32) : Fin 2 → Nat :=
  let v2736 : Index := Scalar.indexCast v2732
  let c0_870 : Index := 0#32
  ![v2736.toNat, 0]

def k0_off375 (v2732 : BitVec 32) : Fin 2 → Nat :=
  let v2744 : Index := Scalar.indexCast v2732
  let c0_872 : Index := 0#32
  ![v2744.toNat, 0]

def k0_chk250 (v2732 : BitVec 32) : Prop :=
  (∀ a, (k0_off374 v2732) a + S1x64.size a ≤ S16384x64.size a) ∧
  (∀ a, (k0_off375 v2732) a + S1x1.size a ≤ S16384x1.size a)
instance k0_chk250.dec : ∀ (v2732 : BitVec 32), Decidable (k0_chk250 v2732) := fun v2732 => decidable_of_iff' _ (Iff.of_eq (k0_chk250.eq_1 v2732))
theorem k0_off374_inb : ∀ (v2732 : BitVec 32) (k0_hw250 : k0_chk250 v2732), ∀ a, (k0_off374 v2732) a + S1x64.size a ≤ S16384x64.size a := fun v2732 k0_hw250 => k0_hw250.1
theorem k0_off375_inb : ∀ (v2732 : BitVec 32) (k0_hw250 : k0_chk250 v2732), ∀ a, (k0_off375 v2732) a + S1x1.size a ≤ S16384x1.size a := fun v2732 k0_hw250 => k0_hw250.2

def k0_off376 (v2753 : BitVec 32) : Fin 2 → Nat :=
  let v2755 : Index := Scalar.indexCast v2753
  let c0_876 : Index := 0#32
  ![v2755.toNat, 0]

def k0_chk251 (v2753 : BitVec 32) : Prop :=
  (∀ a, (k0_off376 v2753) a + S1x64.size a ≤ S50000x64.size a)
instance k0_chk251.dec : ∀ (v2753 : BitVec 32), Decidable (k0_chk251 v2753) := fun v2753 => decidable_of_iff' _ (Iff.of_eq (k0_chk251.eq_1 v2753))
theorem k0_off376_inb : ∀ (v2753 : BitVec 32) (k0_hw251 : k0_chk251 v2753), ∀ a, (k0_off376 v2753) a + S1x64.size a ≤ S50000x64.size a := fun v2753 k0_hw251 => k0_hw251

def k0_off377 (v2754 : BitVec 32) : Fin 2 → Nat :=
  let v2758 : Index := Scalar.indexCast v2754
  let c0_877 : Index := 0#32
  ![v2758.toNat, 0]

def k0_off378 (v2754 : BitVec 32) : Fin 2 → Nat :=
  let v2766 : Index := Scalar.indexCast v2754
  let c0_879 : Index := 0#32
  ![v2766.toNat, 0]

def k0_chk252 (v2754 : BitVec 32) : Prop :=
  (∀ a, (k0_off377 v2754) a + S1x64.size a ≤ S16384x64.size a) ∧
  (∀ a, (k0_off378 v2754) a + S1x1.size a ≤ S16384x1.size a)
instance k0_chk252.dec : ∀ (v2754 : BitVec 32), Decidable (k0_chk252 v2754) := fun v2754 => decidable_of_iff' _ (Iff.of_eq (k0_chk252.eq_1 v2754))
theorem k0_off377_inb : ∀ (v2754 : BitVec 32) (k0_hw252 : k0_chk252 v2754), ∀ a, (k0_off377 v2754) a + S1x64.size a ≤ S16384x64.size a := fun v2754 k0_hw252 => k0_hw252.1
theorem k0_off378_inb : ∀ (v2754 : BitVec 32) (k0_hw252 : k0_chk252 v2754), ∀ a, (k0_off378 v2754) a + S1x1.size a ≤ S16384x1.size a := fun v2754 k0_hw252 => k0_hw252.2

def k0_off379 (v2775 : BitVec 32) : Fin 2 → Nat :=
  let v2777 : Index := Scalar.indexCast v2775
  let c0_883 : Index := 0#32
  ![v2777.toNat, 0]

def k0_chk253 (v2775 : BitVec 32) : Prop :=
  (∀ a, (k0_off379 v2775) a + S1x64.size a ≤ S50000x64.size a)
instance k0_chk253.dec : ∀ (v2775 : BitVec 32), Decidable (k0_chk253 v2775) := fun v2775 => decidable_of_iff' _ (Iff.of_eq (k0_chk253.eq_1 v2775))
theorem k0_off379_inb : ∀ (v2775 : BitVec 32) (k0_hw253 : k0_chk253 v2775), ∀ a, (k0_off379 v2775) a + S1x64.size a ≤ S50000x64.size a := fun v2775 k0_hw253 => k0_hw253

def k0_off380 (v2776 : BitVec 32) : Fin 2 → Nat :=
  let v2780 : Index := Scalar.indexCast v2776
  let c0_884 : Index := 0#32
  ![v2780.toNat, 0]

def k0_off381 (v2776 : BitVec 32) : Fin 2 → Nat :=
  let v2788 : Index := Scalar.indexCast v2776
  let c0_886 : Index := 0#32
  ![v2788.toNat, 0]

def k0_chk254 (v2776 : BitVec 32) : Prop :=
  (∀ a, (k0_off380 v2776) a + S1x64.size a ≤ S16384x64.size a) ∧
  (∀ a, (k0_off381 v2776) a + S1x1.size a ≤ S16384x1.size a)
instance k0_chk254.dec : ∀ (v2776 : BitVec 32), Decidable (k0_chk254 v2776) := fun v2776 => decidable_of_iff' _ (Iff.of_eq (k0_chk254.eq_1 v2776))
theorem k0_off380_inb : ∀ (v2776 : BitVec 32) (k0_hw254 : k0_chk254 v2776), ∀ a, (k0_off380 v2776) a + S1x64.size a ≤ S16384x64.size a := fun v2776 k0_hw254 => k0_hw254.1
theorem k0_off381_inb : ∀ (v2776 : BitVec 32) (k0_hw254 : k0_chk254 v2776), ∀ a, (k0_off381 v2776) a + S1x1.size a ≤ S16384x1.size a := fun v2776 k0_hw254 => k0_hw254.2

def k0_off382 (v2797 : BitVec 32) : Fin 2 → Nat :=
  let v2799 : Index := Scalar.indexCast v2797
  let c0_890 : Index := 0#32
  ![v2799.toNat, 0]

def k0_chk255 (v2797 : BitVec 32) : Prop :=
  (∀ a, (k0_off382 v2797) a + S1x64.size a ≤ S50000x64.size a)
instance k0_chk255.dec : ∀ (v2797 : BitVec 32), Decidable (k0_chk255 v2797) := fun v2797 => decidable_of_iff' _ (Iff.of_eq (k0_chk255.eq_1 v2797))
theorem k0_off382_inb : ∀ (v2797 : BitVec 32) (k0_hw255 : k0_chk255 v2797), ∀ a, (k0_off382 v2797) a + S1x64.size a ≤ S50000x64.size a := fun v2797 k0_hw255 => k0_hw255

def k0_off383 (v2798 : BitVec 32) : Fin 2 → Nat :=
  let v2802 : Index := Scalar.indexCast v2798
  let c0_891 : Index := 0#32
  ![v2802.toNat, 0]

def k0_off384 (v2798 : BitVec 32) : Fin 2 → Nat :=
  let v2810 : Index := Scalar.indexCast v2798
  let c0_893 : Index := 0#32
  ![v2810.toNat, 0]

def k0_chk256 (v2798 : BitVec 32) : Prop :=
  (∀ a, (k0_off383 v2798) a + S1x64.size a ≤ S16384x64.size a) ∧
  (∀ a, (k0_off384 v2798) a + S1x1.size a ≤ S16384x1.size a)
instance k0_chk256.dec : ∀ (v2798 : BitVec 32), Decidable (k0_chk256 v2798) := fun v2798 => decidable_of_iff' _ (Iff.of_eq (k0_chk256.eq_1 v2798))
theorem k0_off383_inb : ∀ (v2798 : BitVec 32) (k0_hw256 : k0_chk256 v2798), ∀ a, (k0_off383 v2798) a + S1x64.size a ≤ S16384x64.size a := fun v2798 k0_hw256 => k0_hw256.1
theorem k0_off384_inb : ∀ (v2798 : BitVec 32) (k0_hw256 : k0_chk256 v2798), ∀ a, (k0_off384 v2798) a + S1x1.size a ≤ S16384x1.size a := fun v2798 k0_hw256 => k0_hw256.2

def k0_off385 (v2819 : BitVec 32) : Fin 2 → Nat :=
  let v2821 : Index := Scalar.indexCast v2819
  let c0_897 : Index := 0#32
  ![v2821.toNat, 0]

def k0_chk257 (v2819 : BitVec 32) : Prop :=
  (∀ a, (k0_off385 v2819) a + S1x64.size a ≤ S50000x64.size a)
instance k0_chk257.dec : ∀ (v2819 : BitVec 32), Decidable (k0_chk257 v2819) := fun v2819 => decidable_of_iff' _ (Iff.of_eq (k0_chk257.eq_1 v2819))
theorem k0_off385_inb : ∀ (v2819 : BitVec 32) (k0_hw257 : k0_chk257 v2819), ∀ a, (k0_off385 v2819) a + S1x64.size a ≤ S50000x64.size a := fun v2819 k0_hw257 => k0_hw257

def k0_off386 (v2820 : BitVec 32) : Fin 2 → Nat :=
  let v2824 : Index := Scalar.indexCast v2820
  let c0_898 : Index := 0#32
  ![v2824.toNat, 0]

def k0_off387 (v2820 : BitVec 32) : Fin 2 → Nat :=
  let v2832 : Index := Scalar.indexCast v2820
  let c0_900 : Index := 0#32
  ![v2832.toNat, 0]

def k0_chk258 (v2820 : BitVec 32) : Prop :=
  (∀ a, (k0_off386 v2820) a + S1x64.size a ≤ S16384x64.size a) ∧
  (∀ a, (k0_off387 v2820) a + S1x1.size a ≤ S16384x1.size a)
instance k0_chk258.dec : ∀ (v2820 : BitVec 32), Decidable (k0_chk258 v2820) := fun v2820 => decidable_of_iff' _ (Iff.of_eq (k0_chk258.eq_1 v2820))
theorem k0_off386_inb : ∀ (v2820 : BitVec 32) (k0_hw258 : k0_chk258 v2820), ∀ a, (k0_off386 v2820) a + S1x64.size a ≤ S16384x64.size a := fun v2820 k0_hw258 => k0_hw258.1
theorem k0_off387_inb : ∀ (v2820 : BitVec 32) (k0_hw258 : k0_chk258 v2820), ∀ a, (k0_off387 v2820) a + S1x1.size a ≤ S16384x1.size a := fun v2820 k0_hw258 => k0_hw258.2

def k0_off388 (v2841 : BitVec 32) : Fin 2 → Nat :=
  let v2843 : Index := Scalar.indexCast v2841
  let c0_904 : Index := 0#32
  ![v2843.toNat, 0]

def k0_chk259 (v2841 : BitVec 32) : Prop :=
  (∀ a, (k0_off388 v2841) a + S1x64.size a ≤ S50000x64.size a)
instance k0_chk259.dec : ∀ (v2841 : BitVec 32), Decidable (k0_chk259 v2841) := fun v2841 => decidable_of_iff' _ (Iff.of_eq (k0_chk259.eq_1 v2841))
theorem k0_off388_inb : ∀ (v2841 : BitVec 32) (k0_hw259 : k0_chk259 v2841), ∀ a, (k0_off388 v2841) a + S1x64.size a ≤ S50000x64.size a := fun v2841 k0_hw259 => k0_hw259

def k0_off389 (v2842 : BitVec 32) : Fin 2 → Nat :=
  let v2846 : Index := Scalar.indexCast v2842
  let c0_905 : Index := 0#32
  ![v2846.toNat, 0]

def k0_off390 (v2842 : BitVec 32) : Fin 2 → Nat :=
  let v2854 : Index := Scalar.indexCast v2842
  let c0_907 : Index := 0#32
  ![v2854.toNat, 0]

def k0_chk260 (v2842 : BitVec 32) : Prop :=
  (∀ a, (k0_off389 v2842) a + S1x64.size a ≤ S16384x64.size a) ∧
  (∀ a, (k0_off390 v2842) a + S1x1.size a ≤ S16384x1.size a)
instance k0_chk260.dec : ∀ (v2842 : BitVec 32), Decidable (k0_chk260 v2842) := fun v2842 => decidable_of_iff' _ (Iff.of_eq (k0_chk260.eq_1 v2842))
theorem k0_off389_inb : ∀ (v2842 : BitVec 32) (k0_hw260 : k0_chk260 v2842), ∀ a, (k0_off389 v2842) a + S1x64.size a ≤ S16384x64.size a := fun v2842 k0_hw260 => k0_hw260.1
theorem k0_off390_inb : ∀ (v2842 : BitVec 32) (k0_hw260 : k0_chk260 v2842), ∀ a, (k0_off390 v2842) a + S1x1.size a ≤ S16384x1.size a := fun v2842 k0_hw260 => k0_hw260.2

def k0_off391 (v2863 : BitVec 32) : Fin 2 → Nat :=
  let v2865 : Index := Scalar.indexCast v2863
  let c0_911 : Index := 0#32
  ![v2865.toNat, 0]

def k0_chk261 (v2863 : BitVec 32) : Prop :=
  (∀ a, (k0_off391 v2863) a + S1x64.size a ≤ S50000x64.size a)
instance k0_chk261.dec : ∀ (v2863 : BitVec 32), Decidable (k0_chk261 v2863) := fun v2863 => decidable_of_iff' _ (Iff.of_eq (k0_chk261.eq_1 v2863))
theorem k0_off391_inb : ∀ (v2863 : BitVec 32) (k0_hw261 : k0_chk261 v2863), ∀ a, (k0_off391 v2863) a + S1x64.size a ≤ S50000x64.size a := fun v2863 k0_hw261 => k0_hw261

def k0_off392 (v2864 : BitVec 32) : Fin 2 → Nat :=
  let v2868 : Index := Scalar.indexCast v2864
  let c0_912 : Index := 0#32
  ![v2868.toNat, 0]

def k0_off393 (v2864 : BitVec 32) : Fin 2 → Nat :=
  let v2876 : Index := Scalar.indexCast v2864
  let c0_914 : Index := 0#32
  ![v2876.toNat, 0]

def k0_chk262 (v2864 : BitVec 32) : Prop :=
  (∀ a, (k0_off392 v2864) a + S1x64.size a ≤ S16384x64.size a) ∧
  (∀ a, (k0_off393 v2864) a + S1x1.size a ≤ S16384x1.size a)
instance k0_chk262.dec : ∀ (v2864 : BitVec 32), Decidable (k0_chk262 v2864) := fun v2864 => decidable_of_iff' _ (Iff.of_eq (k0_chk262.eq_1 v2864))
theorem k0_off392_inb : ∀ (v2864 : BitVec 32) (k0_hw262 : k0_chk262 v2864), ∀ a, (k0_off392 v2864) a + S1x64.size a ≤ S16384x64.size a := fun v2864 k0_hw262 => k0_hw262.1
theorem k0_off393_inb : ∀ (v2864 : BitVec 32) (k0_hw262 : k0_chk262 v2864), ∀ a, (k0_off393 v2864) a + S1x1.size a ≤ S16384x1.size a := fun v2864 k0_hw262 => k0_hw262.2

def k0_off394 (v2885 : BitVec 32) : Fin 2 → Nat :=
  let v2887 : Index := Scalar.indexCast v2885
  let c0_918 : Index := 0#32
  ![v2887.toNat, 0]

def k0_chk263 (v2885 : BitVec 32) : Prop :=
  (∀ a, (k0_off394 v2885) a + S1x64.size a ≤ S50000x64.size a)
instance k0_chk263.dec : ∀ (v2885 : BitVec 32), Decidable (k0_chk263 v2885) := fun v2885 => decidable_of_iff' _ (Iff.of_eq (k0_chk263.eq_1 v2885))
theorem k0_off394_inb : ∀ (v2885 : BitVec 32) (k0_hw263 : k0_chk263 v2885), ∀ a, (k0_off394 v2885) a + S1x64.size a ≤ S50000x64.size a := fun v2885 k0_hw263 => k0_hw263

def k0_off395 (v2886 : BitVec 32) : Fin 2 → Nat :=
  let v2890 : Index := Scalar.indexCast v2886
  let c0_919 : Index := 0#32
  ![v2890.toNat, 0]

def k0_off396 (v2886 : BitVec 32) : Fin 2 → Nat :=
  let v2898 : Index := Scalar.indexCast v2886
  let c0_921 : Index := 0#32
  ![v2898.toNat, 0]

def k0_chk264 (v2886 : BitVec 32) : Prop :=
  (∀ a, (k0_off395 v2886) a + S1x64.size a ≤ S16384x64.size a) ∧
  (∀ a, (k0_off396 v2886) a + S1x1.size a ≤ S16384x1.size a)
instance k0_chk264.dec : ∀ (v2886 : BitVec 32), Decidable (k0_chk264 v2886) := fun v2886 => decidable_of_iff' _ (Iff.of_eq (k0_chk264.eq_1 v2886))
theorem k0_off395_inb : ∀ (v2886 : BitVec 32) (k0_hw264 : k0_chk264 v2886), ∀ a, (k0_off395 v2886) a + S1x64.size a ≤ S16384x64.size a := fun v2886 k0_hw264 => k0_hw264.1
theorem k0_off396_inb : ∀ (v2886 : BitVec 32) (k0_hw264 : k0_chk264 v2886), ∀ a, (k0_off396 v2886) a + S1x1.size a ≤ S16384x1.size a := fun v2886 k0_hw264 => k0_hw264.2

def k0_off397 (v2907 : BitVec 32) : Fin 2 → Nat :=
  let v2909 : Index := Scalar.indexCast v2907
  let c0_925 : Index := 0#32
  ![v2909.toNat, 0]

def k0_chk265 (v2907 : BitVec 32) : Prop :=
  (∀ a, (k0_off397 v2907) a + S1x64.size a ≤ S50000x64.size a)
instance k0_chk265.dec : ∀ (v2907 : BitVec 32), Decidable (k0_chk265 v2907) := fun v2907 => decidable_of_iff' _ (Iff.of_eq (k0_chk265.eq_1 v2907))
theorem k0_off397_inb : ∀ (v2907 : BitVec 32) (k0_hw265 : k0_chk265 v2907), ∀ a, (k0_off397 v2907) a + S1x64.size a ≤ S50000x64.size a := fun v2907 k0_hw265 => k0_hw265

def k0_off398 (v2908 : BitVec 32) : Fin 2 → Nat :=
  let v2912 : Index := Scalar.indexCast v2908
  let c0_926 : Index := 0#32
  ![v2912.toNat, 0]

def k0_off399 (v2908 : BitVec 32) : Fin 2 → Nat :=
  let v2920 : Index := Scalar.indexCast v2908
  let c0_928 : Index := 0#32
  ![v2920.toNat, 0]

def k0_chk266 (v2908 : BitVec 32) : Prop :=
  (∀ a, (k0_off398 v2908) a + S1x64.size a ≤ S16384x64.size a) ∧
  (∀ a, (k0_off399 v2908) a + S1x1.size a ≤ S16384x1.size a)
instance k0_chk266.dec : ∀ (v2908 : BitVec 32), Decidable (k0_chk266 v2908) := fun v2908 => decidable_of_iff' _ (Iff.of_eq (k0_chk266.eq_1 v2908))
theorem k0_off398_inb : ∀ (v2908 : BitVec 32) (k0_hw266 : k0_chk266 v2908), ∀ a, (k0_off398 v2908) a + S1x64.size a ≤ S16384x64.size a := fun v2908 k0_hw266 => k0_hw266.1
theorem k0_off399_inb : ∀ (v2908 : BitVec 32) (k0_hw266 : k0_chk266 v2908), ∀ a, (k0_off399 v2908) a + S1x1.size a ≤ S16384x1.size a := fun v2908 k0_hw266 => k0_hw266.2

def k0_off400 (v2929 : BitVec 32) : Fin 2 → Nat :=
  let v2931 : Index := Scalar.indexCast v2929
  let c0_932 : Index := 0#32
  ![v2931.toNat, 0]

def k0_chk267 (v2929 : BitVec 32) : Prop :=
  (∀ a, (k0_off400 v2929) a + S1x64.size a ≤ S50000x64.size a)
instance k0_chk267.dec : ∀ (v2929 : BitVec 32), Decidable (k0_chk267 v2929) := fun v2929 => decidable_of_iff' _ (Iff.of_eq (k0_chk267.eq_1 v2929))
theorem k0_off400_inb : ∀ (v2929 : BitVec 32) (k0_hw267 : k0_chk267 v2929), ∀ a, (k0_off400 v2929) a + S1x64.size a ≤ S50000x64.size a := fun v2929 k0_hw267 => k0_hw267

def k0_off401 (v2930 : BitVec 32) : Fin 2 → Nat :=
  let v2934 : Index := Scalar.indexCast v2930
  let c0_933 : Index := 0#32
  ![v2934.toNat, 0]

def k0_off402 (v2930 : BitVec 32) : Fin 2 → Nat :=
  let v2942 : Index := Scalar.indexCast v2930
  let c0_935 : Index := 0#32
  ![v2942.toNat, 0]

def k0_chk268 (v2930 : BitVec 32) : Prop :=
  (∀ a, (k0_off401 v2930) a + S1x64.size a ≤ S16384x64.size a) ∧
  (∀ a, (k0_off402 v2930) a + S1x1.size a ≤ S16384x1.size a)
instance k0_chk268.dec : ∀ (v2930 : BitVec 32), Decidable (k0_chk268 v2930) := fun v2930 => decidable_of_iff' _ (Iff.of_eq (k0_chk268.eq_1 v2930))
theorem k0_off401_inb : ∀ (v2930 : BitVec 32) (k0_hw268 : k0_chk268 v2930), ∀ a, (k0_off401 v2930) a + S1x64.size a ≤ S16384x64.size a := fun v2930 k0_hw268 => k0_hw268.1
theorem k0_off402_inb : ∀ (v2930 : BitVec 32) (k0_hw268 : k0_chk268 v2930), ∀ a, (k0_off402 v2930) a + S1x1.size a ≤ S16384x1.size a := fun v2930 k0_hw268 => k0_hw268.2

def k0_off403 (v2951 : BitVec 32) : Fin 2 → Nat :=
  let v2953 : Index := Scalar.indexCast v2951
  let c0_939 : Index := 0#32
  ![v2953.toNat, 0]

def k0_chk269 (v2951 : BitVec 32) : Prop :=
  (∀ a, (k0_off403 v2951) a + S1x64.size a ≤ S50000x64.size a)
instance k0_chk269.dec : ∀ (v2951 : BitVec 32), Decidable (k0_chk269 v2951) := fun v2951 => decidable_of_iff' _ (Iff.of_eq (k0_chk269.eq_1 v2951))
theorem k0_off403_inb : ∀ (v2951 : BitVec 32) (k0_hw269 : k0_chk269 v2951), ∀ a, (k0_off403 v2951) a + S1x64.size a ≤ S50000x64.size a := fun v2951 k0_hw269 => k0_hw269

def k0_off404 (v2952 : BitVec 32) : Fin 2 → Nat :=
  let v2956 : Index := Scalar.indexCast v2952
  let c0_940 : Index := 0#32
  ![v2956.toNat, 0]

def k0_off405 (v2952 : BitVec 32) : Fin 2 → Nat :=
  let v2964 : Index := Scalar.indexCast v2952
  let c0_942 : Index := 0#32
  ![v2964.toNat, 0]

def k0_chk270 (v2952 : BitVec 32) : Prop :=
  (∀ a, (k0_off404 v2952) a + S1x64.size a ≤ S16384x64.size a) ∧
  (∀ a, (k0_off405 v2952) a + S1x1.size a ≤ S16384x1.size a)
instance k0_chk270.dec : ∀ (v2952 : BitVec 32), Decidable (k0_chk270 v2952) := fun v2952 => decidable_of_iff' _ (Iff.of_eq (k0_chk270.eq_1 v2952))
theorem k0_off404_inb : ∀ (v2952 : BitVec 32) (k0_hw270 : k0_chk270 v2952), ∀ a, (k0_off404 v2952) a + S1x64.size a ≤ S16384x64.size a := fun v2952 k0_hw270 => k0_hw270.1
theorem k0_off405_inb : ∀ (v2952 : BitVec 32) (k0_hw270 : k0_chk270 v2952), ∀ a, (k0_off405 v2952) a + S1x1.size a ≤ S16384x1.size a := fun v2952 k0_hw270 => k0_hw270.2

def k0_off406 (v2973 : BitVec 32) : Fin 2 → Nat :=
  let v2975 : Index := Scalar.indexCast v2973
  let c0_946 : Index := 0#32
  ![v2975.toNat, 0]

def k0_chk271 (v2973 : BitVec 32) : Prop :=
  (∀ a, (k0_off406 v2973) a + S1x64.size a ≤ S50000x64.size a)
instance k0_chk271.dec : ∀ (v2973 : BitVec 32), Decidable (k0_chk271 v2973) := fun v2973 => decidable_of_iff' _ (Iff.of_eq (k0_chk271.eq_1 v2973))
theorem k0_off406_inb : ∀ (v2973 : BitVec 32) (k0_hw271 : k0_chk271 v2973), ∀ a, (k0_off406 v2973) a + S1x64.size a ≤ S50000x64.size a := fun v2973 k0_hw271 => k0_hw271

def k0_off407 (v2974 : BitVec 32) : Fin 2 → Nat :=
  let v2978 : Index := Scalar.indexCast v2974
  let c0_947 : Index := 0#32
  ![v2978.toNat, 0]

def k0_off408 (v2974 : BitVec 32) : Fin 2 → Nat :=
  let v2986 : Index := Scalar.indexCast v2974
  let c0_949 : Index := 0#32
  ![v2986.toNat, 0]

def k0_chk272 (v2974 : BitVec 32) : Prop :=
  (∀ a, (k0_off407 v2974) a + S1x64.size a ≤ S16384x64.size a) ∧
  (∀ a, (k0_off408 v2974) a + S1x1.size a ≤ S16384x1.size a)
instance k0_chk272.dec : ∀ (v2974 : BitVec 32), Decidable (k0_chk272 v2974) := fun v2974 => decidable_of_iff' _ (Iff.of_eq (k0_chk272.eq_1 v2974))
theorem k0_off407_inb : ∀ (v2974 : BitVec 32) (k0_hw272 : k0_chk272 v2974), ∀ a, (k0_off407 v2974) a + S1x64.size a ≤ S16384x64.size a := fun v2974 k0_hw272 => k0_hw272.1
theorem k0_off408_inb : ∀ (v2974 : BitVec 32) (k0_hw272 : k0_chk272 v2974), ∀ a, (k0_off408 v2974) a + S1x1.size a ≤ S16384x1.size a := fun v2974 k0_hw272 => k0_hw272.2

def k0_off409 (v2995 : BitVec 32) : Fin 2 → Nat :=
  let v2997 : Index := Scalar.indexCast v2995
  let c0_953 : Index := 0#32
  ![v2997.toNat, 0]

def k0_chk273 (v2995 : BitVec 32) : Prop :=
  (∀ a, (k0_off409 v2995) a + S1x64.size a ≤ S50000x64.size a)
instance k0_chk273.dec : ∀ (v2995 : BitVec 32), Decidable (k0_chk273 v2995) := fun v2995 => decidable_of_iff' _ (Iff.of_eq (k0_chk273.eq_1 v2995))
theorem k0_off409_inb : ∀ (v2995 : BitVec 32) (k0_hw273 : k0_chk273 v2995), ∀ a, (k0_off409 v2995) a + S1x64.size a ≤ S50000x64.size a := fun v2995 k0_hw273 => k0_hw273

def k0_off410 (v2996 : BitVec 32) : Fin 2 → Nat :=
  let v3000 : Index := Scalar.indexCast v2996
  let c0_954 : Index := 0#32
  ![v3000.toNat, 0]

def k0_off411 (v2996 : BitVec 32) : Fin 2 → Nat :=
  let v3008 : Index := Scalar.indexCast v2996
  let c0_956 : Index := 0#32
  ![v3008.toNat, 0]

def k0_chk274 (v2996 : BitVec 32) : Prop :=
  (∀ a, (k0_off410 v2996) a + S1x64.size a ≤ S16384x64.size a) ∧
  (∀ a, (k0_off411 v2996) a + S1x1.size a ≤ S16384x1.size a)
instance k0_chk274.dec : ∀ (v2996 : BitVec 32), Decidable (k0_chk274 v2996) := fun v2996 => decidable_of_iff' _ (Iff.of_eq (k0_chk274.eq_1 v2996))
theorem k0_off410_inb : ∀ (v2996 : BitVec 32) (k0_hw274 : k0_chk274 v2996), ∀ a, (k0_off410 v2996) a + S1x64.size a ≤ S16384x64.size a := fun v2996 k0_hw274 => k0_hw274.1
theorem k0_off411_inb : ∀ (v2996 : BitVec 32) (k0_hw274 : k0_chk274 v2996), ∀ a, (k0_off411 v2996) a + S1x1.size a ≤ S16384x1.size a := fun v2996 k0_hw274 => k0_hw274.2

def k0_off412 (v3017 : BitVec 32) : Fin 2 → Nat :=
  let v3019 : Index := Scalar.indexCast v3017
  let c0_960 : Index := 0#32
  ![v3019.toNat, 0]

def k0_chk275 (v3017 : BitVec 32) : Prop :=
  (∀ a, (k0_off412 v3017) a + S1x64.size a ≤ S50000x64.size a)
instance k0_chk275.dec : ∀ (v3017 : BitVec 32), Decidable (k0_chk275 v3017) := fun v3017 => decidable_of_iff' _ (Iff.of_eq (k0_chk275.eq_1 v3017))
theorem k0_off412_inb : ∀ (v3017 : BitVec 32) (k0_hw275 : k0_chk275 v3017), ∀ a, (k0_off412 v3017) a + S1x64.size a ≤ S50000x64.size a := fun v3017 k0_hw275 => k0_hw275

def k0_off413 (v3018 : BitVec 32) : Fin 2 → Nat :=
  let v3022 : Index := Scalar.indexCast v3018
  let c0_961 : Index := 0#32
  ![v3022.toNat, 0]

def k0_off414 (v3018 : BitVec 32) : Fin 2 → Nat :=
  let v3030 : Index := Scalar.indexCast v3018
  let c0_963 : Index := 0#32
  ![v3030.toNat, 0]

def k0_chk276 (v3018 : BitVec 32) : Prop :=
  (∀ a, (k0_off413 v3018) a + S1x64.size a ≤ S16384x64.size a) ∧
  (∀ a, (k0_off414 v3018) a + S1x1.size a ≤ S16384x1.size a)
instance k0_chk276.dec : ∀ (v3018 : BitVec 32), Decidable (k0_chk276 v3018) := fun v3018 => decidable_of_iff' _ (Iff.of_eq (k0_chk276.eq_1 v3018))
theorem k0_off413_inb : ∀ (v3018 : BitVec 32) (k0_hw276 : k0_chk276 v3018), ∀ a, (k0_off413 v3018) a + S1x64.size a ≤ S16384x64.size a := fun v3018 k0_hw276 => k0_hw276.1
theorem k0_off414_inb : ∀ (v3018 : BitVec 32) (k0_hw276 : k0_chk276 v3018), ∀ a, (k0_off414 v3018) a + S1x1.size a ≤ S16384x1.size a := fun v3018 k0_hw276 => k0_hw276.2

def k0_off415 (v3039 : BitVec 32) : Fin 2 → Nat :=
  let v3041 : Index := Scalar.indexCast v3039
  let c0_967 : Index := 0#32
  ![v3041.toNat, 0]

def k0_chk277 (v3039 : BitVec 32) : Prop :=
  (∀ a, (k0_off415 v3039) a + S1x64.size a ≤ S50000x64.size a)
instance k0_chk277.dec : ∀ (v3039 : BitVec 32), Decidable (k0_chk277 v3039) := fun v3039 => decidable_of_iff' _ (Iff.of_eq (k0_chk277.eq_1 v3039))
theorem k0_off415_inb : ∀ (v3039 : BitVec 32) (k0_hw277 : k0_chk277 v3039), ∀ a, (k0_off415 v3039) a + S1x64.size a ≤ S50000x64.size a := fun v3039 k0_hw277 => k0_hw277

def k0_off416 (v3040 : BitVec 32) : Fin 2 → Nat :=
  let v3044 : Index := Scalar.indexCast v3040
  let c0_968 : Index := 0#32
  ![v3044.toNat, 0]

def k0_off417 (v3040 : BitVec 32) : Fin 2 → Nat :=
  let v3052 : Index := Scalar.indexCast v3040
  let c0_970 : Index := 0#32
  ![v3052.toNat, 0]

def k0_chk278 (v3040 : BitVec 32) : Prop :=
  (∀ a, (k0_off416 v3040) a + S1x64.size a ≤ S16384x64.size a) ∧
  (∀ a, (k0_off417 v3040) a + S1x1.size a ≤ S16384x1.size a)
instance k0_chk278.dec : ∀ (v3040 : BitVec 32), Decidable (k0_chk278 v3040) := fun v3040 => decidable_of_iff' _ (Iff.of_eq (k0_chk278.eq_1 v3040))
theorem k0_off416_inb : ∀ (v3040 : BitVec 32) (k0_hw278 : k0_chk278 v3040), ∀ a, (k0_off416 v3040) a + S1x64.size a ≤ S16384x64.size a := fun v3040 k0_hw278 => k0_hw278.1
theorem k0_off417_inb : ∀ (v3040 : BitVec 32) (k0_hw278 : k0_chk278 v3040), ∀ a, (k0_off417 v3040) a + S1x1.size a ≤ S16384x1.size a := fun v3040 k0_hw278 => k0_hw278.2

def k0_off418 (v3061 : BitVec 32) : Fin 2 → Nat :=
  let v3063 : Index := Scalar.indexCast v3061
  let c0_974 : Index := 0#32
  ![v3063.toNat, 0]

def k0_chk279 (v3061 : BitVec 32) : Prop :=
  (∀ a, (k0_off418 v3061) a + S1x64.size a ≤ S50000x64.size a)
instance k0_chk279.dec : ∀ (v3061 : BitVec 32), Decidable (k0_chk279 v3061) := fun v3061 => decidable_of_iff' _ (Iff.of_eq (k0_chk279.eq_1 v3061))
theorem k0_off418_inb : ∀ (v3061 : BitVec 32) (k0_hw279 : k0_chk279 v3061), ∀ a, (k0_off418 v3061) a + S1x64.size a ≤ S50000x64.size a := fun v3061 k0_hw279 => k0_hw279

def k0_off419 (v3062 : BitVec 32) : Fin 2 → Nat :=
  let v3066 : Index := Scalar.indexCast v3062
  let c0_975 : Index := 0#32
  ![v3066.toNat, 0]

def k0_off420 (v3062 : BitVec 32) : Fin 2 → Nat :=
  let v3074 : Index := Scalar.indexCast v3062
  let c0_977 : Index := 0#32
  ![v3074.toNat, 0]

def k0_chk280 (v3062 : BitVec 32) : Prop :=
  (∀ a, (k0_off419 v3062) a + S1x64.size a ≤ S16384x64.size a) ∧
  (∀ a, (k0_off420 v3062) a + S1x1.size a ≤ S16384x1.size a)
instance k0_chk280.dec : ∀ (v3062 : BitVec 32), Decidable (k0_chk280 v3062) := fun v3062 => decidable_of_iff' _ (Iff.of_eq (k0_chk280.eq_1 v3062))
theorem k0_off419_inb : ∀ (v3062 : BitVec 32) (k0_hw280 : k0_chk280 v3062), ∀ a, (k0_off419 v3062) a + S1x64.size a ≤ S16384x64.size a := fun v3062 k0_hw280 => k0_hw280.1
theorem k0_off420_inb : ∀ (v3062 : BitVec 32) (k0_hw280 : k0_chk280 v3062), ∀ a, (k0_off420 v3062) a + S1x1.size a ≤ S16384x1.size a := fun v3062 k0_hw280 => k0_hw280.2

def k0_off421 (v3083 : BitVec 32) : Fin 2 → Nat :=
  let v3085 : Index := Scalar.indexCast v3083
  let c0_981 : Index := 0#32
  ![v3085.toNat, 0]

def k0_chk281 (v3083 : BitVec 32) : Prop :=
  (∀ a, (k0_off421 v3083) a + S1x64.size a ≤ S50000x64.size a)
instance k0_chk281.dec : ∀ (v3083 : BitVec 32), Decidable (k0_chk281 v3083) := fun v3083 => decidable_of_iff' _ (Iff.of_eq (k0_chk281.eq_1 v3083))
theorem k0_off421_inb : ∀ (v3083 : BitVec 32) (k0_hw281 : k0_chk281 v3083), ∀ a, (k0_off421 v3083) a + S1x64.size a ≤ S50000x64.size a := fun v3083 k0_hw281 => k0_hw281

def k0_off422 (v3084 : BitVec 32) : Fin 2 → Nat :=
  let v3088 : Index := Scalar.indexCast v3084
  let c0_982 : Index := 0#32
  ![v3088.toNat, 0]

def k0_off423 (v3084 : BitVec 32) : Fin 2 → Nat :=
  let v3096 : Index := Scalar.indexCast v3084
  let c0_984 : Index := 0#32
  ![v3096.toNat, 0]

def k0_chk282 (v3084 : BitVec 32) : Prop :=
  (∀ a, (k0_off422 v3084) a + S1x64.size a ≤ S16384x64.size a) ∧
  (∀ a, (k0_off423 v3084) a + S1x1.size a ≤ S16384x1.size a)
instance k0_chk282.dec : ∀ (v3084 : BitVec 32), Decidable (k0_chk282 v3084) := fun v3084 => decidable_of_iff' _ (Iff.of_eq (k0_chk282.eq_1 v3084))
theorem k0_off422_inb : ∀ (v3084 : BitVec 32) (k0_hw282 : k0_chk282 v3084), ∀ a, (k0_off422 v3084) a + S1x64.size a ≤ S16384x64.size a := fun v3084 k0_hw282 => k0_hw282.1
theorem k0_off423_inb : ∀ (v3084 : BitVec 32) (k0_hw282 : k0_chk282 v3084), ∀ a, (k0_off423 v3084) a + S1x1.size a ≤ S16384x1.size a := fun v3084 k0_hw282 => k0_hw282.2

def k0_off424 (v3105 : BitVec 32) : Fin 2 → Nat :=
  let v3107 : Index := Scalar.indexCast v3105
  let c0_988 : Index := 0#32
  ![v3107.toNat, 0]

def k0_chk283 (v3105 : BitVec 32) : Prop :=
  (∀ a, (k0_off424 v3105) a + S1x64.size a ≤ S50000x64.size a)
instance k0_chk283.dec : ∀ (v3105 : BitVec 32), Decidable (k0_chk283 v3105) := fun v3105 => decidable_of_iff' _ (Iff.of_eq (k0_chk283.eq_1 v3105))
theorem k0_off424_inb : ∀ (v3105 : BitVec 32) (k0_hw283 : k0_chk283 v3105), ∀ a, (k0_off424 v3105) a + S1x64.size a ≤ S50000x64.size a := fun v3105 k0_hw283 => k0_hw283

def k0_off425 (v3106 : BitVec 32) : Fin 2 → Nat :=
  let v3110 : Index := Scalar.indexCast v3106
  let c0_989 : Index := 0#32
  ![v3110.toNat, 0]

def k0_off426 (v3106 : BitVec 32) : Fin 2 → Nat :=
  let v3118 : Index := Scalar.indexCast v3106
  let c0_991 : Index := 0#32
  ![v3118.toNat, 0]

def k0_chk284 (v3106 : BitVec 32) : Prop :=
  (∀ a, (k0_off425 v3106) a + S1x64.size a ≤ S16384x64.size a) ∧
  (∀ a, (k0_off426 v3106) a + S1x1.size a ≤ S16384x1.size a)
instance k0_chk284.dec : ∀ (v3106 : BitVec 32), Decidable (k0_chk284 v3106) := fun v3106 => decidable_of_iff' _ (Iff.of_eq (k0_chk284.eq_1 v3106))
theorem k0_off425_inb : ∀ (v3106 : BitVec 32) (k0_hw284 : k0_chk284 v3106), ∀ a, (k0_off425 v3106) a + S1x64.size a ≤ S16384x64.size a := fun v3106 k0_hw284 => k0_hw284.1
theorem k0_off426_inb : ∀ (v3106 : BitVec 32) (k0_hw284 : k0_chk284 v3106), ∀ a, (k0_off426 v3106) a + S1x1.size a ≤ S16384x1.size a := fun v3106 k0_hw284 => k0_hw284.2

def k0_off427 (v3127 : BitVec 32) : Fin 2 → Nat :=
  let v3129 : Index := Scalar.indexCast v3127
  let c0_995 : Index := 0#32
  ![v3129.toNat, 0]

def k0_chk285 (v3127 : BitVec 32) : Prop :=
  (∀ a, (k0_off427 v3127) a + S1x64.size a ≤ S50000x64.size a)
instance k0_chk285.dec : ∀ (v3127 : BitVec 32), Decidable (k0_chk285 v3127) := fun v3127 => decidable_of_iff' _ (Iff.of_eq (k0_chk285.eq_1 v3127))
theorem k0_off427_inb : ∀ (v3127 : BitVec 32) (k0_hw285 : k0_chk285 v3127), ∀ a, (k0_off427 v3127) a + S1x64.size a ≤ S50000x64.size a := fun v3127 k0_hw285 => k0_hw285

def k0_off428 (v3128 : BitVec 32) : Fin 2 → Nat :=
  let v3132 : Index := Scalar.indexCast v3128
  let c0_996 : Index := 0#32
  ![v3132.toNat, 0]

def k0_off429 (v3128 : BitVec 32) : Fin 2 → Nat :=
  let v3140 : Index := Scalar.indexCast v3128
  let c0_998 : Index := 0#32
  ![v3140.toNat, 0]

def k0_chk286 (v3128 : BitVec 32) : Prop :=
  (∀ a, (k0_off428 v3128) a + S1x64.size a ≤ S16384x64.size a) ∧
  (∀ a, (k0_off429 v3128) a + S1x1.size a ≤ S16384x1.size a)
instance k0_chk286.dec : ∀ (v3128 : BitVec 32), Decidable (k0_chk286 v3128) := fun v3128 => decidable_of_iff' _ (Iff.of_eq (k0_chk286.eq_1 v3128))
theorem k0_off428_inb : ∀ (v3128 : BitVec 32) (k0_hw286 : k0_chk286 v3128), ∀ a, (k0_off428 v3128) a + S1x64.size a ≤ S16384x64.size a := fun v3128 k0_hw286 => k0_hw286.1
theorem k0_off429_inb : ∀ (v3128 : BitVec 32) (k0_hw286 : k0_chk286 v3128), ∀ a, (k0_off429 v3128) a + S1x1.size a ≤ S16384x1.size a := fun v3128 k0_hw286 => k0_hw286.2

def k0_off430 (v3149 : BitVec 32) : Fin 2 → Nat :=
  let v3151 : Index := Scalar.indexCast v3149
  let c0_1002 : Index := 0#32
  ![v3151.toNat, 0]

def k0_chk287 (v3149 : BitVec 32) : Prop :=
  (∀ a, (k0_off430 v3149) a + S1x64.size a ≤ S50000x64.size a)
instance k0_chk287.dec : ∀ (v3149 : BitVec 32), Decidable (k0_chk287 v3149) := fun v3149 => decidable_of_iff' _ (Iff.of_eq (k0_chk287.eq_1 v3149))
theorem k0_off430_inb : ∀ (v3149 : BitVec 32) (k0_hw287 : k0_chk287 v3149), ∀ a, (k0_off430 v3149) a + S1x64.size a ≤ S50000x64.size a := fun v3149 k0_hw287 => k0_hw287

def k0_off431 (v3150 : BitVec 32) : Fin 2 → Nat :=
  let v3154 : Index := Scalar.indexCast v3150
  let c0_1003 : Index := 0#32
  ![v3154.toNat, 0]

def k0_off432 (v3150 : BitVec 32) : Fin 2 → Nat :=
  let v3162 : Index := Scalar.indexCast v3150
  let c0_1005 : Index := 0#32
  ![v3162.toNat, 0]

def k0_chk288 (v3150 : BitVec 32) : Prop :=
  (∀ a, (k0_off431 v3150) a + S1x64.size a ≤ S16384x64.size a) ∧
  (∀ a, (k0_off432 v3150) a + S1x1.size a ≤ S16384x1.size a)
instance k0_chk288.dec : ∀ (v3150 : BitVec 32), Decidable (k0_chk288 v3150) := fun v3150 => decidable_of_iff' _ (Iff.of_eq (k0_chk288.eq_1 v3150))
theorem k0_off431_inb : ∀ (v3150 : BitVec 32) (k0_hw288 : k0_chk288 v3150), ∀ a, (k0_off431 v3150) a + S1x64.size a ≤ S16384x64.size a := fun v3150 k0_hw288 => k0_hw288.1
theorem k0_off432_inb : ∀ (v3150 : BitVec 32) (k0_hw288 : k0_chk288 v3150), ∀ a, (k0_off432 v3150) a + S1x1.size a ≤ S16384x1.size a := fun v3150 k0_hw288 => k0_hw288.2

def k0_off433 (v3171 : BitVec 32) : Fin 2 → Nat :=
  let v3173 : Index := Scalar.indexCast v3171
  let c0_1009 : Index := 0#32
  ![v3173.toNat, 0]

def k0_chk289 (v3171 : BitVec 32) : Prop :=
  (∀ a, (k0_off433 v3171) a + S1x64.size a ≤ S50000x64.size a)
instance k0_chk289.dec : ∀ (v3171 : BitVec 32), Decidable (k0_chk289 v3171) := fun v3171 => decidable_of_iff' _ (Iff.of_eq (k0_chk289.eq_1 v3171))
theorem k0_off433_inb : ∀ (v3171 : BitVec 32) (k0_hw289 : k0_chk289 v3171), ∀ a, (k0_off433 v3171) a + S1x64.size a ≤ S50000x64.size a := fun v3171 k0_hw289 => k0_hw289

def k0_off434 (v3172 : BitVec 32) : Fin 2 → Nat :=
  let v3176 : Index := Scalar.indexCast v3172
  let c0_1010 : Index := 0#32
  ![v3176.toNat, 0]

def k0_off435 (v3172 : BitVec 32) : Fin 2 → Nat :=
  let v3184 : Index := Scalar.indexCast v3172
  let c0_1012 : Index := 0#32
  ![v3184.toNat, 0]

def k0_chk290 (v3172 : BitVec 32) : Prop :=
  (∀ a, (k0_off434 v3172) a + S1x64.size a ≤ S16384x64.size a) ∧
  (∀ a, (k0_off435 v3172) a + S1x1.size a ≤ S16384x1.size a)
instance k0_chk290.dec : ∀ (v3172 : BitVec 32), Decidable (k0_chk290 v3172) := fun v3172 => decidable_of_iff' _ (Iff.of_eq (k0_chk290.eq_1 v3172))
theorem k0_off434_inb : ∀ (v3172 : BitVec 32) (k0_hw290 : k0_chk290 v3172), ∀ a, (k0_off434 v3172) a + S1x64.size a ≤ S16384x64.size a := fun v3172 k0_hw290 => k0_hw290.1
theorem k0_off435_inb : ∀ (v3172 : BitVec 32) (k0_hw290 : k0_chk290 v3172), ∀ a, (k0_off435 v3172) a + S1x1.size a ≤ S16384x1.size a := fun v3172 k0_hw290 => k0_hw290.2

def k0_off436 (v3193 : BitVec 32) : Fin 2 → Nat :=
  let v3195 : Index := Scalar.indexCast v3193
  let c0_1016 : Index := 0#32
  ![v3195.toNat, 0]

def k0_chk291 (v3193 : BitVec 32) : Prop :=
  (∀ a, (k0_off436 v3193) a + S1x64.size a ≤ S50000x64.size a)
instance k0_chk291.dec : ∀ (v3193 : BitVec 32), Decidable (k0_chk291 v3193) := fun v3193 => decidable_of_iff' _ (Iff.of_eq (k0_chk291.eq_1 v3193))
theorem k0_off436_inb : ∀ (v3193 : BitVec 32) (k0_hw291 : k0_chk291 v3193), ∀ a, (k0_off436 v3193) a + S1x64.size a ≤ S50000x64.size a := fun v3193 k0_hw291 => k0_hw291

def k0_off437 (v3194 : BitVec 32) : Fin 2 → Nat :=
  let v3198 : Index := Scalar.indexCast v3194
  let c0_1017 : Index := 0#32
  ![v3198.toNat, 0]

def k0_off438 (v3194 : BitVec 32) : Fin 2 → Nat :=
  let v3206 : Index := Scalar.indexCast v3194
  let c0_1019 : Index := 0#32
  ![v3206.toNat, 0]

def k0_chk292 (v3194 : BitVec 32) : Prop :=
  (∀ a, (k0_off437 v3194) a + S1x64.size a ≤ S16384x64.size a) ∧
  (∀ a, (k0_off438 v3194) a + S1x1.size a ≤ S16384x1.size a)
instance k0_chk292.dec : ∀ (v3194 : BitVec 32), Decidable (k0_chk292 v3194) := fun v3194 => decidable_of_iff' _ (Iff.of_eq (k0_chk292.eq_1 v3194))
theorem k0_off437_inb : ∀ (v3194 : BitVec 32) (k0_hw292 : k0_chk292 v3194), ∀ a, (k0_off437 v3194) a + S1x64.size a ≤ S16384x64.size a := fun v3194 k0_hw292 => k0_hw292.1
theorem k0_off438_inb : ∀ (v3194 : BitVec 32) (k0_hw292 : k0_chk292 v3194), ∀ a, (k0_off438 v3194) a + S1x1.size a ≤ S16384x1.size a := fun v3194 k0_hw292 => k0_hw292.2

def k0_off439 (v3215 : BitVec 32) : Fin 2 → Nat :=
  let v3217 : Index := Scalar.indexCast v3215
  let c0_1023 : Index := 0#32
  ![v3217.toNat, 0]

def k0_chk293 (v3215 : BitVec 32) : Prop :=
  (∀ a, (k0_off439 v3215) a + S1x64.size a ≤ S50000x64.size a)
instance k0_chk293.dec : ∀ (v3215 : BitVec 32), Decidable (k0_chk293 v3215) := fun v3215 => decidable_of_iff' _ (Iff.of_eq (k0_chk293.eq_1 v3215))
theorem k0_off439_inb : ∀ (v3215 : BitVec 32) (k0_hw293 : k0_chk293 v3215), ∀ a, (k0_off439 v3215) a + S1x64.size a ≤ S50000x64.size a := fun v3215 k0_hw293 => k0_hw293

def k0_off440 (v3216 : BitVec 32) : Fin 2 → Nat :=
  let v3220 : Index := Scalar.indexCast v3216
  let c0_1024 : Index := 0#32
  ![v3220.toNat, 0]

def k0_off441 (v3216 : BitVec 32) : Fin 2 → Nat :=
  let v3228 : Index := Scalar.indexCast v3216
  let c0_1026 : Index := 0#32
  ![v3228.toNat, 0]

def k0_chk294 (v3216 : BitVec 32) : Prop :=
  (∀ a, (k0_off440 v3216) a + S1x64.size a ≤ S16384x64.size a) ∧
  (∀ a, (k0_off441 v3216) a + S1x1.size a ≤ S16384x1.size a)
instance k0_chk294.dec : ∀ (v3216 : BitVec 32), Decidable (k0_chk294 v3216) := fun v3216 => decidable_of_iff' _ (Iff.of_eq (k0_chk294.eq_1 v3216))
theorem k0_off440_inb : ∀ (v3216 : BitVec 32) (k0_hw294 : k0_chk294 v3216), ∀ a, (k0_off440 v3216) a + S1x64.size a ≤ S16384x64.size a := fun v3216 k0_hw294 => k0_hw294.1
theorem k0_off441_inb : ∀ (v3216 : BitVec 32) (k0_hw294 : k0_chk294 v3216), ∀ a, (k0_off441 v3216) a + S1x1.size a ≤ S16384x1.size a := fun v3216 k0_hw294 => k0_hw294.2

def k0_off442 (v3237 : BitVec 32) : Fin 2 → Nat :=
  let v3239 : Index := Scalar.indexCast v3237
  let c0_1030 : Index := 0#32
  ![v3239.toNat, 0]

def k0_chk295 (v3237 : BitVec 32) : Prop :=
  (∀ a, (k0_off442 v3237) a + S1x64.size a ≤ S50000x64.size a)
instance k0_chk295.dec : ∀ (v3237 : BitVec 32), Decidable (k0_chk295 v3237) := fun v3237 => decidable_of_iff' _ (Iff.of_eq (k0_chk295.eq_1 v3237))
theorem k0_off442_inb : ∀ (v3237 : BitVec 32) (k0_hw295 : k0_chk295 v3237), ∀ a, (k0_off442 v3237) a + S1x64.size a ≤ S50000x64.size a := fun v3237 k0_hw295 => k0_hw295

def k0_off443 (v3238 : BitVec 32) : Fin 2 → Nat :=
  let v3242 : Index := Scalar.indexCast v3238
  let c0_1031 : Index := 0#32
  ![v3242.toNat, 0]

def k0_off444 (v3238 : BitVec 32) : Fin 2 → Nat :=
  let v3250 : Index := Scalar.indexCast v3238
  let c0_1033 : Index := 0#32
  ![v3250.toNat, 0]

def k0_chk296 (v3238 : BitVec 32) : Prop :=
  (∀ a, (k0_off443 v3238) a + S1x64.size a ≤ S16384x64.size a) ∧
  (∀ a, (k0_off444 v3238) a + S1x1.size a ≤ S16384x1.size a)
instance k0_chk296.dec : ∀ (v3238 : BitVec 32), Decidable (k0_chk296 v3238) := fun v3238 => decidable_of_iff' _ (Iff.of_eq (k0_chk296.eq_1 v3238))
theorem k0_off443_inb : ∀ (v3238 : BitVec 32) (k0_hw296 : k0_chk296 v3238), ∀ a, (k0_off443 v3238) a + S1x64.size a ≤ S16384x64.size a := fun v3238 k0_hw296 => k0_hw296.1
theorem k0_off444_inb : ∀ (v3238 : BitVec 32) (k0_hw296 : k0_chk296 v3238), ∀ a, (k0_off444 v3238) a + S1x1.size a ≤ S16384x1.size a := fun v3238 k0_hw296 => k0_hw296.2

def k0_off445 (v3259 : BitVec 32) : Fin 2 → Nat :=
  let v3261 : Index := Scalar.indexCast v3259
  let c0_1037 : Index := 0#32
  ![v3261.toNat, 0]

def k0_chk297 (v3259 : BitVec 32) : Prop :=
  (∀ a, (k0_off445 v3259) a + S1x64.size a ≤ S50000x64.size a)
instance k0_chk297.dec : ∀ (v3259 : BitVec 32), Decidable (k0_chk297 v3259) := fun v3259 => decidable_of_iff' _ (Iff.of_eq (k0_chk297.eq_1 v3259))
theorem k0_off445_inb : ∀ (v3259 : BitVec 32) (k0_hw297 : k0_chk297 v3259), ∀ a, (k0_off445 v3259) a + S1x64.size a ≤ S50000x64.size a := fun v3259 k0_hw297 => k0_hw297

def k0_off446 (v3260 : BitVec 32) : Fin 2 → Nat :=
  let v3264 : Index := Scalar.indexCast v3260
  let c0_1038 : Index := 0#32
  ![v3264.toNat, 0]

def k0_off447 (v3260 : BitVec 32) : Fin 2 → Nat :=
  let v3272 : Index := Scalar.indexCast v3260
  let c0_1040 : Index := 0#32
  ![v3272.toNat, 0]

def k0_chk298 (v3260 : BitVec 32) : Prop :=
  (∀ a, (k0_off446 v3260) a + S1x64.size a ≤ S16384x64.size a) ∧
  (∀ a, (k0_off447 v3260) a + S1x1.size a ≤ S16384x1.size a)
instance k0_chk298.dec : ∀ (v3260 : BitVec 32), Decidable (k0_chk298 v3260) := fun v3260 => decidable_of_iff' _ (Iff.of_eq (k0_chk298.eq_1 v3260))
theorem k0_off446_inb : ∀ (v3260 : BitVec 32) (k0_hw298 : k0_chk298 v3260), ∀ a, (k0_off446 v3260) a + S1x64.size a ≤ S16384x64.size a := fun v3260 k0_hw298 => k0_hw298.1
theorem k0_off447_inb : ∀ (v3260 : BitVec 32) (k0_hw298 : k0_chk298 v3260), ∀ a, (k0_off447 v3260) a + S1x1.size a ≤ S16384x1.size a := fun v3260 k0_hw298 => k0_hw298.2

def k0_off448 (v3281 : BitVec 32) : Fin 2 → Nat :=
  let v3283 : Index := Scalar.indexCast v3281
  let c0_1044 : Index := 0#32
  ![v3283.toNat, 0]

def k0_chk299 (v3281 : BitVec 32) : Prop :=
  (∀ a, (k0_off448 v3281) a + S1x64.size a ≤ S50000x64.size a)
instance k0_chk299.dec : ∀ (v3281 : BitVec 32), Decidable (k0_chk299 v3281) := fun v3281 => decidable_of_iff' _ (Iff.of_eq (k0_chk299.eq_1 v3281))
theorem k0_off448_inb : ∀ (v3281 : BitVec 32) (k0_hw299 : k0_chk299 v3281), ∀ a, (k0_off448 v3281) a + S1x64.size a ≤ S50000x64.size a := fun v3281 k0_hw299 => k0_hw299

def k0_off449 (v3282 : BitVec 32) : Fin 2 → Nat :=
  let v3286 : Index := Scalar.indexCast v3282
  let c0_1045 : Index := 0#32
  ![v3286.toNat, 0]

def k0_off450 (v3282 : BitVec 32) : Fin 2 → Nat :=
  let v3294 : Index := Scalar.indexCast v3282
  let c0_1047 : Index := 0#32
  ![v3294.toNat, 0]

def k0_chk300 (v3282 : BitVec 32) : Prop :=
  (∀ a, (k0_off449 v3282) a + S1x64.size a ≤ S16384x64.size a) ∧
  (∀ a, (k0_off450 v3282) a + S1x1.size a ≤ S16384x1.size a)
instance k0_chk300.dec : ∀ (v3282 : BitVec 32), Decidable (k0_chk300 v3282) := fun v3282 => decidable_of_iff' _ (Iff.of_eq (k0_chk300.eq_1 v3282))
theorem k0_off449_inb : ∀ (v3282 : BitVec 32) (k0_hw300 : k0_chk300 v3282), ∀ a, (k0_off449 v3282) a + S1x64.size a ≤ S16384x64.size a := fun v3282 k0_hw300 => k0_hw300.1
theorem k0_off450_inb : ∀ (v3282 : BitVec 32) (k0_hw300 : k0_chk300 v3282), ∀ a, (k0_off450 v3282) a + S1x1.size a ≤ S16384x1.size a := fun v3282 k0_hw300 => k0_hw300.2

def k0_off451 (v3303 : BitVec 32) : Fin 2 → Nat :=
  let v3305 : Index := Scalar.indexCast v3303
  let c0_1051 : Index := 0#32
  ![v3305.toNat, 0]

def k0_chk301 (v3303 : BitVec 32) : Prop :=
  (∀ a, (k0_off451 v3303) a + S1x64.size a ≤ S50000x64.size a)
instance k0_chk301.dec : ∀ (v3303 : BitVec 32), Decidable (k0_chk301 v3303) := fun v3303 => decidable_of_iff' _ (Iff.of_eq (k0_chk301.eq_1 v3303))
theorem k0_off451_inb : ∀ (v3303 : BitVec 32) (k0_hw301 : k0_chk301 v3303), ∀ a, (k0_off451 v3303) a + S1x64.size a ≤ S50000x64.size a := fun v3303 k0_hw301 => k0_hw301

def k0_off452 (v3304 : BitVec 32) : Fin 2 → Nat :=
  let v3308 : Index := Scalar.indexCast v3304
  let c0_1052 : Index := 0#32
  ![v3308.toNat, 0]

def k0_off453 (v3304 : BitVec 32) : Fin 2 → Nat :=
  let v3316 : Index := Scalar.indexCast v3304
  let c0_1054 : Index := 0#32
  ![v3316.toNat, 0]

def k0_chk302 (v3304 : BitVec 32) : Prop :=
  (∀ a, (k0_off452 v3304) a + S1x64.size a ≤ S16384x64.size a) ∧
  (∀ a, (k0_off453 v3304) a + S1x1.size a ≤ S16384x1.size a)
instance k0_chk302.dec : ∀ (v3304 : BitVec 32), Decidable (k0_chk302 v3304) := fun v3304 => decidable_of_iff' _ (Iff.of_eq (k0_chk302.eq_1 v3304))
theorem k0_off452_inb : ∀ (v3304 : BitVec 32) (k0_hw302 : k0_chk302 v3304), ∀ a, (k0_off452 v3304) a + S1x64.size a ≤ S16384x64.size a := fun v3304 k0_hw302 => k0_hw302.1
theorem k0_off453_inb : ∀ (v3304 : BitVec 32) (k0_hw302 : k0_chk302 v3304), ∀ a, (k0_off453 v3304) a + S1x1.size a ≤ S16384x1.size a := fun v3304 k0_hw302 => k0_hw302.2

def k0_off454 (v3325 : BitVec 32) : Fin 2 → Nat :=
  let v3327 : Index := Scalar.indexCast v3325
  let c0_1058 : Index := 0#32
  ![v3327.toNat, 0]

def k0_chk303 (v3325 : BitVec 32) : Prop :=
  (∀ a, (k0_off454 v3325) a + S1x64.size a ≤ S50000x64.size a)
instance k0_chk303.dec : ∀ (v3325 : BitVec 32), Decidable (k0_chk303 v3325) := fun v3325 => decidable_of_iff' _ (Iff.of_eq (k0_chk303.eq_1 v3325))
theorem k0_off454_inb : ∀ (v3325 : BitVec 32) (k0_hw303 : k0_chk303 v3325), ∀ a, (k0_off454 v3325) a + S1x64.size a ≤ S50000x64.size a := fun v3325 k0_hw303 => k0_hw303

def k0_off455 (v3326 : BitVec 32) : Fin 2 → Nat :=
  let v3330 : Index := Scalar.indexCast v3326
  let c0_1059 : Index := 0#32
  ![v3330.toNat, 0]

def k0_off456 (v3326 : BitVec 32) : Fin 2 → Nat :=
  let v3338 : Index := Scalar.indexCast v3326
  let c0_1061 : Index := 0#32
  ![v3338.toNat, 0]

def k0_chk304 (v3326 : BitVec 32) : Prop :=
  (∀ a, (k0_off455 v3326) a + S1x64.size a ≤ S16384x64.size a) ∧
  (∀ a, (k0_off456 v3326) a + S1x1.size a ≤ S16384x1.size a)
instance k0_chk304.dec : ∀ (v3326 : BitVec 32), Decidable (k0_chk304 v3326) := fun v3326 => decidable_of_iff' _ (Iff.of_eq (k0_chk304.eq_1 v3326))
theorem k0_off455_inb : ∀ (v3326 : BitVec 32) (k0_hw304 : k0_chk304 v3326), ∀ a, (k0_off455 v3326) a + S1x64.size a ≤ S16384x64.size a := fun v3326 k0_hw304 => k0_hw304.1
theorem k0_off456_inb : ∀ (v3326 : BitVec 32) (k0_hw304 : k0_chk304 v3326), ∀ a, (k0_off456 v3326) a + S1x1.size a ≤ S16384x1.size a := fun v3326 k0_hw304 => k0_hw304.2

def k0_off457 (v3347 : BitVec 32) : Fin 2 → Nat :=
  let v3349 : Index := Scalar.indexCast v3347
  let c0_1065 : Index := 0#32
  ![v3349.toNat, 0]

def k0_chk305 (v3347 : BitVec 32) : Prop :=
  (∀ a, (k0_off457 v3347) a + S1x64.size a ≤ S50000x64.size a)
instance k0_chk305.dec : ∀ (v3347 : BitVec 32), Decidable (k0_chk305 v3347) := fun v3347 => decidable_of_iff' _ (Iff.of_eq (k0_chk305.eq_1 v3347))
theorem k0_off457_inb : ∀ (v3347 : BitVec 32) (k0_hw305 : k0_chk305 v3347), ∀ a, (k0_off457 v3347) a + S1x64.size a ≤ S50000x64.size a := fun v3347 k0_hw305 => k0_hw305

def k0_off458 (v3348 : BitVec 32) : Fin 2 → Nat :=
  let v3352 : Index := Scalar.indexCast v3348
  let c0_1066 : Index := 0#32
  ![v3352.toNat, 0]

def k0_off459 (v3348 : BitVec 32) : Fin 2 → Nat :=
  let v3360 : Index := Scalar.indexCast v3348
  let c0_1068 : Index := 0#32
  ![v3360.toNat, 0]

def k0_chk306 (v3348 : BitVec 32) : Prop :=
  (∀ a, (k0_off458 v3348) a + S1x64.size a ≤ S16384x64.size a) ∧
  (∀ a, (k0_off459 v3348) a + S1x1.size a ≤ S16384x1.size a)
instance k0_chk306.dec : ∀ (v3348 : BitVec 32), Decidable (k0_chk306 v3348) := fun v3348 => decidable_of_iff' _ (Iff.of_eq (k0_chk306.eq_1 v3348))
theorem k0_off458_inb : ∀ (v3348 : BitVec 32) (k0_hw306 : k0_chk306 v3348), ∀ a, (k0_off458 v3348) a + S1x64.size a ≤ S16384x64.size a := fun v3348 k0_hw306 => k0_hw306.1
theorem k0_off459_inb : ∀ (v3348 : BitVec 32) (k0_hw306 : k0_chk306 v3348), ∀ a, (k0_off459 v3348) a + S1x1.size a ≤ S16384x1.size a := fun v3348 k0_hw306 => k0_hw306.2

def k0_off460 (v3369 : BitVec 32) : Fin 2 → Nat :=
  let v3371 : Index := Scalar.indexCast v3369
  let c0_1072 : Index := 0#32
  ![v3371.toNat, 0]

def k0_chk307 (v3369 : BitVec 32) : Prop :=
  (∀ a, (k0_off460 v3369) a + S1x64.size a ≤ S50000x64.size a)
instance k0_chk307.dec : ∀ (v3369 : BitVec 32), Decidable (k0_chk307 v3369) := fun v3369 => decidable_of_iff' _ (Iff.of_eq (k0_chk307.eq_1 v3369))
theorem k0_off460_inb : ∀ (v3369 : BitVec 32) (k0_hw307 : k0_chk307 v3369), ∀ a, (k0_off460 v3369) a + S1x64.size a ≤ S50000x64.size a := fun v3369 k0_hw307 => k0_hw307

def k0_off461 (v3370 : BitVec 32) : Fin 2 → Nat :=
  let v3374 : Index := Scalar.indexCast v3370
  let c0_1073 : Index := 0#32
  ![v3374.toNat, 0]

def k0_off462 (v3370 : BitVec 32) : Fin 2 → Nat :=
  let v3382 : Index := Scalar.indexCast v3370
  let c0_1075 : Index := 0#32
  ![v3382.toNat, 0]

def k0_chk308 (v3370 : BitVec 32) : Prop :=
  (∀ a, (k0_off461 v3370) a + S1x64.size a ≤ S16384x64.size a) ∧
  (∀ a, (k0_off462 v3370) a + S1x1.size a ≤ S16384x1.size a)
instance k0_chk308.dec : ∀ (v3370 : BitVec 32), Decidable (k0_chk308 v3370) := fun v3370 => decidable_of_iff' _ (Iff.of_eq (k0_chk308.eq_1 v3370))
theorem k0_off461_inb : ∀ (v3370 : BitVec 32) (k0_hw308 : k0_chk308 v3370), ∀ a, (k0_off461 v3370) a + S1x64.size a ≤ S16384x64.size a := fun v3370 k0_hw308 => k0_hw308.1
theorem k0_off462_inb : ∀ (v3370 : BitVec 32) (k0_hw308 : k0_chk308 v3370), ∀ a, (k0_off462 v3370) a + S1x1.size a ≤ S16384x1.size a := fun v3370 k0_hw308 => k0_hw308.2

def k0_off463 (v3391 : BitVec 32) : Fin 2 → Nat :=
  let v3393 : Index := Scalar.indexCast v3391
  let c0_1079 : Index := 0#32
  ![v3393.toNat, 0]

def k0_chk309 (v3391 : BitVec 32) : Prop :=
  (∀ a, (k0_off463 v3391) a + S1x64.size a ≤ S50000x64.size a)
instance k0_chk309.dec : ∀ (v3391 : BitVec 32), Decidable (k0_chk309 v3391) := fun v3391 => decidable_of_iff' _ (Iff.of_eq (k0_chk309.eq_1 v3391))
theorem k0_off463_inb : ∀ (v3391 : BitVec 32) (k0_hw309 : k0_chk309 v3391), ∀ a, (k0_off463 v3391) a + S1x64.size a ≤ S50000x64.size a := fun v3391 k0_hw309 => k0_hw309

def k0_off464 (v3392 : BitVec 32) : Fin 2 → Nat :=
  let v3396 : Index := Scalar.indexCast v3392
  let c0_1080 : Index := 0#32
  ![v3396.toNat, 0]

def k0_off465 (v3392 : BitVec 32) : Fin 2 → Nat :=
  let v3404 : Index := Scalar.indexCast v3392
  let c0_1082 : Index := 0#32
  ![v3404.toNat, 0]

def k0_chk310 (v3392 : BitVec 32) : Prop :=
  (∀ a, (k0_off464 v3392) a + S1x64.size a ≤ S16384x64.size a) ∧
  (∀ a, (k0_off465 v3392) a + S1x1.size a ≤ S16384x1.size a)
instance k0_chk310.dec : ∀ (v3392 : BitVec 32), Decidable (k0_chk310 v3392) := fun v3392 => decidable_of_iff' _ (Iff.of_eq (k0_chk310.eq_1 v3392))
theorem k0_off464_inb : ∀ (v3392 : BitVec 32) (k0_hw310 : k0_chk310 v3392), ∀ a, (k0_off464 v3392) a + S1x64.size a ≤ S16384x64.size a := fun v3392 k0_hw310 => k0_hw310.1
theorem k0_off465_inb : ∀ (v3392 : BitVec 32) (k0_hw310 : k0_chk310 v3392), ∀ a, (k0_off465 v3392) a + S1x1.size a ≤ S16384x1.size a := fun v3392 k0_hw310 => k0_hw310.2

def k0_off466 (v3413 : BitVec 32) : Fin 2 → Nat :=
  let v3415 : Index := Scalar.indexCast v3413
  let c0_1086 : Index := 0#32
  ![v3415.toNat, 0]

def k0_chk311 (v3413 : BitVec 32) : Prop :=
  (∀ a, (k0_off466 v3413) a + S1x64.size a ≤ S50000x64.size a)
instance k0_chk311.dec : ∀ (v3413 : BitVec 32), Decidable (k0_chk311 v3413) := fun v3413 => decidable_of_iff' _ (Iff.of_eq (k0_chk311.eq_1 v3413))
theorem k0_off466_inb : ∀ (v3413 : BitVec 32) (k0_hw311 : k0_chk311 v3413), ∀ a, (k0_off466 v3413) a + S1x64.size a ≤ S50000x64.size a := fun v3413 k0_hw311 => k0_hw311

def k0_off467 (v3414 : BitVec 32) : Fin 2 → Nat :=
  let v3418 : Index := Scalar.indexCast v3414
  let c0_1087 : Index := 0#32
  ![v3418.toNat, 0]

def k0_off468 (v3414 : BitVec 32) : Fin 2 → Nat :=
  let v3426 : Index := Scalar.indexCast v3414
  let c0_1089 : Index := 0#32
  ![v3426.toNat, 0]

def k0_chk312 (v3414 : BitVec 32) : Prop :=
  (∀ a, (k0_off467 v3414) a + S1x64.size a ≤ S16384x64.size a) ∧
  (∀ a, (k0_off468 v3414) a + S1x1.size a ≤ S16384x1.size a)
instance k0_chk312.dec : ∀ (v3414 : BitVec 32), Decidable (k0_chk312 v3414) := fun v3414 => decidable_of_iff' _ (Iff.of_eq (k0_chk312.eq_1 v3414))
theorem k0_off467_inb : ∀ (v3414 : BitVec 32) (k0_hw312 : k0_chk312 v3414), ∀ a, (k0_off467 v3414) a + S1x64.size a ≤ S16384x64.size a := fun v3414 k0_hw312 => k0_hw312.1
theorem k0_off468_inb : ∀ (v3414 : BitVec 32) (k0_hw312 : k0_chk312 v3414), ∀ a, (k0_off468 v3414) a + S1x1.size a ≤ S16384x1.size a := fun v3414 k0_hw312 => k0_hw312.2

def k0_off469 (v3435 : BitVec 32) : Fin 2 → Nat :=
  let v3437 : Index := Scalar.indexCast v3435
  let c0_1093 : Index := 0#32
  ![v3437.toNat, 0]

def k0_chk313 (v3435 : BitVec 32) : Prop :=
  (∀ a, (k0_off469 v3435) a + S1x64.size a ≤ S50000x64.size a)
instance k0_chk313.dec : ∀ (v3435 : BitVec 32), Decidable (k0_chk313 v3435) := fun v3435 => decidable_of_iff' _ (Iff.of_eq (k0_chk313.eq_1 v3435))
theorem k0_off469_inb : ∀ (v3435 : BitVec 32) (k0_hw313 : k0_chk313 v3435), ∀ a, (k0_off469 v3435) a + S1x64.size a ≤ S50000x64.size a := fun v3435 k0_hw313 => k0_hw313

def k0_off470 (v3436 : BitVec 32) : Fin 2 → Nat :=
  let v3440 : Index := Scalar.indexCast v3436
  let c0_1094 : Index := 0#32
  ![v3440.toNat, 0]

def k0_off471 (v3436 : BitVec 32) : Fin 2 → Nat :=
  let v3448 : Index := Scalar.indexCast v3436
  let c0_1096 : Index := 0#32
  ![v3448.toNat, 0]

def k0_chk314 (v3436 : BitVec 32) : Prop :=
  (∀ a, (k0_off470 v3436) a + S1x64.size a ≤ S16384x64.size a) ∧
  (∀ a, (k0_off471 v3436) a + S1x1.size a ≤ S16384x1.size a)
instance k0_chk314.dec : ∀ (v3436 : BitVec 32), Decidable (k0_chk314 v3436) := fun v3436 => decidable_of_iff' _ (Iff.of_eq (k0_chk314.eq_1 v3436))
theorem k0_off470_inb : ∀ (v3436 : BitVec 32) (k0_hw314 : k0_chk314 v3436), ∀ a, (k0_off470 v3436) a + S1x64.size a ≤ S16384x64.size a := fun v3436 k0_hw314 => k0_hw314.1
theorem k0_off471_inb : ∀ (v3436 : BitVec 32) (k0_hw314 : k0_chk314 v3436), ∀ a, (k0_off471 v3436) a + S1x1.size a ≤ S16384x1.size a := fun v3436 k0_hw314 => k0_hw314.2

def k0_off472 (v3457 : BitVec 32) : Fin 2 → Nat :=
  let v3459 : Index := Scalar.indexCast v3457
  let c0_1100 : Index := 0#32
  ![v3459.toNat, 0]

def k0_chk315 (v3457 : BitVec 32) : Prop :=
  (∀ a, (k0_off472 v3457) a + S1x64.size a ≤ S50000x64.size a)
instance k0_chk315.dec : ∀ (v3457 : BitVec 32), Decidable (k0_chk315 v3457) := fun v3457 => decidable_of_iff' _ (Iff.of_eq (k0_chk315.eq_1 v3457))
theorem k0_off472_inb : ∀ (v3457 : BitVec 32) (k0_hw315 : k0_chk315 v3457), ∀ a, (k0_off472 v3457) a + S1x64.size a ≤ S50000x64.size a := fun v3457 k0_hw315 => k0_hw315

def k0_off473 (v3458 : BitVec 32) : Fin 2 → Nat :=
  let v3462 : Index := Scalar.indexCast v3458
  let c0_1101 : Index := 0#32
  ![v3462.toNat, 0]

def k0_off474 (v3458 : BitVec 32) : Fin 2 → Nat :=
  let v3470 : Index := Scalar.indexCast v3458
  let c0_1103 : Index := 0#32
  ![v3470.toNat, 0]

def k0_chk316 (v3458 : BitVec 32) : Prop :=
  (∀ a, (k0_off473 v3458) a + S1x64.size a ≤ S16384x64.size a) ∧
  (∀ a, (k0_off474 v3458) a + S1x1.size a ≤ S16384x1.size a)
instance k0_chk316.dec : ∀ (v3458 : BitVec 32), Decidable (k0_chk316 v3458) := fun v3458 => decidable_of_iff' _ (Iff.of_eq (k0_chk316.eq_1 v3458))
theorem k0_off473_inb : ∀ (v3458 : BitVec 32) (k0_hw316 : k0_chk316 v3458), ∀ a, (k0_off473 v3458) a + S1x64.size a ≤ S16384x64.size a := fun v3458 k0_hw316 => k0_hw316.1
theorem k0_off474_inb : ∀ (v3458 : BitVec 32) (k0_hw316 : k0_chk316 v3458), ∀ a, (k0_off474 v3458) a + S1x1.size a ≤ S16384x1.size a := fun v3458 k0_hw316 => k0_hw316.2

def k0_off475 (v3479 : BitVec 32) : Fin 2 → Nat :=
  let v3481 : Index := Scalar.indexCast v3479
  let c0_1107 : Index := 0#32
  ![v3481.toNat, 0]

def k0_chk317 (v3479 : BitVec 32) : Prop :=
  (∀ a, (k0_off475 v3479) a + S1x64.size a ≤ S50000x64.size a)
instance k0_chk317.dec : ∀ (v3479 : BitVec 32), Decidable (k0_chk317 v3479) := fun v3479 => decidable_of_iff' _ (Iff.of_eq (k0_chk317.eq_1 v3479))
theorem k0_off475_inb : ∀ (v3479 : BitVec 32) (k0_hw317 : k0_chk317 v3479), ∀ a, (k0_off475 v3479) a + S1x64.size a ≤ S50000x64.size a := fun v3479 k0_hw317 => k0_hw317

def k0_off476 (v3480 : BitVec 32) : Fin 2 → Nat :=
  let v3484 : Index := Scalar.indexCast v3480
  let c0_1108 : Index := 0#32
  ![v3484.toNat, 0]

def k0_off477 (v3480 : BitVec 32) : Fin 2 → Nat :=
  let v3492 : Index := Scalar.indexCast v3480
  let c0_1110 : Index := 0#32
  ![v3492.toNat, 0]

def k0_chk318 (v3480 : BitVec 32) : Prop :=
  (∀ a, (k0_off476 v3480) a + S1x64.size a ≤ S16384x64.size a) ∧
  (∀ a, (k0_off477 v3480) a + S1x1.size a ≤ S16384x1.size a)
instance k0_chk318.dec : ∀ (v3480 : BitVec 32), Decidable (k0_chk318 v3480) := fun v3480 => decidable_of_iff' _ (Iff.of_eq (k0_chk318.eq_1 v3480))
theorem k0_off476_inb : ∀ (v3480 : BitVec 32) (k0_hw318 : k0_chk318 v3480), ∀ a, (k0_off476 v3480) a + S1x64.size a ≤ S16384x64.size a := fun v3480 k0_hw318 => k0_hw318.1
theorem k0_off477_inb : ∀ (v3480 : BitVec 32) (k0_hw318 : k0_chk318 v3480), ∀ a, (k0_off477 v3480) a + S1x1.size a ≤ S16384x1.size a := fun v3480 k0_hw318 => k0_hw318.2

def k0_off478 (v3501 : BitVec 32) : Fin 2 → Nat :=
  let v3503 : Index := Scalar.indexCast v3501
  let c0_1114 : Index := 0#32
  ![v3503.toNat, 0]

def k0_chk319 (v3501 : BitVec 32) : Prop :=
  (∀ a, (k0_off478 v3501) a + S1x64.size a ≤ S50000x64.size a)
instance k0_chk319.dec : ∀ (v3501 : BitVec 32), Decidable (k0_chk319 v3501) := fun v3501 => decidable_of_iff' _ (Iff.of_eq (k0_chk319.eq_1 v3501))
theorem k0_off478_inb : ∀ (v3501 : BitVec 32) (k0_hw319 : k0_chk319 v3501), ∀ a, (k0_off478 v3501) a + S1x64.size a ≤ S50000x64.size a := fun v3501 k0_hw319 => k0_hw319

def k0_off479 (v3502 : BitVec 32) : Fin 2 → Nat :=
  let v3506 : Index := Scalar.indexCast v3502
  let c0_1115 : Index := 0#32
  ![v3506.toNat, 0]

def k0_off480 (v3502 : BitVec 32) : Fin 2 → Nat :=
  let v3514 : Index := Scalar.indexCast v3502
  let c0_1117 : Index := 0#32
  ![v3514.toNat, 0]

def k0_chk320 (v3502 : BitVec 32) : Prop :=
  (∀ a, (k0_off479 v3502) a + S1x64.size a ≤ S16384x64.size a) ∧
  (∀ a, (k0_off480 v3502) a + S1x1.size a ≤ S16384x1.size a)
instance k0_chk320.dec : ∀ (v3502 : BitVec 32), Decidable (k0_chk320 v3502) := fun v3502 => decidable_of_iff' _ (Iff.of_eq (k0_chk320.eq_1 v3502))
theorem k0_off479_inb : ∀ (v3502 : BitVec 32) (k0_hw320 : k0_chk320 v3502), ∀ a, (k0_off479 v3502) a + S1x64.size a ≤ S16384x64.size a := fun v3502 k0_hw320 => k0_hw320.1
theorem k0_off480_inb : ∀ (v3502 : BitVec 32) (k0_hw320 : k0_chk320 v3502), ∀ a, (k0_off480 v3502) a + S1x1.size a ≤ S16384x1.size a := fun v3502 k0_hw320 => k0_hw320.2

def k0_off481 (v3523 : BitVec 32) : Fin 2 → Nat :=
  let v3525 : Index := Scalar.indexCast v3523
  let c0_1121 : Index := 0#32
  ![v3525.toNat, 0]

def k0_chk321 (v3523 : BitVec 32) : Prop :=
  (∀ a, (k0_off481 v3523) a + S1x64.size a ≤ S50000x64.size a)
instance k0_chk321.dec : ∀ (v3523 : BitVec 32), Decidable (k0_chk321 v3523) := fun v3523 => decidable_of_iff' _ (Iff.of_eq (k0_chk321.eq_1 v3523))
theorem k0_off481_inb : ∀ (v3523 : BitVec 32) (k0_hw321 : k0_chk321 v3523), ∀ a, (k0_off481 v3523) a + S1x64.size a ≤ S50000x64.size a := fun v3523 k0_hw321 => k0_hw321

def k0_off482 (v3524 : BitVec 32) : Fin 2 → Nat :=
  let v3528 : Index := Scalar.indexCast v3524
  let c0_1122 : Index := 0#32
  ![v3528.toNat, 0]

def k0_off483 (v3524 : BitVec 32) : Fin 2 → Nat :=
  let v3536 : Index := Scalar.indexCast v3524
  let c0_1124 : Index := 0#32
  ![v3536.toNat, 0]

def k0_chk322 (v3524 : BitVec 32) : Prop :=
  (∀ a, (k0_off482 v3524) a + S1x64.size a ≤ S16384x64.size a) ∧
  (∀ a, (k0_off483 v3524) a + S1x1.size a ≤ S16384x1.size a)
instance k0_chk322.dec : ∀ (v3524 : BitVec 32), Decidable (k0_chk322 v3524) := fun v3524 => decidable_of_iff' _ (Iff.of_eq (k0_chk322.eq_1 v3524))
theorem k0_off482_inb : ∀ (v3524 : BitVec 32) (k0_hw322 : k0_chk322 v3524), ∀ a, (k0_off482 v3524) a + S1x64.size a ≤ S16384x64.size a := fun v3524 k0_hw322 => k0_hw322.1
theorem k0_off483_inb : ∀ (v3524 : BitVec 32) (k0_hw322 : k0_chk322 v3524), ∀ a, (k0_off483 v3524) a + S1x1.size a ≤ S16384x1.size a := fun v3524 k0_hw322 => k0_hw322.2

def k0_off484 (v3545 : BitVec 32) : Fin 2 → Nat :=
  let v3547 : Index := Scalar.indexCast v3545
  let c0_1128 : Index := 0#32
  ![v3547.toNat, 0]

def k0_chk323 (v3545 : BitVec 32) : Prop :=
  (∀ a, (k0_off484 v3545) a + S1x64.size a ≤ S50000x64.size a)
instance k0_chk323.dec : ∀ (v3545 : BitVec 32), Decidable (k0_chk323 v3545) := fun v3545 => decidable_of_iff' _ (Iff.of_eq (k0_chk323.eq_1 v3545))
theorem k0_off484_inb : ∀ (v3545 : BitVec 32) (k0_hw323 : k0_chk323 v3545), ∀ a, (k0_off484 v3545) a + S1x64.size a ≤ S50000x64.size a := fun v3545 k0_hw323 => k0_hw323

def k0_off485 (v3546 : BitVec 32) : Fin 2 → Nat :=
  let v3550 : Index := Scalar.indexCast v3546
  let c0_1129 : Index := 0#32
  ![v3550.toNat, 0]

def k0_off486 (v3546 : BitVec 32) : Fin 2 → Nat :=
  let v3558 : Index := Scalar.indexCast v3546
  let c0_1131 : Index := 0#32
  ![v3558.toNat, 0]

def k0_chk324 (v3546 : BitVec 32) : Prop :=
  (∀ a, (k0_off485 v3546) a + S1x64.size a ≤ S16384x64.size a) ∧
  (∀ a, (k0_off486 v3546) a + S1x1.size a ≤ S16384x1.size a)
instance k0_chk324.dec : ∀ (v3546 : BitVec 32), Decidable (k0_chk324 v3546) := fun v3546 => decidable_of_iff' _ (Iff.of_eq (k0_chk324.eq_1 v3546))
theorem k0_off485_inb : ∀ (v3546 : BitVec 32) (k0_hw324 : k0_chk324 v3546), ∀ a, (k0_off485 v3546) a + S1x64.size a ≤ S16384x64.size a := fun v3546 k0_hw324 => k0_hw324.1
theorem k0_off486_inb : ∀ (v3546 : BitVec 32) (k0_hw324 : k0_chk324 v3546), ∀ a, (k0_off486 v3546) a + S1x1.size a ≤ S16384x1.size a := fun v3546 k0_hw324 => k0_hw324.2

def k0_off487 (v3567 : BitVec 32) : Fin 2 → Nat :=
  let v3569 : Index := Scalar.indexCast v3567
  let c0_1135 : Index := 0#32
  ![v3569.toNat, 0]

def k0_chk325 (v3567 : BitVec 32) : Prop :=
  (∀ a, (k0_off487 v3567) a + S1x64.size a ≤ S50000x64.size a)
instance k0_chk325.dec : ∀ (v3567 : BitVec 32), Decidable (k0_chk325 v3567) := fun v3567 => decidable_of_iff' _ (Iff.of_eq (k0_chk325.eq_1 v3567))
theorem k0_off487_inb : ∀ (v3567 : BitVec 32) (k0_hw325 : k0_chk325 v3567), ∀ a, (k0_off487 v3567) a + S1x64.size a ≤ S50000x64.size a := fun v3567 k0_hw325 => k0_hw325

def k0_off488 (v3568 : BitVec 32) : Fin 2 → Nat :=
  let v3572 : Index := Scalar.indexCast v3568
  let c0_1136 : Index := 0#32
  ![v3572.toNat, 0]

def k0_off489 (v3568 : BitVec 32) : Fin 2 → Nat :=
  let v3580 : Index := Scalar.indexCast v3568
  let c0_1138 : Index := 0#32
  ![v3580.toNat, 0]

def k0_chk326 (v3568 : BitVec 32) : Prop :=
  (∀ a, (k0_off488 v3568) a + S1x64.size a ≤ S16384x64.size a) ∧
  (∀ a, (k0_off489 v3568) a + S1x1.size a ≤ S16384x1.size a)
instance k0_chk326.dec : ∀ (v3568 : BitVec 32), Decidable (k0_chk326 v3568) := fun v3568 => decidable_of_iff' _ (Iff.of_eq (k0_chk326.eq_1 v3568))
theorem k0_off488_inb : ∀ (v3568 : BitVec 32) (k0_hw326 : k0_chk326 v3568), ∀ a, (k0_off488 v3568) a + S1x64.size a ≤ S16384x64.size a := fun v3568 k0_hw326 => k0_hw326.1
theorem k0_off489_inb : ∀ (v3568 : BitVec 32) (k0_hw326 : k0_chk326 v3568), ∀ a, (k0_off489 v3568) a + S1x1.size a ≤ S16384x1.size a := fun v3568 k0_hw326 => k0_hw326.2

def k0_off490 (v3589 : BitVec 32) : Fin 2 → Nat :=
  let v3591 : Index := Scalar.indexCast v3589
  let c0_1142 : Index := 0#32
  ![v3591.toNat, 0]

def k0_chk327 (v3589 : BitVec 32) : Prop :=
  (∀ a, (k0_off490 v3589) a + S1x64.size a ≤ S50000x64.size a)
instance k0_chk327.dec : ∀ (v3589 : BitVec 32), Decidable (k0_chk327 v3589) := fun v3589 => decidable_of_iff' _ (Iff.of_eq (k0_chk327.eq_1 v3589))
theorem k0_off490_inb : ∀ (v3589 : BitVec 32) (k0_hw327 : k0_chk327 v3589), ∀ a, (k0_off490 v3589) a + S1x64.size a ≤ S50000x64.size a := fun v3589 k0_hw327 => k0_hw327

def k0_off491 (v3590 : BitVec 32) : Fin 2 → Nat :=
  let v3594 : Index := Scalar.indexCast v3590
  let c0_1143 : Index := 0#32
  ![v3594.toNat, 0]

def k0_off492 (v3590 : BitVec 32) : Fin 2 → Nat :=
  let v3602 : Index := Scalar.indexCast v3590
  let c0_1145 : Index := 0#32
  ![v3602.toNat, 0]

def k0_chk328 (v3590 : BitVec 32) : Prop :=
  (∀ a, (k0_off491 v3590) a + S1x64.size a ≤ S16384x64.size a) ∧
  (∀ a, (k0_off492 v3590) a + S1x1.size a ≤ S16384x1.size a)
instance k0_chk328.dec : ∀ (v3590 : BitVec 32), Decidable (k0_chk328 v3590) := fun v3590 => decidable_of_iff' _ (Iff.of_eq (k0_chk328.eq_1 v3590))
theorem k0_off491_inb : ∀ (v3590 : BitVec 32) (k0_hw328 : k0_chk328 v3590), ∀ a, (k0_off491 v3590) a + S1x64.size a ≤ S16384x64.size a := fun v3590 k0_hw328 => k0_hw328.1
theorem k0_off492_inb : ∀ (v3590 : BitVec 32) (k0_hw328 : k0_chk328 v3590), ∀ a, (k0_off492 v3590) a + S1x1.size a ≤ S16384x1.size a := fun v3590 k0_hw328 => k0_hw328.2

def k0_off493 (v3611 : BitVec 32) : Fin 2 → Nat :=
  let v3613 : Index := Scalar.indexCast v3611
  let c0_1149 : Index := 0#32
  ![v3613.toNat, 0]

def k0_chk329 (v3611 : BitVec 32) : Prop :=
  (∀ a, (k0_off493 v3611) a + S1x64.size a ≤ S50000x64.size a)
instance k0_chk329.dec : ∀ (v3611 : BitVec 32), Decidable (k0_chk329 v3611) := fun v3611 => decidable_of_iff' _ (Iff.of_eq (k0_chk329.eq_1 v3611))
theorem k0_off493_inb : ∀ (v3611 : BitVec 32) (k0_hw329 : k0_chk329 v3611), ∀ a, (k0_off493 v3611) a + S1x64.size a ≤ S50000x64.size a := fun v3611 k0_hw329 => k0_hw329

def k0_off494 (v3612 : BitVec 32) : Fin 2 → Nat :=
  let v3616 : Index := Scalar.indexCast v3612
  let c0_1150 : Index := 0#32
  ![v3616.toNat, 0]

def k0_off495 (v3612 : BitVec 32) : Fin 2 → Nat :=
  let v3624 : Index := Scalar.indexCast v3612
  let c0_1152 : Index := 0#32
  ![v3624.toNat, 0]

def k0_chk330 (v3612 : BitVec 32) : Prop :=
  (∀ a, (k0_off494 v3612) a + S1x64.size a ≤ S16384x64.size a) ∧
  (∀ a, (k0_off495 v3612) a + S1x1.size a ≤ S16384x1.size a)
instance k0_chk330.dec : ∀ (v3612 : BitVec 32), Decidable (k0_chk330 v3612) := fun v3612 => decidable_of_iff' _ (Iff.of_eq (k0_chk330.eq_1 v3612))
theorem k0_off494_inb : ∀ (v3612 : BitVec 32) (k0_hw330 : k0_chk330 v3612), ∀ a, (k0_off494 v3612) a + S1x64.size a ≤ S16384x64.size a := fun v3612 k0_hw330 => k0_hw330.1
theorem k0_off495_inb : ∀ (v3612 : BitVec 32) (k0_hw330 : k0_chk330 v3612), ∀ a, (k0_off495 v3612) a + S1x1.size a ≤ S16384x1.size a := fun v3612 k0_hw330 => k0_hw330.2

def k0_off496 (v3633 : BitVec 32) : Fin 2 → Nat :=
  let v3635 : Index := Scalar.indexCast v3633
  let c0_1156 : Index := 0#32
  ![v3635.toNat, 0]

def k0_chk331 (v3633 : BitVec 32) : Prop :=
  (∀ a, (k0_off496 v3633) a + S1x64.size a ≤ S50000x64.size a)
instance k0_chk331.dec : ∀ (v3633 : BitVec 32), Decidable (k0_chk331 v3633) := fun v3633 => decidable_of_iff' _ (Iff.of_eq (k0_chk331.eq_1 v3633))
theorem k0_off496_inb : ∀ (v3633 : BitVec 32) (k0_hw331 : k0_chk331 v3633), ∀ a, (k0_off496 v3633) a + S1x64.size a ≤ S50000x64.size a := fun v3633 k0_hw331 => k0_hw331

def k0_off497 (v3634 : BitVec 32) : Fin 2 → Nat :=
  let v3638 : Index := Scalar.indexCast v3634
  let c0_1157 : Index := 0#32
  ![v3638.toNat, 0]

def k0_off498 (v3634 : BitVec 32) : Fin 2 → Nat :=
  let v3646 : Index := Scalar.indexCast v3634
  let c0_1159 : Index := 0#32
  ![v3646.toNat, 0]

def k0_chk332 (v3634 : BitVec 32) : Prop :=
  (∀ a, (k0_off497 v3634) a + S1x64.size a ≤ S16384x64.size a) ∧
  (∀ a, (k0_off498 v3634) a + S1x1.size a ≤ S16384x1.size a)
instance k0_chk332.dec : ∀ (v3634 : BitVec 32), Decidable (k0_chk332 v3634) := fun v3634 => decidable_of_iff' _ (Iff.of_eq (k0_chk332.eq_1 v3634))
theorem k0_off497_inb : ∀ (v3634 : BitVec 32) (k0_hw332 : k0_chk332 v3634), ∀ a, (k0_off497 v3634) a + S1x64.size a ≤ S16384x64.size a := fun v3634 k0_hw332 => k0_hw332.1
theorem k0_off498_inb : ∀ (v3634 : BitVec 32) (k0_hw332 : k0_chk332 v3634), ∀ a, (k0_off498 v3634) a + S1x1.size a ≤ S16384x1.size a := fun v3634 k0_hw332 => k0_hw332.2

def k0_off499 (v3655 : BitVec 32) : Fin 2 → Nat :=
  let v3657 : Index := Scalar.indexCast v3655
  let c0_1163 : Index := 0#32
  ![v3657.toNat, 0]

def k0_chk333 (v3655 : BitVec 32) : Prop :=
  (∀ a, (k0_off499 v3655) a + S1x64.size a ≤ S50000x64.size a)
instance k0_chk333.dec : ∀ (v3655 : BitVec 32), Decidable (k0_chk333 v3655) := fun v3655 => decidable_of_iff' _ (Iff.of_eq (k0_chk333.eq_1 v3655))
theorem k0_off499_inb : ∀ (v3655 : BitVec 32) (k0_hw333 : k0_chk333 v3655), ∀ a, (k0_off499 v3655) a + S1x64.size a ≤ S50000x64.size a := fun v3655 k0_hw333 => k0_hw333

def k0_off500 (v3656 : BitVec 32) : Fin 2 → Nat :=
  let v3660 : Index := Scalar.indexCast v3656
  let c0_1164 : Index := 0#32
  ![v3660.toNat, 0]

def k0_off501 (v3656 : BitVec 32) : Fin 2 → Nat :=
  let v3668 : Index := Scalar.indexCast v3656
  let c0_1166 : Index := 0#32
  ![v3668.toNat, 0]

def k0_chk334 (v3656 : BitVec 32) : Prop :=
  (∀ a, (k0_off500 v3656) a + S1x64.size a ≤ S16384x64.size a) ∧
  (∀ a, (k0_off501 v3656) a + S1x1.size a ≤ S16384x1.size a)
instance k0_chk334.dec : ∀ (v3656 : BitVec 32), Decidable (k0_chk334 v3656) := fun v3656 => decidable_of_iff' _ (Iff.of_eq (k0_chk334.eq_1 v3656))
theorem k0_off500_inb : ∀ (v3656 : BitVec 32) (k0_hw334 : k0_chk334 v3656), ∀ a, (k0_off500 v3656) a + S1x64.size a ≤ S16384x64.size a := fun v3656 k0_hw334 => k0_hw334.1
theorem k0_off501_inb : ∀ (v3656 : BitVec 32) (k0_hw334 : k0_chk334 v3656), ∀ a, (k0_off501 v3656) a + S1x1.size a ≤ S16384x1.size a := fun v3656 k0_hw334 => k0_hw334.2

def k0_off502 (v3677 : BitVec 32) : Fin 2 → Nat :=
  let v3679 : Index := Scalar.indexCast v3677
  let c0_1170 : Index := 0#32
  ![v3679.toNat, 0]

def k0_chk335 (v3677 : BitVec 32) : Prop :=
  (∀ a, (k0_off502 v3677) a + S1x64.size a ≤ S50000x64.size a)
instance k0_chk335.dec : ∀ (v3677 : BitVec 32), Decidable (k0_chk335 v3677) := fun v3677 => decidable_of_iff' _ (Iff.of_eq (k0_chk335.eq_1 v3677))
theorem k0_off502_inb : ∀ (v3677 : BitVec 32) (k0_hw335 : k0_chk335 v3677), ∀ a, (k0_off502 v3677) a + S1x64.size a ≤ S50000x64.size a := fun v3677 k0_hw335 => k0_hw335

def k0_off503 (v3678 : BitVec 32) : Fin 2 → Nat :=
  let v3682 : Index := Scalar.indexCast v3678
  let c0_1171 : Index := 0#32
  ![v3682.toNat, 0]

def k0_off504 (v3678 : BitVec 32) : Fin 2 → Nat :=
  let v3690 : Index := Scalar.indexCast v3678
  let c0_1173 : Index := 0#32
  ![v3690.toNat, 0]

def k0_chk336 (v3678 : BitVec 32) : Prop :=
  (∀ a, (k0_off503 v3678) a + S1x64.size a ≤ S16384x64.size a) ∧
  (∀ a, (k0_off504 v3678) a + S1x1.size a ≤ S16384x1.size a)
instance k0_chk336.dec : ∀ (v3678 : BitVec 32), Decidable (k0_chk336 v3678) := fun v3678 => decidable_of_iff' _ (Iff.of_eq (k0_chk336.eq_1 v3678))
theorem k0_off503_inb : ∀ (v3678 : BitVec 32) (k0_hw336 : k0_chk336 v3678), ∀ a, (k0_off503 v3678) a + S1x64.size a ≤ S16384x64.size a := fun v3678 k0_hw336 => k0_hw336.1
theorem k0_off504_inb : ∀ (v3678 : BitVec 32) (k0_hw336 : k0_chk336 v3678), ∀ a, (k0_off504 v3678) a + S1x1.size a ≤ S16384x1.size a := fun v3678 k0_hw336 => k0_hw336.2

def k0_off505 (v3699 : BitVec 32) : Fin 2 → Nat :=
  let v3701 : Index := Scalar.indexCast v3699
  let c0_1177 : Index := 0#32
  ![v3701.toNat, 0]

def k0_chk337 (v3699 : BitVec 32) : Prop :=
  (∀ a, (k0_off505 v3699) a + S1x64.size a ≤ S50000x64.size a)
instance k0_chk337.dec : ∀ (v3699 : BitVec 32), Decidable (k0_chk337 v3699) := fun v3699 => decidable_of_iff' _ (Iff.of_eq (k0_chk337.eq_1 v3699))
theorem k0_off505_inb : ∀ (v3699 : BitVec 32) (k0_hw337 : k0_chk337 v3699), ∀ a, (k0_off505 v3699) a + S1x64.size a ≤ S50000x64.size a := fun v3699 k0_hw337 => k0_hw337

def k0_off506 (v3700 : BitVec 32) : Fin 2 → Nat :=
  let v3704 : Index := Scalar.indexCast v3700
  let c0_1178 : Index := 0#32
  ![v3704.toNat, 0]

def k0_off507 (v3700 : BitVec 32) : Fin 2 → Nat :=
  let v3712 : Index := Scalar.indexCast v3700
  let c0_1180 : Index := 0#32
  ![v3712.toNat, 0]

def k0_chk338 (v3700 : BitVec 32) : Prop :=
  (∀ a, (k0_off506 v3700) a + S1x64.size a ≤ S16384x64.size a) ∧
  (∀ a, (k0_off507 v3700) a + S1x1.size a ≤ S16384x1.size a)
instance k0_chk338.dec : ∀ (v3700 : BitVec 32), Decidable (k0_chk338 v3700) := fun v3700 => decidable_of_iff' _ (Iff.of_eq (k0_chk338.eq_1 v3700))
theorem k0_off506_inb : ∀ (v3700 : BitVec 32) (k0_hw338 : k0_chk338 v3700), ∀ a, (k0_off506 v3700) a + S1x64.size a ≤ S16384x64.size a := fun v3700 k0_hw338 => k0_hw338.1
theorem k0_off507_inb : ∀ (v3700 : BitVec 32) (k0_hw338 : k0_chk338 v3700), ∀ a, (k0_off507 v3700) a + S1x1.size a ≤ S16384x1.size a := fun v3700 k0_hw338 => k0_hw338.2

def k0_off508 (v3721 : BitVec 32) : Fin 2 → Nat :=
  let v3723 : Index := Scalar.indexCast v3721
  let c0_1184 : Index := 0#32
  ![v3723.toNat, 0]

def k0_chk339 (v3721 : BitVec 32) : Prop :=
  (∀ a, (k0_off508 v3721) a + S1x64.size a ≤ S50000x64.size a)
instance k0_chk339.dec : ∀ (v3721 : BitVec 32), Decidable (k0_chk339 v3721) := fun v3721 => decidable_of_iff' _ (Iff.of_eq (k0_chk339.eq_1 v3721))
theorem k0_off508_inb : ∀ (v3721 : BitVec 32) (k0_hw339 : k0_chk339 v3721), ∀ a, (k0_off508 v3721) a + S1x64.size a ≤ S50000x64.size a := fun v3721 k0_hw339 => k0_hw339

def k0_off509 (v3722 : BitVec 32) : Fin 2 → Nat :=
  let v3726 : Index := Scalar.indexCast v3722
  let c0_1185 : Index := 0#32
  ![v3726.toNat, 0]

def k0_off510 (v3722 : BitVec 32) : Fin 2 → Nat :=
  let v3734 : Index := Scalar.indexCast v3722
  let c0_1187 : Index := 0#32
  ![v3734.toNat, 0]

def k0_chk340 (v3722 : BitVec 32) : Prop :=
  (∀ a, (k0_off509 v3722) a + S1x64.size a ≤ S16384x64.size a) ∧
  (∀ a, (k0_off510 v3722) a + S1x1.size a ≤ S16384x1.size a)
instance k0_chk340.dec : ∀ (v3722 : BitVec 32), Decidable (k0_chk340 v3722) := fun v3722 => decidable_of_iff' _ (Iff.of_eq (k0_chk340.eq_1 v3722))
theorem k0_off509_inb : ∀ (v3722 : BitVec 32) (k0_hw340 : k0_chk340 v3722), ∀ a, (k0_off509 v3722) a + S1x64.size a ≤ S16384x64.size a := fun v3722 k0_hw340 => k0_hw340.1
theorem k0_off510_inb : ∀ (v3722 : BitVec 32) (k0_hw340 : k0_chk340 v3722), ∀ a, (k0_off510 v3722) a + S1x1.size a ≤ S16384x1.size a := fun v3722 k0_hw340 => k0_hw340.2

def k0_off511 (v3743 : BitVec 32) : Fin 2 → Nat :=
  let v3745 : Index := Scalar.indexCast v3743
  let c0_1191 : Index := 0#32
  ![v3745.toNat, 0]

def k0_chk341 (v3743 : BitVec 32) : Prop :=
  (∀ a, (k0_off511 v3743) a + S1x64.size a ≤ S50000x64.size a)
instance k0_chk341.dec : ∀ (v3743 : BitVec 32), Decidable (k0_chk341 v3743) := fun v3743 => decidable_of_iff' _ (Iff.of_eq (k0_chk341.eq_1 v3743))
theorem k0_off511_inb : ∀ (v3743 : BitVec 32) (k0_hw341 : k0_chk341 v3743), ∀ a, (k0_off511 v3743) a + S1x64.size a ≤ S50000x64.size a := fun v3743 k0_hw341 => k0_hw341

def k0_off512 (v3744 : BitVec 32) : Fin 2 → Nat :=
  let v3748 : Index := Scalar.indexCast v3744
  let c0_1192 : Index := 0#32
  ![v3748.toNat, 0]

def k0_off513 (v3744 : BitVec 32) : Fin 2 → Nat :=
  let v3756 : Index := Scalar.indexCast v3744
  let c0_1194 : Index := 0#32
  ![v3756.toNat, 0]

def k0_chk342 (v3744 : BitVec 32) : Prop :=
  (∀ a, (k0_off512 v3744) a + S1x64.size a ≤ S16384x64.size a) ∧
  (∀ a, (k0_off513 v3744) a + S1x1.size a ≤ S16384x1.size a)
instance k0_chk342.dec : ∀ (v3744 : BitVec 32), Decidable (k0_chk342 v3744) := fun v3744 => decidable_of_iff' _ (Iff.of_eq (k0_chk342.eq_1 v3744))
theorem k0_off512_inb : ∀ (v3744 : BitVec 32) (k0_hw342 : k0_chk342 v3744), ∀ a, (k0_off512 v3744) a + S1x64.size a ≤ S16384x64.size a := fun v3744 k0_hw342 => k0_hw342.1
theorem k0_off513_inb : ∀ (v3744 : BitVec 32) (k0_hw342 : k0_chk342 v3744), ∀ a, (k0_off513 v3744) a + S1x1.size a ≤ S16384x1.size a := fun v3744 k0_hw342 => k0_hw342.2

def k0_off514 (v3765 : BitVec 32) : Fin 2 → Nat :=
  let v3767 : Index := Scalar.indexCast v3765
  let c0_1198 : Index := 0#32
  ![v3767.toNat, 0]

def k0_chk343 (v3765 : BitVec 32) : Prop :=
  (∀ a, (k0_off514 v3765) a + S1x64.size a ≤ S50000x64.size a)
instance k0_chk343.dec : ∀ (v3765 : BitVec 32), Decidable (k0_chk343 v3765) := fun v3765 => decidable_of_iff' _ (Iff.of_eq (k0_chk343.eq_1 v3765))
theorem k0_off514_inb : ∀ (v3765 : BitVec 32) (k0_hw343 : k0_chk343 v3765), ∀ a, (k0_off514 v3765) a + S1x64.size a ≤ S50000x64.size a := fun v3765 k0_hw343 => k0_hw343

def k0_off515 (v3766 : BitVec 32) : Fin 2 → Nat :=
  let v3770 : Index := Scalar.indexCast v3766
  let c0_1199 : Index := 0#32
  ![v3770.toNat, 0]

def k0_off516 (v3766 : BitVec 32) : Fin 2 → Nat :=
  let v3778 : Index := Scalar.indexCast v3766
  let c0_1201 : Index := 0#32
  ![v3778.toNat, 0]

def k0_chk344 (v3766 : BitVec 32) : Prop :=
  (∀ a, (k0_off515 v3766) a + S1x64.size a ≤ S16384x64.size a) ∧
  (∀ a, (k0_off516 v3766) a + S1x1.size a ≤ S16384x1.size a)
instance k0_chk344.dec : ∀ (v3766 : BitVec 32), Decidable (k0_chk344 v3766) := fun v3766 => decidable_of_iff' _ (Iff.of_eq (k0_chk344.eq_1 v3766))
theorem k0_off515_inb : ∀ (v3766 : BitVec 32) (k0_hw344 : k0_chk344 v3766), ∀ a, (k0_off515 v3766) a + S1x64.size a ≤ S16384x64.size a := fun v3766 k0_hw344 => k0_hw344.1
theorem k0_off516_inb : ∀ (v3766 : BitVec 32) (k0_hw344 : k0_chk344 v3766), ∀ a, (k0_off516 v3766) a + S1x1.size a ≤ S16384x1.size a := fun v3766 k0_hw344 => k0_hw344.2

def k0_off517 (v3787 : BitVec 32) : Fin 2 → Nat :=
  let v3789 : Index := Scalar.indexCast v3787
  let c0_1205 : Index := 0#32
  ![v3789.toNat, 0]

def k0_chk345 (v3787 : BitVec 32) : Prop :=
  (∀ a, (k0_off517 v3787) a + S1x64.size a ≤ S50000x64.size a)
instance k0_chk345.dec : ∀ (v3787 : BitVec 32), Decidable (k0_chk345 v3787) := fun v3787 => decidable_of_iff' _ (Iff.of_eq (k0_chk345.eq_1 v3787))
theorem k0_off517_inb : ∀ (v3787 : BitVec 32) (k0_hw345 : k0_chk345 v3787), ∀ a, (k0_off517 v3787) a + S1x64.size a ≤ S50000x64.size a := fun v3787 k0_hw345 => k0_hw345

def k0_off518 (v3788 : BitVec 32) : Fin 2 → Nat :=
  let v3792 : Index := Scalar.indexCast v3788
  let c0_1206 : Index := 0#32
  ![v3792.toNat, 0]

def k0_off519 (v3788 : BitVec 32) : Fin 2 → Nat :=
  let v3800 : Index := Scalar.indexCast v3788
  let c0_1208 : Index := 0#32
  ![v3800.toNat, 0]

def k0_chk346 (v3788 : BitVec 32) : Prop :=
  (∀ a, (k0_off518 v3788) a + S1x64.size a ≤ S16384x64.size a) ∧
  (∀ a, (k0_off519 v3788) a + S1x1.size a ≤ S16384x1.size a)
instance k0_chk346.dec : ∀ (v3788 : BitVec 32), Decidable (k0_chk346 v3788) := fun v3788 => decidable_of_iff' _ (Iff.of_eq (k0_chk346.eq_1 v3788))
theorem k0_off518_inb : ∀ (v3788 : BitVec 32) (k0_hw346 : k0_chk346 v3788), ∀ a, (k0_off518 v3788) a + S1x64.size a ≤ S16384x64.size a := fun v3788 k0_hw346 => k0_hw346.1
theorem k0_off519_inb : ∀ (v3788 : BitVec 32) (k0_hw346 : k0_chk346 v3788), ∀ a, (k0_off519 v3788) a + S1x1.size a ≤ S16384x1.size a := fun v3788 k0_hw346 => k0_hw346.2

def k0_off520 (v3809 : BitVec 32) : Fin 2 → Nat :=
  let v3811 : Index := Scalar.indexCast v3809
  let c0_1212 : Index := 0#32
  ![v3811.toNat, 0]

def k0_chk347 (v3809 : BitVec 32) : Prop :=
  (∀ a, (k0_off520 v3809) a + S1x64.size a ≤ S50000x64.size a)
instance k0_chk347.dec : ∀ (v3809 : BitVec 32), Decidable (k0_chk347 v3809) := fun v3809 => decidable_of_iff' _ (Iff.of_eq (k0_chk347.eq_1 v3809))
theorem k0_off520_inb : ∀ (v3809 : BitVec 32) (k0_hw347 : k0_chk347 v3809), ∀ a, (k0_off520 v3809) a + S1x64.size a ≤ S50000x64.size a := fun v3809 k0_hw347 => k0_hw347

def k0_off521 (v3810 : BitVec 32) : Fin 2 → Nat :=
  let v3814 : Index := Scalar.indexCast v3810
  let c0_1213 : Index := 0#32
  ![v3814.toNat, 0]

def k0_off522 (v3810 : BitVec 32) : Fin 2 → Nat :=
  let v3822 : Index := Scalar.indexCast v3810
  let c0_1215 : Index := 0#32
  ![v3822.toNat, 0]

def k0_chk348 (v3810 : BitVec 32) : Prop :=
  (∀ a, (k0_off521 v3810) a + S1x64.size a ≤ S16384x64.size a) ∧
  (∀ a, (k0_off522 v3810) a + S1x1.size a ≤ S16384x1.size a)
instance k0_chk348.dec : ∀ (v3810 : BitVec 32), Decidable (k0_chk348 v3810) := fun v3810 => decidable_of_iff' _ (Iff.of_eq (k0_chk348.eq_1 v3810))
theorem k0_off521_inb : ∀ (v3810 : BitVec 32) (k0_hw348 : k0_chk348 v3810), ∀ a, (k0_off521 v3810) a + S1x64.size a ≤ S16384x64.size a := fun v3810 k0_hw348 => k0_hw348.1
theorem k0_off522_inb : ∀ (v3810 : BitVec 32) (k0_hw348 : k0_chk348 v3810), ∀ a, (k0_off522 v3810) a + S1x1.size a ≤ S16384x1.size a := fun v3810 k0_hw348 => k0_hw348.2

def k0_off523 (v3831 : BitVec 32) : Fin 2 → Nat :=
  let v3833 : Index := Scalar.indexCast v3831
  let c0_1219 : Index := 0#32
  ![v3833.toNat, 0]

def k0_chk349 (v3831 : BitVec 32) : Prop :=
  (∀ a, (k0_off523 v3831) a + S1x64.size a ≤ S50000x64.size a)
instance k0_chk349.dec : ∀ (v3831 : BitVec 32), Decidable (k0_chk349 v3831) := fun v3831 => decidable_of_iff' _ (Iff.of_eq (k0_chk349.eq_1 v3831))
theorem k0_off523_inb : ∀ (v3831 : BitVec 32) (k0_hw349 : k0_chk349 v3831), ∀ a, (k0_off523 v3831) a + S1x64.size a ≤ S50000x64.size a := fun v3831 k0_hw349 => k0_hw349

def k0_off524 (v3832 : BitVec 32) : Fin 2 → Nat :=
  let v3836 : Index := Scalar.indexCast v3832
  let c0_1220 : Index := 0#32
  ![v3836.toNat, 0]

def k0_off525 (v3832 : BitVec 32) : Fin 2 → Nat :=
  let v3844 : Index := Scalar.indexCast v3832
  let c0_1222 : Index := 0#32
  ![v3844.toNat, 0]

def k0_chk350 (v3832 : BitVec 32) : Prop :=
  (∀ a, (k0_off524 v3832) a + S1x64.size a ≤ S16384x64.size a) ∧
  (∀ a, (k0_off525 v3832) a + S1x1.size a ≤ S16384x1.size a)
instance k0_chk350.dec : ∀ (v3832 : BitVec 32), Decidable (k0_chk350 v3832) := fun v3832 => decidable_of_iff' _ (Iff.of_eq (k0_chk350.eq_1 v3832))
theorem k0_off524_inb : ∀ (v3832 : BitVec 32) (k0_hw350 : k0_chk350 v3832), ∀ a, (k0_off524 v3832) a + S1x64.size a ≤ S16384x64.size a := fun v3832 k0_hw350 => k0_hw350.1
theorem k0_off525_inb : ∀ (v3832 : BitVec 32) (k0_hw350 : k0_chk350 v3832), ∀ a, (k0_off525 v3832) a + S1x1.size a ≤ S16384x1.size a := fun v3832 k0_hw350 => k0_hw350.2

def k0_off526 (v3853 : BitVec 32) : Fin 2 → Nat :=
  let v3855 : Index := Scalar.indexCast v3853
  let c0_1226 : Index := 0#32
  ![v3855.toNat, 0]

def k0_chk351 (v3853 : BitVec 32) : Prop :=
  (∀ a, (k0_off526 v3853) a + S1x64.size a ≤ S50000x64.size a)
instance k0_chk351.dec : ∀ (v3853 : BitVec 32), Decidable (k0_chk351 v3853) := fun v3853 => decidable_of_iff' _ (Iff.of_eq (k0_chk351.eq_1 v3853))
theorem k0_off526_inb : ∀ (v3853 : BitVec 32) (k0_hw351 : k0_chk351 v3853), ∀ a, (k0_off526 v3853) a + S1x64.size a ≤ S50000x64.size a := fun v3853 k0_hw351 => k0_hw351

def k0_off527 (v3854 : BitVec 32) : Fin 2 → Nat :=
  let v3858 : Index := Scalar.indexCast v3854
  let c0_1227 : Index := 0#32
  ![v3858.toNat, 0]

def k0_off528 (v3854 : BitVec 32) : Fin 2 → Nat :=
  let v3866 : Index := Scalar.indexCast v3854
  let c0_1229 : Index := 0#32
  ![v3866.toNat, 0]

def k0_chk352 (v3854 : BitVec 32) : Prop :=
  (∀ a, (k0_off527 v3854) a + S1x64.size a ≤ S16384x64.size a) ∧
  (∀ a, (k0_off528 v3854) a + S1x1.size a ≤ S16384x1.size a)
instance k0_chk352.dec : ∀ (v3854 : BitVec 32), Decidable (k0_chk352 v3854) := fun v3854 => decidable_of_iff' _ (Iff.of_eq (k0_chk352.eq_1 v3854))
theorem k0_off527_inb : ∀ (v3854 : BitVec 32) (k0_hw352 : k0_chk352 v3854), ∀ a, (k0_off527 v3854) a + S1x64.size a ≤ S16384x64.size a := fun v3854 k0_hw352 => k0_hw352.1
theorem k0_off528_inb : ∀ (v3854 : BitVec 32) (k0_hw352 : k0_chk352 v3854), ∀ a, (k0_off528 v3854) a + S1x1.size a ≤ S16384x1.size a := fun v3854 k0_hw352 => k0_hw352.2

def k0_off529 (v3875 : BitVec 32) : Fin 2 → Nat :=
  let v3877 : Index := Scalar.indexCast v3875
  let c0_1233 : Index := 0#32
  ![v3877.toNat, 0]

def k0_chk353 (v3875 : BitVec 32) : Prop :=
  (∀ a, (k0_off529 v3875) a + S1x64.size a ≤ S50000x64.size a)
instance k0_chk353.dec : ∀ (v3875 : BitVec 32), Decidable (k0_chk353 v3875) := fun v3875 => decidable_of_iff' _ (Iff.of_eq (k0_chk353.eq_1 v3875))
theorem k0_off529_inb : ∀ (v3875 : BitVec 32) (k0_hw353 : k0_chk353 v3875), ∀ a, (k0_off529 v3875) a + S1x64.size a ≤ S50000x64.size a := fun v3875 k0_hw353 => k0_hw353

def k0_off530 (v3876 : BitVec 32) : Fin 2 → Nat :=
  let v3880 : Index := Scalar.indexCast v3876
  let c0_1234 : Index := 0#32
  ![v3880.toNat, 0]

def k0_off531 (v3876 : BitVec 32) : Fin 2 → Nat :=
  let v3888 : Index := Scalar.indexCast v3876
  let c0_1236 : Index := 0#32
  ![v3888.toNat, 0]

def k0_chk354 (v3876 : BitVec 32) : Prop :=
  (∀ a, (k0_off530 v3876) a + S1x64.size a ≤ S16384x64.size a) ∧
  (∀ a, (k0_off531 v3876) a + S1x1.size a ≤ S16384x1.size a)
instance k0_chk354.dec : ∀ (v3876 : BitVec 32), Decidable (k0_chk354 v3876) := fun v3876 => decidable_of_iff' _ (Iff.of_eq (k0_chk354.eq_1 v3876))
theorem k0_off530_inb : ∀ (v3876 : BitVec 32) (k0_hw354 : k0_chk354 v3876), ∀ a, (k0_off530 v3876) a + S1x64.size a ≤ S16384x64.size a := fun v3876 k0_hw354 => k0_hw354.1
theorem k0_off531_inb : ∀ (v3876 : BitVec 32) (k0_hw354 : k0_chk354 v3876), ∀ a, (k0_off531 v3876) a + S1x1.size a ≤ S16384x1.size a := fun v3876 k0_hw354 => k0_hw354.2

def k0_off532 (v3897 : BitVec 32) : Fin 2 → Nat :=
  let v3899 : Index := Scalar.indexCast v3897
  let c0_1240 : Index := 0#32
  ![v3899.toNat, 0]

def k0_chk355 (v3897 : BitVec 32) : Prop :=
  (∀ a, (k0_off532 v3897) a + S1x64.size a ≤ S50000x64.size a)
instance k0_chk355.dec : ∀ (v3897 : BitVec 32), Decidable (k0_chk355 v3897) := fun v3897 => decidable_of_iff' _ (Iff.of_eq (k0_chk355.eq_1 v3897))
theorem k0_off532_inb : ∀ (v3897 : BitVec 32) (k0_hw355 : k0_chk355 v3897), ∀ a, (k0_off532 v3897) a + S1x64.size a ≤ S50000x64.size a := fun v3897 k0_hw355 => k0_hw355

def k0_off533 (v3898 : BitVec 32) : Fin 2 → Nat :=
  let v3902 : Index := Scalar.indexCast v3898
  let c0_1241 : Index := 0#32
  ![v3902.toNat, 0]

def k0_off534 (v3898 : BitVec 32) : Fin 2 → Nat :=
  let v3910 : Index := Scalar.indexCast v3898
  let c0_1243 : Index := 0#32
  ![v3910.toNat, 0]

def k0_chk356 (v3898 : BitVec 32) : Prop :=
  (∀ a, (k0_off533 v3898) a + S1x64.size a ≤ S16384x64.size a) ∧
  (∀ a, (k0_off534 v3898) a + S1x1.size a ≤ S16384x1.size a)
instance k0_chk356.dec : ∀ (v3898 : BitVec 32), Decidable (k0_chk356 v3898) := fun v3898 => decidable_of_iff' _ (Iff.of_eq (k0_chk356.eq_1 v3898))
theorem k0_off533_inb : ∀ (v3898 : BitVec 32) (k0_hw356 : k0_chk356 v3898), ∀ a, (k0_off533 v3898) a + S1x64.size a ≤ S16384x64.size a := fun v3898 k0_hw356 => k0_hw356.1
theorem k0_off534_inb : ∀ (v3898 : BitVec 32) (k0_hw356 : k0_chk356 v3898), ∀ a, (k0_off534 v3898) a + S1x1.size a ≤ S16384x1.size a := fun v3898 k0_hw356 => k0_hw356.2

def k0_off535 (v3919 : BitVec 32) : Fin 2 → Nat :=
  let v3921 : Index := Scalar.indexCast v3919
  let c0_1247 : Index := 0#32
  ![v3921.toNat, 0]

def k0_chk357 (v3919 : BitVec 32) : Prop :=
  (∀ a, (k0_off535 v3919) a + S1x64.size a ≤ S50000x64.size a)
instance k0_chk357.dec : ∀ (v3919 : BitVec 32), Decidable (k0_chk357 v3919) := fun v3919 => decidable_of_iff' _ (Iff.of_eq (k0_chk357.eq_1 v3919))
theorem k0_off535_inb : ∀ (v3919 : BitVec 32) (k0_hw357 : k0_chk357 v3919), ∀ a, (k0_off535 v3919) a + S1x64.size a ≤ S50000x64.size a := fun v3919 k0_hw357 => k0_hw357

def k0_off536 (v3920 : BitVec 32) : Fin 2 → Nat :=
  let v3924 : Index := Scalar.indexCast v3920
  let c0_1248 : Index := 0#32
  ![v3924.toNat, 0]

def k0_off537 (v3920 : BitVec 32) : Fin 2 → Nat :=
  let v3932 : Index := Scalar.indexCast v3920
  let c0_1250 : Index := 0#32
  ![v3932.toNat, 0]

def k0_chk358 (v3920 : BitVec 32) : Prop :=
  (∀ a, (k0_off536 v3920) a + S1x64.size a ≤ S16384x64.size a) ∧
  (∀ a, (k0_off537 v3920) a + S1x1.size a ≤ S16384x1.size a)
instance k0_chk358.dec : ∀ (v3920 : BitVec 32), Decidable (k0_chk358 v3920) := fun v3920 => decidable_of_iff' _ (Iff.of_eq (k0_chk358.eq_1 v3920))
theorem k0_off536_inb : ∀ (v3920 : BitVec 32) (k0_hw358 : k0_chk358 v3920), ∀ a, (k0_off536 v3920) a + S1x64.size a ≤ S16384x64.size a := fun v3920 k0_hw358 => k0_hw358.1
theorem k0_off537_inb : ∀ (v3920 : BitVec 32) (k0_hw358 : k0_chk358 v3920), ∀ a, (k0_off537 v3920) a + S1x1.size a ≤ S16384x1.size a := fun v3920 k0_hw358 => k0_hw358.2

def k0_off538 (v3941 : BitVec 32) : Fin 2 → Nat :=
  let v3943 : Index := Scalar.indexCast v3941
  let c0_1254 : Index := 0#32
  ![v3943.toNat, 0]

def k0_chk359 (v3941 : BitVec 32) : Prop :=
  (∀ a, (k0_off538 v3941) a + S1x64.size a ≤ S50000x64.size a)
instance k0_chk359.dec : ∀ (v3941 : BitVec 32), Decidable (k0_chk359 v3941) := fun v3941 => decidable_of_iff' _ (Iff.of_eq (k0_chk359.eq_1 v3941))
theorem k0_off538_inb : ∀ (v3941 : BitVec 32) (k0_hw359 : k0_chk359 v3941), ∀ a, (k0_off538 v3941) a + S1x64.size a ≤ S50000x64.size a := fun v3941 k0_hw359 => k0_hw359

def k0_off539 (v3942 : BitVec 32) : Fin 2 → Nat :=
  let v3946 : Index := Scalar.indexCast v3942
  let c0_1255 : Index := 0#32
  ![v3946.toNat, 0]

def k0_off540 (v3942 : BitVec 32) : Fin 2 → Nat :=
  let v3954 : Index := Scalar.indexCast v3942
  let c0_1257 : Index := 0#32
  ![v3954.toNat, 0]

def k0_chk360 (v3942 : BitVec 32) : Prop :=
  (∀ a, (k0_off539 v3942) a + S1x64.size a ≤ S16384x64.size a) ∧
  (∀ a, (k0_off540 v3942) a + S1x1.size a ≤ S16384x1.size a)
instance k0_chk360.dec : ∀ (v3942 : BitVec 32), Decidable (k0_chk360 v3942) := fun v3942 => decidable_of_iff' _ (Iff.of_eq (k0_chk360.eq_1 v3942))
theorem k0_off539_inb : ∀ (v3942 : BitVec 32) (k0_hw360 : k0_chk360 v3942), ∀ a, (k0_off539 v3942) a + S1x64.size a ≤ S16384x64.size a := fun v3942 k0_hw360 => k0_hw360.1
theorem k0_off540_inb : ∀ (v3942 : BitVec 32) (k0_hw360 : k0_chk360 v3942), ∀ a, (k0_off540 v3942) a + S1x1.size a ≤ S16384x1.size a := fun v3942 k0_hw360 => k0_hw360.2

def k0_off541 (v3963 : BitVec 32) : Fin 2 → Nat :=
  let v3965 : Index := Scalar.indexCast v3963
  let c0_1261 : Index := 0#32
  ![v3965.toNat, 0]

def k0_chk361 (v3963 : BitVec 32) : Prop :=
  (∀ a, (k0_off541 v3963) a + S1x64.size a ≤ S50000x64.size a)
instance k0_chk361.dec : ∀ (v3963 : BitVec 32), Decidable (k0_chk361 v3963) := fun v3963 => decidable_of_iff' _ (Iff.of_eq (k0_chk361.eq_1 v3963))
theorem k0_off541_inb : ∀ (v3963 : BitVec 32) (k0_hw361 : k0_chk361 v3963), ∀ a, (k0_off541 v3963) a + S1x64.size a ≤ S50000x64.size a := fun v3963 k0_hw361 => k0_hw361

def k0_off542 (v3964 : BitVec 32) : Fin 2 → Nat :=
  let v3968 : Index := Scalar.indexCast v3964
  let c0_1262 : Index := 0#32
  ![v3968.toNat, 0]

def k0_off543 (v3964 : BitVec 32) : Fin 2 → Nat :=
  let v3976 : Index := Scalar.indexCast v3964
  let c0_1264 : Index := 0#32
  ![v3976.toNat, 0]

def k0_chk362 (v3964 : BitVec 32) : Prop :=
  (∀ a, (k0_off542 v3964) a + S1x64.size a ≤ S16384x64.size a) ∧
  (∀ a, (k0_off543 v3964) a + S1x1.size a ≤ S16384x1.size a)
instance k0_chk362.dec : ∀ (v3964 : BitVec 32), Decidable (k0_chk362 v3964) := fun v3964 => decidable_of_iff' _ (Iff.of_eq (k0_chk362.eq_1 v3964))
theorem k0_off542_inb : ∀ (v3964 : BitVec 32) (k0_hw362 : k0_chk362 v3964), ∀ a, (k0_off542 v3964) a + S1x64.size a ≤ S16384x64.size a := fun v3964 k0_hw362 => k0_hw362.1
theorem k0_off543_inb : ∀ (v3964 : BitVec 32) (k0_hw362 : k0_chk362 v3964), ∀ a, (k0_off543 v3964) a + S1x1.size a ≤ S16384x1.size a := fun v3964 k0_hw362 => k0_hw362.2

def k0_off544 (v3985 : BitVec 32) : Fin 2 → Nat :=
  let v3987 : Index := Scalar.indexCast v3985
  let c0_1268 : Index := 0#32
  ![v3987.toNat, 0]

def k0_chk363 (v3985 : BitVec 32) : Prop :=
  (∀ a, (k0_off544 v3985) a + S1x64.size a ≤ S50000x64.size a)
instance k0_chk363.dec : ∀ (v3985 : BitVec 32), Decidable (k0_chk363 v3985) := fun v3985 => decidable_of_iff' _ (Iff.of_eq (k0_chk363.eq_1 v3985))
theorem k0_off544_inb : ∀ (v3985 : BitVec 32) (k0_hw363 : k0_chk363 v3985), ∀ a, (k0_off544 v3985) a + S1x64.size a ≤ S50000x64.size a := fun v3985 k0_hw363 => k0_hw363

def k0_off545 (v3986 : BitVec 32) : Fin 2 → Nat :=
  let v3990 : Index := Scalar.indexCast v3986
  let c0_1269 : Index := 0#32
  ![v3990.toNat, 0]

def k0_off546 (v3986 : BitVec 32) : Fin 2 → Nat :=
  let v3998 : Index := Scalar.indexCast v3986
  let c0_1271 : Index := 0#32
  ![v3998.toNat, 0]

def k0_chk364 (v3986 : BitVec 32) : Prop :=
  (∀ a, (k0_off545 v3986) a + S1x64.size a ≤ S16384x64.size a) ∧
  (∀ a, (k0_off546 v3986) a + S1x1.size a ≤ S16384x1.size a)
instance k0_chk364.dec : ∀ (v3986 : BitVec 32), Decidable (k0_chk364 v3986) := fun v3986 => decidable_of_iff' _ (Iff.of_eq (k0_chk364.eq_1 v3986))
theorem k0_off545_inb : ∀ (v3986 : BitVec 32) (k0_hw364 : k0_chk364 v3986), ∀ a, (k0_off545 v3986) a + S1x64.size a ≤ S16384x64.size a := fun v3986 k0_hw364 => k0_hw364.1
theorem k0_off546_inb : ∀ (v3986 : BitVec 32) (k0_hw364 : k0_chk364 v3986), ∀ a, (k0_off546 v3986) a + S1x1.size a ≤ S16384x1.size a := fun v3986 k0_hw364 => k0_hw364.2

def k0_off547 (v4007 : BitVec 32) : Fin 2 → Nat :=
  let v4009 : Index := Scalar.indexCast v4007
  let c0_1275 : Index := 0#32
  ![v4009.toNat, 0]

def k0_chk365 (v4007 : BitVec 32) : Prop :=
  (∀ a, (k0_off547 v4007) a + S1x64.size a ≤ S50000x64.size a)
instance k0_chk365.dec : ∀ (v4007 : BitVec 32), Decidable (k0_chk365 v4007) := fun v4007 => decidable_of_iff' _ (Iff.of_eq (k0_chk365.eq_1 v4007))
theorem k0_off547_inb : ∀ (v4007 : BitVec 32) (k0_hw365 : k0_chk365 v4007), ∀ a, (k0_off547 v4007) a + S1x64.size a ≤ S50000x64.size a := fun v4007 k0_hw365 => k0_hw365

def k0_off548 (v4008 : BitVec 32) : Fin 2 → Nat :=
  let v4012 : Index := Scalar.indexCast v4008
  let c0_1276 : Index := 0#32
  ![v4012.toNat, 0]

def k0_off549 (v4008 : BitVec 32) : Fin 2 → Nat :=
  let v4020 : Index := Scalar.indexCast v4008
  let c0_1278 : Index := 0#32
  ![v4020.toNat, 0]

def k0_chk366 (v4008 : BitVec 32) : Prop :=
  (∀ a, (k0_off548 v4008) a + S1x64.size a ≤ S16384x64.size a) ∧
  (∀ a, (k0_off549 v4008) a + S1x1.size a ≤ S16384x1.size a)
instance k0_chk366.dec : ∀ (v4008 : BitVec 32), Decidable (k0_chk366 v4008) := fun v4008 => decidable_of_iff' _ (Iff.of_eq (k0_chk366.eq_1 v4008))
theorem k0_off548_inb : ∀ (v4008 : BitVec 32) (k0_hw366 : k0_chk366 v4008), ∀ a, (k0_off548 v4008) a + S1x64.size a ≤ S16384x64.size a := fun v4008 k0_hw366 => k0_hw366.1
theorem k0_off549_inb : ∀ (v4008 : BitVec 32) (k0_hw366 : k0_chk366 v4008), ∀ a, (k0_off549 v4008) a + S1x1.size a ≤ S16384x1.size a := fun v4008 k0_hw366 => k0_hw366.2

def k0_off550 (v4029 : BitVec 32) : Fin 2 → Nat :=
  let v4031 : Index := Scalar.indexCast v4029
  let c0_1282 : Index := 0#32
  ![v4031.toNat, 0]

def k0_chk367 (v4029 : BitVec 32) : Prop :=
  (∀ a, (k0_off550 v4029) a + S1x64.size a ≤ S50000x64.size a)
instance k0_chk367.dec : ∀ (v4029 : BitVec 32), Decidable (k0_chk367 v4029) := fun v4029 => decidable_of_iff' _ (Iff.of_eq (k0_chk367.eq_1 v4029))
theorem k0_off550_inb : ∀ (v4029 : BitVec 32) (k0_hw367 : k0_chk367 v4029), ∀ a, (k0_off550 v4029) a + S1x64.size a ≤ S50000x64.size a := fun v4029 k0_hw367 => k0_hw367

def k0_off551 (v4030 : BitVec 32) : Fin 2 → Nat :=
  let v4034 : Index := Scalar.indexCast v4030
  let c0_1283 : Index := 0#32
  ![v4034.toNat, 0]

def k0_off552 (v4030 : BitVec 32) : Fin 2 → Nat :=
  let v4042 : Index := Scalar.indexCast v4030
  let c0_1285 : Index := 0#32
  ![v4042.toNat, 0]

def k0_chk368 (v4030 : BitVec 32) : Prop :=
  (∀ a, (k0_off551 v4030) a + S1x64.size a ≤ S16384x64.size a) ∧
  (∀ a, (k0_off552 v4030) a + S1x1.size a ≤ S16384x1.size a)
instance k0_chk368.dec : ∀ (v4030 : BitVec 32), Decidable (k0_chk368 v4030) := fun v4030 => decidable_of_iff' _ (Iff.of_eq (k0_chk368.eq_1 v4030))
theorem k0_off551_inb : ∀ (v4030 : BitVec 32) (k0_hw368 : k0_chk368 v4030), ∀ a, (k0_off551 v4030) a + S1x64.size a ≤ S16384x64.size a := fun v4030 k0_hw368 => k0_hw368.1
theorem k0_off552_inb : ∀ (v4030 : BitVec 32) (k0_hw368 : k0_chk368 v4030), ∀ a, (k0_off552 v4030) a + S1x1.size a ≤ S16384x1.size a := fun v4030 k0_hw368 => k0_hw368.2

def k0_off553 (v4051 : BitVec 32) : Fin 2 → Nat :=
  let v4053 : Index := Scalar.indexCast v4051
  let c0_1289 : Index := 0#32
  ![v4053.toNat, 0]

def k0_chk369 (v4051 : BitVec 32) : Prop :=
  (∀ a, (k0_off553 v4051) a + S1x64.size a ≤ S50000x64.size a)
instance k0_chk369.dec : ∀ (v4051 : BitVec 32), Decidable (k0_chk369 v4051) := fun v4051 => decidable_of_iff' _ (Iff.of_eq (k0_chk369.eq_1 v4051))
theorem k0_off553_inb : ∀ (v4051 : BitVec 32) (k0_hw369 : k0_chk369 v4051), ∀ a, (k0_off553 v4051) a + S1x64.size a ≤ S50000x64.size a := fun v4051 k0_hw369 => k0_hw369

def k0_off554 (v4052 : BitVec 32) : Fin 2 → Nat :=
  let v4056 : Index := Scalar.indexCast v4052
  let c0_1290 : Index := 0#32
  ![v4056.toNat, 0]

def k0_off555 (v4052 : BitVec 32) : Fin 2 → Nat :=
  let v4064 : Index := Scalar.indexCast v4052
  let c0_1292 : Index := 0#32
  ![v4064.toNat, 0]

def k0_chk370 (v4052 : BitVec 32) : Prop :=
  (∀ a, (k0_off554 v4052) a + S1x64.size a ≤ S16384x64.size a) ∧
  (∀ a, (k0_off555 v4052) a + S1x1.size a ≤ S16384x1.size a)
instance k0_chk370.dec : ∀ (v4052 : BitVec 32), Decidable (k0_chk370 v4052) := fun v4052 => decidable_of_iff' _ (Iff.of_eq (k0_chk370.eq_1 v4052))
theorem k0_off554_inb : ∀ (v4052 : BitVec 32) (k0_hw370 : k0_chk370 v4052), ∀ a, (k0_off554 v4052) a + S1x64.size a ≤ S16384x64.size a := fun v4052 k0_hw370 => k0_hw370.1
theorem k0_off555_inb : ∀ (v4052 : BitVec 32) (k0_hw370 : k0_chk370 v4052), ∀ a, (k0_off555 v4052) a + S1x1.size a ≤ S16384x1.size a := fun v4052 k0_hw370 => k0_hw370.2

def k0_off556 (v4073 : BitVec 32) : Fin 2 → Nat :=
  let v4075 : Index := Scalar.indexCast v4073
  let c0_1296 : Index := 0#32
  ![v4075.toNat, 0]

def k0_chk371 (v4073 : BitVec 32) : Prop :=
  (∀ a, (k0_off556 v4073) a + S1x64.size a ≤ S50000x64.size a)
instance k0_chk371.dec : ∀ (v4073 : BitVec 32), Decidable (k0_chk371 v4073) := fun v4073 => decidable_of_iff' _ (Iff.of_eq (k0_chk371.eq_1 v4073))
theorem k0_off556_inb : ∀ (v4073 : BitVec 32) (k0_hw371 : k0_chk371 v4073), ∀ a, (k0_off556 v4073) a + S1x64.size a ≤ S50000x64.size a := fun v4073 k0_hw371 => k0_hw371

def k0_off557 (v4074 : BitVec 32) : Fin 2 → Nat :=
  let v4078 : Index := Scalar.indexCast v4074
  let c0_1297 : Index := 0#32
  ![v4078.toNat, 0]

def k0_off558 (v4074 : BitVec 32) : Fin 2 → Nat :=
  let v4086 : Index := Scalar.indexCast v4074
  let c0_1299 : Index := 0#32
  ![v4086.toNat, 0]

def k0_chk372 (v4074 : BitVec 32) : Prop :=
  (∀ a, (k0_off557 v4074) a + S1x64.size a ≤ S16384x64.size a) ∧
  (∀ a, (k0_off558 v4074) a + S1x1.size a ≤ S16384x1.size a)
instance k0_chk372.dec : ∀ (v4074 : BitVec 32), Decidable (k0_chk372 v4074) := fun v4074 => decidable_of_iff' _ (Iff.of_eq (k0_chk372.eq_1 v4074))
theorem k0_off557_inb : ∀ (v4074 : BitVec 32) (k0_hw372 : k0_chk372 v4074), ∀ a, (k0_off557 v4074) a + S1x64.size a ≤ S16384x64.size a := fun v4074 k0_hw372 => k0_hw372.1
theorem k0_off558_inb : ∀ (v4074 : BitVec 32) (k0_hw372 : k0_chk372 v4074), ∀ a, (k0_off558 v4074) a + S1x1.size a ≤ S16384x1.size a := fun v4074 k0_hw372 => k0_hw372.2

def k0_off559 (v4095 : BitVec 32) : Fin 2 → Nat :=
  let v4097 : Index := Scalar.indexCast v4095
  let c0_1303 : Index := 0#32
  ![v4097.toNat, 0]

def k0_chk373 (v4095 : BitVec 32) : Prop :=
  (∀ a, (k0_off559 v4095) a + S1x64.size a ≤ S50000x64.size a)
instance k0_chk373.dec : ∀ (v4095 : BitVec 32), Decidable (k0_chk373 v4095) := fun v4095 => decidable_of_iff' _ (Iff.of_eq (k0_chk373.eq_1 v4095))
theorem k0_off559_inb : ∀ (v4095 : BitVec 32) (k0_hw373 : k0_chk373 v4095), ∀ a, (k0_off559 v4095) a + S1x64.size a ≤ S50000x64.size a := fun v4095 k0_hw373 => k0_hw373

def k0_off560 (v4096 : BitVec 32) : Fin 2 → Nat :=
  let v4100 : Index := Scalar.indexCast v4096
  let c0_1304 : Index := 0#32
  ![v4100.toNat, 0]

def k0_off561 (v4096 : BitVec 32) : Fin 2 → Nat :=
  let v4108 : Index := Scalar.indexCast v4096
  let c0_1306 : Index := 0#32
  ![v4108.toNat, 0]

def k0_chk374 (v4096 : BitVec 32) : Prop :=
  (∀ a, (k0_off560 v4096) a + S1x64.size a ≤ S16384x64.size a) ∧
  (∀ a, (k0_off561 v4096) a + S1x1.size a ≤ S16384x1.size a)
instance k0_chk374.dec : ∀ (v4096 : BitVec 32), Decidable (k0_chk374 v4096) := fun v4096 => decidable_of_iff' _ (Iff.of_eq (k0_chk374.eq_1 v4096))
theorem k0_off560_inb : ∀ (v4096 : BitVec 32) (k0_hw374 : k0_chk374 v4096), ∀ a, (k0_off560 v4096) a + S1x64.size a ≤ S16384x64.size a := fun v4096 k0_hw374 => k0_hw374.1
theorem k0_off561_inb : ∀ (v4096 : BitVec 32) (k0_hw374 : k0_chk374 v4096), ∀ a, (k0_off561 v4096) a + S1x1.size a ≤ S16384x1.size a := fun v4096 k0_hw374 => k0_hw374.2

def k0_off562 (v4117 : BitVec 32) : Fin 2 → Nat :=
  let v4119 : Index := Scalar.indexCast v4117
  let c0_1310 : Index := 0#32
  ![v4119.toNat, 0]

def k0_chk375 (v4117 : BitVec 32) : Prop :=
  (∀ a, (k0_off562 v4117) a + S1x64.size a ≤ S50000x64.size a)
instance k0_chk375.dec : ∀ (v4117 : BitVec 32), Decidable (k0_chk375 v4117) := fun v4117 => decidable_of_iff' _ (Iff.of_eq (k0_chk375.eq_1 v4117))
theorem k0_off562_inb : ∀ (v4117 : BitVec 32) (k0_hw375 : k0_chk375 v4117), ∀ a, (k0_off562 v4117) a + S1x64.size a ≤ S50000x64.size a := fun v4117 k0_hw375 => k0_hw375

def k0_off563 (v4118 : BitVec 32) : Fin 2 → Nat :=
  let v4122 : Index := Scalar.indexCast v4118
  let c0_1311 : Index := 0#32
  ![v4122.toNat, 0]

def k0_off564 (v4118 : BitVec 32) : Fin 2 → Nat :=
  let v4130 : Index := Scalar.indexCast v4118
  let c0_1313 : Index := 0#32
  ![v4130.toNat, 0]

def k0_chk376 (v4118 : BitVec 32) : Prop :=
  (∀ a, (k0_off563 v4118) a + S1x64.size a ≤ S16384x64.size a) ∧
  (∀ a, (k0_off564 v4118) a + S1x1.size a ≤ S16384x1.size a)
instance k0_chk376.dec : ∀ (v4118 : BitVec 32), Decidable (k0_chk376 v4118) := fun v4118 => decidable_of_iff' _ (Iff.of_eq (k0_chk376.eq_1 v4118))
theorem k0_off563_inb : ∀ (v4118 : BitVec 32) (k0_hw376 : k0_chk376 v4118), ∀ a, (k0_off563 v4118) a + S1x64.size a ≤ S16384x64.size a := fun v4118 k0_hw376 => k0_hw376.1
theorem k0_off564_inb : ∀ (v4118 : BitVec 32) (k0_hw376 : k0_chk376 v4118), ∀ a, (k0_off564 v4118) a + S1x1.size a ≤ S16384x1.size a := fun v4118 k0_hw376 => k0_hw376.2

def k0_off565 (v4139 : BitVec 32) : Fin 2 → Nat :=
  let v4141 : Index := Scalar.indexCast v4139
  let c0_1317 : Index := 0#32
  ![v4141.toNat, 0]

def k0_chk377 (v4139 : BitVec 32) : Prop :=
  (∀ a, (k0_off565 v4139) a + S1x64.size a ≤ S50000x64.size a)
instance k0_chk377.dec : ∀ (v4139 : BitVec 32), Decidable (k0_chk377 v4139) := fun v4139 => decidable_of_iff' _ (Iff.of_eq (k0_chk377.eq_1 v4139))
theorem k0_off565_inb : ∀ (v4139 : BitVec 32) (k0_hw377 : k0_chk377 v4139), ∀ a, (k0_off565 v4139) a + S1x64.size a ≤ S50000x64.size a := fun v4139 k0_hw377 => k0_hw377

def k0_off566 (v4140 : BitVec 32) : Fin 2 → Nat :=
  let v4144 : Index := Scalar.indexCast v4140
  let c0_1318 : Index := 0#32
  ![v4144.toNat, 0]

def k0_off567 (v4140 : BitVec 32) : Fin 2 → Nat :=
  let v4152 : Index := Scalar.indexCast v4140
  let c0_1320 : Index := 0#32
  ![v4152.toNat, 0]

def k0_chk378 (v4140 : BitVec 32) : Prop :=
  (∀ a, (k0_off566 v4140) a + S1x64.size a ≤ S16384x64.size a) ∧
  (∀ a, (k0_off567 v4140) a + S1x1.size a ≤ S16384x1.size a)
instance k0_chk378.dec : ∀ (v4140 : BitVec 32), Decidable (k0_chk378 v4140) := fun v4140 => decidable_of_iff' _ (Iff.of_eq (k0_chk378.eq_1 v4140))
theorem k0_off566_inb : ∀ (v4140 : BitVec 32) (k0_hw378 : k0_chk378 v4140), ∀ a, (k0_off566 v4140) a + S1x64.size a ≤ S16384x64.size a := fun v4140 k0_hw378 => k0_hw378.1
theorem k0_off567_inb : ∀ (v4140 : BitVec 32) (k0_hw378 : k0_chk378 v4140), ∀ a, (k0_off567 v4140) a + S1x1.size a ≤ S16384x1.size a := fun v4140 k0_hw378 => k0_hw378.2

def k0_off568 (v4161 : BitVec 32) : Fin 2 → Nat :=
  let v4163 : Index := Scalar.indexCast v4161
  let c0_1324 : Index := 0#32
  ![v4163.toNat, 0]

def k0_chk379 (v4161 : BitVec 32) : Prop :=
  (∀ a, (k0_off568 v4161) a + S1x64.size a ≤ S50000x64.size a)
instance k0_chk379.dec : ∀ (v4161 : BitVec 32), Decidable (k0_chk379 v4161) := fun v4161 => decidable_of_iff' _ (Iff.of_eq (k0_chk379.eq_1 v4161))
theorem k0_off568_inb : ∀ (v4161 : BitVec 32) (k0_hw379 : k0_chk379 v4161), ∀ a, (k0_off568 v4161) a + S1x64.size a ≤ S50000x64.size a := fun v4161 k0_hw379 => k0_hw379

def k0_off569 (v4162 : BitVec 32) : Fin 2 → Nat :=
  let v4166 : Index := Scalar.indexCast v4162
  let c0_1325 : Index := 0#32
  ![v4166.toNat, 0]

def k0_off570 (v4162 : BitVec 32) : Fin 2 → Nat :=
  let v4174 : Index := Scalar.indexCast v4162
  let c0_1327 : Index := 0#32
  ![v4174.toNat, 0]

def k0_chk380 (v4162 : BitVec 32) : Prop :=
  (∀ a, (k0_off569 v4162) a + S1x64.size a ≤ S16384x64.size a) ∧
  (∀ a, (k0_off570 v4162) a + S1x1.size a ≤ S16384x1.size a)
instance k0_chk380.dec : ∀ (v4162 : BitVec 32), Decidable (k0_chk380 v4162) := fun v4162 => decidable_of_iff' _ (Iff.of_eq (k0_chk380.eq_1 v4162))
theorem k0_off569_inb : ∀ (v4162 : BitVec 32) (k0_hw380 : k0_chk380 v4162), ∀ a, (k0_off569 v4162) a + S1x64.size a ≤ S16384x64.size a := fun v4162 k0_hw380 => k0_hw380.1
theorem k0_off570_inb : ∀ (v4162 : BitVec 32) (k0_hw380 : k0_chk380 v4162), ∀ a, (k0_off570 v4162) a + S1x1.size a ≤ S16384x1.size a := fun v4162 k0_hw380 => k0_hw380.2

def k0_off571 (v4183 : BitVec 32) : Fin 2 → Nat :=
  let v4185 : Index := Scalar.indexCast v4183
  let c0_1331 : Index := 0#32
  ![v4185.toNat, 0]

def k0_chk381 (v4183 : BitVec 32) : Prop :=
  (∀ a, (k0_off571 v4183) a + S1x64.size a ≤ S50000x64.size a)
instance k0_chk381.dec : ∀ (v4183 : BitVec 32), Decidable (k0_chk381 v4183) := fun v4183 => decidable_of_iff' _ (Iff.of_eq (k0_chk381.eq_1 v4183))
theorem k0_off571_inb : ∀ (v4183 : BitVec 32) (k0_hw381 : k0_chk381 v4183), ∀ a, (k0_off571 v4183) a + S1x64.size a ≤ S50000x64.size a := fun v4183 k0_hw381 => k0_hw381

def k0_off572 (v4184 : BitVec 32) : Fin 2 → Nat :=
  let v4188 : Index := Scalar.indexCast v4184
  let c0_1332 : Index := 0#32
  ![v4188.toNat, 0]

def k0_off573 (v4184 : BitVec 32) : Fin 2 → Nat :=
  let v4196 : Index := Scalar.indexCast v4184
  let c0_1334 : Index := 0#32
  ![v4196.toNat, 0]

def k0_chk382 (v4184 : BitVec 32) : Prop :=
  (∀ a, (k0_off572 v4184) a + S1x64.size a ≤ S16384x64.size a) ∧
  (∀ a, (k0_off573 v4184) a + S1x1.size a ≤ S16384x1.size a)
instance k0_chk382.dec : ∀ (v4184 : BitVec 32), Decidable (k0_chk382 v4184) := fun v4184 => decidable_of_iff' _ (Iff.of_eq (k0_chk382.eq_1 v4184))
theorem k0_off572_inb : ∀ (v4184 : BitVec 32) (k0_hw382 : k0_chk382 v4184), ∀ a, (k0_off572 v4184) a + S1x64.size a ≤ S16384x64.size a := fun v4184 k0_hw382 => k0_hw382.1
theorem k0_off573_inb : ∀ (v4184 : BitVec 32) (k0_hw382 : k0_chk382 v4184), ∀ a, (k0_off573 v4184) a + S1x1.size a ≤ S16384x1.size a := fun v4184 k0_hw382 => k0_hw382.2

def k0_off574 (v4205 : BitVec 32) : Fin 2 → Nat :=
  let v4207 : Index := Scalar.indexCast v4205
  let c0_1338 : Index := 0#32
  ![v4207.toNat, 0]

def k0_chk383 (v4205 : BitVec 32) : Prop :=
  (∀ a, (k0_off574 v4205) a + S1x64.size a ≤ S50000x64.size a)
instance k0_chk383.dec : ∀ (v4205 : BitVec 32), Decidable (k0_chk383 v4205) := fun v4205 => decidable_of_iff' _ (Iff.of_eq (k0_chk383.eq_1 v4205))
theorem k0_off574_inb : ∀ (v4205 : BitVec 32) (k0_hw383 : k0_chk383 v4205), ∀ a, (k0_off574 v4205) a + S1x64.size a ≤ S50000x64.size a := fun v4205 k0_hw383 => k0_hw383

def k0_off575 (v4206 : BitVec 32) : Fin 2 → Nat :=
  let v4210 : Index := Scalar.indexCast v4206
  let c0_1339 : Index := 0#32
  ![v4210.toNat, 0]

def k0_off576 (v4206 : BitVec 32) : Fin 2 → Nat :=
  let v4218 : Index := Scalar.indexCast v4206
  let c0_1341 : Index := 0#32
  ![v4218.toNat, 0]

def k0_chk384 (v4206 : BitVec 32) : Prop :=
  (∀ a, (k0_off575 v4206) a + S1x64.size a ≤ S16384x64.size a) ∧
  (∀ a, (k0_off576 v4206) a + S1x1.size a ≤ S16384x1.size a)
instance k0_chk384.dec : ∀ (v4206 : BitVec 32), Decidable (k0_chk384 v4206) := fun v4206 => decidable_of_iff' _ (Iff.of_eq (k0_chk384.eq_1 v4206))
theorem k0_off575_inb : ∀ (v4206 : BitVec 32) (k0_hw384 : k0_chk384 v4206), ∀ a, (k0_off575 v4206) a + S1x64.size a ≤ S16384x64.size a := fun v4206 k0_hw384 => k0_hw384.1
theorem k0_off576_inb : ∀ (v4206 : BitVec 32) (k0_hw384 : k0_chk384 v4206), ∀ a, (k0_off576 v4206) a + S1x1.size a ≤ S16384x1.size a := fun v4206 k0_hw384 => k0_hw384.2

def k0_off577 (v4227 : BitVec 32) : Fin 2 → Nat :=
  let v4229 : Index := Scalar.indexCast v4227
  let c0_1345 : Index := 0#32
  ![v4229.toNat, 0]

def k0_chk385 (v4227 : BitVec 32) : Prop :=
  (∀ a, (k0_off577 v4227) a + S1x64.size a ≤ S50000x64.size a)
instance k0_chk385.dec : ∀ (v4227 : BitVec 32), Decidable (k0_chk385 v4227) := fun v4227 => decidable_of_iff' _ (Iff.of_eq (k0_chk385.eq_1 v4227))
theorem k0_off577_inb : ∀ (v4227 : BitVec 32) (k0_hw385 : k0_chk385 v4227), ∀ a, (k0_off577 v4227) a + S1x64.size a ≤ S50000x64.size a := fun v4227 k0_hw385 => k0_hw385

def k0_off578 (v4228 : BitVec 32) : Fin 2 → Nat :=
  let v4232 : Index := Scalar.indexCast v4228
  let c0_1346 : Index := 0#32
  ![v4232.toNat, 0]

def k0_off579 (v4228 : BitVec 32) : Fin 2 → Nat :=
  let v4240 : Index := Scalar.indexCast v4228
  let c0_1348 : Index := 0#32
  ![v4240.toNat, 0]

def k0_chk386 (v4228 : BitVec 32) : Prop :=
  (∀ a, (k0_off578 v4228) a + S1x64.size a ≤ S16384x64.size a) ∧
  (∀ a, (k0_off579 v4228) a + S1x1.size a ≤ S16384x1.size a)
instance k0_chk386.dec : ∀ (v4228 : BitVec 32), Decidable (k0_chk386 v4228) := fun v4228 => decidable_of_iff' _ (Iff.of_eq (k0_chk386.eq_1 v4228))
theorem k0_off578_inb : ∀ (v4228 : BitVec 32) (k0_hw386 : k0_chk386 v4228), ∀ a, (k0_off578 v4228) a + S1x64.size a ≤ S16384x64.size a := fun v4228 k0_hw386 => k0_hw386.1
theorem k0_off579_inb : ∀ (v4228 : BitVec 32) (k0_hw386 : k0_chk386 v4228), ∀ a, (k0_off579 v4228) a + S1x1.size a ≤ S16384x1.size a := fun v4228 k0_hw386 => k0_hw386.2

def k0_off580 (v4249 : BitVec 32) : Fin 2 → Nat :=
  let v4251 : Index := Scalar.indexCast v4249
  let c0_1352 : Index := 0#32
  ![v4251.toNat, 0]

def k0_chk387 (v4249 : BitVec 32) : Prop :=
  (∀ a, (k0_off580 v4249) a + S1x64.size a ≤ S50000x64.size a)
instance k0_chk387.dec : ∀ (v4249 : BitVec 32), Decidable (k0_chk387 v4249) := fun v4249 => decidable_of_iff' _ (Iff.of_eq (k0_chk387.eq_1 v4249))
theorem k0_off580_inb : ∀ (v4249 : BitVec 32) (k0_hw387 : k0_chk387 v4249), ∀ a, (k0_off580 v4249) a + S1x64.size a ≤ S50000x64.size a := fun v4249 k0_hw387 => k0_hw387

def k0_off581 (v4250 : BitVec 32) : Fin 2 → Nat :=
  let v4254 : Index := Scalar.indexCast v4250
  let c0_1353 : Index := 0#32
  ![v4254.toNat, 0]

def k0_off582 (v4250 : BitVec 32) : Fin 2 → Nat :=
  let v4262 : Index := Scalar.indexCast v4250
  let c0_1355 : Index := 0#32
  ![v4262.toNat, 0]

def k0_chk388 (v4250 : BitVec 32) : Prop :=
  (∀ a, (k0_off581 v4250) a + S1x64.size a ≤ S16384x64.size a) ∧
  (∀ a, (k0_off582 v4250) a + S1x1.size a ≤ S16384x1.size a)
instance k0_chk388.dec : ∀ (v4250 : BitVec 32), Decidable (k0_chk388 v4250) := fun v4250 => decidable_of_iff' _ (Iff.of_eq (k0_chk388.eq_1 v4250))
theorem k0_off581_inb : ∀ (v4250 : BitVec 32) (k0_hw388 : k0_chk388 v4250), ∀ a, (k0_off581 v4250) a + S1x64.size a ≤ S16384x64.size a := fun v4250 k0_hw388 => k0_hw388.1
theorem k0_off582_inb : ∀ (v4250 : BitVec 32) (k0_hw388 : k0_chk388 v4250), ∀ a, (k0_off582 v4250) a + S1x1.size a ≤ S16384x1.size a := fun v4250 k0_hw388 => k0_hw388.2

def k0_off583 (v4271 : BitVec 32) : Fin 2 → Nat :=
  let v4273 : Index := Scalar.indexCast v4271
  let c0_1359 : Index := 0#32
  ![v4273.toNat, 0]

def k0_chk389 (v4271 : BitVec 32) : Prop :=
  (∀ a, (k0_off583 v4271) a + S1x64.size a ≤ S50000x64.size a)
instance k0_chk389.dec : ∀ (v4271 : BitVec 32), Decidable (k0_chk389 v4271) := fun v4271 => decidable_of_iff' _ (Iff.of_eq (k0_chk389.eq_1 v4271))
theorem k0_off583_inb : ∀ (v4271 : BitVec 32) (k0_hw389 : k0_chk389 v4271), ∀ a, (k0_off583 v4271) a + S1x64.size a ≤ S50000x64.size a := fun v4271 k0_hw389 => k0_hw389

def k0_off584 (v4272 : BitVec 32) : Fin 2 → Nat :=
  let v4276 : Index := Scalar.indexCast v4272
  let c0_1360 : Index := 0#32
  ![v4276.toNat, 0]

def k0_off585 (v4272 : BitVec 32) : Fin 2 → Nat :=
  let v4284 : Index := Scalar.indexCast v4272
  let c0_1362 : Index := 0#32
  ![v4284.toNat, 0]

def k0_chk390 (v4272 : BitVec 32) : Prop :=
  (∀ a, (k0_off584 v4272) a + S1x64.size a ≤ S16384x64.size a) ∧
  (∀ a, (k0_off585 v4272) a + S1x1.size a ≤ S16384x1.size a)
instance k0_chk390.dec : ∀ (v4272 : BitVec 32), Decidable (k0_chk390 v4272) := fun v4272 => decidable_of_iff' _ (Iff.of_eq (k0_chk390.eq_1 v4272))
theorem k0_off584_inb : ∀ (v4272 : BitVec 32) (k0_hw390 : k0_chk390 v4272), ∀ a, (k0_off584 v4272) a + S1x64.size a ≤ S16384x64.size a := fun v4272 k0_hw390 => k0_hw390.1
theorem k0_off585_inb : ∀ (v4272 : BitVec 32) (k0_hw390 : k0_chk390 v4272), ∀ a, (k0_off585 v4272) a + S1x1.size a ≤ S16384x1.size a := fun v4272 k0_hw390 => k0_hw390.2

def k0_off586 (v4293 : BitVec 32) : Fin 2 → Nat :=
  let v4295 : Index := Scalar.indexCast v4293
  let c0_1366 : Index := 0#32
  ![v4295.toNat, 0]

def k0_chk391 (v4293 : BitVec 32) : Prop :=
  (∀ a, (k0_off586 v4293) a + S1x64.size a ≤ S50000x64.size a)
instance k0_chk391.dec : ∀ (v4293 : BitVec 32), Decidable (k0_chk391 v4293) := fun v4293 => decidable_of_iff' _ (Iff.of_eq (k0_chk391.eq_1 v4293))
theorem k0_off586_inb : ∀ (v4293 : BitVec 32) (k0_hw391 : k0_chk391 v4293), ∀ a, (k0_off586 v4293) a + S1x64.size a ≤ S50000x64.size a := fun v4293 k0_hw391 => k0_hw391

def k0_off587 (v4294 : BitVec 32) : Fin 2 → Nat :=
  let v4298 : Index := Scalar.indexCast v4294
  let c0_1367 : Index := 0#32
  ![v4298.toNat, 0]

def k0_off588 (v4294 : BitVec 32) : Fin 2 → Nat :=
  let v4306 : Index := Scalar.indexCast v4294
  let c0_1369 : Index := 0#32
  ![v4306.toNat, 0]

def k0_chk392 (v4294 : BitVec 32) : Prop :=
  (∀ a, (k0_off587 v4294) a + S1x64.size a ≤ S16384x64.size a) ∧
  (∀ a, (k0_off588 v4294) a + S1x1.size a ≤ S16384x1.size a)
instance k0_chk392.dec : ∀ (v4294 : BitVec 32), Decidable (k0_chk392 v4294) := fun v4294 => decidable_of_iff' _ (Iff.of_eq (k0_chk392.eq_1 v4294))
theorem k0_off587_inb : ∀ (v4294 : BitVec 32) (k0_hw392 : k0_chk392 v4294), ∀ a, (k0_off587 v4294) a + S1x64.size a ≤ S16384x64.size a := fun v4294 k0_hw392 => k0_hw392.1
theorem k0_off588_inb : ∀ (v4294 : BitVec 32) (k0_hw392 : k0_chk392 v4294), ∀ a, (k0_off588 v4294) a + S1x1.size a ≤ S16384x1.size a := fun v4294 k0_hw392 => k0_hw392.2

def k0_off589 (v4315 : BitVec 32) : Fin 2 → Nat :=
  let v4317 : Index := Scalar.indexCast v4315
  let c0_1373 : Index := 0#32
  ![v4317.toNat, 0]

def k0_chk393 (v4315 : BitVec 32) : Prop :=
  (∀ a, (k0_off589 v4315) a + S1x64.size a ≤ S50000x64.size a)
instance k0_chk393.dec : ∀ (v4315 : BitVec 32), Decidable (k0_chk393 v4315) := fun v4315 => decidable_of_iff' _ (Iff.of_eq (k0_chk393.eq_1 v4315))
theorem k0_off589_inb : ∀ (v4315 : BitVec 32) (k0_hw393 : k0_chk393 v4315), ∀ a, (k0_off589 v4315) a + S1x64.size a ≤ S50000x64.size a := fun v4315 k0_hw393 => k0_hw393

def k0_off590 (v4316 : BitVec 32) : Fin 2 → Nat :=
  let v4320 : Index := Scalar.indexCast v4316
  let c0_1374 : Index := 0#32
  ![v4320.toNat, 0]

def k0_off591 (v4316 : BitVec 32) : Fin 2 → Nat :=
  let v4328 : Index := Scalar.indexCast v4316
  let c0_1376 : Index := 0#32
  ![v4328.toNat, 0]

def k0_chk394 (v4316 : BitVec 32) : Prop :=
  (∀ a, (k0_off590 v4316) a + S1x64.size a ≤ S16384x64.size a) ∧
  (∀ a, (k0_off591 v4316) a + S1x1.size a ≤ S16384x1.size a)
instance k0_chk394.dec : ∀ (v4316 : BitVec 32), Decidable (k0_chk394 v4316) := fun v4316 => decidable_of_iff' _ (Iff.of_eq (k0_chk394.eq_1 v4316))
theorem k0_off590_inb : ∀ (v4316 : BitVec 32) (k0_hw394 : k0_chk394 v4316), ∀ a, (k0_off590 v4316) a + S1x64.size a ≤ S16384x64.size a := fun v4316 k0_hw394 => k0_hw394.1
theorem k0_off591_inb : ∀ (v4316 : BitVec 32) (k0_hw394 : k0_chk394 v4316), ∀ a, (k0_off591 v4316) a + S1x1.size a ≤ S16384x1.size a := fun v4316 k0_hw394 => k0_hw394.2

def k0_off592 (v4337 : BitVec 32) : Fin 2 → Nat :=
  let v4339 : Index := Scalar.indexCast v4337
  let c0_1380 : Index := 0#32
  ![v4339.toNat, 0]

def k0_chk395 (v4337 : BitVec 32) : Prop :=
  (∀ a, (k0_off592 v4337) a + S1x64.size a ≤ S50000x64.size a)
instance k0_chk395.dec : ∀ (v4337 : BitVec 32), Decidable (k0_chk395 v4337) := fun v4337 => decidable_of_iff' _ (Iff.of_eq (k0_chk395.eq_1 v4337))
theorem k0_off592_inb : ∀ (v4337 : BitVec 32) (k0_hw395 : k0_chk395 v4337), ∀ a, (k0_off592 v4337) a + S1x64.size a ≤ S50000x64.size a := fun v4337 k0_hw395 => k0_hw395

def k0_off593 (v4338 : BitVec 32) : Fin 2 → Nat :=
  let v4342 : Index := Scalar.indexCast v4338
  let c0_1381 : Index := 0#32
  ![v4342.toNat, 0]

def k0_off594 (v4338 : BitVec 32) : Fin 2 → Nat :=
  let v4350 : Index := Scalar.indexCast v4338
  let c0_1383 : Index := 0#32
  ![v4350.toNat, 0]

def k0_chk396 (v4338 : BitVec 32) : Prop :=
  (∀ a, (k0_off593 v4338) a + S1x64.size a ≤ S16384x64.size a) ∧
  (∀ a, (k0_off594 v4338) a + S1x1.size a ≤ S16384x1.size a)
instance k0_chk396.dec : ∀ (v4338 : BitVec 32), Decidable (k0_chk396 v4338) := fun v4338 => decidable_of_iff' _ (Iff.of_eq (k0_chk396.eq_1 v4338))
theorem k0_off593_inb : ∀ (v4338 : BitVec 32) (k0_hw396 : k0_chk396 v4338), ∀ a, (k0_off593 v4338) a + S1x64.size a ≤ S16384x64.size a := fun v4338 k0_hw396 => k0_hw396.1
theorem k0_off594_inb : ∀ (v4338 : BitVec 32) (k0_hw396 : k0_chk396 v4338), ∀ a, (k0_off594 v4338) a + S1x1.size a ≤ S16384x1.size a := fun v4338 k0_hw396 => k0_hw396.2

def k0_off595 (v4359 : BitVec 32) : Fin 2 → Nat :=
  let v4361 : Index := Scalar.indexCast v4359
  let c0_1387 : Index := 0#32
  ![v4361.toNat, 0]

def k0_chk397 (v4359 : BitVec 32) : Prop :=
  (∀ a, (k0_off595 v4359) a + S1x64.size a ≤ S50000x64.size a)
instance k0_chk397.dec : ∀ (v4359 : BitVec 32), Decidable (k0_chk397 v4359) := fun v4359 => decidable_of_iff' _ (Iff.of_eq (k0_chk397.eq_1 v4359))
theorem k0_off595_inb : ∀ (v4359 : BitVec 32) (k0_hw397 : k0_chk397 v4359), ∀ a, (k0_off595 v4359) a + S1x64.size a ≤ S50000x64.size a := fun v4359 k0_hw397 => k0_hw397

def k0_off596 (v4360 : BitVec 32) : Fin 2 → Nat :=
  let v4364 : Index := Scalar.indexCast v4360
  let c0_1388 : Index := 0#32
  ![v4364.toNat, 0]

def k0_off597 (v4360 : BitVec 32) : Fin 2 → Nat :=
  let v4372 : Index := Scalar.indexCast v4360
  let c0_1390 : Index := 0#32
  ![v4372.toNat, 0]

def k0_chk398 (v4360 : BitVec 32) : Prop :=
  (∀ a, (k0_off596 v4360) a + S1x64.size a ≤ S16384x64.size a) ∧
  (∀ a, (k0_off597 v4360) a + S1x1.size a ≤ S16384x1.size a)
instance k0_chk398.dec : ∀ (v4360 : BitVec 32), Decidable (k0_chk398 v4360) := fun v4360 => decidable_of_iff' _ (Iff.of_eq (k0_chk398.eq_1 v4360))
theorem k0_off596_inb : ∀ (v4360 : BitVec 32) (k0_hw398 : k0_chk398 v4360), ∀ a, (k0_off596 v4360) a + S1x64.size a ≤ S16384x64.size a := fun v4360 k0_hw398 => k0_hw398.1
theorem k0_off597_inb : ∀ (v4360 : BitVec 32) (k0_hw398 : k0_chk398 v4360), ∀ a, (k0_off597 v4360) a + S1x1.size a ≤ S16384x1.size a := fun v4360 k0_hw398 => k0_hw398.2

def k0_off598 (v4381 : BitVec 32) : Fin 2 → Nat :=
  let v4383 : Index := Scalar.indexCast v4381
  let c0_1394 : Index := 0#32
  ![v4383.toNat, 0]

def k0_chk399 (v4381 : BitVec 32) : Prop :=
  (∀ a, (k0_off598 v4381) a + S1x64.size a ≤ S50000x64.size a)
instance k0_chk399.dec : ∀ (v4381 : BitVec 32), Decidable (k0_chk399 v4381) := fun v4381 => decidable_of_iff' _ (Iff.of_eq (k0_chk399.eq_1 v4381))
theorem k0_off598_inb : ∀ (v4381 : BitVec 32) (k0_hw399 : k0_chk399 v4381), ∀ a, (k0_off598 v4381) a + S1x64.size a ≤ S50000x64.size a := fun v4381 k0_hw399 => k0_hw399

def k0_off599 (v4382 : BitVec 32) : Fin 2 → Nat :=
  let v4386 : Index := Scalar.indexCast v4382
  let c0_1395 : Index := 0#32
  ![v4386.toNat, 0]

def k0_off600 (v4382 : BitVec 32) : Fin 2 → Nat :=
  let v4394 : Index := Scalar.indexCast v4382
  let c0_1397 : Index := 0#32
  ![v4394.toNat, 0]

def k0_chk400 (v4382 : BitVec 32) : Prop :=
  (∀ a, (k0_off599 v4382) a + S1x64.size a ≤ S16384x64.size a) ∧
  (∀ a, (k0_off600 v4382) a + S1x1.size a ≤ S16384x1.size a)
instance k0_chk400.dec : ∀ (v4382 : BitVec 32), Decidable (k0_chk400 v4382) := fun v4382 => decidable_of_iff' _ (Iff.of_eq (k0_chk400.eq_1 v4382))
theorem k0_off599_inb : ∀ (v4382 : BitVec 32) (k0_hw400 : k0_chk400 v4382), ∀ a, (k0_off599 v4382) a + S1x64.size a ≤ S16384x64.size a := fun v4382 k0_hw400 => k0_hw400.1
theorem k0_off600_inb : ∀ (v4382 : BitVec 32) (k0_hw400 : k0_chk400 v4382), ∀ a, (k0_off600 v4382) a + S1x1.size a ≤ S16384x1.size a := fun v4382 k0_hw400 => k0_hw400.2

def k0_off601 (v4403 : BitVec 32) : Fin 2 → Nat :=
  let v4405 : Index := Scalar.indexCast v4403
  let c0_1401 : Index := 0#32
  ![v4405.toNat, 0]

def k0_chk401 (v4403 : BitVec 32) : Prop :=
  (∀ a, (k0_off601 v4403) a + S1x64.size a ≤ S50000x64.size a)
instance k0_chk401.dec : ∀ (v4403 : BitVec 32), Decidable (k0_chk401 v4403) := fun v4403 => decidable_of_iff' _ (Iff.of_eq (k0_chk401.eq_1 v4403))
theorem k0_off601_inb : ∀ (v4403 : BitVec 32) (k0_hw401 : k0_chk401 v4403), ∀ a, (k0_off601 v4403) a + S1x64.size a ≤ S50000x64.size a := fun v4403 k0_hw401 => k0_hw401

def k0_off602 (v4404 : BitVec 32) : Fin 2 → Nat :=
  let v4408 : Index := Scalar.indexCast v4404
  let c0_1402 : Index := 0#32
  ![v4408.toNat, 0]

def k0_off603 (v4404 : BitVec 32) : Fin 2 → Nat :=
  let v4416 : Index := Scalar.indexCast v4404
  let c0_1404 : Index := 0#32
  ![v4416.toNat, 0]

def k0_chk402 (v4404 : BitVec 32) : Prop :=
  (∀ a, (k0_off602 v4404) a + S1x64.size a ≤ S16384x64.size a) ∧
  (∀ a, (k0_off603 v4404) a + S1x1.size a ≤ S16384x1.size a)
instance k0_chk402.dec : ∀ (v4404 : BitVec 32), Decidable (k0_chk402 v4404) := fun v4404 => decidable_of_iff' _ (Iff.of_eq (k0_chk402.eq_1 v4404))
theorem k0_off602_inb : ∀ (v4404 : BitVec 32) (k0_hw402 : k0_chk402 v4404), ∀ a, (k0_off602 v4404) a + S1x64.size a ≤ S16384x64.size a := fun v4404 k0_hw402 => k0_hw402.1
theorem k0_off603_inb : ∀ (v4404 : BitVec 32) (k0_hw402 : k0_chk402 v4404), ∀ a, (k0_off603 v4404) a + S1x1.size a ≤ S16384x1.size a := fun v4404 k0_hw402 => k0_hw402.2

def k0_off604 (v4425 : BitVec 32) : Fin 2 → Nat :=
  let v4427 : Index := Scalar.indexCast v4425
  let c0_1408 : Index := 0#32
  ![v4427.toNat, 0]

def k0_chk403 (v4425 : BitVec 32) : Prop :=
  (∀ a, (k0_off604 v4425) a + S1x64.size a ≤ S50000x64.size a)
instance k0_chk403.dec : ∀ (v4425 : BitVec 32), Decidable (k0_chk403 v4425) := fun v4425 => decidable_of_iff' _ (Iff.of_eq (k0_chk403.eq_1 v4425))
theorem k0_off604_inb : ∀ (v4425 : BitVec 32) (k0_hw403 : k0_chk403 v4425), ∀ a, (k0_off604 v4425) a + S1x64.size a ≤ S50000x64.size a := fun v4425 k0_hw403 => k0_hw403

def k0_off605 (v4426 : BitVec 32) : Fin 2 → Nat :=
  let v4430 : Index := Scalar.indexCast v4426
  let c0_1409 : Index := 0#32
  ![v4430.toNat, 0]

def k0_off606 (v4426 : BitVec 32) : Fin 2 → Nat :=
  let v4438 : Index := Scalar.indexCast v4426
  let c0_1411 : Index := 0#32
  ![v4438.toNat, 0]

def k0_chk404 (v4426 : BitVec 32) : Prop :=
  (∀ a, (k0_off605 v4426) a + S1x64.size a ≤ S16384x64.size a) ∧
  (∀ a, (k0_off606 v4426) a + S1x1.size a ≤ S16384x1.size a)
instance k0_chk404.dec : ∀ (v4426 : BitVec 32), Decidable (k0_chk404 v4426) := fun v4426 => decidable_of_iff' _ (Iff.of_eq (k0_chk404.eq_1 v4426))
theorem k0_off605_inb : ∀ (v4426 : BitVec 32) (k0_hw404 : k0_chk404 v4426), ∀ a, (k0_off605 v4426) a + S1x64.size a ≤ S16384x64.size a := fun v4426 k0_hw404 => k0_hw404.1
theorem k0_off606_inb : ∀ (v4426 : BitVec 32) (k0_hw404 : k0_chk404 v4426), ∀ a, (k0_off606 v4426) a + S1x1.size a ≤ S16384x1.size a := fun v4426 k0_hw404 => k0_hw404.2

def k0_off607 (v4447 : BitVec 32) : Fin 2 → Nat :=
  let v4449 : Index := Scalar.indexCast v4447
  let c0_1415 : Index := 0#32
  ![v4449.toNat, 0]

def k0_chk405 (v4447 : BitVec 32) : Prop :=
  (∀ a, (k0_off607 v4447) a + S1x64.size a ≤ S50000x64.size a)
instance k0_chk405.dec : ∀ (v4447 : BitVec 32), Decidable (k0_chk405 v4447) := fun v4447 => decidable_of_iff' _ (Iff.of_eq (k0_chk405.eq_1 v4447))
theorem k0_off607_inb : ∀ (v4447 : BitVec 32) (k0_hw405 : k0_chk405 v4447), ∀ a, (k0_off607 v4447) a + S1x64.size a ≤ S50000x64.size a := fun v4447 k0_hw405 => k0_hw405

def k0_off608 (v4448 : BitVec 32) : Fin 2 → Nat :=
  let v4452 : Index := Scalar.indexCast v4448
  let c0_1416 : Index := 0#32
  ![v4452.toNat, 0]

def k0_off609 (v4448 : BitVec 32) : Fin 2 → Nat :=
  let v4460 : Index := Scalar.indexCast v4448
  let c0_1418 : Index := 0#32
  ![v4460.toNat, 0]

def k0_chk406 (v4448 : BitVec 32) : Prop :=
  (∀ a, (k0_off608 v4448) a + S1x64.size a ≤ S16384x64.size a) ∧
  (∀ a, (k0_off609 v4448) a + S1x1.size a ≤ S16384x1.size a)
instance k0_chk406.dec : ∀ (v4448 : BitVec 32), Decidable (k0_chk406 v4448) := fun v4448 => decidable_of_iff' _ (Iff.of_eq (k0_chk406.eq_1 v4448))
theorem k0_off608_inb : ∀ (v4448 : BitVec 32) (k0_hw406 : k0_chk406 v4448), ∀ a, (k0_off608 v4448) a + S1x64.size a ≤ S16384x64.size a := fun v4448 k0_hw406 => k0_hw406.1
theorem k0_off609_inb : ∀ (v4448 : BitVec 32) (k0_hw406 : k0_chk406 v4448), ∀ a, (k0_off609 v4448) a + S1x1.size a ≤ S16384x1.size a := fun v4448 k0_hw406 => k0_hw406.2

def k0_off610 (v4469 : BitVec 32) : Fin 2 → Nat :=
  let v4471 : Index := Scalar.indexCast v4469
  let c0_1422 : Index := 0#32
  ![v4471.toNat, 0]

def k0_chk407 (v4469 : BitVec 32) : Prop :=
  (∀ a, (k0_off610 v4469) a + S1x64.size a ≤ S50000x64.size a)
instance k0_chk407.dec : ∀ (v4469 : BitVec 32), Decidable (k0_chk407 v4469) := fun v4469 => decidable_of_iff' _ (Iff.of_eq (k0_chk407.eq_1 v4469))
theorem k0_off610_inb : ∀ (v4469 : BitVec 32) (k0_hw407 : k0_chk407 v4469), ∀ a, (k0_off610 v4469) a + S1x64.size a ≤ S50000x64.size a := fun v4469 k0_hw407 => k0_hw407

def k0_off611 (v4470 : BitVec 32) : Fin 2 → Nat :=
  let v4474 : Index := Scalar.indexCast v4470
  let c0_1423 : Index := 0#32
  ![v4474.toNat, 0]

def k0_off612 (v4470 : BitVec 32) : Fin 2 → Nat :=
  let v4482 : Index := Scalar.indexCast v4470
  let c0_1425 : Index := 0#32
  ![v4482.toNat, 0]

def k0_chk408 (v4470 : BitVec 32) : Prop :=
  (∀ a, (k0_off611 v4470) a + S1x64.size a ≤ S16384x64.size a) ∧
  (∀ a, (k0_off612 v4470) a + S1x1.size a ≤ S16384x1.size a)
instance k0_chk408.dec : ∀ (v4470 : BitVec 32), Decidable (k0_chk408 v4470) := fun v4470 => decidable_of_iff' _ (Iff.of_eq (k0_chk408.eq_1 v4470))
theorem k0_off611_inb : ∀ (v4470 : BitVec 32) (k0_hw408 : k0_chk408 v4470), ∀ a, (k0_off611 v4470) a + S1x64.size a ≤ S16384x64.size a := fun v4470 k0_hw408 => k0_hw408.1
theorem k0_off612_inb : ∀ (v4470 : BitVec 32) (k0_hw408 : k0_chk408 v4470), ∀ a, (k0_off612 v4470) a + S1x1.size a ≤ S16384x1.size a := fun v4470 k0_hw408 => k0_hw408.2

def k0_off613 (v4491 : BitVec 32) : Fin 2 → Nat :=
  let v4493 : Index := Scalar.indexCast v4491
  let c0_1429 : Index := 0#32
  ![v4493.toNat, 0]

def k0_chk409 (v4491 : BitVec 32) : Prop :=
  (∀ a, (k0_off613 v4491) a + S1x64.size a ≤ S50000x64.size a)
instance k0_chk409.dec : ∀ (v4491 : BitVec 32), Decidable (k0_chk409 v4491) := fun v4491 => decidable_of_iff' _ (Iff.of_eq (k0_chk409.eq_1 v4491))
theorem k0_off613_inb : ∀ (v4491 : BitVec 32) (k0_hw409 : k0_chk409 v4491), ∀ a, (k0_off613 v4491) a + S1x64.size a ≤ S50000x64.size a := fun v4491 k0_hw409 => k0_hw409

def k0_off614 (v4492 : BitVec 32) : Fin 2 → Nat :=
  let v4496 : Index := Scalar.indexCast v4492
  let c0_1430 : Index := 0#32
  ![v4496.toNat, 0]

def k0_off615 (v4492 : BitVec 32) : Fin 2 → Nat :=
  let v4504 : Index := Scalar.indexCast v4492
  let c0_1432 : Index := 0#32
  ![v4504.toNat, 0]

def k0_chk410 (v4492 : BitVec 32) : Prop :=
  (∀ a, (k0_off614 v4492) a + S1x64.size a ≤ S16384x64.size a) ∧
  (∀ a, (k0_off615 v4492) a + S1x1.size a ≤ S16384x1.size a)
instance k0_chk410.dec : ∀ (v4492 : BitVec 32), Decidable (k0_chk410 v4492) := fun v4492 => decidable_of_iff' _ (Iff.of_eq (k0_chk410.eq_1 v4492))
theorem k0_off614_inb : ∀ (v4492 : BitVec 32) (k0_hw410 : k0_chk410 v4492), ∀ a, (k0_off614 v4492) a + S1x64.size a ≤ S16384x64.size a := fun v4492 k0_hw410 => k0_hw410.1
theorem k0_off615_inb : ∀ (v4492 : BitVec 32) (k0_hw410 : k0_chk410 v4492), ∀ a, (k0_off615 v4492) a + S1x1.size a ≤ S16384x1.size a := fun v4492 k0_hw410 => k0_hw410.2

def k0_off616 (v4513 : BitVec 32) : Fin 2 → Nat :=
  let v4515 : Index := Scalar.indexCast v4513
  let c0_1436 : Index := 0#32
  ![v4515.toNat, 0]

def k0_chk411 (v4513 : BitVec 32) : Prop :=
  (∀ a, (k0_off616 v4513) a + S1x64.size a ≤ S50000x64.size a)
instance k0_chk411.dec : ∀ (v4513 : BitVec 32), Decidable (k0_chk411 v4513) := fun v4513 => decidable_of_iff' _ (Iff.of_eq (k0_chk411.eq_1 v4513))
theorem k0_off616_inb : ∀ (v4513 : BitVec 32) (k0_hw411 : k0_chk411 v4513), ∀ a, (k0_off616 v4513) a + S1x64.size a ≤ S50000x64.size a := fun v4513 k0_hw411 => k0_hw411

def k0_off617 (v4514 : BitVec 32) : Fin 2 → Nat :=
  let v4518 : Index := Scalar.indexCast v4514
  let c0_1437 : Index := 0#32
  ![v4518.toNat, 0]

def k0_off618 (v4514 : BitVec 32) : Fin 2 → Nat :=
  let v4526 : Index := Scalar.indexCast v4514
  let c0_1439 : Index := 0#32
  ![v4526.toNat, 0]

def k0_chk412 (v4514 : BitVec 32) : Prop :=
  (∀ a, (k0_off617 v4514) a + S1x64.size a ≤ S16384x64.size a) ∧
  (∀ a, (k0_off618 v4514) a + S1x1.size a ≤ S16384x1.size a)
instance k0_chk412.dec : ∀ (v4514 : BitVec 32), Decidable (k0_chk412 v4514) := fun v4514 => decidable_of_iff' _ (Iff.of_eq (k0_chk412.eq_1 v4514))
theorem k0_off617_inb : ∀ (v4514 : BitVec 32) (k0_hw412 : k0_chk412 v4514), ∀ a, (k0_off617 v4514) a + S1x64.size a ≤ S16384x64.size a := fun v4514 k0_hw412 => k0_hw412.1
theorem k0_off618_inb : ∀ (v4514 : BitVec 32) (k0_hw412 : k0_chk412 v4514), ∀ a, (k0_off618 v4514) a + S1x1.size a ≤ S16384x1.size a := fun v4514 k0_hw412 => k0_hw412.2

def k0_off619 (v4535 : BitVec 32) : Fin 2 → Nat :=
  let v4537 : Index := Scalar.indexCast v4535
  let c0_1443 : Index := 0#32
  ![v4537.toNat, 0]

def k0_chk413 (v4535 : BitVec 32) : Prop :=
  (∀ a, (k0_off619 v4535) a + S1x64.size a ≤ S50000x64.size a)
instance k0_chk413.dec : ∀ (v4535 : BitVec 32), Decidable (k0_chk413 v4535) := fun v4535 => decidable_of_iff' _ (Iff.of_eq (k0_chk413.eq_1 v4535))
theorem k0_off619_inb : ∀ (v4535 : BitVec 32) (k0_hw413 : k0_chk413 v4535), ∀ a, (k0_off619 v4535) a + S1x64.size a ≤ S50000x64.size a := fun v4535 k0_hw413 => k0_hw413

def k0_off620 (v4536 : BitVec 32) : Fin 2 → Nat :=
  let v4540 : Index := Scalar.indexCast v4536
  let c0_1444 : Index := 0#32
  ![v4540.toNat, 0]

def k0_off621 (v4536 : BitVec 32) : Fin 2 → Nat :=
  let v4548 : Index := Scalar.indexCast v4536
  let c0_1446 : Index := 0#32
  ![v4548.toNat, 0]

def k0_chk414 (v4536 : BitVec 32) : Prop :=
  (∀ a, (k0_off620 v4536) a + S1x64.size a ≤ S16384x64.size a) ∧
  (∀ a, (k0_off621 v4536) a + S1x1.size a ≤ S16384x1.size a)
instance k0_chk414.dec : ∀ (v4536 : BitVec 32), Decidable (k0_chk414 v4536) := fun v4536 => decidable_of_iff' _ (Iff.of_eq (k0_chk414.eq_1 v4536))
theorem k0_off620_inb : ∀ (v4536 : BitVec 32) (k0_hw414 : k0_chk414 v4536), ∀ a, (k0_off620 v4536) a + S1x64.size a ≤ S16384x64.size a := fun v4536 k0_hw414 => k0_hw414.1
theorem k0_off621_inb : ∀ (v4536 : BitVec 32) (k0_hw414 : k0_chk414 v4536), ∀ a, (k0_off621 v4536) a + S1x1.size a ≤ S16384x1.size a := fun v4536 k0_hw414 => k0_hw414.2

def k0_off622 (v4557 : BitVec 32) : Fin 2 → Nat :=
  let v4559 : Index := Scalar.indexCast v4557
  let c0_1450 : Index := 0#32
  ![v4559.toNat, 0]

def k0_chk415 (v4557 : BitVec 32) : Prop :=
  (∀ a, (k0_off622 v4557) a + S1x64.size a ≤ S50000x64.size a)
instance k0_chk415.dec : ∀ (v4557 : BitVec 32), Decidable (k0_chk415 v4557) := fun v4557 => decidable_of_iff' _ (Iff.of_eq (k0_chk415.eq_1 v4557))
theorem k0_off622_inb : ∀ (v4557 : BitVec 32) (k0_hw415 : k0_chk415 v4557), ∀ a, (k0_off622 v4557) a + S1x64.size a ≤ S50000x64.size a := fun v4557 k0_hw415 => k0_hw415

def k0_off623 (v4558 : BitVec 32) : Fin 2 → Nat :=
  let v4562 : Index := Scalar.indexCast v4558
  let c0_1451 : Index := 0#32
  ![v4562.toNat, 0]

def k0_off624 (v4558 : BitVec 32) : Fin 2 → Nat :=
  let v4570 : Index := Scalar.indexCast v4558
  let c0_1453 : Index := 0#32
  ![v4570.toNat, 0]

def k0_chk416 (v4558 : BitVec 32) : Prop :=
  (∀ a, (k0_off623 v4558) a + S1x64.size a ≤ S16384x64.size a) ∧
  (∀ a, (k0_off624 v4558) a + S1x1.size a ≤ S16384x1.size a)
instance k0_chk416.dec : ∀ (v4558 : BitVec 32), Decidable (k0_chk416 v4558) := fun v4558 => decidable_of_iff' _ (Iff.of_eq (k0_chk416.eq_1 v4558))
theorem k0_off623_inb : ∀ (v4558 : BitVec 32) (k0_hw416 : k0_chk416 v4558), ∀ a, (k0_off623 v4558) a + S1x64.size a ≤ S16384x64.size a := fun v4558 k0_hw416 => k0_hw416.1
theorem k0_off624_inb : ∀ (v4558 : BitVec 32) (k0_hw416 : k0_chk416 v4558), ∀ a, (k0_off624 v4558) a + S1x1.size a ≤ S16384x1.size a := fun v4558 k0_hw416 => k0_hw416.2

def k0_off625 (v4579 : BitVec 32) : Fin 2 → Nat :=
  let v4581 : Index := Scalar.indexCast v4579
  let c0_1457 : Index := 0#32
  ![v4581.toNat, 0]

def k0_chk417 (v4579 : BitVec 32) : Prop :=
  (∀ a, (k0_off625 v4579) a + S1x64.size a ≤ S50000x64.size a)
instance k0_chk417.dec : ∀ (v4579 : BitVec 32), Decidable (k0_chk417 v4579) := fun v4579 => decidable_of_iff' _ (Iff.of_eq (k0_chk417.eq_1 v4579))
theorem k0_off625_inb : ∀ (v4579 : BitVec 32) (k0_hw417 : k0_chk417 v4579), ∀ a, (k0_off625 v4579) a + S1x64.size a ≤ S50000x64.size a := fun v4579 k0_hw417 => k0_hw417

def k0_off626 (v4580 : BitVec 32) : Fin 2 → Nat :=
  let v4584 : Index := Scalar.indexCast v4580
  let c0_1458 : Index := 0#32
  ![v4584.toNat, 0]

def k0_off627 (v4580 : BitVec 32) : Fin 2 → Nat :=
  let v4592 : Index := Scalar.indexCast v4580
  let c0_1460 : Index := 0#32
  ![v4592.toNat, 0]

def k0_chk418 (v4580 : BitVec 32) : Prop :=
  (∀ a, (k0_off626 v4580) a + S1x64.size a ≤ S16384x64.size a) ∧
  (∀ a, (k0_off627 v4580) a + S1x1.size a ≤ S16384x1.size a)
instance k0_chk418.dec : ∀ (v4580 : BitVec 32), Decidable (k0_chk418 v4580) := fun v4580 => decidable_of_iff' _ (Iff.of_eq (k0_chk418.eq_1 v4580))
theorem k0_off626_inb : ∀ (v4580 : BitVec 32) (k0_hw418 : k0_chk418 v4580), ∀ a, (k0_off626 v4580) a + S1x64.size a ≤ S16384x64.size a := fun v4580 k0_hw418 => k0_hw418.1
theorem k0_off627_inb : ∀ (v4580 : BitVec 32) (k0_hw418 : k0_chk418 v4580), ∀ a, (k0_off627 v4580) a + S1x1.size a ≤ S16384x1.size a := fun v4580 k0_hw418 => k0_hw418.2

def k0_off628 (v4601 : BitVec 32) : Fin 2 → Nat :=
  let v4603 : Index := Scalar.indexCast v4601
  let c0_1464 : Index := 0#32
  ![v4603.toNat, 0]

def k0_chk419 (v4601 : BitVec 32) : Prop :=
  (∀ a, (k0_off628 v4601) a + S1x64.size a ≤ S50000x64.size a)
instance k0_chk419.dec : ∀ (v4601 : BitVec 32), Decidable (k0_chk419 v4601) := fun v4601 => decidable_of_iff' _ (Iff.of_eq (k0_chk419.eq_1 v4601))
theorem k0_off628_inb : ∀ (v4601 : BitVec 32) (k0_hw419 : k0_chk419 v4601), ∀ a, (k0_off628 v4601) a + S1x64.size a ≤ S50000x64.size a := fun v4601 k0_hw419 => k0_hw419

def k0_off629 (v4602 : BitVec 32) : Fin 2 → Nat :=
  let v4606 : Index := Scalar.indexCast v4602
  let c0_1465 : Index := 0#32
  ![v4606.toNat, 0]

def k0_off630 (v4602 : BitVec 32) : Fin 2 → Nat :=
  let v4614 : Index := Scalar.indexCast v4602
  let c0_1467 : Index := 0#32
  ![v4614.toNat, 0]

def k0_chk420 (v4602 : BitVec 32) : Prop :=
  (∀ a, (k0_off629 v4602) a + S1x64.size a ≤ S16384x64.size a) ∧
  (∀ a, (k0_off630 v4602) a + S1x1.size a ≤ S16384x1.size a)
instance k0_chk420.dec : ∀ (v4602 : BitVec 32), Decidable (k0_chk420 v4602) := fun v4602 => decidable_of_iff' _ (Iff.of_eq (k0_chk420.eq_1 v4602))
theorem k0_off629_inb : ∀ (v4602 : BitVec 32) (k0_hw420 : k0_chk420 v4602), ∀ a, (k0_off629 v4602) a + S1x64.size a ≤ S16384x64.size a := fun v4602 k0_hw420 => k0_hw420.1
theorem k0_off630_inb : ∀ (v4602 : BitVec 32) (k0_hw420 : k0_chk420 v4602), ∀ a, (k0_off630 v4602) a + S1x1.size a ≤ S16384x1.size a := fun v4602 k0_hw420 => k0_hw420.2

def k0_off631 (v4623 : BitVec 32) : Fin 2 → Nat :=
  let v4625 : Index := Scalar.indexCast v4623
  let c0_1471 : Index := 0#32
  ![v4625.toNat, 0]

def k0_chk421 (v4623 : BitVec 32) : Prop :=
  (∀ a, (k0_off631 v4623) a + S1x64.size a ≤ S50000x64.size a)
instance k0_chk421.dec : ∀ (v4623 : BitVec 32), Decidable (k0_chk421 v4623) := fun v4623 => decidable_of_iff' _ (Iff.of_eq (k0_chk421.eq_1 v4623))
theorem k0_off631_inb : ∀ (v4623 : BitVec 32) (k0_hw421 : k0_chk421 v4623), ∀ a, (k0_off631 v4623) a + S1x64.size a ≤ S50000x64.size a := fun v4623 k0_hw421 => k0_hw421

def k0_off632 (v4624 : BitVec 32) : Fin 2 → Nat :=
  let v4628 : Index := Scalar.indexCast v4624
  let c0_1472 : Index := 0#32
  ![v4628.toNat, 0]

def k0_off633 (v4624 : BitVec 32) : Fin 2 → Nat :=
  let v4636 : Index := Scalar.indexCast v4624
  let c0_1474 : Index := 0#32
  ![v4636.toNat, 0]

def k0_chk422 (v4624 : BitVec 32) : Prop :=
  (∀ a, (k0_off632 v4624) a + S1x64.size a ≤ S16384x64.size a) ∧
  (∀ a, (k0_off633 v4624) a + S1x1.size a ≤ S16384x1.size a)
instance k0_chk422.dec : ∀ (v4624 : BitVec 32), Decidable (k0_chk422 v4624) := fun v4624 => decidable_of_iff' _ (Iff.of_eq (k0_chk422.eq_1 v4624))
theorem k0_off632_inb : ∀ (v4624 : BitVec 32) (k0_hw422 : k0_chk422 v4624), ∀ a, (k0_off632 v4624) a + S1x64.size a ≤ S16384x64.size a := fun v4624 k0_hw422 => k0_hw422.1
theorem k0_off633_inb : ∀ (v4624 : BitVec 32) (k0_hw422 : k0_chk422 v4624), ∀ a, (k0_off633 v4624) a + S1x1.size a ≤ S16384x1.size a := fun v4624 k0_hw422 => k0_hw422.2

def k0_off634 (v4645 : BitVec 32) : Fin 2 → Nat :=
  let v4647 : Index := Scalar.indexCast v4645
  let c0_1478 : Index := 0#32
  ![v4647.toNat, 0]

def k0_chk423 (v4645 : BitVec 32) : Prop :=
  (∀ a, (k0_off634 v4645) a + S1x64.size a ≤ S50000x64.size a)
instance k0_chk423.dec : ∀ (v4645 : BitVec 32), Decidable (k0_chk423 v4645) := fun v4645 => decidable_of_iff' _ (Iff.of_eq (k0_chk423.eq_1 v4645))
theorem k0_off634_inb : ∀ (v4645 : BitVec 32) (k0_hw423 : k0_chk423 v4645), ∀ a, (k0_off634 v4645) a + S1x64.size a ≤ S50000x64.size a := fun v4645 k0_hw423 => k0_hw423

def k0_off635 (v4646 : BitVec 32) : Fin 2 → Nat :=
  let v4650 : Index := Scalar.indexCast v4646
  let c0_1479 : Index := 0#32
  ![v4650.toNat, 0]

def k0_off636 (v4646 : BitVec 32) : Fin 2 → Nat :=
  let v4658 : Index := Scalar.indexCast v4646
  let c0_1481 : Index := 0#32
  ![v4658.toNat, 0]

def k0_chk424 (v4646 : BitVec 32) : Prop :=
  (∀ a, (k0_off635 v4646) a + S1x64.size a ≤ S16384x64.size a) ∧
  (∀ a, (k0_off636 v4646) a + S1x1.size a ≤ S16384x1.size a)
instance k0_chk424.dec : ∀ (v4646 : BitVec 32), Decidable (k0_chk424 v4646) := fun v4646 => decidable_of_iff' _ (Iff.of_eq (k0_chk424.eq_1 v4646))
theorem k0_off635_inb : ∀ (v4646 : BitVec 32) (k0_hw424 : k0_chk424 v4646), ∀ a, (k0_off635 v4646) a + S1x64.size a ≤ S16384x64.size a := fun v4646 k0_hw424 => k0_hw424.1
theorem k0_off636_inb : ∀ (v4646 : BitVec 32) (k0_hw424 : k0_chk424 v4646), ∀ a, (k0_off636 v4646) a + S1x1.size a ≤ S16384x1.size a := fun v4646 k0_hw424 => k0_hw424.2

def k0_off637 (v4667 : BitVec 32) : Fin 2 → Nat :=
  let v4669 : Index := Scalar.indexCast v4667
  let c0_1485 : Index := 0#32
  ![v4669.toNat, 0]

def k0_chk425 (v4667 : BitVec 32) : Prop :=
  (∀ a, (k0_off637 v4667) a + S1x64.size a ≤ S50000x64.size a)
instance k0_chk425.dec : ∀ (v4667 : BitVec 32), Decidable (k0_chk425 v4667) := fun v4667 => decidable_of_iff' _ (Iff.of_eq (k0_chk425.eq_1 v4667))
theorem k0_off637_inb : ∀ (v4667 : BitVec 32) (k0_hw425 : k0_chk425 v4667), ∀ a, (k0_off637 v4667) a + S1x64.size a ≤ S50000x64.size a := fun v4667 k0_hw425 => k0_hw425

def k0_off638 (v4668 : BitVec 32) : Fin 2 → Nat :=
  let v4672 : Index := Scalar.indexCast v4668
  let c0_1486 : Index := 0#32
  ![v4672.toNat, 0]

def k0_off639 (v4668 : BitVec 32) : Fin 2 → Nat :=
  let v4680 : Index := Scalar.indexCast v4668
  let c0_1488 : Index := 0#32
  ![v4680.toNat, 0]

def k0_chk426 (v4668 : BitVec 32) : Prop :=
  (∀ a, (k0_off638 v4668) a + S1x64.size a ≤ S16384x64.size a) ∧
  (∀ a, (k0_off639 v4668) a + S1x1.size a ≤ S16384x1.size a)
instance k0_chk426.dec : ∀ (v4668 : BitVec 32), Decidable (k0_chk426 v4668) := fun v4668 => decidable_of_iff' _ (Iff.of_eq (k0_chk426.eq_1 v4668))
theorem k0_off638_inb : ∀ (v4668 : BitVec 32) (k0_hw426 : k0_chk426 v4668), ∀ a, (k0_off638 v4668) a + S1x64.size a ≤ S16384x64.size a := fun v4668 k0_hw426 => k0_hw426.1
theorem k0_off639_inb : ∀ (v4668 : BitVec 32) (k0_hw426 : k0_chk426 v4668), ∀ a, (k0_off639 v4668) a + S1x1.size a ≤ S16384x1.size a := fun v4668 k0_hw426 => k0_hw426.2

def k0_off640 (v4689 : BitVec 32) : Fin 2 → Nat :=
  let v4691 : Index := Scalar.indexCast v4689
  let c0_1492 : Index := 0#32
  ![v4691.toNat, 0]

def k0_chk427 (v4689 : BitVec 32) : Prop :=
  (∀ a, (k0_off640 v4689) a + S1x64.size a ≤ S50000x64.size a)
instance k0_chk427.dec : ∀ (v4689 : BitVec 32), Decidable (k0_chk427 v4689) := fun v4689 => decidable_of_iff' _ (Iff.of_eq (k0_chk427.eq_1 v4689))
theorem k0_off640_inb : ∀ (v4689 : BitVec 32) (k0_hw427 : k0_chk427 v4689), ∀ a, (k0_off640 v4689) a + S1x64.size a ≤ S50000x64.size a := fun v4689 k0_hw427 => k0_hw427

def k0_off641 (v4690 : BitVec 32) : Fin 2 → Nat :=
  let v4694 : Index := Scalar.indexCast v4690
  let c0_1493 : Index := 0#32
  ![v4694.toNat, 0]

def k0_off642 (v4690 : BitVec 32) : Fin 2 → Nat :=
  let v4702 : Index := Scalar.indexCast v4690
  let c0_1495 : Index := 0#32
  ![v4702.toNat, 0]

def k0_chk428 (v4690 : BitVec 32) : Prop :=
  (∀ a, (k0_off641 v4690) a + S1x64.size a ≤ S16384x64.size a) ∧
  (∀ a, (k0_off642 v4690) a + S1x1.size a ≤ S16384x1.size a)
instance k0_chk428.dec : ∀ (v4690 : BitVec 32), Decidable (k0_chk428 v4690) := fun v4690 => decidable_of_iff' _ (Iff.of_eq (k0_chk428.eq_1 v4690))
theorem k0_off641_inb : ∀ (v4690 : BitVec 32) (k0_hw428 : k0_chk428 v4690), ∀ a, (k0_off641 v4690) a + S1x64.size a ≤ S16384x64.size a := fun v4690 k0_hw428 => k0_hw428.1
theorem k0_off642_inb : ∀ (v4690 : BitVec 32) (k0_hw428 : k0_chk428 v4690), ∀ a, (k0_off642 v4690) a + S1x1.size a ≤ S16384x1.size a := fun v4690 k0_hw428 => k0_hw428.2

def k0_off643 (v4711 : BitVec 32) : Fin 2 → Nat :=
  let v4713 : Index := Scalar.indexCast v4711
  let c0_1499 : Index := 0#32
  ![v4713.toNat, 0]

def k0_chk429 (v4711 : BitVec 32) : Prop :=
  (∀ a, (k0_off643 v4711) a + S1x64.size a ≤ S50000x64.size a)
instance k0_chk429.dec : ∀ (v4711 : BitVec 32), Decidable (k0_chk429 v4711) := fun v4711 => decidable_of_iff' _ (Iff.of_eq (k0_chk429.eq_1 v4711))
theorem k0_off643_inb : ∀ (v4711 : BitVec 32) (k0_hw429 : k0_chk429 v4711), ∀ a, (k0_off643 v4711) a + S1x64.size a ≤ S50000x64.size a := fun v4711 k0_hw429 => k0_hw429

def k0_off644 (v4712 : BitVec 32) : Fin 2 → Nat :=
  let v4716 : Index := Scalar.indexCast v4712
  let c0_1500 : Index := 0#32
  ![v4716.toNat, 0]

def k0_off645 (v4712 : BitVec 32) : Fin 2 → Nat :=
  let v4724 : Index := Scalar.indexCast v4712
  let c0_1502 : Index := 0#32
  ![v4724.toNat, 0]

def k0_chk430 (v4712 : BitVec 32) : Prop :=
  (∀ a, (k0_off644 v4712) a + S1x64.size a ≤ S16384x64.size a) ∧
  (∀ a, (k0_off645 v4712) a + S1x1.size a ≤ S16384x1.size a)
instance k0_chk430.dec : ∀ (v4712 : BitVec 32), Decidable (k0_chk430 v4712) := fun v4712 => decidable_of_iff' _ (Iff.of_eq (k0_chk430.eq_1 v4712))
theorem k0_off644_inb : ∀ (v4712 : BitVec 32) (k0_hw430 : k0_chk430 v4712), ∀ a, (k0_off644 v4712) a + S1x64.size a ≤ S16384x64.size a := fun v4712 k0_hw430 => k0_hw430.1
theorem k0_off645_inb : ∀ (v4712 : BitVec 32) (k0_hw430 : k0_chk430 v4712), ∀ a, (k0_off645 v4712) a + S1x1.size a ≤ S16384x1.size a := fun v4712 k0_hw430 => k0_hw430.2

def k0_off646 (v4733 : BitVec 32) : Fin 2 → Nat :=
  let v4735 : Index := Scalar.indexCast v4733
  let c0_1506 : Index := 0#32
  ![v4735.toNat, 0]

def k0_chk431 (v4733 : BitVec 32) : Prop :=
  (∀ a, (k0_off646 v4733) a + S1x64.size a ≤ S50000x64.size a)
instance k0_chk431.dec : ∀ (v4733 : BitVec 32), Decidable (k0_chk431 v4733) := fun v4733 => decidable_of_iff' _ (Iff.of_eq (k0_chk431.eq_1 v4733))
theorem k0_off646_inb : ∀ (v4733 : BitVec 32) (k0_hw431 : k0_chk431 v4733), ∀ a, (k0_off646 v4733) a + S1x64.size a ≤ S50000x64.size a := fun v4733 k0_hw431 => k0_hw431

def k0_off647 (v4734 : BitVec 32) : Fin 2 → Nat :=
  let v4738 : Index := Scalar.indexCast v4734
  let c0_1507 : Index := 0#32
  ![v4738.toNat, 0]

def k0_off648 (v4734 : BitVec 32) : Fin 2 → Nat :=
  let v4746 : Index := Scalar.indexCast v4734
  let c0_1509 : Index := 0#32
  ![v4746.toNat, 0]

def k0_chk432 (v4734 : BitVec 32) : Prop :=
  (∀ a, (k0_off647 v4734) a + S1x64.size a ≤ S16384x64.size a) ∧
  (∀ a, (k0_off648 v4734) a + S1x1.size a ≤ S16384x1.size a)
instance k0_chk432.dec : ∀ (v4734 : BitVec 32), Decidable (k0_chk432 v4734) := fun v4734 => decidable_of_iff' _ (Iff.of_eq (k0_chk432.eq_1 v4734))
theorem k0_off647_inb : ∀ (v4734 : BitVec 32) (k0_hw432 : k0_chk432 v4734), ∀ a, (k0_off647 v4734) a + S1x64.size a ≤ S16384x64.size a := fun v4734 k0_hw432 => k0_hw432.1
theorem k0_off648_inb : ∀ (v4734 : BitVec 32) (k0_hw432 : k0_chk432 v4734), ∀ a, (k0_off648 v4734) a + S1x1.size a ≤ S16384x1.size a := fun v4734 k0_hw432 => k0_hw432.2

def k0_off649 (v4755 : BitVec 32) : Fin 2 → Nat :=
  let v4757 : Index := Scalar.indexCast v4755
  let c0_1513 : Index := 0#32
  ![v4757.toNat, 0]

def k0_chk433 (v4755 : BitVec 32) : Prop :=
  (∀ a, (k0_off649 v4755) a + S1x64.size a ≤ S50000x64.size a)
instance k0_chk433.dec : ∀ (v4755 : BitVec 32), Decidable (k0_chk433 v4755) := fun v4755 => decidable_of_iff' _ (Iff.of_eq (k0_chk433.eq_1 v4755))
theorem k0_off649_inb : ∀ (v4755 : BitVec 32) (k0_hw433 : k0_chk433 v4755), ∀ a, (k0_off649 v4755) a + S1x64.size a ≤ S50000x64.size a := fun v4755 k0_hw433 => k0_hw433

def k0_off650 (v4756 : BitVec 32) : Fin 2 → Nat :=
  let v4760 : Index := Scalar.indexCast v4756
  let c0_1514 : Index := 0#32
  ![v4760.toNat, 0]

def k0_off651 (v4756 : BitVec 32) : Fin 2 → Nat :=
  let v4768 : Index := Scalar.indexCast v4756
  let c0_1516 : Index := 0#32
  ![v4768.toNat, 0]

def k0_chk434 (v4756 : BitVec 32) : Prop :=
  (∀ a, (k0_off650 v4756) a + S1x64.size a ≤ S16384x64.size a) ∧
  (∀ a, (k0_off651 v4756) a + S1x1.size a ≤ S16384x1.size a)
instance k0_chk434.dec : ∀ (v4756 : BitVec 32), Decidable (k0_chk434 v4756) := fun v4756 => decidable_of_iff' _ (Iff.of_eq (k0_chk434.eq_1 v4756))
theorem k0_off650_inb : ∀ (v4756 : BitVec 32) (k0_hw434 : k0_chk434 v4756), ∀ a, (k0_off650 v4756) a + S1x64.size a ≤ S16384x64.size a := fun v4756 k0_hw434 => k0_hw434.1
theorem k0_off651_inb : ∀ (v4756 : BitVec 32) (k0_hw434 : k0_chk434 v4756), ∀ a, (k0_off651 v4756) a + S1x1.size a ≤ S16384x1.size a := fun v4756 k0_hw434 => k0_hw434.2

def k0_off652 (v4777 : BitVec 32) : Fin 2 → Nat :=
  let v4779 : Index := Scalar.indexCast v4777
  let c0_1520 : Index := 0#32
  ![v4779.toNat, 0]

def k0_chk435 (v4777 : BitVec 32) : Prop :=
  (∀ a, (k0_off652 v4777) a + S1x64.size a ≤ S50000x64.size a)
instance k0_chk435.dec : ∀ (v4777 : BitVec 32), Decidable (k0_chk435 v4777) := fun v4777 => decidable_of_iff' _ (Iff.of_eq (k0_chk435.eq_1 v4777))
theorem k0_off652_inb : ∀ (v4777 : BitVec 32) (k0_hw435 : k0_chk435 v4777), ∀ a, (k0_off652 v4777) a + S1x64.size a ≤ S50000x64.size a := fun v4777 k0_hw435 => k0_hw435

def k0_off653 (v4778 : BitVec 32) : Fin 2 → Nat :=
  let v4782 : Index := Scalar.indexCast v4778
  let c0_1521 : Index := 0#32
  ![v4782.toNat, 0]

def k0_off654 (v4778 : BitVec 32) : Fin 2 → Nat :=
  let v4790 : Index := Scalar.indexCast v4778
  let c0_1523 : Index := 0#32
  ![v4790.toNat, 0]

def k0_chk436 (v4778 : BitVec 32) : Prop :=
  (∀ a, (k0_off653 v4778) a + S1x64.size a ≤ S16384x64.size a) ∧
  (∀ a, (k0_off654 v4778) a + S1x1.size a ≤ S16384x1.size a)
instance k0_chk436.dec : ∀ (v4778 : BitVec 32), Decidable (k0_chk436 v4778) := fun v4778 => decidable_of_iff' _ (Iff.of_eq (k0_chk436.eq_1 v4778))
theorem k0_off653_inb : ∀ (v4778 : BitVec 32) (k0_hw436 : k0_chk436 v4778), ∀ a, (k0_off653 v4778) a + S1x64.size a ≤ S16384x64.size a := fun v4778 k0_hw436 => k0_hw436.1
theorem k0_off654_inb : ∀ (v4778 : BitVec 32) (k0_hw436 : k0_chk436 v4778), ∀ a, (k0_off654 v4778) a + S1x1.size a ≤ S16384x1.size a := fun v4778 k0_hw436 => k0_hw436.2

def k0_off655 (v4799 : BitVec 32) : Fin 2 → Nat :=
  let v4801 : Index := Scalar.indexCast v4799
  let c0_1527 : Index := 0#32
  ![v4801.toNat, 0]

def k0_chk437 (v4799 : BitVec 32) : Prop :=
  (∀ a, (k0_off655 v4799) a + S1x64.size a ≤ S50000x64.size a)
instance k0_chk437.dec : ∀ (v4799 : BitVec 32), Decidable (k0_chk437 v4799) := fun v4799 => decidable_of_iff' _ (Iff.of_eq (k0_chk437.eq_1 v4799))
theorem k0_off655_inb : ∀ (v4799 : BitVec 32) (k0_hw437 : k0_chk437 v4799), ∀ a, (k0_off655 v4799) a + S1x64.size a ≤ S50000x64.size a := fun v4799 k0_hw437 => k0_hw437

def k0_off656 (v4800 : BitVec 32) : Fin 2 → Nat :=
  let v4804 : Index := Scalar.indexCast v4800
  let c0_1528 : Index := 0#32
  ![v4804.toNat, 0]

def k0_off657 (v4800 : BitVec 32) : Fin 2 → Nat :=
  let v4812 : Index := Scalar.indexCast v4800
  let c0_1530 : Index := 0#32
  ![v4812.toNat, 0]

def k0_chk438 (v4800 : BitVec 32) : Prop :=
  (∀ a, (k0_off656 v4800) a + S1x64.size a ≤ S16384x64.size a) ∧
  (∀ a, (k0_off657 v4800) a + S1x1.size a ≤ S16384x1.size a)
instance k0_chk438.dec : ∀ (v4800 : BitVec 32), Decidable (k0_chk438 v4800) := fun v4800 => decidable_of_iff' _ (Iff.of_eq (k0_chk438.eq_1 v4800))
theorem k0_off656_inb : ∀ (v4800 : BitVec 32) (k0_hw438 : k0_chk438 v4800), ∀ a, (k0_off656 v4800) a + S1x64.size a ≤ S16384x64.size a := fun v4800 k0_hw438 => k0_hw438.1
theorem k0_off657_inb : ∀ (v4800 : BitVec 32) (k0_hw438 : k0_chk438 v4800), ∀ a, (k0_off657 v4800) a + S1x1.size a ≤ S16384x1.size a := fun v4800 k0_hw438 => k0_hw438.2

def k0_off658 (v4821 : BitVec 32) : Fin 2 → Nat :=
  let v4823 : Index := Scalar.indexCast v4821
  let c0_1534 : Index := 0#32
  ![v4823.toNat, 0]

def k0_chk439 (v4821 : BitVec 32) : Prop :=
  (∀ a, (k0_off658 v4821) a + S1x64.size a ≤ S50000x64.size a)
instance k0_chk439.dec : ∀ (v4821 : BitVec 32), Decidable (k0_chk439 v4821) := fun v4821 => decidable_of_iff' _ (Iff.of_eq (k0_chk439.eq_1 v4821))
theorem k0_off658_inb : ∀ (v4821 : BitVec 32) (k0_hw439 : k0_chk439 v4821), ∀ a, (k0_off658 v4821) a + S1x64.size a ≤ S50000x64.size a := fun v4821 k0_hw439 => k0_hw439

def k0_off659 (v4822 : BitVec 32) : Fin 2 → Nat :=
  let v4826 : Index := Scalar.indexCast v4822
  let c0_1535 : Index := 0#32
  ![v4826.toNat, 0]

def k0_off660 (v4822 : BitVec 32) : Fin 2 → Nat :=
  let v4834 : Index := Scalar.indexCast v4822
  let c0_1537 : Index := 0#32
  ![v4834.toNat, 0]

def k0_chk440 (v4822 : BitVec 32) : Prop :=
  (∀ a, (k0_off659 v4822) a + S1x64.size a ≤ S16384x64.size a) ∧
  (∀ a, (k0_off660 v4822) a + S1x1.size a ≤ S16384x1.size a)
instance k0_chk440.dec : ∀ (v4822 : BitVec 32), Decidable (k0_chk440 v4822) := fun v4822 => decidable_of_iff' _ (Iff.of_eq (k0_chk440.eq_1 v4822))
theorem k0_off659_inb : ∀ (v4822 : BitVec 32) (k0_hw440 : k0_chk440 v4822), ∀ a, (k0_off659 v4822) a + S1x64.size a ≤ S16384x64.size a := fun v4822 k0_hw440 => k0_hw440.1
theorem k0_off660_inb : ∀ (v4822 : BitVec 32) (k0_hw440 : k0_chk440 v4822), ∀ a, (k0_off660 v4822) a + S1x1.size a ≤ S16384x1.size a := fun v4822 k0_hw440 => k0_hw440.2

def k0_off661 (v4843 : BitVec 32) : Fin 2 → Nat :=
  let v4845 : Index := Scalar.indexCast v4843
  let c0_1541 : Index := 0#32
  ![v4845.toNat, 0]

def k0_chk441 (v4843 : BitVec 32) : Prop :=
  (∀ a, (k0_off661 v4843) a + S1x64.size a ≤ S50000x64.size a)
instance k0_chk441.dec : ∀ (v4843 : BitVec 32), Decidable (k0_chk441 v4843) := fun v4843 => decidable_of_iff' _ (Iff.of_eq (k0_chk441.eq_1 v4843))
theorem k0_off661_inb : ∀ (v4843 : BitVec 32) (k0_hw441 : k0_chk441 v4843), ∀ a, (k0_off661 v4843) a + S1x64.size a ≤ S50000x64.size a := fun v4843 k0_hw441 => k0_hw441

def k0_off662 (v4844 : BitVec 32) : Fin 2 → Nat :=
  let v4848 : Index := Scalar.indexCast v4844
  let c0_1542 : Index := 0#32
  ![v4848.toNat, 0]

def k0_off663 (v4844 : BitVec 32) : Fin 2 → Nat :=
  let v4856 : Index := Scalar.indexCast v4844
  let c0_1544 : Index := 0#32
  ![v4856.toNat, 0]

def k0_chk442 (v4844 : BitVec 32) : Prop :=
  (∀ a, (k0_off662 v4844) a + S1x64.size a ≤ S16384x64.size a) ∧
  (∀ a, (k0_off663 v4844) a + S1x1.size a ≤ S16384x1.size a)
instance k0_chk442.dec : ∀ (v4844 : BitVec 32), Decidable (k0_chk442 v4844) := fun v4844 => decidable_of_iff' _ (Iff.of_eq (k0_chk442.eq_1 v4844))
theorem k0_off662_inb : ∀ (v4844 : BitVec 32) (k0_hw442 : k0_chk442 v4844), ∀ a, (k0_off662 v4844) a + S1x64.size a ≤ S16384x64.size a := fun v4844 k0_hw442 => k0_hw442.1
theorem k0_off663_inb : ∀ (v4844 : BitVec 32) (k0_hw442 : k0_chk442 v4844), ∀ a, (k0_off663 v4844) a + S1x1.size a ≤ S16384x1.size a := fun v4844 k0_hw442 => k0_hw442.2

def k0_off664 (v4865 : BitVec 32) : Fin 2 → Nat :=
  let v4867 : Index := Scalar.indexCast v4865
  let c0_1548 : Index := 0#32
  ![v4867.toNat, 0]

def k0_chk443 (v4865 : BitVec 32) : Prop :=
  (∀ a, (k0_off664 v4865) a + S1x64.size a ≤ S50000x64.size a)
instance k0_chk443.dec : ∀ (v4865 : BitVec 32), Decidable (k0_chk443 v4865) := fun v4865 => decidable_of_iff' _ (Iff.of_eq (k0_chk443.eq_1 v4865))
theorem k0_off664_inb : ∀ (v4865 : BitVec 32) (k0_hw443 : k0_chk443 v4865), ∀ a, (k0_off664 v4865) a + S1x64.size a ≤ S50000x64.size a := fun v4865 k0_hw443 => k0_hw443

def k0_off665 (v4866 : BitVec 32) : Fin 2 → Nat :=
  let v4870 : Index := Scalar.indexCast v4866
  let c0_1549 : Index := 0#32
  ![v4870.toNat, 0]

def k0_off666 (v4866 : BitVec 32) : Fin 2 → Nat :=
  let v4878 : Index := Scalar.indexCast v4866
  let c0_1551 : Index := 0#32
  ![v4878.toNat, 0]

def k0_chk444 (v4866 : BitVec 32) : Prop :=
  (∀ a, (k0_off665 v4866) a + S1x64.size a ≤ S16384x64.size a) ∧
  (∀ a, (k0_off666 v4866) a + S1x1.size a ≤ S16384x1.size a)
instance k0_chk444.dec : ∀ (v4866 : BitVec 32), Decidable (k0_chk444 v4866) := fun v4866 => decidable_of_iff' _ (Iff.of_eq (k0_chk444.eq_1 v4866))
theorem k0_off665_inb : ∀ (v4866 : BitVec 32) (k0_hw444 : k0_chk444 v4866), ∀ a, (k0_off665 v4866) a + S1x64.size a ≤ S16384x64.size a := fun v4866 k0_hw444 => k0_hw444.1
theorem k0_off666_inb : ∀ (v4866 : BitVec 32) (k0_hw444 : k0_chk444 v4866), ∀ a, (k0_off666 v4866) a + S1x1.size a ≤ S16384x1.size a := fun v4866 k0_hw444 => k0_hw444.2

def k0_off667 (v4887 : BitVec 32) : Fin 2 → Nat :=
  let v4889 : Index := Scalar.indexCast v4887
  let c0_1555 : Index := 0#32
  ![v4889.toNat, 0]

def k0_chk445 (v4887 : BitVec 32) : Prop :=
  (∀ a, (k0_off667 v4887) a + S1x64.size a ≤ S50000x64.size a)
instance k0_chk445.dec : ∀ (v4887 : BitVec 32), Decidable (k0_chk445 v4887) := fun v4887 => decidable_of_iff' _ (Iff.of_eq (k0_chk445.eq_1 v4887))
theorem k0_off667_inb : ∀ (v4887 : BitVec 32) (k0_hw445 : k0_chk445 v4887), ∀ a, (k0_off667 v4887) a + S1x64.size a ≤ S50000x64.size a := fun v4887 k0_hw445 => k0_hw445

def k0_off668 (v4888 : BitVec 32) : Fin 2 → Nat :=
  let v4892 : Index := Scalar.indexCast v4888
  let c0_1556 : Index := 0#32
  ![v4892.toNat, 0]

def k0_off669 (v4888 : BitVec 32) : Fin 2 → Nat :=
  let v4900 : Index := Scalar.indexCast v4888
  let c0_1558 : Index := 0#32
  ![v4900.toNat, 0]

def k0_chk446 (v4888 : BitVec 32) : Prop :=
  (∀ a, (k0_off668 v4888) a + S1x64.size a ≤ S16384x64.size a) ∧
  (∀ a, (k0_off669 v4888) a + S1x1.size a ≤ S16384x1.size a)
instance k0_chk446.dec : ∀ (v4888 : BitVec 32), Decidable (k0_chk446 v4888) := fun v4888 => decidable_of_iff' _ (Iff.of_eq (k0_chk446.eq_1 v4888))
theorem k0_off668_inb : ∀ (v4888 : BitVec 32) (k0_hw446 : k0_chk446 v4888), ∀ a, (k0_off668 v4888) a + S1x64.size a ≤ S16384x64.size a := fun v4888 k0_hw446 => k0_hw446.1
theorem k0_off669_inb : ∀ (v4888 : BitVec 32) (k0_hw446 : k0_chk446 v4888), ∀ a, (k0_off669 v4888) a + S1x1.size a ≤ S16384x1.size a := fun v4888 k0_hw446 => k0_hw446.2

def k0_off670 (v4909 : BitVec 32) : Fin 2 → Nat :=
  let v4911 : Index := Scalar.indexCast v4909
  let c0_1562 : Index := 0#32
  ![v4911.toNat, 0]

def k0_chk447 (v4909 : BitVec 32) : Prop :=
  (∀ a, (k0_off670 v4909) a + S1x64.size a ≤ S50000x64.size a)
instance k0_chk447.dec : ∀ (v4909 : BitVec 32), Decidable (k0_chk447 v4909) := fun v4909 => decidable_of_iff' _ (Iff.of_eq (k0_chk447.eq_1 v4909))
theorem k0_off670_inb : ∀ (v4909 : BitVec 32) (k0_hw447 : k0_chk447 v4909), ∀ a, (k0_off670 v4909) a + S1x64.size a ≤ S50000x64.size a := fun v4909 k0_hw447 => k0_hw447

def k0_off671 (v4910 : BitVec 32) : Fin 2 → Nat :=
  let v4914 : Index := Scalar.indexCast v4910
  let c0_1563 : Index := 0#32
  ![v4914.toNat, 0]

def k0_off672 (v4910 : BitVec 32) : Fin 2 → Nat :=
  let v4922 : Index := Scalar.indexCast v4910
  let c0_1565 : Index := 0#32
  ![v4922.toNat, 0]

def k0_chk448 (v4910 : BitVec 32) : Prop :=
  (∀ a, (k0_off671 v4910) a + S1x64.size a ≤ S16384x64.size a) ∧
  (∀ a, (k0_off672 v4910) a + S1x1.size a ≤ S16384x1.size a)
instance k0_chk448.dec : ∀ (v4910 : BitVec 32), Decidable (k0_chk448 v4910) := fun v4910 => decidable_of_iff' _ (Iff.of_eq (k0_chk448.eq_1 v4910))
theorem k0_off671_inb : ∀ (v4910 : BitVec 32) (k0_hw448 : k0_chk448 v4910), ∀ a, (k0_off671 v4910) a + S1x64.size a ≤ S16384x64.size a := fun v4910 k0_hw448 => k0_hw448.1
theorem k0_off672_inb : ∀ (v4910 : BitVec 32) (k0_hw448 : k0_chk448 v4910), ∀ a, (k0_off672 v4910) a + S1x1.size a ≤ S16384x1.size a := fun v4910 k0_hw448 => k0_hw448.2

def k0_off673 (v4931 : BitVec 32) : Fin 2 → Nat :=
  let v4933 : Index := Scalar.indexCast v4931
  let c0_1569 : Index := 0#32
  ![v4933.toNat, 0]

def k0_chk449 (v4931 : BitVec 32) : Prop :=
  (∀ a, (k0_off673 v4931) a + S1x64.size a ≤ S50000x64.size a)
instance k0_chk449.dec : ∀ (v4931 : BitVec 32), Decidable (k0_chk449 v4931) := fun v4931 => decidable_of_iff' _ (Iff.of_eq (k0_chk449.eq_1 v4931))
theorem k0_off673_inb : ∀ (v4931 : BitVec 32) (k0_hw449 : k0_chk449 v4931), ∀ a, (k0_off673 v4931) a + S1x64.size a ≤ S50000x64.size a := fun v4931 k0_hw449 => k0_hw449

def k0_off674 (v4932 : BitVec 32) : Fin 2 → Nat :=
  let v4936 : Index := Scalar.indexCast v4932
  let c0_1570 : Index := 0#32
  ![v4936.toNat, 0]

def k0_off675 (v4932 : BitVec 32) : Fin 2 → Nat :=
  let v4944 : Index := Scalar.indexCast v4932
  let c0_1572 : Index := 0#32
  ![v4944.toNat, 0]

def k0_chk450 (v4932 : BitVec 32) : Prop :=
  (∀ a, (k0_off674 v4932) a + S1x64.size a ≤ S16384x64.size a) ∧
  (∀ a, (k0_off675 v4932) a + S1x1.size a ≤ S16384x1.size a)
instance k0_chk450.dec : ∀ (v4932 : BitVec 32), Decidable (k0_chk450 v4932) := fun v4932 => decidable_of_iff' _ (Iff.of_eq (k0_chk450.eq_1 v4932))
theorem k0_off674_inb : ∀ (v4932 : BitVec 32) (k0_hw450 : k0_chk450 v4932), ∀ a, (k0_off674 v4932) a + S1x64.size a ≤ S16384x64.size a := fun v4932 k0_hw450 => k0_hw450.1
theorem k0_off675_inb : ∀ (v4932 : BitVec 32) (k0_hw450 : k0_chk450 v4932), ∀ a, (k0_off675 v4932) a + S1x1.size a ≤ S16384x1.size a := fun v4932 k0_hw450 => k0_hw450.2

def k0_off676 (v4953 : BitVec 32) : Fin 2 → Nat :=
  let v4955 : Index := Scalar.indexCast v4953
  let c0_1576 : Index := 0#32
  ![v4955.toNat, 0]

def k0_chk451 (v4953 : BitVec 32) : Prop :=
  (∀ a, (k0_off676 v4953) a + S1x64.size a ≤ S50000x64.size a)
instance k0_chk451.dec : ∀ (v4953 : BitVec 32), Decidable (k0_chk451 v4953) := fun v4953 => decidable_of_iff' _ (Iff.of_eq (k0_chk451.eq_1 v4953))
theorem k0_off676_inb : ∀ (v4953 : BitVec 32) (k0_hw451 : k0_chk451 v4953), ∀ a, (k0_off676 v4953) a + S1x64.size a ≤ S50000x64.size a := fun v4953 k0_hw451 => k0_hw451

def k0_off677 (v4954 : BitVec 32) : Fin 2 → Nat :=
  let v4958 : Index := Scalar.indexCast v4954
  let c0_1577 : Index := 0#32
  ![v4958.toNat, 0]

def k0_off678 (v4954 : BitVec 32) : Fin 2 → Nat :=
  let v4966 : Index := Scalar.indexCast v4954
  let c0_1579 : Index := 0#32
  ![v4966.toNat, 0]

def k0_chk452 (v4954 : BitVec 32) : Prop :=
  (∀ a, (k0_off677 v4954) a + S1x64.size a ≤ S16384x64.size a) ∧
  (∀ a, (k0_off678 v4954) a + S1x1.size a ≤ S16384x1.size a)
instance k0_chk452.dec : ∀ (v4954 : BitVec 32), Decidable (k0_chk452 v4954) := fun v4954 => decidable_of_iff' _ (Iff.of_eq (k0_chk452.eq_1 v4954))
theorem k0_off677_inb : ∀ (v4954 : BitVec 32) (k0_hw452 : k0_chk452 v4954), ∀ a, (k0_off677 v4954) a + S1x64.size a ≤ S16384x64.size a := fun v4954 k0_hw452 => k0_hw452.1
theorem k0_off678_inb : ∀ (v4954 : BitVec 32) (k0_hw452 : k0_chk452 v4954), ∀ a, (k0_off678 v4954) a + S1x1.size a ≤ S16384x1.size a := fun v4954 k0_hw452 => k0_hw452.2

def k0_off679 (v4975 : BitVec 32) : Fin 2 → Nat :=
  let v4977 : Index := Scalar.indexCast v4975
  let c0_1583 : Index := 0#32
  ![v4977.toNat, 0]

def k0_chk453 (v4975 : BitVec 32) : Prop :=
  (∀ a, (k0_off679 v4975) a + S1x64.size a ≤ S50000x64.size a)
instance k0_chk453.dec : ∀ (v4975 : BitVec 32), Decidable (k0_chk453 v4975) := fun v4975 => decidable_of_iff' _ (Iff.of_eq (k0_chk453.eq_1 v4975))
theorem k0_off679_inb : ∀ (v4975 : BitVec 32) (k0_hw453 : k0_chk453 v4975), ∀ a, (k0_off679 v4975) a + S1x64.size a ≤ S50000x64.size a := fun v4975 k0_hw453 => k0_hw453

def k0_off680 (v4976 : BitVec 32) : Fin 2 → Nat :=
  let v4980 : Index := Scalar.indexCast v4976
  let c0_1584 : Index := 0#32
  ![v4980.toNat, 0]

def k0_off681 (v4976 : BitVec 32) : Fin 2 → Nat :=
  let v4988 : Index := Scalar.indexCast v4976
  let c0_1586 : Index := 0#32
  ![v4988.toNat, 0]

def k0_chk454 (v4976 : BitVec 32) : Prop :=
  (∀ a, (k0_off680 v4976) a + S1x64.size a ≤ S16384x64.size a) ∧
  (∀ a, (k0_off681 v4976) a + S1x1.size a ≤ S16384x1.size a)
instance k0_chk454.dec : ∀ (v4976 : BitVec 32), Decidable (k0_chk454 v4976) := fun v4976 => decidable_of_iff' _ (Iff.of_eq (k0_chk454.eq_1 v4976))
theorem k0_off680_inb : ∀ (v4976 : BitVec 32) (k0_hw454 : k0_chk454 v4976), ∀ a, (k0_off680 v4976) a + S1x64.size a ≤ S16384x64.size a := fun v4976 k0_hw454 => k0_hw454.1
theorem k0_off681_inb : ∀ (v4976 : BitVec 32) (k0_hw454 : k0_chk454 v4976), ∀ a, (k0_off681 v4976) a + S1x1.size a ≤ S16384x1.size a := fun v4976 k0_hw454 => k0_hw454.2

def k0_off682 (v4997 : BitVec 32) : Fin 2 → Nat :=
  let v4999 : Index := Scalar.indexCast v4997
  let c0_1590 : Index := 0#32
  ![v4999.toNat, 0]

def k0_chk455 (v4997 : BitVec 32) : Prop :=
  (∀ a, (k0_off682 v4997) a + S1x64.size a ≤ S50000x64.size a)
instance k0_chk455.dec : ∀ (v4997 : BitVec 32), Decidable (k0_chk455 v4997) := fun v4997 => decidable_of_iff' _ (Iff.of_eq (k0_chk455.eq_1 v4997))
theorem k0_off682_inb : ∀ (v4997 : BitVec 32) (k0_hw455 : k0_chk455 v4997), ∀ a, (k0_off682 v4997) a + S1x64.size a ≤ S50000x64.size a := fun v4997 k0_hw455 => k0_hw455

def k0_off683 (v4998 : BitVec 32) : Fin 2 → Nat :=
  let v5002 : Index := Scalar.indexCast v4998
  let c0_1591 : Index := 0#32
  ![v5002.toNat, 0]

def k0_off684 (v4998 : BitVec 32) : Fin 2 → Nat :=
  let v5010 : Index := Scalar.indexCast v4998
  let c0_1593 : Index := 0#32
  ![v5010.toNat, 0]

def k0_chk456 (v4998 : BitVec 32) : Prop :=
  (∀ a, (k0_off683 v4998) a + S1x64.size a ≤ S16384x64.size a) ∧
  (∀ a, (k0_off684 v4998) a + S1x1.size a ≤ S16384x1.size a)
instance k0_chk456.dec : ∀ (v4998 : BitVec 32), Decidable (k0_chk456 v4998) := fun v4998 => decidable_of_iff' _ (Iff.of_eq (k0_chk456.eq_1 v4998))
theorem k0_off683_inb : ∀ (v4998 : BitVec 32) (k0_hw456 : k0_chk456 v4998), ∀ a, (k0_off683 v4998) a + S1x64.size a ≤ S16384x64.size a := fun v4998 k0_hw456 => k0_hw456.1
theorem k0_off684_inb : ∀ (v4998 : BitVec 32) (k0_hw456 : k0_chk456 v4998), ∀ a, (k0_off684 v4998) a + S1x1.size a ≤ S16384x1.size a := fun v4998 k0_hw456 => k0_hw456.2

def k0_off685 (v5019 : BitVec 32) : Fin 2 → Nat :=
  let v5021 : Index := Scalar.indexCast v5019
  let c0_1597 : Index := 0#32
  ![v5021.toNat, 0]

def k0_chk457 (v5019 : BitVec 32) : Prop :=
  (∀ a, (k0_off685 v5019) a + S1x64.size a ≤ S50000x64.size a)
instance k0_chk457.dec : ∀ (v5019 : BitVec 32), Decidable (k0_chk457 v5019) := fun v5019 => decidable_of_iff' _ (Iff.of_eq (k0_chk457.eq_1 v5019))
theorem k0_off685_inb : ∀ (v5019 : BitVec 32) (k0_hw457 : k0_chk457 v5019), ∀ a, (k0_off685 v5019) a + S1x64.size a ≤ S50000x64.size a := fun v5019 k0_hw457 => k0_hw457

def k0_off686 (v5020 : BitVec 32) : Fin 2 → Nat :=
  let v5024 : Index := Scalar.indexCast v5020
  let c0_1598 : Index := 0#32
  ![v5024.toNat, 0]

def k0_off687 (v5020 : BitVec 32) : Fin 2 → Nat :=
  let v5032 : Index := Scalar.indexCast v5020
  let c0_1600 : Index := 0#32
  ![v5032.toNat, 0]

def k0_chk458 (v5020 : BitVec 32) : Prop :=
  (∀ a, (k0_off686 v5020) a + S1x64.size a ≤ S16384x64.size a) ∧
  (∀ a, (k0_off687 v5020) a + S1x1.size a ≤ S16384x1.size a)
instance k0_chk458.dec : ∀ (v5020 : BitVec 32), Decidable (k0_chk458 v5020) := fun v5020 => decidable_of_iff' _ (Iff.of_eq (k0_chk458.eq_1 v5020))
theorem k0_off686_inb : ∀ (v5020 : BitVec 32) (k0_hw458 : k0_chk458 v5020), ∀ a, (k0_off686 v5020) a + S1x64.size a ≤ S16384x64.size a := fun v5020 k0_hw458 => k0_hw458.1
theorem k0_off687_inb : ∀ (v5020 : BitVec 32) (k0_hw458 : k0_chk458 v5020), ∀ a, (k0_off687 v5020) a + S1x1.size a ≤ S16384x1.size a := fun v5020 k0_hw458 => k0_hw458.2

def k0_off688 (v5041 : BitVec 32) : Fin 2 → Nat :=
  let v5043 : Index := Scalar.indexCast v5041
  let c0_1604 : Index := 0#32
  ![v5043.toNat, 0]

def k0_chk459 (v5041 : BitVec 32) : Prop :=
  (∀ a, (k0_off688 v5041) a + S1x64.size a ≤ S50000x64.size a)
instance k0_chk459.dec : ∀ (v5041 : BitVec 32), Decidable (k0_chk459 v5041) := fun v5041 => decidable_of_iff' _ (Iff.of_eq (k0_chk459.eq_1 v5041))
theorem k0_off688_inb : ∀ (v5041 : BitVec 32) (k0_hw459 : k0_chk459 v5041), ∀ a, (k0_off688 v5041) a + S1x64.size a ≤ S50000x64.size a := fun v5041 k0_hw459 => k0_hw459

def k0_off689 (v5042 : BitVec 32) : Fin 2 → Nat :=
  let v5046 : Index := Scalar.indexCast v5042
  let c0_1605 : Index := 0#32
  ![v5046.toNat, 0]

def k0_off690 (v5042 : BitVec 32) : Fin 2 → Nat :=
  let v5054 : Index := Scalar.indexCast v5042
  let c0_1607 : Index := 0#32
  ![v5054.toNat, 0]

def k0_chk460 (v5042 : BitVec 32) : Prop :=
  (∀ a, (k0_off689 v5042) a + S1x64.size a ≤ S16384x64.size a) ∧
  (∀ a, (k0_off690 v5042) a + S1x1.size a ≤ S16384x1.size a)
instance k0_chk460.dec : ∀ (v5042 : BitVec 32), Decidable (k0_chk460 v5042) := fun v5042 => decidable_of_iff' _ (Iff.of_eq (k0_chk460.eq_1 v5042))
theorem k0_off689_inb : ∀ (v5042 : BitVec 32) (k0_hw460 : k0_chk460 v5042), ∀ a, (k0_off689 v5042) a + S1x64.size a ≤ S16384x64.size a := fun v5042 k0_hw460 => k0_hw460.1
theorem k0_off690_inb : ∀ (v5042 : BitVec 32) (k0_hw460 : k0_chk460 v5042), ∀ a, (k0_off690 v5042) a + S1x1.size a ≤ S16384x1.size a := fun v5042 k0_hw460 => k0_hw460.2

def k0_off691 (v5063 : BitVec 32) : Fin 2 → Nat :=
  let v5065 : Index := Scalar.indexCast v5063
  let c0_1611 : Index := 0#32
  ![v5065.toNat, 0]

def k0_chk461 (v5063 : BitVec 32) : Prop :=
  (∀ a, (k0_off691 v5063) a + S1x64.size a ≤ S50000x64.size a)
instance k0_chk461.dec : ∀ (v5063 : BitVec 32), Decidable (k0_chk461 v5063) := fun v5063 => decidable_of_iff' _ (Iff.of_eq (k0_chk461.eq_1 v5063))
theorem k0_off691_inb : ∀ (v5063 : BitVec 32) (k0_hw461 : k0_chk461 v5063), ∀ a, (k0_off691 v5063) a + S1x64.size a ≤ S50000x64.size a := fun v5063 k0_hw461 => k0_hw461

def k0_off692 (v5064 : BitVec 32) : Fin 2 → Nat :=
  let v5068 : Index := Scalar.indexCast v5064
  let c0_1612 : Index := 0#32
  ![v5068.toNat, 0]

def k0_off693 (v5064 : BitVec 32) : Fin 2 → Nat :=
  let v5076 : Index := Scalar.indexCast v5064
  let c0_1614 : Index := 0#32
  ![v5076.toNat, 0]

def k0_chk462 (v5064 : BitVec 32) : Prop :=
  (∀ a, (k0_off692 v5064) a + S1x64.size a ≤ S16384x64.size a) ∧
  (∀ a, (k0_off693 v5064) a + S1x1.size a ≤ S16384x1.size a)
instance k0_chk462.dec : ∀ (v5064 : BitVec 32), Decidable (k0_chk462 v5064) := fun v5064 => decidable_of_iff' _ (Iff.of_eq (k0_chk462.eq_1 v5064))
theorem k0_off692_inb : ∀ (v5064 : BitVec 32) (k0_hw462 : k0_chk462 v5064), ∀ a, (k0_off692 v5064) a + S1x64.size a ≤ S16384x64.size a := fun v5064 k0_hw462 => k0_hw462.1
theorem k0_off693_inb : ∀ (v5064 : BitVec 32) (k0_hw462 : k0_chk462 v5064), ∀ a, (k0_off693 v5064) a + S1x1.size a ≤ S16384x1.size a := fun v5064 k0_hw462 => k0_hw462.2

def k0_off694 (v5085 : BitVec 32) : Fin 2 → Nat :=
  let v5087 : Index := Scalar.indexCast v5085
  let c0_1618 : Index := 0#32
  ![v5087.toNat, 0]

def k0_chk463 (v5085 : BitVec 32) : Prop :=
  (∀ a, (k0_off694 v5085) a + S1x64.size a ≤ S50000x64.size a)
instance k0_chk463.dec : ∀ (v5085 : BitVec 32), Decidable (k0_chk463 v5085) := fun v5085 => decidable_of_iff' _ (Iff.of_eq (k0_chk463.eq_1 v5085))
theorem k0_off694_inb : ∀ (v5085 : BitVec 32) (k0_hw463 : k0_chk463 v5085), ∀ a, (k0_off694 v5085) a + S1x64.size a ≤ S50000x64.size a := fun v5085 k0_hw463 => k0_hw463

def k0_off695 (v5086 : BitVec 32) : Fin 2 → Nat :=
  let v5090 : Index := Scalar.indexCast v5086
  let c0_1619 : Index := 0#32
  ![v5090.toNat, 0]

def k0_off696 (v5086 : BitVec 32) : Fin 2 → Nat :=
  let v5098 : Index := Scalar.indexCast v5086
  let c0_1621 : Index := 0#32
  ![v5098.toNat, 0]

def k0_chk464 (v5086 : BitVec 32) : Prop :=
  (∀ a, (k0_off695 v5086) a + S1x64.size a ≤ S16384x64.size a) ∧
  (∀ a, (k0_off696 v5086) a + S1x1.size a ≤ S16384x1.size a)
instance k0_chk464.dec : ∀ (v5086 : BitVec 32), Decidable (k0_chk464 v5086) := fun v5086 => decidable_of_iff' _ (Iff.of_eq (k0_chk464.eq_1 v5086))
theorem k0_off695_inb : ∀ (v5086 : BitVec 32) (k0_hw464 : k0_chk464 v5086), ∀ a, (k0_off695 v5086) a + S1x64.size a ≤ S16384x64.size a := fun v5086 k0_hw464 => k0_hw464.1
theorem k0_off696_inb : ∀ (v5086 : BitVec 32) (k0_hw464 : k0_chk464 v5086), ∀ a, (k0_off696 v5086) a + S1x1.size a ≤ S16384x1.size a := fun v5086 k0_hw464 => k0_hw464.2

def k0_off697 (v5107 : BitVec 32) : Fin 2 → Nat :=
  let v5109 : Index := Scalar.indexCast v5107
  let c0_1625 : Index := 0#32
  ![v5109.toNat, 0]

def k0_chk465 (v5107 : BitVec 32) : Prop :=
  (∀ a, (k0_off697 v5107) a + S1x64.size a ≤ S50000x64.size a)
instance k0_chk465.dec : ∀ (v5107 : BitVec 32), Decidable (k0_chk465 v5107) := fun v5107 => decidable_of_iff' _ (Iff.of_eq (k0_chk465.eq_1 v5107))
theorem k0_off697_inb : ∀ (v5107 : BitVec 32) (k0_hw465 : k0_chk465 v5107), ∀ a, (k0_off697 v5107) a + S1x64.size a ≤ S50000x64.size a := fun v5107 k0_hw465 => k0_hw465

def k0_off698 (v5108 : BitVec 32) : Fin 2 → Nat :=
  let v5112 : Index := Scalar.indexCast v5108
  let c0_1626 : Index := 0#32
  ![v5112.toNat, 0]

def k0_off699 (v5108 : BitVec 32) : Fin 2 → Nat :=
  let v5120 : Index := Scalar.indexCast v5108
  let c0_1628 : Index := 0#32
  ![v5120.toNat, 0]

def k0_chk466 (v5108 : BitVec 32) : Prop :=
  (∀ a, (k0_off698 v5108) a + S1x64.size a ≤ S16384x64.size a) ∧
  (∀ a, (k0_off699 v5108) a + S1x1.size a ≤ S16384x1.size a)
instance k0_chk466.dec : ∀ (v5108 : BitVec 32), Decidable (k0_chk466 v5108) := fun v5108 => decidable_of_iff' _ (Iff.of_eq (k0_chk466.eq_1 v5108))
theorem k0_off698_inb : ∀ (v5108 : BitVec 32) (k0_hw466 : k0_chk466 v5108), ∀ a, (k0_off698 v5108) a + S1x64.size a ≤ S16384x64.size a := fun v5108 k0_hw466 => k0_hw466.1
theorem k0_off699_inb : ∀ (v5108 : BitVec 32) (k0_hw466 : k0_chk466 v5108), ∀ a, (k0_off699 v5108) a + S1x1.size a ≤ S16384x1.size a := fun v5108 k0_hw466 => k0_hw466.2

def k0_off700 (v5129 : BitVec 32) : Fin 2 → Nat :=
  let v5131 : Index := Scalar.indexCast v5129
  let c0_1632 : Index := 0#32
  ![v5131.toNat, 0]

def k0_chk467 (v5129 : BitVec 32) : Prop :=
  (∀ a, (k0_off700 v5129) a + S1x64.size a ≤ S50000x64.size a)
instance k0_chk467.dec : ∀ (v5129 : BitVec 32), Decidable (k0_chk467 v5129) := fun v5129 => decidable_of_iff' _ (Iff.of_eq (k0_chk467.eq_1 v5129))
theorem k0_off700_inb : ∀ (v5129 : BitVec 32) (k0_hw467 : k0_chk467 v5129), ∀ a, (k0_off700 v5129) a + S1x64.size a ≤ S50000x64.size a := fun v5129 k0_hw467 => k0_hw467

def k0_off701 (v5130 : BitVec 32) : Fin 2 → Nat :=
  let v5134 : Index := Scalar.indexCast v5130
  let c0_1633 : Index := 0#32
  ![v5134.toNat, 0]

def k0_off702 (v5130 : BitVec 32) : Fin 2 → Nat :=
  let v5142 : Index := Scalar.indexCast v5130
  let c0_1635 : Index := 0#32
  ![v5142.toNat, 0]

def k0_chk468 (v5130 : BitVec 32) : Prop :=
  (∀ a, (k0_off701 v5130) a + S1x64.size a ≤ S16384x64.size a) ∧
  (∀ a, (k0_off702 v5130) a + S1x1.size a ≤ S16384x1.size a)
instance k0_chk468.dec : ∀ (v5130 : BitVec 32), Decidable (k0_chk468 v5130) := fun v5130 => decidable_of_iff' _ (Iff.of_eq (k0_chk468.eq_1 v5130))
theorem k0_off701_inb : ∀ (v5130 : BitVec 32) (k0_hw468 : k0_chk468 v5130), ∀ a, (k0_off701 v5130) a + S1x64.size a ≤ S16384x64.size a := fun v5130 k0_hw468 => k0_hw468.1
theorem k0_off702_inb : ∀ (v5130 : BitVec 32) (k0_hw468 : k0_chk468 v5130), ∀ a, (k0_off702 v5130) a + S1x1.size a ≤ S16384x1.size a := fun v5130 k0_hw468 => k0_hw468.2

def k0_off703 (v5151 : BitVec 32) : Fin 2 → Nat :=
  let v5153 : Index := Scalar.indexCast v5151
  let c0_1639 : Index := 0#32
  ![v5153.toNat, 0]

def k0_chk469 (v5151 : BitVec 32) : Prop :=
  (∀ a, (k0_off703 v5151) a + S1x64.size a ≤ S50000x64.size a)
instance k0_chk469.dec : ∀ (v5151 : BitVec 32), Decidable (k0_chk469 v5151) := fun v5151 => decidable_of_iff' _ (Iff.of_eq (k0_chk469.eq_1 v5151))
theorem k0_off703_inb : ∀ (v5151 : BitVec 32) (k0_hw469 : k0_chk469 v5151), ∀ a, (k0_off703 v5151) a + S1x64.size a ≤ S50000x64.size a := fun v5151 k0_hw469 => k0_hw469

def k0_off704 (v5152 : BitVec 32) : Fin 2 → Nat :=
  let v5156 : Index := Scalar.indexCast v5152
  let c0_1640 : Index := 0#32
  ![v5156.toNat, 0]

def k0_off705 (v5152 : BitVec 32) : Fin 2 → Nat :=
  let v5164 : Index := Scalar.indexCast v5152
  let c0_1642 : Index := 0#32
  ![v5164.toNat, 0]

def k0_chk470 (v5152 : BitVec 32) : Prop :=
  (∀ a, (k0_off704 v5152) a + S1x64.size a ≤ S16384x64.size a) ∧
  (∀ a, (k0_off705 v5152) a + S1x1.size a ≤ S16384x1.size a)
instance k0_chk470.dec : ∀ (v5152 : BitVec 32), Decidable (k0_chk470 v5152) := fun v5152 => decidable_of_iff' _ (Iff.of_eq (k0_chk470.eq_1 v5152))
theorem k0_off704_inb : ∀ (v5152 : BitVec 32) (k0_hw470 : k0_chk470 v5152), ∀ a, (k0_off704 v5152) a + S1x64.size a ≤ S16384x64.size a := fun v5152 k0_hw470 => k0_hw470.1
theorem k0_off705_inb : ∀ (v5152 : BitVec 32) (k0_hw470 : k0_chk470 v5152), ∀ a, (k0_off705 v5152) a + S1x1.size a ≤ S16384x1.size a := fun v5152 k0_hw470 => k0_hw470.2

def k0_off706 (v5173 : BitVec 32) : Fin 2 → Nat :=
  let v5175 : Index := Scalar.indexCast v5173
  let c0_1646 : Index := 0#32
  ![v5175.toNat, 0]

def k0_chk471 (v5173 : BitVec 32) : Prop :=
  (∀ a, (k0_off706 v5173) a + S1x64.size a ≤ S50000x64.size a)
instance k0_chk471.dec : ∀ (v5173 : BitVec 32), Decidable (k0_chk471 v5173) := fun v5173 => decidable_of_iff' _ (Iff.of_eq (k0_chk471.eq_1 v5173))
theorem k0_off706_inb : ∀ (v5173 : BitVec 32) (k0_hw471 : k0_chk471 v5173), ∀ a, (k0_off706 v5173) a + S1x64.size a ≤ S50000x64.size a := fun v5173 k0_hw471 => k0_hw471

def k0_off707 (v5174 : BitVec 32) : Fin 2 → Nat :=
  let v5178 : Index := Scalar.indexCast v5174
  let c0_1647 : Index := 0#32
  ![v5178.toNat, 0]

def k0_off708 (v5174 : BitVec 32) : Fin 2 → Nat :=
  let v5186 : Index := Scalar.indexCast v5174
  let c0_1649 : Index := 0#32
  ![v5186.toNat, 0]

def k0_chk472 (v5174 : BitVec 32) : Prop :=
  (∀ a, (k0_off707 v5174) a + S1x64.size a ≤ S16384x64.size a) ∧
  (∀ a, (k0_off708 v5174) a + S1x1.size a ≤ S16384x1.size a)
instance k0_chk472.dec : ∀ (v5174 : BitVec 32), Decidable (k0_chk472 v5174) := fun v5174 => decidable_of_iff' _ (Iff.of_eq (k0_chk472.eq_1 v5174))
theorem k0_off707_inb : ∀ (v5174 : BitVec 32) (k0_hw472 : k0_chk472 v5174), ∀ a, (k0_off707 v5174) a + S1x64.size a ≤ S16384x64.size a := fun v5174 k0_hw472 => k0_hw472.1
theorem k0_off708_inb : ∀ (v5174 : BitVec 32) (k0_hw472 : k0_chk472 v5174), ∀ a, (k0_off708 v5174) a + S1x1.size a ≤ S16384x1.size a := fun v5174 k0_hw472 => k0_hw472.2

def k0_off709 (v5195 : BitVec 32) : Fin 2 → Nat :=
  let v5197 : Index := Scalar.indexCast v5195
  let c0_1653 : Index := 0#32
  ![v5197.toNat, 0]

def k0_chk473 (v5195 : BitVec 32) : Prop :=
  (∀ a, (k0_off709 v5195) a + S1x64.size a ≤ S50000x64.size a)
instance k0_chk473.dec : ∀ (v5195 : BitVec 32), Decidable (k0_chk473 v5195) := fun v5195 => decidable_of_iff' _ (Iff.of_eq (k0_chk473.eq_1 v5195))
theorem k0_off709_inb : ∀ (v5195 : BitVec 32) (k0_hw473 : k0_chk473 v5195), ∀ a, (k0_off709 v5195) a + S1x64.size a ≤ S50000x64.size a := fun v5195 k0_hw473 => k0_hw473

def k0_off710 (v5196 : BitVec 32) : Fin 2 → Nat :=
  let v5200 : Index := Scalar.indexCast v5196
  let c0_1654 : Index := 0#32
  ![v5200.toNat, 0]

def k0_off711 (v5196 : BitVec 32) : Fin 2 → Nat :=
  let v5208 : Index := Scalar.indexCast v5196
  let c0_1656 : Index := 0#32
  ![v5208.toNat, 0]

def k0_chk474 (v5196 : BitVec 32) : Prop :=
  (∀ a, (k0_off710 v5196) a + S1x64.size a ≤ S16384x64.size a) ∧
  (∀ a, (k0_off711 v5196) a + S1x1.size a ≤ S16384x1.size a)
instance k0_chk474.dec : ∀ (v5196 : BitVec 32), Decidable (k0_chk474 v5196) := fun v5196 => decidable_of_iff' _ (Iff.of_eq (k0_chk474.eq_1 v5196))
theorem k0_off710_inb : ∀ (v5196 : BitVec 32) (k0_hw474 : k0_chk474 v5196), ∀ a, (k0_off710 v5196) a + S1x64.size a ≤ S16384x64.size a := fun v5196 k0_hw474 => k0_hw474.1
theorem k0_off711_inb : ∀ (v5196 : BitVec 32) (k0_hw474 : k0_chk474 v5196), ∀ a, (k0_off711 v5196) a + S1x1.size a ≤ S16384x1.size a := fun v5196 k0_hw474 => k0_hw474.2

def k0_off712 (v5217 : BitVec 32) : Fin 2 → Nat :=
  let v5219 : Index := Scalar.indexCast v5217
  let c0_1660 : Index := 0#32
  ![v5219.toNat, 0]

def k0_chk475 (v5217 : BitVec 32) : Prop :=
  (∀ a, (k0_off712 v5217) a + S1x64.size a ≤ S50000x64.size a)
instance k0_chk475.dec : ∀ (v5217 : BitVec 32), Decidable (k0_chk475 v5217) := fun v5217 => decidable_of_iff' _ (Iff.of_eq (k0_chk475.eq_1 v5217))
theorem k0_off712_inb : ∀ (v5217 : BitVec 32) (k0_hw475 : k0_chk475 v5217), ∀ a, (k0_off712 v5217) a + S1x64.size a ≤ S50000x64.size a := fun v5217 k0_hw475 => k0_hw475

def k0_off713 (v5218 : BitVec 32) : Fin 2 → Nat :=
  let v5222 : Index := Scalar.indexCast v5218
  let c0_1661 : Index := 0#32
  ![v5222.toNat, 0]

def k0_off714 (v5218 : BitVec 32) : Fin 2 → Nat :=
  let v5230 : Index := Scalar.indexCast v5218
  let c0_1663 : Index := 0#32
  ![v5230.toNat, 0]

def k0_chk476 (v5218 : BitVec 32) : Prop :=
  (∀ a, (k0_off713 v5218) a + S1x64.size a ≤ S16384x64.size a) ∧
  (∀ a, (k0_off714 v5218) a + S1x1.size a ≤ S16384x1.size a)
instance k0_chk476.dec : ∀ (v5218 : BitVec 32), Decidable (k0_chk476 v5218) := fun v5218 => decidable_of_iff' _ (Iff.of_eq (k0_chk476.eq_1 v5218))
theorem k0_off713_inb : ∀ (v5218 : BitVec 32) (k0_hw476 : k0_chk476 v5218), ∀ a, (k0_off713 v5218) a + S1x64.size a ≤ S16384x64.size a := fun v5218 k0_hw476 => k0_hw476.1
theorem k0_off714_inb : ∀ (v5218 : BitVec 32) (k0_hw476 : k0_chk476 v5218), ∀ a, (k0_off714 v5218) a + S1x1.size a ≤ S16384x1.size a := fun v5218 k0_hw476 => k0_hw476.2

def k0_off715 (v5239 : BitVec 32) : Fin 2 → Nat :=
  let v5241 : Index := Scalar.indexCast v5239
  let c0_1667 : Index := 0#32
  ![v5241.toNat, 0]

def k0_chk477 (v5239 : BitVec 32) : Prop :=
  (∀ a, (k0_off715 v5239) a + S1x64.size a ≤ S50000x64.size a)
instance k0_chk477.dec : ∀ (v5239 : BitVec 32), Decidable (k0_chk477 v5239) := fun v5239 => decidable_of_iff' _ (Iff.of_eq (k0_chk477.eq_1 v5239))
theorem k0_off715_inb : ∀ (v5239 : BitVec 32) (k0_hw477 : k0_chk477 v5239), ∀ a, (k0_off715 v5239) a + S1x64.size a ≤ S50000x64.size a := fun v5239 k0_hw477 => k0_hw477

def k0_off716 (v5240 : BitVec 32) : Fin 2 → Nat :=
  let v5244 : Index := Scalar.indexCast v5240
  let c0_1668 : Index := 0#32
  ![v5244.toNat, 0]

def k0_off717 (v5240 : BitVec 32) : Fin 2 → Nat :=
  let v5252 : Index := Scalar.indexCast v5240
  let c0_1670 : Index := 0#32
  ![v5252.toNat, 0]

def k0_chk478 (v5240 : BitVec 32) : Prop :=
  (∀ a, (k0_off716 v5240) a + S1x64.size a ≤ S16384x64.size a) ∧
  (∀ a, (k0_off717 v5240) a + S1x1.size a ≤ S16384x1.size a)
instance k0_chk478.dec : ∀ (v5240 : BitVec 32), Decidable (k0_chk478 v5240) := fun v5240 => decidable_of_iff' _ (Iff.of_eq (k0_chk478.eq_1 v5240))
theorem k0_off716_inb : ∀ (v5240 : BitVec 32) (k0_hw478 : k0_chk478 v5240), ∀ a, (k0_off716 v5240) a + S1x64.size a ≤ S16384x64.size a := fun v5240 k0_hw478 => k0_hw478.1
theorem k0_off717_inb : ∀ (v5240 : BitVec 32) (k0_hw478 : k0_chk478 v5240), ∀ a, (k0_off717 v5240) a + S1x1.size a ≤ S16384x1.size a := fun v5240 k0_hw478 => k0_hw478.2

def k0_off718 (v5261 : BitVec 32) : Fin 2 → Nat :=
  let v5263 : Index := Scalar.indexCast v5261
  let c0_1674 : Index := 0#32
  ![v5263.toNat, 0]

def k0_chk479 (v5261 : BitVec 32) : Prop :=
  (∀ a, (k0_off718 v5261) a + S1x64.size a ≤ S50000x64.size a)
instance k0_chk479.dec : ∀ (v5261 : BitVec 32), Decidable (k0_chk479 v5261) := fun v5261 => decidable_of_iff' _ (Iff.of_eq (k0_chk479.eq_1 v5261))
theorem k0_off718_inb : ∀ (v5261 : BitVec 32) (k0_hw479 : k0_chk479 v5261), ∀ a, (k0_off718 v5261) a + S1x64.size a ≤ S50000x64.size a := fun v5261 k0_hw479 => k0_hw479

def k0_off719 (v5262 : BitVec 32) : Fin 2 → Nat :=
  let v5266 : Index := Scalar.indexCast v5262
  let c0_1675 : Index := 0#32
  ![v5266.toNat, 0]

def k0_off720 (v5262 : BitVec 32) : Fin 2 → Nat :=
  let v5274 : Index := Scalar.indexCast v5262
  let c0_1677 : Index := 0#32
  ![v5274.toNat, 0]

def k0_chk480 (v5262 : BitVec 32) : Prop :=
  (∀ a, (k0_off719 v5262) a + S1x64.size a ≤ S16384x64.size a) ∧
  (∀ a, (k0_off720 v5262) a + S1x1.size a ≤ S16384x1.size a)
instance k0_chk480.dec : ∀ (v5262 : BitVec 32), Decidable (k0_chk480 v5262) := fun v5262 => decidable_of_iff' _ (Iff.of_eq (k0_chk480.eq_1 v5262))
theorem k0_off719_inb : ∀ (v5262 : BitVec 32) (k0_hw480 : k0_chk480 v5262), ∀ a, (k0_off719 v5262) a + S1x64.size a ≤ S16384x64.size a := fun v5262 k0_hw480 => k0_hw480.1
theorem k0_off720_inb : ∀ (v5262 : BitVec 32) (k0_hw480 : k0_chk480 v5262), ∀ a, (k0_off720 v5262) a + S1x1.size a ≤ S16384x1.size a := fun v5262 k0_hw480 => k0_hw480.2

def k0_off721 (v5283 : BitVec 32) : Fin 2 → Nat :=
  let v5285 : Index := Scalar.indexCast v5283
  let c0_1681 : Index := 0#32
  ![v5285.toNat, 0]

def k0_chk481 (v5283 : BitVec 32) : Prop :=
  (∀ a, (k0_off721 v5283) a + S1x64.size a ≤ S50000x64.size a)
instance k0_chk481.dec : ∀ (v5283 : BitVec 32), Decidable (k0_chk481 v5283) := fun v5283 => decidable_of_iff' _ (Iff.of_eq (k0_chk481.eq_1 v5283))
theorem k0_off721_inb : ∀ (v5283 : BitVec 32) (k0_hw481 : k0_chk481 v5283), ∀ a, (k0_off721 v5283) a + S1x64.size a ≤ S50000x64.size a := fun v5283 k0_hw481 => k0_hw481

def k0_off722 (v5284 : BitVec 32) : Fin 2 → Nat :=
  let v5288 : Index := Scalar.indexCast v5284
  let c0_1682 : Index := 0#32
  ![v5288.toNat, 0]

def k0_off723 (v5284 : BitVec 32) : Fin 2 → Nat :=
  let v5296 : Index := Scalar.indexCast v5284
  let c0_1684 : Index := 0#32
  ![v5296.toNat, 0]

def k0_chk482 (v5284 : BitVec 32) : Prop :=
  (∀ a, (k0_off722 v5284) a + S1x64.size a ≤ S16384x64.size a) ∧
  (∀ a, (k0_off723 v5284) a + S1x1.size a ≤ S16384x1.size a)
instance k0_chk482.dec : ∀ (v5284 : BitVec 32), Decidable (k0_chk482 v5284) := fun v5284 => decidable_of_iff' _ (Iff.of_eq (k0_chk482.eq_1 v5284))
theorem k0_off722_inb : ∀ (v5284 : BitVec 32) (k0_hw482 : k0_chk482 v5284), ∀ a, (k0_off722 v5284) a + S1x64.size a ≤ S16384x64.size a := fun v5284 k0_hw482 => k0_hw482.1
theorem k0_off723_inb : ∀ (v5284 : BitVec 32) (k0_hw482 : k0_chk482 v5284), ∀ a, (k0_off723 v5284) a + S1x1.size a ≤ S16384x1.size a := fun v5284 k0_hw482 => k0_hw482.2

def k0_off724 (v5305 : BitVec 32) : Fin 2 → Nat :=
  let v5307 : Index := Scalar.indexCast v5305
  let c0_1688 : Index := 0#32
  ![v5307.toNat, 0]

def k0_chk483 (v5305 : BitVec 32) : Prop :=
  (∀ a, (k0_off724 v5305) a + S1x64.size a ≤ S50000x64.size a)
instance k0_chk483.dec : ∀ (v5305 : BitVec 32), Decidable (k0_chk483 v5305) := fun v5305 => decidable_of_iff' _ (Iff.of_eq (k0_chk483.eq_1 v5305))
theorem k0_off724_inb : ∀ (v5305 : BitVec 32) (k0_hw483 : k0_chk483 v5305), ∀ a, (k0_off724 v5305) a + S1x64.size a ≤ S50000x64.size a := fun v5305 k0_hw483 => k0_hw483

def k0_off725 (v5306 : BitVec 32) : Fin 2 → Nat :=
  let v5310 : Index := Scalar.indexCast v5306
  let c0_1689 : Index := 0#32
  ![v5310.toNat, 0]

def k0_off726 (v5306 : BitVec 32) : Fin 2 → Nat :=
  let v5318 : Index := Scalar.indexCast v5306
  let c0_1691 : Index := 0#32
  ![v5318.toNat, 0]

def k0_chk484 (v5306 : BitVec 32) : Prop :=
  (∀ a, (k0_off725 v5306) a + S1x64.size a ≤ S16384x64.size a) ∧
  (∀ a, (k0_off726 v5306) a + S1x1.size a ≤ S16384x1.size a)
instance k0_chk484.dec : ∀ (v5306 : BitVec 32), Decidable (k0_chk484 v5306) := fun v5306 => decidable_of_iff' _ (Iff.of_eq (k0_chk484.eq_1 v5306))
theorem k0_off725_inb : ∀ (v5306 : BitVec 32) (k0_hw484 : k0_chk484 v5306), ∀ a, (k0_off725 v5306) a + S1x64.size a ≤ S16384x64.size a := fun v5306 k0_hw484 => k0_hw484.1
theorem k0_off726_inb : ∀ (v5306 : BitVec 32) (k0_hw484 : k0_chk484 v5306), ∀ a, (k0_off726 v5306) a + S1x1.size a ≤ S16384x1.size a := fun v5306 k0_hw484 => k0_hw484.2

def k0_off727 (v5327 : BitVec 32) : Fin 2 → Nat :=
  let v5329 : Index := Scalar.indexCast v5327
  let c0_1695 : Index := 0#32
  ![v5329.toNat, 0]

def k0_chk485 (v5327 : BitVec 32) : Prop :=
  (∀ a, (k0_off727 v5327) a + S1x64.size a ≤ S50000x64.size a)
instance k0_chk485.dec : ∀ (v5327 : BitVec 32), Decidable (k0_chk485 v5327) := fun v5327 => decidable_of_iff' _ (Iff.of_eq (k0_chk485.eq_1 v5327))
theorem k0_off727_inb : ∀ (v5327 : BitVec 32) (k0_hw485 : k0_chk485 v5327), ∀ a, (k0_off727 v5327) a + S1x64.size a ≤ S50000x64.size a := fun v5327 k0_hw485 => k0_hw485

def k0_off728 (v5328 : BitVec 32) : Fin 2 → Nat :=
  let v5332 : Index := Scalar.indexCast v5328
  let c0_1696 : Index := 0#32
  ![v5332.toNat, 0]

def k0_off729 (v5328 : BitVec 32) : Fin 2 → Nat :=
  let v5340 : Index := Scalar.indexCast v5328
  let c0_1698 : Index := 0#32
  ![v5340.toNat, 0]

def k0_chk486 (v5328 : BitVec 32) : Prop :=
  (∀ a, (k0_off728 v5328) a + S1x64.size a ≤ S16384x64.size a) ∧
  (∀ a, (k0_off729 v5328) a + S1x1.size a ≤ S16384x1.size a)
instance k0_chk486.dec : ∀ (v5328 : BitVec 32), Decidable (k0_chk486 v5328) := fun v5328 => decidable_of_iff' _ (Iff.of_eq (k0_chk486.eq_1 v5328))
theorem k0_off728_inb : ∀ (v5328 : BitVec 32) (k0_hw486 : k0_chk486 v5328), ∀ a, (k0_off728 v5328) a + S1x64.size a ≤ S16384x64.size a := fun v5328 k0_hw486 => k0_hw486.1
theorem k0_off729_inb : ∀ (v5328 : BitVec 32) (k0_hw486 : k0_chk486 v5328), ∀ a, (k0_off729 v5328) a + S1x1.size a ≤ S16384x1.size a := fun v5328 k0_hw486 => k0_hw486.2

def k0_off730 (v5349 : BitVec 32) : Fin 2 → Nat :=
  let v5351 : Index := Scalar.indexCast v5349
  let c0_1702 : Index := 0#32
  ![v5351.toNat, 0]

def k0_chk487 (v5349 : BitVec 32) : Prop :=
  (∀ a, (k0_off730 v5349) a + S1x64.size a ≤ S50000x64.size a)
instance k0_chk487.dec : ∀ (v5349 : BitVec 32), Decidable (k0_chk487 v5349) := fun v5349 => decidable_of_iff' _ (Iff.of_eq (k0_chk487.eq_1 v5349))
theorem k0_off730_inb : ∀ (v5349 : BitVec 32) (k0_hw487 : k0_chk487 v5349), ∀ a, (k0_off730 v5349) a + S1x64.size a ≤ S50000x64.size a := fun v5349 k0_hw487 => k0_hw487

def k0_off731 (v5350 : BitVec 32) : Fin 2 → Nat :=
  let v5354 : Index := Scalar.indexCast v5350
  let c0_1703 : Index := 0#32
  ![v5354.toNat, 0]

def k0_off732 (v5350 : BitVec 32) : Fin 2 → Nat :=
  let v5362 : Index := Scalar.indexCast v5350
  let c0_1705 : Index := 0#32
  ![v5362.toNat, 0]

def k0_chk488 (v5350 : BitVec 32) : Prop :=
  (∀ a, (k0_off731 v5350) a + S1x64.size a ≤ S16384x64.size a) ∧
  (∀ a, (k0_off732 v5350) a + S1x1.size a ≤ S16384x1.size a)
instance k0_chk488.dec : ∀ (v5350 : BitVec 32), Decidable (k0_chk488 v5350) := fun v5350 => decidable_of_iff' _ (Iff.of_eq (k0_chk488.eq_1 v5350))
theorem k0_off731_inb : ∀ (v5350 : BitVec 32) (k0_hw488 : k0_chk488 v5350), ∀ a, (k0_off731 v5350) a + S1x64.size a ≤ S16384x64.size a := fun v5350 k0_hw488 => k0_hw488.1
theorem k0_off732_inb : ∀ (v5350 : BitVec 32) (k0_hw488 : k0_chk488 v5350), ∀ a, (k0_off732 v5350) a + S1x1.size a ≤ S16384x1.size a := fun v5350 k0_hw488 => k0_hw488.2

def k0_off733 (v5371 : BitVec 32) : Fin 2 → Nat :=
  let v5373 : Index := Scalar.indexCast v5371
  let c0_1709 : Index := 0#32
  ![v5373.toNat, 0]

def k0_chk489 (v5371 : BitVec 32) : Prop :=
  (∀ a, (k0_off733 v5371) a + S1x64.size a ≤ S50000x64.size a)
instance k0_chk489.dec : ∀ (v5371 : BitVec 32), Decidable (k0_chk489 v5371) := fun v5371 => decidable_of_iff' _ (Iff.of_eq (k0_chk489.eq_1 v5371))
theorem k0_off733_inb : ∀ (v5371 : BitVec 32) (k0_hw489 : k0_chk489 v5371), ∀ a, (k0_off733 v5371) a + S1x64.size a ≤ S50000x64.size a := fun v5371 k0_hw489 => k0_hw489

def k0_off734 (v5372 : BitVec 32) : Fin 2 → Nat :=
  let v5376 : Index := Scalar.indexCast v5372
  let c0_1710 : Index := 0#32
  ![v5376.toNat, 0]

def k0_off735 (v5372 : BitVec 32) : Fin 2 → Nat :=
  let v5384 : Index := Scalar.indexCast v5372
  let c0_1712 : Index := 0#32
  ![v5384.toNat, 0]

def k0_chk490 (v5372 : BitVec 32) : Prop :=
  (∀ a, (k0_off734 v5372) a + S1x64.size a ≤ S16384x64.size a) ∧
  (∀ a, (k0_off735 v5372) a + S1x1.size a ≤ S16384x1.size a)
instance k0_chk490.dec : ∀ (v5372 : BitVec 32), Decidable (k0_chk490 v5372) := fun v5372 => decidable_of_iff' _ (Iff.of_eq (k0_chk490.eq_1 v5372))
theorem k0_off734_inb : ∀ (v5372 : BitVec 32) (k0_hw490 : k0_chk490 v5372), ∀ a, (k0_off734 v5372) a + S1x64.size a ≤ S16384x64.size a := fun v5372 k0_hw490 => k0_hw490.1
theorem k0_off735_inb : ∀ (v5372 : BitVec 32) (k0_hw490 : k0_chk490 v5372), ∀ a, (k0_off735 v5372) a + S1x1.size a ≤ S16384x1.size a := fun v5372 k0_hw490 => k0_hw490.2

def k0_off736 (v5393 : BitVec 32) : Fin 2 → Nat :=
  let v5395 : Index := Scalar.indexCast v5393
  let c0_1716 : Index := 0#32
  ![v5395.toNat, 0]

def k0_chk491 (v5393 : BitVec 32) : Prop :=
  (∀ a, (k0_off736 v5393) a + S1x64.size a ≤ S50000x64.size a)
instance k0_chk491.dec : ∀ (v5393 : BitVec 32), Decidable (k0_chk491 v5393) := fun v5393 => decidable_of_iff' _ (Iff.of_eq (k0_chk491.eq_1 v5393))
theorem k0_off736_inb : ∀ (v5393 : BitVec 32) (k0_hw491 : k0_chk491 v5393), ∀ a, (k0_off736 v5393) a + S1x64.size a ≤ S50000x64.size a := fun v5393 k0_hw491 => k0_hw491

def k0_off737 (v5394 : BitVec 32) : Fin 2 → Nat :=
  let v5398 : Index := Scalar.indexCast v5394
  let c0_1717 : Index := 0#32
  ![v5398.toNat, 0]

def k0_off738 (v5394 : BitVec 32) : Fin 2 → Nat :=
  let v5406 : Index := Scalar.indexCast v5394
  let c0_1719 : Index := 0#32
  ![v5406.toNat, 0]

def k0_chk492 (v5394 : BitVec 32) : Prop :=
  (∀ a, (k0_off737 v5394) a + S1x64.size a ≤ S16384x64.size a) ∧
  (∀ a, (k0_off738 v5394) a + S1x1.size a ≤ S16384x1.size a)
instance k0_chk492.dec : ∀ (v5394 : BitVec 32), Decidable (k0_chk492 v5394) := fun v5394 => decidable_of_iff' _ (Iff.of_eq (k0_chk492.eq_1 v5394))
theorem k0_off737_inb : ∀ (v5394 : BitVec 32) (k0_hw492 : k0_chk492 v5394), ∀ a, (k0_off737 v5394) a + S1x64.size a ≤ S16384x64.size a := fun v5394 k0_hw492 => k0_hw492.1
theorem k0_off738_inb : ∀ (v5394 : BitVec 32) (k0_hw492 : k0_chk492 v5394), ∀ a, (k0_off738 v5394) a + S1x1.size a ≤ S16384x1.size a := fun v5394 k0_hw492 => k0_hw492.2

def k0_off739 (v5415 : BitVec 32) : Fin 2 → Nat :=
  let v5417 : Index := Scalar.indexCast v5415
  let c0_1723 : Index := 0#32
  ![v5417.toNat, 0]

def k0_chk493 (v5415 : BitVec 32) : Prop :=
  (∀ a, (k0_off739 v5415) a + S1x64.size a ≤ S50000x64.size a)
instance k0_chk493.dec : ∀ (v5415 : BitVec 32), Decidable (k0_chk493 v5415) := fun v5415 => decidable_of_iff' _ (Iff.of_eq (k0_chk493.eq_1 v5415))
theorem k0_off739_inb : ∀ (v5415 : BitVec 32) (k0_hw493 : k0_chk493 v5415), ∀ a, (k0_off739 v5415) a + S1x64.size a ≤ S50000x64.size a := fun v5415 k0_hw493 => k0_hw493

def k0_off740 (v5416 : BitVec 32) : Fin 2 → Nat :=
  let v5420 : Index := Scalar.indexCast v5416
  let c0_1724 : Index := 0#32
  ![v5420.toNat, 0]

def k0_off741 (v5416 : BitVec 32) : Fin 2 → Nat :=
  let v5428 : Index := Scalar.indexCast v5416
  let c0_1726 : Index := 0#32
  ![v5428.toNat, 0]

def k0_chk494 (v5416 : BitVec 32) : Prop :=
  (∀ a, (k0_off740 v5416) a + S1x64.size a ≤ S16384x64.size a) ∧
  (∀ a, (k0_off741 v5416) a + S1x1.size a ≤ S16384x1.size a)
instance k0_chk494.dec : ∀ (v5416 : BitVec 32), Decidable (k0_chk494 v5416) := fun v5416 => decidable_of_iff' _ (Iff.of_eq (k0_chk494.eq_1 v5416))
theorem k0_off740_inb : ∀ (v5416 : BitVec 32) (k0_hw494 : k0_chk494 v5416), ∀ a, (k0_off740 v5416) a + S1x64.size a ≤ S16384x64.size a := fun v5416 k0_hw494 => k0_hw494.1
theorem k0_off741_inb : ∀ (v5416 : BitVec 32) (k0_hw494 : k0_chk494 v5416), ∀ a, (k0_off741 v5416) a + S1x1.size a ≤ S16384x1.size a := fun v5416 k0_hw494 => k0_hw494.2

def k0_off742 (v5437 : BitVec 32) : Fin 2 → Nat :=
  let v5439 : Index := Scalar.indexCast v5437
  let c0_1730 : Index := 0#32
  ![v5439.toNat, 0]

def k0_chk495 (v5437 : BitVec 32) : Prop :=
  (∀ a, (k0_off742 v5437) a + S1x64.size a ≤ S50000x64.size a)
instance k0_chk495.dec : ∀ (v5437 : BitVec 32), Decidable (k0_chk495 v5437) := fun v5437 => decidable_of_iff' _ (Iff.of_eq (k0_chk495.eq_1 v5437))
theorem k0_off742_inb : ∀ (v5437 : BitVec 32) (k0_hw495 : k0_chk495 v5437), ∀ a, (k0_off742 v5437) a + S1x64.size a ≤ S50000x64.size a := fun v5437 k0_hw495 => k0_hw495

def k0_off743 (v5438 : BitVec 32) : Fin 2 → Nat :=
  let v5442 : Index := Scalar.indexCast v5438
  let c0_1731 : Index := 0#32
  ![v5442.toNat, 0]

def k0_off744 (v5438 : BitVec 32) : Fin 2 → Nat :=
  let v5450 : Index := Scalar.indexCast v5438
  let c0_1733 : Index := 0#32
  ![v5450.toNat, 0]

def k0_chk496 (v5438 : BitVec 32) : Prop :=
  (∀ a, (k0_off743 v5438) a + S1x64.size a ≤ S16384x64.size a) ∧
  (∀ a, (k0_off744 v5438) a + S1x1.size a ≤ S16384x1.size a)
instance k0_chk496.dec : ∀ (v5438 : BitVec 32), Decidable (k0_chk496 v5438) := fun v5438 => decidable_of_iff' _ (Iff.of_eq (k0_chk496.eq_1 v5438))
theorem k0_off743_inb : ∀ (v5438 : BitVec 32) (k0_hw496 : k0_chk496 v5438), ∀ a, (k0_off743 v5438) a + S1x64.size a ≤ S16384x64.size a := fun v5438 k0_hw496 => k0_hw496.1
theorem k0_off744_inb : ∀ (v5438 : BitVec 32) (k0_hw496 : k0_chk496 v5438), ∀ a, (k0_off744 v5438) a + S1x1.size a ≤ S16384x1.size a := fun v5438 k0_hw496 => k0_hw496.2

def k0_off745 (v5459 : BitVec 32) : Fin 2 → Nat :=
  let v5461 : Index := Scalar.indexCast v5459
  let c0_1737 : Index := 0#32
  ![v5461.toNat, 0]

def k0_chk497 (v5459 : BitVec 32) : Prop :=
  (∀ a, (k0_off745 v5459) a + S1x64.size a ≤ S50000x64.size a)
instance k0_chk497.dec : ∀ (v5459 : BitVec 32), Decidable (k0_chk497 v5459) := fun v5459 => decidable_of_iff' _ (Iff.of_eq (k0_chk497.eq_1 v5459))
theorem k0_off745_inb : ∀ (v5459 : BitVec 32) (k0_hw497 : k0_chk497 v5459), ∀ a, (k0_off745 v5459) a + S1x64.size a ≤ S50000x64.size a := fun v5459 k0_hw497 => k0_hw497

def k0_off746 (v5460 : BitVec 32) : Fin 2 → Nat :=
  let v5464 : Index := Scalar.indexCast v5460
  let c0_1738 : Index := 0#32
  ![v5464.toNat, 0]

def k0_off747 (v5460 : BitVec 32) : Fin 2 → Nat :=
  let v5472 : Index := Scalar.indexCast v5460
  let c0_1740 : Index := 0#32
  ![v5472.toNat, 0]

def k0_chk498 (v5460 : BitVec 32) : Prop :=
  (∀ a, (k0_off746 v5460) a + S1x64.size a ≤ S16384x64.size a) ∧
  (∀ a, (k0_off747 v5460) a + S1x1.size a ≤ S16384x1.size a)
instance k0_chk498.dec : ∀ (v5460 : BitVec 32), Decidable (k0_chk498 v5460) := fun v5460 => decidable_of_iff' _ (Iff.of_eq (k0_chk498.eq_1 v5460))
theorem k0_off746_inb : ∀ (v5460 : BitVec 32) (k0_hw498 : k0_chk498 v5460), ∀ a, (k0_off746 v5460) a + S1x64.size a ≤ S16384x64.size a := fun v5460 k0_hw498 => k0_hw498.1
theorem k0_off747_inb : ∀ (v5460 : BitVec 32) (k0_hw498 : k0_chk498 v5460), ∀ a, (k0_off747 v5460) a + S1x1.size a ≤ S16384x1.size a := fun v5460 k0_hw498 => k0_hw498.2

def k0_off748 (v5481 : BitVec 32) : Fin 2 → Nat :=
  let v5483 : Index := Scalar.indexCast v5481
  let c0_1744 : Index := 0#32
  ![v5483.toNat, 0]

def k0_chk499 (v5481 : BitVec 32) : Prop :=
  (∀ a, (k0_off748 v5481) a + S1x64.size a ≤ S50000x64.size a)
instance k0_chk499.dec : ∀ (v5481 : BitVec 32), Decidable (k0_chk499 v5481) := fun v5481 => decidable_of_iff' _ (Iff.of_eq (k0_chk499.eq_1 v5481))
theorem k0_off748_inb : ∀ (v5481 : BitVec 32) (k0_hw499 : k0_chk499 v5481), ∀ a, (k0_off748 v5481) a + S1x64.size a ≤ S50000x64.size a := fun v5481 k0_hw499 => k0_hw499

def k0_off749 (v5482 : BitVec 32) : Fin 2 → Nat :=
  let v5486 : Index := Scalar.indexCast v5482
  let c0_1745 : Index := 0#32
  ![v5486.toNat, 0]

def k0_off750 (v5482 : BitVec 32) : Fin 2 → Nat :=
  let v5494 : Index := Scalar.indexCast v5482
  let c0_1747 : Index := 0#32
  ![v5494.toNat, 0]

def k0_chk500 (v5482 : BitVec 32) : Prop :=
  (∀ a, (k0_off749 v5482) a + S1x64.size a ≤ S16384x64.size a) ∧
  (∀ a, (k0_off750 v5482) a + S1x1.size a ≤ S16384x1.size a)
instance k0_chk500.dec : ∀ (v5482 : BitVec 32), Decidable (k0_chk500 v5482) := fun v5482 => decidable_of_iff' _ (Iff.of_eq (k0_chk500.eq_1 v5482))
theorem k0_off749_inb : ∀ (v5482 : BitVec 32) (k0_hw500 : k0_chk500 v5482), ∀ a, (k0_off749 v5482) a + S1x64.size a ≤ S16384x64.size a := fun v5482 k0_hw500 => k0_hw500.1
theorem k0_off750_inb : ∀ (v5482 : BitVec 32) (k0_hw500 : k0_chk500 v5482), ∀ a, (k0_off750 v5482) a + S1x1.size a ≤ S16384x1.size a := fun v5482 k0_hw500 => k0_hw500.2

def k0_off751 (v5503 : BitVec 32) : Fin 2 → Nat :=
  let v5505 : Index := Scalar.indexCast v5503
  let c0_1751 : Index := 0#32
  ![v5505.toNat, 0]

def k0_chk501 (v5503 : BitVec 32) : Prop :=
  (∀ a, (k0_off751 v5503) a + S1x64.size a ≤ S50000x64.size a)
instance k0_chk501.dec : ∀ (v5503 : BitVec 32), Decidable (k0_chk501 v5503) := fun v5503 => decidable_of_iff' _ (Iff.of_eq (k0_chk501.eq_1 v5503))
theorem k0_off751_inb : ∀ (v5503 : BitVec 32) (k0_hw501 : k0_chk501 v5503), ∀ a, (k0_off751 v5503) a + S1x64.size a ≤ S50000x64.size a := fun v5503 k0_hw501 => k0_hw501

def k0_off752 (v5504 : BitVec 32) : Fin 2 → Nat :=
  let v5508 : Index := Scalar.indexCast v5504
  let c0_1752 : Index := 0#32
  ![v5508.toNat, 0]

def k0_off753 (v5504 : BitVec 32) : Fin 2 → Nat :=
  let v5516 : Index := Scalar.indexCast v5504
  let c0_1754 : Index := 0#32
  ![v5516.toNat, 0]

def k0_chk502 (v5504 : BitVec 32) : Prop :=
  (∀ a, (k0_off752 v5504) a + S1x64.size a ≤ S16384x64.size a) ∧
  (∀ a, (k0_off753 v5504) a + S1x1.size a ≤ S16384x1.size a)
instance k0_chk502.dec : ∀ (v5504 : BitVec 32), Decidable (k0_chk502 v5504) := fun v5504 => decidable_of_iff' _ (Iff.of_eq (k0_chk502.eq_1 v5504))
theorem k0_off752_inb : ∀ (v5504 : BitVec 32) (k0_hw502 : k0_chk502 v5504), ∀ a, (k0_off752 v5504) a + S1x64.size a ≤ S16384x64.size a := fun v5504 k0_hw502 => k0_hw502.1
theorem k0_off753_inb : ∀ (v5504 : BitVec 32) (k0_hw502 : k0_chk502 v5504), ∀ a, (k0_off753 v5504) a + S1x1.size a ≤ S16384x1.size a := fun v5504 k0_hw502 => k0_hw502.2

def k0_off754 (v5525 : BitVec 32) : Fin 2 → Nat :=
  let v5527 : Index := Scalar.indexCast v5525
  let c0_1758 : Index := 0#32
  ![v5527.toNat, 0]

def k0_chk503 (v5525 : BitVec 32) : Prop :=
  (∀ a, (k0_off754 v5525) a + S1x64.size a ≤ S50000x64.size a)
instance k0_chk503.dec : ∀ (v5525 : BitVec 32), Decidable (k0_chk503 v5525) := fun v5525 => decidable_of_iff' _ (Iff.of_eq (k0_chk503.eq_1 v5525))
theorem k0_off754_inb : ∀ (v5525 : BitVec 32) (k0_hw503 : k0_chk503 v5525), ∀ a, (k0_off754 v5525) a + S1x64.size a ≤ S50000x64.size a := fun v5525 k0_hw503 => k0_hw503

def k0_off755 (v5526 : BitVec 32) : Fin 2 → Nat :=
  let v5530 : Index := Scalar.indexCast v5526
  let c0_1759 : Index := 0#32
  ![v5530.toNat, 0]

def k0_off756 (v5526 : BitVec 32) : Fin 2 → Nat :=
  let v5538 : Index := Scalar.indexCast v5526
  let c0_1761 : Index := 0#32
  ![v5538.toNat, 0]

def k0_chk504 (v5526 : BitVec 32) : Prop :=
  (∀ a, (k0_off755 v5526) a + S1x64.size a ≤ S16384x64.size a) ∧
  (∀ a, (k0_off756 v5526) a + S1x1.size a ≤ S16384x1.size a)
instance k0_chk504.dec : ∀ (v5526 : BitVec 32), Decidable (k0_chk504 v5526) := fun v5526 => decidable_of_iff' _ (Iff.of_eq (k0_chk504.eq_1 v5526))
theorem k0_off755_inb : ∀ (v5526 : BitVec 32) (k0_hw504 : k0_chk504 v5526), ∀ a, (k0_off755 v5526) a + S1x64.size a ≤ S16384x64.size a := fun v5526 k0_hw504 => k0_hw504.1
theorem k0_off756_inb : ∀ (v5526 : BitVec 32) (k0_hw504 : k0_chk504 v5526), ∀ a, (k0_off756 v5526) a + S1x1.size a ≤ S16384x1.size a := fun v5526 k0_hw504 => k0_hw504.2

def k0_off757 (v5547 : BitVec 32) : Fin 2 → Nat :=
  let v5549 : Index := Scalar.indexCast v5547
  let c0_1765 : Index := 0#32
  ![v5549.toNat, 0]

def k0_chk505 (v5547 : BitVec 32) : Prop :=
  (∀ a, (k0_off757 v5547) a + S1x64.size a ≤ S50000x64.size a)
instance k0_chk505.dec : ∀ (v5547 : BitVec 32), Decidable (k0_chk505 v5547) := fun v5547 => decidable_of_iff' _ (Iff.of_eq (k0_chk505.eq_1 v5547))
theorem k0_off757_inb : ∀ (v5547 : BitVec 32) (k0_hw505 : k0_chk505 v5547), ∀ a, (k0_off757 v5547) a + S1x64.size a ≤ S50000x64.size a := fun v5547 k0_hw505 => k0_hw505

def k0_off758 (v5548 : BitVec 32) : Fin 2 → Nat :=
  let v5552 : Index := Scalar.indexCast v5548
  let c0_1766 : Index := 0#32
  ![v5552.toNat, 0]

def k0_off759 (v5548 : BitVec 32) : Fin 2 → Nat :=
  let v5560 : Index := Scalar.indexCast v5548
  let c0_1768 : Index := 0#32
  ![v5560.toNat, 0]

def k0_chk506 (v5548 : BitVec 32) : Prop :=
  (∀ a, (k0_off758 v5548) a + S1x64.size a ≤ S16384x64.size a) ∧
  (∀ a, (k0_off759 v5548) a + S1x1.size a ≤ S16384x1.size a)
instance k0_chk506.dec : ∀ (v5548 : BitVec 32), Decidable (k0_chk506 v5548) := fun v5548 => decidable_of_iff' _ (Iff.of_eq (k0_chk506.eq_1 v5548))
theorem k0_off758_inb : ∀ (v5548 : BitVec 32) (k0_hw506 : k0_chk506 v5548), ∀ a, (k0_off758 v5548) a + S1x64.size a ≤ S16384x64.size a := fun v5548 k0_hw506 => k0_hw506.1
theorem k0_off759_inb : ∀ (v5548 : BitVec 32) (k0_hw506 : k0_chk506 v5548), ∀ a, (k0_off759 v5548) a + S1x1.size a ≤ S16384x1.size a := fun v5548 k0_hw506 => k0_hw506.2

def k0_off760 (v5569 : BitVec 32) : Fin 2 → Nat :=
  let v5571 : Index := Scalar.indexCast v5569
  let c0_1772 : Index := 0#32
  ![v5571.toNat, 0]

def k0_chk507 (v5569 : BitVec 32) : Prop :=
  (∀ a, (k0_off760 v5569) a + S1x64.size a ≤ S50000x64.size a)
instance k0_chk507.dec : ∀ (v5569 : BitVec 32), Decidable (k0_chk507 v5569) := fun v5569 => decidable_of_iff' _ (Iff.of_eq (k0_chk507.eq_1 v5569))
theorem k0_off760_inb : ∀ (v5569 : BitVec 32) (k0_hw507 : k0_chk507 v5569), ∀ a, (k0_off760 v5569) a + S1x64.size a ≤ S50000x64.size a := fun v5569 k0_hw507 => k0_hw507

def k0_off761 (v5570 : BitVec 32) : Fin 2 → Nat :=
  let v5574 : Index := Scalar.indexCast v5570
  let c0_1773 : Index := 0#32
  ![v5574.toNat, 0]

def k0_off762 (v5570 : BitVec 32) : Fin 2 → Nat :=
  let v5582 : Index := Scalar.indexCast v5570
  let c0_1775 : Index := 0#32
  ![v5582.toNat, 0]

def k0_chk508 (v5570 : BitVec 32) : Prop :=
  (∀ a, (k0_off761 v5570) a + S1x64.size a ≤ S16384x64.size a) ∧
  (∀ a, (k0_off762 v5570) a + S1x1.size a ≤ S16384x1.size a)
instance k0_chk508.dec : ∀ (v5570 : BitVec 32), Decidable (k0_chk508 v5570) := fun v5570 => decidable_of_iff' _ (Iff.of_eq (k0_chk508.eq_1 v5570))
theorem k0_off761_inb : ∀ (v5570 : BitVec 32) (k0_hw508 : k0_chk508 v5570), ∀ a, (k0_off761 v5570) a + S1x64.size a ≤ S16384x64.size a := fun v5570 k0_hw508 => k0_hw508.1
theorem k0_off762_inb : ∀ (v5570 : BitVec 32) (k0_hw508 : k0_chk508 v5570), ∀ a, (k0_off762 v5570) a + S1x1.size a ≤ S16384x1.size a := fun v5570 k0_hw508 => k0_hw508.2

def k0_off763 (v5591 : BitVec 32) : Fin 2 → Nat :=
  let v5593 : Index := Scalar.indexCast v5591
  let c0_1779 : Index := 0#32
  ![v5593.toNat, 0]

def k0_chk509 (v5591 : BitVec 32) : Prop :=
  (∀ a, (k0_off763 v5591) a + S1x64.size a ≤ S50000x64.size a)
instance k0_chk509.dec : ∀ (v5591 : BitVec 32), Decidable (k0_chk509 v5591) := fun v5591 => decidable_of_iff' _ (Iff.of_eq (k0_chk509.eq_1 v5591))
theorem k0_off763_inb : ∀ (v5591 : BitVec 32) (k0_hw509 : k0_chk509 v5591), ∀ a, (k0_off763 v5591) a + S1x64.size a ≤ S50000x64.size a := fun v5591 k0_hw509 => k0_hw509

def k0_off764 (v5592 : BitVec 32) : Fin 2 → Nat :=
  let v5596 : Index := Scalar.indexCast v5592
  let c0_1780 : Index := 0#32
  ![v5596.toNat, 0]

def k0_off765 (v5592 : BitVec 32) : Fin 2 → Nat :=
  let v5604 : Index := Scalar.indexCast v5592
  let c0_1782 : Index := 0#32
  ![v5604.toNat, 0]

def k0_chk510 (v5592 : BitVec 32) : Prop :=
  (∀ a, (k0_off764 v5592) a + S1x64.size a ≤ S16384x64.size a) ∧
  (∀ a, (k0_off765 v5592) a + S1x1.size a ≤ S16384x1.size a)
instance k0_chk510.dec : ∀ (v5592 : BitVec 32), Decidable (k0_chk510 v5592) := fun v5592 => decidable_of_iff' _ (Iff.of_eq (k0_chk510.eq_1 v5592))
theorem k0_off764_inb : ∀ (v5592 : BitVec 32) (k0_hw510 : k0_chk510 v5592), ∀ a, (k0_off764 v5592) a + S1x64.size a ≤ S16384x64.size a := fun v5592 k0_hw510 => k0_hw510.1
theorem k0_off765_inb : ∀ (v5592 : BitVec 32) (k0_hw510 : k0_chk510 v5592), ∀ a, (k0_off765 v5592) a + S1x1.size a ≤ S16384x1.size a := fun v5592 k0_hw510 => k0_hw510.2

def k0_off766 (v5613 : BitVec 32) : Fin 2 → Nat :=
  let v5615 : Index := Scalar.indexCast v5613
  let c0_1786 : Index := 0#32
  ![v5615.toNat, 0]

def k0_chk511 (v5613 : BitVec 32) : Prop :=
  (∀ a, (k0_off766 v5613) a + S1x64.size a ≤ S50000x64.size a)
instance k0_chk511.dec : ∀ (v5613 : BitVec 32), Decidable (k0_chk511 v5613) := fun v5613 => decidable_of_iff' _ (Iff.of_eq (k0_chk511.eq_1 v5613))
theorem k0_off766_inb : ∀ (v5613 : BitVec 32) (k0_hw511 : k0_chk511 v5613), ∀ a, (k0_off766 v5613) a + S1x64.size a ≤ S50000x64.size a := fun v5613 k0_hw511 => k0_hw511

def k0_off767 (v5614 : BitVec 32) : Fin 2 → Nat :=
  let v5618 : Index := Scalar.indexCast v5614
  let c0_1787 : Index := 0#32
  ![v5618.toNat, 0]

def k0_off768 (v5614 : BitVec 32) : Fin 2 → Nat :=
  let v5626 : Index := Scalar.indexCast v5614
  let c0_1789 : Index := 0#32
  ![v5626.toNat, 0]

def k0_chk512 (v5614 : BitVec 32) : Prop :=
  (∀ a, (k0_off767 v5614) a + S1x64.size a ≤ S16384x64.size a) ∧
  (∀ a, (k0_off768 v5614) a + S1x1.size a ≤ S16384x1.size a)
instance k0_chk512.dec : ∀ (v5614 : BitVec 32), Decidable (k0_chk512 v5614) := fun v5614 => decidable_of_iff' _ (Iff.of_eq (k0_chk512.eq_1 v5614))
theorem k0_off767_inb : ∀ (v5614 : BitVec 32) (k0_hw512 : k0_chk512 v5614), ∀ a, (k0_off767 v5614) a + S1x64.size a ≤ S16384x64.size a := fun v5614 k0_hw512 => k0_hw512.1
theorem k0_off768_inb : ∀ (v5614 : BitVec 32) (k0_hw512 : k0_chk512 v5614), ∀ a, (k0_off768 v5614) a + S1x1.size a ≤ S16384x1.size a := fun v5614 k0_hw512 => k0_hw512.2

def k0_cond2 (i : grid0.Coords) : BitVec 1 :=
  let arg0 : BitVec 32 := BitVec.ofNat 32 (i 0).val
  let c3199_i32 : BitVec 32 := 3199#32
  let v5635 : BitVec 1 := Scalar.cmpi .eq arg0 c3199_i32
  let v5636 : BitVec 32 := Scalar.extui v5635
  let c0_i32_1792 : BitVec 32 := 0#32
  let v5637 : BitVec 1 := Scalar.cmpi .ne v5636 c0_i32_1792
  v5637

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16384x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16384x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1600], ![false]⟩

def k1_off1 (v3 : BitVec 32) : Fin 2 → Nat :=
  let v5 : Index := Scalar.indexCast v3
  let c0_2 : Index := 0#32
  ![v5.toNat, 0]

def k1_chk1 (v3 : BitVec 32) : Prop :=
  (∀ a, (k1_off1 v3) a + S1x64.size a ≤ S50000x64.size a)
instance k1_chk1.dec : ∀ (v3 : BitVec 32), Decidable (k1_chk1 v3) := fun v3 => decidable_of_iff' _ (Iff.of_eq (k1_chk1.eq_1 v3))
theorem k1_off1_inb : ∀ (v3 : BitVec 32) (k1_hw1 : k1_chk1 v3), ∀ a, (k1_off1 v3) a + S1x64.size a ≤ S50000x64.size a := fun v3 k1_hw1 => k1_hw1

def k1_off2 (v4 : BitVec 32) : Fin 2 → Nat :=
  let v8 : Index := Scalar.indexCast v4
  let c0_3 : Index := 0#32
  ![v8.toNat, 0]

def k1_off3 (v4 : BitVec 32) : Fin 2 → Nat :=
  let v16 : Index := Scalar.indexCast v4
  let c0_5 : Index := 0#32
  ![v16.toNat, 0]

def k1_chk2 (v4 : BitVec 32) : Prop :=
  (∀ a, (k1_off2 v4) a + S1x64.size a ≤ S16384x64.size a) ∧
  (∀ a, (k1_off3 v4) a + S1x1.size a ≤ S16384x1.size a)
instance k1_chk2.dec : ∀ (v4 : BitVec 32), Decidable (k1_chk2 v4) := fun v4 => decidable_of_iff' _ (Iff.of_eq (k1_chk2.eq_1 v4))
theorem k1_off2_inb : ∀ (v4 : BitVec 32) (k1_hw2 : k1_chk2 v4), ∀ a, (k1_off2 v4) a + S1x64.size a ≤ S16384x64.size a := fun v4 k1_hw2 => k1_hw2.1
theorem k1_off3_inb : ∀ (v4 : BitVec 32) (k1_hw2 : k1_chk2 v4), ∀ a, (k1_off3 v4) a + S1x1.size a ≤ S16384x1.size a := fun v4 k1_hw2 => k1_hw2.2

def k1_off4 (v25 : BitVec 32) : Fin 2 → Nat :=
  let v27 : Index := Scalar.indexCast v25
  let c0_8 : Index := 0#32
  ![v27.toNat, 0]

def k1_chk3 (v25 : BitVec 32) : Prop :=
  (∀ a, (k1_off4 v25) a + S1x64.size a ≤ S50000x64.size a)
instance k1_chk3.dec : ∀ (v25 : BitVec 32), Decidable (k1_chk3 v25) := fun v25 => decidable_of_iff' _ (Iff.of_eq (k1_chk3.eq_1 v25))
theorem k1_off4_inb : ∀ (v25 : BitVec 32) (k1_hw3 : k1_chk3 v25), ∀ a, (k1_off4 v25) a + S1x64.size a ≤ S50000x64.size a := fun v25 k1_hw3 => k1_hw3

def k1_off5 (v26 : BitVec 32) : Fin 2 → Nat :=
  let v30 : Index := Scalar.indexCast v26
  let c0_9 : Index := 0#32
  ![v30.toNat, 0]

def k1_off6 (v26 : BitVec 32) : Fin 2 → Nat :=
  let v38 : Index := Scalar.indexCast v26
  let c0_11 : Index := 0#32
  ![v38.toNat, 0]

def k1_chk4 (v26 : BitVec 32) : Prop :=
  (∀ a, (k1_off5 v26) a + S1x64.size a ≤ S16384x64.size a) ∧
  (∀ a, (k1_off6 v26) a + S1x1.size a ≤ S16384x1.size a)
instance k1_chk4.dec : ∀ (v26 : BitVec 32), Decidable (k1_chk4 v26) := fun v26 => decidable_of_iff' _ (Iff.of_eq (k1_chk4.eq_1 v26))
theorem k1_off5_inb : ∀ (v26 : BitVec 32) (k1_hw4 : k1_chk4 v26), ∀ a, (k1_off5 v26) a + S1x64.size a ≤ S16384x64.size a := fun v26 k1_hw4 => k1_hw4.1
theorem k1_off6_inb : ∀ (v26 : BitVec 32) (k1_hw4 : k1_chk4 v26), ∀ a, (k1_off6 v26) a + S1x1.size a ≤ S16384x1.size a := fun v26 k1_hw4 => k1_hw4.2

def k1_off7 (v47 : BitVec 32) : Fin 2 → Nat :=
  let v49 : Index := Scalar.indexCast v47
  let c0_15 : Index := 0#32
  ![v49.toNat, 0]

def k1_chk5 (v47 : BitVec 32) : Prop :=
  (∀ a, (k1_off7 v47) a + S1x64.size a ≤ S50000x64.size a)
instance k1_chk5.dec : ∀ (v47 : BitVec 32), Decidable (k1_chk5 v47) := fun v47 => decidable_of_iff' _ (Iff.of_eq (k1_chk5.eq_1 v47))
theorem k1_off7_inb : ∀ (v47 : BitVec 32) (k1_hw5 : k1_chk5 v47), ∀ a, (k1_off7 v47) a + S1x64.size a ≤ S50000x64.size a := fun v47 k1_hw5 => k1_hw5

def k1_off8 (v48 : BitVec 32) : Fin 2 → Nat :=
  let v52 : Index := Scalar.indexCast v48
  let c0_16 : Index := 0#32
  ![v52.toNat, 0]

def k1_off9 (v48 : BitVec 32) : Fin 2 → Nat :=
  let v60 : Index := Scalar.indexCast v48
  let c0_18 : Index := 0#32
  ![v60.toNat, 0]

def k1_chk6 (v48 : BitVec 32) : Prop :=
  (∀ a, (k1_off8 v48) a + S1x64.size a ≤ S16384x64.size a) ∧
  (∀ a, (k1_off9 v48) a + S1x1.size a ≤ S16384x1.size a)
instance k1_chk6.dec : ∀ (v48 : BitVec 32), Decidable (k1_chk6 v48) := fun v48 => decidable_of_iff' _ (Iff.of_eq (k1_chk6.eq_1 v48))
theorem k1_off8_inb : ∀ (v48 : BitVec 32) (k1_hw6 : k1_chk6 v48), ∀ a, (k1_off8 v48) a + S1x64.size a ≤ S16384x64.size a := fun v48 k1_hw6 => k1_hw6.1
theorem k1_off9_inb : ∀ (v48 : BitVec 32) (k1_hw6 : k1_chk6 v48), ∀ a, (k1_off9 v48) a + S1x1.size a ≤ S16384x1.size a := fun v48 k1_hw6 => k1_hw6.2

def k1_off10 (v69 : BitVec 32) : Fin 2 → Nat :=
  let v71 : Index := Scalar.indexCast v69
  let c0_22 : Index := 0#32
  ![v71.toNat, 0]

def k1_chk7 (v69 : BitVec 32) : Prop :=
  (∀ a, (k1_off10 v69) a + S1x64.size a ≤ S50000x64.size a)
instance k1_chk7.dec : ∀ (v69 : BitVec 32), Decidable (k1_chk7 v69) := fun v69 => decidable_of_iff' _ (Iff.of_eq (k1_chk7.eq_1 v69))
theorem k1_off10_inb : ∀ (v69 : BitVec 32) (k1_hw7 : k1_chk7 v69), ∀ a, (k1_off10 v69) a + S1x64.size a ≤ S50000x64.size a := fun v69 k1_hw7 => k1_hw7

def k1_off11 (v70 : BitVec 32) : Fin 2 → Nat :=
  let v74 : Index := Scalar.indexCast v70
  let c0_23 : Index := 0#32
  ![v74.toNat, 0]

def k1_off12 (v70 : BitVec 32) : Fin 2 → Nat :=
  let v82 : Index := Scalar.indexCast v70
  let c0_25 : Index := 0#32
  ![v82.toNat, 0]

def k1_chk8 (v70 : BitVec 32) : Prop :=
  (∀ a, (k1_off11 v70) a + S1x64.size a ≤ S16384x64.size a) ∧
  (∀ a, (k1_off12 v70) a + S1x1.size a ≤ S16384x1.size a)
instance k1_chk8.dec : ∀ (v70 : BitVec 32), Decidable (k1_chk8 v70) := fun v70 => decidable_of_iff' _ (Iff.of_eq (k1_chk8.eq_1 v70))
theorem k1_off11_inb : ∀ (v70 : BitVec 32) (k1_hw8 : k1_chk8 v70), ∀ a, (k1_off11 v70) a + S1x64.size a ≤ S16384x64.size a := fun v70 k1_hw8 => k1_hw8.1
theorem k1_off12_inb : ∀ (v70 : BitVec 32) (k1_hw8 : k1_chk8 v70), ∀ a, (k1_off12 v70) a + S1x1.size a ≤ S16384x1.size a := fun v70 k1_hw8 => k1_hw8.2

def k1_off13 (v91 : BitVec 32) : Fin 2 → Nat :=
  let v93 : Index := Scalar.indexCast v91
  let c0_29 : Index := 0#32
  ![v93.toNat, 0]

def k1_chk9 (v91 : BitVec 32) : Prop :=
  (∀ a, (k1_off13 v91) a + S1x64.size a ≤ S50000x64.size a)
instance k1_chk9.dec : ∀ (v91 : BitVec 32), Decidable (k1_chk9 v91) := fun v91 => decidable_of_iff' _ (Iff.of_eq (k1_chk9.eq_1 v91))
theorem k1_off13_inb : ∀ (v91 : BitVec 32) (k1_hw9 : k1_chk9 v91), ∀ a, (k1_off13 v91) a + S1x64.size a ≤ S50000x64.size a := fun v91 k1_hw9 => k1_hw9

def k1_off14 (v92 : BitVec 32) : Fin 2 → Nat :=
  let v96 : Index := Scalar.indexCast v92
  let c0_30 : Index := 0#32
  ![v96.toNat, 0]

def k1_off15 (v92 : BitVec 32) : Fin 2 → Nat :=
  let v104 : Index := Scalar.indexCast v92
  let c0_32 : Index := 0#32
  ![v104.toNat, 0]

def k1_chk10 (v92 : BitVec 32) : Prop :=
  (∀ a, (k1_off14 v92) a + S1x64.size a ≤ S16384x64.size a) ∧
  (∀ a, (k1_off15 v92) a + S1x1.size a ≤ S16384x1.size a)
instance k1_chk10.dec : ∀ (v92 : BitVec 32), Decidable (k1_chk10 v92) := fun v92 => decidable_of_iff' _ (Iff.of_eq (k1_chk10.eq_1 v92))
theorem k1_off14_inb : ∀ (v92 : BitVec 32) (k1_hw10 : k1_chk10 v92), ∀ a, (k1_off14 v92) a + S1x64.size a ≤ S16384x64.size a := fun v92 k1_hw10 => k1_hw10.1
theorem k1_off15_inb : ∀ (v92 : BitVec 32) (k1_hw10 : k1_chk10 v92), ∀ a, (k1_off15 v92) a + S1x1.size a ≤ S16384x1.size a := fun v92 k1_hw10 => k1_hw10.2

def k1_off16 (v113 : BitVec 32) : Fin 2 → Nat :=
  let v115 : Index := Scalar.indexCast v113
  let c0_36 : Index := 0#32
  ![v115.toNat, 0]

def k1_chk11 (v113 : BitVec 32) : Prop :=
  (∀ a, (k1_off16 v113) a + S1x64.size a ≤ S50000x64.size a)
instance k1_chk11.dec : ∀ (v113 : BitVec 32), Decidable (k1_chk11 v113) := fun v113 => decidable_of_iff' _ (Iff.of_eq (k1_chk11.eq_1 v113))
theorem k1_off16_inb : ∀ (v113 : BitVec 32) (k1_hw11 : k1_chk11 v113), ∀ a, (k1_off16 v113) a + S1x64.size a ≤ S50000x64.size a := fun v113 k1_hw11 => k1_hw11

def k1_off17 (v114 : BitVec 32) : Fin 2 → Nat :=
  let v118 : Index := Scalar.indexCast v114
  let c0_37 : Index := 0#32
  ![v118.toNat, 0]

def k1_off18 (v114 : BitVec 32) : Fin 2 → Nat :=
  let v126 : Index := Scalar.indexCast v114
  let c0_39 : Index := 0#32
  ![v126.toNat, 0]

def k1_chk12 (v114 : BitVec 32) : Prop :=
  (∀ a, (k1_off17 v114) a + S1x64.size a ≤ S16384x64.size a) ∧
  (∀ a, (k1_off18 v114) a + S1x1.size a ≤ S16384x1.size a)
instance k1_chk12.dec : ∀ (v114 : BitVec 32), Decidable (k1_chk12 v114) := fun v114 => decidable_of_iff' _ (Iff.of_eq (k1_chk12.eq_1 v114))
theorem k1_off17_inb : ∀ (v114 : BitVec 32) (k1_hw12 : k1_chk12 v114), ∀ a, (k1_off17 v114) a + S1x64.size a ≤ S16384x64.size a := fun v114 k1_hw12 => k1_hw12.1
theorem k1_off18_inb : ∀ (v114 : BitVec 32) (k1_hw12 : k1_chk12 v114), ∀ a, (k1_off18 v114) a + S1x1.size a ≤ S16384x1.size a := fun v114 k1_hw12 => k1_hw12.2

def k1_off19 (v135 : BitVec 32) : Fin 2 → Nat :=
  let v137 : Index := Scalar.indexCast v135
  let c0_43 : Index := 0#32
  ![v137.toNat, 0]

def k1_chk13 (v135 : BitVec 32) : Prop :=
  (∀ a, (k1_off19 v135) a + S1x64.size a ≤ S50000x64.size a)
instance k1_chk13.dec : ∀ (v135 : BitVec 32), Decidable (k1_chk13 v135) := fun v135 => decidable_of_iff' _ (Iff.of_eq (k1_chk13.eq_1 v135))
theorem k1_off19_inb : ∀ (v135 : BitVec 32) (k1_hw13 : k1_chk13 v135), ∀ a, (k1_off19 v135) a + S1x64.size a ≤ S50000x64.size a := fun v135 k1_hw13 => k1_hw13

def k1_off20 (v136 : BitVec 32) : Fin 2 → Nat :=
  let v140 : Index := Scalar.indexCast v136
  let c0_44 : Index := 0#32
  ![v140.toNat, 0]

def k1_off21 (v136 : BitVec 32) : Fin 2 → Nat :=
  let v148 : Index := Scalar.indexCast v136
  let c0_46 : Index := 0#32
  ![v148.toNat, 0]

def k1_chk14 (v136 : BitVec 32) : Prop :=
  (∀ a, (k1_off20 v136) a + S1x64.size a ≤ S16384x64.size a) ∧
  (∀ a, (k1_off21 v136) a + S1x1.size a ≤ S16384x1.size a)
instance k1_chk14.dec : ∀ (v136 : BitVec 32), Decidable (k1_chk14 v136) := fun v136 => decidable_of_iff' _ (Iff.of_eq (k1_chk14.eq_1 v136))
theorem k1_off20_inb : ∀ (v136 : BitVec 32) (k1_hw14 : k1_chk14 v136), ∀ a, (k1_off20 v136) a + S1x64.size a ≤ S16384x64.size a := fun v136 k1_hw14 => k1_hw14.1
theorem k1_off21_inb : ∀ (v136 : BitVec 32) (k1_hw14 : k1_chk14 v136), ∀ a, (k1_off21 v136) a + S1x1.size a ≤ S16384x1.size a := fun v136 k1_hw14 => k1_hw14.2

def k1_off22 (v157 : BitVec 32) : Fin 2 → Nat :=
  let v159 : Index := Scalar.indexCast v157
  let c0_50 : Index := 0#32
  ![v159.toNat, 0]

def k1_chk15 (v157 : BitVec 32) : Prop :=
  (∀ a, (k1_off22 v157) a + S1x64.size a ≤ S50000x64.size a)
instance k1_chk15.dec : ∀ (v157 : BitVec 32), Decidable (k1_chk15 v157) := fun v157 => decidable_of_iff' _ (Iff.of_eq (k1_chk15.eq_1 v157))
theorem k1_off22_inb : ∀ (v157 : BitVec 32) (k1_hw15 : k1_chk15 v157), ∀ a, (k1_off22 v157) a + S1x64.size a ≤ S50000x64.size a := fun v157 k1_hw15 => k1_hw15

def k1_off23 (v158 : BitVec 32) : Fin 2 → Nat :=
  let v162 : Index := Scalar.indexCast v158
  let c0_51 : Index := 0#32
  ![v162.toNat, 0]

def k1_off24 (v158 : BitVec 32) : Fin 2 → Nat :=
  let v170 : Index := Scalar.indexCast v158
  let c0_53 : Index := 0#32
  ![v170.toNat, 0]

def k1_chk16 (v158 : BitVec 32) : Prop :=
  (∀ a, (k1_off23 v158) a + S1x64.size a ≤ S16384x64.size a) ∧
  (∀ a, (k1_off24 v158) a + S1x1.size a ≤ S16384x1.size a)
instance k1_chk16.dec : ∀ (v158 : BitVec 32), Decidable (k1_chk16 v158) := fun v158 => decidable_of_iff' _ (Iff.of_eq (k1_chk16.eq_1 v158))
theorem k1_off23_inb : ∀ (v158 : BitVec 32) (k1_hw16 : k1_chk16 v158), ∀ a, (k1_off23 v158) a + S1x64.size a ≤ S16384x64.size a := fun v158 k1_hw16 => k1_hw16.1
theorem k1_off24_inb : ∀ (v158 : BitVec 32) (k1_hw16 : k1_chk16 v158), ∀ a, (k1_off24 v158) a + S1x1.size a ≤ S16384x1.size a := fun v158 k1_hw16 => k1_hw16.2

def k1_off25 (v179 : BitVec 32) : Fin 2 → Nat :=
  let v181 : Index := Scalar.indexCast v179
  let c0_57 : Index := 0#32
  ![v181.toNat, 0]

def k1_chk17 (v179 : BitVec 32) : Prop :=
  (∀ a, (k1_off25 v179) a + S1x64.size a ≤ S50000x64.size a)
instance k1_chk17.dec : ∀ (v179 : BitVec 32), Decidable (k1_chk17 v179) := fun v179 => decidable_of_iff' _ (Iff.of_eq (k1_chk17.eq_1 v179))
theorem k1_off25_inb : ∀ (v179 : BitVec 32) (k1_hw17 : k1_chk17 v179), ∀ a, (k1_off25 v179) a + S1x64.size a ≤ S50000x64.size a := fun v179 k1_hw17 => k1_hw17

def k1_off26 (v180 : BitVec 32) : Fin 2 → Nat :=
  let v184 : Index := Scalar.indexCast v180
  let c0_58 : Index := 0#32
  ![v184.toNat, 0]

def k1_off27 (v180 : BitVec 32) : Fin 2 → Nat :=
  let v192 : Index := Scalar.indexCast v180
  let c0_60 : Index := 0#32
  ![v192.toNat, 0]

def k1_chk18 (v180 : BitVec 32) : Prop :=
  (∀ a, (k1_off26 v180) a + S1x64.size a ≤ S16384x64.size a) ∧
  (∀ a, (k1_off27 v180) a + S1x1.size a ≤ S16384x1.size a)
instance k1_chk18.dec : ∀ (v180 : BitVec 32), Decidable (k1_chk18 v180) := fun v180 => decidable_of_iff' _ (Iff.of_eq (k1_chk18.eq_1 v180))
theorem k1_off26_inb : ∀ (v180 : BitVec 32) (k1_hw18 : k1_chk18 v180), ∀ a, (k1_off26 v180) a + S1x64.size a ≤ S16384x64.size a := fun v180 k1_hw18 => k1_hw18.1
theorem k1_off27_inb : ∀ (v180 : BitVec 32) (k1_hw18 : k1_chk18 v180), ∀ a, (k1_off27 v180) a + S1x1.size a ≤ S16384x1.size a := fun v180 k1_hw18 => k1_hw18.2

def k1_off28 (v201 : BitVec 32) : Fin 2 → Nat :=
  let v203 : Index := Scalar.indexCast v201
  let c0_64 : Index := 0#32
  ![v203.toNat, 0]

def k1_chk19 (v201 : BitVec 32) : Prop :=
  (∀ a, (k1_off28 v201) a + S1x64.size a ≤ S50000x64.size a)
instance k1_chk19.dec : ∀ (v201 : BitVec 32), Decidable (k1_chk19 v201) := fun v201 => decidable_of_iff' _ (Iff.of_eq (k1_chk19.eq_1 v201))
theorem k1_off28_inb : ∀ (v201 : BitVec 32) (k1_hw19 : k1_chk19 v201), ∀ a, (k1_off28 v201) a + S1x64.size a ≤ S50000x64.size a := fun v201 k1_hw19 => k1_hw19

def k1_off29 (v202 : BitVec 32) : Fin 2 → Nat :=
  let v206 : Index := Scalar.indexCast v202
  let c0_65 : Index := 0#32
  ![v206.toNat, 0]

def k1_off30 (v202 : BitVec 32) : Fin 2 → Nat :=
  let v214 : Index := Scalar.indexCast v202
  let c0_67 : Index := 0#32
  ![v214.toNat, 0]

def k1_chk20 (v202 : BitVec 32) : Prop :=
  (∀ a, (k1_off29 v202) a + S1x64.size a ≤ S16384x64.size a) ∧
  (∀ a, (k1_off30 v202) a + S1x1.size a ≤ S16384x1.size a)
instance k1_chk20.dec : ∀ (v202 : BitVec 32), Decidable (k1_chk20 v202) := fun v202 => decidable_of_iff' _ (Iff.of_eq (k1_chk20.eq_1 v202))
theorem k1_off29_inb : ∀ (v202 : BitVec 32) (k1_hw20 : k1_chk20 v202), ∀ a, (k1_off29 v202) a + S1x64.size a ≤ S16384x64.size a := fun v202 k1_hw20 => k1_hw20.1
theorem k1_off30_inb : ∀ (v202 : BitVec 32) (k1_hw20 : k1_chk20 v202), ∀ a, (k1_off30 v202) a + S1x1.size a ≤ S16384x1.size a := fun v202 k1_hw20 => k1_hw20.2

def k1_off31 (v223 : BitVec 32) : Fin 2 → Nat :=
  let v225 : Index := Scalar.indexCast v223
  let c0_71 : Index := 0#32
  ![v225.toNat, 0]

def k1_chk21 (v223 : BitVec 32) : Prop :=
  (∀ a, (k1_off31 v223) a + S1x64.size a ≤ S50000x64.size a)
instance k1_chk21.dec : ∀ (v223 : BitVec 32), Decidable (k1_chk21 v223) := fun v223 => decidable_of_iff' _ (Iff.of_eq (k1_chk21.eq_1 v223))
theorem k1_off31_inb : ∀ (v223 : BitVec 32) (k1_hw21 : k1_chk21 v223), ∀ a, (k1_off31 v223) a + S1x64.size a ≤ S50000x64.size a := fun v223 k1_hw21 => k1_hw21

def k1_off32 (v224 : BitVec 32) : Fin 2 → Nat :=
  let v228 : Index := Scalar.indexCast v224
  let c0_72 : Index := 0#32
  ![v228.toNat, 0]

def k1_off33 (v224 : BitVec 32) : Fin 2 → Nat :=
  let v236 : Index := Scalar.indexCast v224
  let c0_74 : Index := 0#32
  ![v236.toNat, 0]

def k1_chk22 (v224 : BitVec 32) : Prop :=
  (∀ a, (k1_off32 v224) a + S1x64.size a ≤ S16384x64.size a) ∧
  (∀ a, (k1_off33 v224) a + S1x1.size a ≤ S16384x1.size a)
instance k1_chk22.dec : ∀ (v224 : BitVec 32), Decidable (k1_chk22 v224) := fun v224 => decidable_of_iff' _ (Iff.of_eq (k1_chk22.eq_1 v224))
theorem k1_off32_inb : ∀ (v224 : BitVec 32) (k1_hw22 : k1_chk22 v224), ∀ a, (k1_off32 v224) a + S1x64.size a ≤ S16384x64.size a := fun v224 k1_hw22 => k1_hw22.1
theorem k1_off33_inb : ∀ (v224 : BitVec 32) (k1_hw22 : k1_chk22 v224), ∀ a, (k1_off33 v224) a + S1x1.size a ≤ S16384x1.size a := fun v224 k1_hw22 => k1_hw22.2

def k1_off34 (v245 : BitVec 32) : Fin 2 → Nat :=
  let v247 : Index := Scalar.indexCast v245
  let c0_78 : Index := 0#32
  ![v247.toNat, 0]

def k1_chk23 (v245 : BitVec 32) : Prop :=
  (∀ a, (k1_off34 v245) a + S1x64.size a ≤ S50000x64.size a)
instance k1_chk23.dec : ∀ (v245 : BitVec 32), Decidable (k1_chk23 v245) := fun v245 => decidable_of_iff' _ (Iff.of_eq (k1_chk23.eq_1 v245))
theorem k1_off34_inb : ∀ (v245 : BitVec 32) (k1_hw23 : k1_chk23 v245), ∀ a, (k1_off34 v245) a + S1x64.size a ≤ S50000x64.size a := fun v245 k1_hw23 => k1_hw23

def k1_off35 (v246 : BitVec 32) : Fin 2 → Nat :=
  let v250 : Index := Scalar.indexCast v246
  let c0_79 : Index := 0#32
  ![v250.toNat, 0]

def k1_off36 (v246 : BitVec 32) : Fin 2 → Nat :=
  let v258 : Index := Scalar.indexCast v246
  let c0_81 : Index := 0#32
  ![v258.toNat, 0]

def k1_chk24 (v246 : BitVec 32) : Prop :=
  (∀ a, (k1_off35 v246) a + S1x64.size a ≤ S16384x64.size a) ∧
  (∀ a, (k1_off36 v246) a + S1x1.size a ≤ S16384x1.size a)
instance k1_chk24.dec : ∀ (v246 : BitVec 32), Decidable (k1_chk24 v246) := fun v246 => decidable_of_iff' _ (Iff.of_eq (k1_chk24.eq_1 v246))
theorem k1_off35_inb : ∀ (v246 : BitVec 32) (k1_hw24 : k1_chk24 v246), ∀ a, (k1_off35 v246) a + S1x64.size a ≤ S16384x64.size a := fun v246 k1_hw24 => k1_hw24.1
theorem k1_off36_inb : ∀ (v246 : BitVec 32) (k1_hw24 : k1_chk24 v246), ∀ a, (k1_off36 v246) a + S1x1.size a ≤ S16384x1.size a := fun v246 k1_hw24 => k1_hw24.2

def k1_off37 (v267 : BitVec 32) : Fin 2 → Nat :=
  let v269 : Index := Scalar.indexCast v267
  let c0_85 : Index := 0#32
  ![v269.toNat, 0]

def k1_chk25 (v267 : BitVec 32) : Prop :=
  (∀ a, (k1_off37 v267) a + S1x64.size a ≤ S50000x64.size a)
instance k1_chk25.dec : ∀ (v267 : BitVec 32), Decidable (k1_chk25 v267) := fun v267 => decidable_of_iff' _ (Iff.of_eq (k1_chk25.eq_1 v267))
theorem k1_off37_inb : ∀ (v267 : BitVec 32) (k1_hw25 : k1_chk25 v267), ∀ a, (k1_off37 v267) a + S1x64.size a ≤ S50000x64.size a := fun v267 k1_hw25 => k1_hw25

def k1_off38 (v268 : BitVec 32) : Fin 2 → Nat :=
  let v272 : Index := Scalar.indexCast v268
  let c0_86 : Index := 0#32
  ![v272.toNat, 0]

def k1_off39 (v268 : BitVec 32) : Fin 2 → Nat :=
  let v280 : Index := Scalar.indexCast v268
  let c0_88 : Index := 0#32
  ![v280.toNat, 0]

def k1_chk26 (v268 : BitVec 32) : Prop :=
  (∀ a, (k1_off38 v268) a + S1x64.size a ≤ S16384x64.size a) ∧
  (∀ a, (k1_off39 v268) a + S1x1.size a ≤ S16384x1.size a)
instance k1_chk26.dec : ∀ (v268 : BitVec 32), Decidable (k1_chk26 v268) := fun v268 => decidable_of_iff' _ (Iff.of_eq (k1_chk26.eq_1 v268))
theorem k1_off38_inb : ∀ (v268 : BitVec 32) (k1_hw26 : k1_chk26 v268), ∀ a, (k1_off38 v268) a + S1x64.size a ≤ S16384x64.size a := fun v268 k1_hw26 => k1_hw26.1
theorem k1_off39_inb : ∀ (v268 : BitVec 32) (k1_hw26 : k1_chk26 v268), ∀ a, (k1_off39 v268) a + S1x1.size a ≤ S16384x1.size a := fun v268 k1_hw26 => k1_hw26.2

def k1_off40 (v289 : BitVec 32) : Fin 2 → Nat :=
  let v291 : Index := Scalar.indexCast v289
  let c0_92 : Index := 0#32
  ![v291.toNat, 0]

def k1_chk27 (v289 : BitVec 32) : Prop :=
  (∀ a, (k1_off40 v289) a + S1x64.size a ≤ S50000x64.size a)
instance k1_chk27.dec : ∀ (v289 : BitVec 32), Decidable (k1_chk27 v289) := fun v289 => decidable_of_iff' _ (Iff.of_eq (k1_chk27.eq_1 v289))
theorem k1_off40_inb : ∀ (v289 : BitVec 32) (k1_hw27 : k1_chk27 v289), ∀ a, (k1_off40 v289) a + S1x64.size a ≤ S50000x64.size a := fun v289 k1_hw27 => k1_hw27

def k1_off41 (v290 : BitVec 32) : Fin 2 → Nat :=
  let v294 : Index := Scalar.indexCast v290
  let c0_93 : Index := 0#32
  ![v294.toNat, 0]

def k1_off42 (v290 : BitVec 32) : Fin 2 → Nat :=
  let v302 : Index := Scalar.indexCast v290
  let c0_95 : Index := 0#32
  ![v302.toNat, 0]

def k1_chk28 (v290 : BitVec 32) : Prop :=
  (∀ a, (k1_off41 v290) a + S1x64.size a ≤ S16384x64.size a) ∧
  (∀ a, (k1_off42 v290) a + S1x1.size a ≤ S16384x1.size a)
instance k1_chk28.dec : ∀ (v290 : BitVec 32), Decidable (k1_chk28 v290) := fun v290 => decidable_of_iff' _ (Iff.of_eq (k1_chk28.eq_1 v290))
theorem k1_off41_inb : ∀ (v290 : BitVec 32) (k1_hw28 : k1_chk28 v290), ∀ a, (k1_off41 v290) a + S1x64.size a ≤ S16384x64.size a := fun v290 k1_hw28 => k1_hw28.1
theorem k1_off42_inb : ∀ (v290 : BitVec 32) (k1_hw28 : k1_chk28 v290), ∀ a, (k1_off42 v290) a + S1x1.size a ≤ S16384x1.size a := fun v290 k1_hw28 => k1_hw28.2

def k1_off43 (v311 : BitVec 32) : Fin 2 → Nat :=
  let v313 : Index := Scalar.indexCast v311
  let c0_99 : Index := 0#32
  ![v313.toNat, 0]

def k1_chk29 (v311 : BitVec 32) : Prop :=
  (∀ a, (k1_off43 v311) a + S1x64.size a ≤ S50000x64.size a)
instance k1_chk29.dec : ∀ (v311 : BitVec 32), Decidable (k1_chk29 v311) := fun v311 => decidable_of_iff' _ (Iff.of_eq (k1_chk29.eq_1 v311))
theorem k1_off43_inb : ∀ (v311 : BitVec 32) (k1_hw29 : k1_chk29 v311), ∀ a, (k1_off43 v311) a + S1x64.size a ≤ S50000x64.size a := fun v311 k1_hw29 => k1_hw29

def k1_off44 (v312 : BitVec 32) : Fin 2 → Nat :=
  let v316 : Index := Scalar.indexCast v312
  let c0_100 : Index := 0#32
  ![v316.toNat, 0]

def k1_off45 (v312 : BitVec 32) : Fin 2 → Nat :=
  let v324 : Index := Scalar.indexCast v312
  let c0_102 : Index := 0#32
  ![v324.toNat, 0]

def k1_chk30 (v312 : BitVec 32) : Prop :=
  (∀ a, (k1_off44 v312) a + S1x64.size a ≤ S16384x64.size a) ∧
  (∀ a, (k1_off45 v312) a + S1x1.size a ≤ S16384x1.size a)
instance k1_chk30.dec : ∀ (v312 : BitVec 32), Decidable (k1_chk30 v312) := fun v312 => decidable_of_iff' _ (Iff.of_eq (k1_chk30.eq_1 v312))
theorem k1_off44_inb : ∀ (v312 : BitVec 32) (k1_hw30 : k1_chk30 v312), ∀ a, (k1_off44 v312) a + S1x64.size a ≤ S16384x64.size a := fun v312 k1_hw30 => k1_hw30.1
theorem k1_off45_inb : ∀ (v312 : BitVec 32) (k1_hw30 : k1_chk30 v312), ∀ a, (k1_off45 v312) a + S1x1.size a ≤ S16384x1.size a := fun v312 k1_hw30 => k1_hw30.2

def k1_off46 (v333 : BitVec 32) : Fin 2 → Nat :=
  let v335 : Index := Scalar.indexCast v333
  let c0_106 : Index := 0#32
  ![v335.toNat, 0]

def k1_chk31 (v333 : BitVec 32) : Prop :=
  (∀ a, (k1_off46 v333) a + S1x64.size a ≤ S50000x64.size a)
instance k1_chk31.dec : ∀ (v333 : BitVec 32), Decidable (k1_chk31 v333) := fun v333 => decidable_of_iff' _ (Iff.of_eq (k1_chk31.eq_1 v333))
theorem k1_off46_inb : ∀ (v333 : BitVec 32) (k1_hw31 : k1_chk31 v333), ∀ a, (k1_off46 v333) a + S1x64.size a ≤ S50000x64.size a := fun v333 k1_hw31 => k1_hw31

def k1_off47 (v334 : BitVec 32) : Fin 2 → Nat :=
  let v338 : Index := Scalar.indexCast v334
  let c0_107 : Index := 0#32
  ![v338.toNat, 0]

def k1_off48 (v334 : BitVec 32) : Fin 2 → Nat :=
  let v346 : Index := Scalar.indexCast v334
  let c0_109 : Index := 0#32
  ![v346.toNat, 0]

def k1_chk32 (v334 : BitVec 32) : Prop :=
  (∀ a, (k1_off47 v334) a + S1x64.size a ≤ S16384x64.size a) ∧
  (∀ a, (k1_off48 v334) a + S1x1.size a ≤ S16384x1.size a)
instance k1_chk32.dec : ∀ (v334 : BitVec 32), Decidable (k1_chk32 v334) := fun v334 => decidable_of_iff' _ (Iff.of_eq (k1_chk32.eq_1 v334))
theorem k1_off47_inb : ∀ (v334 : BitVec 32) (k1_hw32 : k1_chk32 v334), ∀ a, (k1_off47 v334) a + S1x64.size a ≤ S16384x64.size a := fun v334 k1_hw32 => k1_hw32.1
theorem k1_off48_inb : ∀ (v334 : BitVec 32) (k1_hw32 : k1_chk32 v334), ∀ a, (k1_off48 v334) a + S1x1.size a ≤ S16384x1.size a := fun v334 k1_hw32 => k1_hw32.2

def k1_off49 (v355 : BitVec 32) : Fin 2 → Nat :=
  let v357 : Index := Scalar.indexCast v355
  let c0_113 : Index := 0#32
  ![v357.toNat, 0]

def k1_chk33 (v355 : BitVec 32) : Prop :=
  (∀ a, (k1_off49 v355) a + S1x64.size a ≤ S50000x64.size a)
instance k1_chk33.dec : ∀ (v355 : BitVec 32), Decidable (k1_chk33 v355) := fun v355 => decidable_of_iff' _ (Iff.of_eq (k1_chk33.eq_1 v355))
theorem k1_off49_inb : ∀ (v355 : BitVec 32) (k1_hw33 : k1_chk33 v355), ∀ a, (k1_off49 v355) a + S1x64.size a ≤ S50000x64.size a := fun v355 k1_hw33 => k1_hw33

def k1_off50 (v356 : BitVec 32) : Fin 2 → Nat :=
  let v360 : Index := Scalar.indexCast v356
  let c0_114 : Index := 0#32
  ![v360.toNat, 0]

def k1_off51 (v356 : BitVec 32) : Fin 2 → Nat :=
  let v368 : Index := Scalar.indexCast v356
  let c0_116 : Index := 0#32
  ![v368.toNat, 0]

def k1_chk34 (v356 : BitVec 32) : Prop :=
  (∀ a, (k1_off50 v356) a + S1x64.size a ≤ S16384x64.size a) ∧
  (∀ a, (k1_off51 v356) a + S1x1.size a ≤ S16384x1.size a)
instance k1_chk34.dec : ∀ (v356 : BitVec 32), Decidable (k1_chk34 v356) := fun v356 => decidable_of_iff' _ (Iff.of_eq (k1_chk34.eq_1 v356))
theorem k1_off50_inb : ∀ (v356 : BitVec 32) (k1_hw34 : k1_chk34 v356), ∀ a, (k1_off50 v356) a + S1x64.size a ≤ S16384x64.size a := fun v356 k1_hw34 => k1_hw34.1
theorem k1_off51_inb : ∀ (v356 : BitVec 32) (k1_hw34 : k1_chk34 v356), ∀ a, (k1_off51 v356) a + S1x1.size a ≤ S16384x1.size a := fun v356 k1_hw34 => k1_hw34.2

def k1_off52 (v377 : BitVec 32) : Fin 2 → Nat :=
  let v379 : Index := Scalar.indexCast v377
  let c0_120 : Index := 0#32
  ![v379.toNat, 0]

def k1_chk35 (v377 : BitVec 32) : Prop :=
  (∀ a, (k1_off52 v377) a + S1x64.size a ≤ S50000x64.size a)
instance k1_chk35.dec : ∀ (v377 : BitVec 32), Decidable (k1_chk35 v377) := fun v377 => decidable_of_iff' _ (Iff.of_eq (k1_chk35.eq_1 v377))
theorem k1_off52_inb : ∀ (v377 : BitVec 32) (k1_hw35 : k1_chk35 v377), ∀ a, (k1_off52 v377) a + S1x64.size a ≤ S50000x64.size a := fun v377 k1_hw35 => k1_hw35

def k1_off53 (v378 : BitVec 32) : Fin 2 → Nat :=
  let v382 : Index := Scalar.indexCast v378
  let c0_121 : Index := 0#32
  ![v382.toNat, 0]

def k1_off54 (v378 : BitVec 32) : Fin 2 → Nat :=
  let v390 : Index := Scalar.indexCast v378
  let c0_123 : Index := 0#32
  ![v390.toNat, 0]

def k1_chk36 (v378 : BitVec 32) : Prop :=
  (∀ a, (k1_off53 v378) a + S1x64.size a ≤ S16384x64.size a) ∧
  (∀ a, (k1_off54 v378) a + S1x1.size a ≤ S16384x1.size a)
instance k1_chk36.dec : ∀ (v378 : BitVec 32), Decidable (k1_chk36 v378) := fun v378 => decidable_of_iff' _ (Iff.of_eq (k1_chk36.eq_1 v378))
theorem k1_off53_inb : ∀ (v378 : BitVec 32) (k1_hw36 : k1_chk36 v378), ∀ a, (k1_off53 v378) a + S1x64.size a ≤ S16384x64.size a := fun v378 k1_hw36 => k1_hw36.1
theorem k1_off54_inb : ∀ (v378 : BitVec 32) (k1_hw36 : k1_chk36 v378), ∀ a, (k1_off54 v378) a + S1x1.size a ≤ S16384x1.size a := fun v378 k1_hw36 => k1_hw36.2

def k1_off55 (v399 : BitVec 32) : Fin 2 → Nat :=
  let v401 : Index := Scalar.indexCast v399
  let c0_127 : Index := 0#32
  ![v401.toNat, 0]

def k1_chk37 (v399 : BitVec 32) : Prop :=
  (∀ a, (k1_off55 v399) a + S1x64.size a ≤ S50000x64.size a)
instance k1_chk37.dec : ∀ (v399 : BitVec 32), Decidable (k1_chk37 v399) := fun v399 => decidable_of_iff' _ (Iff.of_eq (k1_chk37.eq_1 v399))
theorem k1_off55_inb : ∀ (v399 : BitVec 32) (k1_hw37 : k1_chk37 v399), ∀ a, (k1_off55 v399) a + S1x64.size a ≤ S50000x64.size a := fun v399 k1_hw37 => k1_hw37

def k1_off56 (v400 : BitVec 32) : Fin 2 → Nat :=
  let v404 : Index := Scalar.indexCast v400
  let c0_128 : Index := 0#32
  ![v404.toNat, 0]

def k1_off57 (v400 : BitVec 32) : Fin 2 → Nat :=
  let v412 : Index := Scalar.indexCast v400
  let c0_130 : Index := 0#32
  ![v412.toNat, 0]

def k1_chk38 (v400 : BitVec 32) : Prop :=
  (∀ a, (k1_off56 v400) a + S1x64.size a ≤ S16384x64.size a) ∧
  (∀ a, (k1_off57 v400) a + S1x1.size a ≤ S16384x1.size a)
instance k1_chk38.dec : ∀ (v400 : BitVec 32), Decidable (k1_chk38 v400) := fun v400 => decidable_of_iff' _ (Iff.of_eq (k1_chk38.eq_1 v400))
theorem k1_off56_inb : ∀ (v400 : BitVec 32) (k1_hw38 : k1_chk38 v400), ∀ a, (k1_off56 v400) a + S1x64.size a ≤ S16384x64.size a := fun v400 k1_hw38 => k1_hw38.1
theorem k1_off57_inb : ∀ (v400 : BitVec 32) (k1_hw38 : k1_chk38 v400), ∀ a, (k1_off57 v400) a + S1x1.size a ≤ S16384x1.size a := fun v400 k1_hw38 => k1_hw38.2

def k1_off58 (v421 : BitVec 32) : Fin 2 → Nat :=
  let v423 : Index := Scalar.indexCast v421
  let c0_134 : Index := 0#32
  ![v423.toNat, 0]

def k1_chk39 (v421 : BitVec 32) : Prop :=
  (∀ a, (k1_off58 v421) a + S1x64.size a ≤ S50000x64.size a)
instance k1_chk39.dec : ∀ (v421 : BitVec 32), Decidable (k1_chk39 v421) := fun v421 => decidable_of_iff' _ (Iff.of_eq (k1_chk39.eq_1 v421))
theorem k1_off58_inb : ∀ (v421 : BitVec 32) (k1_hw39 : k1_chk39 v421), ∀ a, (k1_off58 v421) a + S1x64.size a ≤ S50000x64.size a := fun v421 k1_hw39 => k1_hw39

def k1_off59 (v422 : BitVec 32) : Fin 2 → Nat :=
  let v426 : Index := Scalar.indexCast v422
  let c0_135 : Index := 0#32
  ![v426.toNat, 0]

def k1_off60 (v422 : BitVec 32) : Fin 2 → Nat :=
  let v434 : Index := Scalar.indexCast v422
  let c0_137 : Index := 0#32
  ![v434.toNat, 0]

def k1_chk40 (v422 : BitVec 32) : Prop :=
  (∀ a, (k1_off59 v422) a + S1x64.size a ≤ S16384x64.size a) ∧
  (∀ a, (k1_off60 v422) a + S1x1.size a ≤ S16384x1.size a)
instance k1_chk40.dec : ∀ (v422 : BitVec 32), Decidable (k1_chk40 v422) := fun v422 => decidable_of_iff' _ (Iff.of_eq (k1_chk40.eq_1 v422))
theorem k1_off59_inb : ∀ (v422 : BitVec 32) (k1_hw40 : k1_chk40 v422), ∀ a, (k1_off59 v422) a + S1x64.size a ≤ S16384x64.size a := fun v422 k1_hw40 => k1_hw40.1
theorem k1_off60_inb : ∀ (v422 : BitVec 32) (k1_hw40 : k1_chk40 v422), ∀ a, (k1_off60 v422) a + S1x1.size a ≤ S16384x1.size a := fun v422 k1_hw40 => k1_hw40.2

def k1_off61 (v443 : BitVec 32) : Fin 2 → Nat :=
  let v445 : Index := Scalar.indexCast v443
  let c0_141 : Index := 0#32
  ![v445.toNat, 0]

def k1_chk41 (v443 : BitVec 32) : Prop :=
  (∀ a, (k1_off61 v443) a + S1x64.size a ≤ S50000x64.size a)
instance k1_chk41.dec : ∀ (v443 : BitVec 32), Decidable (k1_chk41 v443) := fun v443 => decidable_of_iff' _ (Iff.of_eq (k1_chk41.eq_1 v443))
theorem k1_off61_inb : ∀ (v443 : BitVec 32) (k1_hw41 : k1_chk41 v443), ∀ a, (k1_off61 v443) a + S1x64.size a ≤ S50000x64.size a := fun v443 k1_hw41 => k1_hw41

def k1_off62 (v444 : BitVec 32) : Fin 2 → Nat :=
  let v448 : Index := Scalar.indexCast v444
  let c0_142 : Index := 0#32
  ![v448.toNat, 0]

def k1_off63 (v444 : BitVec 32) : Fin 2 → Nat :=
  let v456 : Index := Scalar.indexCast v444
  let c0_144 : Index := 0#32
  ![v456.toNat, 0]

def k1_chk42 (v444 : BitVec 32) : Prop :=
  (∀ a, (k1_off62 v444) a + S1x64.size a ≤ S16384x64.size a) ∧
  (∀ a, (k1_off63 v444) a + S1x1.size a ≤ S16384x1.size a)
instance k1_chk42.dec : ∀ (v444 : BitVec 32), Decidable (k1_chk42 v444) := fun v444 => decidable_of_iff' _ (Iff.of_eq (k1_chk42.eq_1 v444))
theorem k1_off62_inb : ∀ (v444 : BitVec 32) (k1_hw42 : k1_chk42 v444), ∀ a, (k1_off62 v444) a + S1x64.size a ≤ S16384x64.size a := fun v444 k1_hw42 => k1_hw42.1
theorem k1_off63_inb : ∀ (v444 : BitVec 32) (k1_hw42 : k1_chk42 v444), ∀ a, (k1_off63 v444) a + S1x1.size a ≤ S16384x1.size a := fun v444 k1_hw42 => k1_hw42.2

def k1_off64 (v465 : BitVec 32) : Fin 2 → Nat :=
  let v467 : Index := Scalar.indexCast v465
  let c0_148 : Index := 0#32
  ![v467.toNat, 0]

def k1_chk43 (v465 : BitVec 32) : Prop :=
  (∀ a, (k1_off64 v465) a + S1x64.size a ≤ S50000x64.size a)
instance k1_chk43.dec : ∀ (v465 : BitVec 32), Decidable (k1_chk43 v465) := fun v465 => decidable_of_iff' _ (Iff.of_eq (k1_chk43.eq_1 v465))
theorem k1_off64_inb : ∀ (v465 : BitVec 32) (k1_hw43 : k1_chk43 v465), ∀ a, (k1_off64 v465) a + S1x64.size a ≤ S50000x64.size a := fun v465 k1_hw43 => k1_hw43

def k1_off65 (v466 : BitVec 32) : Fin 2 → Nat :=
  let v470 : Index := Scalar.indexCast v466
  let c0_149 : Index := 0#32
  ![v470.toNat, 0]

def k1_off66 (v466 : BitVec 32) : Fin 2 → Nat :=
  let v478 : Index := Scalar.indexCast v466
  let c0_151 : Index := 0#32
  ![v478.toNat, 0]

def k1_chk44 (v466 : BitVec 32) : Prop :=
  (∀ a, (k1_off65 v466) a + S1x64.size a ≤ S16384x64.size a) ∧
  (∀ a, (k1_off66 v466) a + S1x1.size a ≤ S16384x1.size a)
instance k1_chk44.dec : ∀ (v466 : BitVec 32), Decidable (k1_chk44 v466) := fun v466 => decidable_of_iff' _ (Iff.of_eq (k1_chk44.eq_1 v466))
theorem k1_off65_inb : ∀ (v466 : BitVec 32) (k1_hw44 : k1_chk44 v466), ∀ a, (k1_off65 v466) a + S1x64.size a ≤ S16384x64.size a := fun v466 k1_hw44 => k1_hw44.1
theorem k1_off66_inb : ∀ (v466 : BitVec 32) (k1_hw44 : k1_chk44 v466), ∀ a, (k1_off66 v466) a + S1x1.size a ≤ S16384x1.size a := fun v466 k1_hw44 => k1_hw44.2

def k1_off67 (v487 : BitVec 32) : Fin 2 → Nat :=
  let v489 : Index := Scalar.indexCast v487
  let c0_155 : Index := 0#32
  ![v489.toNat, 0]

def k1_chk45 (v487 : BitVec 32) : Prop :=
  (∀ a, (k1_off67 v487) a + S1x64.size a ≤ S50000x64.size a)
instance k1_chk45.dec : ∀ (v487 : BitVec 32), Decidable (k1_chk45 v487) := fun v487 => decidable_of_iff' _ (Iff.of_eq (k1_chk45.eq_1 v487))
theorem k1_off67_inb : ∀ (v487 : BitVec 32) (k1_hw45 : k1_chk45 v487), ∀ a, (k1_off67 v487) a + S1x64.size a ≤ S50000x64.size a := fun v487 k1_hw45 => k1_hw45

def k1_off68 (v488 : BitVec 32) : Fin 2 → Nat :=
  let v492 : Index := Scalar.indexCast v488
  let c0_156 : Index := 0#32
  ![v492.toNat, 0]

def k1_off69 (v488 : BitVec 32) : Fin 2 → Nat :=
  let v500 : Index := Scalar.indexCast v488
  let c0_158 : Index := 0#32
  ![v500.toNat, 0]

def k1_chk46 (v488 : BitVec 32) : Prop :=
  (∀ a, (k1_off68 v488) a + S1x64.size a ≤ S16384x64.size a) ∧
  (∀ a, (k1_off69 v488) a + S1x1.size a ≤ S16384x1.size a)
instance k1_chk46.dec : ∀ (v488 : BitVec 32), Decidable (k1_chk46 v488) := fun v488 => decidable_of_iff' _ (Iff.of_eq (k1_chk46.eq_1 v488))
theorem k1_off68_inb : ∀ (v488 : BitVec 32) (k1_hw46 : k1_chk46 v488), ∀ a, (k1_off68 v488) a + S1x64.size a ≤ S16384x64.size a := fun v488 k1_hw46 => k1_hw46.1
theorem k1_off69_inb : ∀ (v488 : BitVec 32) (k1_hw46 : k1_chk46 v488), ∀ a, (k1_off69 v488) a + S1x1.size a ≤ S16384x1.size a := fun v488 k1_hw46 => k1_hw46.2

def k1_off70 (v509 : BitVec 32) : Fin 2 → Nat :=
  let v511 : Index := Scalar.indexCast v509
  let c0_162 : Index := 0#32
  ![v511.toNat, 0]

def k1_chk47 (v509 : BitVec 32) : Prop :=
  (∀ a, (k1_off70 v509) a + S1x64.size a ≤ S50000x64.size a)
instance k1_chk47.dec : ∀ (v509 : BitVec 32), Decidable (k1_chk47 v509) := fun v509 => decidable_of_iff' _ (Iff.of_eq (k1_chk47.eq_1 v509))
theorem k1_off70_inb : ∀ (v509 : BitVec 32) (k1_hw47 : k1_chk47 v509), ∀ a, (k1_off70 v509) a + S1x64.size a ≤ S50000x64.size a := fun v509 k1_hw47 => k1_hw47

def k1_off71 (v510 : BitVec 32) : Fin 2 → Nat :=
  let v514 : Index := Scalar.indexCast v510
  let c0_163 : Index := 0#32
  ![v514.toNat, 0]

def k1_off72 (v510 : BitVec 32) : Fin 2 → Nat :=
  let v522 : Index := Scalar.indexCast v510
  let c0_165 : Index := 0#32
  ![v522.toNat, 0]

def k1_chk48 (v510 : BitVec 32) : Prop :=
  (∀ a, (k1_off71 v510) a + S1x64.size a ≤ S16384x64.size a) ∧
  (∀ a, (k1_off72 v510) a + S1x1.size a ≤ S16384x1.size a)
instance k1_chk48.dec : ∀ (v510 : BitVec 32), Decidable (k1_chk48 v510) := fun v510 => decidable_of_iff' _ (Iff.of_eq (k1_chk48.eq_1 v510))
theorem k1_off71_inb : ∀ (v510 : BitVec 32) (k1_hw48 : k1_chk48 v510), ∀ a, (k1_off71 v510) a + S1x64.size a ≤ S16384x64.size a := fun v510 k1_hw48 => k1_hw48.1
theorem k1_off72_inb : ∀ (v510 : BitVec 32) (k1_hw48 : k1_chk48 v510), ∀ a, (k1_off72 v510) a + S1x1.size a ≤ S16384x1.size a := fun v510 k1_hw48 => k1_hw48.2

def k1_off73 (v531 : BitVec 32) : Fin 2 → Nat :=
  let v533 : Index := Scalar.indexCast v531
  let c0_169 : Index := 0#32
  ![v533.toNat, 0]

def k1_chk49 (v531 : BitVec 32) : Prop :=
  (∀ a, (k1_off73 v531) a + S1x64.size a ≤ S50000x64.size a)
instance k1_chk49.dec : ∀ (v531 : BitVec 32), Decidable (k1_chk49 v531) := fun v531 => decidable_of_iff' _ (Iff.of_eq (k1_chk49.eq_1 v531))
theorem k1_off73_inb : ∀ (v531 : BitVec 32) (k1_hw49 : k1_chk49 v531), ∀ a, (k1_off73 v531) a + S1x64.size a ≤ S50000x64.size a := fun v531 k1_hw49 => k1_hw49

def k1_off74 (v532 : BitVec 32) : Fin 2 → Nat :=
  let v536 : Index := Scalar.indexCast v532
  let c0_170 : Index := 0#32
  ![v536.toNat, 0]

def k1_off75 (v532 : BitVec 32) : Fin 2 → Nat :=
  let v544 : Index := Scalar.indexCast v532
  let c0_172 : Index := 0#32
  ![v544.toNat, 0]

def k1_chk50 (v532 : BitVec 32) : Prop :=
  (∀ a, (k1_off74 v532) a + S1x64.size a ≤ S16384x64.size a) ∧
  (∀ a, (k1_off75 v532) a + S1x1.size a ≤ S16384x1.size a)
instance k1_chk50.dec : ∀ (v532 : BitVec 32), Decidable (k1_chk50 v532) := fun v532 => decidable_of_iff' _ (Iff.of_eq (k1_chk50.eq_1 v532))
theorem k1_off74_inb : ∀ (v532 : BitVec 32) (k1_hw50 : k1_chk50 v532), ∀ a, (k1_off74 v532) a + S1x64.size a ≤ S16384x64.size a := fun v532 k1_hw50 => k1_hw50.1
theorem k1_off75_inb : ∀ (v532 : BitVec 32) (k1_hw50 : k1_chk50 v532), ∀ a, (k1_off75 v532) a + S1x1.size a ≤ S16384x1.size a := fun v532 k1_hw50 => k1_hw50.2

def k1_off76 (v553 : BitVec 32) : Fin 2 → Nat :=
  let v555 : Index := Scalar.indexCast v553
  let c0_176 : Index := 0#32
  ![v555.toNat, 0]

def k1_chk51 (v553 : BitVec 32) : Prop :=
  (∀ a, (k1_off76 v553) a + S1x64.size a ≤ S50000x64.size a)
instance k1_chk51.dec : ∀ (v553 : BitVec 32), Decidable (k1_chk51 v553) := fun v553 => decidable_of_iff' _ (Iff.of_eq (k1_chk51.eq_1 v553))
theorem k1_off76_inb : ∀ (v553 : BitVec 32) (k1_hw51 : k1_chk51 v553), ∀ a, (k1_off76 v553) a + S1x64.size a ≤ S50000x64.size a := fun v553 k1_hw51 => k1_hw51

def k1_off77 (v554 : BitVec 32) : Fin 2 → Nat :=
  let v558 : Index := Scalar.indexCast v554
  let c0_177 : Index := 0#32
  ![v558.toNat, 0]

def k1_off78 (v554 : BitVec 32) : Fin 2 → Nat :=
  let v566 : Index := Scalar.indexCast v554
  let c0_179 : Index := 0#32
  ![v566.toNat, 0]

def k1_chk52 (v554 : BitVec 32) : Prop :=
  (∀ a, (k1_off77 v554) a + S1x64.size a ≤ S16384x64.size a) ∧
  (∀ a, (k1_off78 v554) a + S1x1.size a ≤ S16384x1.size a)
instance k1_chk52.dec : ∀ (v554 : BitVec 32), Decidable (k1_chk52 v554) := fun v554 => decidable_of_iff' _ (Iff.of_eq (k1_chk52.eq_1 v554))
theorem k1_off77_inb : ∀ (v554 : BitVec 32) (k1_hw52 : k1_chk52 v554), ∀ a, (k1_off77 v554) a + S1x64.size a ≤ S16384x64.size a := fun v554 k1_hw52 => k1_hw52.1
theorem k1_off78_inb : ∀ (v554 : BitVec 32) (k1_hw52 : k1_chk52 v554), ∀ a, (k1_off78 v554) a + S1x1.size a ≤ S16384x1.size a := fun v554 k1_hw52 => k1_hw52.2

def k1_off79 (v575 : BitVec 32) : Fin 2 → Nat :=
  let v577 : Index := Scalar.indexCast v575
  let c0_183 : Index := 0#32
  ![v577.toNat, 0]

def k1_chk53 (v575 : BitVec 32) : Prop :=
  (∀ a, (k1_off79 v575) a + S1x64.size a ≤ S50000x64.size a)
instance k1_chk53.dec : ∀ (v575 : BitVec 32), Decidable (k1_chk53 v575) := fun v575 => decidable_of_iff' _ (Iff.of_eq (k1_chk53.eq_1 v575))
theorem k1_off79_inb : ∀ (v575 : BitVec 32) (k1_hw53 : k1_chk53 v575), ∀ a, (k1_off79 v575) a + S1x64.size a ≤ S50000x64.size a := fun v575 k1_hw53 => k1_hw53

def k1_off80 (v576 : BitVec 32) : Fin 2 → Nat :=
  let v580 : Index := Scalar.indexCast v576
  let c0_184 : Index := 0#32
  ![v580.toNat, 0]

def k1_off81 (v576 : BitVec 32) : Fin 2 → Nat :=
  let v588 : Index := Scalar.indexCast v576
  let c0_186 : Index := 0#32
  ![v588.toNat, 0]

def k1_chk54 (v576 : BitVec 32) : Prop :=
  (∀ a, (k1_off80 v576) a + S1x64.size a ≤ S16384x64.size a) ∧
  (∀ a, (k1_off81 v576) a + S1x1.size a ≤ S16384x1.size a)
instance k1_chk54.dec : ∀ (v576 : BitVec 32), Decidable (k1_chk54 v576) := fun v576 => decidable_of_iff' _ (Iff.of_eq (k1_chk54.eq_1 v576))
theorem k1_off80_inb : ∀ (v576 : BitVec 32) (k1_hw54 : k1_chk54 v576), ∀ a, (k1_off80 v576) a + S1x64.size a ≤ S16384x64.size a := fun v576 k1_hw54 => k1_hw54.1
theorem k1_off81_inb : ∀ (v576 : BitVec 32) (k1_hw54 : k1_chk54 v576), ∀ a, (k1_off81 v576) a + S1x1.size a ≤ S16384x1.size a := fun v576 k1_hw54 => k1_hw54.2

def k1_off82 (v597 : BitVec 32) : Fin 2 → Nat :=
  let v599 : Index := Scalar.indexCast v597
  let c0_190 : Index := 0#32
  ![v599.toNat, 0]

def k1_chk55 (v597 : BitVec 32) : Prop :=
  (∀ a, (k1_off82 v597) a + S1x64.size a ≤ S50000x64.size a)
instance k1_chk55.dec : ∀ (v597 : BitVec 32), Decidable (k1_chk55 v597) := fun v597 => decidable_of_iff' _ (Iff.of_eq (k1_chk55.eq_1 v597))
theorem k1_off82_inb : ∀ (v597 : BitVec 32) (k1_hw55 : k1_chk55 v597), ∀ a, (k1_off82 v597) a + S1x64.size a ≤ S50000x64.size a := fun v597 k1_hw55 => k1_hw55

def k1_off83 (v598 : BitVec 32) : Fin 2 → Nat :=
  let v602 : Index := Scalar.indexCast v598
  let c0_191 : Index := 0#32
  ![v602.toNat, 0]

def k1_off84 (v598 : BitVec 32) : Fin 2 → Nat :=
  let v610 : Index := Scalar.indexCast v598
  let c0_193 : Index := 0#32
  ![v610.toNat, 0]

def k1_chk56 (v598 : BitVec 32) : Prop :=
  (∀ a, (k1_off83 v598) a + S1x64.size a ≤ S16384x64.size a) ∧
  (∀ a, (k1_off84 v598) a + S1x1.size a ≤ S16384x1.size a)
instance k1_chk56.dec : ∀ (v598 : BitVec 32), Decidable (k1_chk56 v598) := fun v598 => decidable_of_iff' _ (Iff.of_eq (k1_chk56.eq_1 v598))
theorem k1_off83_inb : ∀ (v598 : BitVec 32) (k1_hw56 : k1_chk56 v598), ∀ a, (k1_off83 v598) a + S1x64.size a ≤ S16384x64.size a := fun v598 k1_hw56 => k1_hw56.1
theorem k1_off84_inb : ∀ (v598 : BitVec 32) (k1_hw56 : k1_chk56 v598), ∀ a, (k1_off84 v598) a + S1x1.size a ≤ S16384x1.size a := fun v598 k1_hw56 => k1_hw56.2

def k1_off85 (v619 : BitVec 32) : Fin 2 → Nat :=
  let v621 : Index := Scalar.indexCast v619
  let c0_197 : Index := 0#32
  ![v621.toNat, 0]

def k1_chk57 (v619 : BitVec 32) : Prop :=
  (∀ a, (k1_off85 v619) a + S1x64.size a ≤ S50000x64.size a)
instance k1_chk57.dec : ∀ (v619 : BitVec 32), Decidable (k1_chk57 v619) := fun v619 => decidable_of_iff' _ (Iff.of_eq (k1_chk57.eq_1 v619))
theorem k1_off85_inb : ∀ (v619 : BitVec 32) (k1_hw57 : k1_chk57 v619), ∀ a, (k1_off85 v619) a + S1x64.size a ≤ S50000x64.size a := fun v619 k1_hw57 => k1_hw57

def k1_off86 (v620 : BitVec 32) : Fin 2 → Nat :=
  let v624 : Index := Scalar.indexCast v620
  let c0_198 : Index := 0#32
  ![v624.toNat, 0]

def k1_off87 (v620 : BitVec 32) : Fin 2 → Nat :=
  let v632 : Index := Scalar.indexCast v620
  let c0_200 : Index := 0#32
  ![v632.toNat, 0]

def k1_chk58 (v620 : BitVec 32) : Prop :=
  (∀ a, (k1_off86 v620) a + S1x64.size a ≤ S16384x64.size a) ∧
  (∀ a, (k1_off87 v620) a + S1x1.size a ≤ S16384x1.size a)
instance k1_chk58.dec : ∀ (v620 : BitVec 32), Decidable (k1_chk58 v620) := fun v620 => decidable_of_iff' _ (Iff.of_eq (k1_chk58.eq_1 v620))
theorem k1_off86_inb : ∀ (v620 : BitVec 32) (k1_hw58 : k1_chk58 v620), ∀ a, (k1_off86 v620) a + S1x64.size a ≤ S16384x64.size a := fun v620 k1_hw58 => k1_hw58.1
theorem k1_off87_inb : ∀ (v620 : BitVec 32) (k1_hw58 : k1_chk58 v620), ∀ a, (k1_off87 v620) a + S1x1.size a ≤ S16384x1.size a := fun v620 k1_hw58 => k1_hw58.2

def k1_off88 (v641 : BitVec 32) : Fin 2 → Nat :=
  let v643 : Index := Scalar.indexCast v641
  let c0_204 : Index := 0#32
  ![v643.toNat, 0]

def k1_chk59 (v641 : BitVec 32) : Prop :=
  (∀ a, (k1_off88 v641) a + S1x64.size a ≤ S50000x64.size a)
instance k1_chk59.dec : ∀ (v641 : BitVec 32), Decidable (k1_chk59 v641) := fun v641 => decidable_of_iff' _ (Iff.of_eq (k1_chk59.eq_1 v641))
theorem k1_off88_inb : ∀ (v641 : BitVec 32) (k1_hw59 : k1_chk59 v641), ∀ a, (k1_off88 v641) a + S1x64.size a ≤ S50000x64.size a := fun v641 k1_hw59 => k1_hw59

def k1_off89 (v642 : BitVec 32) : Fin 2 → Nat :=
  let v646 : Index := Scalar.indexCast v642
  let c0_205 : Index := 0#32
  ![v646.toNat, 0]

def k1_off90 (v642 : BitVec 32) : Fin 2 → Nat :=
  let v654 : Index := Scalar.indexCast v642
  let c0_207 : Index := 0#32
  ![v654.toNat, 0]

def k1_chk60 (v642 : BitVec 32) : Prop :=
  (∀ a, (k1_off89 v642) a + S1x64.size a ≤ S16384x64.size a) ∧
  (∀ a, (k1_off90 v642) a + S1x1.size a ≤ S16384x1.size a)
instance k1_chk60.dec : ∀ (v642 : BitVec 32), Decidable (k1_chk60 v642) := fun v642 => decidable_of_iff' _ (Iff.of_eq (k1_chk60.eq_1 v642))
theorem k1_off89_inb : ∀ (v642 : BitVec 32) (k1_hw60 : k1_chk60 v642), ∀ a, (k1_off89 v642) a + S1x64.size a ≤ S16384x64.size a := fun v642 k1_hw60 => k1_hw60.1
theorem k1_off90_inb : ∀ (v642 : BitVec 32) (k1_hw60 : k1_chk60 v642), ∀ a, (k1_off90 v642) a + S1x1.size a ≤ S16384x1.size a := fun v642 k1_hw60 => k1_hw60.2

def k1_off91 (v663 : BitVec 32) : Fin 2 → Nat :=
  let v665 : Index := Scalar.indexCast v663
  let c0_211 : Index := 0#32
  ![v665.toNat, 0]

def k1_chk61 (v663 : BitVec 32) : Prop :=
  (∀ a, (k1_off91 v663) a + S1x64.size a ≤ S50000x64.size a)
instance k1_chk61.dec : ∀ (v663 : BitVec 32), Decidable (k1_chk61 v663) := fun v663 => decidable_of_iff' _ (Iff.of_eq (k1_chk61.eq_1 v663))
theorem k1_off91_inb : ∀ (v663 : BitVec 32) (k1_hw61 : k1_chk61 v663), ∀ a, (k1_off91 v663) a + S1x64.size a ≤ S50000x64.size a := fun v663 k1_hw61 => k1_hw61

def k1_off92 (v664 : BitVec 32) : Fin 2 → Nat :=
  let v668 : Index := Scalar.indexCast v664
  let c0_212 : Index := 0#32
  ![v668.toNat, 0]

def k1_off93 (v664 : BitVec 32) : Fin 2 → Nat :=
  let v676 : Index := Scalar.indexCast v664
  let c0_214 : Index := 0#32
  ![v676.toNat, 0]

def k1_chk62 (v664 : BitVec 32) : Prop :=
  (∀ a, (k1_off92 v664) a + S1x64.size a ≤ S16384x64.size a) ∧
  (∀ a, (k1_off93 v664) a + S1x1.size a ≤ S16384x1.size a)
instance k1_chk62.dec : ∀ (v664 : BitVec 32), Decidable (k1_chk62 v664) := fun v664 => decidable_of_iff' _ (Iff.of_eq (k1_chk62.eq_1 v664))
theorem k1_off92_inb : ∀ (v664 : BitVec 32) (k1_hw62 : k1_chk62 v664), ∀ a, (k1_off92 v664) a + S1x64.size a ≤ S16384x64.size a := fun v664 k1_hw62 => k1_hw62.1
theorem k1_off93_inb : ∀ (v664 : BitVec 32) (k1_hw62 : k1_chk62 v664), ∀ a, (k1_off93 v664) a + S1x1.size a ≤ S16384x1.size a := fun v664 k1_hw62 => k1_hw62.2

def k1_off94 (v685 : BitVec 32) : Fin 2 → Nat :=
  let v687 : Index := Scalar.indexCast v685
  let c0_218 : Index := 0#32
  ![v687.toNat, 0]

def k1_chk63 (v685 : BitVec 32) : Prop :=
  (∀ a, (k1_off94 v685) a + S1x64.size a ≤ S50000x64.size a)
instance k1_chk63.dec : ∀ (v685 : BitVec 32), Decidable (k1_chk63 v685) := fun v685 => decidable_of_iff' _ (Iff.of_eq (k1_chk63.eq_1 v685))
theorem k1_off94_inb : ∀ (v685 : BitVec 32) (k1_hw63 : k1_chk63 v685), ∀ a, (k1_off94 v685) a + S1x64.size a ≤ S50000x64.size a := fun v685 k1_hw63 => k1_hw63

def k1_off95 (v686 : BitVec 32) : Fin 2 → Nat :=
  let v690 : Index := Scalar.indexCast v686
  let c0_219 : Index := 0#32
  ![v690.toNat, 0]

def k1_off96 (v686 : BitVec 32) : Fin 2 → Nat :=
  let v698 : Index := Scalar.indexCast v686
  let c0_221 : Index := 0#32
  ![v698.toNat, 0]

def k1_chk64 (v686 : BitVec 32) : Prop :=
  (∀ a, (k1_off95 v686) a + S1x64.size a ≤ S16384x64.size a) ∧
  (∀ a, (k1_off96 v686) a + S1x1.size a ≤ S16384x1.size a)
instance k1_chk64.dec : ∀ (v686 : BitVec 32), Decidable (k1_chk64 v686) := fun v686 => decidable_of_iff' _ (Iff.of_eq (k1_chk64.eq_1 v686))
theorem k1_off95_inb : ∀ (v686 : BitVec 32) (k1_hw64 : k1_chk64 v686), ∀ a, (k1_off95 v686) a + S1x64.size a ≤ S16384x64.size a := fun v686 k1_hw64 => k1_hw64.1
theorem k1_off96_inb : ∀ (v686 : BitVec 32) (k1_hw64 : k1_chk64 v686), ∀ a, (k1_off96 v686) a + S1x1.size a ≤ S16384x1.size a := fun v686 k1_hw64 => k1_hw64.2

def k1_off97 (v707 : BitVec 32) : Fin 2 → Nat :=
  let v709 : Index := Scalar.indexCast v707
  let c0_225 : Index := 0#32
  ![v709.toNat, 0]

def k1_chk65 (v707 : BitVec 32) : Prop :=
  (∀ a, (k1_off97 v707) a + S1x64.size a ≤ S50000x64.size a)
instance k1_chk65.dec : ∀ (v707 : BitVec 32), Decidable (k1_chk65 v707) := fun v707 => decidable_of_iff' _ (Iff.of_eq (k1_chk65.eq_1 v707))
theorem k1_off97_inb : ∀ (v707 : BitVec 32) (k1_hw65 : k1_chk65 v707), ∀ a, (k1_off97 v707) a + S1x64.size a ≤ S50000x64.size a := fun v707 k1_hw65 => k1_hw65

def k1_off98 (v708 : BitVec 32) : Fin 2 → Nat :=
  let v712 : Index := Scalar.indexCast v708
  let c0_226 : Index := 0#32
  ![v712.toNat, 0]

def k1_off99 (v708 : BitVec 32) : Fin 2 → Nat :=
  let v720 : Index := Scalar.indexCast v708
  let c0_228 : Index := 0#32
  ![v720.toNat, 0]

def k1_chk66 (v708 : BitVec 32) : Prop :=
  (∀ a, (k1_off98 v708) a + S1x64.size a ≤ S16384x64.size a) ∧
  (∀ a, (k1_off99 v708) a + S1x1.size a ≤ S16384x1.size a)
instance k1_chk66.dec : ∀ (v708 : BitVec 32), Decidable (k1_chk66 v708) := fun v708 => decidable_of_iff' _ (Iff.of_eq (k1_chk66.eq_1 v708))
theorem k1_off98_inb : ∀ (v708 : BitVec 32) (k1_hw66 : k1_chk66 v708), ∀ a, (k1_off98 v708) a + S1x64.size a ≤ S16384x64.size a := fun v708 k1_hw66 => k1_hw66.1
theorem k1_off99_inb : ∀ (v708 : BitVec 32) (k1_hw66 : k1_chk66 v708), ∀ a, (k1_off99 v708) a + S1x1.size a ≤ S16384x1.size a := fun v708 k1_hw66 => k1_hw66.2

def k1_off100 (v729 : BitVec 32) : Fin 2 → Nat :=
  let v731 : Index := Scalar.indexCast v729
  let c0_232 : Index := 0#32
  ![v731.toNat, 0]

def k1_chk67 (v729 : BitVec 32) : Prop :=
  (∀ a, (k1_off100 v729) a + S1x64.size a ≤ S50000x64.size a)
instance k1_chk67.dec : ∀ (v729 : BitVec 32), Decidable (k1_chk67 v729) := fun v729 => decidable_of_iff' _ (Iff.of_eq (k1_chk67.eq_1 v729))
theorem k1_off100_inb : ∀ (v729 : BitVec 32) (k1_hw67 : k1_chk67 v729), ∀ a, (k1_off100 v729) a + S1x64.size a ≤ S50000x64.size a := fun v729 k1_hw67 => k1_hw67

def k1_off101 (v730 : BitVec 32) : Fin 2 → Nat :=
  let v734 : Index := Scalar.indexCast v730
  let c0_233 : Index := 0#32
  ![v734.toNat, 0]

def k1_off102 (v730 : BitVec 32) : Fin 2 → Nat :=
  let v742 : Index := Scalar.indexCast v730
  let c0_235 : Index := 0#32
  ![v742.toNat, 0]

def k1_chk68 (v730 : BitVec 32) : Prop :=
  (∀ a, (k1_off101 v730) a + S1x64.size a ≤ S16384x64.size a) ∧
  (∀ a, (k1_off102 v730) a + S1x1.size a ≤ S16384x1.size a)
instance k1_chk68.dec : ∀ (v730 : BitVec 32), Decidable (k1_chk68 v730) := fun v730 => decidable_of_iff' _ (Iff.of_eq (k1_chk68.eq_1 v730))
theorem k1_off101_inb : ∀ (v730 : BitVec 32) (k1_hw68 : k1_chk68 v730), ∀ a, (k1_off101 v730) a + S1x64.size a ≤ S16384x64.size a := fun v730 k1_hw68 => k1_hw68.1
theorem k1_off102_inb : ∀ (v730 : BitVec 32) (k1_hw68 : k1_chk68 v730), ∀ a, (k1_off102 v730) a + S1x1.size a ≤ S16384x1.size a := fun v730 k1_hw68 => k1_hw68.2

def k1_off103 (v751 : BitVec 32) : Fin 2 → Nat :=
  let v753 : Index := Scalar.indexCast v751
  let c0_239 : Index := 0#32
  ![v753.toNat, 0]

def k1_chk69 (v751 : BitVec 32) : Prop :=
  (∀ a, (k1_off103 v751) a + S1x64.size a ≤ S50000x64.size a)
instance k1_chk69.dec : ∀ (v751 : BitVec 32), Decidable (k1_chk69 v751) := fun v751 => decidable_of_iff' _ (Iff.of_eq (k1_chk69.eq_1 v751))
theorem k1_off103_inb : ∀ (v751 : BitVec 32) (k1_hw69 : k1_chk69 v751), ∀ a, (k1_off103 v751) a + S1x64.size a ≤ S50000x64.size a := fun v751 k1_hw69 => k1_hw69

def k1_off104 (v752 : BitVec 32) : Fin 2 → Nat :=
  let v756 : Index := Scalar.indexCast v752
  let c0_240 : Index := 0#32
  ![v756.toNat, 0]

def k1_off105 (v752 : BitVec 32) : Fin 2 → Nat :=
  let v764 : Index := Scalar.indexCast v752
  let c0_242 : Index := 0#32
  ![v764.toNat, 0]

def k1_chk70 (v752 : BitVec 32) : Prop :=
  (∀ a, (k1_off104 v752) a + S1x64.size a ≤ S16384x64.size a) ∧
  (∀ a, (k1_off105 v752) a + S1x1.size a ≤ S16384x1.size a)
instance k1_chk70.dec : ∀ (v752 : BitVec 32), Decidable (k1_chk70 v752) := fun v752 => decidable_of_iff' _ (Iff.of_eq (k1_chk70.eq_1 v752))
theorem k1_off104_inb : ∀ (v752 : BitVec 32) (k1_hw70 : k1_chk70 v752), ∀ a, (k1_off104 v752) a + S1x64.size a ≤ S16384x64.size a := fun v752 k1_hw70 => k1_hw70.1
theorem k1_off105_inb : ∀ (v752 : BitVec 32) (k1_hw70 : k1_chk70 v752), ∀ a, (k1_off105 v752) a + S1x1.size a ≤ S16384x1.size a := fun v752 k1_hw70 => k1_hw70.2

def k1_off106 (v773 : BitVec 32) : Fin 2 → Nat :=
  let v775 : Index := Scalar.indexCast v773
  let c0_246 : Index := 0#32
  ![v775.toNat, 0]

def k1_chk71 (v773 : BitVec 32) : Prop :=
  (∀ a, (k1_off106 v773) a + S1x64.size a ≤ S50000x64.size a)
instance k1_chk71.dec : ∀ (v773 : BitVec 32), Decidable (k1_chk71 v773) := fun v773 => decidable_of_iff' _ (Iff.of_eq (k1_chk71.eq_1 v773))
theorem k1_off106_inb : ∀ (v773 : BitVec 32) (k1_hw71 : k1_chk71 v773), ∀ a, (k1_off106 v773) a + S1x64.size a ≤ S50000x64.size a := fun v773 k1_hw71 => k1_hw71

def k1_off107 (v774 : BitVec 32) : Fin 2 → Nat :=
  let v778 : Index := Scalar.indexCast v774
  let c0_247 : Index := 0#32
  ![v778.toNat, 0]

def k1_off108 (v774 : BitVec 32) : Fin 2 → Nat :=
  let v786 : Index := Scalar.indexCast v774
  let c0_249 : Index := 0#32
  ![v786.toNat, 0]

def k1_chk72 (v774 : BitVec 32) : Prop :=
  (∀ a, (k1_off107 v774) a + S1x64.size a ≤ S16384x64.size a) ∧
  (∀ a, (k1_off108 v774) a + S1x1.size a ≤ S16384x1.size a)
instance k1_chk72.dec : ∀ (v774 : BitVec 32), Decidable (k1_chk72 v774) := fun v774 => decidable_of_iff' _ (Iff.of_eq (k1_chk72.eq_1 v774))
theorem k1_off107_inb : ∀ (v774 : BitVec 32) (k1_hw72 : k1_chk72 v774), ∀ a, (k1_off107 v774) a + S1x64.size a ≤ S16384x64.size a := fun v774 k1_hw72 => k1_hw72.1
theorem k1_off108_inb : ∀ (v774 : BitVec 32) (k1_hw72 : k1_chk72 v774), ∀ a, (k1_off108 v774) a + S1x1.size a ≤ S16384x1.size a := fun v774 k1_hw72 => k1_hw72.2

def k1_off109 (v795 : BitVec 32) : Fin 2 → Nat :=
  let v797 : Index := Scalar.indexCast v795
  let c0_253 : Index := 0#32
  ![v797.toNat, 0]

def k1_chk73 (v795 : BitVec 32) : Prop :=
  (∀ a, (k1_off109 v795) a + S1x64.size a ≤ S50000x64.size a)
instance k1_chk73.dec : ∀ (v795 : BitVec 32), Decidable (k1_chk73 v795) := fun v795 => decidable_of_iff' _ (Iff.of_eq (k1_chk73.eq_1 v795))
theorem k1_off109_inb : ∀ (v795 : BitVec 32) (k1_hw73 : k1_chk73 v795), ∀ a, (k1_off109 v795) a + S1x64.size a ≤ S50000x64.size a := fun v795 k1_hw73 => k1_hw73

def k1_off110 (v796 : BitVec 32) : Fin 2 → Nat :=
  let v800 : Index := Scalar.indexCast v796
  let c0_254 : Index := 0#32
  ![v800.toNat, 0]

def k1_off111 (v796 : BitVec 32) : Fin 2 → Nat :=
  let v808 : Index := Scalar.indexCast v796
  let c0_256 : Index := 0#32
  ![v808.toNat, 0]

def k1_chk74 (v796 : BitVec 32) : Prop :=
  (∀ a, (k1_off110 v796) a + S1x64.size a ≤ S16384x64.size a) ∧
  (∀ a, (k1_off111 v796) a + S1x1.size a ≤ S16384x1.size a)
instance k1_chk74.dec : ∀ (v796 : BitVec 32), Decidable (k1_chk74 v796) := fun v796 => decidable_of_iff' _ (Iff.of_eq (k1_chk74.eq_1 v796))
theorem k1_off110_inb : ∀ (v796 : BitVec 32) (k1_hw74 : k1_chk74 v796), ∀ a, (k1_off110 v796) a + S1x64.size a ≤ S16384x64.size a := fun v796 k1_hw74 => k1_hw74.1
theorem k1_off111_inb : ∀ (v796 : BitVec 32) (k1_hw74 : k1_chk74 v796), ∀ a, (k1_off111 v796) a + S1x1.size a ≤ S16384x1.size a := fun v796 k1_hw74 => k1_hw74.2

def k1_off112 (v817 : BitVec 32) : Fin 2 → Nat :=
  let v819 : Index := Scalar.indexCast v817
  let c0_260 : Index := 0#32
  ![v819.toNat, 0]

def k1_chk75 (v817 : BitVec 32) : Prop :=
  (∀ a, (k1_off112 v817) a + S1x64.size a ≤ S50000x64.size a)
instance k1_chk75.dec : ∀ (v817 : BitVec 32), Decidable (k1_chk75 v817) := fun v817 => decidable_of_iff' _ (Iff.of_eq (k1_chk75.eq_1 v817))
theorem k1_off112_inb : ∀ (v817 : BitVec 32) (k1_hw75 : k1_chk75 v817), ∀ a, (k1_off112 v817) a + S1x64.size a ≤ S50000x64.size a := fun v817 k1_hw75 => k1_hw75

def k1_off113 (v818 : BitVec 32) : Fin 2 → Nat :=
  let v822 : Index := Scalar.indexCast v818
  let c0_261 : Index := 0#32
  ![v822.toNat, 0]

def k1_off114 (v818 : BitVec 32) : Fin 2 → Nat :=
  let v830 : Index := Scalar.indexCast v818
  let c0_263 : Index := 0#32
  ![v830.toNat, 0]

def k1_chk76 (v818 : BitVec 32) : Prop :=
  (∀ a, (k1_off113 v818) a + S1x64.size a ≤ S16384x64.size a) ∧
  (∀ a, (k1_off114 v818) a + S1x1.size a ≤ S16384x1.size a)
instance k1_chk76.dec : ∀ (v818 : BitVec 32), Decidable (k1_chk76 v818) := fun v818 => decidable_of_iff' _ (Iff.of_eq (k1_chk76.eq_1 v818))
theorem k1_off113_inb : ∀ (v818 : BitVec 32) (k1_hw76 : k1_chk76 v818), ∀ a, (k1_off113 v818) a + S1x64.size a ≤ S16384x64.size a := fun v818 k1_hw76 => k1_hw76.1
theorem k1_off114_inb : ∀ (v818 : BitVec 32) (k1_hw76 : k1_chk76 v818), ∀ a, (k1_off114 v818) a + S1x1.size a ≤ S16384x1.size a := fun v818 k1_hw76 => k1_hw76.2

def k1_off115 (v839 : BitVec 32) : Fin 2 → Nat :=
  let v841 : Index := Scalar.indexCast v839
  let c0_267 : Index := 0#32
  ![v841.toNat, 0]

def k1_chk77 (v839 : BitVec 32) : Prop :=
  (∀ a, (k1_off115 v839) a + S1x64.size a ≤ S50000x64.size a)
instance k1_chk77.dec : ∀ (v839 : BitVec 32), Decidable (k1_chk77 v839) := fun v839 => decidable_of_iff' _ (Iff.of_eq (k1_chk77.eq_1 v839))
theorem k1_off115_inb : ∀ (v839 : BitVec 32) (k1_hw77 : k1_chk77 v839), ∀ a, (k1_off115 v839) a + S1x64.size a ≤ S50000x64.size a := fun v839 k1_hw77 => k1_hw77

def k1_off116 (v840 : BitVec 32) : Fin 2 → Nat :=
  let v844 : Index := Scalar.indexCast v840
  let c0_268 : Index := 0#32
  ![v844.toNat, 0]

def k1_off117 (v840 : BitVec 32) : Fin 2 → Nat :=
  let v852 : Index := Scalar.indexCast v840
  let c0_270 : Index := 0#32
  ![v852.toNat, 0]

def k1_chk78 (v840 : BitVec 32) : Prop :=
  (∀ a, (k1_off116 v840) a + S1x64.size a ≤ S16384x64.size a) ∧
  (∀ a, (k1_off117 v840) a + S1x1.size a ≤ S16384x1.size a)
instance k1_chk78.dec : ∀ (v840 : BitVec 32), Decidable (k1_chk78 v840) := fun v840 => decidable_of_iff' _ (Iff.of_eq (k1_chk78.eq_1 v840))
theorem k1_off116_inb : ∀ (v840 : BitVec 32) (k1_hw78 : k1_chk78 v840), ∀ a, (k1_off116 v840) a + S1x64.size a ≤ S16384x64.size a := fun v840 k1_hw78 => k1_hw78.1
theorem k1_off117_inb : ∀ (v840 : BitVec 32) (k1_hw78 : k1_chk78 v840), ∀ a, (k1_off117 v840) a + S1x1.size a ≤ S16384x1.size a := fun v840 k1_hw78 => k1_hw78.2

def k1_off118 (v861 : BitVec 32) : Fin 2 → Nat :=
  let v863 : Index := Scalar.indexCast v861
  let c0_274 : Index := 0#32
  ![v863.toNat, 0]

def k1_chk79 (v861 : BitVec 32) : Prop :=
  (∀ a, (k1_off118 v861) a + S1x64.size a ≤ S50000x64.size a)
instance k1_chk79.dec : ∀ (v861 : BitVec 32), Decidable (k1_chk79 v861) := fun v861 => decidable_of_iff' _ (Iff.of_eq (k1_chk79.eq_1 v861))
theorem k1_off118_inb : ∀ (v861 : BitVec 32) (k1_hw79 : k1_chk79 v861), ∀ a, (k1_off118 v861) a + S1x64.size a ≤ S50000x64.size a := fun v861 k1_hw79 => k1_hw79

def k1_off119 (v862 : BitVec 32) : Fin 2 → Nat :=
  let v866 : Index := Scalar.indexCast v862
  let c0_275 : Index := 0#32
  ![v866.toNat, 0]

def k1_off120 (v862 : BitVec 32) : Fin 2 → Nat :=
  let v874 : Index := Scalar.indexCast v862
  let c0_277 : Index := 0#32
  ![v874.toNat, 0]

def k1_chk80 (v862 : BitVec 32) : Prop :=
  (∀ a, (k1_off119 v862) a + S1x64.size a ≤ S16384x64.size a) ∧
  (∀ a, (k1_off120 v862) a + S1x1.size a ≤ S16384x1.size a)
instance k1_chk80.dec : ∀ (v862 : BitVec 32), Decidable (k1_chk80 v862) := fun v862 => decidable_of_iff' _ (Iff.of_eq (k1_chk80.eq_1 v862))
theorem k1_off119_inb : ∀ (v862 : BitVec 32) (k1_hw80 : k1_chk80 v862), ∀ a, (k1_off119 v862) a + S1x64.size a ≤ S16384x64.size a := fun v862 k1_hw80 => k1_hw80.1
theorem k1_off120_inb : ∀ (v862 : BitVec 32) (k1_hw80 : k1_chk80 v862), ∀ a, (k1_off120 v862) a + S1x1.size a ≤ S16384x1.size a := fun v862 k1_hw80 => k1_hw80.2

def k1_off121 (v883 : BitVec 32) : Fin 2 → Nat :=
  let v885 : Index := Scalar.indexCast v883
  let c0_281 : Index := 0#32
  ![v885.toNat, 0]

def k1_chk81 (v883 : BitVec 32) : Prop :=
  (∀ a, (k1_off121 v883) a + S1x64.size a ≤ S50000x64.size a)
instance k1_chk81.dec : ∀ (v883 : BitVec 32), Decidable (k1_chk81 v883) := fun v883 => decidable_of_iff' _ (Iff.of_eq (k1_chk81.eq_1 v883))
theorem k1_off121_inb : ∀ (v883 : BitVec 32) (k1_hw81 : k1_chk81 v883), ∀ a, (k1_off121 v883) a + S1x64.size a ≤ S50000x64.size a := fun v883 k1_hw81 => k1_hw81

def k1_off122 (v884 : BitVec 32) : Fin 2 → Nat :=
  let v888 : Index := Scalar.indexCast v884
  let c0_282 : Index := 0#32
  ![v888.toNat, 0]

def k1_off123 (v884 : BitVec 32) : Fin 2 → Nat :=
  let v896 : Index := Scalar.indexCast v884
  let c0_284 : Index := 0#32
  ![v896.toNat, 0]

def k1_chk82 (v884 : BitVec 32) : Prop :=
  (∀ a, (k1_off122 v884) a + S1x64.size a ≤ S16384x64.size a) ∧
  (∀ a, (k1_off123 v884) a + S1x1.size a ≤ S16384x1.size a)
instance k1_chk82.dec : ∀ (v884 : BitVec 32), Decidable (k1_chk82 v884) := fun v884 => decidable_of_iff' _ (Iff.of_eq (k1_chk82.eq_1 v884))
theorem k1_off122_inb : ∀ (v884 : BitVec 32) (k1_hw82 : k1_chk82 v884), ∀ a, (k1_off122 v884) a + S1x64.size a ≤ S16384x64.size a := fun v884 k1_hw82 => k1_hw82.1
theorem k1_off123_inb : ∀ (v884 : BitVec 32) (k1_hw82 : k1_chk82 v884), ∀ a, (k1_off123 v884) a + S1x1.size a ≤ S16384x1.size a := fun v884 k1_hw82 => k1_hw82.2

def k1_off124 (v905 : BitVec 32) : Fin 2 → Nat :=
  let v907 : Index := Scalar.indexCast v905
  let c0_288 : Index := 0#32
  ![v907.toNat, 0]

def k1_chk83 (v905 : BitVec 32) : Prop :=
  (∀ a, (k1_off124 v905) a + S1x64.size a ≤ S50000x64.size a)
instance k1_chk83.dec : ∀ (v905 : BitVec 32), Decidable (k1_chk83 v905) := fun v905 => decidable_of_iff' _ (Iff.of_eq (k1_chk83.eq_1 v905))
theorem k1_off124_inb : ∀ (v905 : BitVec 32) (k1_hw83 : k1_chk83 v905), ∀ a, (k1_off124 v905) a + S1x64.size a ≤ S50000x64.size a := fun v905 k1_hw83 => k1_hw83

def k1_off125 (v906 : BitVec 32) : Fin 2 → Nat :=
  let v910 : Index := Scalar.indexCast v906
  let c0_289 : Index := 0#32
  ![v910.toNat, 0]

def k1_off126 (v906 : BitVec 32) : Fin 2 → Nat :=
  let v918 : Index := Scalar.indexCast v906
  let c0_291 : Index := 0#32
  ![v918.toNat, 0]

def k1_chk84 (v906 : BitVec 32) : Prop :=
  (∀ a, (k1_off125 v906) a + S1x64.size a ≤ S16384x64.size a) ∧
  (∀ a, (k1_off126 v906) a + S1x1.size a ≤ S16384x1.size a)
instance k1_chk84.dec : ∀ (v906 : BitVec 32), Decidable (k1_chk84 v906) := fun v906 => decidable_of_iff' _ (Iff.of_eq (k1_chk84.eq_1 v906))
theorem k1_off125_inb : ∀ (v906 : BitVec 32) (k1_hw84 : k1_chk84 v906), ∀ a, (k1_off125 v906) a + S1x64.size a ≤ S16384x64.size a := fun v906 k1_hw84 => k1_hw84.1
theorem k1_off126_inb : ∀ (v906 : BitVec 32) (k1_hw84 : k1_chk84 v906), ∀ a, (k1_off126 v906) a + S1x1.size a ≤ S16384x1.size a := fun v906 k1_hw84 => k1_hw84.2

def k1_off127 (v927 : BitVec 32) : Fin 2 → Nat :=
  let v929 : Index := Scalar.indexCast v927
  let c0_295 : Index := 0#32
  ![v929.toNat, 0]

def k1_chk85 (v927 : BitVec 32) : Prop :=
  (∀ a, (k1_off127 v927) a + S1x64.size a ≤ S50000x64.size a)
instance k1_chk85.dec : ∀ (v927 : BitVec 32), Decidable (k1_chk85 v927) := fun v927 => decidable_of_iff' _ (Iff.of_eq (k1_chk85.eq_1 v927))
theorem k1_off127_inb : ∀ (v927 : BitVec 32) (k1_hw85 : k1_chk85 v927), ∀ a, (k1_off127 v927) a + S1x64.size a ≤ S50000x64.size a := fun v927 k1_hw85 => k1_hw85

def k1_off128 (v928 : BitVec 32) : Fin 2 → Nat :=
  let v932 : Index := Scalar.indexCast v928
  let c0_296 : Index := 0#32
  ![v932.toNat, 0]

def k1_off129 (v928 : BitVec 32) : Fin 2 → Nat :=
  let v940 : Index := Scalar.indexCast v928
  let c0_298 : Index := 0#32
  ![v940.toNat, 0]

def k1_chk86 (v928 : BitVec 32) : Prop :=
  (∀ a, (k1_off128 v928) a + S1x64.size a ≤ S16384x64.size a) ∧
  (∀ a, (k1_off129 v928) a + S1x1.size a ≤ S16384x1.size a)
instance k1_chk86.dec : ∀ (v928 : BitVec 32), Decidable (k1_chk86 v928) := fun v928 => decidable_of_iff' _ (Iff.of_eq (k1_chk86.eq_1 v928))
theorem k1_off128_inb : ∀ (v928 : BitVec 32) (k1_hw86 : k1_chk86 v928), ∀ a, (k1_off128 v928) a + S1x64.size a ≤ S16384x64.size a := fun v928 k1_hw86 => k1_hw86.1
theorem k1_off129_inb : ∀ (v928 : BitVec 32) (k1_hw86 : k1_chk86 v928), ∀ a, (k1_off129 v928) a + S1x1.size a ≤ S16384x1.size a := fun v928 k1_hw86 => k1_hw86.2

def k1_off130 (v949 : BitVec 32) : Fin 2 → Nat :=
  let v951 : Index := Scalar.indexCast v949
  let c0_302 : Index := 0#32
  ![v951.toNat, 0]

def k1_chk87 (v949 : BitVec 32) : Prop :=
  (∀ a, (k1_off130 v949) a + S1x64.size a ≤ S50000x64.size a)
instance k1_chk87.dec : ∀ (v949 : BitVec 32), Decidable (k1_chk87 v949) := fun v949 => decidable_of_iff' _ (Iff.of_eq (k1_chk87.eq_1 v949))
theorem k1_off130_inb : ∀ (v949 : BitVec 32) (k1_hw87 : k1_chk87 v949), ∀ a, (k1_off130 v949) a + S1x64.size a ≤ S50000x64.size a := fun v949 k1_hw87 => k1_hw87

def k1_off131 (v950 : BitVec 32) : Fin 2 → Nat :=
  let v954 : Index := Scalar.indexCast v950
  let c0_303 : Index := 0#32
  ![v954.toNat, 0]

def k1_off132 (v950 : BitVec 32) : Fin 2 → Nat :=
  let v962 : Index := Scalar.indexCast v950
  let c0_305 : Index := 0#32
  ![v962.toNat, 0]

def k1_chk88 (v950 : BitVec 32) : Prop :=
  (∀ a, (k1_off131 v950) a + S1x64.size a ≤ S16384x64.size a) ∧
  (∀ a, (k1_off132 v950) a + S1x1.size a ≤ S16384x1.size a)
instance k1_chk88.dec : ∀ (v950 : BitVec 32), Decidable (k1_chk88 v950) := fun v950 => decidable_of_iff' _ (Iff.of_eq (k1_chk88.eq_1 v950))
theorem k1_off131_inb : ∀ (v950 : BitVec 32) (k1_hw88 : k1_chk88 v950), ∀ a, (k1_off131 v950) a + S1x64.size a ≤ S16384x64.size a := fun v950 k1_hw88 => k1_hw88.1
theorem k1_off132_inb : ∀ (v950 : BitVec 32) (k1_hw88 : k1_chk88 v950), ∀ a, (k1_off132 v950) a + S1x1.size a ≤ S16384x1.size a := fun v950 k1_hw88 => k1_hw88.2

def k1_off133 (v971 : BitVec 32) : Fin 2 → Nat :=
  let v973 : Index := Scalar.indexCast v971
  let c0_309 : Index := 0#32
  ![v973.toNat, 0]

def k1_chk89 (v971 : BitVec 32) : Prop :=
  (∀ a, (k1_off133 v971) a + S1x64.size a ≤ S50000x64.size a)
instance k1_chk89.dec : ∀ (v971 : BitVec 32), Decidable (k1_chk89 v971) := fun v971 => decidable_of_iff' _ (Iff.of_eq (k1_chk89.eq_1 v971))
theorem k1_off133_inb : ∀ (v971 : BitVec 32) (k1_hw89 : k1_chk89 v971), ∀ a, (k1_off133 v971) a + S1x64.size a ≤ S50000x64.size a := fun v971 k1_hw89 => k1_hw89

def k1_off134 (v972 : BitVec 32) : Fin 2 → Nat :=
  let v976 : Index := Scalar.indexCast v972
  let c0_310 : Index := 0#32
  ![v976.toNat, 0]

def k1_off135 (v972 : BitVec 32) : Fin 2 → Nat :=
  let v984 : Index := Scalar.indexCast v972
  let c0_312 : Index := 0#32
  ![v984.toNat, 0]

def k1_chk90 (v972 : BitVec 32) : Prop :=
  (∀ a, (k1_off134 v972) a + S1x64.size a ≤ S16384x64.size a) ∧
  (∀ a, (k1_off135 v972) a + S1x1.size a ≤ S16384x1.size a)
instance k1_chk90.dec : ∀ (v972 : BitVec 32), Decidable (k1_chk90 v972) := fun v972 => decidable_of_iff' _ (Iff.of_eq (k1_chk90.eq_1 v972))
theorem k1_off134_inb : ∀ (v972 : BitVec 32) (k1_hw90 : k1_chk90 v972), ∀ a, (k1_off134 v972) a + S1x64.size a ≤ S16384x64.size a := fun v972 k1_hw90 => k1_hw90.1
theorem k1_off135_inb : ∀ (v972 : BitVec 32) (k1_hw90 : k1_chk90 v972), ∀ a, (k1_off135 v972) a + S1x1.size a ≤ S16384x1.size a := fun v972 k1_hw90 => k1_hw90.2

def k1_off136 (v993 : BitVec 32) : Fin 2 → Nat :=
  let v995 : Index := Scalar.indexCast v993
  let c0_316 : Index := 0#32
  ![v995.toNat, 0]

def k1_chk91 (v993 : BitVec 32) : Prop :=
  (∀ a, (k1_off136 v993) a + S1x64.size a ≤ S50000x64.size a)
instance k1_chk91.dec : ∀ (v993 : BitVec 32), Decidable (k1_chk91 v993) := fun v993 => decidable_of_iff' _ (Iff.of_eq (k1_chk91.eq_1 v993))
theorem k1_off136_inb : ∀ (v993 : BitVec 32) (k1_hw91 : k1_chk91 v993), ∀ a, (k1_off136 v993) a + S1x64.size a ≤ S50000x64.size a := fun v993 k1_hw91 => k1_hw91

def k1_off137 (v994 : BitVec 32) : Fin 2 → Nat :=
  let v998 : Index := Scalar.indexCast v994
  let c0_317 : Index := 0#32
  ![v998.toNat, 0]

def k1_off138 (v994 : BitVec 32) : Fin 2 → Nat :=
  let v1006 : Index := Scalar.indexCast v994
  let c0_319 : Index := 0#32
  ![v1006.toNat, 0]

def k1_chk92 (v994 : BitVec 32) : Prop :=
  (∀ a, (k1_off137 v994) a + S1x64.size a ≤ S16384x64.size a) ∧
  (∀ a, (k1_off138 v994) a + S1x1.size a ≤ S16384x1.size a)
instance k1_chk92.dec : ∀ (v994 : BitVec 32), Decidable (k1_chk92 v994) := fun v994 => decidable_of_iff' _ (Iff.of_eq (k1_chk92.eq_1 v994))
theorem k1_off137_inb : ∀ (v994 : BitVec 32) (k1_hw92 : k1_chk92 v994), ∀ a, (k1_off137 v994) a + S1x64.size a ≤ S16384x64.size a := fun v994 k1_hw92 => k1_hw92.1
theorem k1_off138_inb : ∀ (v994 : BitVec 32) (k1_hw92 : k1_chk92 v994), ∀ a, (k1_off138 v994) a + S1x1.size a ≤ S16384x1.size a := fun v994 k1_hw92 => k1_hw92.2

def k1_off139 (v1015 : BitVec 32) : Fin 2 → Nat :=
  let v1017 : Index := Scalar.indexCast v1015
  let c0_323 : Index := 0#32
  ![v1017.toNat, 0]

def k1_chk93 (v1015 : BitVec 32) : Prop :=
  (∀ a, (k1_off139 v1015) a + S1x64.size a ≤ S50000x64.size a)
instance k1_chk93.dec : ∀ (v1015 : BitVec 32), Decidable (k1_chk93 v1015) := fun v1015 => decidable_of_iff' _ (Iff.of_eq (k1_chk93.eq_1 v1015))
theorem k1_off139_inb : ∀ (v1015 : BitVec 32) (k1_hw93 : k1_chk93 v1015), ∀ a, (k1_off139 v1015) a + S1x64.size a ≤ S50000x64.size a := fun v1015 k1_hw93 => k1_hw93

def k1_off140 (v1016 : BitVec 32) : Fin 2 → Nat :=
  let v1020 : Index := Scalar.indexCast v1016
  let c0_324 : Index := 0#32
  ![v1020.toNat, 0]

def k1_off141 (v1016 : BitVec 32) : Fin 2 → Nat :=
  let v1028 : Index := Scalar.indexCast v1016
  let c0_326 : Index := 0#32
  ![v1028.toNat, 0]

def k1_chk94 (v1016 : BitVec 32) : Prop :=
  (∀ a, (k1_off140 v1016) a + S1x64.size a ≤ S16384x64.size a) ∧
  (∀ a, (k1_off141 v1016) a + S1x1.size a ≤ S16384x1.size a)
instance k1_chk94.dec : ∀ (v1016 : BitVec 32), Decidable (k1_chk94 v1016) := fun v1016 => decidable_of_iff' _ (Iff.of_eq (k1_chk94.eq_1 v1016))
theorem k1_off140_inb : ∀ (v1016 : BitVec 32) (k1_hw94 : k1_chk94 v1016), ∀ a, (k1_off140 v1016) a + S1x64.size a ≤ S16384x64.size a := fun v1016 k1_hw94 => k1_hw94.1
theorem k1_off141_inb : ∀ (v1016 : BitVec 32) (k1_hw94 : k1_chk94 v1016), ∀ a, (k1_off141 v1016) a + S1x1.size a ≤ S16384x1.size a := fun v1016 k1_hw94 => k1_hw94.2

def k1_off142 (v1037 : BitVec 32) : Fin 2 → Nat :=
  let v1039 : Index := Scalar.indexCast v1037
  let c0_330 : Index := 0#32
  ![v1039.toNat, 0]

def k1_chk95 (v1037 : BitVec 32) : Prop :=
  (∀ a, (k1_off142 v1037) a + S1x64.size a ≤ S50000x64.size a)
instance k1_chk95.dec : ∀ (v1037 : BitVec 32), Decidable (k1_chk95 v1037) := fun v1037 => decidable_of_iff' _ (Iff.of_eq (k1_chk95.eq_1 v1037))
theorem k1_off142_inb : ∀ (v1037 : BitVec 32) (k1_hw95 : k1_chk95 v1037), ∀ a, (k1_off142 v1037) a + S1x64.size a ≤ S50000x64.size a := fun v1037 k1_hw95 => k1_hw95

def k1_off143 (v1038 : BitVec 32) : Fin 2 → Nat :=
  let v1042 : Index := Scalar.indexCast v1038
  let c0_331 : Index := 0#32
  ![v1042.toNat, 0]

def k1_off144 (v1038 : BitVec 32) : Fin 2 → Nat :=
  let v1050 : Index := Scalar.indexCast v1038
  let c0_333 : Index := 0#32
  ![v1050.toNat, 0]

def k1_chk96 (v1038 : BitVec 32) : Prop :=
  (∀ a, (k1_off143 v1038) a + S1x64.size a ≤ S16384x64.size a) ∧
  (∀ a, (k1_off144 v1038) a + S1x1.size a ≤ S16384x1.size a)
instance k1_chk96.dec : ∀ (v1038 : BitVec 32), Decidable (k1_chk96 v1038) := fun v1038 => decidable_of_iff' _ (Iff.of_eq (k1_chk96.eq_1 v1038))
theorem k1_off143_inb : ∀ (v1038 : BitVec 32) (k1_hw96 : k1_chk96 v1038), ∀ a, (k1_off143 v1038) a + S1x64.size a ≤ S16384x64.size a := fun v1038 k1_hw96 => k1_hw96.1
theorem k1_off144_inb : ∀ (v1038 : BitVec 32) (k1_hw96 : k1_chk96 v1038), ∀ a, (k1_off144 v1038) a + S1x1.size a ≤ S16384x1.size a := fun v1038 k1_hw96 => k1_hw96.2

def k1_off145 (v1059 : BitVec 32) : Fin 2 → Nat :=
  let v1061 : Index := Scalar.indexCast v1059
  let c0_337 : Index := 0#32
  ![v1061.toNat, 0]

def k1_chk97 (v1059 : BitVec 32) : Prop :=
  (∀ a, (k1_off145 v1059) a + S1x64.size a ≤ S50000x64.size a)
instance k1_chk97.dec : ∀ (v1059 : BitVec 32), Decidable (k1_chk97 v1059) := fun v1059 => decidable_of_iff' _ (Iff.of_eq (k1_chk97.eq_1 v1059))
theorem k1_off145_inb : ∀ (v1059 : BitVec 32) (k1_hw97 : k1_chk97 v1059), ∀ a, (k1_off145 v1059) a + S1x64.size a ≤ S50000x64.size a := fun v1059 k1_hw97 => k1_hw97

def k1_off146 (v1060 : BitVec 32) : Fin 2 → Nat :=
  let v1064 : Index := Scalar.indexCast v1060
  let c0_338 : Index := 0#32
  ![v1064.toNat, 0]

def k1_off147 (v1060 : BitVec 32) : Fin 2 → Nat :=
  let v1072 : Index := Scalar.indexCast v1060
  let c0_340 : Index := 0#32
  ![v1072.toNat, 0]

def k1_chk98 (v1060 : BitVec 32) : Prop :=
  (∀ a, (k1_off146 v1060) a + S1x64.size a ≤ S16384x64.size a) ∧
  (∀ a, (k1_off147 v1060) a + S1x1.size a ≤ S16384x1.size a)
instance k1_chk98.dec : ∀ (v1060 : BitVec 32), Decidable (k1_chk98 v1060) := fun v1060 => decidable_of_iff' _ (Iff.of_eq (k1_chk98.eq_1 v1060))
theorem k1_off146_inb : ∀ (v1060 : BitVec 32) (k1_hw98 : k1_chk98 v1060), ∀ a, (k1_off146 v1060) a + S1x64.size a ≤ S16384x64.size a := fun v1060 k1_hw98 => k1_hw98.1
theorem k1_off147_inb : ∀ (v1060 : BitVec 32) (k1_hw98 : k1_chk98 v1060), ∀ a, (k1_off147 v1060) a + S1x1.size a ≤ S16384x1.size a := fun v1060 k1_hw98 => k1_hw98.2

def k1_off148 (v1081 : BitVec 32) : Fin 2 → Nat :=
  let v1083 : Index := Scalar.indexCast v1081
  let c0_344 : Index := 0#32
  ![v1083.toNat, 0]

def k1_chk99 (v1081 : BitVec 32) : Prop :=
  (∀ a, (k1_off148 v1081) a + S1x64.size a ≤ S50000x64.size a)
instance k1_chk99.dec : ∀ (v1081 : BitVec 32), Decidable (k1_chk99 v1081) := fun v1081 => decidable_of_iff' _ (Iff.of_eq (k1_chk99.eq_1 v1081))
theorem k1_off148_inb : ∀ (v1081 : BitVec 32) (k1_hw99 : k1_chk99 v1081), ∀ a, (k1_off148 v1081) a + S1x64.size a ≤ S50000x64.size a := fun v1081 k1_hw99 => k1_hw99

def k1_off149 (v1082 : BitVec 32) : Fin 2 → Nat :=
  let v1086 : Index := Scalar.indexCast v1082
  let c0_345 : Index := 0#32
  ![v1086.toNat, 0]

def k1_off150 (v1082 : BitVec 32) : Fin 2 → Nat :=
  let v1094 : Index := Scalar.indexCast v1082
  let c0_347 : Index := 0#32
  ![v1094.toNat, 0]

def k1_chk100 (v1082 : BitVec 32) : Prop :=
  (∀ a, (k1_off149 v1082) a + S1x64.size a ≤ S16384x64.size a) ∧
  (∀ a, (k1_off150 v1082) a + S1x1.size a ≤ S16384x1.size a)
instance k1_chk100.dec : ∀ (v1082 : BitVec 32), Decidable (k1_chk100 v1082) := fun v1082 => decidable_of_iff' _ (Iff.of_eq (k1_chk100.eq_1 v1082))
theorem k1_off149_inb : ∀ (v1082 : BitVec 32) (k1_hw100 : k1_chk100 v1082), ∀ a, (k1_off149 v1082) a + S1x64.size a ≤ S16384x64.size a := fun v1082 k1_hw100 => k1_hw100.1
theorem k1_off150_inb : ∀ (v1082 : BitVec 32) (k1_hw100 : k1_chk100 v1082), ∀ a, (k1_off150 v1082) a + S1x1.size a ≤ S16384x1.size a := fun v1082 k1_hw100 => k1_hw100.2

def k1_off151 (v1103 : BitVec 32) : Fin 2 → Nat :=
  let v1105 : Index := Scalar.indexCast v1103
  let c0_351 : Index := 0#32
  ![v1105.toNat, 0]

def k1_chk101 (v1103 : BitVec 32) : Prop :=
  (∀ a, (k1_off151 v1103) a + S1x64.size a ≤ S50000x64.size a)
instance k1_chk101.dec : ∀ (v1103 : BitVec 32), Decidable (k1_chk101 v1103) := fun v1103 => decidable_of_iff' _ (Iff.of_eq (k1_chk101.eq_1 v1103))
theorem k1_off151_inb : ∀ (v1103 : BitVec 32) (k1_hw101 : k1_chk101 v1103), ∀ a, (k1_off151 v1103) a + S1x64.size a ≤ S50000x64.size a := fun v1103 k1_hw101 => k1_hw101

def k1_off152 (v1104 : BitVec 32) : Fin 2 → Nat :=
  let v1108 : Index := Scalar.indexCast v1104
  let c0_352 : Index := 0#32
  ![v1108.toNat, 0]

def k1_off153 (v1104 : BitVec 32) : Fin 2 → Nat :=
  let v1116 : Index := Scalar.indexCast v1104
  let c0_354 : Index := 0#32
  ![v1116.toNat, 0]

def k1_chk102 (v1104 : BitVec 32) : Prop :=
  (∀ a, (k1_off152 v1104) a + S1x64.size a ≤ S16384x64.size a) ∧
  (∀ a, (k1_off153 v1104) a + S1x1.size a ≤ S16384x1.size a)
instance k1_chk102.dec : ∀ (v1104 : BitVec 32), Decidable (k1_chk102 v1104) := fun v1104 => decidable_of_iff' _ (Iff.of_eq (k1_chk102.eq_1 v1104))
theorem k1_off152_inb : ∀ (v1104 : BitVec 32) (k1_hw102 : k1_chk102 v1104), ∀ a, (k1_off152 v1104) a + S1x64.size a ≤ S16384x64.size a := fun v1104 k1_hw102 => k1_hw102.1
theorem k1_off153_inb : ∀ (v1104 : BitVec 32) (k1_hw102 : k1_chk102 v1104), ∀ a, (k1_off153 v1104) a + S1x1.size a ≤ S16384x1.size a := fun v1104 k1_hw102 => k1_hw102.2

def k1_off154 (v1125 : BitVec 32) : Fin 2 → Nat :=
  let v1127 : Index := Scalar.indexCast v1125
  let c0_358 : Index := 0#32
  ![v1127.toNat, 0]

def k1_chk103 (v1125 : BitVec 32) : Prop :=
  (∀ a, (k1_off154 v1125) a + S1x64.size a ≤ S50000x64.size a)
instance k1_chk103.dec : ∀ (v1125 : BitVec 32), Decidable (k1_chk103 v1125) := fun v1125 => decidable_of_iff' _ (Iff.of_eq (k1_chk103.eq_1 v1125))
theorem k1_off154_inb : ∀ (v1125 : BitVec 32) (k1_hw103 : k1_chk103 v1125), ∀ a, (k1_off154 v1125) a + S1x64.size a ≤ S50000x64.size a := fun v1125 k1_hw103 => k1_hw103

def k1_off155 (v1126 : BitVec 32) : Fin 2 → Nat :=
  let v1130 : Index := Scalar.indexCast v1126
  let c0_359 : Index := 0#32
  ![v1130.toNat, 0]

def k1_off156 (v1126 : BitVec 32) : Fin 2 → Nat :=
  let v1138 : Index := Scalar.indexCast v1126
  let c0_361 : Index := 0#32
  ![v1138.toNat, 0]

def k1_chk104 (v1126 : BitVec 32) : Prop :=
  (∀ a, (k1_off155 v1126) a + S1x64.size a ≤ S16384x64.size a) ∧
  (∀ a, (k1_off156 v1126) a + S1x1.size a ≤ S16384x1.size a)
instance k1_chk104.dec : ∀ (v1126 : BitVec 32), Decidable (k1_chk104 v1126) := fun v1126 => decidable_of_iff' _ (Iff.of_eq (k1_chk104.eq_1 v1126))
theorem k1_off155_inb : ∀ (v1126 : BitVec 32) (k1_hw104 : k1_chk104 v1126), ∀ a, (k1_off155 v1126) a + S1x64.size a ≤ S16384x64.size a := fun v1126 k1_hw104 => k1_hw104.1
theorem k1_off156_inb : ∀ (v1126 : BitVec 32) (k1_hw104 : k1_chk104 v1126), ∀ a, (k1_off156 v1126) a + S1x1.size a ≤ S16384x1.size a := fun v1126 k1_hw104 => k1_hw104.2

def k1_off157 (v1147 : BitVec 32) : Fin 2 → Nat :=
  let v1149 : Index := Scalar.indexCast v1147
  let c0_365 : Index := 0#32
  ![v1149.toNat, 0]

def k1_chk105 (v1147 : BitVec 32) : Prop :=
  (∀ a, (k1_off157 v1147) a + S1x64.size a ≤ S50000x64.size a)
instance k1_chk105.dec : ∀ (v1147 : BitVec 32), Decidable (k1_chk105 v1147) := fun v1147 => decidable_of_iff' _ (Iff.of_eq (k1_chk105.eq_1 v1147))
theorem k1_off157_inb : ∀ (v1147 : BitVec 32) (k1_hw105 : k1_chk105 v1147), ∀ a, (k1_off157 v1147) a + S1x64.size a ≤ S50000x64.size a := fun v1147 k1_hw105 => k1_hw105

def k1_off158 (v1148 : BitVec 32) : Fin 2 → Nat :=
  let v1152 : Index := Scalar.indexCast v1148
  let c0_366 : Index := 0#32
  ![v1152.toNat, 0]

def k1_off159 (v1148 : BitVec 32) : Fin 2 → Nat :=
  let v1160 : Index := Scalar.indexCast v1148
  let c0_368 : Index := 0#32
  ![v1160.toNat, 0]

def k1_chk106 (v1148 : BitVec 32) : Prop :=
  (∀ a, (k1_off158 v1148) a + S1x64.size a ≤ S16384x64.size a) ∧
  (∀ a, (k1_off159 v1148) a + S1x1.size a ≤ S16384x1.size a)
instance k1_chk106.dec : ∀ (v1148 : BitVec 32), Decidable (k1_chk106 v1148) := fun v1148 => decidable_of_iff' _ (Iff.of_eq (k1_chk106.eq_1 v1148))
theorem k1_off158_inb : ∀ (v1148 : BitVec 32) (k1_hw106 : k1_chk106 v1148), ∀ a, (k1_off158 v1148) a + S1x64.size a ≤ S16384x64.size a := fun v1148 k1_hw106 => k1_hw106.1
theorem k1_off159_inb : ∀ (v1148 : BitVec 32) (k1_hw106 : k1_chk106 v1148), ∀ a, (k1_off159 v1148) a + S1x1.size a ≤ S16384x1.size a := fun v1148 k1_hw106 => k1_hw106.2

def k1_off160 (v1169 : BitVec 32) : Fin 2 → Nat :=
  let v1171 : Index := Scalar.indexCast v1169
  let c0_372 : Index := 0#32
  ![v1171.toNat, 0]

def k1_chk107 (v1169 : BitVec 32) : Prop :=
  (∀ a, (k1_off160 v1169) a + S1x64.size a ≤ S50000x64.size a)
instance k1_chk107.dec : ∀ (v1169 : BitVec 32), Decidable (k1_chk107 v1169) := fun v1169 => decidable_of_iff' _ (Iff.of_eq (k1_chk107.eq_1 v1169))
theorem k1_off160_inb : ∀ (v1169 : BitVec 32) (k1_hw107 : k1_chk107 v1169), ∀ a, (k1_off160 v1169) a + S1x64.size a ≤ S50000x64.size a := fun v1169 k1_hw107 => k1_hw107

def k1_off161 (v1170 : BitVec 32) : Fin 2 → Nat :=
  let v1174 : Index := Scalar.indexCast v1170
  let c0_373 : Index := 0#32
  ![v1174.toNat, 0]

def k1_off162 (v1170 : BitVec 32) : Fin 2 → Nat :=
  let v1182 : Index := Scalar.indexCast v1170
  let c0_375 : Index := 0#32
  ![v1182.toNat, 0]

def k1_chk108 (v1170 : BitVec 32) : Prop :=
  (∀ a, (k1_off161 v1170) a + S1x64.size a ≤ S16384x64.size a) ∧
  (∀ a, (k1_off162 v1170) a + S1x1.size a ≤ S16384x1.size a)
instance k1_chk108.dec : ∀ (v1170 : BitVec 32), Decidable (k1_chk108 v1170) := fun v1170 => decidable_of_iff' _ (Iff.of_eq (k1_chk108.eq_1 v1170))
theorem k1_off161_inb : ∀ (v1170 : BitVec 32) (k1_hw108 : k1_chk108 v1170), ∀ a, (k1_off161 v1170) a + S1x64.size a ≤ S16384x64.size a := fun v1170 k1_hw108 => k1_hw108.1
theorem k1_off162_inb : ∀ (v1170 : BitVec 32) (k1_hw108 : k1_chk108 v1170), ∀ a, (k1_off162 v1170) a + S1x1.size a ≤ S16384x1.size a := fun v1170 k1_hw108 => k1_hw108.2

def k1_off163 (v1191 : BitVec 32) : Fin 2 → Nat :=
  let v1193 : Index := Scalar.indexCast v1191
  let c0_379 : Index := 0#32
  ![v1193.toNat, 0]

def k1_chk109 (v1191 : BitVec 32) : Prop :=
  (∀ a, (k1_off163 v1191) a + S1x64.size a ≤ S50000x64.size a)
instance k1_chk109.dec : ∀ (v1191 : BitVec 32), Decidable (k1_chk109 v1191) := fun v1191 => decidable_of_iff' _ (Iff.of_eq (k1_chk109.eq_1 v1191))
theorem k1_off163_inb : ∀ (v1191 : BitVec 32) (k1_hw109 : k1_chk109 v1191), ∀ a, (k1_off163 v1191) a + S1x64.size a ≤ S50000x64.size a := fun v1191 k1_hw109 => k1_hw109

def k1_off164 (v1192 : BitVec 32) : Fin 2 → Nat :=
  let v1196 : Index := Scalar.indexCast v1192
  let c0_380 : Index := 0#32
  ![v1196.toNat, 0]

def k1_off165 (v1192 : BitVec 32) : Fin 2 → Nat :=
  let v1204 : Index := Scalar.indexCast v1192
  let c0_382 : Index := 0#32
  ![v1204.toNat, 0]

def k1_chk110 (v1192 : BitVec 32) : Prop :=
  (∀ a, (k1_off164 v1192) a + S1x64.size a ≤ S16384x64.size a) ∧
  (∀ a, (k1_off165 v1192) a + S1x1.size a ≤ S16384x1.size a)
instance k1_chk110.dec : ∀ (v1192 : BitVec 32), Decidable (k1_chk110 v1192) := fun v1192 => decidable_of_iff' _ (Iff.of_eq (k1_chk110.eq_1 v1192))
theorem k1_off164_inb : ∀ (v1192 : BitVec 32) (k1_hw110 : k1_chk110 v1192), ∀ a, (k1_off164 v1192) a + S1x64.size a ≤ S16384x64.size a := fun v1192 k1_hw110 => k1_hw110.1
theorem k1_off165_inb : ∀ (v1192 : BitVec 32) (k1_hw110 : k1_chk110 v1192), ∀ a, (k1_off165 v1192) a + S1x1.size a ≤ S16384x1.size a := fun v1192 k1_hw110 => k1_hw110.2

def k1_off166 (v1213 : BitVec 32) : Fin 2 → Nat :=
  let v1215 : Index := Scalar.indexCast v1213
  let c0_386 : Index := 0#32
  ![v1215.toNat, 0]

def k1_chk111 (v1213 : BitVec 32) : Prop :=
  (∀ a, (k1_off166 v1213) a + S1x64.size a ≤ S50000x64.size a)
instance k1_chk111.dec : ∀ (v1213 : BitVec 32), Decidable (k1_chk111 v1213) := fun v1213 => decidable_of_iff' _ (Iff.of_eq (k1_chk111.eq_1 v1213))
theorem k1_off166_inb : ∀ (v1213 : BitVec 32) (k1_hw111 : k1_chk111 v1213), ∀ a, (k1_off166 v1213) a + S1x64.size a ≤ S50000x64.size a := fun v1213 k1_hw111 => k1_hw111

def k1_off167 (v1214 : BitVec 32) : Fin 2 → Nat :=
  let v1218 : Index := Scalar.indexCast v1214
  let c0_387 : Index := 0#32
  ![v1218.toNat, 0]

def k1_off168 (v1214 : BitVec 32) : Fin 2 → Nat :=
  let v1226 : Index := Scalar.indexCast v1214
  let c0_389 : Index := 0#32
  ![v1226.toNat, 0]

def k1_chk112 (v1214 : BitVec 32) : Prop :=
  (∀ a, (k1_off167 v1214) a + S1x64.size a ≤ S16384x64.size a) ∧
  (∀ a, (k1_off168 v1214) a + S1x1.size a ≤ S16384x1.size a)
instance k1_chk112.dec : ∀ (v1214 : BitVec 32), Decidable (k1_chk112 v1214) := fun v1214 => decidable_of_iff' _ (Iff.of_eq (k1_chk112.eq_1 v1214))
theorem k1_off167_inb : ∀ (v1214 : BitVec 32) (k1_hw112 : k1_chk112 v1214), ∀ a, (k1_off167 v1214) a + S1x64.size a ≤ S16384x64.size a := fun v1214 k1_hw112 => k1_hw112.1
theorem k1_off168_inb : ∀ (v1214 : BitVec 32) (k1_hw112 : k1_chk112 v1214), ∀ a, (k1_off168 v1214) a + S1x1.size a ≤ S16384x1.size a := fun v1214 k1_hw112 => k1_hw112.2

def k1_off169 (v1235 : BitVec 32) : Fin 2 → Nat :=
  let v1237 : Index := Scalar.indexCast v1235
  let c0_393 : Index := 0#32
  ![v1237.toNat, 0]

def k1_chk113 (v1235 : BitVec 32) : Prop :=
  (∀ a, (k1_off169 v1235) a + S1x64.size a ≤ S50000x64.size a)
instance k1_chk113.dec : ∀ (v1235 : BitVec 32), Decidable (k1_chk113 v1235) := fun v1235 => decidable_of_iff' _ (Iff.of_eq (k1_chk113.eq_1 v1235))
theorem k1_off169_inb : ∀ (v1235 : BitVec 32) (k1_hw113 : k1_chk113 v1235), ∀ a, (k1_off169 v1235) a + S1x64.size a ≤ S50000x64.size a := fun v1235 k1_hw113 => k1_hw113

def k1_off170 (v1236 : BitVec 32) : Fin 2 → Nat :=
  let v1240 : Index := Scalar.indexCast v1236
  let c0_394 : Index := 0#32
  ![v1240.toNat, 0]

def k1_off171 (v1236 : BitVec 32) : Fin 2 → Nat :=
  let v1248 : Index := Scalar.indexCast v1236
  let c0_396 : Index := 0#32
  ![v1248.toNat, 0]

def k1_chk114 (v1236 : BitVec 32) : Prop :=
  (∀ a, (k1_off170 v1236) a + S1x64.size a ≤ S16384x64.size a) ∧
  (∀ a, (k1_off171 v1236) a + S1x1.size a ≤ S16384x1.size a)
instance k1_chk114.dec : ∀ (v1236 : BitVec 32), Decidable (k1_chk114 v1236) := fun v1236 => decidable_of_iff' _ (Iff.of_eq (k1_chk114.eq_1 v1236))
theorem k1_off170_inb : ∀ (v1236 : BitVec 32) (k1_hw114 : k1_chk114 v1236), ∀ a, (k1_off170 v1236) a + S1x64.size a ≤ S16384x64.size a := fun v1236 k1_hw114 => k1_hw114.1
theorem k1_off171_inb : ∀ (v1236 : BitVec 32) (k1_hw114 : k1_chk114 v1236), ∀ a, (k1_off171 v1236) a + S1x1.size a ≤ S16384x1.size a := fun v1236 k1_hw114 => k1_hw114.2

def k1_off172 (v1257 : BitVec 32) : Fin 2 → Nat :=
  let v1259 : Index := Scalar.indexCast v1257
  let c0_400 : Index := 0#32
  ![v1259.toNat, 0]

def k1_chk115 (v1257 : BitVec 32) : Prop :=
  (∀ a, (k1_off172 v1257) a + S1x64.size a ≤ S50000x64.size a)
instance k1_chk115.dec : ∀ (v1257 : BitVec 32), Decidable (k1_chk115 v1257) := fun v1257 => decidable_of_iff' _ (Iff.of_eq (k1_chk115.eq_1 v1257))
theorem k1_off172_inb : ∀ (v1257 : BitVec 32) (k1_hw115 : k1_chk115 v1257), ∀ a, (k1_off172 v1257) a + S1x64.size a ≤ S50000x64.size a := fun v1257 k1_hw115 => k1_hw115

def k1_off173 (v1258 : BitVec 32) : Fin 2 → Nat :=
  let v1262 : Index := Scalar.indexCast v1258
  let c0_401 : Index := 0#32
  ![v1262.toNat, 0]

def k1_off174 (v1258 : BitVec 32) : Fin 2 → Nat :=
  let v1270 : Index := Scalar.indexCast v1258
  let c0_403 : Index := 0#32
  ![v1270.toNat, 0]

def k1_chk116 (v1258 : BitVec 32) : Prop :=
  (∀ a, (k1_off173 v1258) a + S1x64.size a ≤ S16384x64.size a) ∧
  (∀ a, (k1_off174 v1258) a + S1x1.size a ≤ S16384x1.size a)
instance k1_chk116.dec : ∀ (v1258 : BitVec 32), Decidable (k1_chk116 v1258) := fun v1258 => decidable_of_iff' _ (Iff.of_eq (k1_chk116.eq_1 v1258))
theorem k1_off173_inb : ∀ (v1258 : BitVec 32) (k1_hw116 : k1_chk116 v1258), ∀ a, (k1_off173 v1258) a + S1x64.size a ≤ S16384x64.size a := fun v1258 k1_hw116 => k1_hw116.1
theorem k1_off174_inb : ∀ (v1258 : BitVec 32) (k1_hw116 : k1_chk116 v1258), ∀ a, (k1_off174 v1258) a + S1x1.size a ≤ S16384x1.size a := fun v1258 k1_hw116 => k1_hw116.2

def k1_off175 (v1279 : BitVec 32) : Fin 2 → Nat :=
  let v1281 : Index := Scalar.indexCast v1279
  let c0_407 : Index := 0#32
  ![v1281.toNat, 0]

def k1_chk117 (v1279 : BitVec 32) : Prop :=
  (∀ a, (k1_off175 v1279) a + S1x64.size a ≤ S50000x64.size a)
instance k1_chk117.dec : ∀ (v1279 : BitVec 32), Decidable (k1_chk117 v1279) := fun v1279 => decidable_of_iff' _ (Iff.of_eq (k1_chk117.eq_1 v1279))
theorem k1_off175_inb : ∀ (v1279 : BitVec 32) (k1_hw117 : k1_chk117 v1279), ∀ a, (k1_off175 v1279) a + S1x64.size a ≤ S50000x64.size a := fun v1279 k1_hw117 => k1_hw117

def k1_off176 (v1280 : BitVec 32) : Fin 2 → Nat :=
  let v1284 : Index := Scalar.indexCast v1280
  let c0_408 : Index := 0#32
  ![v1284.toNat, 0]

def k1_off177 (v1280 : BitVec 32) : Fin 2 → Nat :=
  let v1292 : Index := Scalar.indexCast v1280
  let c0_410 : Index := 0#32
  ![v1292.toNat, 0]

def k1_chk118 (v1280 : BitVec 32) : Prop :=
  (∀ a, (k1_off176 v1280) a + S1x64.size a ≤ S16384x64.size a) ∧
  (∀ a, (k1_off177 v1280) a + S1x1.size a ≤ S16384x1.size a)
instance k1_chk118.dec : ∀ (v1280 : BitVec 32), Decidable (k1_chk118 v1280) := fun v1280 => decidable_of_iff' _ (Iff.of_eq (k1_chk118.eq_1 v1280))
theorem k1_off176_inb : ∀ (v1280 : BitVec 32) (k1_hw118 : k1_chk118 v1280), ∀ a, (k1_off176 v1280) a + S1x64.size a ≤ S16384x64.size a := fun v1280 k1_hw118 => k1_hw118.1
theorem k1_off177_inb : ∀ (v1280 : BitVec 32) (k1_hw118 : k1_chk118 v1280), ∀ a, (k1_off177 v1280) a + S1x1.size a ≤ S16384x1.size a := fun v1280 k1_hw118 => k1_hw118.2

def k1_off178 (v1301 : BitVec 32) : Fin 2 → Nat :=
  let v1303 : Index := Scalar.indexCast v1301
  let c0_414 : Index := 0#32
  ![v1303.toNat, 0]

def k1_chk119 (v1301 : BitVec 32) : Prop :=
  (∀ a, (k1_off178 v1301) a + S1x64.size a ≤ S50000x64.size a)
instance k1_chk119.dec : ∀ (v1301 : BitVec 32), Decidable (k1_chk119 v1301) := fun v1301 => decidable_of_iff' _ (Iff.of_eq (k1_chk119.eq_1 v1301))
theorem k1_off178_inb : ∀ (v1301 : BitVec 32) (k1_hw119 : k1_chk119 v1301), ∀ a, (k1_off178 v1301) a + S1x64.size a ≤ S50000x64.size a := fun v1301 k1_hw119 => k1_hw119

def k1_off179 (v1302 : BitVec 32) : Fin 2 → Nat :=
  let v1306 : Index := Scalar.indexCast v1302
  let c0_415 : Index := 0#32
  ![v1306.toNat, 0]

def k1_off180 (v1302 : BitVec 32) : Fin 2 → Nat :=
  let v1314 : Index := Scalar.indexCast v1302
  let c0_417 : Index := 0#32
  ![v1314.toNat, 0]

def k1_chk120 (v1302 : BitVec 32) : Prop :=
  (∀ a, (k1_off179 v1302) a + S1x64.size a ≤ S16384x64.size a) ∧
  (∀ a, (k1_off180 v1302) a + S1x1.size a ≤ S16384x1.size a)
instance k1_chk120.dec : ∀ (v1302 : BitVec 32), Decidable (k1_chk120 v1302) := fun v1302 => decidable_of_iff' _ (Iff.of_eq (k1_chk120.eq_1 v1302))
theorem k1_off179_inb : ∀ (v1302 : BitVec 32) (k1_hw120 : k1_chk120 v1302), ∀ a, (k1_off179 v1302) a + S1x64.size a ≤ S16384x64.size a := fun v1302 k1_hw120 => k1_hw120.1
theorem k1_off180_inb : ∀ (v1302 : BitVec 32) (k1_hw120 : k1_chk120 v1302), ∀ a, (k1_off180 v1302) a + S1x1.size a ≤ S16384x1.size a := fun v1302 k1_hw120 => k1_hw120.2

def k1_off181 (v1323 : BitVec 32) : Fin 2 → Nat :=
  let v1325 : Index := Scalar.indexCast v1323
  let c0_421 : Index := 0#32
  ![v1325.toNat, 0]

def k1_chk121 (v1323 : BitVec 32) : Prop :=
  (∀ a, (k1_off181 v1323) a + S1x64.size a ≤ S50000x64.size a)
instance k1_chk121.dec : ∀ (v1323 : BitVec 32), Decidable (k1_chk121 v1323) := fun v1323 => decidable_of_iff' _ (Iff.of_eq (k1_chk121.eq_1 v1323))
theorem k1_off181_inb : ∀ (v1323 : BitVec 32) (k1_hw121 : k1_chk121 v1323), ∀ a, (k1_off181 v1323) a + S1x64.size a ≤ S50000x64.size a := fun v1323 k1_hw121 => k1_hw121

def k1_off182 (v1324 : BitVec 32) : Fin 2 → Nat :=
  let v1328 : Index := Scalar.indexCast v1324
  let c0_422 : Index := 0#32
  ![v1328.toNat, 0]

def k1_off183 (v1324 : BitVec 32) : Fin 2 → Nat :=
  let v1336 : Index := Scalar.indexCast v1324
  let c0_424 : Index := 0#32
  ![v1336.toNat, 0]

def k1_chk122 (v1324 : BitVec 32) : Prop :=
  (∀ a, (k1_off182 v1324) a + S1x64.size a ≤ S16384x64.size a) ∧
  (∀ a, (k1_off183 v1324) a + S1x1.size a ≤ S16384x1.size a)
instance k1_chk122.dec : ∀ (v1324 : BitVec 32), Decidable (k1_chk122 v1324) := fun v1324 => decidable_of_iff' _ (Iff.of_eq (k1_chk122.eq_1 v1324))
theorem k1_off182_inb : ∀ (v1324 : BitVec 32) (k1_hw122 : k1_chk122 v1324), ∀ a, (k1_off182 v1324) a + S1x64.size a ≤ S16384x64.size a := fun v1324 k1_hw122 => k1_hw122.1
theorem k1_off183_inb : ∀ (v1324 : BitVec 32) (k1_hw122 : k1_chk122 v1324), ∀ a, (k1_off183 v1324) a + S1x1.size a ≤ S16384x1.size a := fun v1324 k1_hw122 => k1_hw122.2

def k1_off184 (v1345 : BitVec 32) : Fin 2 → Nat :=
  let v1347 : Index := Scalar.indexCast v1345
  let c0_428 : Index := 0#32
  ![v1347.toNat, 0]

def k1_chk123 (v1345 : BitVec 32) : Prop :=
  (∀ a, (k1_off184 v1345) a + S1x64.size a ≤ S50000x64.size a)
instance k1_chk123.dec : ∀ (v1345 : BitVec 32), Decidable (k1_chk123 v1345) := fun v1345 => decidable_of_iff' _ (Iff.of_eq (k1_chk123.eq_1 v1345))
theorem k1_off184_inb : ∀ (v1345 : BitVec 32) (k1_hw123 : k1_chk123 v1345), ∀ a, (k1_off184 v1345) a + S1x64.size a ≤ S50000x64.size a := fun v1345 k1_hw123 => k1_hw123

def k1_off185 (v1346 : BitVec 32) : Fin 2 → Nat :=
  let v1350 : Index := Scalar.indexCast v1346
  let c0_429 : Index := 0#32
  ![v1350.toNat, 0]

def k1_off186 (v1346 : BitVec 32) : Fin 2 → Nat :=
  let v1358 : Index := Scalar.indexCast v1346
  let c0_431 : Index := 0#32
  ![v1358.toNat, 0]

def k1_chk124 (v1346 : BitVec 32) : Prop :=
  (∀ a, (k1_off185 v1346) a + S1x64.size a ≤ S16384x64.size a) ∧
  (∀ a, (k1_off186 v1346) a + S1x1.size a ≤ S16384x1.size a)
instance k1_chk124.dec : ∀ (v1346 : BitVec 32), Decidable (k1_chk124 v1346) := fun v1346 => decidable_of_iff' _ (Iff.of_eq (k1_chk124.eq_1 v1346))
theorem k1_off185_inb : ∀ (v1346 : BitVec 32) (k1_hw124 : k1_chk124 v1346), ∀ a, (k1_off185 v1346) a + S1x64.size a ≤ S16384x64.size a := fun v1346 k1_hw124 => k1_hw124.1
theorem k1_off186_inb : ∀ (v1346 : BitVec 32) (k1_hw124 : k1_chk124 v1346), ∀ a, (k1_off186 v1346) a + S1x1.size a ≤ S16384x1.size a := fun v1346 k1_hw124 => k1_hw124.2

def k1_off187 (v1367 : BitVec 32) : Fin 2 → Nat :=
  let v1369 : Index := Scalar.indexCast v1367
  let c0_435 : Index := 0#32
  ![v1369.toNat, 0]

def k1_chk125 (v1367 : BitVec 32) : Prop :=
  (∀ a, (k1_off187 v1367) a + S1x64.size a ≤ S50000x64.size a)
instance k1_chk125.dec : ∀ (v1367 : BitVec 32), Decidable (k1_chk125 v1367) := fun v1367 => decidable_of_iff' _ (Iff.of_eq (k1_chk125.eq_1 v1367))
theorem k1_off187_inb : ∀ (v1367 : BitVec 32) (k1_hw125 : k1_chk125 v1367), ∀ a, (k1_off187 v1367) a + S1x64.size a ≤ S50000x64.size a := fun v1367 k1_hw125 => k1_hw125

def k1_off188 (v1368 : BitVec 32) : Fin 2 → Nat :=
  let v1372 : Index := Scalar.indexCast v1368
  let c0_436 : Index := 0#32
  ![v1372.toNat, 0]

def k1_off189 (v1368 : BitVec 32) : Fin 2 → Nat :=
  let v1380 : Index := Scalar.indexCast v1368
  let c0_438 : Index := 0#32
  ![v1380.toNat, 0]

def k1_chk126 (v1368 : BitVec 32) : Prop :=
  (∀ a, (k1_off188 v1368) a + S1x64.size a ≤ S16384x64.size a) ∧
  (∀ a, (k1_off189 v1368) a + S1x1.size a ≤ S16384x1.size a)
instance k1_chk126.dec : ∀ (v1368 : BitVec 32), Decidable (k1_chk126 v1368) := fun v1368 => decidable_of_iff' _ (Iff.of_eq (k1_chk126.eq_1 v1368))
theorem k1_off188_inb : ∀ (v1368 : BitVec 32) (k1_hw126 : k1_chk126 v1368), ∀ a, (k1_off188 v1368) a + S1x64.size a ≤ S16384x64.size a := fun v1368 k1_hw126 => k1_hw126.1
theorem k1_off189_inb : ∀ (v1368 : BitVec 32) (k1_hw126 : k1_chk126 v1368), ∀ a, (k1_off189 v1368) a + S1x1.size a ≤ S16384x1.size a := fun v1368 k1_hw126 => k1_hw126.2

def k1_off190 (v1389 : BitVec 32) : Fin 2 → Nat :=
  let v1391 : Index := Scalar.indexCast v1389
  let c0_442 : Index := 0#32
  ![v1391.toNat, 0]

def k1_chk127 (v1389 : BitVec 32) : Prop :=
  (∀ a, (k1_off190 v1389) a + S1x64.size a ≤ S50000x64.size a)
instance k1_chk127.dec : ∀ (v1389 : BitVec 32), Decidable (k1_chk127 v1389) := fun v1389 => decidable_of_iff' _ (Iff.of_eq (k1_chk127.eq_1 v1389))
theorem k1_off190_inb : ∀ (v1389 : BitVec 32) (k1_hw127 : k1_chk127 v1389), ∀ a, (k1_off190 v1389) a + S1x64.size a ≤ S50000x64.size a := fun v1389 k1_hw127 => k1_hw127

def k1_off191 (v1390 : BitVec 32) : Fin 2 → Nat :=
  let v1394 : Index := Scalar.indexCast v1390
  let c0_443 : Index := 0#32
  ![v1394.toNat, 0]

def k1_off192 (v1390 : BitVec 32) : Fin 2 → Nat :=
  let v1402 : Index := Scalar.indexCast v1390
  let c0_445 : Index := 0#32
  ![v1402.toNat, 0]

def k1_chk128 (v1390 : BitVec 32) : Prop :=
  (∀ a, (k1_off191 v1390) a + S1x64.size a ≤ S16384x64.size a) ∧
  (∀ a, (k1_off192 v1390) a + S1x1.size a ≤ S16384x1.size a)
instance k1_chk128.dec : ∀ (v1390 : BitVec 32), Decidable (k1_chk128 v1390) := fun v1390 => decidable_of_iff' _ (Iff.of_eq (k1_chk128.eq_1 v1390))
theorem k1_off191_inb : ∀ (v1390 : BitVec 32) (k1_hw128 : k1_chk128 v1390), ∀ a, (k1_off191 v1390) a + S1x64.size a ≤ S16384x64.size a := fun v1390 k1_hw128 => k1_hw128.1
theorem k1_off192_inb : ∀ (v1390 : BitVec 32) (k1_hw128 : k1_chk128 v1390), ∀ a, (k1_off192 v1390) a + S1x1.size a ≤ S16384x1.size a := fun v1390 k1_hw128 => k1_hw128.2

def k1_off193 (v1411 : BitVec 32) : Fin 2 → Nat :=
  let v1413 : Index := Scalar.indexCast v1411
  let c0_449 : Index := 0#32
  ![v1413.toNat, 0]

def k1_chk129 (v1411 : BitVec 32) : Prop :=
  (∀ a, (k1_off193 v1411) a + S1x64.size a ≤ S50000x64.size a)
instance k1_chk129.dec : ∀ (v1411 : BitVec 32), Decidable (k1_chk129 v1411) := fun v1411 => decidable_of_iff' _ (Iff.of_eq (k1_chk129.eq_1 v1411))
theorem k1_off193_inb : ∀ (v1411 : BitVec 32) (k1_hw129 : k1_chk129 v1411), ∀ a, (k1_off193 v1411) a + S1x64.size a ≤ S50000x64.size a := fun v1411 k1_hw129 => k1_hw129

def k1_off194 (v1412 : BitVec 32) : Fin 2 → Nat :=
  let v1416 : Index := Scalar.indexCast v1412
  let c0_450 : Index := 0#32
  ![v1416.toNat, 0]

def k1_off195 (v1412 : BitVec 32) : Fin 2 → Nat :=
  let v1424 : Index := Scalar.indexCast v1412
  let c0_452 : Index := 0#32
  ![v1424.toNat, 0]

def k1_chk130 (v1412 : BitVec 32) : Prop :=
  (∀ a, (k1_off194 v1412) a + S1x64.size a ≤ S16384x64.size a) ∧
  (∀ a, (k1_off195 v1412) a + S1x1.size a ≤ S16384x1.size a)
instance k1_chk130.dec : ∀ (v1412 : BitVec 32), Decidable (k1_chk130 v1412) := fun v1412 => decidable_of_iff' _ (Iff.of_eq (k1_chk130.eq_1 v1412))
theorem k1_off194_inb : ∀ (v1412 : BitVec 32) (k1_hw130 : k1_chk130 v1412), ∀ a, (k1_off194 v1412) a + S1x64.size a ≤ S16384x64.size a := fun v1412 k1_hw130 => k1_hw130.1
theorem k1_off195_inb : ∀ (v1412 : BitVec 32) (k1_hw130 : k1_chk130 v1412), ∀ a, (k1_off195 v1412) a + S1x1.size a ≤ S16384x1.size a := fun v1412 k1_hw130 => k1_hw130.2

def k1_off196 (v1433 : BitVec 32) : Fin 2 → Nat :=
  let v1435 : Index := Scalar.indexCast v1433
  let c0_456 : Index := 0#32
  ![v1435.toNat, 0]

def k1_chk131 (v1433 : BitVec 32) : Prop :=
  (∀ a, (k1_off196 v1433) a + S1x64.size a ≤ S50000x64.size a)
instance k1_chk131.dec : ∀ (v1433 : BitVec 32), Decidable (k1_chk131 v1433) := fun v1433 => decidable_of_iff' _ (Iff.of_eq (k1_chk131.eq_1 v1433))
theorem k1_off196_inb : ∀ (v1433 : BitVec 32) (k1_hw131 : k1_chk131 v1433), ∀ a, (k1_off196 v1433) a + S1x64.size a ≤ S50000x64.size a := fun v1433 k1_hw131 => k1_hw131

def k1_off197 (v1434 : BitVec 32) : Fin 2 → Nat :=
  let v1438 : Index := Scalar.indexCast v1434
  let c0_457 : Index := 0#32
  ![v1438.toNat, 0]

def k1_off198 (v1434 : BitVec 32) : Fin 2 → Nat :=
  let v1446 : Index := Scalar.indexCast v1434
  let c0_459 : Index := 0#32
  ![v1446.toNat, 0]

def k1_chk132 (v1434 : BitVec 32) : Prop :=
  (∀ a, (k1_off197 v1434) a + S1x64.size a ≤ S16384x64.size a) ∧
  (∀ a, (k1_off198 v1434) a + S1x1.size a ≤ S16384x1.size a)
instance k1_chk132.dec : ∀ (v1434 : BitVec 32), Decidable (k1_chk132 v1434) := fun v1434 => decidable_of_iff' _ (Iff.of_eq (k1_chk132.eq_1 v1434))
theorem k1_off197_inb : ∀ (v1434 : BitVec 32) (k1_hw132 : k1_chk132 v1434), ∀ a, (k1_off197 v1434) a + S1x64.size a ≤ S16384x64.size a := fun v1434 k1_hw132 => k1_hw132.1
theorem k1_off198_inb : ∀ (v1434 : BitVec 32) (k1_hw132 : k1_chk132 v1434), ∀ a, (k1_off198 v1434) a + S1x1.size a ≤ S16384x1.size a := fun v1434 k1_hw132 => k1_hw132.2

def k1_off199 (v1455 : BitVec 32) : Fin 2 → Nat :=
  let v1457 : Index := Scalar.indexCast v1455
  let c0_463 : Index := 0#32
  ![v1457.toNat, 0]

def k1_chk133 (v1455 : BitVec 32) : Prop :=
  (∀ a, (k1_off199 v1455) a + S1x64.size a ≤ S50000x64.size a)
instance k1_chk133.dec : ∀ (v1455 : BitVec 32), Decidable (k1_chk133 v1455) := fun v1455 => decidable_of_iff' _ (Iff.of_eq (k1_chk133.eq_1 v1455))
theorem k1_off199_inb : ∀ (v1455 : BitVec 32) (k1_hw133 : k1_chk133 v1455), ∀ a, (k1_off199 v1455) a + S1x64.size a ≤ S50000x64.size a := fun v1455 k1_hw133 => k1_hw133

def k1_off200 (v1456 : BitVec 32) : Fin 2 → Nat :=
  let v1460 : Index := Scalar.indexCast v1456
  let c0_464 : Index := 0#32
  ![v1460.toNat, 0]

def k1_off201 (v1456 : BitVec 32) : Fin 2 → Nat :=
  let v1468 : Index := Scalar.indexCast v1456
  let c0_466 : Index := 0#32
  ![v1468.toNat, 0]

def k1_chk134 (v1456 : BitVec 32) : Prop :=
  (∀ a, (k1_off200 v1456) a + S1x64.size a ≤ S16384x64.size a) ∧
  (∀ a, (k1_off201 v1456) a + S1x1.size a ≤ S16384x1.size a)
instance k1_chk134.dec : ∀ (v1456 : BitVec 32), Decidable (k1_chk134 v1456) := fun v1456 => decidable_of_iff' _ (Iff.of_eq (k1_chk134.eq_1 v1456))
theorem k1_off200_inb : ∀ (v1456 : BitVec 32) (k1_hw134 : k1_chk134 v1456), ∀ a, (k1_off200 v1456) a + S1x64.size a ≤ S16384x64.size a := fun v1456 k1_hw134 => k1_hw134.1
theorem k1_off201_inb : ∀ (v1456 : BitVec 32) (k1_hw134 : k1_chk134 v1456), ∀ a, (k1_off201 v1456) a + S1x1.size a ≤ S16384x1.size a := fun v1456 k1_hw134 => k1_hw134.2

def k1_off202 (v1477 : BitVec 32) : Fin 2 → Nat :=
  let v1479 : Index := Scalar.indexCast v1477
  let c0_470 : Index := 0#32
  ![v1479.toNat, 0]

def k1_chk135 (v1477 : BitVec 32) : Prop :=
  (∀ a, (k1_off202 v1477) a + S1x64.size a ≤ S50000x64.size a)
instance k1_chk135.dec : ∀ (v1477 : BitVec 32), Decidable (k1_chk135 v1477) := fun v1477 => decidable_of_iff' _ (Iff.of_eq (k1_chk135.eq_1 v1477))
theorem k1_off202_inb : ∀ (v1477 : BitVec 32) (k1_hw135 : k1_chk135 v1477), ∀ a, (k1_off202 v1477) a + S1x64.size a ≤ S50000x64.size a := fun v1477 k1_hw135 => k1_hw135

def k1_off203 (v1478 : BitVec 32) : Fin 2 → Nat :=
  let v1482 : Index := Scalar.indexCast v1478
  let c0_471 : Index := 0#32
  ![v1482.toNat, 0]

def k1_off204 (v1478 : BitVec 32) : Fin 2 → Nat :=
  let v1490 : Index := Scalar.indexCast v1478
  let c0_473 : Index := 0#32
  ![v1490.toNat, 0]

def k1_chk136 (v1478 : BitVec 32) : Prop :=
  (∀ a, (k1_off203 v1478) a + S1x64.size a ≤ S16384x64.size a) ∧
  (∀ a, (k1_off204 v1478) a + S1x1.size a ≤ S16384x1.size a)
instance k1_chk136.dec : ∀ (v1478 : BitVec 32), Decidable (k1_chk136 v1478) := fun v1478 => decidable_of_iff' _ (Iff.of_eq (k1_chk136.eq_1 v1478))
theorem k1_off203_inb : ∀ (v1478 : BitVec 32) (k1_hw136 : k1_chk136 v1478), ∀ a, (k1_off203 v1478) a + S1x64.size a ≤ S16384x64.size a := fun v1478 k1_hw136 => k1_hw136.1
theorem k1_off204_inb : ∀ (v1478 : BitVec 32) (k1_hw136 : k1_chk136 v1478), ∀ a, (k1_off204 v1478) a + S1x1.size a ≤ S16384x1.size a := fun v1478 k1_hw136 => k1_hw136.2

def k1_off205 (v1499 : BitVec 32) : Fin 2 → Nat :=
  let v1501 : Index := Scalar.indexCast v1499
  let c0_477 : Index := 0#32
  ![v1501.toNat, 0]

def k1_chk137 (v1499 : BitVec 32) : Prop :=
  (∀ a, (k1_off205 v1499) a + S1x64.size a ≤ S50000x64.size a)
instance k1_chk137.dec : ∀ (v1499 : BitVec 32), Decidable (k1_chk137 v1499) := fun v1499 => decidable_of_iff' _ (Iff.of_eq (k1_chk137.eq_1 v1499))
theorem k1_off205_inb : ∀ (v1499 : BitVec 32) (k1_hw137 : k1_chk137 v1499), ∀ a, (k1_off205 v1499) a + S1x64.size a ≤ S50000x64.size a := fun v1499 k1_hw137 => k1_hw137

def k1_off206 (v1500 : BitVec 32) : Fin 2 → Nat :=
  let v1504 : Index := Scalar.indexCast v1500
  let c0_478 : Index := 0#32
  ![v1504.toNat, 0]

def k1_off207 (v1500 : BitVec 32) : Fin 2 → Nat :=
  let v1512 : Index := Scalar.indexCast v1500
  let c0_480 : Index := 0#32
  ![v1512.toNat, 0]

def k1_chk138 (v1500 : BitVec 32) : Prop :=
  (∀ a, (k1_off206 v1500) a + S1x64.size a ≤ S16384x64.size a) ∧
  (∀ a, (k1_off207 v1500) a + S1x1.size a ≤ S16384x1.size a)
instance k1_chk138.dec : ∀ (v1500 : BitVec 32), Decidable (k1_chk138 v1500) := fun v1500 => decidable_of_iff' _ (Iff.of_eq (k1_chk138.eq_1 v1500))
theorem k1_off206_inb : ∀ (v1500 : BitVec 32) (k1_hw138 : k1_chk138 v1500), ∀ a, (k1_off206 v1500) a + S1x64.size a ≤ S16384x64.size a := fun v1500 k1_hw138 => k1_hw138.1
theorem k1_off207_inb : ∀ (v1500 : BitVec 32) (k1_hw138 : k1_chk138 v1500), ∀ a, (k1_off207 v1500) a + S1x1.size a ≤ S16384x1.size a := fun v1500 k1_hw138 => k1_hw138.2

def k1_off208 (v1521 : BitVec 32) : Fin 2 → Nat :=
  let v1523 : Index := Scalar.indexCast v1521
  let c0_484 : Index := 0#32
  ![v1523.toNat, 0]

def k1_chk139 (v1521 : BitVec 32) : Prop :=
  (∀ a, (k1_off208 v1521) a + S1x64.size a ≤ S50000x64.size a)
instance k1_chk139.dec : ∀ (v1521 : BitVec 32), Decidable (k1_chk139 v1521) := fun v1521 => decidable_of_iff' _ (Iff.of_eq (k1_chk139.eq_1 v1521))
theorem k1_off208_inb : ∀ (v1521 : BitVec 32) (k1_hw139 : k1_chk139 v1521), ∀ a, (k1_off208 v1521) a + S1x64.size a ≤ S50000x64.size a := fun v1521 k1_hw139 => k1_hw139

def k1_off209 (v1522 : BitVec 32) : Fin 2 → Nat :=
  let v1526 : Index := Scalar.indexCast v1522
  let c0_485 : Index := 0#32
  ![v1526.toNat, 0]

def k1_off210 (v1522 : BitVec 32) : Fin 2 → Nat :=
  let v1534 : Index := Scalar.indexCast v1522
  let c0_487 : Index := 0#32
  ![v1534.toNat, 0]

def k1_chk140 (v1522 : BitVec 32) : Prop :=
  (∀ a, (k1_off209 v1522) a + S1x64.size a ≤ S16384x64.size a) ∧
  (∀ a, (k1_off210 v1522) a + S1x1.size a ≤ S16384x1.size a)
instance k1_chk140.dec : ∀ (v1522 : BitVec 32), Decidable (k1_chk140 v1522) := fun v1522 => decidable_of_iff' _ (Iff.of_eq (k1_chk140.eq_1 v1522))
theorem k1_off209_inb : ∀ (v1522 : BitVec 32) (k1_hw140 : k1_chk140 v1522), ∀ a, (k1_off209 v1522) a + S1x64.size a ≤ S16384x64.size a := fun v1522 k1_hw140 => k1_hw140.1
theorem k1_off210_inb : ∀ (v1522 : BitVec 32) (k1_hw140 : k1_chk140 v1522), ∀ a, (k1_off210 v1522) a + S1x1.size a ≤ S16384x1.size a := fun v1522 k1_hw140 => k1_hw140.2

def k1_off211 (v1543 : BitVec 32) : Fin 2 → Nat :=
  let v1545 : Index := Scalar.indexCast v1543
  let c0_491 : Index := 0#32
  ![v1545.toNat, 0]

def k1_chk141 (v1543 : BitVec 32) : Prop :=
  (∀ a, (k1_off211 v1543) a + S1x64.size a ≤ S50000x64.size a)
instance k1_chk141.dec : ∀ (v1543 : BitVec 32), Decidable (k1_chk141 v1543) := fun v1543 => decidable_of_iff' _ (Iff.of_eq (k1_chk141.eq_1 v1543))
theorem k1_off211_inb : ∀ (v1543 : BitVec 32) (k1_hw141 : k1_chk141 v1543), ∀ a, (k1_off211 v1543) a + S1x64.size a ≤ S50000x64.size a := fun v1543 k1_hw141 => k1_hw141

def k1_off212 (v1544 : BitVec 32) : Fin 2 → Nat :=
  let v1548 : Index := Scalar.indexCast v1544
  let c0_492 : Index := 0#32
  ![v1548.toNat, 0]

def k1_off213 (v1544 : BitVec 32) : Fin 2 → Nat :=
  let v1556 : Index := Scalar.indexCast v1544
  let c0_494 : Index := 0#32
  ![v1556.toNat, 0]

def k1_chk142 (v1544 : BitVec 32) : Prop :=
  (∀ a, (k1_off212 v1544) a + S1x64.size a ≤ S16384x64.size a) ∧
  (∀ a, (k1_off213 v1544) a + S1x1.size a ≤ S16384x1.size a)
instance k1_chk142.dec : ∀ (v1544 : BitVec 32), Decidable (k1_chk142 v1544) := fun v1544 => decidable_of_iff' _ (Iff.of_eq (k1_chk142.eq_1 v1544))
theorem k1_off212_inb : ∀ (v1544 : BitVec 32) (k1_hw142 : k1_chk142 v1544), ∀ a, (k1_off212 v1544) a + S1x64.size a ≤ S16384x64.size a := fun v1544 k1_hw142 => k1_hw142.1
theorem k1_off213_inb : ∀ (v1544 : BitVec 32) (k1_hw142 : k1_chk142 v1544), ∀ a, (k1_off213 v1544) a + S1x1.size a ≤ S16384x1.size a := fun v1544 k1_hw142 => k1_hw142.2

def k1_off214 (v1565 : BitVec 32) : Fin 2 → Nat :=
  let v1567 : Index := Scalar.indexCast v1565
  let c0_498 : Index := 0#32
  ![v1567.toNat, 0]

def k1_chk143 (v1565 : BitVec 32) : Prop :=
  (∀ a, (k1_off214 v1565) a + S1x64.size a ≤ S50000x64.size a)
instance k1_chk143.dec : ∀ (v1565 : BitVec 32), Decidable (k1_chk143 v1565) := fun v1565 => decidable_of_iff' _ (Iff.of_eq (k1_chk143.eq_1 v1565))
theorem k1_off214_inb : ∀ (v1565 : BitVec 32) (k1_hw143 : k1_chk143 v1565), ∀ a, (k1_off214 v1565) a + S1x64.size a ≤ S50000x64.size a := fun v1565 k1_hw143 => k1_hw143

def k1_off215 (v1566 : BitVec 32) : Fin 2 → Nat :=
  let v1570 : Index := Scalar.indexCast v1566
  let c0_499 : Index := 0#32
  ![v1570.toNat, 0]

def k1_off216 (v1566 : BitVec 32) : Fin 2 → Nat :=
  let v1578 : Index := Scalar.indexCast v1566
  let c0_501 : Index := 0#32
  ![v1578.toNat, 0]

def k1_chk144 (v1566 : BitVec 32) : Prop :=
  (∀ a, (k1_off215 v1566) a + S1x64.size a ≤ S16384x64.size a) ∧
  (∀ a, (k1_off216 v1566) a + S1x1.size a ≤ S16384x1.size a)
instance k1_chk144.dec : ∀ (v1566 : BitVec 32), Decidable (k1_chk144 v1566) := fun v1566 => decidable_of_iff' _ (Iff.of_eq (k1_chk144.eq_1 v1566))
theorem k1_off215_inb : ∀ (v1566 : BitVec 32) (k1_hw144 : k1_chk144 v1566), ∀ a, (k1_off215 v1566) a + S1x64.size a ≤ S16384x64.size a := fun v1566 k1_hw144 => k1_hw144.1
theorem k1_off216_inb : ∀ (v1566 : BitVec 32) (k1_hw144 : k1_chk144 v1566), ∀ a, (k1_off216 v1566) a + S1x1.size a ≤ S16384x1.size a := fun v1566 k1_hw144 => k1_hw144.2

def k1_off217 (v1587 : BitVec 32) : Fin 2 → Nat :=
  let v1589 : Index := Scalar.indexCast v1587
  let c0_505 : Index := 0#32
  ![v1589.toNat, 0]

def k1_chk145 (v1587 : BitVec 32) : Prop :=
  (∀ a, (k1_off217 v1587) a + S1x64.size a ≤ S50000x64.size a)
instance k1_chk145.dec : ∀ (v1587 : BitVec 32), Decidable (k1_chk145 v1587) := fun v1587 => decidable_of_iff' _ (Iff.of_eq (k1_chk145.eq_1 v1587))
theorem k1_off217_inb : ∀ (v1587 : BitVec 32) (k1_hw145 : k1_chk145 v1587), ∀ a, (k1_off217 v1587) a + S1x64.size a ≤ S50000x64.size a := fun v1587 k1_hw145 => k1_hw145

def k1_off218 (v1588 : BitVec 32) : Fin 2 → Nat :=
  let v1592 : Index := Scalar.indexCast v1588
  let c0_506 : Index := 0#32
  ![v1592.toNat, 0]

def k1_off219 (v1588 : BitVec 32) : Fin 2 → Nat :=
  let v1600 : Index := Scalar.indexCast v1588
  let c0_508 : Index := 0#32
  ![v1600.toNat, 0]

def k1_chk146 (v1588 : BitVec 32) : Prop :=
  (∀ a, (k1_off218 v1588) a + S1x64.size a ≤ S16384x64.size a) ∧
  (∀ a, (k1_off219 v1588) a + S1x1.size a ≤ S16384x1.size a)
instance k1_chk146.dec : ∀ (v1588 : BitVec 32), Decidable (k1_chk146 v1588) := fun v1588 => decidable_of_iff' _ (Iff.of_eq (k1_chk146.eq_1 v1588))
theorem k1_off218_inb : ∀ (v1588 : BitVec 32) (k1_hw146 : k1_chk146 v1588), ∀ a, (k1_off218 v1588) a + S1x64.size a ≤ S16384x64.size a := fun v1588 k1_hw146 => k1_hw146.1
theorem k1_off219_inb : ∀ (v1588 : BitVec 32) (k1_hw146 : k1_chk146 v1588), ∀ a, (k1_off219 v1588) a + S1x1.size a ≤ S16384x1.size a := fun v1588 k1_hw146 => k1_hw146.2

def k1_off220 (v1609 : BitVec 32) : Fin 2 → Nat :=
  let v1611 : Index := Scalar.indexCast v1609
  let c0_512 : Index := 0#32
  ![v1611.toNat, 0]

def k1_chk147 (v1609 : BitVec 32) : Prop :=
  (∀ a, (k1_off220 v1609) a + S1x64.size a ≤ S50000x64.size a)
instance k1_chk147.dec : ∀ (v1609 : BitVec 32), Decidable (k1_chk147 v1609) := fun v1609 => decidable_of_iff' _ (Iff.of_eq (k1_chk147.eq_1 v1609))
theorem k1_off220_inb : ∀ (v1609 : BitVec 32) (k1_hw147 : k1_chk147 v1609), ∀ a, (k1_off220 v1609) a + S1x64.size a ≤ S50000x64.size a := fun v1609 k1_hw147 => k1_hw147

def k1_off221 (v1610 : BitVec 32) : Fin 2 → Nat :=
  let v1614 : Index := Scalar.indexCast v1610
  let c0_513 : Index := 0#32
  ![v1614.toNat, 0]

def k1_off222 (v1610 : BitVec 32) : Fin 2 → Nat :=
  let v1622 : Index := Scalar.indexCast v1610
  let c0_515 : Index := 0#32
  ![v1622.toNat, 0]

def k1_chk148 (v1610 : BitVec 32) : Prop :=
  (∀ a, (k1_off221 v1610) a + S1x64.size a ≤ S16384x64.size a) ∧
  (∀ a, (k1_off222 v1610) a + S1x1.size a ≤ S16384x1.size a)
instance k1_chk148.dec : ∀ (v1610 : BitVec 32), Decidable (k1_chk148 v1610) := fun v1610 => decidable_of_iff' _ (Iff.of_eq (k1_chk148.eq_1 v1610))
theorem k1_off221_inb : ∀ (v1610 : BitVec 32) (k1_hw148 : k1_chk148 v1610), ∀ a, (k1_off221 v1610) a + S1x64.size a ≤ S16384x64.size a := fun v1610 k1_hw148 => k1_hw148.1
theorem k1_off222_inb : ∀ (v1610 : BitVec 32) (k1_hw148 : k1_chk148 v1610), ∀ a, (k1_off222 v1610) a + S1x1.size a ≤ S16384x1.size a := fun v1610 k1_hw148 => k1_hw148.2

def k1_off223 (v1631 : BitVec 32) : Fin 2 → Nat :=
  let v1633 : Index := Scalar.indexCast v1631
  let c0_519 : Index := 0#32
  ![v1633.toNat, 0]

def k1_chk149 (v1631 : BitVec 32) : Prop :=
  (∀ a, (k1_off223 v1631) a + S1x64.size a ≤ S50000x64.size a)
instance k1_chk149.dec : ∀ (v1631 : BitVec 32), Decidable (k1_chk149 v1631) := fun v1631 => decidable_of_iff' _ (Iff.of_eq (k1_chk149.eq_1 v1631))
theorem k1_off223_inb : ∀ (v1631 : BitVec 32) (k1_hw149 : k1_chk149 v1631), ∀ a, (k1_off223 v1631) a + S1x64.size a ≤ S50000x64.size a := fun v1631 k1_hw149 => k1_hw149

def k1_off224 (v1632 : BitVec 32) : Fin 2 → Nat :=
  let v1636 : Index := Scalar.indexCast v1632
  let c0_520 : Index := 0#32
  ![v1636.toNat, 0]

def k1_off225 (v1632 : BitVec 32) : Fin 2 → Nat :=
  let v1644 : Index := Scalar.indexCast v1632
  let c0_522 : Index := 0#32
  ![v1644.toNat, 0]

def k1_chk150 (v1632 : BitVec 32) : Prop :=
  (∀ a, (k1_off224 v1632) a + S1x64.size a ≤ S16384x64.size a) ∧
  (∀ a, (k1_off225 v1632) a + S1x1.size a ≤ S16384x1.size a)
instance k1_chk150.dec : ∀ (v1632 : BitVec 32), Decidable (k1_chk150 v1632) := fun v1632 => decidable_of_iff' _ (Iff.of_eq (k1_chk150.eq_1 v1632))
theorem k1_off224_inb : ∀ (v1632 : BitVec 32) (k1_hw150 : k1_chk150 v1632), ∀ a, (k1_off224 v1632) a + S1x64.size a ≤ S16384x64.size a := fun v1632 k1_hw150 => k1_hw150.1
theorem k1_off225_inb : ∀ (v1632 : BitVec 32) (k1_hw150 : k1_chk150 v1632), ∀ a, (k1_off225 v1632) a + S1x1.size a ≤ S16384x1.size a := fun v1632 k1_hw150 => k1_hw150.2

def k1_off226 (v1653 : BitVec 32) : Fin 2 → Nat :=
  let v1655 : Index := Scalar.indexCast v1653
  let c0_526 : Index := 0#32
  ![v1655.toNat, 0]

def k1_chk151 (v1653 : BitVec 32) : Prop :=
  (∀ a, (k1_off226 v1653) a + S1x64.size a ≤ S50000x64.size a)
instance k1_chk151.dec : ∀ (v1653 : BitVec 32), Decidable (k1_chk151 v1653) := fun v1653 => decidable_of_iff' _ (Iff.of_eq (k1_chk151.eq_1 v1653))
theorem k1_off226_inb : ∀ (v1653 : BitVec 32) (k1_hw151 : k1_chk151 v1653), ∀ a, (k1_off226 v1653) a + S1x64.size a ≤ S50000x64.size a := fun v1653 k1_hw151 => k1_hw151

def k1_off227 (v1654 : BitVec 32) : Fin 2 → Nat :=
  let v1658 : Index := Scalar.indexCast v1654
  let c0_527 : Index := 0#32
  ![v1658.toNat, 0]

def k1_off228 (v1654 : BitVec 32) : Fin 2 → Nat :=
  let v1666 : Index := Scalar.indexCast v1654
  let c0_529 : Index := 0#32
  ![v1666.toNat, 0]

def k1_chk152 (v1654 : BitVec 32) : Prop :=
  (∀ a, (k1_off227 v1654) a + S1x64.size a ≤ S16384x64.size a) ∧
  (∀ a, (k1_off228 v1654) a + S1x1.size a ≤ S16384x1.size a)
instance k1_chk152.dec : ∀ (v1654 : BitVec 32), Decidable (k1_chk152 v1654) := fun v1654 => decidable_of_iff' _ (Iff.of_eq (k1_chk152.eq_1 v1654))
theorem k1_off227_inb : ∀ (v1654 : BitVec 32) (k1_hw152 : k1_chk152 v1654), ∀ a, (k1_off227 v1654) a + S1x64.size a ≤ S16384x64.size a := fun v1654 k1_hw152 => k1_hw152.1
theorem k1_off228_inb : ∀ (v1654 : BitVec 32) (k1_hw152 : k1_chk152 v1654), ∀ a, (k1_off228 v1654) a + S1x1.size a ≤ S16384x1.size a := fun v1654 k1_hw152 => k1_hw152.2

def k1_off229 (v1675 : BitVec 32) : Fin 2 → Nat :=
  let v1677 : Index := Scalar.indexCast v1675
  let c0_533 : Index := 0#32
  ![v1677.toNat, 0]

def k1_chk153 (v1675 : BitVec 32) : Prop :=
  (∀ a, (k1_off229 v1675) a + S1x64.size a ≤ S50000x64.size a)
instance k1_chk153.dec : ∀ (v1675 : BitVec 32), Decidable (k1_chk153 v1675) := fun v1675 => decidable_of_iff' _ (Iff.of_eq (k1_chk153.eq_1 v1675))
theorem k1_off229_inb : ∀ (v1675 : BitVec 32) (k1_hw153 : k1_chk153 v1675), ∀ a, (k1_off229 v1675) a + S1x64.size a ≤ S50000x64.size a := fun v1675 k1_hw153 => k1_hw153

def k1_off230 (v1676 : BitVec 32) : Fin 2 → Nat :=
  let v1680 : Index := Scalar.indexCast v1676
  let c0_534 : Index := 0#32
  ![v1680.toNat, 0]

def k1_off231 (v1676 : BitVec 32) : Fin 2 → Nat :=
  let v1688 : Index := Scalar.indexCast v1676
  let c0_536 : Index := 0#32
  ![v1688.toNat, 0]

def k1_chk154 (v1676 : BitVec 32) : Prop :=
  (∀ a, (k1_off230 v1676) a + S1x64.size a ≤ S16384x64.size a) ∧
  (∀ a, (k1_off231 v1676) a + S1x1.size a ≤ S16384x1.size a)
instance k1_chk154.dec : ∀ (v1676 : BitVec 32), Decidable (k1_chk154 v1676) := fun v1676 => decidable_of_iff' _ (Iff.of_eq (k1_chk154.eq_1 v1676))
theorem k1_off230_inb : ∀ (v1676 : BitVec 32) (k1_hw154 : k1_chk154 v1676), ∀ a, (k1_off230 v1676) a + S1x64.size a ≤ S16384x64.size a := fun v1676 k1_hw154 => k1_hw154.1
theorem k1_off231_inb : ∀ (v1676 : BitVec 32) (k1_hw154 : k1_chk154 v1676), ∀ a, (k1_off231 v1676) a + S1x1.size a ≤ S16384x1.size a := fun v1676 k1_hw154 => k1_hw154.2

def k1_off232 (v1697 : BitVec 32) : Fin 2 → Nat :=
  let v1699 : Index := Scalar.indexCast v1697
  let c0_540 : Index := 0#32
  ![v1699.toNat, 0]

def k1_chk155 (v1697 : BitVec 32) : Prop :=
  (∀ a, (k1_off232 v1697) a + S1x64.size a ≤ S50000x64.size a)
instance k1_chk155.dec : ∀ (v1697 : BitVec 32), Decidable (k1_chk155 v1697) := fun v1697 => decidable_of_iff' _ (Iff.of_eq (k1_chk155.eq_1 v1697))
theorem k1_off232_inb : ∀ (v1697 : BitVec 32) (k1_hw155 : k1_chk155 v1697), ∀ a, (k1_off232 v1697) a + S1x64.size a ≤ S50000x64.size a := fun v1697 k1_hw155 => k1_hw155

def k1_off233 (v1698 : BitVec 32) : Fin 2 → Nat :=
  let v1702 : Index := Scalar.indexCast v1698
  let c0_541 : Index := 0#32
  ![v1702.toNat, 0]

def k1_off234 (v1698 : BitVec 32) : Fin 2 → Nat :=
  let v1710 : Index := Scalar.indexCast v1698
  let c0_543 : Index := 0#32
  ![v1710.toNat, 0]

def k1_chk156 (v1698 : BitVec 32) : Prop :=
  (∀ a, (k1_off233 v1698) a + S1x64.size a ≤ S16384x64.size a) ∧
  (∀ a, (k1_off234 v1698) a + S1x1.size a ≤ S16384x1.size a)
instance k1_chk156.dec : ∀ (v1698 : BitVec 32), Decidable (k1_chk156 v1698) := fun v1698 => decidable_of_iff' _ (Iff.of_eq (k1_chk156.eq_1 v1698))
theorem k1_off233_inb : ∀ (v1698 : BitVec 32) (k1_hw156 : k1_chk156 v1698), ∀ a, (k1_off233 v1698) a + S1x64.size a ≤ S16384x64.size a := fun v1698 k1_hw156 => k1_hw156.1
theorem k1_off234_inb : ∀ (v1698 : BitVec 32) (k1_hw156 : k1_chk156 v1698), ∀ a, (k1_off234 v1698) a + S1x1.size a ≤ S16384x1.size a := fun v1698 k1_hw156 => k1_hw156.2

def k1_off235 (v1719 : BitVec 32) : Fin 2 → Nat :=
  let v1721 : Index := Scalar.indexCast v1719
  let c0_547 : Index := 0#32
  ![v1721.toNat, 0]

def k1_chk157 (v1719 : BitVec 32) : Prop :=
  (∀ a, (k1_off235 v1719) a + S1x64.size a ≤ S50000x64.size a)
instance k1_chk157.dec : ∀ (v1719 : BitVec 32), Decidable (k1_chk157 v1719) := fun v1719 => decidable_of_iff' _ (Iff.of_eq (k1_chk157.eq_1 v1719))
theorem k1_off235_inb : ∀ (v1719 : BitVec 32) (k1_hw157 : k1_chk157 v1719), ∀ a, (k1_off235 v1719) a + S1x64.size a ≤ S50000x64.size a := fun v1719 k1_hw157 => k1_hw157

def k1_off236 (v1720 : BitVec 32) : Fin 2 → Nat :=
  let v1724 : Index := Scalar.indexCast v1720
  let c0_548 : Index := 0#32
  ![v1724.toNat, 0]

def k1_off237 (v1720 : BitVec 32) : Fin 2 → Nat :=
  let v1732 : Index := Scalar.indexCast v1720
  let c0_550 : Index := 0#32
  ![v1732.toNat, 0]

def k1_chk158 (v1720 : BitVec 32) : Prop :=
  (∀ a, (k1_off236 v1720) a + S1x64.size a ≤ S16384x64.size a) ∧
  (∀ a, (k1_off237 v1720) a + S1x1.size a ≤ S16384x1.size a)
instance k1_chk158.dec : ∀ (v1720 : BitVec 32), Decidable (k1_chk158 v1720) := fun v1720 => decidable_of_iff' _ (Iff.of_eq (k1_chk158.eq_1 v1720))
theorem k1_off236_inb : ∀ (v1720 : BitVec 32) (k1_hw158 : k1_chk158 v1720), ∀ a, (k1_off236 v1720) a + S1x64.size a ≤ S16384x64.size a := fun v1720 k1_hw158 => k1_hw158.1
theorem k1_off237_inb : ∀ (v1720 : BitVec 32) (k1_hw158 : k1_chk158 v1720), ∀ a, (k1_off237 v1720) a + S1x1.size a ≤ S16384x1.size a := fun v1720 k1_hw158 => k1_hw158.2

def k1_off238 (v1741 : BitVec 32) : Fin 2 → Nat :=
  let v1743 : Index := Scalar.indexCast v1741
  let c0_554 : Index := 0#32
  ![v1743.toNat, 0]

def k1_chk159 (v1741 : BitVec 32) : Prop :=
  (∀ a, (k1_off238 v1741) a + S1x64.size a ≤ S50000x64.size a)
instance k1_chk159.dec : ∀ (v1741 : BitVec 32), Decidable (k1_chk159 v1741) := fun v1741 => decidable_of_iff' _ (Iff.of_eq (k1_chk159.eq_1 v1741))
theorem k1_off238_inb : ∀ (v1741 : BitVec 32) (k1_hw159 : k1_chk159 v1741), ∀ a, (k1_off238 v1741) a + S1x64.size a ≤ S50000x64.size a := fun v1741 k1_hw159 => k1_hw159

def k1_off239 (v1742 : BitVec 32) : Fin 2 → Nat :=
  let v1746 : Index := Scalar.indexCast v1742
  let c0_555 : Index := 0#32
  ![v1746.toNat, 0]

def k1_off240 (v1742 : BitVec 32) : Fin 2 → Nat :=
  let v1754 : Index := Scalar.indexCast v1742
  let c0_557 : Index := 0#32
  ![v1754.toNat, 0]

def k1_chk160 (v1742 : BitVec 32) : Prop :=
  (∀ a, (k1_off239 v1742) a + S1x64.size a ≤ S16384x64.size a) ∧
  (∀ a, (k1_off240 v1742) a + S1x1.size a ≤ S16384x1.size a)
instance k1_chk160.dec : ∀ (v1742 : BitVec 32), Decidable (k1_chk160 v1742) := fun v1742 => decidable_of_iff' _ (Iff.of_eq (k1_chk160.eq_1 v1742))
theorem k1_off239_inb : ∀ (v1742 : BitVec 32) (k1_hw160 : k1_chk160 v1742), ∀ a, (k1_off239 v1742) a + S1x64.size a ≤ S16384x64.size a := fun v1742 k1_hw160 => k1_hw160.1
theorem k1_off240_inb : ∀ (v1742 : BitVec 32) (k1_hw160 : k1_chk160 v1742), ∀ a, (k1_off240 v1742) a + S1x1.size a ≤ S16384x1.size a := fun v1742 k1_hw160 => k1_hw160.2

def k1_off241 (v1763 : BitVec 32) : Fin 2 → Nat :=
  let v1765 : Index := Scalar.indexCast v1763
  let c0_561 : Index := 0#32
  ![v1765.toNat, 0]

def k1_chk161 (v1763 : BitVec 32) : Prop :=
  (∀ a, (k1_off241 v1763) a + S1x64.size a ≤ S50000x64.size a)
instance k1_chk161.dec : ∀ (v1763 : BitVec 32), Decidable (k1_chk161 v1763) := fun v1763 => decidable_of_iff' _ (Iff.of_eq (k1_chk161.eq_1 v1763))
theorem k1_off241_inb : ∀ (v1763 : BitVec 32) (k1_hw161 : k1_chk161 v1763), ∀ a, (k1_off241 v1763) a + S1x64.size a ≤ S50000x64.size a := fun v1763 k1_hw161 => k1_hw161

def k1_off242 (v1764 : BitVec 32) : Fin 2 → Nat :=
  let v1768 : Index := Scalar.indexCast v1764
  let c0_562 : Index := 0#32
  ![v1768.toNat, 0]

def k1_off243 (v1764 : BitVec 32) : Fin 2 → Nat :=
  let v1776 : Index := Scalar.indexCast v1764
  let c0_564 : Index := 0#32
  ![v1776.toNat, 0]

def k1_chk162 (v1764 : BitVec 32) : Prop :=
  (∀ a, (k1_off242 v1764) a + S1x64.size a ≤ S16384x64.size a) ∧
  (∀ a, (k1_off243 v1764) a + S1x1.size a ≤ S16384x1.size a)
instance k1_chk162.dec : ∀ (v1764 : BitVec 32), Decidable (k1_chk162 v1764) := fun v1764 => decidable_of_iff' _ (Iff.of_eq (k1_chk162.eq_1 v1764))
theorem k1_off242_inb : ∀ (v1764 : BitVec 32) (k1_hw162 : k1_chk162 v1764), ∀ a, (k1_off242 v1764) a + S1x64.size a ≤ S16384x64.size a := fun v1764 k1_hw162 => k1_hw162.1
theorem k1_off243_inb : ∀ (v1764 : BitVec 32) (k1_hw162 : k1_chk162 v1764), ∀ a, (k1_off243 v1764) a + S1x1.size a ≤ S16384x1.size a := fun v1764 k1_hw162 => k1_hw162.2

def k1_off244 (v1785 : BitVec 32) : Fin 2 → Nat :=
  let v1787 : Index := Scalar.indexCast v1785
  let c0_568 : Index := 0#32
  ![v1787.toNat, 0]

def k1_chk163 (v1785 : BitVec 32) : Prop :=
  (∀ a, (k1_off244 v1785) a + S1x64.size a ≤ S50000x64.size a)
instance k1_chk163.dec : ∀ (v1785 : BitVec 32), Decidable (k1_chk163 v1785) := fun v1785 => decidable_of_iff' _ (Iff.of_eq (k1_chk163.eq_1 v1785))
theorem k1_off244_inb : ∀ (v1785 : BitVec 32) (k1_hw163 : k1_chk163 v1785), ∀ a, (k1_off244 v1785) a + S1x64.size a ≤ S50000x64.size a := fun v1785 k1_hw163 => k1_hw163

def k1_off245 (v1786 : BitVec 32) : Fin 2 → Nat :=
  let v1790 : Index := Scalar.indexCast v1786
  let c0_569 : Index := 0#32
  ![v1790.toNat, 0]

def k1_off246 (v1786 : BitVec 32) : Fin 2 → Nat :=
  let v1798 : Index := Scalar.indexCast v1786
  let c0_571 : Index := 0#32
  ![v1798.toNat, 0]

def k1_chk164 (v1786 : BitVec 32) : Prop :=
  (∀ a, (k1_off245 v1786) a + S1x64.size a ≤ S16384x64.size a) ∧
  (∀ a, (k1_off246 v1786) a + S1x1.size a ≤ S16384x1.size a)
instance k1_chk164.dec : ∀ (v1786 : BitVec 32), Decidable (k1_chk164 v1786) := fun v1786 => decidable_of_iff' _ (Iff.of_eq (k1_chk164.eq_1 v1786))
theorem k1_off245_inb : ∀ (v1786 : BitVec 32) (k1_hw164 : k1_chk164 v1786), ∀ a, (k1_off245 v1786) a + S1x64.size a ≤ S16384x64.size a := fun v1786 k1_hw164 => k1_hw164.1
theorem k1_off246_inb : ∀ (v1786 : BitVec 32) (k1_hw164 : k1_chk164 v1786), ∀ a, (k1_off246 v1786) a + S1x1.size a ≤ S16384x1.size a := fun v1786 k1_hw164 => k1_hw164.2

def k1_off247 (v1807 : BitVec 32) : Fin 2 → Nat :=
  let v1809 : Index := Scalar.indexCast v1807
  let c0_575 : Index := 0#32
  ![v1809.toNat, 0]

def k1_chk165 (v1807 : BitVec 32) : Prop :=
  (∀ a, (k1_off247 v1807) a + S1x64.size a ≤ S50000x64.size a)
instance k1_chk165.dec : ∀ (v1807 : BitVec 32), Decidable (k1_chk165 v1807) := fun v1807 => decidable_of_iff' _ (Iff.of_eq (k1_chk165.eq_1 v1807))
theorem k1_off247_inb : ∀ (v1807 : BitVec 32) (k1_hw165 : k1_chk165 v1807), ∀ a, (k1_off247 v1807) a + S1x64.size a ≤ S50000x64.size a := fun v1807 k1_hw165 => k1_hw165

def k1_off248 (v1808 : BitVec 32) : Fin 2 → Nat :=
  let v1812 : Index := Scalar.indexCast v1808
  let c0_576 : Index := 0#32
  ![v1812.toNat, 0]

def k1_off249 (v1808 : BitVec 32) : Fin 2 → Nat :=
  let v1820 : Index := Scalar.indexCast v1808
  let c0_578 : Index := 0#32
  ![v1820.toNat, 0]

def k1_chk166 (v1808 : BitVec 32) : Prop :=
  (∀ a, (k1_off248 v1808) a + S1x64.size a ≤ S16384x64.size a) ∧
  (∀ a, (k1_off249 v1808) a + S1x1.size a ≤ S16384x1.size a)
instance k1_chk166.dec : ∀ (v1808 : BitVec 32), Decidable (k1_chk166 v1808) := fun v1808 => decidable_of_iff' _ (Iff.of_eq (k1_chk166.eq_1 v1808))
theorem k1_off248_inb : ∀ (v1808 : BitVec 32) (k1_hw166 : k1_chk166 v1808), ∀ a, (k1_off248 v1808) a + S1x64.size a ≤ S16384x64.size a := fun v1808 k1_hw166 => k1_hw166.1
theorem k1_off249_inb : ∀ (v1808 : BitVec 32) (k1_hw166 : k1_chk166 v1808), ∀ a, (k1_off249 v1808) a + S1x1.size a ≤ S16384x1.size a := fun v1808 k1_hw166 => k1_hw166.2

def k1_off250 (v1829 : BitVec 32) : Fin 2 → Nat :=
  let v1831 : Index := Scalar.indexCast v1829
  let c0_582 : Index := 0#32
  ![v1831.toNat, 0]

def k1_chk167 (v1829 : BitVec 32) : Prop :=
  (∀ a, (k1_off250 v1829) a + S1x64.size a ≤ S50000x64.size a)
instance k1_chk167.dec : ∀ (v1829 : BitVec 32), Decidable (k1_chk167 v1829) := fun v1829 => decidable_of_iff' _ (Iff.of_eq (k1_chk167.eq_1 v1829))
theorem k1_off250_inb : ∀ (v1829 : BitVec 32) (k1_hw167 : k1_chk167 v1829), ∀ a, (k1_off250 v1829) a + S1x64.size a ≤ S50000x64.size a := fun v1829 k1_hw167 => k1_hw167

def k1_off251 (v1830 : BitVec 32) : Fin 2 → Nat :=
  let v1834 : Index := Scalar.indexCast v1830
  let c0_583 : Index := 0#32
  ![v1834.toNat, 0]

def k1_off252 (v1830 : BitVec 32) : Fin 2 → Nat :=
  let v1842 : Index := Scalar.indexCast v1830
  let c0_585 : Index := 0#32
  ![v1842.toNat, 0]

def k1_chk168 (v1830 : BitVec 32) : Prop :=
  (∀ a, (k1_off251 v1830) a + S1x64.size a ≤ S16384x64.size a) ∧
  (∀ a, (k1_off252 v1830) a + S1x1.size a ≤ S16384x1.size a)
instance k1_chk168.dec : ∀ (v1830 : BitVec 32), Decidable (k1_chk168 v1830) := fun v1830 => decidable_of_iff' _ (Iff.of_eq (k1_chk168.eq_1 v1830))
theorem k1_off251_inb : ∀ (v1830 : BitVec 32) (k1_hw168 : k1_chk168 v1830), ∀ a, (k1_off251 v1830) a + S1x64.size a ≤ S16384x64.size a := fun v1830 k1_hw168 => k1_hw168.1
theorem k1_off252_inb : ∀ (v1830 : BitVec 32) (k1_hw168 : k1_chk168 v1830), ∀ a, (k1_off252 v1830) a + S1x1.size a ≤ S16384x1.size a := fun v1830 k1_hw168 => k1_hw168.2

def k1_off253 (v1851 : BitVec 32) : Fin 2 → Nat :=
  let v1853 : Index := Scalar.indexCast v1851
  let c0_589 : Index := 0#32
  ![v1853.toNat, 0]

def k1_chk169 (v1851 : BitVec 32) : Prop :=
  (∀ a, (k1_off253 v1851) a + S1x64.size a ≤ S50000x64.size a)
instance k1_chk169.dec : ∀ (v1851 : BitVec 32), Decidable (k1_chk169 v1851) := fun v1851 => decidable_of_iff' _ (Iff.of_eq (k1_chk169.eq_1 v1851))
theorem k1_off253_inb : ∀ (v1851 : BitVec 32) (k1_hw169 : k1_chk169 v1851), ∀ a, (k1_off253 v1851) a + S1x64.size a ≤ S50000x64.size a := fun v1851 k1_hw169 => k1_hw169

def k1_off254 (v1852 : BitVec 32) : Fin 2 → Nat :=
  let v1856 : Index := Scalar.indexCast v1852
  let c0_590 : Index := 0#32
  ![v1856.toNat, 0]

def k1_off255 (v1852 : BitVec 32) : Fin 2 → Nat :=
  let v1864 : Index := Scalar.indexCast v1852
  let c0_592 : Index := 0#32
  ![v1864.toNat, 0]

def k1_chk170 (v1852 : BitVec 32) : Prop :=
  (∀ a, (k1_off254 v1852) a + S1x64.size a ≤ S16384x64.size a) ∧
  (∀ a, (k1_off255 v1852) a + S1x1.size a ≤ S16384x1.size a)
instance k1_chk170.dec : ∀ (v1852 : BitVec 32), Decidable (k1_chk170 v1852) := fun v1852 => decidable_of_iff' _ (Iff.of_eq (k1_chk170.eq_1 v1852))
theorem k1_off254_inb : ∀ (v1852 : BitVec 32) (k1_hw170 : k1_chk170 v1852), ∀ a, (k1_off254 v1852) a + S1x64.size a ≤ S16384x64.size a := fun v1852 k1_hw170 => k1_hw170.1
theorem k1_off255_inb : ∀ (v1852 : BitVec 32) (k1_hw170 : k1_chk170 v1852), ∀ a, (k1_off255 v1852) a + S1x1.size a ≤ S16384x1.size a := fun v1852 k1_hw170 => k1_hw170.2

def k1_off256 (v1873 : BitVec 32) : Fin 2 → Nat :=
  let v1875 : Index := Scalar.indexCast v1873
  let c0_596 : Index := 0#32
  ![v1875.toNat, 0]

def k1_chk171 (v1873 : BitVec 32) : Prop :=
  (∀ a, (k1_off256 v1873) a + S1x64.size a ≤ S50000x64.size a)
instance k1_chk171.dec : ∀ (v1873 : BitVec 32), Decidable (k1_chk171 v1873) := fun v1873 => decidable_of_iff' _ (Iff.of_eq (k1_chk171.eq_1 v1873))
theorem k1_off256_inb : ∀ (v1873 : BitVec 32) (k1_hw171 : k1_chk171 v1873), ∀ a, (k1_off256 v1873) a + S1x64.size a ≤ S50000x64.size a := fun v1873 k1_hw171 => k1_hw171

def k1_off257 (v1874 : BitVec 32) : Fin 2 → Nat :=
  let v1878 : Index := Scalar.indexCast v1874
  let c0_597 : Index := 0#32
  ![v1878.toNat, 0]

def k1_off258 (v1874 : BitVec 32) : Fin 2 → Nat :=
  let v1886 : Index := Scalar.indexCast v1874
  let c0_599 : Index := 0#32
  ![v1886.toNat, 0]

def k1_chk172 (v1874 : BitVec 32) : Prop :=
  (∀ a, (k1_off257 v1874) a + S1x64.size a ≤ S16384x64.size a) ∧
  (∀ a, (k1_off258 v1874) a + S1x1.size a ≤ S16384x1.size a)
instance k1_chk172.dec : ∀ (v1874 : BitVec 32), Decidable (k1_chk172 v1874) := fun v1874 => decidable_of_iff' _ (Iff.of_eq (k1_chk172.eq_1 v1874))
theorem k1_off257_inb : ∀ (v1874 : BitVec 32) (k1_hw172 : k1_chk172 v1874), ∀ a, (k1_off257 v1874) a + S1x64.size a ≤ S16384x64.size a := fun v1874 k1_hw172 => k1_hw172.1
theorem k1_off258_inb : ∀ (v1874 : BitVec 32) (k1_hw172 : k1_chk172 v1874), ∀ a, (k1_off258 v1874) a + S1x1.size a ≤ S16384x1.size a := fun v1874 k1_hw172 => k1_hw172.2

def k1_off259 (v1895 : BitVec 32) : Fin 2 → Nat :=
  let v1897 : Index := Scalar.indexCast v1895
  let c0_603 : Index := 0#32
  ![v1897.toNat, 0]

def k1_chk173 (v1895 : BitVec 32) : Prop :=
  (∀ a, (k1_off259 v1895) a + S1x64.size a ≤ S50000x64.size a)
instance k1_chk173.dec : ∀ (v1895 : BitVec 32), Decidable (k1_chk173 v1895) := fun v1895 => decidable_of_iff' _ (Iff.of_eq (k1_chk173.eq_1 v1895))
theorem k1_off259_inb : ∀ (v1895 : BitVec 32) (k1_hw173 : k1_chk173 v1895), ∀ a, (k1_off259 v1895) a + S1x64.size a ≤ S50000x64.size a := fun v1895 k1_hw173 => k1_hw173

def k1_off260 (v1896 : BitVec 32) : Fin 2 → Nat :=
  let v1900 : Index := Scalar.indexCast v1896
  let c0_604 : Index := 0#32
  ![v1900.toNat, 0]

def k1_off261 (v1896 : BitVec 32) : Fin 2 → Nat :=
  let v1908 : Index := Scalar.indexCast v1896
  let c0_606 : Index := 0#32
  ![v1908.toNat, 0]

def k1_chk174 (v1896 : BitVec 32) : Prop :=
  (∀ a, (k1_off260 v1896) a + S1x64.size a ≤ S16384x64.size a) ∧
  (∀ a, (k1_off261 v1896) a + S1x1.size a ≤ S16384x1.size a)
instance k1_chk174.dec : ∀ (v1896 : BitVec 32), Decidable (k1_chk174 v1896) := fun v1896 => decidable_of_iff' _ (Iff.of_eq (k1_chk174.eq_1 v1896))
theorem k1_off260_inb : ∀ (v1896 : BitVec 32) (k1_hw174 : k1_chk174 v1896), ∀ a, (k1_off260 v1896) a + S1x64.size a ≤ S16384x64.size a := fun v1896 k1_hw174 => k1_hw174.1
theorem k1_off261_inb : ∀ (v1896 : BitVec 32) (k1_hw174 : k1_chk174 v1896), ∀ a, (k1_off261 v1896) a + S1x1.size a ≤ S16384x1.size a := fun v1896 k1_hw174 => k1_hw174.2

def k1_off262 (v1917 : BitVec 32) : Fin 2 → Nat :=
  let v1919 : Index := Scalar.indexCast v1917
  let c0_610 : Index := 0#32
  ![v1919.toNat, 0]

def k1_chk175 (v1917 : BitVec 32) : Prop :=
  (∀ a, (k1_off262 v1917) a + S1x64.size a ≤ S50000x64.size a)
instance k1_chk175.dec : ∀ (v1917 : BitVec 32), Decidable (k1_chk175 v1917) := fun v1917 => decidable_of_iff' _ (Iff.of_eq (k1_chk175.eq_1 v1917))
theorem k1_off262_inb : ∀ (v1917 : BitVec 32) (k1_hw175 : k1_chk175 v1917), ∀ a, (k1_off262 v1917) a + S1x64.size a ≤ S50000x64.size a := fun v1917 k1_hw175 => k1_hw175

def k1_off263 (v1918 : BitVec 32) : Fin 2 → Nat :=
  let v1922 : Index := Scalar.indexCast v1918
  let c0_611 : Index := 0#32
  ![v1922.toNat, 0]

def k1_off264 (v1918 : BitVec 32) : Fin 2 → Nat :=
  let v1930 : Index := Scalar.indexCast v1918
  let c0_613 : Index := 0#32
  ![v1930.toNat, 0]

def k1_chk176 (v1918 : BitVec 32) : Prop :=
  (∀ a, (k1_off263 v1918) a + S1x64.size a ≤ S16384x64.size a) ∧
  (∀ a, (k1_off264 v1918) a + S1x1.size a ≤ S16384x1.size a)
instance k1_chk176.dec : ∀ (v1918 : BitVec 32), Decidable (k1_chk176 v1918) := fun v1918 => decidable_of_iff' _ (Iff.of_eq (k1_chk176.eq_1 v1918))
theorem k1_off263_inb : ∀ (v1918 : BitVec 32) (k1_hw176 : k1_chk176 v1918), ∀ a, (k1_off263 v1918) a + S1x64.size a ≤ S16384x64.size a := fun v1918 k1_hw176 => k1_hw176.1
theorem k1_off264_inb : ∀ (v1918 : BitVec 32) (k1_hw176 : k1_chk176 v1918), ∀ a, (k1_off264 v1918) a + S1x1.size a ≤ S16384x1.size a := fun v1918 k1_hw176 => k1_hw176.2

def k1_off265 (v1939 : BitVec 32) : Fin 2 → Nat :=
  let v1941 : Index := Scalar.indexCast v1939
  let c0_617 : Index := 0#32
  ![v1941.toNat, 0]

def k1_chk177 (v1939 : BitVec 32) : Prop :=
  (∀ a, (k1_off265 v1939) a + S1x64.size a ≤ S50000x64.size a)
instance k1_chk177.dec : ∀ (v1939 : BitVec 32), Decidable (k1_chk177 v1939) := fun v1939 => decidable_of_iff' _ (Iff.of_eq (k1_chk177.eq_1 v1939))
theorem k1_off265_inb : ∀ (v1939 : BitVec 32) (k1_hw177 : k1_chk177 v1939), ∀ a, (k1_off265 v1939) a + S1x64.size a ≤ S50000x64.size a := fun v1939 k1_hw177 => k1_hw177

def k1_off266 (v1940 : BitVec 32) : Fin 2 → Nat :=
  let v1944 : Index := Scalar.indexCast v1940
  let c0_618 : Index := 0#32
  ![v1944.toNat, 0]

def k1_off267 (v1940 : BitVec 32) : Fin 2 → Nat :=
  let v1952 : Index := Scalar.indexCast v1940
  let c0_620 : Index := 0#32
  ![v1952.toNat, 0]

def k1_chk178 (v1940 : BitVec 32) : Prop :=
  (∀ a, (k1_off266 v1940) a + S1x64.size a ≤ S16384x64.size a) ∧
  (∀ a, (k1_off267 v1940) a + S1x1.size a ≤ S16384x1.size a)
instance k1_chk178.dec : ∀ (v1940 : BitVec 32), Decidable (k1_chk178 v1940) := fun v1940 => decidable_of_iff' _ (Iff.of_eq (k1_chk178.eq_1 v1940))
theorem k1_off266_inb : ∀ (v1940 : BitVec 32) (k1_hw178 : k1_chk178 v1940), ∀ a, (k1_off266 v1940) a + S1x64.size a ≤ S16384x64.size a := fun v1940 k1_hw178 => k1_hw178.1
theorem k1_off267_inb : ∀ (v1940 : BitVec 32) (k1_hw178 : k1_chk178 v1940), ∀ a, (k1_off267 v1940) a + S1x1.size a ≤ S16384x1.size a := fun v1940 k1_hw178 => k1_hw178.2

def k1_off268 (v1961 : BitVec 32) : Fin 2 → Nat :=
  let v1963 : Index := Scalar.indexCast v1961
  let c0_624 : Index := 0#32
  ![v1963.toNat, 0]

def k1_chk179 (v1961 : BitVec 32) : Prop :=
  (∀ a, (k1_off268 v1961) a + S1x64.size a ≤ S50000x64.size a)
instance k1_chk179.dec : ∀ (v1961 : BitVec 32), Decidable (k1_chk179 v1961) := fun v1961 => decidable_of_iff' _ (Iff.of_eq (k1_chk179.eq_1 v1961))
theorem k1_off268_inb : ∀ (v1961 : BitVec 32) (k1_hw179 : k1_chk179 v1961), ∀ a, (k1_off268 v1961) a + S1x64.size a ≤ S50000x64.size a := fun v1961 k1_hw179 => k1_hw179

def k1_off269 (v1962 : BitVec 32) : Fin 2 → Nat :=
  let v1966 : Index := Scalar.indexCast v1962
  let c0_625 : Index := 0#32
  ![v1966.toNat, 0]

def k1_off270 (v1962 : BitVec 32) : Fin 2 → Nat :=
  let v1974 : Index := Scalar.indexCast v1962
  let c0_627 : Index := 0#32
  ![v1974.toNat, 0]

def k1_chk180 (v1962 : BitVec 32) : Prop :=
  (∀ a, (k1_off269 v1962) a + S1x64.size a ≤ S16384x64.size a) ∧
  (∀ a, (k1_off270 v1962) a + S1x1.size a ≤ S16384x1.size a)
instance k1_chk180.dec : ∀ (v1962 : BitVec 32), Decidable (k1_chk180 v1962) := fun v1962 => decidable_of_iff' _ (Iff.of_eq (k1_chk180.eq_1 v1962))
theorem k1_off269_inb : ∀ (v1962 : BitVec 32) (k1_hw180 : k1_chk180 v1962), ∀ a, (k1_off269 v1962) a + S1x64.size a ≤ S16384x64.size a := fun v1962 k1_hw180 => k1_hw180.1
theorem k1_off270_inb : ∀ (v1962 : BitVec 32) (k1_hw180 : k1_chk180 v1962), ∀ a, (k1_off270 v1962) a + S1x1.size a ≤ S16384x1.size a := fun v1962 k1_hw180 => k1_hw180.2

def k1_off271 (v1983 : BitVec 32) : Fin 2 → Nat :=
  let v1985 : Index := Scalar.indexCast v1983
  let c0_631 : Index := 0#32
  ![v1985.toNat, 0]

def k1_chk181 (v1983 : BitVec 32) : Prop :=
  (∀ a, (k1_off271 v1983) a + S1x64.size a ≤ S50000x64.size a)
instance k1_chk181.dec : ∀ (v1983 : BitVec 32), Decidable (k1_chk181 v1983) := fun v1983 => decidable_of_iff' _ (Iff.of_eq (k1_chk181.eq_1 v1983))
theorem k1_off271_inb : ∀ (v1983 : BitVec 32) (k1_hw181 : k1_chk181 v1983), ∀ a, (k1_off271 v1983) a + S1x64.size a ≤ S50000x64.size a := fun v1983 k1_hw181 => k1_hw181

def k1_off272 (v1984 : BitVec 32) : Fin 2 → Nat :=
  let v1988 : Index := Scalar.indexCast v1984
  let c0_632 : Index := 0#32
  ![v1988.toNat, 0]

def k1_off273 (v1984 : BitVec 32) : Fin 2 → Nat :=
  let v1996 : Index := Scalar.indexCast v1984
  let c0_634 : Index := 0#32
  ![v1996.toNat, 0]

def k1_chk182 (v1984 : BitVec 32) : Prop :=
  (∀ a, (k1_off272 v1984) a + S1x64.size a ≤ S16384x64.size a) ∧
  (∀ a, (k1_off273 v1984) a + S1x1.size a ≤ S16384x1.size a)
instance k1_chk182.dec : ∀ (v1984 : BitVec 32), Decidable (k1_chk182 v1984) := fun v1984 => decidable_of_iff' _ (Iff.of_eq (k1_chk182.eq_1 v1984))
theorem k1_off272_inb : ∀ (v1984 : BitVec 32) (k1_hw182 : k1_chk182 v1984), ∀ a, (k1_off272 v1984) a + S1x64.size a ≤ S16384x64.size a := fun v1984 k1_hw182 => k1_hw182.1
theorem k1_off273_inb : ∀ (v1984 : BitVec 32) (k1_hw182 : k1_chk182 v1984), ∀ a, (k1_off273 v1984) a + S1x1.size a ≤ S16384x1.size a := fun v1984 k1_hw182 => k1_hw182.2

def k1_off274 (v2005 : BitVec 32) : Fin 2 → Nat :=
  let v2007 : Index := Scalar.indexCast v2005
  let c0_638 : Index := 0#32
  ![v2007.toNat, 0]

def k1_chk183 (v2005 : BitVec 32) : Prop :=
  (∀ a, (k1_off274 v2005) a + S1x64.size a ≤ S50000x64.size a)
instance k1_chk183.dec : ∀ (v2005 : BitVec 32), Decidable (k1_chk183 v2005) := fun v2005 => decidable_of_iff' _ (Iff.of_eq (k1_chk183.eq_1 v2005))
theorem k1_off274_inb : ∀ (v2005 : BitVec 32) (k1_hw183 : k1_chk183 v2005), ∀ a, (k1_off274 v2005) a + S1x64.size a ≤ S50000x64.size a := fun v2005 k1_hw183 => k1_hw183

def k1_off275 (v2006 : BitVec 32) : Fin 2 → Nat :=
  let v2010 : Index := Scalar.indexCast v2006
  let c0_639 : Index := 0#32
  ![v2010.toNat, 0]

def k1_off276 (v2006 : BitVec 32) : Fin 2 → Nat :=
  let v2018 : Index := Scalar.indexCast v2006
  let c0_641 : Index := 0#32
  ![v2018.toNat, 0]

def k1_chk184 (v2006 : BitVec 32) : Prop :=
  (∀ a, (k1_off275 v2006) a + S1x64.size a ≤ S16384x64.size a) ∧
  (∀ a, (k1_off276 v2006) a + S1x1.size a ≤ S16384x1.size a)
instance k1_chk184.dec : ∀ (v2006 : BitVec 32), Decidable (k1_chk184 v2006) := fun v2006 => decidable_of_iff' _ (Iff.of_eq (k1_chk184.eq_1 v2006))
theorem k1_off275_inb : ∀ (v2006 : BitVec 32) (k1_hw184 : k1_chk184 v2006), ∀ a, (k1_off275 v2006) a + S1x64.size a ≤ S16384x64.size a := fun v2006 k1_hw184 => k1_hw184.1
theorem k1_off276_inb : ∀ (v2006 : BitVec 32) (k1_hw184 : k1_chk184 v2006), ∀ a, (k1_off276 v2006) a + S1x1.size a ≤ S16384x1.size a := fun v2006 k1_hw184 => k1_hw184.2

def k1_off277 (v2027 : BitVec 32) : Fin 2 → Nat :=
  let v2029 : Index := Scalar.indexCast v2027
  let c0_645 : Index := 0#32
  ![v2029.toNat, 0]

def k1_chk185 (v2027 : BitVec 32) : Prop :=
  (∀ a, (k1_off277 v2027) a + S1x64.size a ≤ S50000x64.size a)
instance k1_chk185.dec : ∀ (v2027 : BitVec 32), Decidable (k1_chk185 v2027) := fun v2027 => decidable_of_iff' _ (Iff.of_eq (k1_chk185.eq_1 v2027))
theorem k1_off277_inb : ∀ (v2027 : BitVec 32) (k1_hw185 : k1_chk185 v2027), ∀ a, (k1_off277 v2027) a + S1x64.size a ≤ S50000x64.size a := fun v2027 k1_hw185 => k1_hw185

def k1_off278 (v2028 : BitVec 32) : Fin 2 → Nat :=
  let v2032 : Index := Scalar.indexCast v2028
  let c0_646 : Index := 0#32
  ![v2032.toNat, 0]

def k1_off279 (v2028 : BitVec 32) : Fin 2 → Nat :=
  let v2040 : Index := Scalar.indexCast v2028
  let c0_648 : Index := 0#32
  ![v2040.toNat, 0]

def k1_chk186 (v2028 : BitVec 32) : Prop :=
  (∀ a, (k1_off278 v2028) a + S1x64.size a ≤ S16384x64.size a) ∧
  (∀ a, (k1_off279 v2028) a + S1x1.size a ≤ S16384x1.size a)
instance k1_chk186.dec : ∀ (v2028 : BitVec 32), Decidable (k1_chk186 v2028) := fun v2028 => decidable_of_iff' _ (Iff.of_eq (k1_chk186.eq_1 v2028))
theorem k1_off278_inb : ∀ (v2028 : BitVec 32) (k1_hw186 : k1_chk186 v2028), ∀ a, (k1_off278 v2028) a + S1x64.size a ≤ S16384x64.size a := fun v2028 k1_hw186 => k1_hw186.1
theorem k1_off279_inb : ∀ (v2028 : BitVec 32) (k1_hw186 : k1_chk186 v2028), ∀ a, (k1_off279 v2028) a + S1x1.size a ≤ S16384x1.size a := fun v2028 k1_hw186 => k1_hw186.2

def k1_off280 (v2049 : BitVec 32) : Fin 2 → Nat :=
  let v2051 : Index := Scalar.indexCast v2049
  let c0_652 : Index := 0#32
  ![v2051.toNat, 0]

def k1_chk187 (v2049 : BitVec 32) : Prop :=
  (∀ a, (k1_off280 v2049) a + S1x64.size a ≤ S50000x64.size a)
instance k1_chk187.dec : ∀ (v2049 : BitVec 32), Decidable (k1_chk187 v2049) := fun v2049 => decidable_of_iff' _ (Iff.of_eq (k1_chk187.eq_1 v2049))
theorem k1_off280_inb : ∀ (v2049 : BitVec 32) (k1_hw187 : k1_chk187 v2049), ∀ a, (k1_off280 v2049) a + S1x64.size a ≤ S50000x64.size a := fun v2049 k1_hw187 => k1_hw187

def k1_off281 (v2050 : BitVec 32) : Fin 2 → Nat :=
  let v2054 : Index := Scalar.indexCast v2050
  let c0_653 : Index := 0#32
  ![v2054.toNat, 0]

def k1_off282 (v2050 : BitVec 32) : Fin 2 → Nat :=
  let v2062 : Index := Scalar.indexCast v2050
  let c0_655 : Index := 0#32
  ![v2062.toNat, 0]

def k1_chk188 (v2050 : BitVec 32) : Prop :=
  (∀ a, (k1_off281 v2050) a + S1x64.size a ≤ S16384x64.size a) ∧
  (∀ a, (k1_off282 v2050) a + S1x1.size a ≤ S16384x1.size a)
instance k1_chk188.dec : ∀ (v2050 : BitVec 32), Decidable (k1_chk188 v2050) := fun v2050 => decidable_of_iff' _ (Iff.of_eq (k1_chk188.eq_1 v2050))
theorem k1_off281_inb : ∀ (v2050 : BitVec 32) (k1_hw188 : k1_chk188 v2050), ∀ a, (k1_off281 v2050) a + S1x64.size a ≤ S16384x64.size a := fun v2050 k1_hw188 => k1_hw188.1
theorem k1_off282_inb : ∀ (v2050 : BitVec 32) (k1_hw188 : k1_chk188 v2050), ∀ a, (k1_off282 v2050) a + S1x1.size a ≤ S16384x1.size a := fun v2050 k1_hw188 => k1_hw188.2

def k1_off283 (v2071 : BitVec 32) : Fin 2 → Nat :=
  let v2073 : Index := Scalar.indexCast v2071
  let c0_659 : Index := 0#32
  ![v2073.toNat, 0]

def k1_chk189 (v2071 : BitVec 32) : Prop :=
  (∀ a, (k1_off283 v2071) a + S1x64.size a ≤ S50000x64.size a)
instance k1_chk189.dec : ∀ (v2071 : BitVec 32), Decidable (k1_chk189 v2071) := fun v2071 => decidable_of_iff' _ (Iff.of_eq (k1_chk189.eq_1 v2071))
theorem k1_off283_inb : ∀ (v2071 : BitVec 32) (k1_hw189 : k1_chk189 v2071), ∀ a, (k1_off283 v2071) a + S1x64.size a ≤ S50000x64.size a := fun v2071 k1_hw189 => k1_hw189

def k1_off284 (v2072 : BitVec 32) : Fin 2 → Nat :=
  let v2076 : Index := Scalar.indexCast v2072
  let c0_660 : Index := 0#32
  ![v2076.toNat, 0]

def k1_off285 (v2072 : BitVec 32) : Fin 2 → Nat :=
  let v2084 : Index := Scalar.indexCast v2072
  let c0_662 : Index := 0#32
  ![v2084.toNat, 0]

def k1_chk190 (v2072 : BitVec 32) : Prop :=
  (∀ a, (k1_off284 v2072) a + S1x64.size a ≤ S16384x64.size a) ∧
  (∀ a, (k1_off285 v2072) a + S1x1.size a ≤ S16384x1.size a)
instance k1_chk190.dec : ∀ (v2072 : BitVec 32), Decidable (k1_chk190 v2072) := fun v2072 => decidable_of_iff' _ (Iff.of_eq (k1_chk190.eq_1 v2072))
theorem k1_off284_inb : ∀ (v2072 : BitVec 32) (k1_hw190 : k1_chk190 v2072), ∀ a, (k1_off284 v2072) a + S1x64.size a ≤ S16384x64.size a := fun v2072 k1_hw190 => k1_hw190.1
theorem k1_off285_inb : ∀ (v2072 : BitVec 32) (k1_hw190 : k1_chk190 v2072), ∀ a, (k1_off285 v2072) a + S1x1.size a ≤ S16384x1.size a := fun v2072 k1_hw190 => k1_hw190.2

def k1_off286 (v2093 : BitVec 32) : Fin 2 → Nat :=
  let v2095 : Index := Scalar.indexCast v2093
  let c0_666 : Index := 0#32
  ![v2095.toNat, 0]

def k1_chk191 (v2093 : BitVec 32) : Prop :=
  (∀ a, (k1_off286 v2093) a + S1x64.size a ≤ S50000x64.size a)
instance k1_chk191.dec : ∀ (v2093 : BitVec 32), Decidable (k1_chk191 v2093) := fun v2093 => decidable_of_iff' _ (Iff.of_eq (k1_chk191.eq_1 v2093))
theorem k1_off286_inb : ∀ (v2093 : BitVec 32) (k1_hw191 : k1_chk191 v2093), ∀ a, (k1_off286 v2093) a + S1x64.size a ≤ S50000x64.size a := fun v2093 k1_hw191 => k1_hw191

def k1_off287 (v2094 : BitVec 32) : Fin 2 → Nat :=
  let v2098 : Index := Scalar.indexCast v2094
  let c0_667 : Index := 0#32
  ![v2098.toNat, 0]

def k1_off288 (v2094 : BitVec 32) : Fin 2 → Nat :=
  let v2106 : Index := Scalar.indexCast v2094
  let c0_669 : Index := 0#32
  ![v2106.toNat, 0]

def k1_chk192 (v2094 : BitVec 32) : Prop :=
  (∀ a, (k1_off287 v2094) a + S1x64.size a ≤ S16384x64.size a) ∧
  (∀ a, (k1_off288 v2094) a + S1x1.size a ≤ S16384x1.size a)
instance k1_chk192.dec : ∀ (v2094 : BitVec 32), Decidable (k1_chk192 v2094) := fun v2094 => decidable_of_iff' _ (Iff.of_eq (k1_chk192.eq_1 v2094))
theorem k1_off287_inb : ∀ (v2094 : BitVec 32) (k1_hw192 : k1_chk192 v2094), ∀ a, (k1_off287 v2094) a + S1x64.size a ≤ S16384x64.size a := fun v2094 k1_hw192 => k1_hw192.1
theorem k1_off288_inb : ∀ (v2094 : BitVec 32) (k1_hw192 : k1_chk192 v2094), ∀ a, (k1_off288 v2094) a + S1x1.size a ≤ S16384x1.size a := fun v2094 k1_hw192 => k1_hw192.2

def k1_off289 (v2115 : BitVec 32) : Fin 2 → Nat :=
  let v2117 : Index := Scalar.indexCast v2115
  let c0_673 : Index := 0#32
  ![v2117.toNat, 0]

def k1_chk193 (v2115 : BitVec 32) : Prop :=
  (∀ a, (k1_off289 v2115) a + S1x64.size a ≤ S50000x64.size a)
instance k1_chk193.dec : ∀ (v2115 : BitVec 32), Decidable (k1_chk193 v2115) := fun v2115 => decidable_of_iff' _ (Iff.of_eq (k1_chk193.eq_1 v2115))
theorem k1_off289_inb : ∀ (v2115 : BitVec 32) (k1_hw193 : k1_chk193 v2115), ∀ a, (k1_off289 v2115) a + S1x64.size a ≤ S50000x64.size a := fun v2115 k1_hw193 => k1_hw193

def k1_off290 (v2116 : BitVec 32) : Fin 2 → Nat :=
  let v2120 : Index := Scalar.indexCast v2116
  let c0_674 : Index := 0#32
  ![v2120.toNat, 0]

def k1_off291 (v2116 : BitVec 32) : Fin 2 → Nat :=
  let v2128 : Index := Scalar.indexCast v2116
  let c0_676 : Index := 0#32
  ![v2128.toNat, 0]

def k1_chk194 (v2116 : BitVec 32) : Prop :=
  (∀ a, (k1_off290 v2116) a + S1x64.size a ≤ S16384x64.size a) ∧
  (∀ a, (k1_off291 v2116) a + S1x1.size a ≤ S16384x1.size a)
instance k1_chk194.dec : ∀ (v2116 : BitVec 32), Decidable (k1_chk194 v2116) := fun v2116 => decidable_of_iff' _ (Iff.of_eq (k1_chk194.eq_1 v2116))
theorem k1_off290_inb : ∀ (v2116 : BitVec 32) (k1_hw194 : k1_chk194 v2116), ∀ a, (k1_off290 v2116) a + S1x64.size a ≤ S16384x64.size a := fun v2116 k1_hw194 => k1_hw194.1
theorem k1_off291_inb : ∀ (v2116 : BitVec 32) (k1_hw194 : k1_chk194 v2116), ∀ a, (k1_off291 v2116) a + S1x1.size a ≤ S16384x1.size a := fun v2116 k1_hw194 => k1_hw194.2

def k1_off292 (v2137 : BitVec 32) : Fin 2 → Nat :=
  let v2139 : Index := Scalar.indexCast v2137
  let c0_680 : Index := 0#32
  ![v2139.toNat, 0]

def k1_chk195 (v2137 : BitVec 32) : Prop :=
  (∀ a, (k1_off292 v2137) a + S1x64.size a ≤ S50000x64.size a)
instance k1_chk195.dec : ∀ (v2137 : BitVec 32), Decidable (k1_chk195 v2137) := fun v2137 => decidable_of_iff' _ (Iff.of_eq (k1_chk195.eq_1 v2137))
theorem k1_off292_inb : ∀ (v2137 : BitVec 32) (k1_hw195 : k1_chk195 v2137), ∀ a, (k1_off292 v2137) a + S1x64.size a ≤ S50000x64.size a := fun v2137 k1_hw195 => k1_hw195

def k1_off293 (v2138 : BitVec 32) : Fin 2 → Nat :=
  let v2142 : Index := Scalar.indexCast v2138
  let c0_681 : Index := 0#32
  ![v2142.toNat, 0]

def k1_off294 (v2138 : BitVec 32) : Fin 2 → Nat :=
  let v2150 : Index := Scalar.indexCast v2138
  let c0_683 : Index := 0#32
  ![v2150.toNat, 0]

def k1_chk196 (v2138 : BitVec 32) : Prop :=
  (∀ a, (k1_off293 v2138) a + S1x64.size a ≤ S16384x64.size a) ∧
  (∀ a, (k1_off294 v2138) a + S1x1.size a ≤ S16384x1.size a)
instance k1_chk196.dec : ∀ (v2138 : BitVec 32), Decidable (k1_chk196 v2138) := fun v2138 => decidable_of_iff' _ (Iff.of_eq (k1_chk196.eq_1 v2138))
theorem k1_off293_inb : ∀ (v2138 : BitVec 32) (k1_hw196 : k1_chk196 v2138), ∀ a, (k1_off293 v2138) a + S1x64.size a ≤ S16384x64.size a := fun v2138 k1_hw196 => k1_hw196.1
theorem k1_off294_inb : ∀ (v2138 : BitVec 32) (k1_hw196 : k1_chk196 v2138), ∀ a, (k1_off294 v2138) a + S1x1.size a ≤ S16384x1.size a := fun v2138 k1_hw196 => k1_hw196.2

def k1_off295 (v2159 : BitVec 32) : Fin 2 → Nat :=
  let v2161 : Index := Scalar.indexCast v2159
  let c0_687 : Index := 0#32
  ![v2161.toNat, 0]

def k1_chk197 (v2159 : BitVec 32) : Prop :=
  (∀ a, (k1_off295 v2159) a + S1x64.size a ≤ S50000x64.size a)
instance k1_chk197.dec : ∀ (v2159 : BitVec 32), Decidable (k1_chk197 v2159) := fun v2159 => decidable_of_iff' _ (Iff.of_eq (k1_chk197.eq_1 v2159))
theorem k1_off295_inb : ∀ (v2159 : BitVec 32) (k1_hw197 : k1_chk197 v2159), ∀ a, (k1_off295 v2159) a + S1x64.size a ≤ S50000x64.size a := fun v2159 k1_hw197 => k1_hw197

def k1_off296 (v2160 : BitVec 32) : Fin 2 → Nat :=
  let v2164 : Index := Scalar.indexCast v2160
  let c0_688 : Index := 0#32
  ![v2164.toNat, 0]

def k1_off297 (v2160 : BitVec 32) : Fin 2 → Nat :=
  let v2172 : Index := Scalar.indexCast v2160
  let c0_690 : Index := 0#32
  ![v2172.toNat, 0]

def k1_chk198 (v2160 : BitVec 32) : Prop :=
  (∀ a, (k1_off296 v2160) a + S1x64.size a ≤ S16384x64.size a) ∧
  (∀ a, (k1_off297 v2160) a + S1x1.size a ≤ S16384x1.size a)
instance k1_chk198.dec : ∀ (v2160 : BitVec 32), Decidable (k1_chk198 v2160) := fun v2160 => decidable_of_iff' _ (Iff.of_eq (k1_chk198.eq_1 v2160))
theorem k1_off296_inb : ∀ (v2160 : BitVec 32) (k1_hw198 : k1_chk198 v2160), ∀ a, (k1_off296 v2160) a + S1x64.size a ≤ S16384x64.size a := fun v2160 k1_hw198 => k1_hw198.1
theorem k1_off297_inb : ∀ (v2160 : BitVec 32) (k1_hw198 : k1_chk198 v2160), ∀ a, (k1_off297 v2160) a + S1x1.size a ≤ S16384x1.size a := fun v2160 k1_hw198 => k1_hw198.2

def k1_off298 (v2181 : BitVec 32) : Fin 2 → Nat :=
  let v2183 : Index := Scalar.indexCast v2181
  let c0_694 : Index := 0#32
  ![v2183.toNat, 0]

def k1_chk199 (v2181 : BitVec 32) : Prop :=
  (∀ a, (k1_off298 v2181) a + S1x64.size a ≤ S50000x64.size a)
instance k1_chk199.dec : ∀ (v2181 : BitVec 32), Decidable (k1_chk199 v2181) := fun v2181 => decidable_of_iff' _ (Iff.of_eq (k1_chk199.eq_1 v2181))
theorem k1_off298_inb : ∀ (v2181 : BitVec 32) (k1_hw199 : k1_chk199 v2181), ∀ a, (k1_off298 v2181) a + S1x64.size a ≤ S50000x64.size a := fun v2181 k1_hw199 => k1_hw199

def k1_off299 (v2182 : BitVec 32) : Fin 2 → Nat :=
  let v2186 : Index := Scalar.indexCast v2182
  let c0_695 : Index := 0#32
  ![v2186.toNat, 0]

def k1_off300 (v2182 : BitVec 32) : Fin 2 → Nat :=
  let v2194 : Index := Scalar.indexCast v2182
  let c0_697 : Index := 0#32
  ![v2194.toNat, 0]

def k1_chk200 (v2182 : BitVec 32) : Prop :=
  (∀ a, (k1_off299 v2182) a + S1x64.size a ≤ S16384x64.size a) ∧
  (∀ a, (k1_off300 v2182) a + S1x1.size a ≤ S16384x1.size a)
instance k1_chk200.dec : ∀ (v2182 : BitVec 32), Decidable (k1_chk200 v2182) := fun v2182 => decidable_of_iff' _ (Iff.of_eq (k1_chk200.eq_1 v2182))
theorem k1_off299_inb : ∀ (v2182 : BitVec 32) (k1_hw200 : k1_chk200 v2182), ∀ a, (k1_off299 v2182) a + S1x64.size a ≤ S16384x64.size a := fun v2182 k1_hw200 => k1_hw200.1
theorem k1_off300_inb : ∀ (v2182 : BitVec 32) (k1_hw200 : k1_chk200 v2182), ∀ a, (k1_off300 v2182) a + S1x1.size a ≤ S16384x1.size a := fun v2182 k1_hw200 => k1_hw200.2

def k1_off301 (v2203 : BitVec 32) : Fin 2 → Nat :=
  let v2205 : Index := Scalar.indexCast v2203
  let c0_701 : Index := 0#32
  ![v2205.toNat, 0]

def k1_chk201 (v2203 : BitVec 32) : Prop :=
  (∀ a, (k1_off301 v2203) a + S1x64.size a ≤ S50000x64.size a)
instance k1_chk201.dec : ∀ (v2203 : BitVec 32), Decidable (k1_chk201 v2203) := fun v2203 => decidable_of_iff' _ (Iff.of_eq (k1_chk201.eq_1 v2203))
theorem k1_off301_inb : ∀ (v2203 : BitVec 32) (k1_hw201 : k1_chk201 v2203), ∀ a, (k1_off301 v2203) a + S1x64.size a ≤ S50000x64.size a := fun v2203 k1_hw201 => k1_hw201

def k1_off302 (v2204 : BitVec 32) : Fin 2 → Nat :=
  let v2208 : Index := Scalar.indexCast v2204
  let c0_702 : Index := 0#32
  ![v2208.toNat, 0]

def k1_off303 (v2204 : BitVec 32) : Fin 2 → Nat :=
  let v2216 : Index := Scalar.indexCast v2204
  let c0_704 : Index := 0#32
  ![v2216.toNat, 0]

def k1_chk202 (v2204 : BitVec 32) : Prop :=
  (∀ a, (k1_off302 v2204) a + S1x64.size a ≤ S16384x64.size a) ∧
  (∀ a, (k1_off303 v2204) a + S1x1.size a ≤ S16384x1.size a)
instance k1_chk202.dec : ∀ (v2204 : BitVec 32), Decidable (k1_chk202 v2204) := fun v2204 => decidable_of_iff' _ (Iff.of_eq (k1_chk202.eq_1 v2204))
theorem k1_off302_inb : ∀ (v2204 : BitVec 32) (k1_hw202 : k1_chk202 v2204), ∀ a, (k1_off302 v2204) a + S1x64.size a ≤ S16384x64.size a := fun v2204 k1_hw202 => k1_hw202.1
theorem k1_off303_inb : ∀ (v2204 : BitVec 32) (k1_hw202 : k1_chk202 v2204), ∀ a, (k1_off303 v2204) a + S1x1.size a ≤ S16384x1.size a := fun v2204 k1_hw202 => k1_hw202.2

def k1_off304 (v2225 : BitVec 32) : Fin 2 → Nat :=
  let v2227 : Index := Scalar.indexCast v2225
  let c0_708 : Index := 0#32
  ![v2227.toNat, 0]

def k1_chk203 (v2225 : BitVec 32) : Prop :=
  (∀ a, (k1_off304 v2225) a + S1x64.size a ≤ S50000x64.size a)
instance k1_chk203.dec : ∀ (v2225 : BitVec 32), Decidable (k1_chk203 v2225) := fun v2225 => decidable_of_iff' _ (Iff.of_eq (k1_chk203.eq_1 v2225))
theorem k1_off304_inb : ∀ (v2225 : BitVec 32) (k1_hw203 : k1_chk203 v2225), ∀ a, (k1_off304 v2225) a + S1x64.size a ≤ S50000x64.size a := fun v2225 k1_hw203 => k1_hw203

def k1_off305 (v2226 : BitVec 32) : Fin 2 → Nat :=
  let v2230 : Index := Scalar.indexCast v2226
  let c0_709 : Index := 0#32
  ![v2230.toNat, 0]

def k1_off306 (v2226 : BitVec 32) : Fin 2 → Nat :=
  let v2238 : Index := Scalar.indexCast v2226
  let c0_711 : Index := 0#32
  ![v2238.toNat, 0]

def k1_chk204 (v2226 : BitVec 32) : Prop :=
  (∀ a, (k1_off305 v2226) a + S1x64.size a ≤ S16384x64.size a) ∧
  (∀ a, (k1_off306 v2226) a + S1x1.size a ≤ S16384x1.size a)
instance k1_chk204.dec : ∀ (v2226 : BitVec 32), Decidable (k1_chk204 v2226) := fun v2226 => decidable_of_iff' _ (Iff.of_eq (k1_chk204.eq_1 v2226))
theorem k1_off305_inb : ∀ (v2226 : BitVec 32) (k1_hw204 : k1_chk204 v2226), ∀ a, (k1_off305 v2226) a + S1x64.size a ≤ S16384x64.size a := fun v2226 k1_hw204 => k1_hw204.1
theorem k1_off306_inb : ∀ (v2226 : BitVec 32) (k1_hw204 : k1_chk204 v2226), ∀ a, (k1_off306 v2226) a + S1x1.size a ≤ S16384x1.size a := fun v2226 k1_hw204 => k1_hw204.2

def k1_off307 (v2247 : BitVec 32) : Fin 2 → Nat :=
  let v2249 : Index := Scalar.indexCast v2247
  let c0_715 : Index := 0#32
  ![v2249.toNat, 0]

def k1_chk205 (v2247 : BitVec 32) : Prop :=
  (∀ a, (k1_off307 v2247) a + S1x64.size a ≤ S50000x64.size a)
instance k1_chk205.dec : ∀ (v2247 : BitVec 32), Decidable (k1_chk205 v2247) := fun v2247 => decidable_of_iff' _ (Iff.of_eq (k1_chk205.eq_1 v2247))
theorem k1_off307_inb : ∀ (v2247 : BitVec 32) (k1_hw205 : k1_chk205 v2247), ∀ a, (k1_off307 v2247) a + S1x64.size a ≤ S50000x64.size a := fun v2247 k1_hw205 => k1_hw205

def k1_off308 (v2248 : BitVec 32) : Fin 2 → Nat :=
  let v2252 : Index := Scalar.indexCast v2248
  let c0_716 : Index := 0#32
  ![v2252.toNat, 0]

def k1_off309 (v2248 : BitVec 32) : Fin 2 → Nat :=
  let v2260 : Index := Scalar.indexCast v2248
  let c0_718 : Index := 0#32
  ![v2260.toNat, 0]

def k1_chk206 (v2248 : BitVec 32) : Prop :=
  (∀ a, (k1_off308 v2248) a + S1x64.size a ≤ S16384x64.size a) ∧
  (∀ a, (k1_off309 v2248) a + S1x1.size a ≤ S16384x1.size a)
instance k1_chk206.dec : ∀ (v2248 : BitVec 32), Decidable (k1_chk206 v2248) := fun v2248 => decidable_of_iff' _ (Iff.of_eq (k1_chk206.eq_1 v2248))
theorem k1_off308_inb : ∀ (v2248 : BitVec 32) (k1_hw206 : k1_chk206 v2248), ∀ a, (k1_off308 v2248) a + S1x64.size a ≤ S16384x64.size a := fun v2248 k1_hw206 => k1_hw206.1
theorem k1_off309_inb : ∀ (v2248 : BitVec 32) (k1_hw206 : k1_chk206 v2248), ∀ a, (k1_off309 v2248) a + S1x1.size a ≤ S16384x1.size a := fun v2248 k1_hw206 => k1_hw206.2

def k1_off310 (v2269 : BitVec 32) : Fin 2 → Nat :=
  let v2271 : Index := Scalar.indexCast v2269
  let c0_722 : Index := 0#32
  ![v2271.toNat, 0]

def k1_chk207 (v2269 : BitVec 32) : Prop :=
  (∀ a, (k1_off310 v2269) a + S1x64.size a ≤ S50000x64.size a)
instance k1_chk207.dec : ∀ (v2269 : BitVec 32), Decidable (k1_chk207 v2269) := fun v2269 => decidable_of_iff' _ (Iff.of_eq (k1_chk207.eq_1 v2269))
theorem k1_off310_inb : ∀ (v2269 : BitVec 32) (k1_hw207 : k1_chk207 v2269), ∀ a, (k1_off310 v2269) a + S1x64.size a ≤ S50000x64.size a := fun v2269 k1_hw207 => k1_hw207

def k1_off311 (v2270 : BitVec 32) : Fin 2 → Nat :=
  let v2274 : Index := Scalar.indexCast v2270
  let c0_723 : Index := 0#32
  ![v2274.toNat, 0]

def k1_off312 (v2270 : BitVec 32) : Fin 2 → Nat :=
  let v2282 : Index := Scalar.indexCast v2270
  let c0_725 : Index := 0#32
  ![v2282.toNat, 0]

def k1_chk208 (v2270 : BitVec 32) : Prop :=
  (∀ a, (k1_off311 v2270) a + S1x64.size a ≤ S16384x64.size a) ∧
  (∀ a, (k1_off312 v2270) a + S1x1.size a ≤ S16384x1.size a)
instance k1_chk208.dec : ∀ (v2270 : BitVec 32), Decidable (k1_chk208 v2270) := fun v2270 => decidable_of_iff' _ (Iff.of_eq (k1_chk208.eq_1 v2270))
theorem k1_off311_inb : ∀ (v2270 : BitVec 32) (k1_hw208 : k1_chk208 v2270), ∀ a, (k1_off311 v2270) a + S1x64.size a ≤ S16384x64.size a := fun v2270 k1_hw208 => k1_hw208.1
theorem k1_off312_inb : ∀ (v2270 : BitVec 32) (k1_hw208 : k1_chk208 v2270), ∀ a, (k1_off312 v2270) a + S1x1.size a ≤ S16384x1.size a := fun v2270 k1_hw208 => k1_hw208.2

def k1_off313 (v2291 : BitVec 32) : Fin 2 → Nat :=
  let v2293 : Index := Scalar.indexCast v2291
  let c0_729 : Index := 0#32
  ![v2293.toNat, 0]

def k1_chk209 (v2291 : BitVec 32) : Prop :=
  (∀ a, (k1_off313 v2291) a + S1x64.size a ≤ S50000x64.size a)
instance k1_chk209.dec : ∀ (v2291 : BitVec 32), Decidable (k1_chk209 v2291) := fun v2291 => decidable_of_iff' _ (Iff.of_eq (k1_chk209.eq_1 v2291))
theorem k1_off313_inb : ∀ (v2291 : BitVec 32) (k1_hw209 : k1_chk209 v2291), ∀ a, (k1_off313 v2291) a + S1x64.size a ≤ S50000x64.size a := fun v2291 k1_hw209 => k1_hw209

def k1_off314 (v2292 : BitVec 32) : Fin 2 → Nat :=
  let v2296 : Index := Scalar.indexCast v2292
  let c0_730 : Index := 0#32
  ![v2296.toNat, 0]

def k1_off315 (v2292 : BitVec 32) : Fin 2 → Nat :=
  let v2304 : Index := Scalar.indexCast v2292
  let c0_732 : Index := 0#32
  ![v2304.toNat, 0]

def k1_chk210 (v2292 : BitVec 32) : Prop :=
  (∀ a, (k1_off314 v2292) a + S1x64.size a ≤ S16384x64.size a) ∧
  (∀ a, (k1_off315 v2292) a + S1x1.size a ≤ S16384x1.size a)
instance k1_chk210.dec : ∀ (v2292 : BitVec 32), Decidable (k1_chk210 v2292) := fun v2292 => decidable_of_iff' _ (Iff.of_eq (k1_chk210.eq_1 v2292))
theorem k1_off314_inb : ∀ (v2292 : BitVec 32) (k1_hw210 : k1_chk210 v2292), ∀ a, (k1_off314 v2292) a + S1x64.size a ≤ S16384x64.size a := fun v2292 k1_hw210 => k1_hw210.1
theorem k1_off315_inb : ∀ (v2292 : BitVec 32) (k1_hw210 : k1_chk210 v2292), ∀ a, (k1_off315 v2292) a + S1x1.size a ≤ S16384x1.size a := fun v2292 k1_hw210 => k1_hw210.2

def k1_off316 (v2313 : BitVec 32) : Fin 2 → Nat :=
  let v2315 : Index := Scalar.indexCast v2313
  let c0_736 : Index := 0#32
  ![v2315.toNat, 0]

def k1_chk211 (v2313 : BitVec 32) : Prop :=
  (∀ a, (k1_off316 v2313) a + S1x64.size a ≤ S50000x64.size a)
instance k1_chk211.dec : ∀ (v2313 : BitVec 32), Decidable (k1_chk211 v2313) := fun v2313 => decidable_of_iff' _ (Iff.of_eq (k1_chk211.eq_1 v2313))
theorem k1_off316_inb : ∀ (v2313 : BitVec 32) (k1_hw211 : k1_chk211 v2313), ∀ a, (k1_off316 v2313) a + S1x64.size a ≤ S50000x64.size a := fun v2313 k1_hw211 => k1_hw211

def k1_off317 (v2314 : BitVec 32) : Fin 2 → Nat :=
  let v2318 : Index := Scalar.indexCast v2314
  let c0_737 : Index := 0#32
  ![v2318.toNat, 0]

def k1_off318 (v2314 : BitVec 32) : Fin 2 → Nat :=
  let v2326 : Index := Scalar.indexCast v2314
  let c0_739 : Index := 0#32
  ![v2326.toNat, 0]

def k1_chk212 (v2314 : BitVec 32) : Prop :=
  (∀ a, (k1_off317 v2314) a + S1x64.size a ≤ S16384x64.size a) ∧
  (∀ a, (k1_off318 v2314) a + S1x1.size a ≤ S16384x1.size a)
instance k1_chk212.dec : ∀ (v2314 : BitVec 32), Decidable (k1_chk212 v2314) := fun v2314 => decidable_of_iff' _ (Iff.of_eq (k1_chk212.eq_1 v2314))
theorem k1_off317_inb : ∀ (v2314 : BitVec 32) (k1_hw212 : k1_chk212 v2314), ∀ a, (k1_off317 v2314) a + S1x64.size a ≤ S16384x64.size a := fun v2314 k1_hw212 => k1_hw212.1
theorem k1_off318_inb : ∀ (v2314 : BitVec 32) (k1_hw212 : k1_chk212 v2314), ∀ a, (k1_off318 v2314) a + S1x1.size a ≤ S16384x1.size a := fun v2314 k1_hw212 => k1_hw212.2

def k1_off319 (v2335 : BitVec 32) : Fin 2 → Nat :=
  let v2337 : Index := Scalar.indexCast v2335
  let c0_743 : Index := 0#32
  ![v2337.toNat, 0]

def k1_chk213 (v2335 : BitVec 32) : Prop :=
  (∀ a, (k1_off319 v2335) a + S1x64.size a ≤ S50000x64.size a)
instance k1_chk213.dec : ∀ (v2335 : BitVec 32), Decidable (k1_chk213 v2335) := fun v2335 => decidable_of_iff' _ (Iff.of_eq (k1_chk213.eq_1 v2335))
theorem k1_off319_inb : ∀ (v2335 : BitVec 32) (k1_hw213 : k1_chk213 v2335), ∀ a, (k1_off319 v2335) a + S1x64.size a ≤ S50000x64.size a := fun v2335 k1_hw213 => k1_hw213

def k1_off320 (v2336 : BitVec 32) : Fin 2 → Nat :=
  let v2340 : Index := Scalar.indexCast v2336
  let c0_744 : Index := 0#32
  ![v2340.toNat, 0]

def k1_off321 (v2336 : BitVec 32) : Fin 2 → Nat :=
  let v2348 : Index := Scalar.indexCast v2336
  let c0_746 : Index := 0#32
  ![v2348.toNat, 0]

def k1_chk214 (v2336 : BitVec 32) : Prop :=
  (∀ a, (k1_off320 v2336) a + S1x64.size a ≤ S16384x64.size a) ∧
  (∀ a, (k1_off321 v2336) a + S1x1.size a ≤ S16384x1.size a)
instance k1_chk214.dec : ∀ (v2336 : BitVec 32), Decidable (k1_chk214 v2336) := fun v2336 => decidable_of_iff' _ (Iff.of_eq (k1_chk214.eq_1 v2336))
theorem k1_off320_inb : ∀ (v2336 : BitVec 32) (k1_hw214 : k1_chk214 v2336), ∀ a, (k1_off320 v2336) a + S1x64.size a ≤ S16384x64.size a := fun v2336 k1_hw214 => k1_hw214.1
theorem k1_off321_inb : ∀ (v2336 : BitVec 32) (k1_hw214 : k1_chk214 v2336), ∀ a, (k1_off321 v2336) a + S1x1.size a ≤ S16384x1.size a := fun v2336 k1_hw214 => k1_hw214.2

def k1_off322 (v2357 : BitVec 32) : Fin 2 → Nat :=
  let v2359 : Index := Scalar.indexCast v2357
  let c0_750 : Index := 0#32
  ![v2359.toNat, 0]

def k1_chk215 (v2357 : BitVec 32) : Prop :=
  (∀ a, (k1_off322 v2357) a + S1x64.size a ≤ S50000x64.size a)
instance k1_chk215.dec : ∀ (v2357 : BitVec 32), Decidable (k1_chk215 v2357) := fun v2357 => decidable_of_iff' _ (Iff.of_eq (k1_chk215.eq_1 v2357))
theorem k1_off322_inb : ∀ (v2357 : BitVec 32) (k1_hw215 : k1_chk215 v2357), ∀ a, (k1_off322 v2357) a + S1x64.size a ≤ S50000x64.size a := fun v2357 k1_hw215 => k1_hw215

def k1_off323 (v2358 : BitVec 32) : Fin 2 → Nat :=
  let v2362 : Index := Scalar.indexCast v2358
  let c0_751 : Index := 0#32
  ![v2362.toNat, 0]

def k1_off324 (v2358 : BitVec 32) : Fin 2 → Nat :=
  let v2370 : Index := Scalar.indexCast v2358
  let c0_753 : Index := 0#32
  ![v2370.toNat, 0]

def k1_chk216 (v2358 : BitVec 32) : Prop :=
  (∀ a, (k1_off323 v2358) a + S1x64.size a ≤ S16384x64.size a) ∧
  (∀ a, (k1_off324 v2358) a + S1x1.size a ≤ S16384x1.size a)
instance k1_chk216.dec : ∀ (v2358 : BitVec 32), Decidable (k1_chk216 v2358) := fun v2358 => decidable_of_iff' _ (Iff.of_eq (k1_chk216.eq_1 v2358))
theorem k1_off323_inb : ∀ (v2358 : BitVec 32) (k1_hw216 : k1_chk216 v2358), ∀ a, (k1_off323 v2358) a + S1x64.size a ≤ S16384x64.size a := fun v2358 k1_hw216 => k1_hw216.1
theorem k1_off324_inb : ∀ (v2358 : BitVec 32) (k1_hw216 : k1_chk216 v2358), ∀ a, (k1_off324 v2358) a + S1x1.size a ≤ S16384x1.size a := fun v2358 k1_hw216 => k1_hw216.2

def k1_off325 (v2379 : BitVec 32) : Fin 2 → Nat :=
  let v2381 : Index := Scalar.indexCast v2379
  let c0_757 : Index := 0#32
  ![v2381.toNat, 0]

def k1_chk217 (v2379 : BitVec 32) : Prop :=
  (∀ a, (k1_off325 v2379) a + S1x64.size a ≤ S50000x64.size a)
instance k1_chk217.dec : ∀ (v2379 : BitVec 32), Decidable (k1_chk217 v2379) := fun v2379 => decidable_of_iff' _ (Iff.of_eq (k1_chk217.eq_1 v2379))
theorem k1_off325_inb : ∀ (v2379 : BitVec 32) (k1_hw217 : k1_chk217 v2379), ∀ a, (k1_off325 v2379) a + S1x64.size a ≤ S50000x64.size a := fun v2379 k1_hw217 => k1_hw217

def k1_off326 (v2380 : BitVec 32) : Fin 2 → Nat :=
  let v2384 : Index := Scalar.indexCast v2380
  let c0_758 : Index := 0#32
  ![v2384.toNat, 0]

def k1_off327 (v2380 : BitVec 32) : Fin 2 → Nat :=
  let v2392 : Index := Scalar.indexCast v2380
  let c0_760 : Index := 0#32
  ![v2392.toNat, 0]

def k1_chk218 (v2380 : BitVec 32) : Prop :=
  (∀ a, (k1_off326 v2380) a + S1x64.size a ≤ S16384x64.size a) ∧
  (∀ a, (k1_off327 v2380) a + S1x1.size a ≤ S16384x1.size a)
instance k1_chk218.dec : ∀ (v2380 : BitVec 32), Decidable (k1_chk218 v2380) := fun v2380 => decidable_of_iff' _ (Iff.of_eq (k1_chk218.eq_1 v2380))
theorem k1_off326_inb : ∀ (v2380 : BitVec 32) (k1_hw218 : k1_chk218 v2380), ∀ a, (k1_off326 v2380) a + S1x64.size a ≤ S16384x64.size a := fun v2380 k1_hw218 => k1_hw218.1
theorem k1_off327_inb : ∀ (v2380 : BitVec 32) (k1_hw218 : k1_chk218 v2380), ∀ a, (k1_off327 v2380) a + S1x1.size a ≤ S16384x1.size a := fun v2380 k1_hw218 => k1_hw218.2

def k1_off328 (v2401 : BitVec 32) : Fin 2 → Nat :=
  let v2403 : Index := Scalar.indexCast v2401
  let c0_764 : Index := 0#32
  ![v2403.toNat, 0]

def k1_chk219 (v2401 : BitVec 32) : Prop :=
  (∀ a, (k1_off328 v2401) a + S1x64.size a ≤ S50000x64.size a)
instance k1_chk219.dec : ∀ (v2401 : BitVec 32), Decidable (k1_chk219 v2401) := fun v2401 => decidable_of_iff' _ (Iff.of_eq (k1_chk219.eq_1 v2401))
theorem k1_off328_inb : ∀ (v2401 : BitVec 32) (k1_hw219 : k1_chk219 v2401), ∀ a, (k1_off328 v2401) a + S1x64.size a ≤ S50000x64.size a := fun v2401 k1_hw219 => k1_hw219

def k1_off329 (v2402 : BitVec 32) : Fin 2 → Nat :=
  let v2406 : Index := Scalar.indexCast v2402
  let c0_765 : Index := 0#32
  ![v2406.toNat, 0]

def k1_off330 (v2402 : BitVec 32) : Fin 2 → Nat :=
  let v2414 : Index := Scalar.indexCast v2402
  let c0_767 : Index := 0#32
  ![v2414.toNat, 0]

def k1_chk220 (v2402 : BitVec 32) : Prop :=
  (∀ a, (k1_off329 v2402) a + S1x64.size a ≤ S16384x64.size a) ∧
  (∀ a, (k1_off330 v2402) a + S1x1.size a ≤ S16384x1.size a)
instance k1_chk220.dec : ∀ (v2402 : BitVec 32), Decidable (k1_chk220 v2402) := fun v2402 => decidable_of_iff' _ (Iff.of_eq (k1_chk220.eq_1 v2402))
theorem k1_off329_inb : ∀ (v2402 : BitVec 32) (k1_hw220 : k1_chk220 v2402), ∀ a, (k1_off329 v2402) a + S1x64.size a ≤ S16384x64.size a := fun v2402 k1_hw220 => k1_hw220.1
theorem k1_off330_inb : ∀ (v2402 : BitVec 32) (k1_hw220 : k1_chk220 v2402), ∀ a, (k1_off330 v2402) a + S1x1.size a ≤ S16384x1.size a := fun v2402 k1_hw220 => k1_hw220.2

def k1_off331 (v2423 : BitVec 32) : Fin 2 → Nat :=
  let v2425 : Index := Scalar.indexCast v2423
  let c0_771 : Index := 0#32
  ![v2425.toNat, 0]

def k1_chk221 (v2423 : BitVec 32) : Prop :=
  (∀ a, (k1_off331 v2423) a + S1x64.size a ≤ S50000x64.size a)
instance k1_chk221.dec : ∀ (v2423 : BitVec 32), Decidable (k1_chk221 v2423) := fun v2423 => decidable_of_iff' _ (Iff.of_eq (k1_chk221.eq_1 v2423))
theorem k1_off331_inb : ∀ (v2423 : BitVec 32) (k1_hw221 : k1_chk221 v2423), ∀ a, (k1_off331 v2423) a + S1x64.size a ≤ S50000x64.size a := fun v2423 k1_hw221 => k1_hw221

def k1_off332 (v2424 : BitVec 32) : Fin 2 → Nat :=
  let v2428 : Index := Scalar.indexCast v2424
  let c0_772 : Index := 0#32
  ![v2428.toNat, 0]

def k1_off333 (v2424 : BitVec 32) : Fin 2 → Nat :=
  let v2436 : Index := Scalar.indexCast v2424
  let c0_774 : Index := 0#32
  ![v2436.toNat, 0]

def k1_chk222 (v2424 : BitVec 32) : Prop :=
  (∀ a, (k1_off332 v2424) a + S1x64.size a ≤ S16384x64.size a) ∧
  (∀ a, (k1_off333 v2424) a + S1x1.size a ≤ S16384x1.size a)
instance k1_chk222.dec : ∀ (v2424 : BitVec 32), Decidable (k1_chk222 v2424) := fun v2424 => decidable_of_iff' _ (Iff.of_eq (k1_chk222.eq_1 v2424))
theorem k1_off332_inb : ∀ (v2424 : BitVec 32) (k1_hw222 : k1_chk222 v2424), ∀ a, (k1_off332 v2424) a + S1x64.size a ≤ S16384x64.size a := fun v2424 k1_hw222 => k1_hw222.1
theorem k1_off333_inb : ∀ (v2424 : BitVec 32) (k1_hw222 : k1_chk222 v2424), ∀ a, (k1_off333 v2424) a + S1x1.size a ≤ S16384x1.size a := fun v2424 k1_hw222 => k1_hw222.2

def k1_off334 (v2445 : BitVec 32) : Fin 2 → Nat :=
  let v2447 : Index := Scalar.indexCast v2445
  let c0_778 : Index := 0#32
  ![v2447.toNat, 0]

def k1_chk223 (v2445 : BitVec 32) : Prop :=
  (∀ a, (k1_off334 v2445) a + S1x64.size a ≤ S50000x64.size a)
instance k1_chk223.dec : ∀ (v2445 : BitVec 32), Decidable (k1_chk223 v2445) := fun v2445 => decidable_of_iff' _ (Iff.of_eq (k1_chk223.eq_1 v2445))
theorem k1_off334_inb : ∀ (v2445 : BitVec 32) (k1_hw223 : k1_chk223 v2445), ∀ a, (k1_off334 v2445) a + S1x64.size a ≤ S50000x64.size a := fun v2445 k1_hw223 => k1_hw223

def k1_off335 (v2446 : BitVec 32) : Fin 2 → Nat :=
  let v2450 : Index := Scalar.indexCast v2446
  let c0_779 : Index := 0#32
  ![v2450.toNat, 0]

def k1_off336 (v2446 : BitVec 32) : Fin 2 → Nat :=
  let v2458 : Index := Scalar.indexCast v2446
  let c0_781 : Index := 0#32
  ![v2458.toNat, 0]

def k1_chk224 (v2446 : BitVec 32) : Prop :=
  (∀ a, (k1_off335 v2446) a + S1x64.size a ≤ S16384x64.size a) ∧
  (∀ a, (k1_off336 v2446) a + S1x1.size a ≤ S16384x1.size a)
instance k1_chk224.dec : ∀ (v2446 : BitVec 32), Decidable (k1_chk224 v2446) := fun v2446 => decidable_of_iff' _ (Iff.of_eq (k1_chk224.eq_1 v2446))
theorem k1_off335_inb : ∀ (v2446 : BitVec 32) (k1_hw224 : k1_chk224 v2446), ∀ a, (k1_off335 v2446) a + S1x64.size a ≤ S16384x64.size a := fun v2446 k1_hw224 => k1_hw224.1
theorem k1_off336_inb : ∀ (v2446 : BitVec 32) (k1_hw224 : k1_chk224 v2446), ∀ a, (k1_off336 v2446) a + S1x1.size a ≤ S16384x1.size a := fun v2446 k1_hw224 => k1_hw224.2

def k1_off337 (v2467 : BitVec 32) : Fin 2 → Nat :=
  let v2469 : Index := Scalar.indexCast v2467
  let c0_785 : Index := 0#32
  ![v2469.toNat, 0]

def k1_chk225 (v2467 : BitVec 32) : Prop :=
  (∀ a, (k1_off337 v2467) a + S1x64.size a ≤ S50000x64.size a)
instance k1_chk225.dec : ∀ (v2467 : BitVec 32), Decidable (k1_chk225 v2467) := fun v2467 => decidable_of_iff' _ (Iff.of_eq (k1_chk225.eq_1 v2467))
theorem k1_off337_inb : ∀ (v2467 : BitVec 32) (k1_hw225 : k1_chk225 v2467), ∀ a, (k1_off337 v2467) a + S1x64.size a ≤ S50000x64.size a := fun v2467 k1_hw225 => k1_hw225

def k1_off338 (v2468 : BitVec 32) : Fin 2 → Nat :=
  let v2472 : Index := Scalar.indexCast v2468
  let c0_786 : Index := 0#32
  ![v2472.toNat, 0]

def k1_off339 (v2468 : BitVec 32) : Fin 2 → Nat :=
  let v2480 : Index := Scalar.indexCast v2468
  let c0_788 : Index := 0#32
  ![v2480.toNat, 0]

def k1_chk226 (v2468 : BitVec 32) : Prop :=
  (∀ a, (k1_off338 v2468) a + S1x64.size a ≤ S16384x64.size a) ∧
  (∀ a, (k1_off339 v2468) a + S1x1.size a ≤ S16384x1.size a)
instance k1_chk226.dec : ∀ (v2468 : BitVec 32), Decidable (k1_chk226 v2468) := fun v2468 => decidable_of_iff' _ (Iff.of_eq (k1_chk226.eq_1 v2468))
theorem k1_off338_inb : ∀ (v2468 : BitVec 32) (k1_hw226 : k1_chk226 v2468), ∀ a, (k1_off338 v2468) a + S1x64.size a ≤ S16384x64.size a := fun v2468 k1_hw226 => k1_hw226.1
theorem k1_off339_inb : ∀ (v2468 : BitVec 32) (k1_hw226 : k1_chk226 v2468), ∀ a, (k1_off339 v2468) a + S1x1.size a ≤ S16384x1.size a := fun v2468 k1_hw226 => k1_hw226.2

def k1_off340 (v2489 : BitVec 32) : Fin 2 → Nat :=
  let v2491 : Index := Scalar.indexCast v2489
  let c0_792 : Index := 0#32
  ![v2491.toNat, 0]

def k1_chk227 (v2489 : BitVec 32) : Prop :=
  (∀ a, (k1_off340 v2489) a + S1x64.size a ≤ S50000x64.size a)
instance k1_chk227.dec : ∀ (v2489 : BitVec 32), Decidable (k1_chk227 v2489) := fun v2489 => decidable_of_iff' _ (Iff.of_eq (k1_chk227.eq_1 v2489))
theorem k1_off340_inb : ∀ (v2489 : BitVec 32) (k1_hw227 : k1_chk227 v2489), ∀ a, (k1_off340 v2489) a + S1x64.size a ≤ S50000x64.size a := fun v2489 k1_hw227 => k1_hw227

def k1_off341 (v2490 : BitVec 32) : Fin 2 → Nat :=
  let v2494 : Index := Scalar.indexCast v2490
  let c0_793 : Index := 0#32
  ![v2494.toNat, 0]

def k1_off342 (v2490 : BitVec 32) : Fin 2 → Nat :=
  let v2502 : Index := Scalar.indexCast v2490
  let c0_795 : Index := 0#32
  ![v2502.toNat, 0]

def k1_chk228 (v2490 : BitVec 32) : Prop :=
  (∀ a, (k1_off341 v2490) a + S1x64.size a ≤ S16384x64.size a) ∧
  (∀ a, (k1_off342 v2490) a + S1x1.size a ≤ S16384x1.size a)
instance k1_chk228.dec : ∀ (v2490 : BitVec 32), Decidable (k1_chk228 v2490) := fun v2490 => decidable_of_iff' _ (Iff.of_eq (k1_chk228.eq_1 v2490))
theorem k1_off341_inb : ∀ (v2490 : BitVec 32) (k1_hw228 : k1_chk228 v2490), ∀ a, (k1_off341 v2490) a + S1x64.size a ≤ S16384x64.size a := fun v2490 k1_hw228 => k1_hw228.1
theorem k1_off342_inb : ∀ (v2490 : BitVec 32) (k1_hw228 : k1_chk228 v2490), ∀ a, (k1_off342 v2490) a + S1x1.size a ≤ S16384x1.size a := fun v2490 k1_hw228 => k1_hw228.2

def k1_off343 (v2511 : BitVec 32) : Fin 2 → Nat :=
  let v2513 : Index := Scalar.indexCast v2511
  let c0_799 : Index := 0#32
  ![v2513.toNat, 0]

def k1_chk229 (v2511 : BitVec 32) : Prop :=
  (∀ a, (k1_off343 v2511) a + S1x64.size a ≤ S50000x64.size a)
instance k1_chk229.dec : ∀ (v2511 : BitVec 32), Decidable (k1_chk229 v2511) := fun v2511 => decidable_of_iff' _ (Iff.of_eq (k1_chk229.eq_1 v2511))
theorem k1_off343_inb : ∀ (v2511 : BitVec 32) (k1_hw229 : k1_chk229 v2511), ∀ a, (k1_off343 v2511) a + S1x64.size a ≤ S50000x64.size a := fun v2511 k1_hw229 => k1_hw229

def k1_off344 (v2512 : BitVec 32) : Fin 2 → Nat :=
  let v2516 : Index := Scalar.indexCast v2512
  let c0_800 : Index := 0#32
  ![v2516.toNat, 0]

def k1_off345 (v2512 : BitVec 32) : Fin 2 → Nat :=
  let v2524 : Index := Scalar.indexCast v2512
  let c0_802 : Index := 0#32
  ![v2524.toNat, 0]

def k1_chk230 (v2512 : BitVec 32) : Prop :=
  (∀ a, (k1_off344 v2512) a + S1x64.size a ≤ S16384x64.size a) ∧
  (∀ a, (k1_off345 v2512) a + S1x1.size a ≤ S16384x1.size a)
instance k1_chk230.dec : ∀ (v2512 : BitVec 32), Decidable (k1_chk230 v2512) := fun v2512 => decidable_of_iff' _ (Iff.of_eq (k1_chk230.eq_1 v2512))
theorem k1_off344_inb : ∀ (v2512 : BitVec 32) (k1_hw230 : k1_chk230 v2512), ∀ a, (k1_off344 v2512) a + S1x64.size a ≤ S16384x64.size a := fun v2512 k1_hw230 => k1_hw230.1
theorem k1_off345_inb : ∀ (v2512 : BitVec 32) (k1_hw230 : k1_chk230 v2512), ∀ a, (k1_off345 v2512) a + S1x1.size a ≤ S16384x1.size a := fun v2512 k1_hw230 => k1_hw230.2

def k1_off346 (v2533 : BitVec 32) : Fin 2 → Nat :=
  let v2535 : Index := Scalar.indexCast v2533
  let c0_806 : Index := 0#32
  ![v2535.toNat, 0]

def k1_chk231 (v2533 : BitVec 32) : Prop :=
  (∀ a, (k1_off346 v2533) a + S1x64.size a ≤ S50000x64.size a)
instance k1_chk231.dec : ∀ (v2533 : BitVec 32), Decidable (k1_chk231 v2533) := fun v2533 => decidable_of_iff' _ (Iff.of_eq (k1_chk231.eq_1 v2533))
theorem k1_off346_inb : ∀ (v2533 : BitVec 32) (k1_hw231 : k1_chk231 v2533), ∀ a, (k1_off346 v2533) a + S1x64.size a ≤ S50000x64.size a := fun v2533 k1_hw231 => k1_hw231

def k1_off347 (v2534 : BitVec 32) : Fin 2 → Nat :=
  let v2538 : Index := Scalar.indexCast v2534
  let c0_807 : Index := 0#32
  ![v2538.toNat, 0]

def k1_off348 (v2534 : BitVec 32) : Fin 2 → Nat :=
  let v2546 : Index := Scalar.indexCast v2534
  let c0_809 : Index := 0#32
  ![v2546.toNat, 0]

def k1_chk232 (v2534 : BitVec 32) : Prop :=
  (∀ a, (k1_off347 v2534) a + S1x64.size a ≤ S16384x64.size a) ∧
  (∀ a, (k1_off348 v2534) a + S1x1.size a ≤ S16384x1.size a)
instance k1_chk232.dec : ∀ (v2534 : BitVec 32), Decidable (k1_chk232 v2534) := fun v2534 => decidable_of_iff' _ (Iff.of_eq (k1_chk232.eq_1 v2534))
theorem k1_off347_inb : ∀ (v2534 : BitVec 32) (k1_hw232 : k1_chk232 v2534), ∀ a, (k1_off347 v2534) a + S1x64.size a ≤ S16384x64.size a := fun v2534 k1_hw232 => k1_hw232.1
theorem k1_off348_inb : ∀ (v2534 : BitVec 32) (k1_hw232 : k1_chk232 v2534), ∀ a, (k1_off348 v2534) a + S1x1.size a ≤ S16384x1.size a := fun v2534 k1_hw232 => k1_hw232.2

def k1_off349 (v2555 : BitVec 32) : Fin 2 → Nat :=
  let v2557 : Index := Scalar.indexCast v2555
  let c0_813 : Index := 0#32
  ![v2557.toNat, 0]

def k1_chk233 (v2555 : BitVec 32) : Prop :=
  (∀ a, (k1_off349 v2555) a + S1x64.size a ≤ S50000x64.size a)
instance k1_chk233.dec : ∀ (v2555 : BitVec 32), Decidable (k1_chk233 v2555) := fun v2555 => decidable_of_iff' _ (Iff.of_eq (k1_chk233.eq_1 v2555))
theorem k1_off349_inb : ∀ (v2555 : BitVec 32) (k1_hw233 : k1_chk233 v2555), ∀ a, (k1_off349 v2555) a + S1x64.size a ≤ S50000x64.size a := fun v2555 k1_hw233 => k1_hw233

def k1_off350 (v2556 : BitVec 32) : Fin 2 → Nat :=
  let v2560 : Index := Scalar.indexCast v2556
  let c0_814 : Index := 0#32
  ![v2560.toNat, 0]

def k1_off351 (v2556 : BitVec 32) : Fin 2 → Nat :=
  let v2568 : Index := Scalar.indexCast v2556
  let c0_816 : Index := 0#32
  ![v2568.toNat, 0]

def k1_chk234 (v2556 : BitVec 32) : Prop :=
  (∀ a, (k1_off350 v2556) a + S1x64.size a ≤ S16384x64.size a) ∧
  (∀ a, (k1_off351 v2556) a + S1x1.size a ≤ S16384x1.size a)
instance k1_chk234.dec : ∀ (v2556 : BitVec 32), Decidable (k1_chk234 v2556) := fun v2556 => decidable_of_iff' _ (Iff.of_eq (k1_chk234.eq_1 v2556))
theorem k1_off350_inb : ∀ (v2556 : BitVec 32) (k1_hw234 : k1_chk234 v2556), ∀ a, (k1_off350 v2556) a + S1x64.size a ≤ S16384x64.size a := fun v2556 k1_hw234 => k1_hw234.1
theorem k1_off351_inb : ∀ (v2556 : BitVec 32) (k1_hw234 : k1_chk234 v2556), ∀ a, (k1_off351 v2556) a + S1x1.size a ≤ S16384x1.size a := fun v2556 k1_hw234 => k1_hw234.2

def k1_off352 (v2577 : BitVec 32) : Fin 2 → Nat :=
  let v2579 : Index := Scalar.indexCast v2577
  let c0_820 : Index := 0#32
  ![v2579.toNat, 0]

def k1_chk235 (v2577 : BitVec 32) : Prop :=
  (∀ a, (k1_off352 v2577) a + S1x64.size a ≤ S50000x64.size a)
instance k1_chk235.dec : ∀ (v2577 : BitVec 32), Decidable (k1_chk235 v2577) := fun v2577 => decidable_of_iff' _ (Iff.of_eq (k1_chk235.eq_1 v2577))
theorem k1_off352_inb : ∀ (v2577 : BitVec 32) (k1_hw235 : k1_chk235 v2577), ∀ a, (k1_off352 v2577) a + S1x64.size a ≤ S50000x64.size a := fun v2577 k1_hw235 => k1_hw235

def k1_off353 (v2578 : BitVec 32) : Fin 2 → Nat :=
  let v2582 : Index := Scalar.indexCast v2578
  let c0_821 : Index := 0#32
  ![v2582.toNat, 0]

def k1_off354 (v2578 : BitVec 32) : Fin 2 → Nat :=
  let v2590 : Index := Scalar.indexCast v2578
  let c0_823 : Index := 0#32
  ![v2590.toNat, 0]

def k1_chk236 (v2578 : BitVec 32) : Prop :=
  (∀ a, (k1_off353 v2578) a + S1x64.size a ≤ S16384x64.size a) ∧
  (∀ a, (k1_off354 v2578) a + S1x1.size a ≤ S16384x1.size a)
instance k1_chk236.dec : ∀ (v2578 : BitVec 32), Decidable (k1_chk236 v2578) := fun v2578 => decidable_of_iff' _ (Iff.of_eq (k1_chk236.eq_1 v2578))
theorem k1_off353_inb : ∀ (v2578 : BitVec 32) (k1_hw236 : k1_chk236 v2578), ∀ a, (k1_off353 v2578) a + S1x64.size a ≤ S16384x64.size a := fun v2578 k1_hw236 => k1_hw236.1
theorem k1_off354_inb : ∀ (v2578 : BitVec 32) (k1_hw236 : k1_chk236 v2578), ∀ a, (k1_off354 v2578) a + S1x1.size a ≤ S16384x1.size a := fun v2578 k1_hw236 => k1_hw236.2

def k1_off355 (v2599 : BitVec 32) : Fin 2 → Nat :=
  let v2601 : Index := Scalar.indexCast v2599
  let c0_827 : Index := 0#32
  ![v2601.toNat, 0]

def k1_chk237 (v2599 : BitVec 32) : Prop :=
  (∀ a, (k1_off355 v2599) a + S1x64.size a ≤ S50000x64.size a)
instance k1_chk237.dec : ∀ (v2599 : BitVec 32), Decidable (k1_chk237 v2599) := fun v2599 => decidable_of_iff' _ (Iff.of_eq (k1_chk237.eq_1 v2599))
theorem k1_off355_inb : ∀ (v2599 : BitVec 32) (k1_hw237 : k1_chk237 v2599), ∀ a, (k1_off355 v2599) a + S1x64.size a ≤ S50000x64.size a := fun v2599 k1_hw237 => k1_hw237

def k1_off356 (v2600 : BitVec 32) : Fin 2 → Nat :=
  let v2604 : Index := Scalar.indexCast v2600
  let c0_828 : Index := 0#32
  ![v2604.toNat, 0]

def k1_off357 (v2600 : BitVec 32) : Fin 2 → Nat :=
  let v2612 : Index := Scalar.indexCast v2600
  let c0_830 : Index := 0#32
  ![v2612.toNat, 0]

def k1_chk238 (v2600 : BitVec 32) : Prop :=
  (∀ a, (k1_off356 v2600) a + S1x64.size a ≤ S16384x64.size a) ∧
  (∀ a, (k1_off357 v2600) a + S1x1.size a ≤ S16384x1.size a)
instance k1_chk238.dec : ∀ (v2600 : BitVec 32), Decidable (k1_chk238 v2600) := fun v2600 => decidable_of_iff' _ (Iff.of_eq (k1_chk238.eq_1 v2600))
theorem k1_off356_inb : ∀ (v2600 : BitVec 32) (k1_hw238 : k1_chk238 v2600), ∀ a, (k1_off356 v2600) a + S1x64.size a ≤ S16384x64.size a := fun v2600 k1_hw238 => k1_hw238.1
theorem k1_off357_inb : ∀ (v2600 : BitVec 32) (k1_hw238 : k1_chk238 v2600), ∀ a, (k1_off357 v2600) a + S1x1.size a ≤ S16384x1.size a := fun v2600 k1_hw238 => k1_hw238.2

def k1_off358 (v2621 : BitVec 32) : Fin 2 → Nat :=
  let v2623 : Index := Scalar.indexCast v2621
  let c0_834 : Index := 0#32
  ![v2623.toNat, 0]

def k1_chk239 (v2621 : BitVec 32) : Prop :=
  (∀ a, (k1_off358 v2621) a + S1x64.size a ≤ S50000x64.size a)
instance k1_chk239.dec : ∀ (v2621 : BitVec 32), Decidable (k1_chk239 v2621) := fun v2621 => decidable_of_iff' _ (Iff.of_eq (k1_chk239.eq_1 v2621))
theorem k1_off358_inb : ∀ (v2621 : BitVec 32) (k1_hw239 : k1_chk239 v2621), ∀ a, (k1_off358 v2621) a + S1x64.size a ≤ S50000x64.size a := fun v2621 k1_hw239 => k1_hw239

def k1_off359 (v2622 : BitVec 32) : Fin 2 → Nat :=
  let v2626 : Index := Scalar.indexCast v2622
  let c0_835 : Index := 0#32
  ![v2626.toNat, 0]

def k1_off360 (v2622 : BitVec 32) : Fin 2 → Nat :=
  let v2634 : Index := Scalar.indexCast v2622
  let c0_837 : Index := 0#32
  ![v2634.toNat, 0]

def k1_chk240 (v2622 : BitVec 32) : Prop :=
  (∀ a, (k1_off359 v2622) a + S1x64.size a ≤ S16384x64.size a) ∧
  (∀ a, (k1_off360 v2622) a + S1x1.size a ≤ S16384x1.size a)
instance k1_chk240.dec : ∀ (v2622 : BitVec 32), Decidable (k1_chk240 v2622) := fun v2622 => decidable_of_iff' _ (Iff.of_eq (k1_chk240.eq_1 v2622))
theorem k1_off359_inb : ∀ (v2622 : BitVec 32) (k1_hw240 : k1_chk240 v2622), ∀ a, (k1_off359 v2622) a + S1x64.size a ≤ S16384x64.size a := fun v2622 k1_hw240 => k1_hw240.1
theorem k1_off360_inb : ∀ (v2622 : BitVec 32) (k1_hw240 : k1_chk240 v2622), ∀ a, (k1_off360 v2622) a + S1x1.size a ≤ S16384x1.size a := fun v2622 k1_hw240 => k1_hw240.2

def k1_off361 (v2643 : BitVec 32) : Fin 2 → Nat :=
  let v2645 : Index := Scalar.indexCast v2643
  let c0_841 : Index := 0#32
  ![v2645.toNat, 0]

def k1_chk241 (v2643 : BitVec 32) : Prop :=
  (∀ a, (k1_off361 v2643) a + S1x64.size a ≤ S50000x64.size a)
instance k1_chk241.dec : ∀ (v2643 : BitVec 32), Decidable (k1_chk241 v2643) := fun v2643 => decidable_of_iff' _ (Iff.of_eq (k1_chk241.eq_1 v2643))
theorem k1_off361_inb : ∀ (v2643 : BitVec 32) (k1_hw241 : k1_chk241 v2643), ∀ a, (k1_off361 v2643) a + S1x64.size a ≤ S50000x64.size a := fun v2643 k1_hw241 => k1_hw241

def k1_off362 (v2644 : BitVec 32) : Fin 2 → Nat :=
  let v2648 : Index := Scalar.indexCast v2644
  let c0_842 : Index := 0#32
  ![v2648.toNat, 0]

def k1_off363 (v2644 : BitVec 32) : Fin 2 → Nat :=
  let v2656 : Index := Scalar.indexCast v2644
  let c0_844 : Index := 0#32
  ![v2656.toNat, 0]

def k1_chk242 (v2644 : BitVec 32) : Prop :=
  (∀ a, (k1_off362 v2644) a + S1x64.size a ≤ S16384x64.size a) ∧
  (∀ a, (k1_off363 v2644) a + S1x1.size a ≤ S16384x1.size a)
instance k1_chk242.dec : ∀ (v2644 : BitVec 32), Decidable (k1_chk242 v2644) := fun v2644 => decidable_of_iff' _ (Iff.of_eq (k1_chk242.eq_1 v2644))
theorem k1_off362_inb : ∀ (v2644 : BitVec 32) (k1_hw242 : k1_chk242 v2644), ∀ a, (k1_off362 v2644) a + S1x64.size a ≤ S16384x64.size a := fun v2644 k1_hw242 => k1_hw242.1
theorem k1_off363_inb : ∀ (v2644 : BitVec 32) (k1_hw242 : k1_chk242 v2644), ∀ a, (k1_off363 v2644) a + S1x1.size a ≤ S16384x1.size a := fun v2644 k1_hw242 => k1_hw242.2

def k1_off364 (v2665 : BitVec 32) : Fin 2 → Nat :=
  let v2667 : Index := Scalar.indexCast v2665
  let c0_848 : Index := 0#32
  ![v2667.toNat, 0]

def k1_chk243 (v2665 : BitVec 32) : Prop :=
  (∀ a, (k1_off364 v2665) a + S1x64.size a ≤ S50000x64.size a)
instance k1_chk243.dec : ∀ (v2665 : BitVec 32), Decidable (k1_chk243 v2665) := fun v2665 => decidable_of_iff' _ (Iff.of_eq (k1_chk243.eq_1 v2665))
theorem k1_off364_inb : ∀ (v2665 : BitVec 32) (k1_hw243 : k1_chk243 v2665), ∀ a, (k1_off364 v2665) a + S1x64.size a ≤ S50000x64.size a := fun v2665 k1_hw243 => k1_hw243

def k1_off365 (v2666 : BitVec 32) : Fin 2 → Nat :=
  let v2670 : Index := Scalar.indexCast v2666
  let c0_849 : Index := 0#32
  ![v2670.toNat, 0]

def k1_off366 (v2666 : BitVec 32) : Fin 2 → Nat :=
  let v2678 : Index := Scalar.indexCast v2666
  let c0_851 : Index := 0#32
  ![v2678.toNat, 0]

def k1_chk244 (v2666 : BitVec 32) : Prop :=
  (∀ a, (k1_off365 v2666) a + S1x64.size a ≤ S16384x64.size a) ∧
  (∀ a, (k1_off366 v2666) a + S1x1.size a ≤ S16384x1.size a)
instance k1_chk244.dec : ∀ (v2666 : BitVec 32), Decidable (k1_chk244 v2666) := fun v2666 => decidable_of_iff' _ (Iff.of_eq (k1_chk244.eq_1 v2666))
theorem k1_off365_inb : ∀ (v2666 : BitVec 32) (k1_hw244 : k1_chk244 v2666), ∀ a, (k1_off365 v2666) a + S1x64.size a ≤ S16384x64.size a := fun v2666 k1_hw244 => k1_hw244.1
theorem k1_off366_inb : ∀ (v2666 : BitVec 32) (k1_hw244 : k1_chk244 v2666), ∀ a, (k1_off366 v2666) a + S1x1.size a ≤ S16384x1.size a := fun v2666 k1_hw244 => k1_hw244.2

def k1_off367 (v2687 : BitVec 32) : Fin 2 → Nat :=
  let v2689 : Index := Scalar.indexCast v2687
  let c0_855 : Index := 0#32
  ![v2689.toNat, 0]

def k1_chk245 (v2687 : BitVec 32) : Prop :=
  (∀ a, (k1_off367 v2687) a + S1x64.size a ≤ S50000x64.size a)
instance k1_chk245.dec : ∀ (v2687 : BitVec 32), Decidable (k1_chk245 v2687) := fun v2687 => decidable_of_iff' _ (Iff.of_eq (k1_chk245.eq_1 v2687))
theorem k1_off367_inb : ∀ (v2687 : BitVec 32) (k1_hw245 : k1_chk245 v2687), ∀ a, (k1_off367 v2687) a + S1x64.size a ≤ S50000x64.size a := fun v2687 k1_hw245 => k1_hw245

def k1_off368 (v2688 : BitVec 32) : Fin 2 → Nat :=
  let v2692 : Index := Scalar.indexCast v2688
  let c0_856 : Index := 0#32
  ![v2692.toNat, 0]

def k1_off369 (v2688 : BitVec 32) : Fin 2 → Nat :=
  let v2700 : Index := Scalar.indexCast v2688
  let c0_858 : Index := 0#32
  ![v2700.toNat, 0]

def k1_chk246 (v2688 : BitVec 32) : Prop :=
  (∀ a, (k1_off368 v2688) a + S1x64.size a ≤ S16384x64.size a) ∧
  (∀ a, (k1_off369 v2688) a + S1x1.size a ≤ S16384x1.size a)
instance k1_chk246.dec : ∀ (v2688 : BitVec 32), Decidable (k1_chk246 v2688) := fun v2688 => decidable_of_iff' _ (Iff.of_eq (k1_chk246.eq_1 v2688))
theorem k1_off368_inb : ∀ (v2688 : BitVec 32) (k1_hw246 : k1_chk246 v2688), ∀ a, (k1_off368 v2688) a + S1x64.size a ≤ S16384x64.size a := fun v2688 k1_hw246 => k1_hw246.1
theorem k1_off369_inb : ∀ (v2688 : BitVec 32) (k1_hw246 : k1_chk246 v2688), ∀ a, (k1_off369 v2688) a + S1x1.size a ≤ S16384x1.size a := fun v2688 k1_hw246 => k1_hw246.2

def k1_off370 (v2709 : BitVec 32) : Fin 2 → Nat :=
  let v2711 : Index := Scalar.indexCast v2709
  let c0_862 : Index := 0#32
  ![v2711.toNat, 0]

def k1_chk247 (v2709 : BitVec 32) : Prop :=
  (∀ a, (k1_off370 v2709) a + S1x64.size a ≤ S50000x64.size a)
instance k1_chk247.dec : ∀ (v2709 : BitVec 32), Decidable (k1_chk247 v2709) := fun v2709 => decidable_of_iff' _ (Iff.of_eq (k1_chk247.eq_1 v2709))
theorem k1_off370_inb : ∀ (v2709 : BitVec 32) (k1_hw247 : k1_chk247 v2709), ∀ a, (k1_off370 v2709) a + S1x64.size a ≤ S50000x64.size a := fun v2709 k1_hw247 => k1_hw247

def k1_off371 (v2710 : BitVec 32) : Fin 2 → Nat :=
  let v2714 : Index := Scalar.indexCast v2710
  let c0_863 : Index := 0#32
  ![v2714.toNat, 0]

def k1_off372 (v2710 : BitVec 32) : Fin 2 → Nat :=
  let v2722 : Index := Scalar.indexCast v2710
  let c0_865 : Index := 0#32
  ![v2722.toNat, 0]

def k1_chk248 (v2710 : BitVec 32) : Prop :=
  (∀ a, (k1_off371 v2710) a + S1x64.size a ≤ S16384x64.size a) ∧
  (∀ a, (k1_off372 v2710) a + S1x1.size a ≤ S16384x1.size a)
instance k1_chk248.dec : ∀ (v2710 : BitVec 32), Decidable (k1_chk248 v2710) := fun v2710 => decidable_of_iff' _ (Iff.of_eq (k1_chk248.eq_1 v2710))
theorem k1_off371_inb : ∀ (v2710 : BitVec 32) (k1_hw248 : k1_chk248 v2710), ∀ a, (k1_off371 v2710) a + S1x64.size a ≤ S16384x64.size a := fun v2710 k1_hw248 => k1_hw248.1
theorem k1_off372_inb : ∀ (v2710 : BitVec 32) (k1_hw248 : k1_chk248 v2710), ∀ a, (k1_off372 v2710) a + S1x1.size a ≤ S16384x1.size a := fun v2710 k1_hw248 => k1_hw248.2

def k1_off373 (v2731 : BitVec 32) : Fin 2 → Nat :=
  let v2733 : Index := Scalar.indexCast v2731
  let c0_869 : Index := 0#32
  ![v2733.toNat, 0]

def k1_chk249 (v2731 : BitVec 32) : Prop :=
  (∀ a, (k1_off373 v2731) a + S1x64.size a ≤ S50000x64.size a)
instance k1_chk249.dec : ∀ (v2731 : BitVec 32), Decidable (k1_chk249 v2731) := fun v2731 => decidable_of_iff' _ (Iff.of_eq (k1_chk249.eq_1 v2731))
theorem k1_off373_inb : ∀ (v2731 : BitVec 32) (k1_hw249 : k1_chk249 v2731), ∀ a, (k1_off373 v2731) a + S1x64.size a ≤ S50000x64.size a := fun v2731 k1_hw249 => k1_hw249

def k1_off374 (v2732 : BitVec 32) : Fin 2 → Nat :=
  let v2736 : Index := Scalar.indexCast v2732
  let c0_870 : Index := 0#32
  ![v2736.toNat, 0]

def k1_off375 (v2732 : BitVec 32) : Fin 2 → Nat :=
  let v2744 : Index := Scalar.indexCast v2732
  let c0_872 : Index := 0#32
  ![v2744.toNat, 0]

def k1_chk250 (v2732 : BitVec 32) : Prop :=
  (∀ a, (k1_off374 v2732) a + S1x64.size a ≤ S16384x64.size a) ∧
  (∀ a, (k1_off375 v2732) a + S1x1.size a ≤ S16384x1.size a)
instance k1_chk250.dec : ∀ (v2732 : BitVec 32), Decidable (k1_chk250 v2732) := fun v2732 => decidable_of_iff' _ (Iff.of_eq (k1_chk250.eq_1 v2732))
theorem k1_off374_inb : ∀ (v2732 : BitVec 32) (k1_hw250 : k1_chk250 v2732), ∀ a, (k1_off374 v2732) a + S1x64.size a ≤ S16384x64.size a := fun v2732 k1_hw250 => k1_hw250.1
theorem k1_off375_inb : ∀ (v2732 : BitVec 32) (k1_hw250 : k1_chk250 v2732), ∀ a, (k1_off375 v2732) a + S1x1.size a ≤ S16384x1.size a := fun v2732 k1_hw250 => k1_hw250.2

def k1_off376 (v2753 : BitVec 32) : Fin 2 → Nat :=
  let v2755 : Index := Scalar.indexCast v2753
  let c0_876 : Index := 0#32
  ![v2755.toNat, 0]

def k1_chk251 (v2753 : BitVec 32) : Prop :=
  (∀ a, (k1_off376 v2753) a + S1x64.size a ≤ S50000x64.size a)
instance k1_chk251.dec : ∀ (v2753 : BitVec 32), Decidable (k1_chk251 v2753) := fun v2753 => decidable_of_iff' _ (Iff.of_eq (k1_chk251.eq_1 v2753))
theorem k1_off376_inb : ∀ (v2753 : BitVec 32) (k1_hw251 : k1_chk251 v2753), ∀ a, (k1_off376 v2753) a + S1x64.size a ≤ S50000x64.size a := fun v2753 k1_hw251 => k1_hw251

def k1_off377 (v2754 : BitVec 32) : Fin 2 → Nat :=
  let v2758 : Index := Scalar.indexCast v2754
  let c0_877 : Index := 0#32
  ![v2758.toNat, 0]

def k1_off378 (v2754 : BitVec 32) : Fin 2 → Nat :=
  let v2766 : Index := Scalar.indexCast v2754
  let c0_879 : Index := 0#32
  ![v2766.toNat, 0]

def k1_chk252 (v2754 : BitVec 32) : Prop :=
  (∀ a, (k1_off377 v2754) a + S1x64.size a ≤ S16384x64.size a) ∧
  (∀ a, (k1_off378 v2754) a + S1x1.size a ≤ S16384x1.size a)
instance k1_chk252.dec : ∀ (v2754 : BitVec 32), Decidable (k1_chk252 v2754) := fun v2754 => decidable_of_iff' _ (Iff.of_eq (k1_chk252.eq_1 v2754))
theorem k1_off377_inb : ∀ (v2754 : BitVec 32) (k1_hw252 : k1_chk252 v2754), ∀ a, (k1_off377 v2754) a + S1x64.size a ≤ S16384x64.size a := fun v2754 k1_hw252 => k1_hw252.1
theorem k1_off378_inb : ∀ (v2754 : BitVec 32) (k1_hw252 : k1_chk252 v2754), ∀ a, (k1_off378 v2754) a + S1x1.size a ≤ S16384x1.size a := fun v2754 k1_hw252 => k1_hw252.2

def k1_off379 (v2775 : BitVec 32) : Fin 2 → Nat :=
  let v2777 : Index := Scalar.indexCast v2775
  let c0_883 : Index := 0#32
  ![v2777.toNat, 0]

def k1_chk253 (v2775 : BitVec 32) : Prop :=
  (∀ a, (k1_off379 v2775) a + S1x64.size a ≤ S50000x64.size a)
instance k1_chk253.dec : ∀ (v2775 : BitVec 32), Decidable (k1_chk253 v2775) := fun v2775 => decidable_of_iff' _ (Iff.of_eq (k1_chk253.eq_1 v2775))
theorem k1_off379_inb : ∀ (v2775 : BitVec 32) (k1_hw253 : k1_chk253 v2775), ∀ a, (k1_off379 v2775) a + S1x64.size a ≤ S50000x64.size a := fun v2775 k1_hw253 => k1_hw253

def k1_off380 (v2776 : BitVec 32) : Fin 2 → Nat :=
  let v2780 : Index := Scalar.indexCast v2776
  let c0_884 : Index := 0#32
  ![v2780.toNat, 0]

def k1_off381 (v2776 : BitVec 32) : Fin 2 → Nat :=
  let v2788 : Index := Scalar.indexCast v2776
  let c0_886 : Index := 0#32
  ![v2788.toNat, 0]

def k1_chk254 (v2776 : BitVec 32) : Prop :=
  (∀ a, (k1_off380 v2776) a + S1x64.size a ≤ S16384x64.size a) ∧
  (∀ a, (k1_off381 v2776) a + S1x1.size a ≤ S16384x1.size a)
instance k1_chk254.dec : ∀ (v2776 : BitVec 32), Decidable (k1_chk254 v2776) := fun v2776 => decidable_of_iff' _ (Iff.of_eq (k1_chk254.eq_1 v2776))
theorem k1_off380_inb : ∀ (v2776 : BitVec 32) (k1_hw254 : k1_chk254 v2776), ∀ a, (k1_off380 v2776) a + S1x64.size a ≤ S16384x64.size a := fun v2776 k1_hw254 => k1_hw254.1
theorem k1_off381_inb : ∀ (v2776 : BitVec 32) (k1_hw254 : k1_chk254 v2776), ∀ a, (k1_off381 v2776) a + S1x1.size a ≤ S16384x1.size a := fun v2776 k1_hw254 => k1_hw254.2

def k1_off382 (v2797 : BitVec 32) : Fin 2 → Nat :=
  let v2799 : Index := Scalar.indexCast v2797
  let c0_890 : Index := 0#32
  ![v2799.toNat, 0]

def k1_chk255 (v2797 : BitVec 32) : Prop :=
  (∀ a, (k1_off382 v2797) a + S1x64.size a ≤ S50000x64.size a)
instance k1_chk255.dec : ∀ (v2797 : BitVec 32), Decidable (k1_chk255 v2797) := fun v2797 => decidable_of_iff' _ (Iff.of_eq (k1_chk255.eq_1 v2797))
theorem k1_off382_inb : ∀ (v2797 : BitVec 32) (k1_hw255 : k1_chk255 v2797), ∀ a, (k1_off382 v2797) a + S1x64.size a ≤ S50000x64.size a := fun v2797 k1_hw255 => k1_hw255

def k1_off383 (v2798 : BitVec 32) : Fin 2 → Nat :=
  let v2802 : Index := Scalar.indexCast v2798
  let c0_891 : Index := 0#32
  ![v2802.toNat, 0]

def k1_off384 (v2798 : BitVec 32) : Fin 2 → Nat :=
  let v2810 : Index := Scalar.indexCast v2798
  let c0_893 : Index := 0#32
  ![v2810.toNat, 0]

def k1_chk256 (v2798 : BitVec 32) : Prop :=
  (∀ a, (k1_off383 v2798) a + S1x64.size a ≤ S16384x64.size a) ∧
  (∀ a, (k1_off384 v2798) a + S1x1.size a ≤ S16384x1.size a)
instance k1_chk256.dec : ∀ (v2798 : BitVec 32), Decidable (k1_chk256 v2798) := fun v2798 => decidable_of_iff' _ (Iff.of_eq (k1_chk256.eq_1 v2798))
theorem k1_off383_inb : ∀ (v2798 : BitVec 32) (k1_hw256 : k1_chk256 v2798), ∀ a, (k1_off383 v2798) a + S1x64.size a ≤ S16384x64.size a := fun v2798 k1_hw256 => k1_hw256.1
theorem k1_off384_inb : ∀ (v2798 : BitVec 32) (k1_hw256 : k1_chk256 v2798), ∀ a, (k1_off384 v2798) a + S1x1.size a ≤ S16384x1.size a := fun v2798 k1_hw256 => k1_hw256.2

def k1_off385 (v2819 : BitVec 32) : Fin 2 → Nat :=
  let v2821 : Index := Scalar.indexCast v2819
  let c0_897 : Index := 0#32
  ![v2821.toNat, 0]

def k1_chk257 (v2819 : BitVec 32) : Prop :=
  (∀ a, (k1_off385 v2819) a + S1x64.size a ≤ S50000x64.size a)
instance k1_chk257.dec : ∀ (v2819 : BitVec 32), Decidable (k1_chk257 v2819) := fun v2819 => decidable_of_iff' _ (Iff.of_eq (k1_chk257.eq_1 v2819))
theorem k1_off385_inb : ∀ (v2819 : BitVec 32) (k1_hw257 : k1_chk257 v2819), ∀ a, (k1_off385 v2819) a + S1x64.size a ≤ S50000x64.size a := fun v2819 k1_hw257 => k1_hw257

def k1_off386 (v2820 : BitVec 32) : Fin 2 → Nat :=
  let v2824 : Index := Scalar.indexCast v2820
  let c0_898 : Index := 0#32
  ![v2824.toNat, 0]

def k1_off387 (v2820 : BitVec 32) : Fin 2 → Nat :=
  let v2832 : Index := Scalar.indexCast v2820
  let c0_900 : Index := 0#32
  ![v2832.toNat, 0]

def k1_chk258 (v2820 : BitVec 32) : Prop :=
  (∀ a, (k1_off386 v2820) a + S1x64.size a ≤ S16384x64.size a) ∧
  (∀ a, (k1_off387 v2820) a + S1x1.size a ≤ S16384x1.size a)
instance k1_chk258.dec : ∀ (v2820 : BitVec 32), Decidable (k1_chk258 v2820) := fun v2820 => decidable_of_iff' _ (Iff.of_eq (k1_chk258.eq_1 v2820))
theorem k1_off386_inb : ∀ (v2820 : BitVec 32) (k1_hw258 : k1_chk258 v2820), ∀ a, (k1_off386 v2820) a + S1x64.size a ≤ S16384x64.size a := fun v2820 k1_hw258 => k1_hw258.1
theorem k1_off387_inb : ∀ (v2820 : BitVec 32) (k1_hw258 : k1_chk258 v2820), ∀ a, (k1_off387 v2820) a + S1x1.size a ≤ S16384x1.size a := fun v2820 k1_hw258 => k1_hw258.2

def k1_off388 (v2841 : BitVec 32) : Fin 2 → Nat :=
  let v2843 : Index := Scalar.indexCast v2841
  let c0_904 : Index := 0#32
  ![v2843.toNat, 0]

def k1_chk259 (v2841 : BitVec 32) : Prop :=
  (∀ a, (k1_off388 v2841) a + S1x64.size a ≤ S50000x64.size a)
instance k1_chk259.dec : ∀ (v2841 : BitVec 32), Decidable (k1_chk259 v2841) := fun v2841 => decidable_of_iff' _ (Iff.of_eq (k1_chk259.eq_1 v2841))
theorem k1_off388_inb : ∀ (v2841 : BitVec 32) (k1_hw259 : k1_chk259 v2841), ∀ a, (k1_off388 v2841) a + S1x64.size a ≤ S50000x64.size a := fun v2841 k1_hw259 => k1_hw259

def k1_off389 (v2842 : BitVec 32) : Fin 2 → Nat :=
  let v2846 : Index := Scalar.indexCast v2842
  let c0_905 : Index := 0#32
  ![v2846.toNat, 0]

def k1_off390 (v2842 : BitVec 32) : Fin 2 → Nat :=
  let v2854 : Index := Scalar.indexCast v2842
  let c0_907 : Index := 0#32
  ![v2854.toNat, 0]

def k1_chk260 (v2842 : BitVec 32) : Prop :=
  (∀ a, (k1_off389 v2842) a + S1x64.size a ≤ S16384x64.size a) ∧
  (∀ a, (k1_off390 v2842) a + S1x1.size a ≤ S16384x1.size a)
instance k1_chk260.dec : ∀ (v2842 : BitVec 32), Decidable (k1_chk260 v2842) := fun v2842 => decidable_of_iff' _ (Iff.of_eq (k1_chk260.eq_1 v2842))
theorem k1_off389_inb : ∀ (v2842 : BitVec 32) (k1_hw260 : k1_chk260 v2842), ∀ a, (k1_off389 v2842) a + S1x64.size a ≤ S16384x64.size a := fun v2842 k1_hw260 => k1_hw260.1
theorem k1_off390_inb : ∀ (v2842 : BitVec 32) (k1_hw260 : k1_chk260 v2842), ∀ a, (k1_off390 v2842) a + S1x1.size a ≤ S16384x1.size a := fun v2842 k1_hw260 => k1_hw260.2

def k1_off391 (v2863 : BitVec 32) : Fin 2 → Nat :=
  let v2865 : Index := Scalar.indexCast v2863
  let c0_911 : Index := 0#32
  ![v2865.toNat, 0]

def k1_chk261 (v2863 : BitVec 32) : Prop :=
  (∀ a, (k1_off391 v2863) a + S1x64.size a ≤ S50000x64.size a)
instance k1_chk261.dec : ∀ (v2863 : BitVec 32), Decidable (k1_chk261 v2863) := fun v2863 => decidable_of_iff' _ (Iff.of_eq (k1_chk261.eq_1 v2863))
theorem k1_off391_inb : ∀ (v2863 : BitVec 32) (k1_hw261 : k1_chk261 v2863), ∀ a, (k1_off391 v2863) a + S1x64.size a ≤ S50000x64.size a := fun v2863 k1_hw261 => k1_hw261

def k1_off392 (v2864 : BitVec 32) : Fin 2 → Nat :=
  let v2868 : Index := Scalar.indexCast v2864
  let c0_912 : Index := 0#32
  ![v2868.toNat, 0]

def k1_off393 (v2864 : BitVec 32) : Fin 2 → Nat :=
  let v2876 : Index := Scalar.indexCast v2864
  let c0_914 : Index := 0#32
  ![v2876.toNat, 0]

def k1_chk262 (v2864 : BitVec 32) : Prop :=
  (∀ a, (k1_off392 v2864) a + S1x64.size a ≤ S16384x64.size a) ∧
  (∀ a, (k1_off393 v2864) a + S1x1.size a ≤ S16384x1.size a)
instance k1_chk262.dec : ∀ (v2864 : BitVec 32), Decidable (k1_chk262 v2864) := fun v2864 => decidable_of_iff' _ (Iff.of_eq (k1_chk262.eq_1 v2864))
theorem k1_off392_inb : ∀ (v2864 : BitVec 32) (k1_hw262 : k1_chk262 v2864), ∀ a, (k1_off392 v2864) a + S1x64.size a ≤ S16384x64.size a := fun v2864 k1_hw262 => k1_hw262.1
theorem k1_off393_inb : ∀ (v2864 : BitVec 32) (k1_hw262 : k1_chk262 v2864), ∀ a, (k1_off393 v2864) a + S1x1.size a ≤ S16384x1.size a := fun v2864 k1_hw262 => k1_hw262.2

def k1_off394 (v2885 : BitVec 32) : Fin 2 → Nat :=
  let v2887 : Index := Scalar.indexCast v2885
  let c0_918 : Index := 0#32
  ![v2887.toNat, 0]

def k1_chk263 (v2885 : BitVec 32) : Prop :=
  (∀ a, (k1_off394 v2885) a + S1x64.size a ≤ S50000x64.size a)
instance k1_chk263.dec : ∀ (v2885 : BitVec 32), Decidable (k1_chk263 v2885) := fun v2885 => decidable_of_iff' _ (Iff.of_eq (k1_chk263.eq_1 v2885))
theorem k1_off394_inb : ∀ (v2885 : BitVec 32) (k1_hw263 : k1_chk263 v2885), ∀ a, (k1_off394 v2885) a + S1x64.size a ≤ S50000x64.size a := fun v2885 k1_hw263 => k1_hw263

def k1_off395 (v2886 : BitVec 32) : Fin 2 → Nat :=
  let v2890 : Index := Scalar.indexCast v2886
  let c0_919 : Index := 0#32
  ![v2890.toNat, 0]

def k1_off396 (v2886 : BitVec 32) : Fin 2 → Nat :=
  let v2898 : Index := Scalar.indexCast v2886
  let c0_921 : Index := 0#32
  ![v2898.toNat, 0]

def k1_chk264 (v2886 : BitVec 32) : Prop :=
  (∀ a, (k1_off395 v2886) a + S1x64.size a ≤ S16384x64.size a) ∧
  (∀ a, (k1_off396 v2886) a + S1x1.size a ≤ S16384x1.size a)
instance k1_chk264.dec : ∀ (v2886 : BitVec 32), Decidable (k1_chk264 v2886) := fun v2886 => decidable_of_iff' _ (Iff.of_eq (k1_chk264.eq_1 v2886))
theorem k1_off395_inb : ∀ (v2886 : BitVec 32) (k1_hw264 : k1_chk264 v2886), ∀ a, (k1_off395 v2886) a + S1x64.size a ≤ S16384x64.size a := fun v2886 k1_hw264 => k1_hw264.1
theorem k1_off396_inb : ∀ (v2886 : BitVec 32) (k1_hw264 : k1_chk264 v2886), ∀ a, (k1_off396 v2886) a + S1x1.size a ≤ S16384x1.size a := fun v2886 k1_hw264 => k1_hw264.2

def k1_off397 (v2907 : BitVec 32) : Fin 2 → Nat :=
  let v2909 : Index := Scalar.indexCast v2907
  let c0_925 : Index := 0#32
  ![v2909.toNat, 0]

def k1_chk265 (v2907 : BitVec 32) : Prop :=
  (∀ a, (k1_off397 v2907) a + S1x64.size a ≤ S50000x64.size a)
instance k1_chk265.dec : ∀ (v2907 : BitVec 32), Decidable (k1_chk265 v2907) := fun v2907 => decidable_of_iff' _ (Iff.of_eq (k1_chk265.eq_1 v2907))
theorem k1_off397_inb : ∀ (v2907 : BitVec 32) (k1_hw265 : k1_chk265 v2907), ∀ a, (k1_off397 v2907) a + S1x64.size a ≤ S50000x64.size a := fun v2907 k1_hw265 => k1_hw265

def k1_off398 (v2908 : BitVec 32) : Fin 2 → Nat :=
  let v2912 : Index := Scalar.indexCast v2908
  let c0_926 : Index := 0#32
  ![v2912.toNat, 0]

def k1_off399 (v2908 : BitVec 32) : Fin 2 → Nat :=
  let v2920 : Index := Scalar.indexCast v2908
  let c0_928 : Index := 0#32
  ![v2920.toNat, 0]

def k1_chk266 (v2908 : BitVec 32) : Prop :=
  (∀ a, (k1_off398 v2908) a + S1x64.size a ≤ S16384x64.size a) ∧
  (∀ a, (k1_off399 v2908) a + S1x1.size a ≤ S16384x1.size a)
instance k1_chk266.dec : ∀ (v2908 : BitVec 32), Decidable (k1_chk266 v2908) := fun v2908 => decidable_of_iff' _ (Iff.of_eq (k1_chk266.eq_1 v2908))
theorem k1_off398_inb : ∀ (v2908 : BitVec 32) (k1_hw266 : k1_chk266 v2908), ∀ a, (k1_off398 v2908) a + S1x64.size a ≤ S16384x64.size a := fun v2908 k1_hw266 => k1_hw266.1
theorem k1_off399_inb : ∀ (v2908 : BitVec 32) (k1_hw266 : k1_chk266 v2908), ∀ a, (k1_off399 v2908) a + S1x1.size a ≤ S16384x1.size a := fun v2908 k1_hw266 => k1_hw266.2

def k1_off400 (v2929 : BitVec 32) : Fin 2 → Nat :=
  let v2931 : Index := Scalar.indexCast v2929
  let c0_932 : Index := 0#32
  ![v2931.toNat, 0]

def k1_chk267 (v2929 : BitVec 32) : Prop :=
  (∀ a, (k1_off400 v2929) a + S1x64.size a ≤ S50000x64.size a)
instance k1_chk267.dec : ∀ (v2929 : BitVec 32), Decidable (k1_chk267 v2929) := fun v2929 => decidable_of_iff' _ (Iff.of_eq (k1_chk267.eq_1 v2929))
theorem k1_off400_inb : ∀ (v2929 : BitVec 32) (k1_hw267 : k1_chk267 v2929), ∀ a, (k1_off400 v2929) a + S1x64.size a ≤ S50000x64.size a := fun v2929 k1_hw267 => k1_hw267

def k1_off401 (v2930 : BitVec 32) : Fin 2 → Nat :=
  let v2934 : Index := Scalar.indexCast v2930
  let c0_933 : Index := 0#32
  ![v2934.toNat, 0]

def k1_off402 (v2930 : BitVec 32) : Fin 2 → Nat :=
  let v2942 : Index := Scalar.indexCast v2930
  let c0_935 : Index := 0#32
  ![v2942.toNat, 0]

def k1_chk268 (v2930 : BitVec 32) : Prop :=
  (∀ a, (k1_off401 v2930) a + S1x64.size a ≤ S16384x64.size a) ∧
  (∀ a, (k1_off402 v2930) a + S1x1.size a ≤ S16384x1.size a)
instance k1_chk268.dec : ∀ (v2930 : BitVec 32), Decidable (k1_chk268 v2930) := fun v2930 => decidable_of_iff' _ (Iff.of_eq (k1_chk268.eq_1 v2930))
theorem k1_off401_inb : ∀ (v2930 : BitVec 32) (k1_hw268 : k1_chk268 v2930), ∀ a, (k1_off401 v2930) a + S1x64.size a ≤ S16384x64.size a := fun v2930 k1_hw268 => k1_hw268.1
theorem k1_off402_inb : ∀ (v2930 : BitVec 32) (k1_hw268 : k1_chk268 v2930), ∀ a, (k1_off402 v2930) a + S1x1.size a ≤ S16384x1.size a := fun v2930 k1_hw268 => k1_hw268.2

def k1_off403 (v2951 : BitVec 32) : Fin 2 → Nat :=
  let v2953 : Index := Scalar.indexCast v2951
  let c0_939 : Index := 0#32
  ![v2953.toNat, 0]

def k1_chk269 (v2951 : BitVec 32) : Prop :=
  (∀ a, (k1_off403 v2951) a + S1x64.size a ≤ S50000x64.size a)
instance k1_chk269.dec : ∀ (v2951 : BitVec 32), Decidable (k1_chk269 v2951) := fun v2951 => decidable_of_iff' _ (Iff.of_eq (k1_chk269.eq_1 v2951))
theorem k1_off403_inb : ∀ (v2951 : BitVec 32) (k1_hw269 : k1_chk269 v2951), ∀ a, (k1_off403 v2951) a + S1x64.size a ≤ S50000x64.size a := fun v2951 k1_hw269 => k1_hw269

def k1_off404 (v2952 : BitVec 32) : Fin 2 → Nat :=
  let v2956 : Index := Scalar.indexCast v2952
  let c0_940 : Index := 0#32
  ![v2956.toNat, 0]

def k1_off405 (v2952 : BitVec 32) : Fin 2 → Nat :=
  let v2964 : Index := Scalar.indexCast v2952
  let c0_942 : Index := 0#32
  ![v2964.toNat, 0]

def k1_chk270 (v2952 : BitVec 32) : Prop :=
  (∀ a, (k1_off404 v2952) a + S1x64.size a ≤ S16384x64.size a) ∧
  (∀ a, (k1_off405 v2952) a + S1x1.size a ≤ S16384x1.size a)
instance k1_chk270.dec : ∀ (v2952 : BitVec 32), Decidable (k1_chk270 v2952) := fun v2952 => decidable_of_iff' _ (Iff.of_eq (k1_chk270.eq_1 v2952))
theorem k1_off404_inb : ∀ (v2952 : BitVec 32) (k1_hw270 : k1_chk270 v2952), ∀ a, (k1_off404 v2952) a + S1x64.size a ≤ S16384x64.size a := fun v2952 k1_hw270 => k1_hw270.1
theorem k1_off405_inb : ∀ (v2952 : BitVec 32) (k1_hw270 : k1_chk270 v2952), ∀ a, (k1_off405 v2952) a + S1x1.size a ≤ S16384x1.size a := fun v2952 k1_hw270 => k1_hw270.2

def k1_off406 (v2973 : BitVec 32) : Fin 2 → Nat :=
  let v2975 : Index := Scalar.indexCast v2973
  let c0_946 : Index := 0#32
  ![v2975.toNat, 0]

def k1_chk271 (v2973 : BitVec 32) : Prop :=
  (∀ a, (k1_off406 v2973) a + S1x64.size a ≤ S50000x64.size a)
instance k1_chk271.dec : ∀ (v2973 : BitVec 32), Decidable (k1_chk271 v2973) := fun v2973 => decidable_of_iff' _ (Iff.of_eq (k1_chk271.eq_1 v2973))
theorem k1_off406_inb : ∀ (v2973 : BitVec 32) (k1_hw271 : k1_chk271 v2973), ∀ a, (k1_off406 v2973) a + S1x64.size a ≤ S50000x64.size a := fun v2973 k1_hw271 => k1_hw271

def k1_off407 (v2974 : BitVec 32) : Fin 2 → Nat :=
  let v2978 : Index := Scalar.indexCast v2974
  let c0_947 : Index := 0#32
  ![v2978.toNat, 0]

def k1_off408 (v2974 : BitVec 32) : Fin 2 → Nat :=
  let v2986 : Index := Scalar.indexCast v2974
  let c0_949 : Index := 0#32
  ![v2986.toNat, 0]

def k1_chk272 (v2974 : BitVec 32) : Prop :=
  (∀ a, (k1_off407 v2974) a + S1x64.size a ≤ S16384x64.size a) ∧
  (∀ a, (k1_off408 v2974) a + S1x1.size a ≤ S16384x1.size a)
instance k1_chk272.dec : ∀ (v2974 : BitVec 32), Decidable (k1_chk272 v2974) := fun v2974 => decidable_of_iff' _ (Iff.of_eq (k1_chk272.eq_1 v2974))
theorem k1_off407_inb : ∀ (v2974 : BitVec 32) (k1_hw272 : k1_chk272 v2974), ∀ a, (k1_off407 v2974) a + S1x64.size a ≤ S16384x64.size a := fun v2974 k1_hw272 => k1_hw272.1
theorem k1_off408_inb : ∀ (v2974 : BitVec 32) (k1_hw272 : k1_chk272 v2974), ∀ a, (k1_off408 v2974) a + S1x1.size a ≤ S16384x1.size a := fun v2974 k1_hw272 => k1_hw272.2

def k1_off409 (v2995 : BitVec 32) : Fin 2 → Nat :=
  let v2997 : Index := Scalar.indexCast v2995
  let c0_953 : Index := 0#32
  ![v2997.toNat, 0]

def k1_chk273 (v2995 : BitVec 32) : Prop :=
  (∀ a, (k1_off409 v2995) a + S1x64.size a ≤ S50000x64.size a)
instance k1_chk273.dec : ∀ (v2995 : BitVec 32), Decidable (k1_chk273 v2995) := fun v2995 => decidable_of_iff' _ (Iff.of_eq (k1_chk273.eq_1 v2995))
theorem k1_off409_inb : ∀ (v2995 : BitVec 32) (k1_hw273 : k1_chk273 v2995), ∀ a, (k1_off409 v2995) a + S1x64.size a ≤ S50000x64.size a := fun v2995 k1_hw273 => k1_hw273

def k1_off410 (v2996 : BitVec 32) : Fin 2 → Nat :=
  let v3000 : Index := Scalar.indexCast v2996
  let c0_954 : Index := 0#32
  ![v3000.toNat, 0]

def k1_off411 (v2996 : BitVec 32) : Fin 2 → Nat :=
  let v3008 : Index := Scalar.indexCast v2996
  let c0_956 : Index := 0#32
  ![v3008.toNat, 0]

def k1_chk274 (v2996 : BitVec 32) : Prop :=
  (∀ a, (k1_off410 v2996) a + S1x64.size a ≤ S16384x64.size a) ∧
  (∀ a, (k1_off411 v2996) a + S1x1.size a ≤ S16384x1.size a)
instance k1_chk274.dec : ∀ (v2996 : BitVec 32), Decidable (k1_chk274 v2996) := fun v2996 => decidable_of_iff' _ (Iff.of_eq (k1_chk274.eq_1 v2996))
theorem k1_off410_inb : ∀ (v2996 : BitVec 32) (k1_hw274 : k1_chk274 v2996), ∀ a, (k1_off410 v2996) a + S1x64.size a ≤ S16384x64.size a := fun v2996 k1_hw274 => k1_hw274.1
theorem k1_off411_inb : ∀ (v2996 : BitVec 32) (k1_hw274 : k1_chk274 v2996), ∀ a, (k1_off411 v2996) a + S1x1.size a ≤ S16384x1.size a := fun v2996 k1_hw274 => k1_hw274.2

def k1_off412 (v3017 : BitVec 32) : Fin 2 → Nat :=
  let v3019 : Index := Scalar.indexCast v3017
  let c0_960 : Index := 0#32
  ![v3019.toNat, 0]

def k1_chk275 (v3017 : BitVec 32) : Prop :=
  (∀ a, (k1_off412 v3017) a + S1x64.size a ≤ S50000x64.size a)
instance k1_chk275.dec : ∀ (v3017 : BitVec 32), Decidable (k1_chk275 v3017) := fun v3017 => decidable_of_iff' _ (Iff.of_eq (k1_chk275.eq_1 v3017))
theorem k1_off412_inb : ∀ (v3017 : BitVec 32) (k1_hw275 : k1_chk275 v3017), ∀ a, (k1_off412 v3017) a + S1x64.size a ≤ S50000x64.size a := fun v3017 k1_hw275 => k1_hw275

def k1_off413 (v3018 : BitVec 32) : Fin 2 → Nat :=
  let v3022 : Index := Scalar.indexCast v3018
  let c0_961 : Index := 0#32
  ![v3022.toNat, 0]

def k1_off414 (v3018 : BitVec 32) : Fin 2 → Nat :=
  let v3030 : Index := Scalar.indexCast v3018
  let c0_963 : Index := 0#32
  ![v3030.toNat, 0]

def k1_chk276 (v3018 : BitVec 32) : Prop :=
  (∀ a, (k1_off413 v3018) a + S1x64.size a ≤ S16384x64.size a) ∧
  (∀ a, (k1_off414 v3018) a + S1x1.size a ≤ S16384x1.size a)
instance k1_chk276.dec : ∀ (v3018 : BitVec 32), Decidable (k1_chk276 v3018) := fun v3018 => decidable_of_iff' _ (Iff.of_eq (k1_chk276.eq_1 v3018))
theorem k1_off413_inb : ∀ (v3018 : BitVec 32) (k1_hw276 : k1_chk276 v3018), ∀ a, (k1_off413 v3018) a + S1x64.size a ≤ S16384x64.size a := fun v3018 k1_hw276 => k1_hw276.1
theorem k1_off414_inb : ∀ (v3018 : BitVec 32) (k1_hw276 : k1_chk276 v3018), ∀ a, (k1_off414 v3018) a + S1x1.size a ≤ S16384x1.size a := fun v3018 k1_hw276 => k1_hw276.2

def k1_off415 (v3039 : BitVec 32) : Fin 2 → Nat :=
  let v3041 : Index := Scalar.indexCast v3039
  let c0_967 : Index := 0#32
  ![v3041.toNat, 0]

def k1_chk277 (v3039 : BitVec 32) : Prop :=
  (∀ a, (k1_off415 v3039) a + S1x64.size a ≤ S50000x64.size a)
instance k1_chk277.dec : ∀ (v3039 : BitVec 32), Decidable (k1_chk277 v3039) := fun v3039 => decidable_of_iff' _ (Iff.of_eq (k1_chk277.eq_1 v3039))
theorem k1_off415_inb : ∀ (v3039 : BitVec 32) (k1_hw277 : k1_chk277 v3039), ∀ a, (k1_off415 v3039) a + S1x64.size a ≤ S50000x64.size a := fun v3039 k1_hw277 => k1_hw277

def k1_off416 (v3040 : BitVec 32) : Fin 2 → Nat :=
  let v3044 : Index := Scalar.indexCast v3040
  let c0_968 : Index := 0#32
  ![v3044.toNat, 0]

def k1_off417 (v3040 : BitVec 32) : Fin 2 → Nat :=
  let v3052 : Index := Scalar.indexCast v3040
  let c0_970 : Index := 0#32
  ![v3052.toNat, 0]

def k1_chk278 (v3040 : BitVec 32) : Prop :=
  (∀ a, (k1_off416 v3040) a + S1x64.size a ≤ S16384x64.size a) ∧
  (∀ a, (k1_off417 v3040) a + S1x1.size a ≤ S16384x1.size a)
instance k1_chk278.dec : ∀ (v3040 : BitVec 32), Decidable (k1_chk278 v3040) := fun v3040 => decidable_of_iff' _ (Iff.of_eq (k1_chk278.eq_1 v3040))
theorem k1_off416_inb : ∀ (v3040 : BitVec 32) (k1_hw278 : k1_chk278 v3040), ∀ a, (k1_off416 v3040) a + S1x64.size a ≤ S16384x64.size a := fun v3040 k1_hw278 => k1_hw278.1
theorem k1_off417_inb : ∀ (v3040 : BitVec 32) (k1_hw278 : k1_chk278 v3040), ∀ a, (k1_off417 v3040) a + S1x1.size a ≤ S16384x1.size a := fun v3040 k1_hw278 => k1_hw278.2

def k1_off418 (v3061 : BitVec 32) : Fin 2 → Nat :=
  let v3063 : Index := Scalar.indexCast v3061
  let c0_974 : Index := 0#32
  ![v3063.toNat, 0]

def k1_chk279 (v3061 : BitVec 32) : Prop :=
  (∀ a, (k1_off418 v3061) a + S1x64.size a ≤ S50000x64.size a)
instance k1_chk279.dec : ∀ (v3061 : BitVec 32), Decidable (k1_chk279 v3061) := fun v3061 => decidable_of_iff' _ (Iff.of_eq (k1_chk279.eq_1 v3061))
theorem k1_off418_inb : ∀ (v3061 : BitVec 32) (k1_hw279 : k1_chk279 v3061), ∀ a, (k1_off418 v3061) a + S1x64.size a ≤ S50000x64.size a := fun v3061 k1_hw279 => k1_hw279

def k1_off419 (v3062 : BitVec 32) : Fin 2 → Nat :=
  let v3066 : Index := Scalar.indexCast v3062
  let c0_975 : Index := 0#32
  ![v3066.toNat, 0]

def k1_off420 (v3062 : BitVec 32) : Fin 2 → Nat :=
  let v3074 : Index := Scalar.indexCast v3062
  let c0_977 : Index := 0#32
  ![v3074.toNat, 0]

def k1_chk280 (v3062 : BitVec 32) : Prop :=
  (∀ a, (k1_off419 v3062) a + S1x64.size a ≤ S16384x64.size a) ∧
  (∀ a, (k1_off420 v3062) a + S1x1.size a ≤ S16384x1.size a)
instance k1_chk280.dec : ∀ (v3062 : BitVec 32), Decidable (k1_chk280 v3062) := fun v3062 => decidable_of_iff' _ (Iff.of_eq (k1_chk280.eq_1 v3062))
theorem k1_off419_inb : ∀ (v3062 : BitVec 32) (k1_hw280 : k1_chk280 v3062), ∀ a, (k1_off419 v3062) a + S1x64.size a ≤ S16384x64.size a := fun v3062 k1_hw280 => k1_hw280.1
theorem k1_off420_inb : ∀ (v3062 : BitVec 32) (k1_hw280 : k1_chk280 v3062), ∀ a, (k1_off420 v3062) a + S1x1.size a ≤ S16384x1.size a := fun v3062 k1_hw280 => k1_hw280.2

def k1_off421 (v3083 : BitVec 32) : Fin 2 → Nat :=
  let v3085 : Index := Scalar.indexCast v3083
  let c0_981 : Index := 0#32
  ![v3085.toNat, 0]

def k1_chk281 (v3083 : BitVec 32) : Prop :=
  (∀ a, (k1_off421 v3083) a + S1x64.size a ≤ S50000x64.size a)
instance k1_chk281.dec : ∀ (v3083 : BitVec 32), Decidable (k1_chk281 v3083) := fun v3083 => decidable_of_iff' _ (Iff.of_eq (k1_chk281.eq_1 v3083))
theorem k1_off421_inb : ∀ (v3083 : BitVec 32) (k1_hw281 : k1_chk281 v3083), ∀ a, (k1_off421 v3083) a + S1x64.size a ≤ S50000x64.size a := fun v3083 k1_hw281 => k1_hw281

def k1_off422 (v3084 : BitVec 32) : Fin 2 → Nat :=
  let v3088 : Index := Scalar.indexCast v3084
  let c0_982 : Index := 0#32
  ![v3088.toNat, 0]

def k1_off423 (v3084 : BitVec 32) : Fin 2 → Nat :=
  let v3096 : Index := Scalar.indexCast v3084
  let c0_984 : Index := 0#32
  ![v3096.toNat, 0]

def k1_chk282 (v3084 : BitVec 32) : Prop :=
  (∀ a, (k1_off422 v3084) a + S1x64.size a ≤ S16384x64.size a) ∧
  (∀ a, (k1_off423 v3084) a + S1x1.size a ≤ S16384x1.size a)
instance k1_chk282.dec : ∀ (v3084 : BitVec 32), Decidable (k1_chk282 v3084) := fun v3084 => decidable_of_iff' _ (Iff.of_eq (k1_chk282.eq_1 v3084))
theorem k1_off422_inb : ∀ (v3084 : BitVec 32) (k1_hw282 : k1_chk282 v3084), ∀ a, (k1_off422 v3084) a + S1x64.size a ≤ S16384x64.size a := fun v3084 k1_hw282 => k1_hw282.1
theorem k1_off423_inb : ∀ (v3084 : BitVec 32) (k1_hw282 : k1_chk282 v3084), ∀ a, (k1_off423 v3084) a + S1x1.size a ≤ S16384x1.size a := fun v3084 k1_hw282 => k1_hw282.2

def k1_off424 (v3105 : BitVec 32) : Fin 2 → Nat :=
  let v3107 : Index := Scalar.indexCast v3105
  let c0_988 : Index := 0#32
  ![v3107.toNat, 0]

def k1_chk283 (v3105 : BitVec 32) : Prop :=
  (∀ a, (k1_off424 v3105) a + S1x64.size a ≤ S50000x64.size a)
instance k1_chk283.dec : ∀ (v3105 : BitVec 32), Decidable (k1_chk283 v3105) := fun v3105 => decidable_of_iff' _ (Iff.of_eq (k1_chk283.eq_1 v3105))
theorem k1_off424_inb : ∀ (v3105 : BitVec 32) (k1_hw283 : k1_chk283 v3105), ∀ a, (k1_off424 v3105) a + S1x64.size a ≤ S50000x64.size a := fun v3105 k1_hw283 => k1_hw283

def k1_off425 (v3106 : BitVec 32) : Fin 2 → Nat :=
  let v3110 : Index := Scalar.indexCast v3106
  let c0_989 : Index := 0#32
  ![v3110.toNat, 0]

def k1_off426 (v3106 : BitVec 32) : Fin 2 → Nat :=
  let v3118 : Index := Scalar.indexCast v3106
  let c0_991 : Index := 0#32
  ![v3118.toNat, 0]

def k1_chk284 (v3106 : BitVec 32) : Prop :=
  (∀ a, (k1_off425 v3106) a + S1x64.size a ≤ S16384x64.size a) ∧
  (∀ a, (k1_off426 v3106) a + S1x1.size a ≤ S16384x1.size a)
instance k1_chk284.dec : ∀ (v3106 : BitVec 32), Decidable (k1_chk284 v3106) := fun v3106 => decidable_of_iff' _ (Iff.of_eq (k1_chk284.eq_1 v3106))
theorem k1_off425_inb : ∀ (v3106 : BitVec 32) (k1_hw284 : k1_chk284 v3106), ∀ a, (k1_off425 v3106) a + S1x64.size a ≤ S16384x64.size a := fun v3106 k1_hw284 => k1_hw284.1
theorem k1_off426_inb : ∀ (v3106 : BitVec 32) (k1_hw284 : k1_chk284 v3106), ∀ a, (k1_off426 v3106) a + S1x1.size a ≤ S16384x1.size a := fun v3106 k1_hw284 => k1_hw284.2

def k1_off427 (v3127 : BitVec 32) : Fin 2 → Nat :=
  let v3129 : Index := Scalar.indexCast v3127
  let c0_995 : Index := 0#32
  ![v3129.toNat, 0]

def k1_chk285 (v3127 : BitVec 32) : Prop :=
  (∀ a, (k1_off427 v3127) a + S1x64.size a ≤ S50000x64.size a)
instance k1_chk285.dec : ∀ (v3127 : BitVec 32), Decidable (k1_chk285 v3127) := fun v3127 => decidable_of_iff' _ (Iff.of_eq (k1_chk285.eq_1 v3127))
theorem k1_off427_inb : ∀ (v3127 : BitVec 32) (k1_hw285 : k1_chk285 v3127), ∀ a, (k1_off427 v3127) a + S1x64.size a ≤ S50000x64.size a := fun v3127 k1_hw285 => k1_hw285

def k1_off428 (v3128 : BitVec 32) : Fin 2 → Nat :=
  let v3132 : Index := Scalar.indexCast v3128
  let c0_996 : Index := 0#32
  ![v3132.toNat, 0]

def k1_off429 (v3128 : BitVec 32) : Fin 2 → Nat :=
  let v3140 : Index := Scalar.indexCast v3128
  let c0_998 : Index := 0#32
  ![v3140.toNat, 0]

def k1_chk286 (v3128 : BitVec 32) : Prop :=
  (∀ a, (k1_off428 v3128) a + S1x64.size a ≤ S16384x64.size a) ∧
  (∀ a, (k1_off429 v3128) a + S1x1.size a ≤ S16384x1.size a)
instance k1_chk286.dec : ∀ (v3128 : BitVec 32), Decidable (k1_chk286 v3128) := fun v3128 => decidable_of_iff' _ (Iff.of_eq (k1_chk286.eq_1 v3128))
theorem k1_off428_inb : ∀ (v3128 : BitVec 32) (k1_hw286 : k1_chk286 v3128), ∀ a, (k1_off428 v3128) a + S1x64.size a ≤ S16384x64.size a := fun v3128 k1_hw286 => k1_hw286.1
theorem k1_off429_inb : ∀ (v3128 : BitVec 32) (k1_hw286 : k1_chk286 v3128), ∀ a, (k1_off429 v3128) a + S1x1.size a ≤ S16384x1.size a := fun v3128 k1_hw286 => k1_hw286.2

def k1_off430 (v3149 : BitVec 32) : Fin 2 → Nat :=
  let v3151 : Index := Scalar.indexCast v3149
  let c0_1002 : Index := 0#32
  ![v3151.toNat, 0]

def k1_chk287 (v3149 : BitVec 32) : Prop :=
  (∀ a, (k1_off430 v3149) a + S1x64.size a ≤ S50000x64.size a)
instance k1_chk287.dec : ∀ (v3149 : BitVec 32), Decidable (k1_chk287 v3149) := fun v3149 => decidable_of_iff' _ (Iff.of_eq (k1_chk287.eq_1 v3149))
theorem k1_off430_inb : ∀ (v3149 : BitVec 32) (k1_hw287 : k1_chk287 v3149), ∀ a, (k1_off430 v3149) a + S1x64.size a ≤ S50000x64.size a := fun v3149 k1_hw287 => k1_hw287

def k1_off431 (v3150 : BitVec 32) : Fin 2 → Nat :=
  let v3154 : Index := Scalar.indexCast v3150
  let c0_1003 : Index := 0#32
  ![v3154.toNat, 0]

def k1_off432 (v3150 : BitVec 32) : Fin 2 → Nat :=
  let v3162 : Index := Scalar.indexCast v3150
  let c0_1005 : Index := 0#32
  ![v3162.toNat, 0]

def k1_chk288 (v3150 : BitVec 32) : Prop :=
  (∀ a, (k1_off431 v3150) a + S1x64.size a ≤ S16384x64.size a) ∧
  (∀ a, (k1_off432 v3150) a + S1x1.size a ≤ S16384x1.size a)
instance k1_chk288.dec : ∀ (v3150 : BitVec 32), Decidable (k1_chk288 v3150) := fun v3150 => decidable_of_iff' _ (Iff.of_eq (k1_chk288.eq_1 v3150))
theorem k1_off431_inb : ∀ (v3150 : BitVec 32) (k1_hw288 : k1_chk288 v3150), ∀ a, (k1_off431 v3150) a + S1x64.size a ≤ S16384x64.size a := fun v3150 k1_hw288 => k1_hw288.1
theorem k1_off432_inb : ∀ (v3150 : BitVec 32) (k1_hw288 : k1_chk288 v3150), ∀ a, (k1_off432 v3150) a + S1x1.size a ≤ S16384x1.size a := fun v3150 k1_hw288 => k1_hw288.2

def k1_off433 (v3171 : BitVec 32) : Fin 2 → Nat :=
  let v3173 : Index := Scalar.indexCast v3171
  let c0_1009 : Index := 0#32
  ![v3173.toNat, 0]

def k1_chk289 (v3171 : BitVec 32) : Prop :=
  (∀ a, (k1_off433 v3171) a + S1x64.size a ≤ S50000x64.size a)
instance k1_chk289.dec : ∀ (v3171 : BitVec 32), Decidable (k1_chk289 v3171) := fun v3171 => decidable_of_iff' _ (Iff.of_eq (k1_chk289.eq_1 v3171))
theorem k1_off433_inb : ∀ (v3171 : BitVec 32) (k1_hw289 : k1_chk289 v3171), ∀ a, (k1_off433 v3171) a + S1x64.size a ≤ S50000x64.size a := fun v3171 k1_hw289 => k1_hw289

def k1_off434 (v3172 : BitVec 32) : Fin 2 → Nat :=
  let v3176 : Index := Scalar.indexCast v3172
  let c0_1010 : Index := 0#32
  ![v3176.toNat, 0]

def k1_off435 (v3172 : BitVec 32) : Fin 2 → Nat :=
  let v3184 : Index := Scalar.indexCast v3172
  let c0_1012 : Index := 0#32
  ![v3184.toNat, 0]

def k1_chk290 (v3172 : BitVec 32) : Prop :=
  (∀ a, (k1_off434 v3172) a + S1x64.size a ≤ S16384x64.size a) ∧
  (∀ a, (k1_off435 v3172) a + S1x1.size a ≤ S16384x1.size a)
instance k1_chk290.dec : ∀ (v3172 : BitVec 32), Decidable (k1_chk290 v3172) := fun v3172 => decidable_of_iff' _ (Iff.of_eq (k1_chk290.eq_1 v3172))
theorem k1_off434_inb : ∀ (v3172 : BitVec 32) (k1_hw290 : k1_chk290 v3172), ∀ a, (k1_off434 v3172) a + S1x64.size a ≤ S16384x64.size a := fun v3172 k1_hw290 => k1_hw290.1
theorem k1_off435_inb : ∀ (v3172 : BitVec 32) (k1_hw290 : k1_chk290 v3172), ∀ a, (k1_off435 v3172) a + S1x1.size a ≤ S16384x1.size a := fun v3172 k1_hw290 => k1_hw290.2

def k1_off436 (v3193 : BitVec 32) : Fin 2 → Nat :=
  let v3195 : Index := Scalar.indexCast v3193
  let c0_1016 : Index := 0#32
  ![v3195.toNat, 0]

def k1_chk291 (v3193 : BitVec 32) : Prop :=
  (∀ a, (k1_off436 v3193) a + S1x64.size a ≤ S50000x64.size a)
instance k1_chk291.dec : ∀ (v3193 : BitVec 32), Decidable (k1_chk291 v3193) := fun v3193 => decidable_of_iff' _ (Iff.of_eq (k1_chk291.eq_1 v3193))
theorem k1_off436_inb : ∀ (v3193 : BitVec 32) (k1_hw291 : k1_chk291 v3193), ∀ a, (k1_off436 v3193) a + S1x64.size a ≤ S50000x64.size a := fun v3193 k1_hw291 => k1_hw291

def k1_off437 (v3194 : BitVec 32) : Fin 2 → Nat :=
  let v3198 : Index := Scalar.indexCast v3194
  let c0_1017 : Index := 0#32
  ![v3198.toNat, 0]

def k1_off438 (v3194 : BitVec 32) : Fin 2 → Nat :=
  let v3206 : Index := Scalar.indexCast v3194
  let c0_1019 : Index := 0#32
  ![v3206.toNat, 0]

def k1_chk292 (v3194 : BitVec 32) : Prop :=
  (∀ a, (k1_off437 v3194) a + S1x64.size a ≤ S16384x64.size a) ∧
  (∀ a, (k1_off438 v3194) a + S1x1.size a ≤ S16384x1.size a)
instance k1_chk292.dec : ∀ (v3194 : BitVec 32), Decidable (k1_chk292 v3194) := fun v3194 => decidable_of_iff' _ (Iff.of_eq (k1_chk292.eq_1 v3194))
theorem k1_off437_inb : ∀ (v3194 : BitVec 32) (k1_hw292 : k1_chk292 v3194), ∀ a, (k1_off437 v3194) a + S1x64.size a ≤ S16384x64.size a := fun v3194 k1_hw292 => k1_hw292.1
theorem k1_off438_inb : ∀ (v3194 : BitVec 32) (k1_hw292 : k1_chk292 v3194), ∀ a, (k1_off438 v3194) a + S1x1.size a ≤ S16384x1.size a := fun v3194 k1_hw292 => k1_hw292.2

def k1_off439 (v3215 : BitVec 32) : Fin 2 → Nat :=
  let v3217 : Index := Scalar.indexCast v3215
  let c0_1023 : Index := 0#32
  ![v3217.toNat, 0]

def k1_chk293 (v3215 : BitVec 32) : Prop :=
  (∀ a, (k1_off439 v3215) a + S1x64.size a ≤ S50000x64.size a)
instance k1_chk293.dec : ∀ (v3215 : BitVec 32), Decidable (k1_chk293 v3215) := fun v3215 => decidable_of_iff' _ (Iff.of_eq (k1_chk293.eq_1 v3215))
theorem k1_off439_inb : ∀ (v3215 : BitVec 32) (k1_hw293 : k1_chk293 v3215), ∀ a, (k1_off439 v3215) a + S1x64.size a ≤ S50000x64.size a := fun v3215 k1_hw293 => k1_hw293

def k1_off440 (v3216 : BitVec 32) : Fin 2 → Nat :=
  let v3220 : Index := Scalar.indexCast v3216
  let c0_1024 : Index := 0#32
  ![v3220.toNat, 0]

def k1_off441 (v3216 : BitVec 32) : Fin 2 → Nat :=
  let v3228 : Index := Scalar.indexCast v3216
  let c0_1026 : Index := 0#32
  ![v3228.toNat, 0]

def k1_chk294 (v3216 : BitVec 32) : Prop :=
  (∀ a, (k1_off440 v3216) a + S1x64.size a ≤ S16384x64.size a) ∧
  (∀ a, (k1_off441 v3216) a + S1x1.size a ≤ S16384x1.size a)
instance k1_chk294.dec : ∀ (v3216 : BitVec 32), Decidable (k1_chk294 v3216) := fun v3216 => decidable_of_iff' _ (Iff.of_eq (k1_chk294.eq_1 v3216))
theorem k1_off440_inb : ∀ (v3216 : BitVec 32) (k1_hw294 : k1_chk294 v3216), ∀ a, (k1_off440 v3216) a + S1x64.size a ≤ S16384x64.size a := fun v3216 k1_hw294 => k1_hw294.1
theorem k1_off441_inb : ∀ (v3216 : BitVec 32) (k1_hw294 : k1_chk294 v3216), ∀ a, (k1_off441 v3216) a + S1x1.size a ≤ S16384x1.size a := fun v3216 k1_hw294 => k1_hw294.2

def k1_off442 (v3237 : BitVec 32) : Fin 2 → Nat :=
  let v3239 : Index := Scalar.indexCast v3237
  let c0_1030 : Index := 0#32
  ![v3239.toNat, 0]

def k1_chk295 (v3237 : BitVec 32) : Prop :=
  (∀ a, (k1_off442 v3237) a + S1x64.size a ≤ S50000x64.size a)
instance k1_chk295.dec : ∀ (v3237 : BitVec 32), Decidable (k1_chk295 v3237) := fun v3237 => decidable_of_iff' _ (Iff.of_eq (k1_chk295.eq_1 v3237))
theorem k1_off442_inb : ∀ (v3237 : BitVec 32) (k1_hw295 : k1_chk295 v3237), ∀ a, (k1_off442 v3237) a + S1x64.size a ≤ S50000x64.size a := fun v3237 k1_hw295 => k1_hw295

def k1_off443 (v3238 : BitVec 32) : Fin 2 → Nat :=
  let v3242 : Index := Scalar.indexCast v3238
  let c0_1031 : Index := 0#32
  ![v3242.toNat, 0]

def k1_off444 (v3238 : BitVec 32) : Fin 2 → Nat :=
  let v3250 : Index := Scalar.indexCast v3238
  let c0_1033 : Index := 0#32
  ![v3250.toNat, 0]

def k1_chk296 (v3238 : BitVec 32) : Prop :=
  (∀ a, (k1_off443 v3238) a + S1x64.size a ≤ S16384x64.size a) ∧
  (∀ a, (k1_off444 v3238) a + S1x1.size a ≤ S16384x1.size a)
instance k1_chk296.dec : ∀ (v3238 : BitVec 32), Decidable (k1_chk296 v3238) := fun v3238 => decidable_of_iff' _ (Iff.of_eq (k1_chk296.eq_1 v3238))
theorem k1_off443_inb : ∀ (v3238 : BitVec 32) (k1_hw296 : k1_chk296 v3238), ∀ a, (k1_off443 v3238) a + S1x64.size a ≤ S16384x64.size a := fun v3238 k1_hw296 => k1_hw296.1
theorem k1_off444_inb : ∀ (v3238 : BitVec 32) (k1_hw296 : k1_chk296 v3238), ∀ a, (k1_off444 v3238) a + S1x1.size a ≤ S16384x1.size a := fun v3238 k1_hw296 => k1_hw296.2

def k1_off445 (v3259 : BitVec 32) : Fin 2 → Nat :=
  let v3261 : Index := Scalar.indexCast v3259
  let c0_1037 : Index := 0#32
  ![v3261.toNat, 0]

def k1_chk297 (v3259 : BitVec 32) : Prop :=
  (∀ a, (k1_off445 v3259) a + S1x64.size a ≤ S50000x64.size a)
instance k1_chk297.dec : ∀ (v3259 : BitVec 32), Decidable (k1_chk297 v3259) := fun v3259 => decidable_of_iff' _ (Iff.of_eq (k1_chk297.eq_1 v3259))
theorem k1_off445_inb : ∀ (v3259 : BitVec 32) (k1_hw297 : k1_chk297 v3259), ∀ a, (k1_off445 v3259) a + S1x64.size a ≤ S50000x64.size a := fun v3259 k1_hw297 => k1_hw297

def k1_off446 (v3260 : BitVec 32) : Fin 2 → Nat :=
  let v3264 : Index := Scalar.indexCast v3260
  let c0_1038 : Index := 0#32
  ![v3264.toNat, 0]

def k1_off447 (v3260 : BitVec 32) : Fin 2 → Nat :=
  let v3272 : Index := Scalar.indexCast v3260
  let c0_1040 : Index := 0#32
  ![v3272.toNat, 0]

def k1_chk298 (v3260 : BitVec 32) : Prop :=
  (∀ a, (k1_off446 v3260) a + S1x64.size a ≤ S16384x64.size a) ∧
  (∀ a, (k1_off447 v3260) a + S1x1.size a ≤ S16384x1.size a)
instance k1_chk298.dec : ∀ (v3260 : BitVec 32), Decidable (k1_chk298 v3260) := fun v3260 => decidable_of_iff' _ (Iff.of_eq (k1_chk298.eq_1 v3260))
theorem k1_off446_inb : ∀ (v3260 : BitVec 32) (k1_hw298 : k1_chk298 v3260), ∀ a, (k1_off446 v3260) a + S1x64.size a ≤ S16384x64.size a := fun v3260 k1_hw298 => k1_hw298.1
theorem k1_off447_inb : ∀ (v3260 : BitVec 32) (k1_hw298 : k1_chk298 v3260), ∀ a, (k1_off447 v3260) a + S1x1.size a ≤ S16384x1.size a := fun v3260 k1_hw298 => k1_hw298.2

def k1_off448 (v3281 : BitVec 32) : Fin 2 → Nat :=
  let v3283 : Index := Scalar.indexCast v3281
  let c0_1044 : Index := 0#32
  ![v3283.toNat, 0]

def k1_chk299 (v3281 : BitVec 32) : Prop :=
  (∀ a, (k1_off448 v3281) a + S1x64.size a ≤ S50000x64.size a)
instance k1_chk299.dec : ∀ (v3281 : BitVec 32), Decidable (k1_chk299 v3281) := fun v3281 => decidable_of_iff' _ (Iff.of_eq (k1_chk299.eq_1 v3281))
theorem k1_off448_inb : ∀ (v3281 : BitVec 32) (k1_hw299 : k1_chk299 v3281), ∀ a, (k1_off448 v3281) a + S1x64.size a ≤ S50000x64.size a := fun v3281 k1_hw299 => k1_hw299

def k1_off449 (v3282 : BitVec 32) : Fin 2 → Nat :=
  let v3286 : Index := Scalar.indexCast v3282
  let c0_1045 : Index := 0#32
  ![v3286.toNat, 0]

def k1_off450 (v3282 : BitVec 32) : Fin 2 → Nat :=
  let v3294 : Index := Scalar.indexCast v3282
  let c0_1047 : Index := 0#32
  ![v3294.toNat, 0]

def k1_chk300 (v3282 : BitVec 32) : Prop :=
  (∀ a, (k1_off449 v3282) a + S1x64.size a ≤ S16384x64.size a) ∧
  (∀ a, (k1_off450 v3282) a + S1x1.size a ≤ S16384x1.size a)
instance k1_chk300.dec : ∀ (v3282 : BitVec 32), Decidable (k1_chk300 v3282) := fun v3282 => decidable_of_iff' _ (Iff.of_eq (k1_chk300.eq_1 v3282))
theorem k1_off449_inb : ∀ (v3282 : BitVec 32) (k1_hw300 : k1_chk300 v3282), ∀ a, (k1_off449 v3282) a + S1x64.size a ≤ S16384x64.size a := fun v3282 k1_hw300 => k1_hw300.1
theorem k1_off450_inb : ∀ (v3282 : BitVec 32) (k1_hw300 : k1_chk300 v3282), ∀ a, (k1_off450 v3282) a + S1x1.size a ≤ S16384x1.size a := fun v3282 k1_hw300 => k1_hw300.2

def k1_off451 (v3303 : BitVec 32) : Fin 2 → Nat :=
  let v3305 : Index := Scalar.indexCast v3303
  let c0_1051 : Index := 0#32
  ![v3305.toNat, 0]

def k1_chk301 (v3303 : BitVec 32) : Prop :=
  (∀ a, (k1_off451 v3303) a + S1x64.size a ≤ S50000x64.size a)
instance k1_chk301.dec : ∀ (v3303 : BitVec 32), Decidable (k1_chk301 v3303) := fun v3303 => decidable_of_iff' _ (Iff.of_eq (k1_chk301.eq_1 v3303))
theorem k1_off451_inb : ∀ (v3303 : BitVec 32) (k1_hw301 : k1_chk301 v3303), ∀ a, (k1_off451 v3303) a + S1x64.size a ≤ S50000x64.size a := fun v3303 k1_hw301 => k1_hw301

def k1_off452 (v3304 : BitVec 32) : Fin 2 → Nat :=
  let v3308 : Index := Scalar.indexCast v3304
  let c0_1052 : Index := 0#32
  ![v3308.toNat, 0]

def k1_off453 (v3304 : BitVec 32) : Fin 2 → Nat :=
  let v3316 : Index := Scalar.indexCast v3304
  let c0_1054 : Index := 0#32
  ![v3316.toNat, 0]

def k1_chk302 (v3304 : BitVec 32) : Prop :=
  (∀ a, (k1_off452 v3304) a + S1x64.size a ≤ S16384x64.size a) ∧
  (∀ a, (k1_off453 v3304) a + S1x1.size a ≤ S16384x1.size a)
instance k1_chk302.dec : ∀ (v3304 : BitVec 32), Decidable (k1_chk302 v3304) := fun v3304 => decidable_of_iff' _ (Iff.of_eq (k1_chk302.eq_1 v3304))
theorem k1_off452_inb : ∀ (v3304 : BitVec 32) (k1_hw302 : k1_chk302 v3304), ∀ a, (k1_off452 v3304) a + S1x64.size a ≤ S16384x64.size a := fun v3304 k1_hw302 => k1_hw302.1
theorem k1_off453_inb : ∀ (v3304 : BitVec 32) (k1_hw302 : k1_chk302 v3304), ∀ a, (k1_off453 v3304) a + S1x1.size a ≤ S16384x1.size a := fun v3304 k1_hw302 => k1_hw302.2

def k1_off454 (v3325 : BitVec 32) : Fin 2 → Nat :=
  let v3327 : Index := Scalar.indexCast v3325
  let c0_1058 : Index := 0#32
  ![v3327.toNat, 0]

def k1_chk303 (v3325 : BitVec 32) : Prop :=
  (∀ a, (k1_off454 v3325) a + S1x64.size a ≤ S50000x64.size a)
instance k1_chk303.dec : ∀ (v3325 : BitVec 32), Decidable (k1_chk303 v3325) := fun v3325 => decidable_of_iff' _ (Iff.of_eq (k1_chk303.eq_1 v3325))
theorem k1_off454_inb : ∀ (v3325 : BitVec 32) (k1_hw303 : k1_chk303 v3325), ∀ a, (k1_off454 v3325) a + S1x64.size a ≤ S50000x64.size a := fun v3325 k1_hw303 => k1_hw303

def k1_off455 (v3326 : BitVec 32) : Fin 2 → Nat :=
  let v3330 : Index := Scalar.indexCast v3326
  let c0_1059 : Index := 0#32
  ![v3330.toNat, 0]

def k1_off456 (v3326 : BitVec 32) : Fin 2 → Nat :=
  let v3338 : Index := Scalar.indexCast v3326
  let c0_1061 : Index := 0#32
  ![v3338.toNat, 0]

def k1_chk304 (v3326 : BitVec 32) : Prop :=
  (∀ a, (k1_off455 v3326) a + S1x64.size a ≤ S16384x64.size a) ∧
  (∀ a, (k1_off456 v3326) a + S1x1.size a ≤ S16384x1.size a)
instance k1_chk304.dec : ∀ (v3326 : BitVec 32), Decidable (k1_chk304 v3326) := fun v3326 => decidable_of_iff' _ (Iff.of_eq (k1_chk304.eq_1 v3326))
theorem k1_off455_inb : ∀ (v3326 : BitVec 32) (k1_hw304 : k1_chk304 v3326), ∀ a, (k1_off455 v3326) a + S1x64.size a ≤ S16384x64.size a := fun v3326 k1_hw304 => k1_hw304.1
theorem k1_off456_inb : ∀ (v3326 : BitVec 32) (k1_hw304 : k1_chk304 v3326), ∀ a, (k1_off456 v3326) a + S1x1.size a ≤ S16384x1.size a := fun v3326 k1_hw304 => k1_hw304.2

def k1_off457 (v3347 : BitVec 32) : Fin 2 → Nat :=
  let v3349 : Index := Scalar.indexCast v3347
  let c0_1065 : Index := 0#32
  ![v3349.toNat, 0]

def k1_chk305 (v3347 : BitVec 32) : Prop :=
  (∀ a, (k1_off457 v3347) a + S1x64.size a ≤ S50000x64.size a)
instance k1_chk305.dec : ∀ (v3347 : BitVec 32), Decidable (k1_chk305 v3347) := fun v3347 => decidable_of_iff' _ (Iff.of_eq (k1_chk305.eq_1 v3347))
theorem k1_off457_inb : ∀ (v3347 : BitVec 32) (k1_hw305 : k1_chk305 v3347), ∀ a, (k1_off457 v3347) a + S1x64.size a ≤ S50000x64.size a := fun v3347 k1_hw305 => k1_hw305

def k1_off458 (v3348 : BitVec 32) : Fin 2 → Nat :=
  let v3352 : Index := Scalar.indexCast v3348
  let c0_1066 : Index := 0#32
  ![v3352.toNat, 0]

def k1_off459 (v3348 : BitVec 32) : Fin 2 → Nat :=
  let v3360 : Index := Scalar.indexCast v3348
  let c0_1068 : Index := 0#32
  ![v3360.toNat, 0]

def k1_chk306 (v3348 : BitVec 32) : Prop :=
  (∀ a, (k1_off458 v3348) a + S1x64.size a ≤ S16384x64.size a) ∧
  (∀ a, (k1_off459 v3348) a + S1x1.size a ≤ S16384x1.size a)
instance k1_chk306.dec : ∀ (v3348 : BitVec 32), Decidable (k1_chk306 v3348) := fun v3348 => decidable_of_iff' _ (Iff.of_eq (k1_chk306.eq_1 v3348))
theorem k1_off458_inb : ∀ (v3348 : BitVec 32) (k1_hw306 : k1_chk306 v3348), ∀ a, (k1_off458 v3348) a + S1x64.size a ≤ S16384x64.size a := fun v3348 k1_hw306 => k1_hw306.1
theorem k1_off459_inb : ∀ (v3348 : BitVec 32) (k1_hw306 : k1_chk306 v3348), ∀ a, (k1_off459 v3348) a + S1x1.size a ≤ S16384x1.size a := fun v3348 k1_hw306 => k1_hw306.2

def k1_off460 (v3369 : BitVec 32) : Fin 2 → Nat :=
  let v3371 : Index := Scalar.indexCast v3369
  let c0_1072 : Index := 0#32
  ![v3371.toNat, 0]

def k1_chk307 (v3369 : BitVec 32) : Prop :=
  (∀ a, (k1_off460 v3369) a + S1x64.size a ≤ S50000x64.size a)
instance k1_chk307.dec : ∀ (v3369 : BitVec 32), Decidable (k1_chk307 v3369) := fun v3369 => decidable_of_iff' _ (Iff.of_eq (k1_chk307.eq_1 v3369))
theorem k1_off460_inb : ∀ (v3369 : BitVec 32) (k1_hw307 : k1_chk307 v3369), ∀ a, (k1_off460 v3369) a + S1x64.size a ≤ S50000x64.size a := fun v3369 k1_hw307 => k1_hw307

def k1_off461 (v3370 : BitVec 32) : Fin 2 → Nat :=
  let v3374 : Index := Scalar.indexCast v3370
  let c0_1073 : Index := 0#32
  ![v3374.toNat, 0]

def k1_off462 (v3370 : BitVec 32) : Fin 2 → Nat :=
  let v3382 : Index := Scalar.indexCast v3370
  let c0_1075 : Index := 0#32
  ![v3382.toNat, 0]

def k1_chk308 (v3370 : BitVec 32) : Prop :=
  (∀ a, (k1_off461 v3370) a + S1x64.size a ≤ S16384x64.size a) ∧
  (∀ a, (k1_off462 v3370) a + S1x1.size a ≤ S16384x1.size a)
instance k1_chk308.dec : ∀ (v3370 : BitVec 32), Decidable (k1_chk308 v3370) := fun v3370 => decidable_of_iff' _ (Iff.of_eq (k1_chk308.eq_1 v3370))
theorem k1_off461_inb : ∀ (v3370 : BitVec 32) (k1_hw308 : k1_chk308 v3370), ∀ a, (k1_off461 v3370) a + S1x64.size a ≤ S16384x64.size a := fun v3370 k1_hw308 => k1_hw308.1
theorem k1_off462_inb : ∀ (v3370 : BitVec 32) (k1_hw308 : k1_chk308 v3370), ∀ a, (k1_off462 v3370) a + S1x1.size a ≤ S16384x1.size a := fun v3370 k1_hw308 => k1_hw308.2

def k1_off463 (v3391 : BitVec 32) : Fin 2 → Nat :=
  let v3393 : Index := Scalar.indexCast v3391
  let c0_1079 : Index := 0#32
  ![v3393.toNat, 0]

def k1_chk309 (v3391 : BitVec 32) : Prop :=
  (∀ a, (k1_off463 v3391) a + S1x64.size a ≤ S50000x64.size a)
instance k1_chk309.dec : ∀ (v3391 : BitVec 32), Decidable (k1_chk309 v3391) := fun v3391 => decidable_of_iff' _ (Iff.of_eq (k1_chk309.eq_1 v3391))
theorem k1_off463_inb : ∀ (v3391 : BitVec 32) (k1_hw309 : k1_chk309 v3391), ∀ a, (k1_off463 v3391) a + S1x64.size a ≤ S50000x64.size a := fun v3391 k1_hw309 => k1_hw309

def k1_off464 (v3392 : BitVec 32) : Fin 2 → Nat :=
  let v3396 : Index := Scalar.indexCast v3392
  let c0_1080 : Index := 0#32
  ![v3396.toNat, 0]

def k1_off465 (v3392 : BitVec 32) : Fin 2 → Nat :=
  let v3404 : Index := Scalar.indexCast v3392
  let c0_1082 : Index := 0#32
  ![v3404.toNat, 0]

def k1_chk310 (v3392 : BitVec 32) : Prop :=
  (∀ a, (k1_off464 v3392) a + S1x64.size a ≤ S16384x64.size a) ∧
  (∀ a, (k1_off465 v3392) a + S1x1.size a ≤ S16384x1.size a)
instance k1_chk310.dec : ∀ (v3392 : BitVec 32), Decidable (k1_chk310 v3392) := fun v3392 => decidable_of_iff' _ (Iff.of_eq (k1_chk310.eq_1 v3392))
theorem k1_off464_inb : ∀ (v3392 : BitVec 32) (k1_hw310 : k1_chk310 v3392), ∀ a, (k1_off464 v3392) a + S1x64.size a ≤ S16384x64.size a := fun v3392 k1_hw310 => k1_hw310.1
theorem k1_off465_inb : ∀ (v3392 : BitVec 32) (k1_hw310 : k1_chk310 v3392), ∀ a, (k1_off465 v3392) a + S1x1.size a ≤ S16384x1.size a := fun v3392 k1_hw310 => k1_hw310.2

def k1_off466 (v3413 : BitVec 32) : Fin 2 → Nat :=
  let v3415 : Index := Scalar.indexCast v3413
  let c0_1086 : Index := 0#32
  ![v3415.toNat, 0]

def k1_chk311 (v3413 : BitVec 32) : Prop :=
  (∀ a, (k1_off466 v3413) a + S1x64.size a ≤ S50000x64.size a)
instance k1_chk311.dec : ∀ (v3413 : BitVec 32), Decidable (k1_chk311 v3413) := fun v3413 => decidable_of_iff' _ (Iff.of_eq (k1_chk311.eq_1 v3413))
theorem k1_off466_inb : ∀ (v3413 : BitVec 32) (k1_hw311 : k1_chk311 v3413), ∀ a, (k1_off466 v3413) a + S1x64.size a ≤ S50000x64.size a := fun v3413 k1_hw311 => k1_hw311

def k1_off467 (v3414 : BitVec 32) : Fin 2 → Nat :=
  let v3418 : Index := Scalar.indexCast v3414
  let c0_1087 : Index := 0#32
  ![v3418.toNat, 0]

def k1_off468 (v3414 : BitVec 32) : Fin 2 → Nat :=
  let v3426 : Index := Scalar.indexCast v3414
  let c0_1089 : Index := 0#32
  ![v3426.toNat, 0]

def k1_chk312 (v3414 : BitVec 32) : Prop :=
  (∀ a, (k1_off467 v3414) a + S1x64.size a ≤ S16384x64.size a) ∧
  (∀ a, (k1_off468 v3414) a + S1x1.size a ≤ S16384x1.size a)
instance k1_chk312.dec : ∀ (v3414 : BitVec 32), Decidable (k1_chk312 v3414) := fun v3414 => decidable_of_iff' _ (Iff.of_eq (k1_chk312.eq_1 v3414))
theorem k1_off467_inb : ∀ (v3414 : BitVec 32) (k1_hw312 : k1_chk312 v3414), ∀ a, (k1_off467 v3414) a + S1x64.size a ≤ S16384x64.size a := fun v3414 k1_hw312 => k1_hw312.1
theorem k1_off468_inb : ∀ (v3414 : BitVec 32) (k1_hw312 : k1_chk312 v3414), ∀ a, (k1_off468 v3414) a + S1x1.size a ≤ S16384x1.size a := fun v3414 k1_hw312 => k1_hw312.2

def k1_off469 (v3435 : BitVec 32) : Fin 2 → Nat :=
  let v3437 : Index := Scalar.indexCast v3435
  let c0_1093 : Index := 0#32
  ![v3437.toNat, 0]

def k1_chk313 (v3435 : BitVec 32) : Prop :=
  (∀ a, (k1_off469 v3435) a + S1x64.size a ≤ S50000x64.size a)
instance k1_chk313.dec : ∀ (v3435 : BitVec 32), Decidable (k1_chk313 v3435) := fun v3435 => decidable_of_iff' _ (Iff.of_eq (k1_chk313.eq_1 v3435))
theorem k1_off469_inb : ∀ (v3435 : BitVec 32) (k1_hw313 : k1_chk313 v3435), ∀ a, (k1_off469 v3435) a + S1x64.size a ≤ S50000x64.size a := fun v3435 k1_hw313 => k1_hw313

def k1_off470 (v3436 : BitVec 32) : Fin 2 → Nat :=
  let v3440 : Index := Scalar.indexCast v3436
  let c0_1094 : Index := 0#32
  ![v3440.toNat, 0]

def k1_off471 (v3436 : BitVec 32) : Fin 2 → Nat :=
  let v3448 : Index := Scalar.indexCast v3436
  let c0_1096 : Index := 0#32
  ![v3448.toNat, 0]

def k1_chk314 (v3436 : BitVec 32) : Prop :=
  (∀ a, (k1_off470 v3436) a + S1x64.size a ≤ S16384x64.size a) ∧
  (∀ a, (k1_off471 v3436) a + S1x1.size a ≤ S16384x1.size a)
instance k1_chk314.dec : ∀ (v3436 : BitVec 32), Decidable (k1_chk314 v3436) := fun v3436 => decidable_of_iff' _ (Iff.of_eq (k1_chk314.eq_1 v3436))
theorem k1_off470_inb : ∀ (v3436 : BitVec 32) (k1_hw314 : k1_chk314 v3436), ∀ a, (k1_off470 v3436) a + S1x64.size a ≤ S16384x64.size a := fun v3436 k1_hw314 => k1_hw314.1
theorem k1_off471_inb : ∀ (v3436 : BitVec 32) (k1_hw314 : k1_chk314 v3436), ∀ a, (k1_off471 v3436) a + S1x1.size a ≤ S16384x1.size a := fun v3436 k1_hw314 => k1_hw314.2

def k1_off472 (v3457 : BitVec 32) : Fin 2 → Nat :=
  let v3459 : Index := Scalar.indexCast v3457
  let c0_1100 : Index := 0#32
  ![v3459.toNat, 0]

def k1_chk315 (v3457 : BitVec 32) : Prop :=
  (∀ a, (k1_off472 v3457) a + S1x64.size a ≤ S50000x64.size a)
instance k1_chk315.dec : ∀ (v3457 : BitVec 32), Decidable (k1_chk315 v3457) := fun v3457 => decidable_of_iff' _ (Iff.of_eq (k1_chk315.eq_1 v3457))
theorem k1_off472_inb : ∀ (v3457 : BitVec 32) (k1_hw315 : k1_chk315 v3457), ∀ a, (k1_off472 v3457) a + S1x64.size a ≤ S50000x64.size a := fun v3457 k1_hw315 => k1_hw315

def k1_off473 (v3458 : BitVec 32) : Fin 2 → Nat :=
  let v3462 : Index := Scalar.indexCast v3458
  let c0_1101 : Index := 0#32
  ![v3462.toNat, 0]

def k1_off474 (v3458 : BitVec 32) : Fin 2 → Nat :=
  let v3470 : Index := Scalar.indexCast v3458
  let c0_1103 : Index := 0#32
  ![v3470.toNat, 0]

def k1_chk316 (v3458 : BitVec 32) : Prop :=
  (∀ a, (k1_off473 v3458) a + S1x64.size a ≤ S16384x64.size a) ∧
  (∀ a, (k1_off474 v3458) a + S1x1.size a ≤ S16384x1.size a)
instance k1_chk316.dec : ∀ (v3458 : BitVec 32), Decidable (k1_chk316 v3458) := fun v3458 => decidable_of_iff' _ (Iff.of_eq (k1_chk316.eq_1 v3458))
theorem k1_off473_inb : ∀ (v3458 : BitVec 32) (k1_hw316 : k1_chk316 v3458), ∀ a, (k1_off473 v3458) a + S1x64.size a ≤ S16384x64.size a := fun v3458 k1_hw316 => k1_hw316.1
theorem k1_off474_inb : ∀ (v3458 : BitVec 32) (k1_hw316 : k1_chk316 v3458), ∀ a, (k1_off474 v3458) a + S1x1.size a ≤ S16384x1.size a := fun v3458 k1_hw316 => k1_hw316.2

def k1_off475 (v3479 : BitVec 32) : Fin 2 → Nat :=
  let v3481 : Index := Scalar.indexCast v3479
  let c0_1107 : Index := 0#32
  ![v3481.toNat, 0]

def k1_chk317 (v3479 : BitVec 32) : Prop :=
  (∀ a, (k1_off475 v3479) a + S1x64.size a ≤ S50000x64.size a)
instance k1_chk317.dec : ∀ (v3479 : BitVec 32), Decidable (k1_chk317 v3479) := fun v3479 => decidable_of_iff' _ (Iff.of_eq (k1_chk317.eq_1 v3479))
theorem k1_off475_inb : ∀ (v3479 : BitVec 32) (k1_hw317 : k1_chk317 v3479), ∀ a, (k1_off475 v3479) a + S1x64.size a ≤ S50000x64.size a := fun v3479 k1_hw317 => k1_hw317

def k1_off476 (v3480 : BitVec 32) : Fin 2 → Nat :=
  let v3484 : Index := Scalar.indexCast v3480
  let c0_1108 : Index := 0#32
  ![v3484.toNat, 0]

def k1_off477 (v3480 : BitVec 32) : Fin 2 → Nat :=
  let v3492 : Index := Scalar.indexCast v3480
  let c0_1110 : Index := 0#32
  ![v3492.toNat, 0]

def k1_chk318 (v3480 : BitVec 32) : Prop :=
  (∀ a, (k1_off476 v3480) a + S1x64.size a ≤ S16384x64.size a) ∧
  (∀ a, (k1_off477 v3480) a + S1x1.size a ≤ S16384x1.size a)
instance k1_chk318.dec : ∀ (v3480 : BitVec 32), Decidable (k1_chk318 v3480) := fun v3480 => decidable_of_iff' _ (Iff.of_eq (k1_chk318.eq_1 v3480))
theorem k1_off476_inb : ∀ (v3480 : BitVec 32) (k1_hw318 : k1_chk318 v3480), ∀ a, (k1_off476 v3480) a + S1x64.size a ≤ S16384x64.size a := fun v3480 k1_hw318 => k1_hw318.1
theorem k1_off477_inb : ∀ (v3480 : BitVec 32) (k1_hw318 : k1_chk318 v3480), ∀ a, (k1_off477 v3480) a + S1x1.size a ≤ S16384x1.size a := fun v3480 k1_hw318 => k1_hw318.2

def k1_off478 (v3501 : BitVec 32) : Fin 2 → Nat :=
  let v3503 : Index := Scalar.indexCast v3501
  let c0_1114 : Index := 0#32
  ![v3503.toNat, 0]

def k1_chk319 (v3501 : BitVec 32) : Prop :=
  (∀ a, (k1_off478 v3501) a + S1x64.size a ≤ S50000x64.size a)
instance k1_chk319.dec : ∀ (v3501 : BitVec 32), Decidable (k1_chk319 v3501) := fun v3501 => decidable_of_iff' _ (Iff.of_eq (k1_chk319.eq_1 v3501))
theorem k1_off478_inb : ∀ (v3501 : BitVec 32) (k1_hw319 : k1_chk319 v3501), ∀ a, (k1_off478 v3501) a + S1x64.size a ≤ S50000x64.size a := fun v3501 k1_hw319 => k1_hw319

def k1_off479 (v3502 : BitVec 32) : Fin 2 → Nat :=
  let v3506 : Index := Scalar.indexCast v3502
  let c0_1115 : Index := 0#32
  ![v3506.toNat, 0]

def k1_off480 (v3502 : BitVec 32) : Fin 2 → Nat :=
  let v3514 : Index := Scalar.indexCast v3502
  let c0_1117 : Index := 0#32
  ![v3514.toNat, 0]

def k1_chk320 (v3502 : BitVec 32) : Prop :=
  (∀ a, (k1_off479 v3502) a + S1x64.size a ≤ S16384x64.size a) ∧
  (∀ a, (k1_off480 v3502) a + S1x1.size a ≤ S16384x1.size a)
instance k1_chk320.dec : ∀ (v3502 : BitVec 32), Decidable (k1_chk320 v3502) := fun v3502 => decidable_of_iff' _ (Iff.of_eq (k1_chk320.eq_1 v3502))
theorem k1_off479_inb : ∀ (v3502 : BitVec 32) (k1_hw320 : k1_chk320 v3502), ∀ a, (k1_off479 v3502) a + S1x64.size a ≤ S16384x64.size a := fun v3502 k1_hw320 => k1_hw320.1
theorem k1_off480_inb : ∀ (v3502 : BitVec 32) (k1_hw320 : k1_chk320 v3502), ∀ a, (k1_off480 v3502) a + S1x1.size a ≤ S16384x1.size a := fun v3502 k1_hw320 => k1_hw320.2

def k1_off481 (v3523 : BitVec 32) : Fin 2 → Nat :=
  let v3525 : Index := Scalar.indexCast v3523
  let c0_1121 : Index := 0#32
  ![v3525.toNat, 0]

def k1_chk321 (v3523 : BitVec 32) : Prop :=
  (∀ a, (k1_off481 v3523) a + S1x64.size a ≤ S50000x64.size a)
instance k1_chk321.dec : ∀ (v3523 : BitVec 32), Decidable (k1_chk321 v3523) := fun v3523 => decidable_of_iff' _ (Iff.of_eq (k1_chk321.eq_1 v3523))
theorem k1_off481_inb : ∀ (v3523 : BitVec 32) (k1_hw321 : k1_chk321 v3523), ∀ a, (k1_off481 v3523) a + S1x64.size a ≤ S50000x64.size a := fun v3523 k1_hw321 => k1_hw321

def k1_off482 (v3524 : BitVec 32) : Fin 2 → Nat :=
  let v3528 : Index := Scalar.indexCast v3524
  let c0_1122 : Index := 0#32
  ![v3528.toNat, 0]

def k1_off483 (v3524 : BitVec 32) : Fin 2 → Nat :=
  let v3536 : Index := Scalar.indexCast v3524
  let c0_1124 : Index := 0#32
  ![v3536.toNat, 0]

def k1_chk322 (v3524 : BitVec 32) : Prop :=
  (∀ a, (k1_off482 v3524) a + S1x64.size a ≤ S16384x64.size a) ∧
  (∀ a, (k1_off483 v3524) a + S1x1.size a ≤ S16384x1.size a)
instance k1_chk322.dec : ∀ (v3524 : BitVec 32), Decidable (k1_chk322 v3524) := fun v3524 => decidable_of_iff' _ (Iff.of_eq (k1_chk322.eq_1 v3524))
theorem k1_off482_inb : ∀ (v3524 : BitVec 32) (k1_hw322 : k1_chk322 v3524), ∀ a, (k1_off482 v3524) a + S1x64.size a ≤ S16384x64.size a := fun v3524 k1_hw322 => k1_hw322.1
theorem k1_off483_inb : ∀ (v3524 : BitVec 32) (k1_hw322 : k1_chk322 v3524), ∀ a, (k1_off483 v3524) a + S1x1.size a ≤ S16384x1.size a := fun v3524 k1_hw322 => k1_hw322.2

def k1_off484 (v3545 : BitVec 32) : Fin 2 → Nat :=
  let v3547 : Index := Scalar.indexCast v3545
  let c0_1128 : Index := 0#32
  ![v3547.toNat, 0]

def k1_chk323 (v3545 : BitVec 32) : Prop :=
  (∀ a, (k1_off484 v3545) a + S1x64.size a ≤ S50000x64.size a)
instance k1_chk323.dec : ∀ (v3545 : BitVec 32), Decidable (k1_chk323 v3545) := fun v3545 => decidable_of_iff' _ (Iff.of_eq (k1_chk323.eq_1 v3545))
theorem k1_off484_inb : ∀ (v3545 : BitVec 32) (k1_hw323 : k1_chk323 v3545), ∀ a, (k1_off484 v3545) a + S1x64.size a ≤ S50000x64.size a := fun v3545 k1_hw323 => k1_hw323

def k1_off485 (v3546 : BitVec 32) : Fin 2 → Nat :=
  let v3550 : Index := Scalar.indexCast v3546
  let c0_1129 : Index := 0#32
  ![v3550.toNat, 0]

def k1_off486 (v3546 : BitVec 32) : Fin 2 → Nat :=
  let v3558 : Index := Scalar.indexCast v3546
  let c0_1131 : Index := 0#32
  ![v3558.toNat, 0]

def k1_chk324 (v3546 : BitVec 32) : Prop :=
  (∀ a, (k1_off485 v3546) a + S1x64.size a ≤ S16384x64.size a) ∧
  (∀ a, (k1_off486 v3546) a + S1x1.size a ≤ S16384x1.size a)
instance k1_chk324.dec : ∀ (v3546 : BitVec 32), Decidable (k1_chk324 v3546) := fun v3546 => decidable_of_iff' _ (Iff.of_eq (k1_chk324.eq_1 v3546))
theorem k1_off485_inb : ∀ (v3546 : BitVec 32) (k1_hw324 : k1_chk324 v3546), ∀ a, (k1_off485 v3546) a + S1x64.size a ≤ S16384x64.size a := fun v3546 k1_hw324 => k1_hw324.1
theorem k1_off486_inb : ∀ (v3546 : BitVec 32) (k1_hw324 : k1_chk324 v3546), ∀ a, (k1_off486 v3546) a + S1x1.size a ≤ S16384x1.size a := fun v3546 k1_hw324 => k1_hw324.2

def k1_off487 (v3567 : BitVec 32) : Fin 2 → Nat :=
  let v3569 : Index := Scalar.indexCast v3567
  let c0_1135 : Index := 0#32
  ![v3569.toNat, 0]

def k1_chk325 (v3567 : BitVec 32) : Prop :=
  (∀ a, (k1_off487 v3567) a + S1x64.size a ≤ S50000x64.size a)
instance k1_chk325.dec : ∀ (v3567 : BitVec 32), Decidable (k1_chk325 v3567) := fun v3567 => decidable_of_iff' _ (Iff.of_eq (k1_chk325.eq_1 v3567))
theorem k1_off487_inb : ∀ (v3567 : BitVec 32) (k1_hw325 : k1_chk325 v3567), ∀ a, (k1_off487 v3567) a + S1x64.size a ≤ S50000x64.size a := fun v3567 k1_hw325 => k1_hw325

def k1_off488 (v3568 : BitVec 32) : Fin 2 → Nat :=
  let v3572 : Index := Scalar.indexCast v3568
  let c0_1136 : Index := 0#32
  ![v3572.toNat, 0]

def k1_off489 (v3568 : BitVec 32) : Fin 2 → Nat :=
  let v3580 : Index := Scalar.indexCast v3568
  let c0_1138 : Index := 0#32
  ![v3580.toNat, 0]

def k1_chk326 (v3568 : BitVec 32) : Prop :=
  (∀ a, (k1_off488 v3568) a + S1x64.size a ≤ S16384x64.size a) ∧
  (∀ a, (k1_off489 v3568) a + S1x1.size a ≤ S16384x1.size a)
instance k1_chk326.dec : ∀ (v3568 : BitVec 32), Decidable (k1_chk326 v3568) := fun v3568 => decidable_of_iff' _ (Iff.of_eq (k1_chk326.eq_1 v3568))
theorem k1_off488_inb : ∀ (v3568 : BitVec 32) (k1_hw326 : k1_chk326 v3568), ∀ a, (k1_off488 v3568) a + S1x64.size a ≤ S16384x64.size a := fun v3568 k1_hw326 => k1_hw326.1
theorem k1_off489_inb : ∀ (v3568 : BitVec 32) (k1_hw326 : k1_chk326 v3568), ∀ a, (k1_off489 v3568) a + S1x1.size a ≤ S16384x1.size a := fun v3568 k1_hw326 => k1_hw326.2

def k1_off490 (v3589 : BitVec 32) : Fin 2 → Nat :=
  let v3591 : Index := Scalar.indexCast v3589
  let c0_1142 : Index := 0#32
  ![v3591.toNat, 0]

def k1_chk327 (v3589 : BitVec 32) : Prop :=
  (∀ a, (k1_off490 v3589) a + S1x64.size a ≤ S50000x64.size a)
instance k1_chk327.dec : ∀ (v3589 : BitVec 32), Decidable (k1_chk327 v3589) := fun v3589 => decidable_of_iff' _ (Iff.of_eq (k1_chk327.eq_1 v3589))
theorem k1_off490_inb : ∀ (v3589 : BitVec 32) (k1_hw327 : k1_chk327 v3589), ∀ a, (k1_off490 v3589) a + S1x64.size a ≤ S50000x64.size a := fun v3589 k1_hw327 => k1_hw327

def k1_off491 (v3590 : BitVec 32) : Fin 2 → Nat :=
  let v3594 : Index := Scalar.indexCast v3590
  let c0_1143 : Index := 0#32
  ![v3594.toNat, 0]

def k1_off492 (v3590 : BitVec 32) : Fin 2 → Nat :=
  let v3602 : Index := Scalar.indexCast v3590
  let c0_1145 : Index := 0#32
  ![v3602.toNat, 0]

def k1_chk328 (v3590 : BitVec 32) : Prop :=
  (∀ a, (k1_off491 v3590) a + S1x64.size a ≤ S16384x64.size a) ∧
  (∀ a, (k1_off492 v3590) a + S1x1.size a ≤ S16384x1.size a)
instance k1_chk328.dec : ∀ (v3590 : BitVec 32), Decidable (k1_chk328 v3590) := fun v3590 => decidable_of_iff' _ (Iff.of_eq (k1_chk328.eq_1 v3590))
theorem k1_off491_inb : ∀ (v3590 : BitVec 32) (k1_hw328 : k1_chk328 v3590), ∀ a, (k1_off491 v3590) a + S1x64.size a ≤ S16384x64.size a := fun v3590 k1_hw328 => k1_hw328.1
theorem k1_off492_inb : ∀ (v3590 : BitVec 32) (k1_hw328 : k1_chk328 v3590), ∀ a, (k1_off492 v3590) a + S1x1.size a ≤ S16384x1.size a := fun v3590 k1_hw328 => k1_hw328.2

def k1_off493 (v3611 : BitVec 32) : Fin 2 → Nat :=
  let v3613 : Index := Scalar.indexCast v3611
  let c0_1149 : Index := 0#32
  ![v3613.toNat, 0]

def k1_chk329 (v3611 : BitVec 32) : Prop :=
  (∀ a, (k1_off493 v3611) a + S1x64.size a ≤ S50000x64.size a)
instance k1_chk329.dec : ∀ (v3611 : BitVec 32), Decidable (k1_chk329 v3611) := fun v3611 => decidable_of_iff' _ (Iff.of_eq (k1_chk329.eq_1 v3611))
theorem k1_off493_inb : ∀ (v3611 : BitVec 32) (k1_hw329 : k1_chk329 v3611), ∀ a, (k1_off493 v3611) a + S1x64.size a ≤ S50000x64.size a := fun v3611 k1_hw329 => k1_hw329

def k1_off494 (v3612 : BitVec 32) : Fin 2 → Nat :=
  let v3616 : Index := Scalar.indexCast v3612
  let c0_1150 : Index := 0#32
  ![v3616.toNat, 0]

def k1_off495 (v3612 : BitVec 32) : Fin 2 → Nat :=
  let v3624 : Index := Scalar.indexCast v3612
  let c0_1152 : Index := 0#32
  ![v3624.toNat, 0]

def k1_chk330 (v3612 : BitVec 32) : Prop :=
  (∀ a, (k1_off494 v3612) a + S1x64.size a ≤ S16384x64.size a) ∧
  (∀ a, (k1_off495 v3612) a + S1x1.size a ≤ S16384x1.size a)
instance k1_chk330.dec : ∀ (v3612 : BitVec 32), Decidable (k1_chk330 v3612) := fun v3612 => decidable_of_iff' _ (Iff.of_eq (k1_chk330.eq_1 v3612))
theorem k1_off494_inb : ∀ (v3612 : BitVec 32) (k1_hw330 : k1_chk330 v3612), ∀ a, (k1_off494 v3612) a + S1x64.size a ≤ S16384x64.size a := fun v3612 k1_hw330 => k1_hw330.1
theorem k1_off495_inb : ∀ (v3612 : BitVec 32) (k1_hw330 : k1_chk330 v3612), ∀ a, (k1_off495 v3612) a + S1x1.size a ≤ S16384x1.size a := fun v3612 k1_hw330 => k1_hw330.2

def k1_off496 (v3633 : BitVec 32) : Fin 2 → Nat :=
  let v3635 : Index := Scalar.indexCast v3633
  let c0_1156 : Index := 0#32
  ![v3635.toNat, 0]

def k1_chk331 (v3633 : BitVec 32) : Prop :=
  (∀ a, (k1_off496 v3633) a + S1x64.size a ≤ S50000x64.size a)
instance k1_chk331.dec : ∀ (v3633 : BitVec 32), Decidable (k1_chk331 v3633) := fun v3633 => decidable_of_iff' _ (Iff.of_eq (k1_chk331.eq_1 v3633))
theorem k1_off496_inb : ∀ (v3633 : BitVec 32) (k1_hw331 : k1_chk331 v3633), ∀ a, (k1_off496 v3633) a + S1x64.size a ≤ S50000x64.size a := fun v3633 k1_hw331 => k1_hw331

def k1_off497 (v3634 : BitVec 32) : Fin 2 → Nat :=
  let v3638 : Index := Scalar.indexCast v3634
  let c0_1157 : Index := 0#32
  ![v3638.toNat, 0]

def k1_off498 (v3634 : BitVec 32) : Fin 2 → Nat :=
  let v3646 : Index := Scalar.indexCast v3634
  let c0_1159 : Index := 0#32
  ![v3646.toNat, 0]

def k1_chk332 (v3634 : BitVec 32) : Prop :=
  (∀ a, (k1_off497 v3634) a + S1x64.size a ≤ S16384x64.size a) ∧
  (∀ a, (k1_off498 v3634) a + S1x1.size a ≤ S16384x1.size a)
instance k1_chk332.dec : ∀ (v3634 : BitVec 32), Decidable (k1_chk332 v3634) := fun v3634 => decidable_of_iff' _ (Iff.of_eq (k1_chk332.eq_1 v3634))
theorem k1_off497_inb : ∀ (v3634 : BitVec 32) (k1_hw332 : k1_chk332 v3634), ∀ a, (k1_off497 v3634) a + S1x64.size a ≤ S16384x64.size a := fun v3634 k1_hw332 => k1_hw332.1
theorem k1_off498_inb : ∀ (v3634 : BitVec 32) (k1_hw332 : k1_chk332 v3634), ∀ a, (k1_off498 v3634) a + S1x1.size a ≤ S16384x1.size a := fun v3634 k1_hw332 => k1_hw332.2

def k1_off499 (v3655 : BitVec 32) : Fin 2 → Nat :=
  let v3657 : Index := Scalar.indexCast v3655
  let c0_1163 : Index := 0#32
  ![v3657.toNat, 0]

def k1_chk333 (v3655 : BitVec 32) : Prop :=
  (∀ a, (k1_off499 v3655) a + S1x64.size a ≤ S50000x64.size a)
instance k1_chk333.dec : ∀ (v3655 : BitVec 32), Decidable (k1_chk333 v3655) := fun v3655 => decidable_of_iff' _ (Iff.of_eq (k1_chk333.eq_1 v3655))
theorem k1_off499_inb : ∀ (v3655 : BitVec 32) (k1_hw333 : k1_chk333 v3655), ∀ a, (k1_off499 v3655) a + S1x64.size a ≤ S50000x64.size a := fun v3655 k1_hw333 => k1_hw333

def k1_off500 (v3656 : BitVec 32) : Fin 2 → Nat :=
  let v3660 : Index := Scalar.indexCast v3656
  let c0_1164 : Index := 0#32
  ![v3660.toNat, 0]

def k1_off501 (v3656 : BitVec 32) : Fin 2 → Nat :=
  let v3668 : Index := Scalar.indexCast v3656
  let c0_1166 : Index := 0#32
  ![v3668.toNat, 0]

def k1_chk334 (v3656 : BitVec 32) : Prop :=
  (∀ a, (k1_off500 v3656) a + S1x64.size a ≤ S16384x64.size a) ∧
  (∀ a, (k1_off501 v3656) a + S1x1.size a ≤ S16384x1.size a)
instance k1_chk334.dec : ∀ (v3656 : BitVec 32), Decidable (k1_chk334 v3656) := fun v3656 => decidable_of_iff' _ (Iff.of_eq (k1_chk334.eq_1 v3656))
theorem k1_off500_inb : ∀ (v3656 : BitVec 32) (k1_hw334 : k1_chk334 v3656), ∀ a, (k1_off500 v3656) a + S1x64.size a ≤ S16384x64.size a := fun v3656 k1_hw334 => k1_hw334.1
theorem k1_off501_inb : ∀ (v3656 : BitVec 32) (k1_hw334 : k1_chk334 v3656), ∀ a, (k1_off501 v3656) a + S1x1.size a ≤ S16384x1.size a := fun v3656 k1_hw334 => k1_hw334.2

def k1_off502 (v3677 : BitVec 32) : Fin 2 → Nat :=
  let v3679 : Index := Scalar.indexCast v3677
  let c0_1170 : Index := 0#32
  ![v3679.toNat, 0]

def k1_chk335 (v3677 : BitVec 32) : Prop :=
  (∀ a, (k1_off502 v3677) a + S1x64.size a ≤ S50000x64.size a)
instance k1_chk335.dec : ∀ (v3677 : BitVec 32), Decidable (k1_chk335 v3677) := fun v3677 => decidable_of_iff' _ (Iff.of_eq (k1_chk335.eq_1 v3677))
theorem k1_off502_inb : ∀ (v3677 : BitVec 32) (k1_hw335 : k1_chk335 v3677), ∀ a, (k1_off502 v3677) a + S1x64.size a ≤ S50000x64.size a := fun v3677 k1_hw335 => k1_hw335

def k1_off503 (v3678 : BitVec 32) : Fin 2 → Nat :=
  let v3682 : Index := Scalar.indexCast v3678
  let c0_1171 : Index := 0#32
  ![v3682.toNat, 0]

def k1_off504 (v3678 : BitVec 32) : Fin 2 → Nat :=
  let v3690 : Index := Scalar.indexCast v3678
  let c0_1173 : Index := 0#32
  ![v3690.toNat, 0]

def k1_chk336 (v3678 : BitVec 32) : Prop :=
  (∀ a, (k1_off503 v3678) a + S1x64.size a ≤ S16384x64.size a) ∧
  (∀ a, (k1_off504 v3678) a + S1x1.size a ≤ S16384x1.size a)
instance k1_chk336.dec : ∀ (v3678 : BitVec 32), Decidable (k1_chk336 v3678) := fun v3678 => decidable_of_iff' _ (Iff.of_eq (k1_chk336.eq_1 v3678))
theorem k1_off503_inb : ∀ (v3678 : BitVec 32) (k1_hw336 : k1_chk336 v3678), ∀ a, (k1_off503 v3678) a + S1x64.size a ≤ S16384x64.size a := fun v3678 k1_hw336 => k1_hw336.1
theorem k1_off504_inb : ∀ (v3678 : BitVec 32) (k1_hw336 : k1_chk336 v3678), ∀ a, (k1_off504 v3678) a + S1x1.size a ≤ S16384x1.size a := fun v3678 k1_hw336 => k1_hw336.2

def k1_off505 (v3699 : BitVec 32) : Fin 2 → Nat :=
  let v3701 : Index := Scalar.indexCast v3699
  let c0_1177 : Index := 0#32
  ![v3701.toNat, 0]

def k1_chk337 (v3699 : BitVec 32) : Prop :=
  (∀ a, (k1_off505 v3699) a + S1x64.size a ≤ S50000x64.size a)
instance k1_chk337.dec : ∀ (v3699 : BitVec 32), Decidable (k1_chk337 v3699) := fun v3699 => decidable_of_iff' _ (Iff.of_eq (k1_chk337.eq_1 v3699))
theorem k1_off505_inb : ∀ (v3699 : BitVec 32) (k1_hw337 : k1_chk337 v3699), ∀ a, (k1_off505 v3699) a + S1x64.size a ≤ S50000x64.size a := fun v3699 k1_hw337 => k1_hw337

def k1_off506 (v3700 : BitVec 32) : Fin 2 → Nat :=
  let v3704 : Index := Scalar.indexCast v3700
  let c0_1178 : Index := 0#32
  ![v3704.toNat, 0]

def k1_off507 (v3700 : BitVec 32) : Fin 2 → Nat :=
  let v3712 : Index := Scalar.indexCast v3700
  let c0_1180 : Index := 0#32
  ![v3712.toNat, 0]

def k1_chk338 (v3700 : BitVec 32) : Prop :=
  (∀ a, (k1_off506 v3700) a + S1x64.size a ≤ S16384x64.size a) ∧
  (∀ a, (k1_off507 v3700) a + S1x1.size a ≤ S16384x1.size a)
instance k1_chk338.dec : ∀ (v3700 : BitVec 32), Decidable (k1_chk338 v3700) := fun v3700 => decidable_of_iff' _ (Iff.of_eq (k1_chk338.eq_1 v3700))
theorem k1_off506_inb : ∀ (v3700 : BitVec 32) (k1_hw338 : k1_chk338 v3700), ∀ a, (k1_off506 v3700) a + S1x64.size a ≤ S16384x64.size a := fun v3700 k1_hw338 => k1_hw338.1
theorem k1_off507_inb : ∀ (v3700 : BitVec 32) (k1_hw338 : k1_chk338 v3700), ∀ a, (k1_off507 v3700) a + S1x1.size a ≤ S16384x1.size a := fun v3700 k1_hw338 => k1_hw338.2

def k1_off508 (v3721 : BitVec 32) : Fin 2 → Nat :=
  let v3723 : Index := Scalar.indexCast v3721
  let c0_1184 : Index := 0#32
  ![v3723.toNat, 0]

def k1_chk339 (v3721 : BitVec 32) : Prop :=
  (∀ a, (k1_off508 v3721) a + S1x64.size a ≤ S50000x64.size a)
instance k1_chk339.dec : ∀ (v3721 : BitVec 32), Decidable (k1_chk339 v3721) := fun v3721 => decidable_of_iff' _ (Iff.of_eq (k1_chk339.eq_1 v3721))
theorem k1_off508_inb : ∀ (v3721 : BitVec 32) (k1_hw339 : k1_chk339 v3721), ∀ a, (k1_off508 v3721) a + S1x64.size a ≤ S50000x64.size a := fun v3721 k1_hw339 => k1_hw339

def k1_off509 (v3722 : BitVec 32) : Fin 2 → Nat :=
  let v3726 : Index := Scalar.indexCast v3722
  let c0_1185 : Index := 0#32
  ![v3726.toNat, 0]

def k1_off510 (v3722 : BitVec 32) : Fin 2 → Nat :=
  let v3734 : Index := Scalar.indexCast v3722
  let c0_1187 : Index := 0#32
  ![v3734.toNat, 0]

def k1_chk340 (v3722 : BitVec 32) : Prop :=
  (∀ a, (k1_off509 v3722) a + S1x64.size a ≤ S16384x64.size a) ∧
  (∀ a, (k1_off510 v3722) a + S1x1.size a ≤ S16384x1.size a)
instance k1_chk340.dec : ∀ (v3722 : BitVec 32), Decidable (k1_chk340 v3722) := fun v3722 => decidable_of_iff' _ (Iff.of_eq (k1_chk340.eq_1 v3722))
theorem k1_off509_inb : ∀ (v3722 : BitVec 32) (k1_hw340 : k1_chk340 v3722), ∀ a, (k1_off509 v3722) a + S1x64.size a ≤ S16384x64.size a := fun v3722 k1_hw340 => k1_hw340.1
theorem k1_off510_inb : ∀ (v3722 : BitVec 32) (k1_hw340 : k1_chk340 v3722), ∀ a, (k1_off510 v3722) a + S1x1.size a ≤ S16384x1.size a := fun v3722 k1_hw340 => k1_hw340.2

def k1_off511 (v3743 : BitVec 32) : Fin 2 → Nat :=
  let v3745 : Index := Scalar.indexCast v3743
  let c0_1191 : Index := 0#32
  ![v3745.toNat, 0]

def k1_chk341 (v3743 : BitVec 32) : Prop :=
  (∀ a, (k1_off511 v3743) a + S1x64.size a ≤ S50000x64.size a)
instance k1_chk341.dec : ∀ (v3743 : BitVec 32), Decidable (k1_chk341 v3743) := fun v3743 => decidable_of_iff' _ (Iff.of_eq (k1_chk341.eq_1 v3743))
theorem k1_off511_inb : ∀ (v3743 : BitVec 32) (k1_hw341 : k1_chk341 v3743), ∀ a, (k1_off511 v3743) a + S1x64.size a ≤ S50000x64.size a := fun v3743 k1_hw341 => k1_hw341

def k1_off512 (v3744 : BitVec 32) : Fin 2 → Nat :=
  let v3748 : Index := Scalar.indexCast v3744
  let c0_1192 : Index := 0#32
  ![v3748.toNat, 0]

def k1_off513 (v3744 : BitVec 32) : Fin 2 → Nat :=
  let v3756 : Index := Scalar.indexCast v3744
  let c0_1194 : Index := 0#32
  ![v3756.toNat, 0]

def k1_chk342 (v3744 : BitVec 32) : Prop :=
  (∀ a, (k1_off512 v3744) a + S1x64.size a ≤ S16384x64.size a) ∧
  (∀ a, (k1_off513 v3744) a + S1x1.size a ≤ S16384x1.size a)
instance k1_chk342.dec : ∀ (v3744 : BitVec 32), Decidable (k1_chk342 v3744) := fun v3744 => decidable_of_iff' _ (Iff.of_eq (k1_chk342.eq_1 v3744))
theorem k1_off512_inb : ∀ (v3744 : BitVec 32) (k1_hw342 : k1_chk342 v3744), ∀ a, (k1_off512 v3744) a + S1x64.size a ≤ S16384x64.size a := fun v3744 k1_hw342 => k1_hw342.1
theorem k1_off513_inb : ∀ (v3744 : BitVec 32) (k1_hw342 : k1_chk342 v3744), ∀ a, (k1_off513 v3744) a + S1x1.size a ≤ S16384x1.size a := fun v3744 k1_hw342 => k1_hw342.2

def k1_off514 (v3765 : BitVec 32) : Fin 2 → Nat :=
  let v3767 : Index := Scalar.indexCast v3765
  let c0_1198 : Index := 0#32
  ![v3767.toNat, 0]

def k1_chk343 (v3765 : BitVec 32) : Prop :=
  (∀ a, (k1_off514 v3765) a + S1x64.size a ≤ S50000x64.size a)
instance k1_chk343.dec : ∀ (v3765 : BitVec 32), Decidable (k1_chk343 v3765) := fun v3765 => decidable_of_iff' _ (Iff.of_eq (k1_chk343.eq_1 v3765))
theorem k1_off514_inb : ∀ (v3765 : BitVec 32) (k1_hw343 : k1_chk343 v3765), ∀ a, (k1_off514 v3765) a + S1x64.size a ≤ S50000x64.size a := fun v3765 k1_hw343 => k1_hw343

def k1_off515 (v3766 : BitVec 32) : Fin 2 → Nat :=
  let v3770 : Index := Scalar.indexCast v3766
  let c0_1199 : Index := 0#32
  ![v3770.toNat, 0]

def k1_off516 (v3766 : BitVec 32) : Fin 2 → Nat :=
  let v3778 : Index := Scalar.indexCast v3766
  let c0_1201 : Index := 0#32
  ![v3778.toNat, 0]

def k1_chk344 (v3766 : BitVec 32) : Prop :=
  (∀ a, (k1_off515 v3766) a + S1x64.size a ≤ S16384x64.size a) ∧
  (∀ a, (k1_off516 v3766) a + S1x1.size a ≤ S16384x1.size a)
instance k1_chk344.dec : ∀ (v3766 : BitVec 32), Decidable (k1_chk344 v3766) := fun v3766 => decidable_of_iff' _ (Iff.of_eq (k1_chk344.eq_1 v3766))
theorem k1_off515_inb : ∀ (v3766 : BitVec 32) (k1_hw344 : k1_chk344 v3766), ∀ a, (k1_off515 v3766) a + S1x64.size a ≤ S16384x64.size a := fun v3766 k1_hw344 => k1_hw344.1
theorem k1_off516_inb : ∀ (v3766 : BitVec 32) (k1_hw344 : k1_chk344 v3766), ∀ a, (k1_off516 v3766) a + S1x1.size a ≤ S16384x1.size a := fun v3766 k1_hw344 => k1_hw344.2

def k1_off517 (v3787 : BitVec 32) : Fin 2 → Nat :=
  let v3789 : Index := Scalar.indexCast v3787
  let c0_1205 : Index := 0#32
  ![v3789.toNat, 0]

def k1_chk345 (v3787 : BitVec 32) : Prop :=
  (∀ a, (k1_off517 v3787) a + S1x64.size a ≤ S50000x64.size a)
instance k1_chk345.dec : ∀ (v3787 : BitVec 32), Decidable (k1_chk345 v3787) := fun v3787 => decidable_of_iff' _ (Iff.of_eq (k1_chk345.eq_1 v3787))
theorem k1_off517_inb : ∀ (v3787 : BitVec 32) (k1_hw345 : k1_chk345 v3787), ∀ a, (k1_off517 v3787) a + S1x64.size a ≤ S50000x64.size a := fun v3787 k1_hw345 => k1_hw345

def k1_off518 (v3788 : BitVec 32) : Fin 2 → Nat :=
  let v3792 : Index := Scalar.indexCast v3788
  let c0_1206 : Index := 0#32
  ![v3792.toNat, 0]

def k1_off519 (v3788 : BitVec 32) : Fin 2 → Nat :=
  let v3800 : Index := Scalar.indexCast v3788
  let c0_1208 : Index := 0#32
  ![v3800.toNat, 0]

def k1_chk346 (v3788 : BitVec 32) : Prop :=
  (∀ a, (k1_off518 v3788) a + S1x64.size a ≤ S16384x64.size a) ∧
  (∀ a, (k1_off519 v3788) a + S1x1.size a ≤ S16384x1.size a)
instance k1_chk346.dec : ∀ (v3788 : BitVec 32), Decidable (k1_chk346 v3788) := fun v3788 => decidable_of_iff' _ (Iff.of_eq (k1_chk346.eq_1 v3788))
theorem k1_off518_inb : ∀ (v3788 : BitVec 32) (k1_hw346 : k1_chk346 v3788), ∀ a, (k1_off518 v3788) a + S1x64.size a ≤ S16384x64.size a := fun v3788 k1_hw346 => k1_hw346.1
theorem k1_off519_inb : ∀ (v3788 : BitVec 32) (k1_hw346 : k1_chk346 v3788), ∀ a, (k1_off519 v3788) a + S1x1.size a ≤ S16384x1.size a := fun v3788 k1_hw346 => k1_hw346.2

def k1_off520 (v3809 : BitVec 32) : Fin 2 → Nat :=
  let v3811 : Index := Scalar.indexCast v3809
  let c0_1212 : Index := 0#32
  ![v3811.toNat, 0]

def k1_chk347 (v3809 : BitVec 32) : Prop :=
  (∀ a, (k1_off520 v3809) a + S1x64.size a ≤ S50000x64.size a)
instance k1_chk347.dec : ∀ (v3809 : BitVec 32), Decidable (k1_chk347 v3809) := fun v3809 => decidable_of_iff' _ (Iff.of_eq (k1_chk347.eq_1 v3809))
theorem k1_off520_inb : ∀ (v3809 : BitVec 32) (k1_hw347 : k1_chk347 v3809), ∀ a, (k1_off520 v3809) a + S1x64.size a ≤ S50000x64.size a := fun v3809 k1_hw347 => k1_hw347

def k1_off521 (v3810 : BitVec 32) : Fin 2 → Nat :=
  let v3814 : Index := Scalar.indexCast v3810
  let c0_1213 : Index := 0#32
  ![v3814.toNat, 0]

def k1_off522 (v3810 : BitVec 32) : Fin 2 → Nat :=
  let v3822 : Index := Scalar.indexCast v3810
  let c0_1215 : Index := 0#32
  ![v3822.toNat, 0]

def k1_chk348 (v3810 : BitVec 32) : Prop :=
  (∀ a, (k1_off521 v3810) a + S1x64.size a ≤ S16384x64.size a) ∧
  (∀ a, (k1_off522 v3810) a + S1x1.size a ≤ S16384x1.size a)
instance k1_chk348.dec : ∀ (v3810 : BitVec 32), Decidable (k1_chk348 v3810) := fun v3810 => decidable_of_iff' _ (Iff.of_eq (k1_chk348.eq_1 v3810))
theorem k1_off521_inb : ∀ (v3810 : BitVec 32) (k1_hw348 : k1_chk348 v3810), ∀ a, (k1_off521 v3810) a + S1x64.size a ≤ S16384x64.size a := fun v3810 k1_hw348 => k1_hw348.1
theorem k1_off522_inb : ∀ (v3810 : BitVec 32) (k1_hw348 : k1_chk348 v3810), ∀ a, (k1_off522 v3810) a + S1x1.size a ≤ S16384x1.size a := fun v3810 k1_hw348 => k1_hw348.2

def k1_off523 (v3831 : BitVec 32) : Fin 2 → Nat :=
  let v3833 : Index := Scalar.indexCast v3831
  let c0_1219 : Index := 0#32
  ![v3833.toNat, 0]

def k1_chk349 (v3831 : BitVec 32) : Prop :=
  (∀ a, (k1_off523 v3831) a + S1x64.size a ≤ S50000x64.size a)
instance k1_chk349.dec : ∀ (v3831 : BitVec 32), Decidable (k1_chk349 v3831) := fun v3831 => decidable_of_iff' _ (Iff.of_eq (k1_chk349.eq_1 v3831))
theorem k1_off523_inb : ∀ (v3831 : BitVec 32) (k1_hw349 : k1_chk349 v3831), ∀ a, (k1_off523 v3831) a + S1x64.size a ≤ S50000x64.size a := fun v3831 k1_hw349 => k1_hw349

def k1_off524 (v3832 : BitVec 32) : Fin 2 → Nat :=
  let v3836 : Index := Scalar.indexCast v3832
  let c0_1220 : Index := 0#32
  ![v3836.toNat, 0]

def k1_off525 (v3832 : BitVec 32) : Fin 2 → Nat :=
  let v3844 : Index := Scalar.indexCast v3832
  let c0_1222 : Index := 0#32
  ![v3844.toNat, 0]

def k1_chk350 (v3832 : BitVec 32) : Prop :=
  (∀ a, (k1_off524 v3832) a + S1x64.size a ≤ S16384x64.size a) ∧
  (∀ a, (k1_off525 v3832) a + S1x1.size a ≤ S16384x1.size a)
instance k1_chk350.dec : ∀ (v3832 : BitVec 32), Decidable (k1_chk350 v3832) := fun v3832 => decidable_of_iff' _ (Iff.of_eq (k1_chk350.eq_1 v3832))
theorem k1_off524_inb : ∀ (v3832 : BitVec 32) (k1_hw350 : k1_chk350 v3832), ∀ a, (k1_off524 v3832) a + S1x64.size a ≤ S16384x64.size a := fun v3832 k1_hw350 => k1_hw350.1
theorem k1_off525_inb : ∀ (v3832 : BitVec 32) (k1_hw350 : k1_chk350 v3832), ∀ a, (k1_off525 v3832) a + S1x1.size a ≤ S16384x1.size a := fun v3832 k1_hw350 => k1_hw350.2

def k1_off526 (v3853 : BitVec 32) : Fin 2 → Nat :=
  let v3855 : Index := Scalar.indexCast v3853
  let c0_1226 : Index := 0#32
  ![v3855.toNat, 0]

def k1_chk351 (v3853 : BitVec 32) : Prop :=
  (∀ a, (k1_off526 v3853) a + S1x64.size a ≤ S50000x64.size a)
instance k1_chk351.dec : ∀ (v3853 : BitVec 32), Decidable (k1_chk351 v3853) := fun v3853 => decidable_of_iff' _ (Iff.of_eq (k1_chk351.eq_1 v3853))
theorem k1_off526_inb : ∀ (v3853 : BitVec 32) (k1_hw351 : k1_chk351 v3853), ∀ a, (k1_off526 v3853) a + S1x64.size a ≤ S50000x64.size a := fun v3853 k1_hw351 => k1_hw351

def k1_off527 (v3854 : BitVec 32) : Fin 2 → Nat :=
  let v3858 : Index := Scalar.indexCast v3854
  let c0_1227 : Index := 0#32
  ![v3858.toNat, 0]

def k1_off528 (v3854 : BitVec 32) : Fin 2 → Nat :=
  let v3866 : Index := Scalar.indexCast v3854
  let c0_1229 : Index := 0#32
  ![v3866.toNat, 0]

def k1_chk352 (v3854 : BitVec 32) : Prop :=
  (∀ a, (k1_off527 v3854) a + S1x64.size a ≤ S16384x64.size a) ∧
  (∀ a, (k1_off528 v3854) a + S1x1.size a ≤ S16384x1.size a)
instance k1_chk352.dec : ∀ (v3854 : BitVec 32), Decidable (k1_chk352 v3854) := fun v3854 => decidable_of_iff' _ (Iff.of_eq (k1_chk352.eq_1 v3854))
theorem k1_off527_inb : ∀ (v3854 : BitVec 32) (k1_hw352 : k1_chk352 v3854), ∀ a, (k1_off527 v3854) a + S1x64.size a ≤ S16384x64.size a := fun v3854 k1_hw352 => k1_hw352.1
theorem k1_off528_inb : ∀ (v3854 : BitVec 32) (k1_hw352 : k1_chk352 v3854), ∀ a, (k1_off528 v3854) a + S1x1.size a ≤ S16384x1.size a := fun v3854 k1_hw352 => k1_hw352.2

def k1_off529 (v3875 : BitVec 32) : Fin 2 → Nat :=
  let v3877 : Index := Scalar.indexCast v3875
  let c0_1233 : Index := 0#32
  ![v3877.toNat, 0]

def k1_chk353 (v3875 : BitVec 32) : Prop :=
  (∀ a, (k1_off529 v3875) a + S1x64.size a ≤ S50000x64.size a)
instance k1_chk353.dec : ∀ (v3875 : BitVec 32), Decidable (k1_chk353 v3875) := fun v3875 => decidable_of_iff' _ (Iff.of_eq (k1_chk353.eq_1 v3875))
theorem k1_off529_inb : ∀ (v3875 : BitVec 32) (k1_hw353 : k1_chk353 v3875), ∀ a, (k1_off529 v3875) a + S1x64.size a ≤ S50000x64.size a := fun v3875 k1_hw353 => k1_hw353

def k1_off530 (v3876 : BitVec 32) : Fin 2 → Nat :=
  let v3880 : Index := Scalar.indexCast v3876
  let c0_1234 : Index := 0#32
  ![v3880.toNat, 0]

def k1_off531 (v3876 : BitVec 32) : Fin 2 → Nat :=
  let v3888 : Index := Scalar.indexCast v3876
  let c0_1236 : Index := 0#32
  ![v3888.toNat, 0]

def k1_chk354 (v3876 : BitVec 32) : Prop :=
  (∀ a, (k1_off530 v3876) a + S1x64.size a ≤ S16384x64.size a) ∧
  (∀ a, (k1_off531 v3876) a + S1x1.size a ≤ S16384x1.size a)
instance k1_chk354.dec : ∀ (v3876 : BitVec 32), Decidable (k1_chk354 v3876) := fun v3876 => decidable_of_iff' _ (Iff.of_eq (k1_chk354.eq_1 v3876))
theorem k1_off530_inb : ∀ (v3876 : BitVec 32) (k1_hw354 : k1_chk354 v3876), ∀ a, (k1_off530 v3876) a + S1x64.size a ≤ S16384x64.size a := fun v3876 k1_hw354 => k1_hw354.1
theorem k1_off531_inb : ∀ (v3876 : BitVec 32) (k1_hw354 : k1_chk354 v3876), ∀ a, (k1_off531 v3876) a + S1x1.size a ≤ S16384x1.size a := fun v3876 k1_hw354 => k1_hw354.2

def k1_off532 (v3897 : BitVec 32) : Fin 2 → Nat :=
  let v3899 : Index := Scalar.indexCast v3897
  let c0_1240 : Index := 0#32
  ![v3899.toNat, 0]

def k1_chk355 (v3897 : BitVec 32) : Prop :=
  (∀ a, (k1_off532 v3897) a + S1x64.size a ≤ S50000x64.size a)
instance k1_chk355.dec : ∀ (v3897 : BitVec 32), Decidable (k1_chk355 v3897) := fun v3897 => decidable_of_iff' _ (Iff.of_eq (k1_chk355.eq_1 v3897))
theorem k1_off532_inb : ∀ (v3897 : BitVec 32) (k1_hw355 : k1_chk355 v3897), ∀ a, (k1_off532 v3897) a + S1x64.size a ≤ S50000x64.size a := fun v3897 k1_hw355 => k1_hw355

def k1_off533 (v3898 : BitVec 32) : Fin 2 → Nat :=
  let v3902 : Index := Scalar.indexCast v3898
  let c0_1241 : Index := 0#32
  ![v3902.toNat, 0]

def k1_off534 (v3898 : BitVec 32) : Fin 2 → Nat :=
  let v3910 : Index := Scalar.indexCast v3898
  let c0_1243 : Index := 0#32
  ![v3910.toNat, 0]

def k1_chk356 (v3898 : BitVec 32) : Prop :=
  (∀ a, (k1_off533 v3898) a + S1x64.size a ≤ S16384x64.size a) ∧
  (∀ a, (k1_off534 v3898) a + S1x1.size a ≤ S16384x1.size a)
instance k1_chk356.dec : ∀ (v3898 : BitVec 32), Decidable (k1_chk356 v3898) := fun v3898 => decidable_of_iff' _ (Iff.of_eq (k1_chk356.eq_1 v3898))
theorem k1_off533_inb : ∀ (v3898 : BitVec 32) (k1_hw356 : k1_chk356 v3898), ∀ a, (k1_off533 v3898) a + S1x64.size a ≤ S16384x64.size a := fun v3898 k1_hw356 => k1_hw356.1
theorem k1_off534_inb : ∀ (v3898 : BitVec 32) (k1_hw356 : k1_chk356 v3898), ∀ a, (k1_off534 v3898) a + S1x1.size a ≤ S16384x1.size a := fun v3898 k1_hw356 => k1_hw356.2

def k1_off535 (v3919 : BitVec 32) : Fin 2 → Nat :=
  let v3921 : Index := Scalar.indexCast v3919
  let c0_1247 : Index := 0#32
  ![v3921.toNat, 0]

def k1_chk357 (v3919 : BitVec 32) : Prop :=
  (∀ a, (k1_off535 v3919) a + S1x64.size a ≤ S50000x64.size a)
instance k1_chk357.dec : ∀ (v3919 : BitVec 32), Decidable (k1_chk357 v3919) := fun v3919 => decidable_of_iff' _ (Iff.of_eq (k1_chk357.eq_1 v3919))
theorem k1_off535_inb : ∀ (v3919 : BitVec 32) (k1_hw357 : k1_chk357 v3919), ∀ a, (k1_off535 v3919) a + S1x64.size a ≤ S50000x64.size a := fun v3919 k1_hw357 => k1_hw357

def k1_off536 (v3920 : BitVec 32) : Fin 2 → Nat :=
  let v3924 : Index := Scalar.indexCast v3920
  let c0_1248 : Index := 0#32
  ![v3924.toNat, 0]

def k1_off537 (v3920 : BitVec 32) : Fin 2 → Nat :=
  let v3932 : Index := Scalar.indexCast v3920
  let c0_1250 : Index := 0#32
  ![v3932.toNat, 0]

def k1_chk358 (v3920 : BitVec 32) : Prop :=
  (∀ a, (k1_off536 v3920) a + S1x64.size a ≤ S16384x64.size a) ∧
  (∀ a, (k1_off537 v3920) a + S1x1.size a ≤ S16384x1.size a)
instance k1_chk358.dec : ∀ (v3920 : BitVec 32), Decidable (k1_chk358 v3920) := fun v3920 => decidable_of_iff' _ (Iff.of_eq (k1_chk358.eq_1 v3920))
theorem k1_off536_inb : ∀ (v3920 : BitVec 32) (k1_hw358 : k1_chk358 v3920), ∀ a, (k1_off536 v3920) a + S1x64.size a ≤ S16384x64.size a := fun v3920 k1_hw358 => k1_hw358.1
theorem k1_off537_inb : ∀ (v3920 : BitVec 32) (k1_hw358 : k1_chk358 v3920), ∀ a, (k1_off537 v3920) a + S1x1.size a ≤ S16384x1.size a := fun v3920 k1_hw358 => k1_hw358.2

def k1_off538 (v3941 : BitVec 32) : Fin 2 → Nat :=
  let v3943 : Index := Scalar.indexCast v3941
  let c0_1254 : Index := 0#32
  ![v3943.toNat, 0]

def k1_chk359 (v3941 : BitVec 32) : Prop :=
  (∀ a, (k1_off538 v3941) a + S1x64.size a ≤ S50000x64.size a)
instance k1_chk359.dec : ∀ (v3941 : BitVec 32), Decidable (k1_chk359 v3941) := fun v3941 => decidable_of_iff' _ (Iff.of_eq (k1_chk359.eq_1 v3941))
theorem k1_off538_inb : ∀ (v3941 : BitVec 32) (k1_hw359 : k1_chk359 v3941), ∀ a, (k1_off538 v3941) a + S1x64.size a ≤ S50000x64.size a := fun v3941 k1_hw359 => k1_hw359

def k1_off539 (v3942 : BitVec 32) : Fin 2 → Nat :=
  let v3946 : Index := Scalar.indexCast v3942
  let c0_1255 : Index := 0#32
  ![v3946.toNat, 0]

def k1_off540 (v3942 : BitVec 32) : Fin 2 → Nat :=
  let v3954 : Index := Scalar.indexCast v3942
  let c0_1257 : Index := 0#32
  ![v3954.toNat, 0]

def k1_chk360 (v3942 : BitVec 32) : Prop :=
  (∀ a, (k1_off539 v3942) a + S1x64.size a ≤ S16384x64.size a) ∧
  (∀ a, (k1_off540 v3942) a + S1x1.size a ≤ S16384x1.size a)
instance k1_chk360.dec : ∀ (v3942 : BitVec 32), Decidable (k1_chk360 v3942) := fun v3942 => decidable_of_iff' _ (Iff.of_eq (k1_chk360.eq_1 v3942))
theorem k1_off539_inb : ∀ (v3942 : BitVec 32) (k1_hw360 : k1_chk360 v3942), ∀ a, (k1_off539 v3942) a + S1x64.size a ≤ S16384x64.size a := fun v3942 k1_hw360 => k1_hw360.1
theorem k1_off540_inb : ∀ (v3942 : BitVec 32) (k1_hw360 : k1_chk360 v3942), ∀ a, (k1_off540 v3942) a + S1x1.size a ≤ S16384x1.size a := fun v3942 k1_hw360 => k1_hw360.2

def k1_off541 (v3963 : BitVec 32) : Fin 2 → Nat :=
  let v3965 : Index := Scalar.indexCast v3963
  let c0_1261 : Index := 0#32
  ![v3965.toNat, 0]

def k1_chk361 (v3963 : BitVec 32) : Prop :=
  (∀ a, (k1_off541 v3963) a + S1x64.size a ≤ S50000x64.size a)
instance k1_chk361.dec : ∀ (v3963 : BitVec 32), Decidable (k1_chk361 v3963) := fun v3963 => decidable_of_iff' _ (Iff.of_eq (k1_chk361.eq_1 v3963))
theorem k1_off541_inb : ∀ (v3963 : BitVec 32) (k1_hw361 : k1_chk361 v3963), ∀ a, (k1_off541 v3963) a + S1x64.size a ≤ S50000x64.size a := fun v3963 k1_hw361 => k1_hw361

def k1_off542 (v3964 : BitVec 32) : Fin 2 → Nat :=
  let v3968 : Index := Scalar.indexCast v3964
  let c0_1262 : Index := 0#32
  ![v3968.toNat, 0]

def k1_off543 (v3964 : BitVec 32) : Fin 2 → Nat :=
  let v3976 : Index := Scalar.indexCast v3964
  let c0_1264 : Index := 0#32
  ![v3976.toNat, 0]

def k1_chk362 (v3964 : BitVec 32) : Prop :=
  (∀ a, (k1_off542 v3964) a + S1x64.size a ≤ S16384x64.size a) ∧
  (∀ a, (k1_off543 v3964) a + S1x1.size a ≤ S16384x1.size a)
instance k1_chk362.dec : ∀ (v3964 : BitVec 32), Decidable (k1_chk362 v3964) := fun v3964 => decidable_of_iff' _ (Iff.of_eq (k1_chk362.eq_1 v3964))
theorem k1_off542_inb : ∀ (v3964 : BitVec 32) (k1_hw362 : k1_chk362 v3964), ∀ a, (k1_off542 v3964) a + S1x64.size a ≤ S16384x64.size a := fun v3964 k1_hw362 => k1_hw362.1
theorem k1_off543_inb : ∀ (v3964 : BitVec 32) (k1_hw362 : k1_chk362 v3964), ∀ a, (k1_off543 v3964) a + S1x1.size a ≤ S16384x1.size a := fun v3964 k1_hw362 => k1_hw362.2

def k1_off544 (v3985 : BitVec 32) : Fin 2 → Nat :=
  let v3987 : Index := Scalar.indexCast v3985
  let c0_1268 : Index := 0#32
  ![v3987.toNat, 0]

def k1_chk363 (v3985 : BitVec 32) : Prop :=
  (∀ a, (k1_off544 v3985) a + S1x64.size a ≤ S50000x64.size a)
instance k1_chk363.dec : ∀ (v3985 : BitVec 32), Decidable (k1_chk363 v3985) := fun v3985 => decidable_of_iff' _ (Iff.of_eq (k1_chk363.eq_1 v3985))
theorem k1_off544_inb : ∀ (v3985 : BitVec 32) (k1_hw363 : k1_chk363 v3985), ∀ a, (k1_off544 v3985) a + S1x64.size a ≤ S50000x64.size a := fun v3985 k1_hw363 => k1_hw363

def k1_off545 (v3986 : BitVec 32) : Fin 2 → Nat :=
  let v3990 : Index := Scalar.indexCast v3986
  let c0_1269 : Index := 0#32
  ![v3990.toNat, 0]

def k1_off546 (v3986 : BitVec 32) : Fin 2 → Nat :=
  let v3998 : Index := Scalar.indexCast v3986
  let c0_1271 : Index := 0#32
  ![v3998.toNat, 0]

def k1_chk364 (v3986 : BitVec 32) : Prop :=
  (∀ a, (k1_off545 v3986) a + S1x64.size a ≤ S16384x64.size a) ∧
  (∀ a, (k1_off546 v3986) a + S1x1.size a ≤ S16384x1.size a)
instance k1_chk364.dec : ∀ (v3986 : BitVec 32), Decidable (k1_chk364 v3986) := fun v3986 => decidable_of_iff' _ (Iff.of_eq (k1_chk364.eq_1 v3986))
theorem k1_off545_inb : ∀ (v3986 : BitVec 32) (k1_hw364 : k1_chk364 v3986), ∀ a, (k1_off545 v3986) a + S1x64.size a ≤ S16384x64.size a := fun v3986 k1_hw364 => k1_hw364.1
theorem k1_off546_inb : ∀ (v3986 : BitVec 32) (k1_hw364 : k1_chk364 v3986), ∀ a, (k1_off546 v3986) a + S1x1.size a ≤ S16384x1.size a := fun v3986 k1_hw364 => k1_hw364.2

def k1_off547 (v4007 : BitVec 32) : Fin 2 → Nat :=
  let v4009 : Index := Scalar.indexCast v4007
  let c0_1275 : Index := 0#32
  ![v4009.toNat, 0]

def k1_chk365 (v4007 : BitVec 32) : Prop :=
  (∀ a, (k1_off547 v4007) a + S1x64.size a ≤ S50000x64.size a)
instance k1_chk365.dec : ∀ (v4007 : BitVec 32), Decidable (k1_chk365 v4007) := fun v4007 => decidable_of_iff' _ (Iff.of_eq (k1_chk365.eq_1 v4007))
theorem k1_off547_inb : ∀ (v4007 : BitVec 32) (k1_hw365 : k1_chk365 v4007), ∀ a, (k1_off547 v4007) a + S1x64.size a ≤ S50000x64.size a := fun v4007 k1_hw365 => k1_hw365

def k1_off548 (v4008 : BitVec 32) : Fin 2 → Nat :=
  let v4012 : Index := Scalar.indexCast v4008
  let c0_1276 : Index := 0#32
  ![v4012.toNat, 0]

def k1_off549 (v4008 : BitVec 32) : Fin 2 → Nat :=
  let v4020 : Index := Scalar.indexCast v4008
  let c0_1278 : Index := 0#32
  ![v4020.toNat, 0]

def k1_chk366 (v4008 : BitVec 32) : Prop :=
  (∀ a, (k1_off548 v4008) a + S1x64.size a ≤ S16384x64.size a) ∧
  (∀ a, (k1_off549 v4008) a + S1x1.size a ≤ S16384x1.size a)
instance k1_chk366.dec : ∀ (v4008 : BitVec 32), Decidable (k1_chk366 v4008) := fun v4008 => decidable_of_iff' _ (Iff.of_eq (k1_chk366.eq_1 v4008))
theorem k1_off548_inb : ∀ (v4008 : BitVec 32) (k1_hw366 : k1_chk366 v4008), ∀ a, (k1_off548 v4008) a + S1x64.size a ≤ S16384x64.size a := fun v4008 k1_hw366 => k1_hw366.1
theorem k1_off549_inb : ∀ (v4008 : BitVec 32) (k1_hw366 : k1_chk366 v4008), ∀ a, (k1_off549 v4008) a + S1x1.size a ≤ S16384x1.size a := fun v4008 k1_hw366 => k1_hw366.2

def k1_off550 (v4029 : BitVec 32) : Fin 2 → Nat :=
  let v4031 : Index := Scalar.indexCast v4029
  let c0_1282 : Index := 0#32
  ![v4031.toNat, 0]

def k1_chk367 (v4029 : BitVec 32) : Prop :=
  (∀ a, (k1_off550 v4029) a + S1x64.size a ≤ S50000x64.size a)
instance k1_chk367.dec : ∀ (v4029 : BitVec 32), Decidable (k1_chk367 v4029) := fun v4029 => decidable_of_iff' _ (Iff.of_eq (k1_chk367.eq_1 v4029))
theorem k1_off550_inb : ∀ (v4029 : BitVec 32) (k1_hw367 : k1_chk367 v4029), ∀ a, (k1_off550 v4029) a + S1x64.size a ≤ S50000x64.size a := fun v4029 k1_hw367 => k1_hw367

def k1_off551 (v4030 : BitVec 32) : Fin 2 → Nat :=
  let v4034 : Index := Scalar.indexCast v4030
  let c0_1283 : Index := 0#32
  ![v4034.toNat, 0]

def k1_off552 (v4030 : BitVec 32) : Fin 2 → Nat :=
  let v4042 : Index := Scalar.indexCast v4030
  let c0_1285 : Index := 0#32
  ![v4042.toNat, 0]

def k1_chk368 (v4030 : BitVec 32) : Prop :=
  (∀ a, (k1_off551 v4030) a + S1x64.size a ≤ S16384x64.size a) ∧
  (∀ a, (k1_off552 v4030) a + S1x1.size a ≤ S16384x1.size a)
instance k1_chk368.dec : ∀ (v4030 : BitVec 32), Decidable (k1_chk368 v4030) := fun v4030 => decidable_of_iff' _ (Iff.of_eq (k1_chk368.eq_1 v4030))
theorem k1_off551_inb : ∀ (v4030 : BitVec 32) (k1_hw368 : k1_chk368 v4030), ∀ a, (k1_off551 v4030) a + S1x64.size a ≤ S16384x64.size a := fun v4030 k1_hw368 => k1_hw368.1
theorem k1_off552_inb : ∀ (v4030 : BitVec 32) (k1_hw368 : k1_chk368 v4030), ∀ a, (k1_off552 v4030) a + S1x1.size a ≤ S16384x1.size a := fun v4030 k1_hw368 => k1_hw368.2

def k1_off553 (v4051 : BitVec 32) : Fin 2 → Nat :=
  let v4053 : Index := Scalar.indexCast v4051
  let c0_1289 : Index := 0#32
  ![v4053.toNat, 0]

def k1_chk369 (v4051 : BitVec 32) : Prop :=
  (∀ a, (k1_off553 v4051) a + S1x64.size a ≤ S50000x64.size a)
instance k1_chk369.dec : ∀ (v4051 : BitVec 32), Decidable (k1_chk369 v4051) := fun v4051 => decidable_of_iff' _ (Iff.of_eq (k1_chk369.eq_1 v4051))
theorem k1_off553_inb : ∀ (v4051 : BitVec 32) (k1_hw369 : k1_chk369 v4051), ∀ a, (k1_off553 v4051) a + S1x64.size a ≤ S50000x64.size a := fun v4051 k1_hw369 => k1_hw369

def k1_off554 (v4052 : BitVec 32) : Fin 2 → Nat :=
  let v4056 : Index := Scalar.indexCast v4052
  let c0_1290 : Index := 0#32
  ![v4056.toNat, 0]

def k1_off555 (v4052 : BitVec 32) : Fin 2 → Nat :=
  let v4064 : Index := Scalar.indexCast v4052
  let c0_1292 : Index := 0#32
  ![v4064.toNat, 0]

def k1_chk370 (v4052 : BitVec 32) : Prop :=
  (∀ a, (k1_off554 v4052) a + S1x64.size a ≤ S16384x64.size a) ∧
  (∀ a, (k1_off555 v4052) a + S1x1.size a ≤ S16384x1.size a)
instance k1_chk370.dec : ∀ (v4052 : BitVec 32), Decidable (k1_chk370 v4052) := fun v4052 => decidable_of_iff' _ (Iff.of_eq (k1_chk370.eq_1 v4052))
theorem k1_off554_inb : ∀ (v4052 : BitVec 32) (k1_hw370 : k1_chk370 v4052), ∀ a, (k1_off554 v4052) a + S1x64.size a ≤ S16384x64.size a := fun v4052 k1_hw370 => k1_hw370.1
theorem k1_off555_inb : ∀ (v4052 : BitVec 32) (k1_hw370 : k1_chk370 v4052), ∀ a, (k1_off555 v4052) a + S1x1.size a ≤ S16384x1.size a := fun v4052 k1_hw370 => k1_hw370.2

def k1_off556 (v4073 : BitVec 32) : Fin 2 → Nat :=
  let v4075 : Index := Scalar.indexCast v4073
  let c0_1296 : Index := 0#32
  ![v4075.toNat, 0]

def k1_chk371 (v4073 : BitVec 32) : Prop :=
  (∀ a, (k1_off556 v4073) a + S1x64.size a ≤ S50000x64.size a)
instance k1_chk371.dec : ∀ (v4073 : BitVec 32), Decidable (k1_chk371 v4073) := fun v4073 => decidable_of_iff' _ (Iff.of_eq (k1_chk371.eq_1 v4073))
theorem k1_off556_inb : ∀ (v4073 : BitVec 32) (k1_hw371 : k1_chk371 v4073), ∀ a, (k1_off556 v4073) a + S1x64.size a ≤ S50000x64.size a := fun v4073 k1_hw371 => k1_hw371

def k1_off557 (v4074 : BitVec 32) : Fin 2 → Nat :=
  let v4078 : Index := Scalar.indexCast v4074
  let c0_1297 : Index := 0#32
  ![v4078.toNat, 0]

def k1_off558 (v4074 : BitVec 32) : Fin 2 → Nat :=
  let v4086 : Index := Scalar.indexCast v4074
  let c0_1299 : Index := 0#32
  ![v4086.toNat, 0]

def k1_chk372 (v4074 : BitVec 32) : Prop :=
  (∀ a, (k1_off557 v4074) a + S1x64.size a ≤ S16384x64.size a) ∧
  (∀ a, (k1_off558 v4074) a + S1x1.size a ≤ S16384x1.size a)
instance k1_chk372.dec : ∀ (v4074 : BitVec 32), Decidable (k1_chk372 v4074) := fun v4074 => decidable_of_iff' _ (Iff.of_eq (k1_chk372.eq_1 v4074))
theorem k1_off557_inb : ∀ (v4074 : BitVec 32) (k1_hw372 : k1_chk372 v4074), ∀ a, (k1_off557 v4074) a + S1x64.size a ≤ S16384x64.size a := fun v4074 k1_hw372 => k1_hw372.1
theorem k1_off558_inb : ∀ (v4074 : BitVec 32) (k1_hw372 : k1_chk372 v4074), ∀ a, (k1_off558 v4074) a + S1x1.size a ≤ S16384x1.size a := fun v4074 k1_hw372 => k1_hw372.2

def k1_off559 (v4095 : BitVec 32) : Fin 2 → Nat :=
  let v4097 : Index := Scalar.indexCast v4095
  let c0_1303 : Index := 0#32
  ![v4097.toNat, 0]

def k1_chk373 (v4095 : BitVec 32) : Prop :=
  (∀ a, (k1_off559 v4095) a + S1x64.size a ≤ S50000x64.size a)
instance k1_chk373.dec : ∀ (v4095 : BitVec 32), Decidable (k1_chk373 v4095) := fun v4095 => decidable_of_iff' _ (Iff.of_eq (k1_chk373.eq_1 v4095))
theorem k1_off559_inb : ∀ (v4095 : BitVec 32) (k1_hw373 : k1_chk373 v4095), ∀ a, (k1_off559 v4095) a + S1x64.size a ≤ S50000x64.size a := fun v4095 k1_hw373 => k1_hw373

def k1_off560 (v4096 : BitVec 32) : Fin 2 → Nat :=
  let v4100 : Index := Scalar.indexCast v4096
  let c0_1304 : Index := 0#32
  ![v4100.toNat, 0]

def k1_off561 (v4096 : BitVec 32) : Fin 2 → Nat :=
  let v4108 : Index := Scalar.indexCast v4096
  let c0_1306 : Index := 0#32
  ![v4108.toNat, 0]

def k1_chk374 (v4096 : BitVec 32) : Prop :=
  (∀ a, (k1_off560 v4096) a + S1x64.size a ≤ S16384x64.size a) ∧
  (∀ a, (k1_off561 v4096) a + S1x1.size a ≤ S16384x1.size a)
instance k1_chk374.dec : ∀ (v4096 : BitVec 32), Decidable (k1_chk374 v4096) := fun v4096 => decidable_of_iff' _ (Iff.of_eq (k1_chk374.eq_1 v4096))
theorem k1_off560_inb : ∀ (v4096 : BitVec 32) (k1_hw374 : k1_chk374 v4096), ∀ a, (k1_off560 v4096) a + S1x64.size a ≤ S16384x64.size a := fun v4096 k1_hw374 => k1_hw374.1
theorem k1_off561_inb : ∀ (v4096 : BitVec 32) (k1_hw374 : k1_chk374 v4096), ∀ a, (k1_off561 v4096) a + S1x1.size a ≤ S16384x1.size a := fun v4096 k1_hw374 => k1_hw374.2

def k1_off562 (v4117 : BitVec 32) : Fin 2 → Nat :=
  let v4119 : Index := Scalar.indexCast v4117
  let c0_1310 : Index := 0#32
  ![v4119.toNat, 0]

def k1_chk375 (v4117 : BitVec 32) : Prop :=
  (∀ a, (k1_off562 v4117) a + S1x64.size a ≤ S50000x64.size a)
instance k1_chk375.dec : ∀ (v4117 : BitVec 32), Decidable (k1_chk375 v4117) := fun v4117 => decidable_of_iff' _ (Iff.of_eq (k1_chk375.eq_1 v4117))
theorem k1_off562_inb : ∀ (v4117 : BitVec 32) (k1_hw375 : k1_chk375 v4117), ∀ a, (k1_off562 v4117) a + S1x64.size a ≤ S50000x64.size a := fun v4117 k1_hw375 => k1_hw375

def k1_off563 (v4118 : BitVec 32) : Fin 2 → Nat :=
  let v4122 : Index := Scalar.indexCast v4118
  let c0_1311 : Index := 0#32
  ![v4122.toNat, 0]

def k1_off564 (v4118 : BitVec 32) : Fin 2 → Nat :=
  let v4130 : Index := Scalar.indexCast v4118
  let c0_1313 : Index := 0#32
  ![v4130.toNat, 0]

def k1_chk376 (v4118 : BitVec 32) : Prop :=
  (∀ a, (k1_off563 v4118) a + S1x64.size a ≤ S16384x64.size a) ∧
  (∀ a, (k1_off564 v4118) a + S1x1.size a ≤ S16384x1.size a)
instance k1_chk376.dec : ∀ (v4118 : BitVec 32), Decidable (k1_chk376 v4118) := fun v4118 => decidable_of_iff' _ (Iff.of_eq (k1_chk376.eq_1 v4118))
theorem k1_off563_inb : ∀ (v4118 : BitVec 32) (k1_hw376 : k1_chk376 v4118), ∀ a, (k1_off563 v4118) a + S1x64.size a ≤ S16384x64.size a := fun v4118 k1_hw376 => k1_hw376.1
theorem k1_off564_inb : ∀ (v4118 : BitVec 32) (k1_hw376 : k1_chk376 v4118), ∀ a, (k1_off564 v4118) a + S1x1.size a ≤ S16384x1.size a := fun v4118 k1_hw376 => k1_hw376.2

def k1_off565 (v4139 : BitVec 32) : Fin 2 → Nat :=
  let v4141 : Index := Scalar.indexCast v4139
  let c0_1317 : Index := 0#32
  ![v4141.toNat, 0]

def k1_chk377 (v4139 : BitVec 32) : Prop :=
  (∀ a, (k1_off565 v4139) a + S1x64.size a ≤ S50000x64.size a)
instance k1_chk377.dec : ∀ (v4139 : BitVec 32), Decidable (k1_chk377 v4139) := fun v4139 => decidable_of_iff' _ (Iff.of_eq (k1_chk377.eq_1 v4139))
theorem k1_off565_inb : ∀ (v4139 : BitVec 32) (k1_hw377 : k1_chk377 v4139), ∀ a, (k1_off565 v4139) a + S1x64.size a ≤ S50000x64.size a := fun v4139 k1_hw377 => k1_hw377

def k1_off566 (v4140 : BitVec 32) : Fin 2 → Nat :=
  let v4144 : Index := Scalar.indexCast v4140
  let c0_1318 : Index := 0#32
  ![v4144.toNat, 0]

def k1_off567 (v4140 : BitVec 32) : Fin 2 → Nat :=
  let v4152 : Index := Scalar.indexCast v4140
  let c0_1320 : Index := 0#32
  ![v4152.toNat, 0]

def k1_chk378 (v4140 : BitVec 32) : Prop :=
  (∀ a, (k1_off566 v4140) a + S1x64.size a ≤ S16384x64.size a) ∧
  (∀ a, (k1_off567 v4140) a + S1x1.size a ≤ S16384x1.size a)
instance k1_chk378.dec : ∀ (v4140 : BitVec 32), Decidable (k1_chk378 v4140) := fun v4140 => decidable_of_iff' _ (Iff.of_eq (k1_chk378.eq_1 v4140))
theorem k1_off566_inb : ∀ (v4140 : BitVec 32) (k1_hw378 : k1_chk378 v4140), ∀ a, (k1_off566 v4140) a + S1x64.size a ≤ S16384x64.size a := fun v4140 k1_hw378 => k1_hw378.1
theorem k1_off567_inb : ∀ (v4140 : BitVec 32) (k1_hw378 : k1_chk378 v4140), ∀ a, (k1_off567 v4140) a + S1x1.size a ≤ S16384x1.size a := fun v4140 k1_hw378 => k1_hw378.2

def k1_off568 (v4161 : BitVec 32) : Fin 2 → Nat :=
  let v4163 : Index := Scalar.indexCast v4161
  let c0_1324 : Index := 0#32
  ![v4163.toNat, 0]

def k1_chk379 (v4161 : BitVec 32) : Prop :=
  (∀ a, (k1_off568 v4161) a + S1x64.size a ≤ S50000x64.size a)
instance k1_chk379.dec : ∀ (v4161 : BitVec 32), Decidable (k1_chk379 v4161) := fun v4161 => decidable_of_iff' _ (Iff.of_eq (k1_chk379.eq_1 v4161))
theorem k1_off568_inb : ∀ (v4161 : BitVec 32) (k1_hw379 : k1_chk379 v4161), ∀ a, (k1_off568 v4161) a + S1x64.size a ≤ S50000x64.size a := fun v4161 k1_hw379 => k1_hw379

def k1_off569 (v4162 : BitVec 32) : Fin 2 → Nat :=
  let v4166 : Index := Scalar.indexCast v4162
  let c0_1325 : Index := 0#32
  ![v4166.toNat, 0]

def k1_off570 (v4162 : BitVec 32) : Fin 2 → Nat :=
  let v4174 : Index := Scalar.indexCast v4162
  let c0_1327 : Index := 0#32
  ![v4174.toNat, 0]

def k1_chk380 (v4162 : BitVec 32) : Prop :=
  (∀ a, (k1_off569 v4162) a + S1x64.size a ≤ S16384x64.size a) ∧
  (∀ a, (k1_off570 v4162) a + S1x1.size a ≤ S16384x1.size a)
instance k1_chk380.dec : ∀ (v4162 : BitVec 32), Decidable (k1_chk380 v4162) := fun v4162 => decidable_of_iff' _ (Iff.of_eq (k1_chk380.eq_1 v4162))
theorem k1_off569_inb : ∀ (v4162 : BitVec 32) (k1_hw380 : k1_chk380 v4162), ∀ a, (k1_off569 v4162) a + S1x64.size a ≤ S16384x64.size a := fun v4162 k1_hw380 => k1_hw380.1
theorem k1_off570_inb : ∀ (v4162 : BitVec 32) (k1_hw380 : k1_chk380 v4162), ∀ a, (k1_off570 v4162) a + S1x1.size a ≤ S16384x1.size a := fun v4162 k1_hw380 => k1_hw380.2

def k1_off571 (v4183 : BitVec 32) : Fin 2 → Nat :=
  let v4185 : Index := Scalar.indexCast v4183
  let c0_1331 : Index := 0#32
  ![v4185.toNat, 0]

def k1_chk381 (v4183 : BitVec 32) : Prop :=
  (∀ a, (k1_off571 v4183) a + S1x64.size a ≤ S50000x64.size a)
instance k1_chk381.dec : ∀ (v4183 : BitVec 32), Decidable (k1_chk381 v4183) := fun v4183 => decidable_of_iff' _ (Iff.of_eq (k1_chk381.eq_1 v4183))
theorem k1_off571_inb : ∀ (v4183 : BitVec 32) (k1_hw381 : k1_chk381 v4183), ∀ a, (k1_off571 v4183) a + S1x64.size a ≤ S50000x64.size a := fun v4183 k1_hw381 => k1_hw381

def k1_off572 (v4184 : BitVec 32) : Fin 2 → Nat :=
  let v4188 : Index := Scalar.indexCast v4184
  let c0_1332 : Index := 0#32
  ![v4188.toNat, 0]

def k1_off573 (v4184 : BitVec 32) : Fin 2 → Nat :=
  let v4196 : Index := Scalar.indexCast v4184
  let c0_1334 : Index := 0#32
  ![v4196.toNat, 0]

def k1_chk382 (v4184 : BitVec 32) : Prop :=
  (∀ a, (k1_off572 v4184) a + S1x64.size a ≤ S16384x64.size a) ∧
  (∀ a, (k1_off573 v4184) a + S1x1.size a ≤ S16384x1.size a)
instance k1_chk382.dec : ∀ (v4184 : BitVec 32), Decidable (k1_chk382 v4184) := fun v4184 => decidable_of_iff' _ (Iff.of_eq (k1_chk382.eq_1 v4184))
theorem k1_off572_inb : ∀ (v4184 : BitVec 32) (k1_hw382 : k1_chk382 v4184), ∀ a, (k1_off572 v4184) a + S1x64.size a ≤ S16384x64.size a := fun v4184 k1_hw382 => k1_hw382.1
theorem k1_off573_inb : ∀ (v4184 : BitVec 32) (k1_hw382 : k1_chk382 v4184), ∀ a, (k1_off573 v4184) a + S1x1.size a ≤ S16384x1.size a := fun v4184 k1_hw382 => k1_hw382.2

def k1_off574 (v4205 : BitVec 32) : Fin 2 → Nat :=
  let v4207 : Index := Scalar.indexCast v4205
  let c0_1338 : Index := 0#32
  ![v4207.toNat, 0]

def k1_chk383 (v4205 : BitVec 32) : Prop :=
  (∀ a, (k1_off574 v4205) a + S1x64.size a ≤ S50000x64.size a)
instance k1_chk383.dec : ∀ (v4205 : BitVec 32), Decidable (k1_chk383 v4205) := fun v4205 => decidable_of_iff' _ (Iff.of_eq (k1_chk383.eq_1 v4205))
theorem k1_off574_inb : ∀ (v4205 : BitVec 32) (k1_hw383 : k1_chk383 v4205), ∀ a, (k1_off574 v4205) a + S1x64.size a ≤ S50000x64.size a := fun v4205 k1_hw383 => k1_hw383

def k1_off575 (v4206 : BitVec 32) : Fin 2 → Nat :=
  let v4210 : Index := Scalar.indexCast v4206
  let c0_1339 : Index := 0#32
  ![v4210.toNat, 0]

def k1_off576 (v4206 : BitVec 32) : Fin 2 → Nat :=
  let v4218 : Index := Scalar.indexCast v4206
  let c0_1341 : Index := 0#32
  ![v4218.toNat, 0]

def k1_chk384 (v4206 : BitVec 32) : Prop :=
  (∀ a, (k1_off575 v4206) a + S1x64.size a ≤ S16384x64.size a) ∧
  (∀ a, (k1_off576 v4206) a + S1x1.size a ≤ S16384x1.size a)
instance k1_chk384.dec : ∀ (v4206 : BitVec 32), Decidable (k1_chk384 v4206) := fun v4206 => decidable_of_iff' _ (Iff.of_eq (k1_chk384.eq_1 v4206))
theorem k1_off575_inb : ∀ (v4206 : BitVec 32) (k1_hw384 : k1_chk384 v4206), ∀ a, (k1_off575 v4206) a + S1x64.size a ≤ S16384x64.size a := fun v4206 k1_hw384 => k1_hw384.1
theorem k1_off576_inb : ∀ (v4206 : BitVec 32) (k1_hw384 : k1_chk384 v4206), ∀ a, (k1_off576 v4206) a + S1x1.size a ≤ S16384x1.size a := fun v4206 k1_hw384 => k1_hw384.2

def k1_off577 (v4227 : BitVec 32) : Fin 2 → Nat :=
  let v4229 : Index := Scalar.indexCast v4227
  let c0_1345 : Index := 0#32
  ![v4229.toNat, 0]

def k1_chk385 (v4227 : BitVec 32) : Prop :=
  (∀ a, (k1_off577 v4227) a + S1x64.size a ≤ S50000x64.size a)
instance k1_chk385.dec : ∀ (v4227 : BitVec 32), Decidable (k1_chk385 v4227) := fun v4227 => decidable_of_iff' _ (Iff.of_eq (k1_chk385.eq_1 v4227))
theorem k1_off577_inb : ∀ (v4227 : BitVec 32) (k1_hw385 : k1_chk385 v4227), ∀ a, (k1_off577 v4227) a + S1x64.size a ≤ S50000x64.size a := fun v4227 k1_hw385 => k1_hw385

def k1_off578 (v4228 : BitVec 32) : Fin 2 → Nat :=
  let v4232 : Index := Scalar.indexCast v4228
  let c0_1346 : Index := 0#32
  ![v4232.toNat, 0]

def k1_off579 (v4228 : BitVec 32) : Fin 2 → Nat :=
  let v4240 : Index := Scalar.indexCast v4228
  let c0_1348 : Index := 0#32
  ![v4240.toNat, 0]

def k1_chk386 (v4228 : BitVec 32) : Prop :=
  (∀ a, (k1_off578 v4228) a + S1x64.size a ≤ S16384x64.size a) ∧
  (∀ a, (k1_off579 v4228) a + S1x1.size a ≤ S16384x1.size a)
instance k1_chk386.dec : ∀ (v4228 : BitVec 32), Decidable (k1_chk386 v4228) := fun v4228 => decidable_of_iff' _ (Iff.of_eq (k1_chk386.eq_1 v4228))
theorem k1_off578_inb : ∀ (v4228 : BitVec 32) (k1_hw386 : k1_chk386 v4228), ∀ a, (k1_off578 v4228) a + S1x64.size a ≤ S16384x64.size a := fun v4228 k1_hw386 => k1_hw386.1
theorem k1_off579_inb : ∀ (v4228 : BitVec 32) (k1_hw386 : k1_chk386 v4228), ∀ a, (k1_off579 v4228) a + S1x1.size a ≤ S16384x1.size a := fun v4228 k1_hw386 => k1_hw386.2

def k1_off580 (v4249 : BitVec 32) : Fin 2 → Nat :=
  let v4251 : Index := Scalar.indexCast v4249
  let c0_1352 : Index := 0#32
  ![v4251.toNat, 0]

def k1_chk387 (v4249 : BitVec 32) : Prop :=
  (∀ a, (k1_off580 v4249) a + S1x64.size a ≤ S50000x64.size a)
instance k1_chk387.dec : ∀ (v4249 : BitVec 32), Decidable (k1_chk387 v4249) := fun v4249 => decidable_of_iff' _ (Iff.of_eq (k1_chk387.eq_1 v4249))
theorem k1_off580_inb : ∀ (v4249 : BitVec 32) (k1_hw387 : k1_chk387 v4249), ∀ a, (k1_off580 v4249) a + S1x64.size a ≤ S50000x64.size a := fun v4249 k1_hw387 => k1_hw387

def k1_off581 (v4250 : BitVec 32) : Fin 2 → Nat :=
  let v4254 : Index := Scalar.indexCast v4250
  let c0_1353 : Index := 0#32
  ![v4254.toNat, 0]

def k1_off582 (v4250 : BitVec 32) : Fin 2 → Nat :=
  let v4262 : Index := Scalar.indexCast v4250
  let c0_1355 : Index := 0#32
  ![v4262.toNat, 0]

def k1_chk388 (v4250 : BitVec 32) : Prop :=
  (∀ a, (k1_off581 v4250) a + S1x64.size a ≤ S16384x64.size a) ∧
  (∀ a, (k1_off582 v4250) a + S1x1.size a ≤ S16384x1.size a)
instance k1_chk388.dec : ∀ (v4250 : BitVec 32), Decidable (k1_chk388 v4250) := fun v4250 => decidable_of_iff' _ (Iff.of_eq (k1_chk388.eq_1 v4250))
theorem k1_off581_inb : ∀ (v4250 : BitVec 32) (k1_hw388 : k1_chk388 v4250), ∀ a, (k1_off581 v4250) a + S1x64.size a ≤ S16384x64.size a := fun v4250 k1_hw388 => k1_hw388.1
theorem k1_off582_inb : ∀ (v4250 : BitVec 32) (k1_hw388 : k1_chk388 v4250), ∀ a, (k1_off582 v4250) a + S1x1.size a ≤ S16384x1.size a := fun v4250 k1_hw388 => k1_hw388.2

def k1_off583 (v4271 : BitVec 32) : Fin 2 → Nat :=
  let v4273 : Index := Scalar.indexCast v4271
  let c0_1359 : Index := 0#32
  ![v4273.toNat, 0]

def k1_chk389 (v4271 : BitVec 32) : Prop :=
  (∀ a, (k1_off583 v4271) a + S1x64.size a ≤ S50000x64.size a)
instance k1_chk389.dec : ∀ (v4271 : BitVec 32), Decidable (k1_chk389 v4271) := fun v4271 => decidable_of_iff' _ (Iff.of_eq (k1_chk389.eq_1 v4271))
theorem k1_off583_inb : ∀ (v4271 : BitVec 32) (k1_hw389 : k1_chk389 v4271), ∀ a, (k1_off583 v4271) a + S1x64.size a ≤ S50000x64.size a := fun v4271 k1_hw389 => k1_hw389

def k1_off584 (v4272 : BitVec 32) : Fin 2 → Nat :=
  let v4276 : Index := Scalar.indexCast v4272
  let c0_1360 : Index := 0#32
  ![v4276.toNat, 0]

def k1_off585 (v4272 : BitVec 32) : Fin 2 → Nat :=
  let v4284 : Index := Scalar.indexCast v4272
  let c0_1362 : Index := 0#32
  ![v4284.toNat, 0]

def k1_chk390 (v4272 : BitVec 32) : Prop :=
  (∀ a, (k1_off584 v4272) a + S1x64.size a ≤ S16384x64.size a) ∧
  (∀ a, (k1_off585 v4272) a + S1x1.size a ≤ S16384x1.size a)
instance k1_chk390.dec : ∀ (v4272 : BitVec 32), Decidable (k1_chk390 v4272) := fun v4272 => decidable_of_iff' _ (Iff.of_eq (k1_chk390.eq_1 v4272))
theorem k1_off584_inb : ∀ (v4272 : BitVec 32) (k1_hw390 : k1_chk390 v4272), ∀ a, (k1_off584 v4272) a + S1x64.size a ≤ S16384x64.size a := fun v4272 k1_hw390 => k1_hw390.1
theorem k1_off585_inb : ∀ (v4272 : BitVec 32) (k1_hw390 : k1_chk390 v4272), ∀ a, (k1_off585 v4272) a + S1x1.size a ≤ S16384x1.size a := fun v4272 k1_hw390 => k1_hw390.2

def k1_off586 (v4293 : BitVec 32) : Fin 2 → Nat :=
  let v4295 : Index := Scalar.indexCast v4293
  let c0_1366 : Index := 0#32
  ![v4295.toNat, 0]

def k1_chk391 (v4293 : BitVec 32) : Prop :=
  (∀ a, (k1_off586 v4293) a + S1x64.size a ≤ S50000x64.size a)
instance k1_chk391.dec : ∀ (v4293 : BitVec 32), Decidable (k1_chk391 v4293) := fun v4293 => decidable_of_iff' _ (Iff.of_eq (k1_chk391.eq_1 v4293))
theorem k1_off586_inb : ∀ (v4293 : BitVec 32) (k1_hw391 : k1_chk391 v4293), ∀ a, (k1_off586 v4293) a + S1x64.size a ≤ S50000x64.size a := fun v4293 k1_hw391 => k1_hw391

def k1_off587 (v4294 : BitVec 32) : Fin 2 → Nat :=
  let v4298 : Index := Scalar.indexCast v4294
  let c0_1367 : Index := 0#32
  ![v4298.toNat, 0]

def k1_off588 (v4294 : BitVec 32) : Fin 2 → Nat :=
  let v4306 : Index := Scalar.indexCast v4294
  let c0_1369 : Index := 0#32
  ![v4306.toNat, 0]

def k1_chk392 (v4294 : BitVec 32) : Prop :=
  (∀ a, (k1_off587 v4294) a + S1x64.size a ≤ S16384x64.size a) ∧
  (∀ a, (k1_off588 v4294) a + S1x1.size a ≤ S16384x1.size a)
instance k1_chk392.dec : ∀ (v4294 : BitVec 32), Decidable (k1_chk392 v4294) := fun v4294 => decidable_of_iff' _ (Iff.of_eq (k1_chk392.eq_1 v4294))
theorem k1_off587_inb : ∀ (v4294 : BitVec 32) (k1_hw392 : k1_chk392 v4294), ∀ a, (k1_off587 v4294) a + S1x64.size a ≤ S16384x64.size a := fun v4294 k1_hw392 => k1_hw392.1
theorem k1_off588_inb : ∀ (v4294 : BitVec 32) (k1_hw392 : k1_chk392 v4294), ∀ a, (k1_off588 v4294) a + S1x1.size a ≤ S16384x1.size a := fun v4294 k1_hw392 => k1_hw392.2

def k1_off589 (v4315 : BitVec 32) : Fin 2 → Nat :=
  let v4317 : Index := Scalar.indexCast v4315
  let c0_1373 : Index := 0#32
  ![v4317.toNat, 0]

def k1_chk393 (v4315 : BitVec 32) : Prop :=
  (∀ a, (k1_off589 v4315) a + S1x64.size a ≤ S50000x64.size a)
instance k1_chk393.dec : ∀ (v4315 : BitVec 32), Decidable (k1_chk393 v4315) := fun v4315 => decidable_of_iff' _ (Iff.of_eq (k1_chk393.eq_1 v4315))
theorem k1_off589_inb : ∀ (v4315 : BitVec 32) (k1_hw393 : k1_chk393 v4315), ∀ a, (k1_off589 v4315) a + S1x64.size a ≤ S50000x64.size a := fun v4315 k1_hw393 => k1_hw393

def k1_off590 (v4316 : BitVec 32) : Fin 2 → Nat :=
  let v4320 : Index := Scalar.indexCast v4316
  let c0_1374 : Index := 0#32
  ![v4320.toNat, 0]

def k1_off591 (v4316 : BitVec 32) : Fin 2 → Nat :=
  let v4328 : Index := Scalar.indexCast v4316
  let c0_1376 : Index := 0#32
  ![v4328.toNat, 0]

def k1_chk394 (v4316 : BitVec 32) : Prop :=
  (∀ a, (k1_off590 v4316) a + S1x64.size a ≤ S16384x64.size a) ∧
  (∀ a, (k1_off591 v4316) a + S1x1.size a ≤ S16384x1.size a)
instance k1_chk394.dec : ∀ (v4316 : BitVec 32), Decidable (k1_chk394 v4316) := fun v4316 => decidable_of_iff' _ (Iff.of_eq (k1_chk394.eq_1 v4316))
theorem k1_off590_inb : ∀ (v4316 : BitVec 32) (k1_hw394 : k1_chk394 v4316), ∀ a, (k1_off590 v4316) a + S1x64.size a ≤ S16384x64.size a := fun v4316 k1_hw394 => k1_hw394.1
theorem k1_off591_inb : ∀ (v4316 : BitVec 32) (k1_hw394 : k1_chk394 v4316), ∀ a, (k1_off591 v4316) a + S1x1.size a ≤ S16384x1.size a := fun v4316 k1_hw394 => k1_hw394.2

def k1_off592 (v4337 : BitVec 32) : Fin 2 → Nat :=
  let v4339 : Index := Scalar.indexCast v4337
  let c0_1380 : Index := 0#32
  ![v4339.toNat, 0]

def k1_chk395 (v4337 : BitVec 32) : Prop :=
  (∀ a, (k1_off592 v4337) a + S1x64.size a ≤ S50000x64.size a)
instance k1_chk395.dec : ∀ (v4337 : BitVec 32), Decidable (k1_chk395 v4337) := fun v4337 => decidable_of_iff' _ (Iff.of_eq (k1_chk395.eq_1 v4337))
theorem k1_off592_inb : ∀ (v4337 : BitVec 32) (k1_hw395 : k1_chk395 v4337), ∀ a, (k1_off592 v4337) a + S1x64.size a ≤ S50000x64.size a := fun v4337 k1_hw395 => k1_hw395

def k1_off593 (v4338 : BitVec 32) : Fin 2 → Nat :=
  let v4342 : Index := Scalar.indexCast v4338
  let c0_1381 : Index := 0#32
  ![v4342.toNat, 0]

def k1_off594 (v4338 : BitVec 32) : Fin 2 → Nat :=
  let v4350 : Index := Scalar.indexCast v4338
  let c0_1383 : Index := 0#32
  ![v4350.toNat, 0]

def k1_chk396 (v4338 : BitVec 32) : Prop :=
  (∀ a, (k1_off593 v4338) a + S1x64.size a ≤ S16384x64.size a) ∧
  (∀ a, (k1_off594 v4338) a + S1x1.size a ≤ S16384x1.size a)
instance k1_chk396.dec : ∀ (v4338 : BitVec 32), Decidable (k1_chk396 v4338) := fun v4338 => decidable_of_iff' _ (Iff.of_eq (k1_chk396.eq_1 v4338))
theorem k1_off593_inb : ∀ (v4338 : BitVec 32) (k1_hw396 : k1_chk396 v4338), ∀ a, (k1_off593 v4338) a + S1x64.size a ≤ S16384x64.size a := fun v4338 k1_hw396 => k1_hw396.1
theorem k1_off594_inb : ∀ (v4338 : BitVec 32) (k1_hw396 : k1_chk396 v4338), ∀ a, (k1_off594 v4338) a + S1x1.size a ≤ S16384x1.size a := fun v4338 k1_hw396 => k1_hw396.2

def k1_off595 (v4359 : BitVec 32) : Fin 2 → Nat :=
  let v4361 : Index := Scalar.indexCast v4359
  let c0_1387 : Index := 0#32
  ![v4361.toNat, 0]

def k1_chk397 (v4359 : BitVec 32) : Prop :=
  (∀ a, (k1_off595 v4359) a + S1x64.size a ≤ S50000x64.size a)
instance k1_chk397.dec : ∀ (v4359 : BitVec 32), Decidable (k1_chk397 v4359) := fun v4359 => decidable_of_iff' _ (Iff.of_eq (k1_chk397.eq_1 v4359))
theorem k1_off595_inb : ∀ (v4359 : BitVec 32) (k1_hw397 : k1_chk397 v4359), ∀ a, (k1_off595 v4359) a + S1x64.size a ≤ S50000x64.size a := fun v4359 k1_hw397 => k1_hw397

def k1_off596 (v4360 : BitVec 32) : Fin 2 → Nat :=
  let v4364 : Index := Scalar.indexCast v4360
  let c0_1388 : Index := 0#32
  ![v4364.toNat, 0]

def k1_off597 (v4360 : BitVec 32) : Fin 2 → Nat :=
  let v4372 : Index := Scalar.indexCast v4360
  let c0_1390 : Index := 0#32
  ![v4372.toNat, 0]

def k1_chk398 (v4360 : BitVec 32) : Prop :=
  (∀ a, (k1_off596 v4360) a + S1x64.size a ≤ S16384x64.size a) ∧
  (∀ a, (k1_off597 v4360) a + S1x1.size a ≤ S16384x1.size a)
instance k1_chk398.dec : ∀ (v4360 : BitVec 32), Decidable (k1_chk398 v4360) := fun v4360 => decidable_of_iff' _ (Iff.of_eq (k1_chk398.eq_1 v4360))
theorem k1_off596_inb : ∀ (v4360 : BitVec 32) (k1_hw398 : k1_chk398 v4360), ∀ a, (k1_off596 v4360) a + S1x64.size a ≤ S16384x64.size a := fun v4360 k1_hw398 => k1_hw398.1
theorem k1_off597_inb : ∀ (v4360 : BitVec 32) (k1_hw398 : k1_chk398 v4360), ∀ a, (k1_off597 v4360) a + S1x1.size a ≤ S16384x1.size a := fun v4360 k1_hw398 => k1_hw398.2

def k1_off598 (v4381 : BitVec 32) : Fin 2 → Nat :=
  let v4383 : Index := Scalar.indexCast v4381
  let c0_1394 : Index := 0#32
  ![v4383.toNat, 0]

def k1_chk399 (v4381 : BitVec 32) : Prop :=
  (∀ a, (k1_off598 v4381) a + S1x64.size a ≤ S50000x64.size a)
instance k1_chk399.dec : ∀ (v4381 : BitVec 32), Decidable (k1_chk399 v4381) := fun v4381 => decidable_of_iff' _ (Iff.of_eq (k1_chk399.eq_1 v4381))
theorem k1_off598_inb : ∀ (v4381 : BitVec 32) (k1_hw399 : k1_chk399 v4381), ∀ a, (k1_off598 v4381) a + S1x64.size a ≤ S50000x64.size a := fun v4381 k1_hw399 => k1_hw399

def k1_off599 (v4382 : BitVec 32) : Fin 2 → Nat :=
  let v4386 : Index := Scalar.indexCast v4382
  let c0_1395 : Index := 0#32
  ![v4386.toNat, 0]

def k1_off600 (v4382 : BitVec 32) : Fin 2 → Nat :=
  let v4394 : Index := Scalar.indexCast v4382
  let c0_1397 : Index := 0#32
  ![v4394.toNat, 0]

def k1_chk400 (v4382 : BitVec 32) : Prop :=
  (∀ a, (k1_off599 v4382) a + S1x64.size a ≤ S16384x64.size a) ∧
  (∀ a, (k1_off600 v4382) a + S1x1.size a ≤ S16384x1.size a)
instance k1_chk400.dec : ∀ (v4382 : BitVec 32), Decidable (k1_chk400 v4382) := fun v4382 => decidable_of_iff' _ (Iff.of_eq (k1_chk400.eq_1 v4382))
theorem k1_off599_inb : ∀ (v4382 : BitVec 32) (k1_hw400 : k1_chk400 v4382), ∀ a, (k1_off599 v4382) a + S1x64.size a ≤ S16384x64.size a := fun v4382 k1_hw400 => k1_hw400.1
theorem k1_off600_inb : ∀ (v4382 : BitVec 32) (k1_hw400 : k1_chk400 v4382), ∀ a, (k1_off600 v4382) a + S1x1.size a ≤ S16384x1.size a := fun v4382 k1_hw400 => k1_hw400.2

def k1_off601 (v4403 : BitVec 32) : Fin 2 → Nat :=
  let v4405 : Index := Scalar.indexCast v4403
  let c0_1401 : Index := 0#32
  ![v4405.toNat, 0]

def k1_chk401 (v4403 : BitVec 32) : Prop :=
  (∀ a, (k1_off601 v4403) a + S1x64.size a ≤ S50000x64.size a)
instance k1_chk401.dec : ∀ (v4403 : BitVec 32), Decidable (k1_chk401 v4403) := fun v4403 => decidable_of_iff' _ (Iff.of_eq (k1_chk401.eq_1 v4403))
theorem k1_off601_inb : ∀ (v4403 : BitVec 32) (k1_hw401 : k1_chk401 v4403), ∀ a, (k1_off601 v4403) a + S1x64.size a ≤ S50000x64.size a := fun v4403 k1_hw401 => k1_hw401

def k1_off602 (v4404 : BitVec 32) : Fin 2 → Nat :=
  let v4408 : Index := Scalar.indexCast v4404
  let c0_1402 : Index := 0#32
  ![v4408.toNat, 0]

def k1_off603 (v4404 : BitVec 32) : Fin 2 → Nat :=
  let v4416 : Index := Scalar.indexCast v4404
  let c0_1404 : Index := 0#32
  ![v4416.toNat, 0]

def k1_chk402 (v4404 : BitVec 32) : Prop :=
  (∀ a, (k1_off602 v4404) a + S1x64.size a ≤ S16384x64.size a) ∧
  (∀ a, (k1_off603 v4404) a + S1x1.size a ≤ S16384x1.size a)
instance k1_chk402.dec : ∀ (v4404 : BitVec 32), Decidable (k1_chk402 v4404) := fun v4404 => decidable_of_iff' _ (Iff.of_eq (k1_chk402.eq_1 v4404))
theorem k1_off602_inb : ∀ (v4404 : BitVec 32) (k1_hw402 : k1_chk402 v4404), ∀ a, (k1_off602 v4404) a + S1x64.size a ≤ S16384x64.size a := fun v4404 k1_hw402 => k1_hw402.1
theorem k1_off603_inb : ∀ (v4404 : BitVec 32) (k1_hw402 : k1_chk402 v4404), ∀ a, (k1_off603 v4404) a + S1x1.size a ≤ S16384x1.size a := fun v4404 k1_hw402 => k1_hw402.2

def k1_off604 (v4425 : BitVec 32) : Fin 2 → Nat :=
  let v4427 : Index := Scalar.indexCast v4425
  let c0_1408 : Index := 0#32
  ![v4427.toNat, 0]

def k1_chk403 (v4425 : BitVec 32) : Prop :=
  (∀ a, (k1_off604 v4425) a + S1x64.size a ≤ S50000x64.size a)
instance k1_chk403.dec : ∀ (v4425 : BitVec 32), Decidable (k1_chk403 v4425) := fun v4425 => decidable_of_iff' _ (Iff.of_eq (k1_chk403.eq_1 v4425))
theorem k1_off604_inb : ∀ (v4425 : BitVec 32) (k1_hw403 : k1_chk403 v4425), ∀ a, (k1_off604 v4425) a + S1x64.size a ≤ S50000x64.size a := fun v4425 k1_hw403 => k1_hw403

def k1_off605 (v4426 : BitVec 32) : Fin 2 → Nat :=
  let v4430 : Index := Scalar.indexCast v4426
  let c0_1409 : Index := 0#32
  ![v4430.toNat, 0]

def k1_off606 (v4426 : BitVec 32) : Fin 2 → Nat :=
  let v4438 : Index := Scalar.indexCast v4426
  let c0_1411 : Index := 0#32
  ![v4438.toNat, 0]

def k1_chk404 (v4426 : BitVec 32) : Prop :=
  (∀ a, (k1_off605 v4426) a + S1x64.size a ≤ S16384x64.size a) ∧
  (∀ a, (k1_off606 v4426) a + S1x1.size a ≤ S16384x1.size a)
instance k1_chk404.dec : ∀ (v4426 : BitVec 32), Decidable (k1_chk404 v4426) := fun v4426 => decidable_of_iff' _ (Iff.of_eq (k1_chk404.eq_1 v4426))
theorem k1_off605_inb : ∀ (v4426 : BitVec 32) (k1_hw404 : k1_chk404 v4426), ∀ a, (k1_off605 v4426) a + S1x64.size a ≤ S16384x64.size a := fun v4426 k1_hw404 => k1_hw404.1
theorem k1_off606_inb : ∀ (v4426 : BitVec 32) (k1_hw404 : k1_chk404 v4426), ∀ a, (k1_off606 v4426) a + S1x1.size a ≤ S16384x1.size a := fun v4426 k1_hw404 => k1_hw404.2

def k1_off607 (v4447 : BitVec 32) : Fin 2 → Nat :=
  let v4449 : Index := Scalar.indexCast v4447
  let c0_1415 : Index := 0#32
  ![v4449.toNat, 0]

def k1_chk405 (v4447 : BitVec 32) : Prop :=
  (∀ a, (k1_off607 v4447) a + S1x64.size a ≤ S50000x64.size a)
instance k1_chk405.dec : ∀ (v4447 : BitVec 32), Decidable (k1_chk405 v4447) := fun v4447 => decidable_of_iff' _ (Iff.of_eq (k1_chk405.eq_1 v4447))
theorem k1_off607_inb : ∀ (v4447 : BitVec 32) (k1_hw405 : k1_chk405 v4447), ∀ a, (k1_off607 v4447) a + S1x64.size a ≤ S50000x64.size a := fun v4447 k1_hw405 => k1_hw405

def k1_off608 (v4448 : BitVec 32) : Fin 2 → Nat :=
  let v4452 : Index := Scalar.indexCast v4448
  let c0_1416 : Index := 0#32
  ![v4452.toNat, 0]

def k1_off609 (v4448 : BitVec 32) : Fin 2 → Nat :=
  let v4460 : Index := Scalar.indexCast v4448
  let c0_1418 : Index := 0#32
  ![v4460.toNat, 0]

def k1_chk406 (v4448 : BitVec 32) : Prop :=
  (∀ a, (k1_off608 v4448) a + S1x64.size a ≤ S16384x64.size a) ∧
  (∀ a, (k1_off609 v4448) a + S1x1.size a ≤ S16384x1.size a)
instance k1_chk406.dec : ∀ (v4448 : BitVec 32), Decidable (k1_chk406 v4448) := fun v4448 => decidable_of_iff' _ (Iff.of_eq (k1_chk406.eq_1 v4448))
theorem k1_off608_inb : ∀ (v4448 : BitVec 32) (k1_hw406 : k1_chk406 v4448), ∀ a, (k1_off608 v4448) a + S1x64.size a ≤ S16384x64.size a := fun v4448 k1_hw406 => k1_hw406.1
theorem k1_off609_inb : ∀ (v4448 : BitVec 32) (k1_hw406 : k1_chk406 v4448), ∀ a, (k1_off609 v4448) a + S1x1.size a ≤ S16384x1.size a := fun v4448 k1_hw406 => k1_hw406.2

def k1_off610 (v4469 : BitVec 32) : Fin 2 → Nat :=
  let v4471 : Index := Scalar.indexCast v4469
  let c0_1422 : Index := 0#32
  ![v4471.toNat, 0]

def k1_chk407 (v4469 : BitVec 32) : Prop :=
  (∀ a, (k1_off610 v4469) a + S1x64.size a ≤ S50000x64.size a)
instance k1_chk407.dec : ∀ (v4469 : BitVec 32), Decidable (k1_chk407 v4469) := fun v4469 => decidable_of_iff' _ (Iff.of_eq (k1_chk407.eq_1 v4469))
theorem k1_off610_inb : ∀ (v4469 : BitVec 32) (k1_hw407 : k1_chk407 v4469), ∀ a, (k1_off610 v4469) a + S1x64.size a ≤ S50000x64.size a := fun v4469 k1_hw407 => k1_hw407

def k1_off611 (v4470 : BitVec 32) : Fin 2 → Nat :=
  let v4474 : Index := Scalar.indexCast v4470
  let c0_1423 : Index := 0#32
  ![v4474.toNat, 0]

def k1_off612 (v4470 : BitVec 32) : Fin 2 → Nat :=
  let v4482 : Index := Scalar.indexCast v4470
  let c0_1425 : Index := 0#32
  ![v4482.toNat, 0]

def k1_chk408 (v4470 : BitVec 32) : Prop :=
  (∀ a, (k1_off611 v4470) a + S1x64.size a ≤ S16384x64.size a) ∧
  (∀ a, (k1_off612 v4470) a + S1x1.size a ≤ S16384x1.size a)
instance k1_chk408.dec : ∀ (v4470 : BitVec 32), Decidable (k1_chk408 v4470) := fun v4470 => decidable_of_iff' _ (Iff.of_eq (k1_chk408.eq_1 v4470))
theorem k1_off611_inb : ∀ (v4470 : BitVec 32) (k1_hw408 : k1_chk408 v4470), ∀ a, (k1_off611 v4470) a + S1x64.size a ≤ S16384x64.size a := fun v4470 k1_hw408 => k1_hw408.1
theorem k1_off612_inb : ∀ (v4470 : BitVec 32) (k1_hw408 : k1_chk408 v4470), ∀ a, (k1_off612 v4470) a + S1x1.size a ≤ S16384x1.size a := fun v4470 k1_hw408 => k1_hw408.2

def k1_off613 (v4491 : BitVec 32) : Fin 2 → Nat :=
  let v4493 : Index := Scalar.indexCast v4491
  let c0_1429 : Index := 0#32
  ![v4493.toNat, 0]

def k1_chk409 (v4491 : BitVec 32) : Prop :=
  (∀ a, (k1_off613 v4491) a + S1x64.size a ≤ S50000x64.size a)
instance k1_chk409.dec : ∀ (v4491 : BitVec 32), Decidable (k1_chk409 v4491) := fun v4491 => decidable_of_iff' _ (Iff.of_eq (k1_chk409.eq_1 v4491))
theorem k1_off613_inb : ∀ (v4491 : BitVec 32) (k1_hw409 : k1_chk409 v4491), ∀ a, (k1_off613 v4491) a + S1x64.size a ≤ S50000x64.size a := fun v4491 k1_hw409 => k1_hw409

def k1_off614 (v4492 : BitVec 32) : Fin 2 → Nat :=
  let v4496 : Index := Scalar.indexCast v4492
  let c0_1430 : Index := 0#32
  ![v4496.toNat, 0]

def k1_off615 (v4492 : BitVec 32) : Fin 2 → Nat :=
  let v4504 : Index := Scalar.indexCast v4492
  let c0_1432 : Index := 0#32
  ![v4504.toNat, 0]

def k1_chk410 (v4492 : BitVec 32) : Prop :=
  (∀ a, (k1_off614 v4492) a + S1x64.size a ≤ S16384x64.size a) ∧
  (∀ a, (k1_off615 v4492) a + S1x1.size a ≤ S16384x1.size a)
instance k1_chk410.dec : ∀ (v4492 : BitVec 32), Decidable (k1_chk410 v4492) := fun v4492 => decidable_of_iff' _ (Iff.of_eq (k1_chk410.eq_1 v4492))
theorem k1_off614_inb : ∀ (v4492 : BitVec 32) (k1_hw410 : k1_chk410 v4492), ∀ a, (k1_off614 v4492) a + S1x64.size a ≤ S16384x64.size a := fun v4492 k1_hw410 => k1_hw410.1
theorem k1_off615_inb : ∀ (v4492 : BitVec 32) (k1_hw410 : k1_chk410 v4492), ∀ a, (k1_off615 v4492) a + S1x1.size a ≤ S16384x1.size a := fun v4492 k1_hw410 => k1_hw410.2

def k1_off616 (v4513 : BitVec 32) : Fin 2 → Nat :=
  let v4515 : Index := Scalar.indexCast v4513
  let c0_1436 : Index := 0#32
  ![v4515.toNat, 0]

def k1_chk411 (v4513 : BitVec 32) : Prop :=
  (∀ a, (k1_off616 v4513) a + S1x64.size a ≤ S50000x64.size a)
instance k1_chk411.dec : ∀ (v4513 : BitVec 32), Decidable (k1_chk411 v4513) := fun v4513 => decidable_of_iff' _ (Iff.of_eq (k1_chk411.eq_1 v4513))
theorem k1_off616_inb : ∀ (v4513 : BitVec 32) (k1_hw411 : k1_chk411 v4513), ∀ a, (k1_off616 v4513) a + S1x64.size a ≤ S50000x64.size a := fun v4513 k1_hw411 => k1_hw411

def k1_off617 (v4514 : BitVec 32) : Fin 2 → Nat :=
  let v4518 : Index := Scalar.indexCast v4514
  let c0_1437 : Index := 0#32
  ![v4518.toNat, 0]

def k1_off618 (v4514 : BitVec 32) : Fin 2 → Nat :=
  let v4526 : Index := Scalar.indexCast v4514
  let c0_1439 : Index := 0#32
  ![v4526.toNat, 0]

def k1_chk412 (v4514 : BitVec 32) : Prop :=
  (∀ a, (k1_off617 v4514) a + S1x64.size a ≤ S16384x64.size a) ∧
  (∀ a, (k1_off618 v4514) a + S1x1.size a ≤ S16384x1.size a)
instance k1_chk412.dec : ∀ (v4514 : BitVec 32), Decidable (k1_chk412 v4514) := fun v4514 => decidable_of_iff' _ (Iff.of_eq (k1_chk412.eq_1 v4514))
theorem k1_off617_inb : ∀ (v4514 : BitVec 32) (k1_hw412 : k1_chk412 v4514), ∀ a, (k1_off617 v4514) a + S1x64.size a ≤ S16384x64.size a := fun v4514 k1_hw412 => k1_hw412.1
theorem k1_off618_inb : ∀ (v4514 : BitVec 32) (k1_hw412 : k1_chk412 v4514), ∀ a, (k1_off618 v4514) a + S1x1.size a ≤ S16384x1.size a := fun v4514 k1_hw412 => k1_hw412.2

def k1_off619 (v4535 : BitVec 32) : Fin 2 → Nat :=
  let v4537 : Index := Scalar.indexCast v4535
  let c0_1443 : Index := 0#32
  ![v4537.toNat, 0]

def k1_chk413 (v4535 : BitVec 32) : Prop :=
  (∀ a, (k1_off619 v4535) a + S1x64.size a ≤ S50000x64.size a)
instance k1_chk413.dec : ∀ (v4535 : BitVec 32), Decidable (k1_chk413 v4535) := fun v4535 => decidable_of_iff' _ (Iff.of_eq (k1_chk413.eq_1 v4535))
theorem k1_off619_inb : ∀ (v4535 : BitVec 32) (k1_hw413 : k1_chk413 v4535), ∀ a, (k1_off619 v4535) a + S1x64.size a ≤ S50000x64.size a := fun v4535 k1_hw413 => k1_hw413

def k1_off620 (v4536 : BitVec 32) : Fin 2 → Nat :=
  let v4540 : Index := Scalar.indexCast v4536
  let c0_1444 : Index := 0#32
  ![v4540.toNat, 0]

def k1_off621 (v4536 : BitVec 32) : Fin 2 → Nat :=
  let v4548 : Index := Scalar.indexCast v4536
  let c0_1446 : Index := 0#32
  ![v4548.toNat, 0]

def k1_chk414 (v4536 : BitVec 32) : Prop :=
  (∀ a, (k1_off620 v4536) a + S1x64.size a ≤ S16384x64.size a) ∧
  (∀ a, (k1_off621 v4536) a + S1x1.size a ≤ S16384x1.size a)
instance k1_chk414.dec : ∀ (v4536 : BitVec 32), Decidable (k1_chk414 v4536) := fun v4536 => decidable_of_iff' _ (Iff.of_eq (k1_chk414.eq_1 v4536))
theorem k1_off620_inb : ∀ (v4536 : BitVec 32) (k1_hw414 : k1_chk414 v4536), ∀ a, (k1_off620 v4536) a + S1x64.size a ≤ S16384x64.size a := fun v4536 k1_hw414 => k1_hw414.1
theorem k1_off621_inb : ∀ (v4536 : BitVec 32) (k1_hw414 : k1_chk414 v4536), ∀ a, (k1_off621 v4536) a + S1x1.size a ≤ S16384x1.size a := fun v4536 k1_hw414 => k1_hw414.2

def k1_off622 (v4557 : BitVec 32) : Fin 2 → Nat :=
  let v4559 : Index := Scalar.indexCast v4557
  let c0_1450 : Index := 0#32
  ![v4559.toNat, 0]

def k1_chk415 (v4557 : BitVec 32) : Prop :=
  (∀ a, (k1_off622 v4557) a + S1x64.size a ≤ S50000x64.size a)
instance k1_chk415.dec : ∀ (v4557 : BitVec 32), Decidable (k1_chk415 v4557) := fun v4557 => decidable_of_iff' _ (Iff.of_eq (k1_chk415.eq_1 v4557))
theorem k1_off622_inb : ∀ (v4557 : BitVec 32) (k1_hw415 : k1_chk415 v4557), ∀ a, (k1_off622 v4557) a + S1x64.size a ≤ S50000x64.size a := fun v4557 k1_hw415 => k1_hw415

def k1_off623 (v4558 : BitVec 32) : Fin 2 → Nat :=
  let v4562 : Index := Scalar.indexCast v4558
  let c0_1451 : Index := 0#32
  ![v4562.toNat, 0]

def k1_off624 (v4558 : BitVec 32) : Fin 2 → Nat :=
  let v4570 : Index := Scalar.indexCast v4558
  let c0_1453 : Index := 0#32
  ![v4570.toNat, 0]

def k1_chk416 (v4558 : BitVec 32) : Prop :=
  (∀ a, (k1_off623 v4558) a + S1x64.size a ≤ S16384x64.size a) ∧
  (∀ a, (k1_off624 v4558) a + S1x1.size a ≤ S16384x1.size a)
instance k1_chk416.dec : ∀ (v4558 : BitVec 32), Decidable (k1_chk416 v4558) := fun v4558 => decidable_of_iff' _ (Iff.of_eq (k1_chk416.eq_1 v4558))
theorem k1_off623_inb : ∀ (v4558 : BitVec 32) (k1_hw416 : k1_chk416 v4558), ∀ a, (k1_off623 v4558) a + S1x64.size a ≤ S16384x64.size a := fun v4558 k1_hw416 => k1_hw416.1
theorem k1_off624_inb : ∀ (v4558 : BitVec 32) (k1_hw416 : k1_chk416 v4558), ∀ a, (k1_off624 v4558) a + S1x1.size a ≤ S16384x1.size a := fun v4558 k1_hw416 => k1_hw416.2

def k1_off625 (v4579 : BitVec 32) : Fin 2 → Nat :=
  let v4581 : Index := Scalar.indexCast v4579
  let c0_1457 : Index := 0#32
  ![v4581.toNat, 0]

def k1_chk417 (v4579 : BitVec 32) : Prop :=
  (∀ a, (k1_off625 v4579) a + S1x64.size a ≤ S50000x64.size a)
instance k1_chk417.dec : ∀ (v4579 : BitVec 32), Decidable (k1_chk417 v4579) := fun v4579 => decidable_of_iff' _ (Iff.of_eq (k1_chk417.eq_1 v4579))
theorem k1_off625_inb : ∀ (v4579 : BitVec 32) (k1_hw417 : k1_chk417 v4579), ∀ a, (k1_off625 v4579) a + S1x64.size a ≤ S50000x64.size a := fun v4579 k1_hw417 => k1_hw417

def k1_off626 (v4580 : BitVec 32) : Fin 2 → Nat :=
  let v4584 : Index := Scalar.indexCast v4580
  let c0_1458 : Index := 0#32
  ![v4584.toNat, 0]

def k1_off627 (v4580 : BitVec 32) : Fin 2 → Nat :=
  let v4592 : Index := Scalar.indexCast v4580
  let c0_1460 : Index := 0#32
  ![v4592.toNat, 0]

def k1_chk418 (v4580 : BitVec 32) : Prop :=
  (∀ a, (k1_off626 v4580) a + S1x64.size a ≤ S16384x64.size a) ∧
  (∀ a, (k1_off627 v4580) a + S1x1.size a ≤ S16384x1.size a)
instance k1_chk418.dec : ∀ (v4580 : BitVec 32), Decidable (k1_chk418 v4580) := fun v4580 => decidable_of_iff' _ (Iff.of_eq (k1_chk418.eq_1 v4580))
theorem k1_off626_inb : ∀ (v4580 : BitVec 32) (k1_hw418 : k1_chk418 v4580), ∀ a, (k1_off626 v4580) a + S1x64.size a ≤ S16384x64.size a := fun v4580 k1_hw418 => k1_hw418.1
theorem k1_off627_inb : ∀ (v4580 : BitVec 32) (k1_hw418 : k1_chk418 v4580), ∀ a, (k1_off627 v4580) a + S1x1.size a ≤ S16384x1.size a := fun v4580 k1_hw418 => k1_hw418.2

def k1_off628 (v4601 : BitVec 32) : Fin 2 → Nat :=
  let v4603 : Index := Scalar.indexCast v4601
  let c0_1464 : Index := 0#32
  ![v4603.toNat, 0]

def k1_chk419 (v4601 : BitVec 32) : Prop :=
  (∀ a, (k1_off628 v4601) a + S1x64.size a ≤ S50000x64.size a)
instance k1_chk419.dec : ∀ (v4601 : BitVec 32), Decidable (k1_chk419 v4601) := fun v4601 => decidable_of_iff' _ (Iff.of_eq (k1_chk419.eq_1 v4601))
theorem k1_off628_inb : ∀ (v4601 : BitVec 32) (k1_hw419 : k1_chk419 v4601), ∀ a, (k1_off628 v4601) a + S1x64.size a ≤ S50000x64.size a := fun v4601 k1_hw419 => k1_hw419

def k1_off629 (v4602 : BitVec 32) : Fin 2 → Nat :=
  let v4606 : Index := Scalar.indexCast v4602
  let c0_1465 : Index := 0#32
  ![v4606.toNat, 0]

def k1_off630 (v4602 : BitVec 32) : Fin 2 → Nat :=
  let v4614 : Index := Scalar.indexCast v4602
  let c0_1467 : Index := 0#32
  ![v4614.toNat, 0]

def k1_chk420 (v4602 : BitVec 32) : Prop :=
  (∀ a, (k1_off629 v4602) a + S1x64.size a ≤ S16384x64.size a) ∧
  (∀ a, (k1_off630 v4602) a + S1x1.size a ≤ S16384x1.size a)
instance k1_chk420.dec : ∀ (v4602 : BitVec 32), Decidable (k1_chk420 v4602) := fun v4602 => decidable_of_iff' _ (Iff.of_eq (k1_chk420.eq_1 v4602))
theorem k1_off629_inb : ∀ (v4602 : BitVec 32) (k1_hw420 : k1_chk420 v4602), ∀ a, (k1_off629 v4602) a + S1x64.size a ≤ S16384x64.size a := fun v4602 k1_hw420 => k1_hw420.1
theorem k1_off630_inb : ∀ (v4602 : BitVec 32) (k1_hw420 : k1_chk420 v4602), ∀ a, (k1_off630 v4602) a + S1x1.size a ≤ S16384x1.size a := fun v4602 k1_hw420 => k1_hw420.2

def k1_off631 (v4623 : BitVec 32) : Fin 2 → Nat :=
  let v4625 : Index := Scalar.indexCast v4623
  let c0_1471 : Index := 0#32
  ![v4625.toNat, 0]

def k1_chk421 (v4623 : BitVec 32) : Prop :=
  (∀ a, (k1_off631 v4623) a + S1x64.size a ≤ S50000x64.size a)
instance k1_chk421.dec : ∀ (v4623 : BitVec 32), Decidable (k1_chk421 v4623) := fun v4623 => decidable_of_iff' _ (Iff.of_eq (k1_chk421.eq_1 v4623))
theorem k1_off631_inb : ∀ (v4623 : BitVec 32) (k1_hw421 : k1_chk421 v4623), ∀ a, (k1_off631 v4623) a + S1x64.size a ≤ S50000x64.size a := fun v4623 k1_hw421 => k1_hw421

def k1_off632 (v4624 : BitVec 32) : Fin 2 → Nat :=
  let v4628 : Index := Scalar.indexCast v4624
  let c0_1472 : Index := 0#32
  ![v4628.toNat, 0]

def k1_off633 (v4624 : BitVec 32) : Fin 2 → Nat :=
  let v4636 : Index := Scalar.indexCast v4624
  let c0_1474 : Index := 0#32
  ![v4636.toNat, 0]

def k1_chk422 (v4624 : BitVec 32) : Prop :=
  (∀ a, (k1_off632 v4624) a + S1x64.size a ≤ S16384x64.size a) ∧
  (∀ a, (k1_off633 v4624) a + S1x1.size a ≤ S16384x1.size a)
instance k1_chk422.dec : ∀ (v4624 : BitVec 32), Decidable (k1_chk422 v4624) := fun v4624 => decidable_of_iff' _ (Iff.of_eq (k1_chk422.eq_1 v4624))
theorem k1_off632_inb : ∀ (v4624 : BitVec 32) (k1_hw422 : k1_chk422 v4624), ∀ a, (k1_off632 v4624) a + S1x64.size a ≤ S16384x64.size a := fun v4624 k1_hw422 => k1_hw422.1
theorem k1_off633_inb : ∀ (v4624 : BitVec 32) (k1_hw422 : k1_chk422 v4624), ∀ a, (k1_off633 v4624) a + S1x1.size a ≤ S16384x1.size a := fun v4624 k1_hw422 => k1_hw422.2

def k1_off634 (v4645 : BitVec 32) : Fin 2 → Nat :=
  let v4647 : Index := Scalar.indexCast v4645
  let c0_1478 : Index := 0#32
  ![v4647.toNat, 0]

def k1_chk423 (v4645 : BitVec 32) : Prop :=
  (∀ a, (k1_off634 v4645) a + S1x64.size a ≤ S50000x64.size a)
instance k1_chk423.dec : ∀ (v4645 : BitVec 32), Decidable (k1_chk423 v4645) := fun v4645 => decidable_of_iff' _ (Iff.of_eq (k1_chk423.eq_1 v4645))
theorem k1_off634_inb : ∀ (v4645 : BitVec 32) (k1_hw423 : k1_chk423 v4645), ∀ a, (k1_off634 v4645) a + S1x64.size a ≤ S50000x64.size a := fun v4645 k1_hw423 => k1_hw423

def k1_off635 (v4646 : BitVec 32) : Fin 2 → Nat :=
  let v4650 : Index := Scalar.indexCast v4646
  let c0_1479 : Index := 0#32
  ![v4650.toNat, 0]

def k1_off636 (v4646 : BitVec 32) : Fin 2 → Nat :=
  let v4658 : Index := Scalar.indexCast v4646
  let c0_1481 : Index := 0#32
  ![v4658.toNat, 0]

def k1_chk424 (v4646 : BitVec 32) : Prop :=
  (∀ a, (k1_off635 v4646) a + S1x64.size a ≤ S16384x64.size a) ∧
  (∀ a, (k1_off636 v4646) a + S1x1.size a ≤ S16384x1.size a)
instance k1_chk424.dec : ∀ (v4646 : BitVec 32), Decidable (k1_chk424 v4646) := fun v4646 => decidable_of_iff' _ (Iff.of_eq (k1_chk424.eq_1 v4646))
theorem k1_off635_inb : ∀ (v4646 : BitVec 32) (k1_hw424 : k1_chk424 v4646), ∀ a, (k1_off635 v4646) a + S1x64.size a ≤ S16384x64.size a := fun v4646 k1_hw424 => k1_hw424.1
theorem k1_off636_inb : ∀ (v4646 : BitVec 32) (k1_hw424 : k1_chk424 v4646), ∀ a, (k1_off636 v4646) a + S1x1.size a ≤ S16384x1.size a := fun v4646 k1_hw424 => k1_hw424.2

def k1_off637 (v4667 : BitVec 32) : Fin 2 → Nat :=
  let v4669 : Index := Scalar.indexCast v4667
  let c0_1485 : Index := 0#32
  ![v4669.toNat, 0]

def k1_chk425 (v4667 : BitVec 32) : Prop :=
  (∀ a, (k1_off637 v4667) a + S1x64.size a ≤ S50000x64.size a)
instance k1_chk425.dec : ∀ (v4667 : BitVec 32), Decidable (k1_chk425 v4667) := fun v4667 => decidable_of_iff' _ (Iff.of_eq (k1_chk425.eq_1 v4667))
theorem k1_off637_inb : ∀ (v4667 : BitVec 32) (k1_hw425 : k1_chk425 v4667), ∀ a, (k1_off637 v4667) a + S1x64.size a ≤ S50000x64.size a := fun v4667 k1_hw425 => k1_hw425

def k1_off638 (v4668 : BitVec 32) : Fin 2 → Nat :=
  let v4672 : Index := Scalar.indexCast v4668
  let c0_1486 : Index := 0#32
  ![v4672.toNat, 0]

def k1_off639 (v4668 : BitVec 32) : Fin 2 → Nat :=
  let v4680 : Index := Scalar.indexCast v4668
  let c0_1488 : Index := 0#32
  ![v4680.toNat, 0]

def k1_chk426 (v4668 : BitVec 32) : Prop :=
  (∀ a, (k1_off638 v4668) a + S1x64.size a ≤ S16384x64.size a) ∧
  (∀ a, (k1_off639 v4668) a + S1x1.size a ≤ S16384x1.size a)
instance k1_chk426.dec : ∀ (v4668 : BitVec 32), Decidable (k1_chk426 v4668) := fun v4668 => decidable_of_iff' _ (Iff.of_eq (k1_chk426.eq_1 v4668))
theorem k1_off638_inb : ∀ (v4668 : BitVec 32) (k1_hw426 : k1_chk426 v4668), ∀ a, (k1_off638 v4668) a + S1x64.size a ≤ S16384x64.size a := fun v4668 k1_hw426 => k1_hw426.1
theorem k1_off639_inb : ∀ (v4668 : BitVec 32) (k1_hw426 : k1_chk426 v4668), ∀ a, (k1_off639 v4668) a + S1x1.size a ≤ S16384x1.size a := fun v4668 k1_hw426 => k1_hw426.2

def k1_off640 (v4689 : BitVec 32) : Fin 2 → Nat :=
  let v4691 : Index := Scalar.indexCast v4689
  let c0_1492 : Index := 0#32
  ![v4691.toNat, 0]

def k1_chk427 (v4689 : BitVec 32) : Prop :=
  (∀ a, (k1_off640 v4689) a + S1x64.size a ≤ S50000x64.size a)
instance k1_chk427.dec : ∀ (v4689 : BitVec 32), Decidable (k1_chk427 v4689) := fun v4689 => decidable_of_iff' _ (Iff.of_eq (k1_chk427.eq_1 v4689))
theorem k1_off640_inb : ∀ (v4689 : BitVec 32) (k1_hw427 : k1_chk427 v4689), ∀ a, (k1_off640 v4689) a + S1x64.size a ≤ S50000x64.size a := fun v4689 k1_hw427 => k1_hw427

def k1_off641 (v4690 : BitVec 32) : Fin 2 → Nat :=
  let v4694 : Index := Scalar.indexCast v4690
  let c0_1493 : Index := 0#32
  ![v4694.toNat, 0]

def k1_off642 (v4690 : BitVec 32) : Fin 2 → Nat :=
  let v4702 : Index := Scalar.indexCast v4690
  let c0_1495 : Index := 0#32
  ![v4702.toNat, 0]

def k1_chk428 (v4690 : BitVec 32) : Prop :=
  (∀ a, (k1_off641 v4690) a + S1x64.size a ≤ S16384x64.size a) ∧
  (∀ a, (k1_off642 v4690) a + S1x1.size a ≤ S16384x1.size a)
instance k1_chk428.dec : ∀ (v4690 : BitVec 32), Decidable (k1_chk428 v4690) := fun v4690 => decidable_of_iff' _ (Iff.of_eq (k1_chk428.eq_1 v4690))
theorem k1_off641_inb : ∀ (v4690 : BitVec 32) (k1_hw428 : k1_chk428 v4690), ∀ a, (k1_off641 v4690) a + S1x64.size a ≤ S16384x64.size a := fun v4690 k1_hw428 => k1_hw428.1
theorem k1_off642_inb : ∀ (v4690 : BitVec 32) (k1_hw428 : k1_chk428 v4690), ∀ a, (k1_off642 v4690) a + S1x1.size a ≤ S16384x1.size a := fun v4690 k1_hw428 => k1_hw428.2

def k1_off643 (v4711 : BitVec 32) : Fin 2 → Nat :=
  let v4713 : Index := Scalar.indexCast v4711
  let c0_1499 : Index := 0#32
  ![v4713.toNat, 0]

def k1_chk429 (v4711 : BitVec 32) : Prop :=
  (∀ a, (k1_off643 v4711) a + S1x64.size a ≤ S50000x64.size a)
instance k1_chk429.dec : ∀ (v4711 : BitVec 32), Decidable (k1_chk429 v4711) := fun v4711 => decidable_of_iff' _ (Iff.of_eq (k1_chk429.eq_1 v4711))
theorem k1_off643_inb : ∀ (v4711 : BitVec 32) (k1_hw429 : k1_chk429 v4711), ∀ a, (k1_off643 v4711) a + S1x64.size a ≤ S50000x64.size a := fun v4711 k1_hw429 => k1_hw429

def k1_off644 (v4712 : BitVec 32) : Fin 2 → Nat :=
  let v4716 : Index := Scalar.indexCast v4712
  let c0_1500 : Index := 0#32
  ![v4716.toNat, 0]

def k1_off645 (v4712 : BitVec 32) : Fin 2 → Nat :=
  let v4724 : Index := Scalar.indexCast v4712
  let c0_1502 : Index := 0#32
  ![v4724.toNat, 0]

def k1_chk430 (v4712 : BitVec 32) : Prop :=
  (∀ a, (k1_off644 v4712) a + S1x64.size a ≤ S16384x64.size a) ∧
  (∀ a, (k1_off645 v4712) a + S1x1.size a ≤ S16384x1.size a)
instance k1_chk430.dec : ∀ (v4712 : BitVec 32), Decidable (k1_chk430 v4712) := fun v4712 => decidable_of_iff' _ (Iff.of_eq (k1_chk430.eq_1 v4712))
theorem k1_off644_inb : ∀ (v4712 : BitVec 32) (k1_hw430 : k1_chk430 v4712), ∀ a, (k1_off644 v4712) a + S1x64.size a ≤ S16384x64.size a := fun v4712 k1_hw430 => k1_hw430.1
theorem k1_off645_inb : ∀ (v4712 : BitVec 32) (k1_hw430 : k1_chk430 v4712), ∀ a, (k1_off645 v4712) a + S1x1.size a ≤ S16384x1.size a := fun v4712 k1_hw430 => k1_hw430.2

def k1_off646 (v4733 : BitVec 32) : Fin 2 → Nat :=
  let v4735 : Index := Scalar.indexCast v4733
  let c0_1506 : Index := 0#32
  ![v4735.toNat, 0]

def k1_chk431 (v4733 : BitVec 32) : Prop :=
  (∀ a, (k1_off646 v4733) a + S1x64.size a ≤ S50000x64.size a)
instance k1_chk431.dec : ∀ (v4733 : BitVec 32), Decidable (k1_chk431 v4733) := fun v4733 => decidable_of_iff' _ (Iff.of_eq (k1_chk431.eq_1 v4733))
theorem k1_off646_inb : ∀ (v4733 : BitVec 32) (k1_hw431 : k1_chk431 v4733), ∀ a, (k1_off646 v4733) a + S1x64.size a ≤ S50000x64.size a := fun v4733 k1_hw431 => k1_hw431

def k1_off647 (v4734 : BitVec 32) : Fin 2 → Nat :=
  let v4738 : Index := Scalar.indexCast v4734
  let c0_1507 : Index := 0#32
  ![v4738.toNat, 0]

def k1_off648 (v4734 : BitVec 32) : Fin 2 → Nat :=
  let v4746 : Index := Scalar.indexCast v4734
  let c0_1509 : Index := 0#32
  ![v4746.toNat, 0]

def k1_chk432 (v4734 : BitVec 32) : Prop :=
  (∀ a, (k1_off647 v4734) a + S1x64.size a ≤ S16384x64.size a) ∧
  (∀ a, (k1_off648 v4734) a + S1x1.size a ≤ S16384x1.size a)
instance k1_chk432.dec : ∀ (v4734 : BitVec 32), Decidable (k1_chk432 v4734) := fun v4734 => decidable_of_iff' _ (Iff.of_eq (k1_chk432.eq_1 v4734))
theorem k1_off647_inb : ∀ (v4734 : BitVec 32) (k1_hw432 : k1_chk432 v4734), ∀ a, (k1_off647 v4734) a + S1x64.size a ≤ S16384x64.size a := fun v4734 k1_hw432 => k1_hw432.1
theorem k1_off648_inb : ∀ (v4734 : BitVec 32) (k1_hw432 : k1_chk432 v4734), ∀ a, (k1_off648 v4734) a + S1x1.size a ≤ S16384x1.size a := fun v4734 k1_hw432 => k1_hw432.2

def k1_off649 (v4755 : BitVec 32) : Fin 2 → Nat :=
  let v4757 : Index := Scalar.indexCast v4755
  let c0_1513 : Index := 0#32
  ![v4757.toNat, 0]

def k1_chk433 (v4755 : BitVec 32) : Prop :=
  (∀ a, (k1_off649 v4755) a + S1x64.size a ≤ S50000x64.size a)
instance k1_chk433.dec : ∀ (v4755 : BitVec 32), Decidable (k1_chk433 v4755) := fun v4755 => decidable_of_iff' _ (Iff.of_eq (k1_chk433.eq_1 v4755))
theorem k1_off649_inb : ∀ (v4755 : BitVec 32) (k1_hw433 : k1_chk433 v4755), ∀ a, (k1_off649 v4755) a + S1x64.size a ≤ S50000x64.size a := fun v4755 k1_hw433 => k1_hw433

def k1_off650 (v4756 : BitVec 32) : Fin 2 → Nat :=
  let v4760 : Index := Scalar.indexCast v4756
  let c0_1514 : Index := 0#32
  ![v4760.toNat, 0]

def k1_off651 (v4756 : BitVec 32) : Fin 2 → Nat :=
  let v4768 : Index := Scalar.indexCast v4756
  let c0_1516 : Index := 0#32
  ![v4768.toNat, 0]

def k1_chk434 (v4756 : BitVec 32) : Prop :=
  (∀ a, (k1_off650 v4756) a + S1x64.size a ≤ S16384x64.size a) ∧
  (∀ a, (k1_off651 v4756) a + S1x1.size a ≤ S16384x1.size a)
instance k1_chk434.dec : ∀ (v4756 : BitVec 32), Decidable (k1_chk434 v4756) := fun v4756 => decidable_of_iff' _ (Iff.of_eq (k1_chk434.eq_1 v4756))
theorem k1_off650_inb : ∀ (v4756 : BitVec 32) (k1_hw434 : k1_chk434 v4756), ∀ a, (k1_off650 v4756) a + S1x64.size a ≤ S16384x64.size a := fun v4756 k1_hw434 => k1_hw434.1
theorem k1_off651_inb : ∀ (v4756 : BitVec 32) (k1_hw434 : k1_chk434 v4756), ∀ a, (k1_off651 v4756) a + S1x1.size a ≤ S16384x1.size a := fun v4756 k1_hw434 => k1_hw434.2

def k1_off652 (v4777 : BitVec 32) : Fin 2 → Nat :=
  let v4779 : Index := Scalar.indexCast v4777
  let c0_1520 : Index := 0#32
  ![v4779.toNat, 0]

def k1_chk435 (v4777 : BitVec 32) : Prop :=
  (∀ a, (k1_off652 v4777) a + S1x64.size a ≤ S50000x64.size a)
instance k1_chk435.dec : ∀ (v4777 : BitVec 32), Decidable (k1_chk435 v4777) := fun v4777 => decidable_of_iff' _ (Iff.of_eq (k1_chk435.eq_1 v4777))
theorem k1_off652_inb : ∀ (v4777 : BitVec 32) (k1_hw435 : k1_chk435 v4777), ∀ a, (k1_off652 v4777) a + S1x64.size a ≤ S50000x64.size a := fun v4777 k1_hw435 => k1_hw435

def k1_off653 (v4778 : BitVec 32) : Fin 2 → Nat :=
  let v4782 : Index := Scalar.indexCast v4778
  let c0_1521 : Index := 0#32
  ![v4782.toNat, 0]

def k1_off654 (v4778 : BitVec 32) : Fin 2 → Nat :=
  let v4790 : Index := Scalar.indexCast v4778
  let c0_1523 : Index := 0#32
  ![v4790.toNat, 0]

def k1_chk436 (v4778 : BitVec 32) : Prop :=
  (∀ a, (k1_off653 v4778) a + S1x64.size a ≤ S16384x64.size a) ∧
  (∀ a, (k1_off654 v4778) a + S1x1.size a ≤ S16384x1.size a)
instance k1_chk436.dec : ∀ (v4778 : BitVec 32), Decidable (k1_chk436 v4778) := fun v4778 => decidable_of_iff' _ (Iff.of_eq (k1_chk436.eq_1 v4778))
theorem k1_off653_inb : ∀ (v4778 : BitVec 32) (k1_hw436 : k1_chk436 v4778), ∀ a, (k1_off653 v4778) a + S1x64.size a ≤ S16384x64.size a := fun v4778 k1_hw436 => k1_hw436.1
theorem k1_off654_inb : ∀ (v4778 : BitVec 32) (k1_hw436 : k1_chk436 v4778), ∀ a, (k1_off654 v4778) a + S1x1.size a ≤ S16384x1.size a := fun v4778 k1_hw436 => k1_hw436.2

def k1_off655 (v4799 : BitVec 32) : Fin 2 → Nat :=
  let v4801 : Index := Scalar.indexCast v4799
  let c0_1527 : Index := 0#32
  ![v4801.toNat, 0]

def k1_chk437 (v4799 : BitVec 32) : Prop :=
  (∀ a, (k1_off655 v4799) a + S1x64.size a ≤ S50000x64.size a)
instance k1_chk437.dec : ∀ (v4799 : BitVec 32), Decidable (k1_chk437 v4799) := fun v4799 => decidable_of_iff' _ (Iff.of_eq (k1_chk437.eq_1 v4799))
theorem k1_off655_inb : ∀ (v4799 : BitVec 32) (k1_hw437 : k1_chk437 v4799), ∀ a, (k1_off655 v4799) a + S1x64.size a ≤ S50000x64.size a := fun v4799 k1_hw437 => k1_hw437

def k1_off656 (v4800 : BitVec 32) : Fin 2 → Nat :=
  let v4804 : Index := Scalar.indexCast v4800
  let c0_1528 : Index := 0#32
  ![v4804.toNat, 0]

def k1_off657 (v4800 : BitVec 32) : Fin 2 → Nat :=
  let v4812 : Index := Scalar.indexCast v4800
  let c0_1530 : Index := 0#32
  ![v4812.toNat, 0]

def k1_chk438 (v4800 : BitVec 32) : Prop :=
  (∀ a, (k1_off656 v4800) a + S1x64.size a ≤ S16384x64.size a) ∧
  (∀ a, (k1_off657 v4800) a + S1x1.size a ≤ S16384x1.size a)
instance k1_chk438.dec : ∀ (v4800 : BitVec 32), Decidable (k1_chk438 v4800) := fun v4800 => decidable_of_iff' _ (Iff.of_eq (k1_chk438.eq_1 v4800))
theorem k1_off656_inb : ∀ (v4800 : BitVec 32) (k1_hw438 : k1_chk438 v4800), ∀ a, (k1_off656 v4800) a + S1x64.size a ≤ S16384x64.size a := fun v4800 k1_hw438 => k1_hw438.1
theorem k1_off657_inb : ∀ (v4800 : BitVec 32) (k1_hw438 : k1_chk438 v4800), ∀ a, (k1_off657 v4800) a + S1x1.size a ≤ S16384x1.size a := fun v4800 k1_hw438 => k1_hw438.2

def k1_off658 (v4821 : BitVec 32) : Fin 2 → Nat :=
  let v4823 : Index := Scalar.indexCast v4821
  let c0_1534 : Index := 0#32
  ![v4823.toNat, 0]

def k1_chk439 (v4821 : BitVec 32) : Prop :=
  (∀ a, (k1_off658 v4821) a + S1x64.size a ≤ S50000x64.size a)
instance k1_chk439.dec : ∀ (v4821 : BitVec 32), Decidable (k1_chk439 v4821) := fun v4821 => decidable_of_iff' _ (Iff.of_eq (k1_chk439.eq_1 v4821))
theorem k1_off658_inb : ∀ (v4821 : BitVec 32) (k1_hw439 : k1_chk439 v4821), ∀ a, (k1_off658 v4821) a + S1x64.size a ≤ S50000x64.size a := fun v4821 k1_hw439 => k1_hw439

def k1_off659 (v4822 : BitVec 32) : Fin 2 → Nat :=
  let v4826 : Index := Scalar.indexCast v4822
  let c0_1535 : Index := 0#32
  ![v4826.toNat, 0]

def k1_off660 (v4822 : BitVec 32) : Fin 2 → Nat :=
  let v4834 : Index := Scalar.indexCast v4822
  let c0_1537 : Index := 0#32
  ![v4834.toNat, 0]

def k1_chk440 (v4822 : BitVec 32) : Prop :=
  (∀ a, (k1_off659 v4822) a + S1x64.size a ≤ S16384x64.size a) ∧
  (∀ a, (k1_off660 v4822) a + S1x1.size a ≤ S16384x1.size a)
instance k1_chk440.dec : ∀ (v4822 : BitVec 32), Decidable (k1_chk440 v4822) := fun v4822 => decidable_of_iff' _ (Iff.of_eq (k1_chk440.eq_1 v4822))
theorem k1_off659_inb : ∀ (v4822 : BitVec 32) (k1_hw440 : k1_chk440 v4822), ∀ a, (k1_off659 v4822) a + S1x64.size a ≤ S16384x64.size a := fun v4822 k1_hw440 => k1_hw440.1
theorem k1_off660_inb : ∀ (v4822 : BitVec 32) (k1_hw440 : k1_chk440 v4822), ∀ a, (k1_off660 v4822) a + S1x1.size a ≤ S16384x1.size a := fun v4822 k1_hw440 => k1_hw440.2

def k1_off661 (v4843 : BitVec 32) : Fin 2 → Nat :=
  let v4845 : Index := Scalar.indexCast v4843
  let c0_1541 : Index := 0#32
  ![v4845.toNat, 0]

def k1_chk441 (v4843 : BitVec 32) : Prop :=
  (∀ a, (k1_off661 v4843) a + S1x64.size a ≤ S50000x64.size a)
instance k1_chk441.dec : ∀ (v4843 : BitVec 32), Decidable (k1_chk441 v4843) := fun v4843 => decidable_of_iff' _ (Iff.of_eq (k1_chk441.eq_1 v4843))
theorem k1_off661_inb : ∀ (v4843 : BitVec 32) (k1_hw441 : k1_chk441 v4843), ∀ a, (k1_off661 v4843) a + S1x64.size a ≤ S50000x64.size a := fun v4843 k1_hw441 => k1_hw441

def k1_off662 (v4844 : BitVec 32) : Fin 2 → Nat :=
  let v4848 : Index := Scalar.indexCast v4844
  let c0_1542 : Index := 0#32
  ![v4848.toNat, 0]

def k1_off663 (v4844 : BitVec 32) : Fin 2 → Nat :=
  let v4856 : Index := Scalar.indexCast v4844
  let c0_1544 : Index := 0#32
  ![v4856.toNat, 0]

def k1_chk442 (v4844 : BitVec 32) : Prop :=
  (∀ a, (k1_off662 v4844) a + S1x64.size a ≤ S16384x64.size a) ∧
  (∀ a, (k1_off663 v4844) a + S1x1.size a ≤ S16384x1.size a)
instance k1_chk442.dec : ∀ (v4844 : BitVec 32), Decidable (k1_chk442 v4844) := fun v4844 => decidable_of_iff' _ (Iff.of_eq (k1_chk442.eq_1 v4844))
theorem k1_off662_inb : ∀ (v4844 : BitVec 32) (k1_hw442 : k1_chk442 v4844), ∀ a, (k1_off662 v4844) a + S1x64.size a ≤ S16384x64.size a := fun v4844 k1_hw442 => k1_hw442.1
theorem k1_off663_inb : ∀ (v4844 : BitVec 32) (k1_hw442 : k1_chk442 v4844), ∀ a, (k1_off663 v4844) a + S1x1.size a ≤ S16384x1.size a := fun v4844 k1_hw442 => k1_hw442.2

def k1_off664 (v4865 : BitVec 32) : Fin 2 → Nat :=
  let v4867 : Index := Scalar.indexCast v4865
  let c0_1548 : Index := 0#32
  ![v4867.toNat, 0]

def k1_chk443 (v4865 : BitVec 32) : Prop :=
  (∀ a, (k1_off664 v4865) a + S1x64.size a ≤ S50000x64.size a)
instance k1_chk443.dec : ∀ (v4865 : BitVec 32), Decidable (k1_chk443 v4865) := fun v4865 => decidable_of_iff' _ (Iff.of_eq (k1_chk443.eq_1 v4865))
theorem k1_off664_inb : ∀ (v4865 : BitVec 32) (k1_hw443 : k1_chk443 v4865), ∀ a, (k1_off664 v4865) a + S1x64.size a ≤ S50000x64.size a := fun v4865 k1_hw443 => k1_hw443

def k1_off665 (v4866 : BitVec 32) : Fin 2 → Nat :=
  let v4870 : Index := Scalar.indexCast v4866
  let c0_1549 : Index := 0#32
  ![v4870.toNat, 0]

def k1_off666 (v4866 : BitVec 32) : Fin 2 → Nat :=
  let v4878 : Index := Scalar.indexCast v4866
  let c0_1551 : Index := 0#32
  ![v4878.toNat, 0]

def k1_chk444 (v4866 : BitVec 32) : Prop :=
  (∀ a, (k1_off665 v4866) a + S1x64.size a ≤ S16384x64.size a) ∧
  (∀ a, (k1_off666 v4866) a + S1x1.size a ≤ S16384x1.size a)
instance k1_chk444.dec : ∀ (v4866 : BitVec 32), Decidable (k1_chk444 v4866) := fun v4866 => decidable_of_iff' _ (Iff.of_eq (k1_chk444.eq_1 v4866))
theorem k1_off665_inb : ∀ (v4866 : BitVec 32) (k1_hw444 : k1_chk444 v4866), ∀ a, (k1_off665 v4866) a + S1x64.size a ≤ S16384x64.size a := fun v4866 k1_hw444 => k1_hw444.1
theorem k1_off666_inb : ∀ (v4866 : BitVec 32) (k1_hw444 : k1_chk444 v4866), ∀ a, (k1_off666 v4866) a + S1x1.size a ≤ S16384x1.size a := fun v4866 k1_hw444 => k1_hw444.2

def k1_off667 (v4887 : BitVec 32) : Fin 2 → Nat :=
  let v4889 : Index := Scalar.indexCast v4887
  let c0_1555 : Index := 0#32
  ![v4889.toNat, 0]

def k1_chk445 (v4887 : BitVec 32) : Prop :=
  (∀ a, (k1_off667 v4887) a + S1x64.size a ≤ S50000x64.size a)
instance k1_chk445.dec : ∀ (v4887 : BitVec 32), Decidable (k1_chk445 v4887) := fun v4887 => decidable_of_iff' _ (Iff.of_eq (k1_chk445.eq_1 v4887))
theorem k1_off667_inb : ∀ (v4887 : BitVec 32) (k1_hw445 : k1_chk445 v4887), ∀ a, (k1_off667 v4887) a + S1x64.size a ≤ S50000x64.size a := fun v4887 k1_hw445 => k1_hw445

def k1_off668 (v4888 : BitVec 32) : Fin 2 → Nat :=
  let v4892 : Index := Scalar.indexCast v4888
  let c0_1556 : Index := 0#32
  ![v4892.toNat, 0]

def k1_off669 (v4888 : BitVec 32) : Fin 2 → Nat :=
  let v4900 : Index := Scalar.indexCast v4888
  let c0_1558 : Index := 0#32
  ![v4900.toNat, 0]

def k1_chk446 (v4888 : BitVec 32) : Prop :=
  (∀ a, (k1_off668 v4888) a + S1x64.size a ≤ S16384x64.size a) ∧
  (∀ a, (k1_off669 v4888) a + S1x1.size a ≤ S16384x1.size a)
instance k1_chk446.dec : ∀ (v4888 : BitVec 32), Decidable (k1_chk446 v4888) := fun v4888 => decidable_of_iff' _ (Iff.of_eq (k1_chk446.eq_1 v4888))
theorem k1_off668_inb : ∀ (v4888 : BitVec 32) (k1_hw446 : k1_chk446 v4888), ∀ a, (k1_off668 v4888) a + S1x64.size a ≤ S16384x64.size a := fun v4888 k1_hw446 => k1_hw446.1
theorem k1_off669_inb : ∀ (v4888 : BitVec 32) (k1_hw446 : k1_chk446 v4888), ∀ a, (k1_off669 v4888) a + S1x1.size a ≤ S16384x1.size a := fun v4888 k1_hw446 => k1_hw446.2

def k1_off670 (v4909 : BitVec 32) : Fin 2 → Nat :=
  let v4911 : Index := Scalar.indexCast v4909
  let c0_1562 : Index := 0#32
  ![v4911.toNat, 0]

def k1_chk447 (v4909 : BitVec 32) : Prop :=
  (∀ a, (k1_off670 v4909) a + S1x64.size a ≤ S50000x64.size a)
instance k1_chk447.dec : ∀ (v4909 : BitVec 32), Decidable (k1_chk447 v4909) := fun v4909 => decidable_of_iff' _ (Iff.of_eq (k1_chk447.eq_1 v4909))
theorem k1_off670_inb : ∀ (v4909 : BitVec 32) (k1_hw447 : k1_chk447 v4909), ∀ a, (k1_off670 v4909) a + S1x64.size a ≤ S50000x64.size a := fun v4909 k1_hw447 => k1_hw447

def k1_off671 (v4910 : BitVec 32) : Fin 2 → Nat :=
  let v4914 : Index := Scalar.indexCast v4910
  let c0_1563 : Index := 0#32
  ![v4914.toNat, 0]

def k1_off672 (v4910 : BitVec 32) : Fin 2 → Nat :=
  let v4922 : Index := Scalar.indexCast v4910
  let c0_1565 : Index := 0#32
  ![v4922.toNat, 0]

def k1_chk448 (v4910 : BitVec 32) : Prop :=
  (∀ a, (k1_off671 v4910) a + S1x64.size a ≤ S16384x64.size a) ∧
  (∀ a, (k1_off672 v4910) a + S1x1.size a ≤ S16384x1.size a)
instance k1_chk448.dec : ∀ (v4910 : BitVec 32), Decidable (k1_chk448 v4910) := fun v4910 => decidable_of_iff' _ (Iff.of_eq (k1_chk448.eq_1 v4910))
theorem k1_off671_inb : ∀ (v4910 : BitVec 32) (k1_hw448 : k1_chk448 v4910), ∀ a, (k1_off671 v4910) a + S1x64.size a ≤ S16384x64.size a := fun v4910 k1_hw448 => k1_hw448.1
theorem k1_off672_inb : ∀ (v4910 : BitVec 32) (k1_hw448 : k1_chk448 v4910), ∀ a, (k1_off672 v4910) a + S1x1.size a ≤ S16384x1.size a := fun v4910 k1_hw448 => k1_hw448.2

def k1_off673 (v4931 : BitVec 32) : Fin 2 → Nat :=
  let v4933 : Index := Scalar.indexCast v4931
  let c0_1569 : Index := 0#32
  ![v4933.toNat, 0]

def k1_chk449 (v4931 : BitVec 32) : Prop :=
  (∀ a, (k1_off673 v4931) a + S1x64.size a ≤ S50000x64.size a)
instance k1_chk449.dec : ∀ (v4931 : BitVec 32), Decidable (k1_chk449 v4931) := fun v4931 => decidable_of_iff' _ (Iff.of_eq (k1_chk449.eq_1 v4931))
theorem k1_off673_inb : ∀ (v4931 : BitVec 32) (k1_hw449 : k1_chk449 v4931), ∀ a, (k1_off673 v4931) a + S1x64.size a ≤ S50000x64.size a := fun v4931 k1_hw449 => k1_hw449

def k1_off674 (v4932 : BitVec 32) : Fin 2 → Nat :=
  let v4936 : Index := Scalar.indexCast v4932
  let c0_1570 : Index := 0#32
  ![v4936.toNat, 0]

def k1_off675 (v4932 : BitVec 32) : Fin 2 → Nat :=
  let v4944 : Index := Scalar.indexCast v4932
  let c0_1572 : Index := 0#32
  ![v4944.toNat, 0]

def k1_chk450 (v4932 : BitVec 32) : Prop :=
  (∀ a, (k1_off674 v4932) a + S1x64.size a ≤ S16384x64.size a) ∧
  (∀ a, (k1_off675 v4932) a + S1x1.size a ≤ S16384x1.size a)
instance k1_chk450.dec : ∀ (v4932 : BitVec 32), Decidable (k1_chk450 v4932) := fun v4932 => decidable_of_iff' _ (Iff.of_eq (k1_chk450.eq_1 v4932))
theorem k1_off674_inb : ∀ (v4932 : BitVec 32) (k1_hw450 : k1_chk450 v4932), ∀ a, (k1_off674 v4932) a + S1x64.size a ≤ S16384x64.size a := fun v4932 k1_hw450 => k1_hw450.1
theorem k1_off675_inb : ∀ (v4932 : BitVec 32) (k1_hw450 : k1_chk450 v4932), ∀ a, (k1_off675 v4932) a + S1x1.size a ≤ S16384x1.size a := fun v4932 k1_hw450 => k1_hw450.2

def k1_off676 (v4953 : BitVec 32) : Fin 2 → Nat :=
  let v4955 : Index := Scalar.indexCast v4953
  let c0_1576 : Index := 0#32
  ![v4955.toNat, 0]

def k1_chk451 (v4953 : BitVec 32) : Prop :=
  (∀ a, (k1_off676 v4953) a + S1x64.size a ≤ S50000x64.size a)
instance k1_chk451.dec : ∀ (v4953 : BitVec 32), Decidable (k1_chk451 v4953) := fun v4953 => decidable_of_iff' _ (Iff.of_eq (k1_chk451.eq_1 v4953))
theorem k1_off676_inb : ∀ (v4953 : BitVec 32) (k1_hw451 : k1_chk451 v4953), ∀ a, (k1_off676 v4953) a + S1x64.size a ≤ S50000x64.size a := fun v4953 k1_hw451 => k1_hw451

def k1_off677 (v4954 : BitVec 32) : Fin 2 → Nat :=
  let v4958 : Index := Scalar.indexCast v4954
  let c0_1577 : Index := 0#32
  ![v4958.toNat, 0]

def k1_off678 (v4954 : BitVec 32) : Fin 2 → Nat :=
  let v4966 : Index := Scalar.indexCast v4954
  let c0_1579 : Index := 0#32
  ![v4966.toNat, 0]

def k1_chk452 (v4954 : BitVec 32) : Prop :=
  (∀ a, (k1_off677 v4954) a + S1x64.size a ≤ S16384x64.size a) ∧
  (∀ a, (k1_off678 v4954) a + S1x1.size a ≤ S16384x1.size a)
instance k1_chk452.dec : ∀ (v4954 : BitVec 32), Decidable (k1_chk452 v4954) := fun v4954 => decidable_of_iff' _ (Iff.of_eq (k1_chk452.eq_1 v4954))
theorem k1_off677_inb : ∀ (v4954 : BitVec 32) (k1_hw452 : k1_chk452 v4954), ∀ a, (k1_off677 v4954) a + S1x64.size a ≤ S16384x64.size a := fun v4954 k1_hw452 => k1_hw452.1
theorem k1_off678_inb : ∀ (v4954 : BitVec 32) (k1_hw452 : k1_chk452 v4954), ∀ a, (k1_off678 v4954) a + S1x1.size a ≤ S16384x1.size a := fun v4954 k1_hw452 => k1_hw452.2

def k1_off679 (v4975 : BitVec 32) : Fin 2 → Nat :=
  let v4977 : Index := Scalar.indexCast v4975
  let c0_1583 : Index := 0#32
  ![v4977.toNat, 0]

def k1_chk453 (v4975 : BitVec 32) : Prop :=
  (∀ a, (k1_off679 v4975) a + S1x64.size a ≤ S50000x64.size a)
instance k1_chk453.dec : ∀ (v4975 : BitVec 32), Decidable (k1_chk453 v4975) := fun v4975 => decidable_of_iff' _ (Iff.of_eq (k1_chk453.eq_1 v4975))
theorem k1_off679_inb : ∀ (v4975 : BitVec 32) (k1_hw453 : k1_chk453 v4975), ∀ a, (k1_off679 v4975) a + S1x64.size a ≤ S50000x64.size a := fun v4975 k1_hw453 => k1_hw453

def k1_off680 (v4976 : BitVec 32) : Fin 2 → Nat :=
  let v4980 : Index := Scalar.indexCast v4976
  let c0_1584 : Index := 0#32
  ![v4980.toNat, 0]

def k1_off681 (v4976 : BitVec 32) : Fin 2 → Nat :=
  let v4988 : Index := Scalar.indexCast v4976
  let c0_1586 : Index := 0#32
  ![v4988.toNat, 0]

def k1_chk454 (v4976 : BitVec 32) : Prop :=
  (∀ a, (k1_off680 v4976) a + S1x64.size a ≤ S16384x64.size a) ∧
  (∀ a, (k1_off681 v4976) a + S1x1.size a ≤ S16384x1.size a)
instance k1_chk454.dec : ∀ (v4976 : BitVec 32), Decidable (k1_chk454 v4976) := fun v4976 => decidable_of_iff' _ (Iff.of_eq (k1_chk454.eq_1 v4976))
theorem k1_off680_inb : ∀ (v4976 : BitVec 32) (k1_hw454 : k1_chk454 v4976), ∀ a, (k1_off680 v4976) a + S1x64.size a ≤ S16384x64.size a := fun v4976 k1_hw454 => k1_hw454.1
theorem k1_off681_inb : ∀ (v4976 : BitVec 32) (k1_hw454 : k1_chk454 v4976), ∀ a, (k1_off681 v4976) a + S1x1.size a ≤ S16384x1.size a := fun v4976 k1_hw454 => k1_hw454.2

def k1_off682 (v4997 : BitVec 32) : Fin 2 → Nat :=
  let v4999 : Index := Scalar.indexCast v4997
  let c0_1590 : Index := 0#32
  ![v4999.toNat, 0]

def k1_chk455 (v4997 : BitVec 32) : Prop :=
  (∀ a, (k1_off682 v4997) a + S1x64.size a ≤ S50000x64.size a)
instance k1_chk455.dec : ∀ (v4997 : BitVec 32), Decidable (k1_chk455 v4997) := fun v4997 => decidable_of_iff' _ (Iff.of_eq (k1_chk455.eq_1 v4997))
theorem k1_off682_inb : ∀ (v4997 : BitVec 32) (k1_hw455 : k1_chk455 v4997), ∀ a, (k1_off682 v4997) a + S1x64.size a ≤ S50000x64.size a := fun v4997 k1_hw455 => k1_hw455

def k1_off683 (v4998 : BitVec 32) : Fin 2 → Nat :=
  let v5002 : Index := Scalar.indexCast v4998
  let c0_1591 : Index := 0#32
  ![v5002.toNat, 0]

def k1_off684 (v4998 : BitVec 32) : Fin 2 → Nat :=
  let v5010 : Index := Scalar.indexCast v4998
  let c0_1593 : Index := 0#32
  ![v5010.toNat, 0]

def k1_chk456 (v4998 : BitVec 32) : Prop :=
  (∀ a, (k1_off683 v4998) a + S1x64.size a ≤ S16384x64.size a) ∧
  (∀ a, (k1_off684 v4998) a + S1x1.size a ≤ S16384x1.size a)
instance k1_chk456.dec : ∀ (v4998 : BitVec 32), Decidable (k1_chk456 v4998) := fun v4998 => decidable_of_iff' _ (Iff.of_eq (k1_chk456.eq_1 v4998))
theorem k1_off683_inb : ∀ (v4998 : BitVec 32) (k1_hw456 : k1_chk456 v4998), ∀ a, (k1_off683 v4998) a + S1x64.size a ≤ S16384x64.size a := fun v4998 k1_hw456 => k1_hw456.1
theorem k1_off684_inb : ∀ (v4998 : BitVec 32) (k1_hw456 : k1_chk456 v4998), ∀ a, (k1_off684 v4998) a + S1x1.size a ≤ S16384x1.size a := fun v4998 k1_hw456 => k1_hw456.2

def k1_off685 (v5019 : BitVec 32) : Fin 2 → Nat :=
  let v5021 : Index := Scalar.indexCast v5019
  let c0_1597 : Index := 0#32
  ![v5021.toNat, 0]

def k1_chk457 (v5019 : BitVec 32) : Prop :=
  (∀ a, (k1_off685 v5019) a + S1x64.size a ≤ S50000x64.size a)
instance k1_chk457.dec : ∀ (v5019 : BitVec 32), Decidable (k1_chk457 v5019) := fun v5019 => decidable_of_iff' _ (Iff.of_eq (k1_chk457.eq_1 v5019))
theorem k1_off685_inb : ∀ (v5019 : BitVec 32) (k1_hw457 : k1_chk457 v5019), ∀ a, (k1_off685 v5019) a + S1x64.size a ≤ S50000x64.size a := fun v5019 k1_hw457 => k1_hw457

def k1_off686 (v5020 : BitVec 32) : Fin 2 → Nat :=
  let v5024 : Index := Scalar.indexCast v5020
  let c0_1598 : Index := 0#32
  ![v5024.toNat, 0]

def k1_off687 (v5020 : BitVec 32) : Fin 2 → Nat :=
  let v5032 : Index := Scalar.indexCast v5020
  let c0_1600 : Index := 0#32
  ![v5032.toNat, 0]

def k1_chk458 (v5020 : BitVec 32) : Prop :=
  (∀ a, (k1_off686 v5020) a + S1x64.size a ≤ S16384x64.size a) ∧
  (∀ a, (k1_off687 v5020) a + S1x1.size a ≤ S16384x1.size a)
instance k1_chk458.dec : ∀ (v5020 : BitVec 32), Decidable (k1_chk458 v5020) := fun v5020 => decidable_of_iff' _ (Iff.of_eq (k1_chk458.eq_1 v5020))
theorem k1_off686_inb : ∀ (v5020 : BitVec 32) (k1_hw458 : k1_chk458 v5020), ∀ a, (k1_off686 v5020) a + S1x64.size a ≤ S16384x64.size a := fun v5020 k1_hw458 => k1_hw458.1
theorem k1_off687_inb : ∀ (v5020 : BitVec 32) (k1_hw458 : k1_chk458 v5020), ∀ a, (k1_off687 v5020) a + S1x1.size a ≤ S16384x1.size a := fun v5020 k1_hw458 => k1_hw458.2

def k1_off688 (v5041 : BitVec 32) : Fin 2 → Nat :=
  let v5043 : Index := Scalar.indexCast v5041
  let c0_1604 : Index := 0#32
  ![v5043.toNat, 0]

def k1_chk459 (v5041 : BitVec 32) : Prop :=
  (∀ a, (k1_off688 v5041) a + S1x64.size a ≤ S50000x64.size a)
instance k1_chk459.dec : ∀ (v5041 : BitVec 32), Decidable (k1_chk459 v5041) := fun v5041 => decidable_of_iff' _ (Iff.of_eq (k1_chk459.eq_1 v5041))
theorem k1_off688_inb : ∀ (v5041 : BitVec 32) (k1_hw459 : k1_chk459 v5041), ∀ a, (k1_off688 v5041) a + S1x64.size a ≤ S50000x64.size a := fun v5041 k1_hw459 => k1_hw459

def k1_off689 (v5042 : BitVec 32) : Fin 2 → Nat :=
  let v5046 : Index := Scalar.indexCast v5042
  let c0_1605 : Index := 0#32
  ![v5046.toNat, 0]

def k1_off690 (v5042 : BitVec 32) : Fin 2 → Nat :=
  let v5054 : Index := Scalar.indexCast v5042
  let c0_1607 : Index := 0#32
  ![v5054.toNat, 0]

def k1_chk460 (v5042 : BitVec 32) : Prop :=
  (∀ a, (k1_off689 v5042) a + S1x64.size a ≤ S16384x64.size a) ∧
  (∀ a, (k1_off690 v5042) a + S1x1.size a ≤ S16384x1.size a)
instance k1_chk460.dec : ∀ (v5042 : BitVec 32), Decidable (k1_chk460 v5042) := fun v5042 => decidable_of_iff' _ (Iff.of_eq (k1_chk460.eq_1 v5042))
theorem k1_off689_inb : ∀ (v5042 : BitVec 32) (k1_hw460 : k1_chk460 v5042), ∀ a, (k1_off689 v5042) a + S1x64.size a ≤ S16384x64.size a := fun v5042 k1_hw460 => k1_hw460.1
theorem k1_off690_inb : ∀ (v5042 : BitVec 32) (k1_hw460 : k1_chk460 v5042), ∀ a, (k1_off690 v5042) a + S1x1.size a ≤ S16384x1.size a := fun v5042 k1_hw460 => k1_hw460.2

def k1_off691 (v5063 : BitVec 32) : Fin 2 → Nat :=
  let v5065 : Index := Scalar.indexCast v5063
  let c0_1611 : Index := 0#32
  ![v5065.toNat, 0]

def k1_chk461 (v5063 : BitVec 32) : Prop :=
  (∀ a, (k1_off691 v5063) a + S1x64.size a ≤ S50000x64.size a)
instance k1_chk461.dec : ∀ (v5063 : BitVec 32), Decidable (k1_chk461 v5063) := fun v5063 => decidable_of_iff' _ (Iff.of_eq (k1_chk461.eq_1 v5063))
theorem k1_off691_inb : ∀ (v5063 : BitVec 32) (k1_hw461 : k1_chk461 v5063), ∀ a, (k1_off691 v5063) a + S1x64.size a ≤ S50000x64.size a := fun v5063 k1_hw461 => k1_hw461

def k1_off692 (v5064 : BitVec 32) : Fin 2 → Nat :=
  let v5068 : Index := Scalar.indexCast v5064
  let c0_1612 : Index := 0#32
  ![v5068.toNat, 0]

def k1_off693 (v5064 : BitVec 32) : Fin 2 → Nat :=
  let v5076 : Index := Scalar.indexCast v5064
  let c0_1614 : Index := 0#32
  ![v5076.toNat, 0]

def k1_chk462 (v5064 : BitVec 32) : Prop :=
  (∀ a, (k1_off692 v5064) a + S1x64.size a ≤ S16384x64.size a) ∧
  (∀ a, (k1_off693 v5064) a + S1x1.size a ≤ S16384x1.size a)
instance k1_chk462.dec : ∀ (v5064 : BitVec 32), Decidable (k1_chk462 v5064) := fun v5064 => decidable_of_iff' _ (Iff.of_eq (k1_chk462.eq_1 v5064))
theorem k1_off692_inb : ∀ (v5064 : BitVec 32) (k1_hw462 : k1_chk462 v5064), ∀ a, (k1_off692 v5064) a + S1x64.size a ≤ S16384x64.size a := fun v5064 k1_hw462 => k1_hw462.1
theorem k1_off693_inb : ∀ (v5064 : BitVec 32) (k1_hw462 : k1_chk462 v5064), ∀ a, (k1_off693 v5064) a + S1x1.size a ≤ S16384x1.size a := fun v5064 k1_hw462 => k1_hw462.2

def k1_off694 (v5085 : BitVec 32) : Fin 2 → Nat :=
  let v5087 : Index := Scalar.indexCast v5085
  let c0_1618 : Index := 0#32
  ![v5087.toNat, 0]

def k1_chk463 (v5085 : BitVec 32) : Prop :=
  (∀ a, (k1_off694 v5085) a + S1x64.size a ≤ S50000x64.size a)
instance k1_chk463.dec : ∀ (v5085 : BitVec 32), Decidable (k1_chk463 v5085) := fun v5085 => decidable_of_iff' _ (Iff.of_eq (k1_chk463.eq_1 v5085))
theorem k1_off694_inb : ∀ (v5085 : BitVec 32) (k1_hw463 : k1_chk463 v5085), ∀ a, (k1_off694 v5085) a + S1x64.size a ≤ S50000x64.size a := fun v5085 k1_hw463 => k1_hw463

def k1_off695 (v5086 : BitVec 32) : Fin 2 → Nat :=
  let v5090 : Index := Scalar.indexCast v5086
  let c0_1619 : Index := 0#32
  ![v5090.toNat, 0]

def k1_off696 (v5086 : BitVec 32) : Fin 2 → Nat :=
  let v5098 : Index := Scalar.indexCast v5086
  let c0_1621 : Index := 0#32
  ![v5098.toNat, 0]

def k1_chk464 (v5086 : BitVec 32) : Prop :=
  (∀ a, (k1_off695 v5086) a + S1x64.size a ≤ S16384x64.size a) ∧
  (∀ a, (k1_off696 v5086) a + S1x1.size a ≤ S16384x1.size a)
instance k1_chk464.dec : ∀ (v5086 : BitVec 32), Decidable (k1_chk464 v5086) := fun v5086 => decidable_of_iff' _ (Iff.of_eq (k1_chk464.eq_1 v5086))
theorem k1_off695_inb : ∀ (v5086 : BitVec 32) (k1_hw464 : k1_chk464 v5086), ∀ a, (k1_off695 v5086) a + S1x64.size a ≤ S16384x64.size a := fun v5086 k1_hw464 => k1_hw464.1
theorem k1_off696_inb : ∀ (v5086 : BitVec 32) (k1_hw464 : k1_chk464 v5086), ∀ a, (k1_off696 v5086) a + S1x1.size a ≤ S16384x1.size a := fun v5086 k1_hw464 => k1_hw464.2

def k1_off697 (v5107 : BitVec 32) : Fin 2 → Nat :=
  let v5109 : Index := Scalar.indexCast v5107
  let c0_1625 : Index := 0#32
  ![v5109.toNat, 0]

def k1_chk465 (v5107 : BitVec 32) : Prop :=
  (∀ a, (k1_off697 v5107) a + S1x64.size a ≤ S50000x64.size a)
instance k1_chk465.dec : ∀ (v5107 : BitVec 32), Decidable (k1_chk465 v5107) := fun v5107 => decidable_of_iff' _ (Iff.of_eq (k1_chk465.eq_1 v5107))
theorem k1_off697_inb : ∀ (v5107 : BitVec 32) (k1_hw465 : k1_chk465 v5107), ∀ a, (k1_off697 v5107) a + S1x64.size a ≤ S50000x64.size a := fun v5107 k1_hw465 => k1_hw465

def k1_off698 (v5108 : BitVec 32) : Fin 2 → Nat :=
  let v5112 : Index := Scalar.indexCast v5108
  let c0_1626 : Index := 0#32
  ![v5112.toNat, 0]

def k1_off699 (v5108 : BitVec 32) : Fin 2 → Nat :=
  let v5120 : Index := Scalar.indexCast v5108
  let c0_1628 : Index := 0#32
  ![v5120.toNat, 0]

def k1_chk466 (v5108 : BitVec 32) : Prop :=
  (∀ a, (k1_off698 v5108) a + S1x64.size a ≤ S16384x64.size a) ∧
  (∀ a, (k1_off699 v5108) a + S1x1.size a ≤ S16384x1.size a)
instance k1_chk466.dec : ∀ (v5108 : BitVec 32), Decidable (k1_chk466 v5108) := fun v5108 => decidable_of_iff' _ (Iff.of_eq (k1_chk466.eq_1 v5108))
theorem k1_off698_inb : ∀ (v5108 : BitVec 32) (k1_hw466 : k1_chk466 v5108), ∀ a, (k1_off698 v5108) a + S1x64.size a ≤ S16384x64.size a := fun v5108 k1_hw466 => k1_hw466.1
theorem k1_off699_inb : ∀ (v5108 : BitVec 32) (k1_hw466 : k1_chk466 v5108), ∀ a, (k1_off699 v5108) a + S1x1.size a ≤ S16384x1.size a := fun v5108 k1_hw466 => k1_hw466.2

def k1_off700 (v5129 : BitVec 32) : Fin 2 → Nat :=
  let v5131 : Index := Scalar.indexCast v5129
  let c0_1632 : Index := 0#32
  ![v5131.toNat, 0]

def k1_chk467 (v5129 : BitVec 32) : Prop :=
  (∀ a, (k1_off700 v5129) a + S1x64.size a ≤ S50000x64.size a)
instance k1_chk467.dec : ∀ (v5129 : BitVec 32), Decidable (k1_chk467 v5129) := fun v5129 => decidable_of_iff' _ (Iff.of_eq (k1_chk467.eq_1 v5129))
theorem k1_off700_inb : ∀ (v5129 : BitVec 32) (k1_hw467 : k1_chk467 v5129), ∀ a, (k1_off700 v5129) a + S1x64.size a ≤ S50000x64.size a := fun v5129 k1_hw467 => k1_hw467

def k1_off701 (v5130 : BitVec 32) : Fin 2 → Nat :=
  let v5134 : Index := Scalar.indexCast v5130
  let c0_1633 : Index := 0#32
  ![v5134.toNat, 0]

def k1_off702 (v5130 : BitVec 32) : Fin 2 → Nat :=
  let v5142 : Index := Scalar.indexCast v5130
  let c0_1635 : Index := 0#32
  ![v5142.toNat, 0]

def k1_chk468 (v5130 : BitVec 32) : Prop :=
  (∀ a, (k1_off701 v5130) a + S1x64.size a ≤ S16384x64.size a) ∧
  (∀ a, (k1_off702 v5130) a + S1x1.size a ≤ S16384x1.size a)
instance k1_chk468.dec : ∀ (v5130 : BitVec 32), Decidable (k1_chk468 v5130) := fun v5130 => decidable_of_iff' _ (Iff.of_eq (k1_chk468.eq_1 v5130))
theorem k1_off701_inb : ∀ (v5130 : BitVec 32) (k1_hw468 : k1_chk468 v5130), ∀ a, (k1_off701 v5130) a + S1x64.size a ≤ S16384x64.size a := fun v5130 k1_hw468 => k1_hw468.1
theorem k1_off702_inb : ∀ (v5130 : BitVec 32) (k1_hw468 : k1_chk468 v5130), ∀ a, (k1_off702 v5130) a + S1x1.size a ≤ S16384x1.size a := fun v5130 k1_hw468 => k1_hw468.2

def k1_off703 (v5151 : BitVec 32) : Fin 2 → Nat :=
  let v5153 : Index := Scalar.indexCast v5151
  let c0_1639 : Index := 0#32
  ![v5153.toNat, 0]

def k1_chk469 (v5151 : BitVec 32) : Prop :=
  (∀ a, (k1_off703 v5151) a + S1x64.size a ≤ S50000x64.size a)
instance k1_chk469.dec : ∀ (v5151 : BitVec 32), Decidable (k1_chk469 v5151) := fun v5151 => decidable_of_iff' _ (Iff.of_eq (k1_chk469.eq_1 v5151))
theorem k1_off703_inb : ∀ (v5151 : BitVec 32) (k1_hw469 : k1_chk469 v5151), ∀ a, (k1_off703 v5151) a + S1x64.size a ≤ S50000x64.size a := fun v5151 k1_hw469 => k1_hw469

def k1_off704 (v5152 : BitVec 32) : Fin 2 → Nat :=
  let v5156 : Index := Scalar.indexCast v5152
  let c0_1640 : Index := 0#32
  ![v5156.toNat, 0]

def k1_off705 (v5152 : BitVec 32) : Fin 2 → Nat :=
  let v5164 : Index := Scalar.indexCast v5152
  let c0_1642 : Index := 0#32
  ![v5164.toNat, 0]

def k1_chk470 (v5152 : BitVec 32) : Prop :=
  (∀ a, (k1_off704 v5152) a + S1x64.size a ≤ S16384x64.size a) ∧
  (∀ a, (k1_off705 v5152) a + S1x1.size a ≤ S16384x1.size a)
instance k1_chk470.dec : ∀ (v5152 : BitVec 32), Decidable (k1_chk470 v5152) := fun v5152 => decidable_of_iff' _ (Iff.of_eq (k1_chk470.eq_1 v5152))
theorem k1_off704_inb : ∀ (v5152 : BitVec 32) (k1_hw470 : k1_chk470 v5152), ∀ a, (k1_off704 v5152) a + S1x64.size a ≤ S16384x64.size a := fun v5152 k1_hw470 => k1_hw470.1
theorem k1_off705_inb : ∀ (v5152 : BitVec 32) (k1_hw470 : k1_chk470 v5152), ∀ a, (k1_off705 v5152) a + S1x1.size a ≤ S16384x1.size a := fun v5152 k1_hw470 => k1_hw470.2

def k1_off706 (v5173 : BitVec 32) : Fin 2 → Nat :=
  let v5175 : Index := Scalar.indexCast v5173
  let c0_1646 : Index := 0#32
  ![v5175.toNat, 0]

def k1_chk471 (v5173 : BitVec 32) : Prop :=
  (∀ a, (k1_off706 v5173) a + S1x64.size a ≤ S50000x64.size a)
instance k1_chk471.dec : ∀ (v5173 : BitVec 32), Decidable (k1_chk471 v5173) := fun v5173 => decidable_of_iff' _ (Iff.of_eq (k1_chk471.eq_1 v5173))
theorem k1_off706_inb : ∀ (v5173 : BitVec 32) (k1_hw471 : k1_chk471 v5173), ∀ a, (k1_off706 v5173) a + S1x64.size a ≤ S50000x64.size a := fun v5173 k1_hw471 => k1_hw471

def k1_off707 (v5174 : BitVec 32) : Fin 2 → Nat :=
  let v5178 : Index := Scalar.indexCast v5174
  let c0_1647 : Index := 0#32
  ![v5178.toNat, 0]

def k1_off708 (v5174 : BitVec 32) : Fin 2 → Nat :=
  let v5186 : Index := Scalar.indexCast v5174
  let c0_1649 : Index := 0#32
  ![v5186.toNat, 0]

def k1_chk472 (v5174 : BitVec 32) : Prop :=
  (∀ a, (k1_off707 v5174) a + S1x64.size a ≤ S16384x64.size a) ∧
  (∀ a, (k1_off708 v5174) a + S1x1.size a ≤ S16384x1.size a)
instance k1_chk472.dec : ∀ (v5174 : BitVec 32), Decidable (k1_chk472 v5174) := fun v5174 => decidable_of_iff' _ (Iff.of_eq (k1_chk472.eq_1 v5174))
theorem k1_off707_inb : ∀ (v5174 : BitVec 32) (k1_hw472 : k1_chk472 v5174), ∀ a, (k1_off707 v5174) a + S1x64.size a ≤ S16384x64.size a := fun v5174 k1_hw472 => k1_hw472.1
theorem k1_off708_inb : ∀ (v5174 : BitVec 32) (k1_hw472 : k1_chk472 v5174), ∀ a, (k1_off708 v5174) a + S1x1.size a ≤ S16384x1.size a := fun v5174 k1_hw472 => k1_hw472.2

def k1_off709 (v5195 : BitVec 32) : Fin 2 → Nat :=
  let v5197 : Index := Scalar.indexCast v5195
  let c0_1653 : Index := 0#32
  ![v5197.toNat, 0]

def k1_chk473 (v5195 : BitVec 32) : Prop :=
  (∀ a, (k1_off709 v5195) a + S1x64.size a ≤ S50000x64.size a)
instance k1_chk473.dec : ∀ (v5195 : BitVec 32), Decidable (k1_chk473 v5195) := fun v5195 => decidable_of_iff' _ (Iff.of_eq (k1_chk473.eq_1 v5195))
theorem k1_off709_inb : ∀ (v5195 : BitVec 32) (k1_hw473 : k1_chk473 v5195), ∀ a, (k1_off709 v5195) a + S1x64.size a ≤ S50000x64.size a := fun v5195 k1_hw473 => k1_hw473

def k1_off710 (v5196 : BitVec 32) : Fin 2 → Nat :=
  let v5200 : Index := Scalar.indexCast v5196
  let c0_1654 : Index := 0#32
  ![v5200.toNat, 0]

def k1_off711 (v5196 : BitVec 32) : Fin 2 → Nat :=
  let v5208 : Index := Scalar.indexCast v5196
  let c0_1656 : Index := 0#32
  ![v5208.toNat, 0]

def k1_chk474 (v5196 : BitVec 32) : Prop :=
  (∀ a, (k1_off710 v5196) a + S1x64.size a ≤ S16384x64.size a) ∧
  (∀ a, (k1_off711 v5196) a + S1x1.size a ≤ S16384x1.size a)
instance k1_chk474.dec : ∀ (v5196 : BitVec 32), Decidable (k1_chk474 v5196) := fun v5196 => decidable_of_iff' _ (Iff.of_eq (k1_chk474.eq_1 v5196))
theorem k1_off710_inb : ∀ (v5196 : BitVec 32) (k1_hw474 : k1_chk474 v5196), ∀ a, (k1_off710 v5196) a + S1x64.size a ≤ S16384x64.size a := fun v5196 k1_hw474 => k1_hw474.1
theorem k1_off711_inb : ∀ (v5196 : BitVec 32) (k1_hw474 : k1_chk474 v5196), ∀ a, (k1_off711 v5196) a + S1x1.size a ≤ S16384x1.size a := fun v5196 k1_hw474 => k1_hw474.2

def k1_off712 (v5217 : BitVec 32) : Fin 2 → Nat :=
  let v5219 : Index := Scalar.indexCast v5217
  let c0_1660 : Index := 0#32
  ![v5219.toNat, 0]

def k1_chk475 (v5217 : BitVec 32) : Prop :=
  (∀ a, (k1_off712 v5217) a + S1x64.size a ≤ S50000x64.size a)
instance k1_chk475.dec : ∀ (v5217 : BitVec 32), Decidable (k1_chk475 v5217) := fun v5217 => decidable_of_iff' _ (Iff.of_eq (k1_chk475.eq_1 v5217))
theorem k1_off712_inb : ∀ (v5217 : BitVec 32) (k1_hw475 : k1_chk475 v5217), ∀ a, (k1_off712 v5217) a + S1x64.size a ≤ S50000x64.size a := fun v5217 k1_hw475 => k1_hw475

def k1_off713 (v5218 : BitVec 32) : Fin 2 → Nat :=
  let v5222 : Index := Scalar.indexCast v5218
  let c0_1661 : Index := 0#32
  ![v5222.toNat, 0]

def k1_off714 (v5218 : BitVec 32) : Fin 2 → Nat :=
  let v5230 : Index := Scalar.indexCast v5218
  let c0_1663 : Index := 0#32
  ![v5230.toNat, 0]

def k1_chk476 (v5218 : BitVec 32) : Prop :=
  (∀ a, (k1_off713 v5218) a + S1x64.size a ≤ S16384x64.size a) ∧
  (∀ a, (k1_off714 v5218) a + S1x1.size a ≤ S16384x1.size a)
instance k1_chk476.dec : ∀ (v5218 : BitVec 32), Decidable (k1_chk476 v5218) := fun v5218 => decidable_of_iff' _ (Iff.of_eq (k1_chk476.eq_1 v5218))
theorem k1_off713_inb : ∀ (v5218 : BitVec 32) (k1_hw476 : k1_chk476 v5218), ∀ a, (k1_off713 v5218) a + S1x64.size a ≤ S16384x64.size a := fun v5218 k1_hw476 => k1_hw476.1
theorem k1_off714_inb : ∀ (v5218 : BitVec 32) (k1_hw476 : k1_chk476 v5218), ∀ a, (k1_off714 v5218) a + S1x1.size a ≤ S16384x1.size a := fun v5218 k1_hw476 => k1_hw476.2

def k1_off715 (v5239 : BitVec 32) : Fin 2 → Nat :=
  let v5241 : Index := Scalar.indexCast v5239
  let c0_1667 : Index := 0#32
  ![v5241.toNat, 0]

def k1_chk477 (v5239 : BitVec 32) : Prop :=
  (∀ a, (k1_off715 v5239) a + S1x64.size a ≤ S50000x64.size a)
instance k1_chk477.dec : ∀ (v5239 : BitVec 32), Decidable (k1_chk477 v5239) := fun v5239 => decidable_of_iff' _ (Iff.of_eq (k1_chk477.eq_1 v5239))
theorem k1_off715_inb : ∀ (v5239 : BitVec 32) (k1_hw477 : k1_chk477 v5239), ∀ a, (k1_off715 v5239) a + S1x64.size a ≤ S50000x64.size a := fun v5239 k1_hw477 => k1_hw477

def k1_off716 (v5240 : BitVec 32) : Fin 2 → Nat :=
  let v5244 : Index := Scalar.indexCast v5240
  let c0_1668 : Index := 0#32
  ![v5244.toNat, 0]

def k1_off717 (v5240 : BitVec 32) : Fin 2 → Nat :=
  let v5252 : Index := Scalar.indexCast v5240
  let c0_1670 : Index := 0#32
  ![v5252.toNat, 0]

def k1_chk478 (v5240 : BitVec 32) : Prop :=
  (∀ a, (k1_off716 v5240) a + S1x64.size a ≤ S16384x64.size a) ∧
  (∀ a, (k1_off717 v5240) a + S1x1.size a ≤ S16384x1.size a)
instance k1_chk478.dec : ∀ (v5240 : BitVec 32), Decidable (k1_chk478 v5240) := fun v5240 => decidable_of_iff' _ (Iff.of_eq (k1_chk478.eq_1 v5240))
theorem k1_off716_inb : ∀ (v5240 : BitVec 32) (k1_hw478 : k1_chk478 v5240), ∀ a, (k1_off716 v5240) a + S1x64.size a ≤ S16384x64.size a := fun v5240 k1_hw478 => k1_hw478.1
theorem k1_off717_inb : ∀ (v5240 : BitVec 32) (k1_hw478 : k1_chk478 v5240), ∀ a, (k1_off717 v5240) a + S1x1.size a ≤ S16384x1.size a := fun v5240 k1_hw478 => k1_hw478.2

def k1_off718 (v5261 : BitVec 32) : Fin 2 → Nat :=
  let v5263 : Index := Scalar.indexCast v5261
  let c0_1674 : Index := 0#32
  ![v5263.toNat, 0]

def k1_chk479 (v5261 : BitVec 32) : Prop :=
  (∀ a, (k1_off718 v5261) a + S1x64.size a ≤ S50000x64.size a)
instance k1_chk479.dec : ∀ (v5261 : BitVec 32), Decidable (k1_chk479 v5261) := fun v5261 => decidable_of_iff' _ (Iff.of_eq (k1_chk479.eq_1 v5261))
theorem k1_off718_inb : ∀ (v5261 : BitVec 32) (k1_hw479 : k1_chk479 v5261), ∀ a, (k1_off718 v5261) a + S1x64.size a ≤ S50000x64.size a := fun v5261 k1_hw479 => k1_hw479

def k1_off719 (v5262 : BitVec 32) : Fin 2 → Nat :=
  let v5266 : Index := Scalar.indexCast v5262
  let c0_1675 : Index := 0#32
  ![v5266.toNat, 0]

def k1_off720 (v5262 : BitVec 32) : Fin 2 → Nat :=
  let v5274 : Index := Scalar.indexCast v5262
  let c0_1677 : Index := 0#32
  ![v5274.toNat, 0]

def k1_chk480 (v5262 : BitVec 32) : Prop :=
  (∀ a, (k1_off719 v5262) a + S1x64.size a ≤ S16384x64.size a) ∧
  (∀ a, (k1_off720 v5262) a + S1x1.size a ≤ S16384x1.size a)
instance k1_chk480.dec : ∀ (v5262 : BitVec 32), Decidable (k1_chk480 v5262) := fun v5262 => decidable_of_iff' _ (Iff.of_eq (k1_chk480.eq_1 v5262))
theorem k1_off719_inb : ∀ (v5262 : BitVec 32) (k1_hw480 : k1_chk480 v5262), ∀ a, (k1_off719 v5262) a + S1x64.size a ≤ S16384x64.size a := fun v5262 k1_hw480 => k1_hw480.1
theorem k1_off720_inb : ∀ (v5262 : BitVec 32) (k1_hw480 : k1_chk480 v5262), ∀ a, (k1_off720 v5262) a + S1x1.size a ≤ S16384x1.size a := fun v5262 k1_hw480 => k1_hw480.2

def k1_off721 (v5283 : BitVec 32) : Fin 2 → Nat :=
  let v5285 : Index := Scalar.indexCast v5283
  let c0_1681 : Index := 0#32
  ![v5285.toNat, 0]

def k1_chk481 (v5283 : BitVec 32) : Prop :=
  (∀ a, (k1_off721 v5283) a + S1x64.size a ≤ S50000x64.size a)
instance k1_chk481.dec : ∀ (v5283 : BitVec 32), Decidable (k1_chk481 v5283) := fun v5283 => decidable_of_iff' _ (Iff.of_eq (k1_chk481.eq_1 v5283))
theorem k1_off721_inb : ∀ (v5283 : BitVec 32) (k1_hw481 : k1_chk481 v5283), ∀ a, (k1_off721 v5283) a + S1x64.size a ≤ S50000x64.size a := fun v5283 k1_hw481 => k1_hw481

def k1_off722 (v5284 : BitVec 32) : Fin 2 → Nat :=
  let v5288 : Index := Scalar.indexCast v5284
  let c0_1682 : Index := 0#32
  ![v5288.toNat, 0]

def k1_off723 (v5284 : BitVec 32) : Fin 2 → Nat :=
  let v5296 : Index := Scalar.indexCast v5284
  let c0_1684 : Index := 0#32
  ![v5296.toNat, 0]

def k1_chk482 (v5284 : BitVec 32) : Prop :=
  (∀ a, (k1_off722 v5284) a + S1x64.size a ≤ S16384x64.size a) ∧
  (∀ a, (k1_off723 v5284) a + S1x1.size a ≤ S16384x1.size a)
instance k1_chk482.dec : ∀ (v5284 : BitVec 32), Decidable (k1_chk482 v5284) := fun v5284 => decidable_of_iff' _ (Iff.of_eq (k1_chk482.eq_1 v5284))
theorem k1_off722_inb : ∀ (v5284 : BitVec 32) (k1_hw482 : k1_chk482 v5284), ∀ a, (k1_off722 v5284) a + S1x64.size a ≤ S16384x64.size a := fun v5284 k1_hw482 => k1_hw482.1
theorem k1_off723_inb : ∀ (v5284 : BitVec 32) (k1_hw482 : k1_chk482 v5284), ∀ a, (k1_off723 v5284) a + S1x1.size a ≤ S16384x1.size a := fun v5284 k1_hw482 => k1_hw482.2

def k1_off724 (v5305 : BitVec 32) : Fin 2 → Nat :=
  let v5307 : Index := Scalar.indexCast v5305
  let c0_1688 : Index := 0#32
  ![v5307.toNat, 0]

def k1_chk483 (v5305 : BitVec 32) : Prop :=
  (∀ a, (k1_off724 v5305) a + S1x64.size a ≤ S50000x64.size a)
instance k1_chk483.dec : ∀ (v5305 : BitVec 32), Decidable (k1_chk483 v5305) := fun v5305 => decidable_of_iff' _ (Iff.of_eq (k1_chk483.eq_1 v5305))
theorem k1_off724_inb : ∀ (v5305 : BitVec 32) (k1_hw483 : k1_chk483 v5305), ∀ a, (k1_off724 v5305) a + S1x64.size a ≤ S50000x64.size a := fun v5305 k1_hw483 => k1_hw483

def k1_off725 (v5306 : BitVec 32) : Fin 2 → Nat :=
  let v5310 : Index := Scalar.indexCast v5306
  let c0_1689 : Index := 0#32
  ![v5310.toNat, 0]

def k1_off726 (v5306 : BitVec 32) : Fin 2 → Nat :=
  let v5318 : Index := Scalar.indexCast v5306
  let c0_1691 : Index := 0#32
  ![v5318.toNat, 0]

def k1_chk484 (v5306 : BitVec 32) : Prop :=
  (∀ a, (k1_off725 v5306) a + S1x64.size a ≤ S16384x64.size a) ∧
  (∀ a, (k1_off726 v5306) a + S1x1.size a ≤ S16384x1.size a)
instance k1_chk484.dec : ∀ (v5306 : BitVec 32), Decidable (k1_chk484 v5306) := fun v5306 => decidable_of_iff' _ (Iff.of_eq (k1_chk484.eq_1 v5306))
theorem k1_off725_inb : ∀ (v5306 : BitVec 32) (k1_hw484 : k1_chk484 v5306), ∀ a, (k1_off725 v5306) a + S1x64.size a ≤ S16384x64.size a := fun v5306 k1_hw484 => k1_hw484.1
theorem k1_off726_inb : ∀ (v5306 : BitVec 32) (k1_hw484 : k1_chk484 v5306), ∀ a, (k1_off726 v5306) a + S1x1.size a ≤ S16384x1.size a := fun v5306 k1_hw484 => k1_hw484.2

def k1_off727 (v5327 : BitVec 32) : Fin 2 → Nat :=
  let v5329 : Index := Scalar.indexCast v5327
  let c0_1695 : Index := 0#32
  ![v5329.toNat, 0]

def k1_chk485 (v5327 : BitVec 32) : Prop :=
  (∀ a, (k1_off727 v5327) a + S1x64.size a ≤ S50000x64.size a)
instance k1_chk485.dec : ∀ (v5327 : BitVec 32), Decidable (k1_chk485 v5327) := fun v5327 => decidable_of_iff' _ (Iff.of_eq (k1_chk485.eq_1 v5327))
theorem k1_off727_inb : ∀ (v5327 : BitVec 32) (k1_hw485 : k1_chk485 v5327), ∀ a, (k1_off727 v5327) a + S1x64.size a ≤ S50000x64.size a := fun v5327 k1_hw485 => k1_hw485

def k1_off728 (v5328 : BitVec 32) : Fin 2 → Nat :=
  let v5332 : Index := Scalar.indexCast v5328
  let c0_1696 : Index := 0#32
  ![v5332.toNat, 0]

def k1_off729 (v5328 : BitVec 32) : Fin 2 → Nat :=
  let v5340 : Index := Scalar.indexCast v5328
  let c0_1698 : Index := 0#32
  ![v5340.toNat, 0]

def k1_chk486 (v5328 : BitVec 32) : Prop :=
  (∀ a, (k1_off728 v5328) a + S1x64.size a ≤ S16384x64.size a) ∧
  (∀ a, (k1_off729 v5328) a + S1x1.size a ≤ S16384x1.size a)
instance k1_chk486.dec : ∀ (v5328 : BitVec 32), Decidable (k1_chk486 v5328) := fun v5328 => decidable_of_iff' _ (Iff.of_eq (k1_chk486.eq_1 v5328))
theorem k1_off728_inb : ∀ (v5328 : BitVec 32) (k1_hw486 : k1_chk486 v5328), ∀ a, (k1_off728 v5328) a + S1x64.size a ≤ S16384x64.size a := fun v5328 k1_hw486 => k1_hw486.1
theorem k1_off729_inb : ∀ (v5328 : BitVec 32) (k1_hw486 : k1_chk486 v5328), ∀ a, (k1_off729 v5328) a + S1x1.size a ≤ S16384x1.size a := fun v5328 k1_hw486 => k1_hw486.2

def k1_off730 (v5349 : BitVec 32) : Fin 2 → Nat :=
  let v5351 : Index := Scalar.indexCast v5349
  let c0_1702 : Index := 0#32
  ![v5351.toNat, 0]

def k1_chk487 (v5349 : BitVec 32) : Prop :=
  (∀ a, (k1_off730 v5349) a + S1x64.size a ≤ S50000x64.size a)
instance k1_chk487.dec : ∀ (v5349 : BitVec 32), Decidable (k1_chk487 v5349) := fun v5349 => decidable_of_iff' _ (Iff.of_eq (k1_chk487.eq_1 v5349))
theorem k1_off730_inb : ∀ (v5349 : BitVec 32) (k1_hw487 : k1_chk487 v5349), ∀ a, (k1_off730 v5349) a + S1x64.size a ≤ S50000x64.size a := fun v5349 k1_hw487 => k1_hw487

def k1_off731 (v5350 : BitVec 32) : Fin 2 → Nat :=
  let v5354 : Index := Scalar.indexCast v5350
  let c0_1703 : Index := 0#32
  ![v5354.toNat, 0]

def k1_off732 (v5350 : BitVec 32) : Fin 2 → Nat :=
  let v5362 : Index := Scalar.indexCast v5350
  let c0_1705 : Index := 0#32
  ![v5362.toNat, 0]

def k1_chk488 (v5350 : BitVec 32) : Prop :=
  (∀ a, (k1_off731 v5350) a + S1x64.size a ≤ S16384x64.size a) ∧
  (∀ a, (k1_off732 v5350) a + S1x1.size a ≤ S16384x1.size a)
instance k1_chk488.dec : ∀ (v5350 : BitVec 32), Decidable (k1_chk488 v5350) := fun v5350 => decidable_of_iff' _ (Iff.of_eq (k1_chk488.eq_1 v5350))
theorem k1_off731_inb : ∀ (v5350 : BitVec 32) (k1_hw488 : k1_chk488 v5350), ∀ a, (k1_off731 v5350) a + S1x64.size a ≤ S16384x64.size a := fun v5350 k1_hw488 => k1_hw488.1
theorem k1_off732_inb : ∀ (v5350 : BitVec 32) (k1_hw488 : k1_chk488 v5350), ∀ a, (k1_off732 v5350) a + S1x1.size a ≤ S16384x1.size a := fun v5350 k1_hw488 => k1_hw488.2

def k1_off733 (v5371 : BitVec 32) : Fin 2 → Nat :=
  let v5373 : Index := Scalar.indexCast v5371
  let c0_1709 : Index := 0#32
  ![v5373.toNat, 0]

def k1_chk489 (v5371 : BitVec 32) : Prop :=
  (∀ a, (k1_off733 v5371) a + S1x64.size a ≤ S50000x64.size a)
instance k1_chk489.dec : ∀ (v5371 : BitVec 32), Decidable (k1_chk489 v5371) := fun v5371 => decidable_of_iff' _ (Iff.of_eq (k1_chk489.eq_1 v5371))
theorem k1_off733_inb : ∀ (v5371 : BitVec 32) (k1_hw489 : k1_chk489 v5371), ∀ a, (k1_off733 v5371) a + S1x64.size a ≤ S50000x64.size a := fun v5371 k1_hw489 => k1_hw489

def k1_off734 (v5372 : BitVec 32) : Fin 2 → Nat :=
  let v5376 : Index := Scalar.indexCast v5372
  let c0_1710 : Index := 0#32
  ![v5376.toNat, 0]

def k1_off735 (v5372 : BitVec 32) : Fin 2 → Nat :=
  let v5384 : Index := Scalar.indexCast v5372
  let c0_1712 : Index := 0#32
  ![v5384.toNat, 0]

def k1_chk490 (v5372 : BitVec 32) : Prop :=
  (∀ a, (k1_off734 v5372) a + S1x64.size a ≤ S16384x64.size a) ∧
  (∀ a, (k1_off735 v5372) a + S1x1.size a ≤ S16384x1.size a)
instance k1_chk490.dec : ∀ (v5372 : BitVec 32), Decidable (k1_chk490 v5372) := fun v5372 => decidable_of_iff' _ (Iff.of_eq (k1_chk490.eq_1 v5372))
theorem k1_off734_inb : ∀ (v5372 : BitVec 32) (k1_hw490 : k1_chk490 v5372), ∀ a, (k1_off734 v5372) a + S1x64.size a ≤ S16384x64.size a := fun v5372 k1_hw490 => k1_hw490.1
theorem k1_off735_inb : ∀ (v5372 : BitVec 32) (k1_hw490 : k1_chk490 v5372), ∀ a, (k1_off735 v5372) a + S1x1.size a ≤ S16384x1.size a := fun v5372 k1_hw490 => k1_hw490.2

def k1_off736 (v5393 : BitVec 32) : Fin 2 → Nat :=
  let v5395 : Index := Scalar.indexCast v5393
  let c0_1716 : Index := 0#32
  ![v5395.toNat, 0]

def k1_chk491 (v5393 : BitVec 32) : Prop :=
  (∀ a, (k1_off736 v5393) a + S1x64.size a ≤ S50000x64.size a)
instance k1_chk491.dec : ∀ (v5393 : BitVec 32), Decidable (k1_chk491 v5393) := fun v5393 => decidable_of_iff' _ (Iff.of_eq (k1_chk491.eq_1 v5393))
theorem k1_off736_inb : ∀ (v5393 : BitVec 32) (k1_hw491 : k1_chk491 v5393), ∀ a, (k1_off736 v5393) a + S1x64.size a ≤ S50000x64.size a := fun v5393 k1_hw491 => k1_hw491

def k1_off737 (v5394 : BitVec 32) : Fin 2 → Nat :=
  let v5398 : Index := Scalar.indexCast v5394
  let c0_1717 : Index := 0#32
  ![v5398.toNat, 0]

def k1_off738 (v5394 : BitVec 32) : Fin 2 → Nat :=
  let v5406 : Index := Scalar.indexCast v5394
  let c0_1719 : Index := 0#32
  ![v5406.toNat, 0]

def k1_chk492 (v5394 : BitVec 32) : Prop :=
  (∀ a, (k1_off737 v5394) a + S1x64.size a ≤ S16384x64.size a) ∧
  (∀ a, (k1_off738 v5394) a + S1x1.size a ≤ S16384x1.size a)
instance k1_chk492.dec : ∀ (v5394 : BitVec 32), Decidable (k1_chk492 v5394) := fun v5394 => decidable_of_iff' _ (Iff.of_eq (k1_chk492.eq_1 v5394))
theorem k1_off737_inb : ∀ (v5394 : BitVec 32) (k1_hw492 : k1_chk492 v5394), ∀ a, (k1_off737 v5394) a + S1x64.size a ≤ S16384x64.size a := fun v5394 k1_hw492 => k1_hw492.1
theorem k1_off738_inb : ∀ (v5394 : BitVec 32) (k1_hw492 : k1_chk492 v5394), ∀ a, (k1_off738 v5394) a + S1x1.size a ≤ S16384x1.size a := fun v5394 k1_hw492 => k1_hw492.2

def k1_off739 (v5415 : BitVec 32) : Fin 2 → Nat :=
  let v5417 : Index := Scalar.indexCast v5415
  let c0_1723 : Index := 0#32
  ![v5417.toNat, 0]

def k1_chk493 (v5415 : BitVec 32) : Prop :=
  (∀ a, (k1_off739 v5415) a + S1x64.size a ≤ S50000x64.size a)
instance k1_chk493.dec : ∀ (v5415 : BitVec 32), Decidable (k1_chk493 v5415) := fun v5415 => decidable_of_iff' _ (Iff.of_eq (k1_chk493.eq_1 v5415))
theorem k1_off739_inb : ∀ (v5415 : BitVec 32) (k1_hw493 : k1_chk493 v5415), ∀ a, (k1_off739 v5415) a + S1x64.size a ≤ S50000x64.size a := fun v5415 k1_hw493 => k1_hw493

def k1_off740 (v5416 : BitVec 32) : Fin 2 → Nat :=
  let v5420 : Index := Scalar.indexCast v5416
  let c0_1724 : Index := 0#32
  ![v5420.toNat, 0]

def k1_off741 (v5416 : BitVec 32) : Fin 2 → Nat :=
  let v5428 : Index := Scalar.indexCast v5416
  let c0_1726 : Index := 0#32
  ![v5428.toNat, 0]

def k1_chk494 (v5416 : BitVec 32) : Prop :=
  (∀ a, (k1_off740 v5416) a + S1x64.size a ≤ S16384x64.size a) ∧
  (∀ a, (k1_off741 v5416) a + S1x1.size a ≤ S16384x1.size a)
instance k1_chk494.dec : ∀ (v5416 : BitVec 32), Decidable (k1_chk494 v5416) := fun v5416 => decidable_of_iff' _ (Iff.of_eq (k1_chk494.eq_1 v5416))
theorem k1_off740_inb : ∀ (v5416 : BitVec 32) (k1_hw494 : k1_chk494 v5416), ∀ a, (k1_off740 v5416) a + S1x64.size a ≤ S16384x64.size a := fun v5416 k1_hw494 => k1_hw494.1
theorem k1_off741_inb : ∀ (v5416 : BitVec 32) (k1_hw494 : k1_chk494 v5416), ∀ a, (k1_off741 v5416) a + S1x1.size a ≤ S16384x1.size a := fun v5416 k1_hw494 => k1_hw494.2

def k1_off742 (v5437 : BitVec 32) : Fin 2 → Nat :=
  let v5439 : Index := Scalar.indexCast v5437
  let c0_1730 : Index := 0#32
  ![v5439.toNat, 0]

def k1_chk495 (v5437 : BitVec 32) : Prop :=
  (∀ a, (k1_off742 v5437) a + S1x64.size a ≤ S50000x64.size a)
instance k1_chk495.dec : ∀ (v5437 : BitVec 32), Decidable (k1_chk495 v5437) := fun v5437 => decidable_of_iff' _ (Iff.of_eq (k1_chk495.eq_1 v5437))
theorem k1_off742_inb : ∀ (v5437 : BitVec 32) (k1_hw495 : k1_chk495 v5437), ∀ a, (k1_off742 v5437) a + S1x64.size a ≤ S50000x64.size a := fun v5437 k1_hw495 => k1_hw495

def k1_off743 (v5438 : BitVec 32) : Fin 2 → Nat :=
  let v5442 : Index := Scalar.indexCast v5438
  let c0_1731 : Index := 0#32
  ![v5442.toNat, 0]

def k1_off744 (v5438 : BitVec 32) : Fin 2 → Nat :=
  let v5450 : Index := Scalar.indexCast v5438
  let c0_1733 : Index := 0#32
  ![v5450.toNat, 0]

def k1_chk496 (v5438 : BitVec 32) : Prop :=
  (∀ a, (k1_off743 v5438) a + S1x64.size a ≤ S16384x64.size a) ∧
  (∀ a, (k1_off744 v5438) a + S1x1.size a ≤ S16384x1.size a)
instance k1_chk496.dec : ∀ (v5438 : BitVec 32), Decidable (k1_chk496 v5438) := fun v5438 => decidable_of_iff' _ (Iff.of_eq (k1_chk496.eq_1 v5438))
theorem k1_off743_inb : ∀ (v5438 : BitVec 32) (k1_hw496 : k1_chk496 v5438), ∀ a, (k1_off743 v5438) a + S1x64.size a ≤ S16384x64.size a := fun v5438 k1_hw496 => k1_hw496.1
theorem k1_off744_inb : ∀ (v5438 : BitVec 32) (k1_hw496 : k1_chk496 v5438), ∀ a, (k1_off744 v5438) a + S1x1.size a ≤ S16384x1.size a := fun v5438 k1_hw496 => k1_hw496.2

def k1_off745 (v5459 : BitVec 32) : Fin 2 → Nat :=
  let v5461 : Index := Scalar.indexCast v5459
  let c0_1737 : Index := 0#32
  ![v5461.toNat, 0]

def k1_chk497 (v5459 : BitVec 32) : Prop :=
  (∀ a, (k1_off745 v5459) a + S1x64.size a ≤ S50000x64.size a)
instance k1_chk497.dec : ∀ (v5459 : BitVec 32), Decidable (k1_chk497 v5459) := fun v5459 => decidable_of_iff' _ (Iff.of_eq (k1_chk497.eq_1 v5459))
theorem k1_off745_inb : ∀ (v5459 : BitVec 32) (k1_hw497 : k1_chk497 v5459), ∀ a, (k1_off745 v5459) a + S1x64.size a ≤ S50000x64.size a := fun v5459 k1_hw497 => k1_hw497

def k1_off746 (v5460 : BitVec 32) : Fin 2 → Nat :=
  let v5464 : Index := Scalar.indexCast v5460
  let c0_1738 : Index := 0#32
  ![v5464.toNat, 0]

def k1_off747 (v5460 : BitVec 32) : Fin 2 → Nat :=
  let v5472 : Index := Scalar.indexCast v5460
  let c0_1740 : Index := 0#32
  ![v5472.toNat, 0]

def k1_chk498 (v5460 : BitVec 32) : Prop :=
  (∀ a, (k1_off746 v5460) a + S1x64.size a ≤ S16384x64.size a) ∧
  (∀ a, (k1_off747 v5460) a + S1x1.size a ≤ S16384x1.size a)
instance k1_chk498.dec : ∀ (v5460 : BitVec 32), Decidable (k1_chk498 v5460) := fun v5460 => decidable_of_iff' _ (Iff.of_eq (k1_chk498.eq_1 v5460))
theorem k1_off746_inb : ∀ (v5460 : BitVec 32) (k1_hw498 : k1_chk498 v5460), ∀ a, (k1_off746 v5460) a + S1x64.size a ≤ S16384x64.size a := fun v5460 k1_hw498 => k1_hw498.1
theorem k1_off747_inb : ∀ (v5460 : BitVec 32) (k1_hw498 : k1_chk498 v5460), ∀ a, (k1_off747 v5460) a + S1x1.size a ≤ S16384x1.size a := fun v5460 k1_hw498 => k1_hw498.2

def k1_off748 (v5481 : BitVec 32) : Fin 2 → Nat :=
  let v5483 : Index := Scalar.indexCast v5481
  let c0_1744 : Index := 0#32
  ![v5483.toNat, 0]

def k1_chk499 (v5481 : BitVec 32) : Prop :=
  (∀ a, (k1_off748 v5481) a + S1x64.size a ≤ S50000x64.size a)
instance k1_chk499.dec : ∀ (v5481 : BitVec 32), Decidable (k1_chk499 v5481) := fun v5481 => decidable_of_iff' _ (Iff.of_eq (k1_chk499.eq_1 v5481))
theorem k1_off748_inb : ∀ (v5481 : BitVec 32) (k1_hw499 : k1_chk499 v5481), ∀ a, (k1_off748 v5481) a + S1x64.size a ≤ S50000x64.size a := fun v5481 k1_hw499 => k1_hw499

def k1_off749 (v5482 : BitVec 32) : Fin 2 → Nat :=
  let v5486 : Index := Scalar.indexCast v5482
  let c0_1745 : Index := 0#32
  ![v5486.toNat, 0]

def k1_off750 (v5482 : BitVec 32) : Fin 2 → Nat :=
  let v5494 : Index := Scalar.indexCast v5482
  let c0_1747 : Index := 0#32
  ![v5494.toNat, 0]

def k1_chk500 (v5482 : BitVec 32) : Prop :=
  (∀ a, (k1_off749 v5482) a + S1x64.size a ≤ S16384x64.size a) ∧
  (∀ a, (k1_off750 v5482) a + S1x1.size a ≤ S16384x1.size a)
instance k1_chk500.dec : ∀ (v5482 : BitVec 32), Decidable (k1_chk500 v5482) := fun v5482 => decidable_of_iff' _ (Iff.of_eq (k1_chk500.eq_1 v5482))
theorem k1_off749_inb : ∀ (v5482 : BitVec 32) (k1_hw500 : k1_chk500 v5482), ∀ a, (k1_off749 v5482) a + S1x64.size a ≤ S16384x64.size a := fun v5482 k1_hw500 => k1_hw500.1
theorem k1_off750_inb : ∀ (v5482 : BitVec 32) (k1_hw500 : k1_chk500 v5482), ∀ a, (k1_off750 v5482) a + S1x1.size a ≤ S16384x1.size a := fun v5482 k1_hw500 => k1_hw500.2

def k1_off751 (v5503 : BitVec 32) : Fin 2 → Nat :=
  let v5505 : Index := Scalar.indexCast v5503
  let c0_1751 : Index := 0#32
  ![v5505.toNat, 0]

def k1_chk501 (v5503 : BitVec 32) : Prop :=
  (∀ a, (k1_off751 v5503) a + S1x64.size a ≤ S50000x64.size a)
instance k1_chk501.dec : ∀ (v5503 : BitVec 32), Decidable (k1_chk501 v5503) := fun v5503 => decidable_of_iff' _ (Iff.of_eq (k1_chk501.eq_1 v5503))
theorem k1_off751_inb : ∀ (v5503 : BitVec 32) (k1_hw501 : k1_chk501 v5503), ∀ a, (k1_off751 v5503) a + S1x64.size a ≤ S50000x64.size a := fun v5503 k1_hw501 => k1_hw501

def k1_off752 (v5504 : BitVec 32) : Fin 2 → Nat :=
  let v5508 : Index := Scalar.indexCast v5504
  let c0_1752 : Index := 0#32
  ![v5508.toNat, 0]

def k1_off753 (v5504 : BitVec 32) : Fin 2 → Nat :=
  let v5516 : Index := Scalar.indexCast v5504
  let c0_1754 : Index := 0#32
  ![v5516.toNat, 0]

def k1_chk502 (v5504 : BitVec 32) : Prop :=
  (∀ a, (k1_off752 v5504) a + S1x64.size a ≤ S16384x64.size a) ∧
  (∀ a, (k1_off753 v5504) a + S1x1.size a ≤ S16384x1.size a)
instance k1_chk502.dec : ∀ (v5504 : BitVec 32), Decidable (k1_chk502 v5504) := fun v5504 => decidable_of_iff' _ (Iff.of_eq (k1_chk502.eq_1 v5504))
theorem k1_off752_inb : ∀ (v5504 : BitVec 32) (k1_hw502 : k1_chk502 v5504), ∀ a, (k1_off752 v5504) a + S1x64.size a ≤ S16384x64.size a := fun v5504 k1_hw502 => k1_hw502.1
theorem k1_off753_inb : ∀ (v5504 : BitVec 32) (k1_hw502 : k1_chk502 v5504), ∀ a, (k1_off753 v5504) a + S1x1.size a ≤ S16384x1.size a := fun v5504 k1_hw502 => k1_hw502.2

def k1_off754 (v5525 : BitVec 32) : Fin 2 → Nat :=
  let v5527 : Index := Scalar.indexCast v5525
  let c0_1758 : Index := 0#32
  ![v5527.toNat, 0]

def k1_chk503 (v5525 : BitVec 32) : Prop :=
  (∀ a, (k1_off754 v5525) a + S1x64.size a ≤ S50000x64.size a)
instance k1_chk503.dec : ∀ (v5525 : BitVec 32), Decidable (k1_chk503 v5525) := fun v5525 => decidable_of_iff' _ (Iff.of_eq (k1_chk503.eq_1 v5525))
theorem k1_off754_inb : ∀ (v5525 : BitVec 32) (k1_hw503 : k1_chk503 v5525), ∀ a, (k1_off754 v5525) a + S1x64.size a ≤ S50000x64.size a := fun v5525 k1_hw503 => k1_hw503

def k1_off755 (v5526 : BitVec 32) : Fin 2 → Nat :=
  let v5530 : Index := Scalar.indexCast v5526
  let c0_1759 : Index := 0#32
  ![v5530.toNat, 0]

def k1_off756 (v5526 : BitVec 32) : Fin 2 → Nat :=
  let v5538 : Index := Scalar.indexCast v5526
  let c0_1761 : Index := 0#32
  ![v5538.toNat, 0]

def k1_chk504 (v5526 : BitVec 32) : Prop :=
  (∀ a, (k1_off755 v5526) a + S1x64.size a ≤ S16384x64.size a) ∧
  (∀ a, (k1_off756 v5526) a + S1x1.size a ≤ S16384x1.size a)
instance k1_chk504.dec : ∀ (v5526 : BitVec 32), Decidable (k1_chk504 v5526) := fun v5526 => decidable_of_iff' _ (Iff.of_eq (k1_chk504.eq_1 v5526))
theorem k1_off755_inb : ∀ (v5526 : BitVec 32) (k1_hw504 : k1_chk504 v5526), ∀ a, (k1_off755 v5526) a + S1x64.size a ≤ S16384x64.size a := fun v5526 k1_hw504 => k1_hw504.1
theorem k1_off756_inb : ∀ (v5526 : BitVec 32) (k1_hw504 : k1_chk504 v5526), ∀ a, (k1_off756 v5526) a + S1x1.size a ≤ S16384x1.size a := fun v5526 k1_hw504 => k1_hw504.2

def k1_off757 (v5547 : BitVec 32) : Fin 2 → Nat :=
  let v5549 : Index := Scalar.indexCast v5547
  let c0_1765 : Index := 0#32
  ![v5549.toNat, 0]

def k1_chk505 (v5547 : BitVec 32) : Prop :=
  (∀ a, (k1_off757 v5547) a + S1x64.size a ≤ S50000x64.size a)
instance k1_chk505.dec : ∀ (v5547 : BitVec 32), Decidable (k1_chk505 v5547) := fun v5547 => decidable_of_iff' _ (Iff.of_eq (k1_chk505.eq_1 v5547))
theorem k1_off757_inb : ∀ (v5547 : BitVec 32) (k1_hw505 : k1_chk505 v5547), ∀ a, (k1_off757 v5547) a + S1x64.size a ≤ S50000x64.size a := fun v5547 k1_hw505 => k1_hw505

def k1_off758 (v5548 : BitVec 32) : Fin 2 → Nat :=
  let v5552 : Index := Scalar.indexCast v5548
  let c0_1766 : Index := 0#32
  ![v5552.toNat, 0]

def k1_off759 (v5548 : BitVec 32) : Fin 2 → Nat :=
  let v5560 : Index := Scalar.indexCast v5548
  let c0_1768 : Index := 0#32
  ![v5560.toNat, 0]

def k1_chk506 (v5548 : BitVec 32) : Prop :=
  (∀ a, (k1_off758 v5548) a + S1x64.size a ≤ S16384x64.size a) ∧
  (∀ a, (k1_off759 v5548) a + S1x1.size a ≤ S16384x1.size a)
instance k1_chk506.dec : ∀ (v5548 : BitVec 32), Decidable (k1_chk506 v5548) := fun v5548 => decidable_of_iff' _ (Iff.of_eq (k1_chk506.eq_1 v5548))
theorem k1_off758_inb : ∀ (v5548 : BitVec 32) (k1_hw506 : k1_chk506 v5548), ∀ a, (k1_off758 v5548) a + S1x64.size a ≤ S16384x64.size a := fun v5548 k1_hw506 => k1_hw506.1
theorem k1_off759_inb : ∀ (v5548 : BitVec 32) (k1_hw506 : k1_chk506 v5548), ∀ a, (k1_off759 v5548) a + S1x1.size a ≤ S16384x1.size a := fun v5548 k1_hw506 => k1_hw506.2

def k1_off760 (v5569 : BitVec 32) : Fin 2 → Nat :=
  let v5571 : Index := Scalar.indexCast v5569
  let c0_1772 : Index := 0#32
  ![v5571.toNat, 0]

def k1_chk507 (v5569 : BitVec 32) : Prop :=
  (∀ a, (k1_off760 v5569) a + S1x64.size a ≤ S50000x64.size a)
instance k1_chk507.dec : ∀ (v5569 : BitVec 32), Decidable (k1_chk507 v5569) := fun v5569 => decidable_of_iff' _ (Iff.of_eq (k1_chk507.eq_1 v5569))
theorem k1_off760_inb : ∀ (v5569 : BitVec 32) (k1_hw507 : k1_chk507 v5569), ∀ a, (k1_off760 v5569) a + S1x64.size a ≤ S50000x64.size a := fun v5569 k1_hw507 => k1_hw507

def k1_off761 (v5570 : BitVec 32) : Fin 2 → Nat :=
  let v5574 : Index := Scalar.indexCast v5570
  let c0_1773 : Index := 0#32
  ![v5574.toNat, 0]

def k1_off762 (v5570 : BitVec 32) : Fin 2 → Nat :=
  let v5582 : Index := Scalar.indexCast v5570
  let c0_1775 : Index := 0#32
  ![v5582.toNat, 0]

def k1_chk508 (v5570 : BitVec 32) : Prop :=
  (∀ a, (k1_off761 v5570) a + S1x64.size a ≤ S16384x64.size a) ∧
  (∀ a, (k1_off762 v5570) a + S1x1.size a ≤ S16384x1.size a)
instance k1_chk508.dec : ∀ (v5570 : BitVec 32), Decidable (k1_chk508 v5570) := fun v5570 => decidable_of_iff' _ (Iff.of_eq (k1_chk508.eq_1 v5570))
theorem k1_off761_inb : ∀ (v5570 : BitVec 32) (k1_hw508 : k1_chk508 v5570), ∀ a, (k1_off761 v5570) a + S1x64.size a ≤ S16384x64.size a := fun v5570 k1_hw508 => k1_hw508.1
theorem k1_off762_inb : ∀ (v5570 : BitVec 32) (k1_hw508 : k1_chk508 v5570), ∀ a, (k1_off762 v5570) a + S1x1.size a ≤ S16384x1.size a := fun v5570 k1_hw508 => k1_hw508.2

def k1_off763 (v5591 : BitVec 32) : Fin 2 → Nat :=
  let v5593 : Index := Scalar.indexCast v5591
  let c0_1779 : Index := 0#32
  ![v5593.toNat, 0]

def k1_chk509 (v5591 : BitVec 32) : Prop :=
  (∀ a, (k1_off763 v5591) a + S1x64.size a ≤ S50000x64.size a)
instance k1_chk509.dec : ∀ (v5591 : BitVec 32), Decidable (k1_chk509 v5591) := fun v5591 => decidable_of_iff' _ (Iff.of_eq (k1_chk509.eq_1 v5591))
theorem k1_off763_inb : ∀ (v5591 : BitVec 32) (k1_hw509 : k1_chk509 v5591), ∀ a, (k1_off763 v5591) a + S1x64.size a ≤ S50000x64.size a := fun v5591 k1_hw509 => k1_hw509

def k1_off764 (v5592 : BitVec 32) : Fin 2 → Nat :=
  let v5596 : Index := Scalar.indexCast v5592
  let c0_1780 : Index := 0#32
  ![v5596.toNat, 0]

def k1_off765 (v5592 : BitVec 32) : Fin 2 → Nat :=
  let v5604 : Index := Scalar.indexCast v5592
  let c0_1782 : Index := 0#32
  ![v5604.toNat, 0]

def k1_chk510 (v5592 : BitVec 32) : Prop :=
  (∀ a, (k1_off764 v5592) a + S1x64.size a ≤ S16384x64.size a) ∧
  (∀ a, (k1_off765 v5592) a + S1x1.size a ≤ S16384x1.size a)
instance k1_chk510.dec : ∀ (v5592 : BitVec 32), Decidable (k1_chk510 v5592) := fun v5592 => decidable_of_iff' _ (Iff.of_eq (k1_chk510.eq_1 v5592))
theorem k1_off764_inb : ∀ (v5592 : BitVec 32) (k1_hw510 : k1_chk510 v5592), ∀ a, (k1_off764 v5592) a + S1x64.size a ≤ S16384x64.size a := fun v5592 k1_hw510 => k1_hw510.1
theorem k1_off765_inb : ∀ (v5592 : BitVec 32) (k1_hw510 : k1_chk510 v5592), ∀ a, (k1_off765 v5592) a + S1x1.size a ≤ S16384x1.size a := fun v5592 k1_hw510 => k1_hw510.2

def k1_off766 (v5613 : BitVec 32) : Fin 2 → Nat :=
  let v5615 : Index := Scalar.indexCast v5613
  let c0_1786 : Index := 0#32
  ![v5615.toNat, 0]

def k1_chk511 (v5613 : BitVec 32) : Prop :=
  (∀ a, (k1_off766 v5613) a + S1x64.size a ≤ S50000x64.size a)
instance k1_chk511.dec : ∀ (v5613 : BitVec 32), Decidable (k1_chk511 v5613) := fun v5613 => decidable_of_iff' _ (Iff.of_eq (k1_chk511.eq_1 v5613))
theorem k1_off766_inb : ∀ (v5613 : BitVec 32) (k1_hw511 : k1_chk511 v5613), ∀ a, (k1_off766 v5613) a + S1x64.size a ≤ S50000x64.size a := fun v5613 k1_hw511 => k1_hw511

def k1_off767 (v5614 : BitVec 32) : Fin 2 → Nat :=
  let v5618 : Index := Scalar.indexCast v5614
  let c0_1787 : Index := 0#32
  ![v5618.toNat, 0]

def k1_off768 (v5614 : BitVec 32) : Fin 2 → Nat :=
  let v5626 : Index := Scalar.indexCast v5614
  let c0_1789 : Index := 0#32
  ![v5626.toNat, 0]

def k1_chk512 (v5614 : BitVec 32) : Prop :=
  (∀ a, (k1_off767 v5614) a + S1x64.size a ≤ S16384x64.size a) ∧
  (∀ a, (k1_off768 v5614) a + S1x1.size a ≤ S16384x1.size a)
instance k1_chk512.dec : ∀ (v5614 : BitVec 32), Decidable (k1_chk512 v5614) := fun v5614 => decidable_of_iff' _ (Iff.of_eq (k1_chk512.eq_1 v5614))
theorem k1_off767_inb : ∀ (v5614 : BitVec 32) (k1_hw512 : k1_chk512 v5614), ∀ a, (k1_off767 v5614) a + S1x64.size a ≤ S16384x64.size a := fun v5614 k1_hw512 => k1_hw512.1
theorem k1_off768_inb : ∀ (v5614 : BitVec 32) (k1_hw512 : k1_chk512 v5614), ∀ a, (k1_off768 v5614) a + S1x1.size a ≤ S16384x1.size a := fun v5614 k1_hw512 => k1_hw512.2

def k1_cond2 (i : grid1.Coords) : BitVec 1 :=
  let arg0 : BitVec 32 := BitVec.ofNat 32 (i 0).val
  let c1599_i32 : BitVec 32 := 1599#32
  let v5635 : BitVec 1 := Scalar.cmpi .eq arg0 c1599_i32
  let v5636 : BitVec 32 := Scalar.extui v5635
  let c0_i32_1792 : BitVec 32 := 0#32
  let v5637 : BitVec 1 := Scalar.cmpi .ne v5636 c0_i32_1792
  v5637

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .smem S256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .smem S256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16384x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16384x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2048x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2048x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2048x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2048x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S16384x1_S16384x1_0_0 : ∀ a, (![0, 0] : Fin 2 → Nat) a + S16384x1.size a ≤ S16384x1.size a
  h_S16384x1 : 0 < S16384x1.numel
  shapeCasts_S16384x1_S16384x1 : S16384x1.ShapeCasts S16384x1
  inb_S256_S1_0 : ∀ a, (![0] : Fin 1 → Nat) a + S1.size a ≤ S256.size a
  numel1_S1 : S1.numel = 1
  h_S1x64 : 0 < S1x64.numel
  shapeCasts_S1x64_S64 : S1x64.ShapeCasts S64
  shapeCasts_S64_S1x64 : S64.ShapeCasts S1x64
  h_S1x1 : 0 < S1x1.numel
  shapeCasts_S1x1_S1 : S1x1.ShapeCasts S1
  shapeCasts_S1_S1x1 : S1.ShapeCasts S1x1
  inb_S256_S1_1 : ∀ a, (![1] : Fin 1 → Nat) a + S1.size a ≤ S256.size a
  inb_S256_S1_2 : ∀ a, (![2] : Fin 1 → Nat) a + S1.size a ≤ S256.size a
  inb_S256_S1_3 : ∀ a, (![3] : Fin 1 → Nat) a + S1.size a ≤ S256.size a
  inb_S256_S1_4 : ∀ a, (![4] : Fin 1 → Nat) a + S1.size a ≤ S256.size a
  inb_S256_S1_5 : ∀ a, (![5] : Fin 1 → Nat) a + S1.size a ≤ S256.size a
  inb_S256_S1_6 : ∀ a, (![6] : Fin 1 → Nat) a + S1.size a ≤ S256.size a
  inb_S256_S1_7 : ∀ a, (![7] : Fin 1 → Nat) a + S1.size a ≤ S256.size a
  inb_S256_S1_8 : ∀ a, (![8] : Fin 1 → Nat) a + S1.size a ≤ S256.size a
  inb_S256_S1_9 : ∀ a, (![9] : Fin 1 → Nat) a + S1.size a ≤ S256.size a
  inb_S256_S1_10 : ∀ a, (![10] : Fin 1 → Nat) a + S1.size a ≤ S256.size a
  inb_S256_S1_11 : ∀ a, (![11] : Fin 1 → Nat) a + S1.size a ≤ S256.size a
  inb_S256_S1_12 : ∀ a, (![12] : Fin 1 → Nat) a + S1.size a ≤ S256.size a
  inb_S256_S1_13 : ∀ a, (![13] : Fin 1 → Nat) a + S1.size a ≤ S256.size a
  inb_S256_S1_14 : ∀ a, (![14] : Fin 1 → Nat) a + S1.size a ≤ S256.size a
  inb_S256_S1_15 : ∀ a, (![15] : Fin 1 → Nat) a + S1.size a ≤ S256.size a
  inb_S256_S1_16 : ∀ a, (![16] : Fin 1 → Nat) a + S1.size a ≤ S256.size a
  inb_S256_S1_17 : ∀ a, (![17] : Fin 1 → Nat) a + S1.size a ≤ S256.size a
  inb_S256_S1_18 : ∀ a, (![18] : Fin 1 → Nat) a + S1.size a ≤ S256.size a
  inb_S256_S1_19 : ∀ a, (![19] : Fin 1 → Nat) a + S1.size a ≤ S256.size a
  inb_S256_S1_20 : ∀ a, (![20] : Fin 1 → Nat) a + S1.size a ≤ S256.size a
  inb_S256_S1_21 : ∀ a, (![21] : Fin 1 → Nat) a + S1.size a ≤ S256.size a
  inb_S256_S1_22 : ∀ a, (![22] : Fin 1 → Nat) a + S1.size a ≤ S256.size a
  inb_S256_S1_23 : ∀ a, (![23] : Fin 1 → Nat) a + S1.size a ≤ S256.size a
  inb_S256_S1_24 : ∀ a, (![24] : Fin 1 → Nat) a + S1.size a ≤ S256.size a
  inb_S256_S1_25 : ∀ a, (![25] : Fin 1 → Nat) a + S1.size a ≤ S256.size a
  inb_S256_S1_26 : ∀ a, (![26] : Fin 1 → Nat) a + S1.size a ≤ S256.size a
  inb_S256_S1_27 : ∀ a, (![27] : Fin 1 → Nat) a + S1.size a ≤ S256.size a
  inb_S256_S1_28 : ∀ a, (![28] : Fin 1 → Nat) a + S1.size a ≤ S256.size a
  inb_S256_S1_29 : ∀ a, (![29] : Fin 1 → Nat) a + S1.size a ≤ S256.size a
  inb_S256_S1_30 : ∀ a, (![30] : Fin 1 → Nat) a + S1.size a ≤ S256.size a
  inb_S256_S1_31 : ∀ a, (![31] : Fin 1 → Nat) a + S1.size a ≤ S256.size a
  inb_S256_S1_32 : ∀ a, (![32] : Fin 1 → Nat) a + S1.size a ≤ S256.size a
  inb_S256_S1_33 : ∀ a, (![33] : Fin 1 → Nat) a + S1.size a ≤ S256.size a
  inb_S256_S1_34 : ∀ a, (![34] : Fin 1 → Nat) a + S1.size a ≤ S256.size a
  inb_S256_S1_35 : ∀ a, (![35] : Fin 1 → Nat) a + S1.size a ≤ S256.size a
  inb_S256_S1_36 : ∀ a, (![36] : Fin 1 → Nat) a + S1.size a ≤ S256.size a
  inb_S256_S1_37 : ∀ a, (![37] : Fin 1 → Nat) a + S1.size a ≤ S256.size a
  inb_S256_S1_38 : ∀ a, (![38] : Fin 1 → Nat) a + S1.size a ≤ S256.size a
  inb_S256_S1_39 : ∀ a, (![39] : Fin 1 → Nat) a + S1.size a ≤ S256.size a
  inb_S256_S1_40 : ∀ a, (![40] : Fin 1 → Nat) a + S1.size a ≤ S256.size a
  inb_S256_S1_41 : ∀ a, (![41] : Fin 1 → Nat) a + S1.size a ≤ S256.size a
  inb_S256_S1_42 : ∀ a, (![42] : Fin 1 → Nat) a + S1.size a ≤ S256.size a
  inb_S256_S1_43 : ∀ a, (![43] : Fin 1 → Nat) a + S1.size a ≤ S256.size a
  inb_S256_S1_44 : ∀ a, (![44] : Fin 1 → Nat) a + S1.size a ≤ S256.size a
  inb_S256_S1_45 : ∀ a, (![45] : Fin 1 → Nat) a + S1.size a ≤ S256.size a
  inb_S256_S1_46 : ∀ a, (![46] : Fin 1 → Nat) a + S1.size a ≤ S256.size a
  inb_S256_S1_47 : ∀ a, (![47] : Fin 1 → Nat) a + S1.size a ≤ S256.size a
  inb_S256_S1_48 : ∀ a, (![48] : Fin 1 → Nat) a + S1.size a ≤ S256.size a
  inb_S256_S1_49 : ∀ a, (![49] : Fin 1 → Nat) a + S1.size a ≤ S256.size a
  inb_S256_S1_50 : ∀ a, (![50] : Fin 1 → Nat) a + S1.size a ≤ S256.size a
  inb_S256_S1_51 : ∀ a, (![51] : Fin 1 → Nat) a + S1.size a ≤ S256.size a
  inb_S256_S1_52 : ∀ a, (![52] : Fin 1 → Nat) a + S1.size a ≤ S256.size a
  inb_S256_S1_53 : ∀ a, (![53] : Fin 1 → Nat) a + S1.size a ≤ S256.size a
  inb_S256_S1_54 : ∀ a, (![54] : Fin 1 → Nat) a + S1.size a ≤ S256.size a
  inb_S256_S1_55 : ∀ a, (![55] : Fin 1 → Nat) a + S1.size a ≤ S256.size a
  inb_S256_S1_56 : ∀ a, (![56] : Fin 1 → Nat) a + S1.size a ≤ S256.size a
  inb_S256_S1_57 : ∀ a, (![57] : Fin 1 → Nat) a + S1.size a ≤ S256.size a
  inb_S256_S1_58 : ∀ a, (![58] : Fin 1 → Nat) a + S1.size a ≤ S256.size a
  inb_S256_S1_59 : ∀ a, (![59] : Fin 1 → Nat) a + S1.size a ≤ S256.size a
  inb_S256_S1_60 : ∀ a, (![60] : Fin 1 → Nat) a + S1.size a ≤ S256.size a
  inb_S256_S1_61 : ∀ a, (![61] : Fin 1 → Nat) a + S1.size a ≤ S256.size a
  inb_S256_S1_62 : ∀ a, (![62] : Fin 1 → Nat) a + S1.size a ≤ S256.size a
  inb_S256_S1_63 : ∀ a, (![63] : Fin 1 → Nat) a + S1.size a ≤ S256.size a
  inb_S256_S1_64 : ∀ a, (![64] : Fin 1 → Nat) a + S1.size a ≤ S256.size a
  inb_S256_S1_65 : ∀ a, (![65] : Fin 1 → Nat) a + S1.size a ≤ S256.size a
  inb_S256_S1_66 : ∀ a, (![66] : Fin 1 → Nat) a + S1.size a ≤ S256.size a
  inb_S256_S1_67 : ∀ a, (![67] : Fin 1 → Nat) a + S1.size a ≤ S256.size a
  inb_S256_S1_68 : ∀ a, (![68] : Fin 1 → Nat) a + S1.size a ≤ S256.size a
  inb_S256_S1_69 : ∀ a, (![69] : Fin 1 → Nat) a + S1.size a ≤ S256.size a
  inb_S256_S1_70 : ∀ a, (![70] : Fin 1 → Nat) a + S1.size a ≤ S256.size a
  inb_S256_S1_71 : ∀ a, (![71] : Fin 1 → Nat) a + S1.size a ≤ S256.size a
  inb_S256_S1_72 : ∀ a, (![72] : Fin 1 → Nat) a + S1.size a ≤ S256.size a
  inb_S256_S1_73 : ∀ a, (![73] : Fin 1 → Nat) a + S1.size a ≤ S256.size a
  inb_S256_S1_74 : ∀ a, (![74] : Fin 1 → Nat) a + S1.size a ≤ S256.size a
  inb_S256_S1_75 : ∀ a, (![75] : Fin 1 → Nat) a + S1.size a ≤ S256.size a
  inb_S256_S1_76 : ∀ a, (![76] : Fin 1 → Nat) a + S1.size a ≤ S256.size a
  inb_S256_S1_77 : ∀ a, (![77] : Fin 1 → Nat) a + S1.size a ≤ S256.size a
  inb_S256_S1_78 : ∀ a, (![78] : Fin 1 → Nat) a + S1.size a ≤ S256.size a
  inb_S256_S1_79 : ∀ a, (![79] : Fin 1 → Nat) a + S1.size a ≤ S256.size a
  inb_S256_S1_80 : ∀ a, (![80] : Fin 1 → Nat) a + S1.size a ≤ S256.size a
  inb_S256_S1_81 : ∀ a, (![81] : Fin 1 → Nat) a + S1.size a ≤ S256.size a
  inb_S256_S1_82 : ∀ a, (![82] : Fin 1 → Nat) a + S1.size a ≤ S256.size a
  inb_S256_S1_83 : ∀ a, (![83] : Fin 1 → Nat) a + S1.size a ≤ S256.size a
  inb_S256_S1_84 : ∀ a, (![84] : Fin 1 → Nat) a + S1.size a ≤ S256.size a
  inb_S256_S1_85 : ∀ a, (![85] : Fin 1 → Nat) a + S1.size a ≤ S256.size a
  inb_S256_S1_86 : ∀ a, (![86] : Fin 1 → Nat) a + S1.size a ≤ S256.size a
  inb_S256_S1_87 : ∀ a, (![87] : Fin 1 → Nat) a + S1.size a ≤ S256.size a
  inb_S256_S1_88 : ∀ a, (![88] : Fin 1 → Nat) a + S1.size a ≤ S256.size a
  inb_S256_S1_89 : ∀ a, (![89] : Fin 1 → Nat) a + S1.size a ≤ S256.size a
  inb_S256_S1_90 : ∀ a, (![90] : Fin 1 → Nat) a + S1.size a ≤ S256.size a
  inb_S256_S1_91 : ∀ a, (![91] : Fin 1 → Nat) a + S1.size a ≤ S256.size a
  inb_S256_S1_92 : ∀ a, (![92] : Fin 1 → Nat) a + S1.size a ≤ S256.size a
  inb_S256_S1_93 : ∀ a, (![93] : Fin 1 → Nat) a + S1.size a ≤ S256.size a
  inb_S256_S1_94 : ∀ a, (![94] : Fin 1 → Nat) a + S1.size a ≤ S256.size a
  inb_S256_S1_95 : ∀ a, (![95] : Fin 1 → Nat) a + S1.size a ≤ S256.size a
  inb_S256_S1_96 : ∀ a, (![96] : Fin 1 → Nat) a + S1.size a ≤ S256.size a
  inb_S256_S1_97 : ∀ a, (![97] : Fin 1 → Nat) a + S1.size a ≤ S256.size a
  inb_S256_S1_98 : ∀ a, (![98] : Fin 1 → Nat) a + S1.size a ≤ S256.size a
  inb_S256_S1_99 : ∀ a, (![99] : Fin 1 → Nat) a + S1.size a ≤ S256.size a
  inb_S256_S1_100 : ∀ a, (![100] : Fin 1 → Nat) a + S1.size a ≤ S256.size a
  inb_S256_S1_101 : ∀ a, (![101] : Fin 1 → Nat) a + S1.size a ≤ S256.size a
  inb_S256_S1_102 : ∀ a, (![102] : Fin 1 → Nat) a + S1.size a ≤ S256.size a
  inb_S256_S1_103 : ∀ a, (![103] : Fin 1 → Nat) a + S1.size a ≤ S256.size a
  inb_S256_S1_104 : ∀ a, (![104] : Fin 1 → Nat) a + S1.size a ≤ S256.size a
  inb_S256_S1_105 : ∀ a, (![105] : Fin 1 → Nat) a + S1.size a ≤ S256.size a
  inb_S256_S1_106 : ∀ a, (![106] : Fin 1 → Nat) a + S1.size a ≤ S256.size a
  inb_S256_S1_107 : ∀ a, (![107] : Fin 1 → Nat) a + S1.size a ≤ S256.size a
  inb_S256_S1_108 : ∀ a, (![108] : Fin 1 → Nat) a + S1.size a ≤ S256.size a
  inb_S256_S1_109 : ∀ a, (![109] : Fin 1 → Nat) a + S1.size a ≤ S256.size a
  inb_S256_S1_110 : ∀ a, (![110] : Fin 1 → Nat) a + S1.size a ≤ S256.size a
  inb_S256_S1_111 : ∀ a, (![111] : Fin 1 → Nat) a + S1.size a ≤ S256.size a
  inb_S256_S1_112 : ∀ a, (![112] : Fin 1 → Nat) a + S1.size a ≤ S256.size a
  inb_S256_S1_113 : ∀ a, (![113] : Fin 1 → Nat) a + S1.size a ≤ S256.size a
  inb_S256_S1_114 : ∀ a, (![114] : Fin 1 → Nat) a + S1.size a ≤ S256.size a
  inb_S256_S1_115 : ∀ a, (![115] : Fin 1 → Nat) a + S1.size a ≤ S256.size a
  inb_S256_S1_116 : ∀ a, (![116] : Fin 1 → Nat) a + S1.size a ≤ S256.size a
  inb_S256_S1_117 : ∀ a, (![117] : Fin 1 → Nat) a + S1.size a ≤ S256.size a
  inb_S256_S1_118 : ∀ a, (![118] : Fin 1 → Nat) a + S1.size a ≤ S256.size a
  inb_S256_S1_119 : ∀ a, (![119] : Fin 1 → Nat) a + S1.size a ≤ S256.size a
  inb_S256_S1_120 : ∀ a, (![120] : Fin 1 → Nat) a + S1.size a ≤ S256.size a
  inb_S256_S1_121 : ∀ a, (![121] : Fin 1 → Nat) a + S1.size a ≤ S256.size a
  inb_S256_S1_122 : ∀ a, (![122] : Fin 1 → Nat) a + S1.size a ≤ S256.size a
  inb_S256_S1_123 : ∀ a, (![123] : Fin 1 → Nat) a + S1.size a ≤ S256.size a
  inb_S256_S1_124 : ∀ a, (![124] : Fin 1 → Nat) a + S1.size a ≤ S256.size a
  inb_S256_S1_125 : ∀ a, (![125] : Fin 1 → Nat) a + S1.size a ≤ S256.size a
  inb_S256_S1_126 : ∀ a, (![126] : Fin 1 → Nat) a + S1.size a ≤ S256.size a
  inb_S256_S1_127 : ∀ a, (![127] : Fin 1 → Nat) a + S1.size a ≤ S256.size a
  inb_S256_S1_128 : ∀ a, (![128] : Fin 1 → Nat) a + S1.size a ≤ S256.size a
  inb_S256_S1_129 : ∀ a, (![129] : Fin 1 → Nat) a + S1.size a ≤ S256.size a
  inb_S256_S1_130 : ∀ a, (![130] : Fin 1 → Nat) a + S1.size a ≤ S256.size a
  inb_S256_S1_131 : ∀ a, (![131] : Fin 1 → Nat) a + S1.size a ≤ S256.size a
  inb_S256_S1_132 : ∀ a, (![132] : Fin 1 → Nat) a + S1.size a ≤ S256.size a
  inb_S256_S1_133 : ∀ a, (![133] : Fin 1 → Nat) a + S1.size a ≤ S256.size a
  inb_S256_S1_134 : ∀ a, (![134] : Fin 1 → Nat) a + S1.size a ≤ S256.size a
  inb_S256_S1_135 : ∀ a, (![135] : Fin 1 → Nat) a + S1.size a ≤ S256.size a
  inb_S256_S1_136 : ∀ a, (![136] : Fin 1 → Nat) a + S1.size a ≤ S256.size a
  inb_S256_S1_137 : ∀ a, (![137] : Fin 1 → Nat) a + S1.size a ≤ S256.size a
  inb_S256_S1_138 : ∀ a, (![138] : Fin 1 → Nat) a + S1.size a ≤ S256.size a
  inb_S256_S1_139 : ∀ a, (![139] : Fin 1 → Nat) a + S1.size a ≤ S256.size a
  inb_S256_S1_140 : ∀ a, (![140] : Fin 1 → Nat) a + S1.size a ≤ S256.size a
  inb_S256_S1_141 : ∀ a, (![141] : Fin 1 → Nat) a + S1.size a ≤ S256.size a
  inb_S256_S1_142 : ∀ a, (![142] : Fin 1 → Nat) a + S1.size a ≤ S256.size a
  inb_S256_S1_143 : ∀ a, (![143] : Fin 1 → Nat) a + S1.size a ≤ S256.size a
  inb_S256_S1_144 : ∀ a, (![144] : Fin 1 → Nat) a + S1.size a ≤ S256.size a
  inb_S256_S1_145 : ∀ a, (![145] : Fin 1 → Nat) a + S1.size a ≤ S256.size a
  inb_S256_S1_146 : ∀ a, (![146] : Fin 1 → Nat) a + S1.size a ≤ S256.size a
  inb_S256_S1_147 : ∀ a, (![147] : Fin 1 → Nat) a + S1.size a ≤ S256.size a
  inb_S256_S1_148 : ∀ a, (![148] : Fin 1 → Nat) a + S1.size a ≤ S256.size a
  inb_S256_S1_149 : ∀ a, (![149] : Fin 1 → Nat) a + S1.size a ≤ S256.size a
  inb_S256_S1_150 : ∀ a, (![150] : Fin 1 → Nat) a + S1.size a ≤ S256.size a
  inb_S256_S1_151 : ∀ a, (![151] : Fin 1 → Nat) a + S1.size a ≤ S256.size a
  inb_S256_S1_152 : ∀ a, (![152] : Fin 1 → Nat) a + S1.size a ≤ S256.size a
  inb_S256_S1_153 : ∀ a, (![153] : Fin 1 → Nat) a + S1.size a ≤ S256.size a
  inb_S256_S1_154 : ∀ a, (![154] : Fin 1 → Nat) a + S1.size a ≤ S256.size a
  inb_S256_S1_155 : ∀ a, (![155] : Fin 1 → Nat) a + S1.size a ≤ S256.size a
  inb_S256_S1_156 : ∀ a, (![156] : Fin 1 → Nat) a + S1.size a ≤ S256.size a
  inb_S256_S1_157 : ∀ a, (![157] : Fin 1 → Nat) a + S1.size a ≤ S256.size a
  inb_S256_S1_158 : ∀ a, (![158] : Fin 1 → Nat) a + S1.size a ≤ S256.size a
  inb_S256_S1_159 : ∀ a, (![159] : Fin 1 → Nat) a + S1.size a ≤ S256.size a
  inb_S256_S1_160 : ∀ a, (![160] : Fin 1 → Nat) a + S1.size a ≤ S256.size a
  inb_S256_S1_161 : ∀ a, (![161] : Fin 1 → Nat) a + S1.size a ≤ S256.size a
  inb_S256_S1_162 : ∀ a, (![162] : Fin 1 → Nat) a + S1.size a ≤ S256.size a
  inb_S256_S1_163 : ∀ a, (![163] : Fin 1 → Nat) a + S1.size a ≤ S256.size a
  inb_S256_S1_164 : ∀ a, (![164] : Fin 1 → Nat) a + S1.size a ≤ S256.size a
  inb_S256_S1_165 : ∀ a, (![165] : Fin 1 → Nat) a + S1.size a ≤ S256.size a
  inb_S256_S1_166 : ∀ a, (![166] : Fin 1 → Nat) a + S1.size a ≤ S256.size a
  inb_S256_S1_167 : ∀ a, (![167] : Fin 1 → Nat) a + S1.size a ≤ S256.size a
  inb_S256_S1_168 : ∀ a, (![168] : Fin 1 → Nat) a + S1.size a ≤ S256.size a
  inb_S256_S1_169 : ∀ a, (![169] : Fin 1 → Nat) a + S1.size a ≤ S256.size a
  inb_S256_S1_170 : ∀ a, (![170] : Fin 1 → Nat) a + S1.size a ≤ S256.size a
  inb_S256_S1_171 : ∀ a, (![171] : Fin 1 → Nat) a + S1.size a ≤ S256.size a
  inb_S256_S1_172 : ∀ a, (![172] : Fin 1 → Nat) a + S1.size a ≤ S256.size a
  inb_S256_S1_173 : ∀ a, (![173] : Fin 1 → Nat) a + S1.size a ≤ S256.size a
  inb_S256_S1_174 : ∀ a, (![174] : Fin 1 → Nat) a + S1.size a ≤ S256.size a
  inb_S256_S1_175 : ∀ a, (![175] : Fin 1 → Nat) a + S1.size a ≤ S256.size a
  inb_S256_S1_176 : ∀ a, (![176] : Fin 1 → Nat) a + S1.size a ≤ S256.size a
  inb_S256_S1_177 : ∀ a, (![177] : Fin 1 → Nat) a + S1.size a ≤ S256.size a
  inb_S256_S1_178 : ∀ a, (![178] : Fin 1 → Nat) a + S1.size a ≤ S256.size a
  inb_S256_S1_179 : ∀ a, (![179] : Fin 1 → Nat) a + S1.size a ≤ S256.size a
  inb_S256_S1_180 : ∀ a, (![180] : Fin 1 → Nat) a + S1.size a ≤ S256.size a
  inb_S256_S1_181 : ∀ a, (![181] : Fin 1 → Nat) a + S1.size a ≤ S256.size a
  inb_S256_S1_182 : ∀ a, (![182] : Fin 1 → Nat) a + S1.size a ≤ S256.size a
  inb_S256_S1_183 : ∀ a, (![183] : Fin 1 → Nat) a + S1.size a ≤ S256.size a
  inb_S256_S1_184 : ∀ a, (![184] : Fin 1 → Nat) a + S1.size a ≤ S256.size a
  inb_S256_S1_185 : ∀ a, (![185] : Fin 1 → Nat) a + S1.size a ≤ S256.size a
  inb_S256_S1_186 : ∀ a, (![186] : Fin 1 → Nat) a + S1.size a ≤ S256.size a
  inb_S256_S1_187 : ∀ a, (![187] : Fin 1 → Nat) a + S1.size a ≤ S256.size a
  inb_S256_S1_188 : ∀ a, (![188] : Fin 1 → Nat) a + S1.size a ≤ S256.size a
  inb_S256_S1_189 : ∀ a, (![189] : Fin 1 → Nat) a + S1.size a ≤ S256.size a
  inb_S256_S1_190 : ∀ a, (![190] : Fin 1 → Nat) a + S1.size a ≤ S256.size a
  inb_S256_S1_191 : ∀ a, (![191] : Fin 1 → Nat) a + S1.size a ≤ S256.size a
  inb_S256_S1_192 : ∀ a, (![192] : Fin 1 → Nat) a + S1.size a ≤ S256.size a
  inb_S256_S1_193 : ∀ a, (![193] : Fin 1 → Nat) a + S1.size a ≤ S256.size a
  inb_S256_S1_194 : ∀ a, (![194] : Fin 1 → Nat) a + S1.size a ≤ S256.size a
  inb_S256_S1_195 : ∀ a, (![195] : Fin 1 → Nat) a + S1.size a ≤ S256.size a
  inb_S256_S1_196 : ∀ a, (![196] : Fin 1 → Nat) a + S1.size a ≤ S256.size a
  inb_S256_S1_197 : ∀ a, (![197] : Fin 1 → Nat) a + S1.size a ≤ S256.size a
  inb_S256_S1_198 : ∀ a, (![198] : Fin 1 → Nat) a + S1.size a ≤ S256.size a
  inb_S256_S1_199 : ∀ a, (![199] : Fin 1 → Nat) a + S1.size a ≤ S256.size a
  inb_S256_S1_200 : ∀ a, (![200] : Fin 1 → Nat) a + S1.size a ≤ S256.size a
  inb_S256_S1_201 : ∀ a, (![201] : Fin 1 → Nat) a + S1.size a ≤ S256.size a
  inb_S256_S1_202 : ∀ a, (![202] : Fin 1 → Nat) a + S1.size a ≤ S256.size a
  inb_S256_S1_203 : ∀ a, (![203] : Fin 1 → Nat) a + S1.size a ≤ S256.size a
  inb_S256_S1_204 : ∀ a, (![204] : Fin 1 → Nat) a + S1.size a ≤ S256.size a
  inb_S256_S1_205 : ∀ a, (![205] : Fin 1 → Nat) a + S1.size a ≤ S256.size a
  inb_S256_S1_206 : ∀ a, (![206] : Fin 1 → Nat) a + S1.size a ≤ S256.size a
  inb_S256_S1_207 : ∀ a, (![207] : Fin 1 → Nat) a + S1.size a ≤ S256.size a
  inb_S256_S1_208 : ∀ a, (![208] : Fin 1 → Nat) a + S1.size a ≤ S256.size a
  inb_S256_S1_209 : ∀ a, (![209] : Fin 1 → Nat) a + S1.size a ≤ S256.size a
  inb_S256_S1_210 : ∀ a, (![210] : Fin 1 → Nat) a + S1.size a ≤ S256.size a
  inb_S256_S1_211 : ∀ a, (![211] : Fin 1 → Nat) a + S1.size a ≤ S256.size a
  inb_S256_S1_212 : ∀ a, (![212] : Fin 1 → Nat) a + S1.size a ≤ S256.size a
  inb_S256_S1_213 : ∀ a, (![213] : Fin 1 → Nat) a + S1.size a ≤ S256.size a
  inb_S256_S1_214 : ∀ a, (![214] : Fin 1 → Nat) a + S1.size a ≤ S256.size a
  inb_S256_S1_215 : ∀ a, (![215] : Fin 1 → Nat) a + S1.size a ≤ S256.size a
  inb_S256_S1_216 : ∀ a, (![216] : Fin 1 → Nat) a + S1.size a ≤ S256.size a
  inb_S256_S1_217 : ∀ a, (![217] : Fin 1 → Nat) a + S1.size a ≤ S256.size a
  inb_S256_S1_218 : ∀ a, (![218] : Fin 1 → Nat) a + S1.size a ≤ S256.size a
  inb_S256_S1_219 : ∀ a, (![219] : Fin 1 → Nat) a + S1.size a ≤ S256.size a
  inb_S256_S1_220 : ∀ a, (![220] : Fin 1 → Nat) a + S1.size a ≤ S256.size a
  inb_S256_S1_221 : ∀ a, (![221] : Fin 1 → Nat) a + S1.size a ≤ S256.size a
  inb_S256_S1_222 : ∀ a, (![222] : Fin 1 → Nat) a + S1.size a ≤ S256.size a
  inb_S256_S1_223 : ∀ a, (![223] : Fin 1 → Nat) a + S1.size a ≤ S256.size a
  inb_S256_S1_224 : ∀ a, (![224] : Fin 1 → Nat) a + S1.size a ≤ S256.size a
  inb_S256_S1_225 : ∀ a, (![225] : Fin 1 → Nat) a + S1.size a ≤ S256.size a
  inb_S256_S1_226 : ∀ a, (![226] : Fin 1 → Nat) a + S1.size a ≤ S256.size a
  inb_S256_S1_227 : ∀ a, (![227] : Fin 1 → Nat) a + S1.size a ≤ S256.size a
  inb_S256_S1_228 : ∀ a, (![228] : Fin 1 → Nat) a + S1.size a ≤ S256.size a
  inb_S256_S1_229 : ∀ a, (![229] : Fin 1 → Nat) a + S1.size a ≤ S256.size a
  inb_S256_S1_230 : ∀ a, (![230] : Fin 1 → Nat) a + S1.size a ≤ S256.size a
  inb_S256_S1_231 : ∀ a, (![231] : Fin 1 → Nat) a + S1.size a ≤ S256.size a
  inb_S256_S1_232 : ∀ a, (![232] : Fin 1 → Nat) a + S1.size a ≤ S256.size a
  inb_S256_S1_233 : ∀ a, (![233] : Fin 1 → Nat) a + S1.size a ≤ S256.size a
  inb_S256_S1_234 : ∀ a, (![234] : Fin 1 → Nat) a + S1.size a ≤ S256.size a
  inb_S256_S1_235 : ∀ a, (![235] : Fin 1 → Nat) a + S1.size a ≤ S256.size a
  inb_S256_S1_236 : ∀ a, (![236] : Fin 1 → Nat) a + S1.size a ≤ S256.size a
  inb_S256_S1_237 : ∀ a, (![237] : Fin 1 → Nat) a + S1.size a ≤ S256.size a
  inb_S256_S1_238 : ∀ a, (![238] : Fin 1 → Nat) a + S1.size a ≤ S256.size a
  inb_S256_S1_239 : ∀ a, (![239] : Fin 1 → Nat) a + S1.size a ≤ S256.size a
  inb_S256_S1_240 : ∀ a, (![240] : Fin 1 → Nat) a + S1.size a ≤ S256.size a
  inb_S256_S1_241 : ∀ a, (![241] : Fin 1 → Nat) a + S1.size a ≤ S256.size a
  inb_S256_S1_242 : ∀ a, (![242] : Fin 1 → Nat) a + S1.size a ≤ S256.size a
  inb_S256_S1_243 : ∀ a, (![243] : Fin 1 → Nat) a + S1.size a ≤ S256.size a
  inb_S256_S1_244 : ∀ a, (![244] : Fin 1 → Nat) a + S1.size a ≤ S256.size a
  inb_S256_S1_245 : ∀ a, (![245] : Fin 1 → Nat) a + S1.size a ≤ S256.size a
  inb_S256_S1_246 : ∀ a, (![246] : Fin 1 → Nat) a + S1.size a ≤ S256.size a
  inb_S256_S1_247 : ∀ a, (![247] : Fin 1 → Nat) a + S1.size a ≤ S256.size a
  inb_S256_S1_248 : ∀ a, (![248] : Fin 1 → Nat) a + S1.size a ≤ S256.size a
  inb_S256_S1_249 : ∀ a, (![249] : Fin 1 → Nat) a + S1.size a ≤ S256.size a
  inb_S256_S1_250 : ∀ a, (![250] : Fin 1 → Nat) a + S1.size a ≤ S256.size a
  inb_S256_S1_251 : ∀ a, (![251] : Fin 1 → Nat) a + S1.size a ≤ S256.size a
  inb_S256_S1_252 : ∀ a, (![252] : Fin 1 → Nat) a + S1.size a ≤ S256.size a
  inb_S256_S1_253 : ∀ a, (![253] : Fin 1 → Nat) a + S1.size a ≤ S256.size a
  inb_S256_S1_254 : ∀ a, (![254] : Fin 1 → Nat) a + S1.size a ≤ S256.size a
  inb_S256_S1_255 : ∀ a, (![255] : Fin 1 → Nat) a + S1.size a ≤ S256.size a
  bcast_S_S16384 : S_.BroadcastsInDim S16384 (![] : Fin 0 → Fin S16384.rank)
  bcast_S16384_S16384x1_0 : S16384.BroadcastsInDim S16384x1 (![0] : Fin 1 → Fin S16384x1.rank)
  shapeCasts_S16384_S16384x1 : S16384.ShapeCasts S16384x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S2048x1_S2048x64 : S2048x1.Broadcasts S2048x64
  reduces_S2048x64_S2048 : S2048x64.Reduces [1] S2048
  shapeCasts_S2048_S2048x1 : S2048.ShapeCasts S2048x1
  shapeCasts_S16384x1_S16384 : S16384x1.ShapeCasts S16384
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]
  gather_S100000_S16384x1_S16384_n_0_n_n_0_1_1_wf : GatherDims.WF S100000 S16384x1 S16384 [] [0] [] [0] [] 1 ![1]
  gather_S50000_S16384x1_S16384_n_0_n_n_0_1_1_wf : GatherDims.WF S50000 S16384x1 S16384 [] [0] [] [0] [] 1 ![1]
  hcc0_scratch3 : 6 + S_.numel ≤ 32
  hcc1_scratch3 : 13 + S_.numel ≤ 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256.size a ≤ S819200.size a
  hwx0_0 : ∀ i : grid0.Coords, EltTy.bits .i32 = 32 ∨ (Rect.block (s := S819200) S256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S819200.size a
  hwx0_1 : ∀ i : grid0.Coords, EltTy.bits .i32 = 32 ∨ (Rect.block (s := S819200) S256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S16384x64.size a ≤ S16384x64.size a
  hwx0_2 : ∀ i : grid0.Coords, EltTy.bits .f32 = 32 ∨ (Rect.block (s := S16384x64) S16384x64.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S16384x1.size a ≤ S16384x1.size a
  hwx0_3 : ∀ i : grid0.Coords, EltTy.bits .f32 = 32 ∨ (Rect.block (s := S16384x1) S16384x1.size (cc0_transform_4 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256.size a ≤ S409600.size a
  hwx1_0 : ∀ i : grid1.Coords, EltTy.bits .i32 = 32 ∨ (Rect.block (s := S409600) S256.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S409600.size a
  hwx1_1 : ∀ i : grid1.Coords, EltTy.bits .i32 = 32 ∨ (Rect.block (s := S409600) S256.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_3 i = cc1_transform_3 i'
  hinb1_2 : ∀ (i : grid1.Coords) a, (cc1_transform_3 i a + 1) * S16384x64.size a ≤ S16384x64.size a
  hwx1_2 : ∀ i : grid1.Coords, EltTy.bits .f32 = 32 ∨ (Rect.block (s := S16384x64) S16384x64.size (cc1_transform_3 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_4 i = cc1_transform_4 i'
  hinb1_3 : ∀ (i : grid1.Coords) a, (cc1_transform_4 i a + 1) * S16384x1.size a ≤ S16384x1.size a
  hwx1_3 : ∀ i : grid1.Coords, EltTy.bits .f32 = 32 ∨ (Rect.block (s := S16384x1) S16384x1.size (cc1_transform_4 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S16384x64.size a
  hwx2_0 : ∀ i : grid2.Coords, EltTy.bits .f32 = 32 ∨ (Rect.block (s := S16384x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S16384x1.size a
  hwx2_1 : ∀ i : grid2.Coords, EltTy.bits .f32 = 32 ∨ (Rect.block (s := S16384x1) S2048x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S16384x64.size a
  hwx2_2 : ∀ i : grid2.Coords, EltTy.bits .f32 = 32 ∨ (Rect.block (s := S16384x64) S2048x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S16384x1.size a
  hwx2_3 : ∀ i : grid2.Coords, EltTy.bits .f32 = 32 ∨ (Rect.block (s := S16384x1) S2048x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x64.size a ≤ S16384x64.size a
  hwx2_4 : ∀ i : grid2.Coords, EltTy.bits .f32 = 32 ∨ (Rect.block (s := S16384x64) S2048x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x64.size a ≤ S16384x64.size a
  hwx2_5 : ∀ i : grid2.Coords, EltTy.bits .f32 = 32 ∨ (Rect.block (s := S16384x64) S2048x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x1.size a ≤ S16384x1.size a
  hwx2_6 : ∀ i : grid2.Coords, EltTy.bits .f32 = 32 ∨ (Rect.block (s := S16384x1) S2048x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x1.size a ≤ S16384x1.size a
  hwx2_7 : ∀ i : grid2.Coords, EltTy.bits .f32 = 32 ∨ (Rect.block (s := S16384x1) S2048x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048x1.size a ≤ S16384x1.size a
  hwx2_8 : ∀ i : grid2.Coords, EltTy.bits .f32 = 32 ∨ (Rect.block (s := S16384x1) S2048x1.size (cc2_transform_8 i) (hinb2_8 i)).WholeWords (EltTy.packing .f32)

variable [Facts₀]

abbrev cc0_scratch3 : DmaSems sig S_ := SemArray.consecutive 6 S_ hcc0_scratch3
abbrev cc1_scratch3 : DmaSems sig S_ := SemArray.consecutive 13 S_ hcc1_scratch3
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf
def gather_S100000_S16384x1_S16384_n_0_n_n_0_1_1 : GatherDims S100000 S16384x1 S16384 where
  offsetDims := []
  collapsedSliceDims := [0]
  operandBatchingDims := []
  startIndicesBatchingDims := []
  startIndexMap := [0]
  indexVectorDim := 1
  sliceSizes := ![1]
  wf := gather_S100000_S16384x1_S16384_n_0_n_n_0_1_1_wf
def gather_S50000_S16384x1_S16384_n_0_n_n_0_1_1 : GatherDims S50000 S16384x1 S16384 where
  offsetDims := []
  collapsedSliceDims := [0]
  operandBatchingDims := []
  startIndicesBatchingDims := []
  startIndexMap := [0]
  indexVectorDim := 1
  sliceSizes := ![1]
  wf := gather_S50000_S16384x1_S16384_n_0_n_n_0_1_1_wf

abbrev win0_0 : Pipeline.Window sig grid0 :=
  Pipeline.Window.ofSpec (Memref.whole main_arg2) S256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S16384x64.size cc0_transform_3 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S16384x1.size cc0_transform_4 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg4) S256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S16384x64.size cc1_transform_3 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S16384x1.size cc1_transform_4 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v0_0) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_0) S2048x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1_1) S2048x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S2048x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v15) S2048x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v23) S2048x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v31) S2048x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v32) S2048x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S16384 : Shape := ⟨1, ![16384]⟩
abbrev S819200 : Shape := ⟨1, ![819200]⟩
abbrev S409600 : Shape := ⟨1, ![409600]⟩
abbrev S100000x64 : Shape := ⟨2, ![100000, 64]⟩
abbrev S50000x64 : Shape := ⟨2, ![50000, 64]⟩
abbrev S100000 : Shape := ⟨1, ![100000]⟩
abbrev S50000 : Shape := ⟨1, ![50000]⟩
abbrev S_ : Shape := ⟨0, ![]⟩
abbrev S16384x1 : Shape := ⟨2, ![16384, 1]⟩
abbrev S16384x64 : Shape := ⟨2, ![16384, 64]⟩
abbrev S819200x1 : Shape := ⟨2, ![819200, 1]⟩
abbrev S819200x64 : Shape := ⟨2, ![819200, 64]⟩
abbrev S409600x1 : Shape := ⟨2, ![409600, 1]⟩
abbrev S409600x64 : Shape := ⟨2, ![409600, 64]⟩

abbrev nBuf : Space → Nat
  | .hbm => 124
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S819200, .i32⟩
  | .hbm, ⟨3, _⟩ => ⟨S819200, .i32⟩
  | .hbm, ⟨4, _⟩ => ⟨S409600, .i32⟩
  | .hbm, ⟨5, _⟩ => ⟨S409600, .i32⟩
  | .hbm, ⟨6, _⟩ => ⟨S100000x64, .f32⟩
  | .hbm, ⟨7, _⟩ => ⟨S50000x64, .f32⟩
  | .hbm, ⟨8, _⟩ => ⟨S100000, .f32⟩
  | .hbm, ⟨9, _⟩ => ⟨S50000, .f32⟩
  | .hbm, ⟨10, _⟩ => ⟨S50000x64, .f32⟩
  | .hbm, ⟨11, _⟩ => ⟨S50000x64, .f32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384x64, .f32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S16384x64, .f32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S16384, .f32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S16384x1, .i32⟩
  | .hbm, ⟨47, _⟩ => ⟨S16384, .f32⟩
  | .hbm, ⟨48, _⟩ => ⟨S_, .i32⟩
  | .hbm, ⟨49, _⟩ => ⟨S819200, .i32⟩
  | .hbm, ⟨50, _⟩ => ⟨S819200, .i1⟩
  | .hbm, ⟨51, _⟩ => ⟨S_, .i32⟩
  | .hbm, ⟨52, _⟩ => ⟨S819200, .i32⟩
  | .hbm, ⟨53, _⟩ => ⟨S819200, .i32⟩
  | .hbm, ⟨54, _⟩ => ⟨S819200, .i32⟩
  | .hbm, ⟨55, _⟩ => ⟨S819200x1, .i32⟩
  | .hbm, ⟨56, _⟩ => ⟨S819200x64, .f32⟩
  | .hbm, ⟨57, _⟩ => ⟨S_, .f32⟩
  | .hbm, ⟨58, _⟩ => ⟨S16384x64, .f32⟩
  | .hbm, ⟨59, _⟩ => ⟨S819200x1, .i32⟩
  | .hbm, ⟨60, _⟩ => ⟨S16384x64, .f32⟩
  | .hbm, ⟨61, _⟩ => ⟨S_, .f32⟩
  | .hbm, ⟨62, _⟩ => ⟨S819200, .f32⟩
  | .hbm, ⟨63, _⟩ => ⟨S_, .f32⟩
  | .hbm, ⟨64, _⟩ => ⟨S16384, .f32⟩
  | .hbm, ⟨65, _⟩ => ⟨S819200x1, .i32⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S16384, .i1⟩
  | .hbm, ⟨70, _⟩ => ⟨S_, .f32⟩
  | .hbm, ⟨71, _⟩ => ⟨S16384, .f32⟩
  | .hbm, ⟨72, _⟩ => ⟨S16384, .f32⟩
  | .hbm, ⟨73, _⟩ => ⟨S16384, .f32⟩
  | .hbm, ⟨74, _⟩ => ⟨S_, .f32⟩
  | .hbm, ⟨75, _⟩ => ⟨S_, .f32⟩
  | .hbm, ⟨76, _⟩ => ⟨S16384, .f32⟩
  | .hbm, ⟨77, _⟩ => ⟨S16384, .f32⟩
  | .hbm, ⟨78, _⟩ => ⟨S16384x1, .f32⟩
  | .hbm, ⟨79, _⟩ => ⟨S16384x64, .f32⟩
  | .hbm, ⟨80, _⟩ => ⟨S16384x64, .f32⟩
  | .hbm, ⟨81, _⟩ => ⟨S_, .i32⟩
  | .hbm, ⟨82, _⟩ => ⟨S409600, .i32⟩
  | .hbm, ⟨83, _⟩ => ⟨S409600, .i1⟩
  | .hbm, ⟨84, _⟩ => ⟨S_, .i32⟩
  | .hbm, ⟨85, _⟩ => ⟨S409600, .i32⟩
  | .hbm, ⟨86, _⟩ => ⟨S409600, .i32⟩
  | .hbm, ⟨87, _⟩ => ⟨S409600, .i32⟩
  | .hbm, ⟨88, _⟩ => ⟨S409600x1, .i32⟩
  | .hbm, ⟨89, _⟩ => ⟨S409600x64, .f32⟩
  | .hbm, ⟨90, _⟩ => ⟨S_, .f32⟩
  | .hbm, ⟨91, _⟩ => ⟨S16384x64, .f32⟩
  | .hbm, ⟨92, _⟩ => ⟨S409600x1, .i32⟩
  | .hbm, ⟨93, _⟩ => ⟨S16384x64, .f32⟩
  | .hbm, ⟨94, _⟩ => ⟨S_, .f32⟩
  | .hbm, ⟨95, _⟩ => ⟨S409600, .f32⟩
  | .hbm, ⟨96, _⟩ => ⟨S_, .f32⟩
  | .hbm, ⟨97, _⟩ => ⟨S16384, .f32⟩
  | .hbm, ⟨98, _⟩ => ⟨S409600x1, .i32⟩
  | .hbm, ⟨99, _⟩ => ⟨S16384, .f32⟩
  | .hbm, ⟨100, _⟩ => ⟨S_, .f32⟩
  | .hbm, ⟨101, _⟩ => ⟨S16384, .f32⟩
  | .hbm, ⟨102, _⟩ => ⟨S16384, .i1⟩
  | .hbm, ⟨103, _⟩ => ⟨S_, .f32⟩
  | .hbm, ⟨104, _⟩ => ⟨S16384, .f32⟩
  | .hbm, ⟨105, _⟩ => ⟨S16384, .f32⟩
  | .hbm, ⟨106, _⟩ => ⟨S16384, .f32⟩
  | .hbm, ⟨107, _⟩ => ⟨S_, .f32⟩
  | .hbm, ⟨108, _⟩ => ⟨S_, .f32⟩
  | .hbm, ⟨109, _⟩ => ⟨S16384, .f32⟩
  | .hbm, ⟨110, _⟩ => ⟨S16384, .f32⟩
  | .hbm, ⟨111, _⟩ => ⟨S16384x1, .f32⟩
  | .hbm, ⟨112, _⟩ => ⟨S16384x64, .f32⟩
  | .hbm, ⟨113, _⟩ => ⟨S16384x64, .f32⟩
  | .hbm, ⟨114, _⟩ => ⟨S16384x64, .f32⟩
  | .hbm, ⟨115, _⟩ => ⟨S16384x64, .f32⟩
  | .hbm, ⟨116, _⟩ => ⟨S16384x64, .f32⟩
  | .hbm, ⟨117, _⟩ => ⟨S_, .f32⟩
  | .hbm, ⟨118, _⟩ => ⟨S16384, .f32⟩
  | .hbm, ⟨119, _⟩ => ⟨S16384, .f32⟩
  | .hbm, ⟨120, _⟩ => ⟨S16384, .f32⟩
  | .hbm, ⟨121, _⟩ => ⟨S_, .f32⟩
  | .hbm, ⟨122, _⟩ => ⟨S16384, .f32⟩
  | .hbm, ⟨123, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_cst_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_11 : Ref sig .tc := ⟨.hbm, 67, rfl⟩
abbrev main_v42 : Ref sig .tc := ⟨.hbm, 68, rfl⟩
abbrev main_v43 : Ref sig .tc := ⟨.hbm, 69, rfl⟩
abbrev main_cst_12 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_13 : Ref sig .tc := ⟨.hbm, 74, rfl⟩
abbrev main_call0_v0 : Ref sig .tc := ⟨.hbm, 75, rfl⟩
abbrev main_call0_v1 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_14 : Ref sig .tc := ⟨.hbm, 81, rfl⟩
abbrev main_v51 : Ref sig .tc := ⟨.hbm, 82, rfl⟩
abbrev main_v52 : Ref sig .tc := ⟨.hbm, 83, rfl⟩
abbrev main_c_15 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_16 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_cst_18 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_19 : Ref sig .tc := ⟨.hbm, 100, rfl⟩
abbrev main_v65 : Ref sig .tc := ⟨.hbm, 101, rfl⟩
abbrev main_v66 : Ref sig .tc := ⟨.hbm, 102, rfl⟩
abbrev main_cst_20 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_21 : Ref sig .tc := ⟨.hbm, 107, rfl⟩
abbrev main_call1_v0 : Ref sig .tc := ⟨.hbm, 108, rfl⟩
abbrev main_call1_v1 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_22 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_23 : Ref sig .tc := ⟨.hbm, 121, rfl⟩
abbrev main_v80 : Ref sig .tc := ⟨.hbm, 122, rfl⟩
abbrev main_v81 : Ref sig .tc := ⟨.hbm, 123, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S819200 : S_.BroadcastsInDim S819200 (![] : Fin 0 → Fin S819200.rank)
  bcast_S819200_S819200x1_0 : S819200.BroadcastsInDim S819200x1 (![0] : Fin 1 → Fin S819200x1.rank)
  bcast_S_S16384x64 : S_.BroadcastsInDim S16384x64 (![] : Fin 0 → Fin S16384x64.rank)
  bcast_S16384x1_S16384x64_0_1 : S16384x1.BroadcastsInDim S16384x64 (![0, 1] : Fin 2 → Fin S16384x64.rank)
  bcast_S_S409600 : S_.BroadcastsInDim S409600 (![] : Fin 0 → Fin S409600.rank)
  bcast_S409600_S409600x1_0 : S409600.BroadcastsInDim S409600x1 (![0] : Fin 1 → Fin S409600x1.rank)
  reducesTo_S16384x64_S16384_d1 : S16384x64.ReducesTo [1] S16384
  h_S_ : 0 < S_.numel
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]
  gather_S100000_S16384x1_S16384_n_0_n_n_0_1_1_wf : GatherDims.WF S100000 S16384x1 S16384 [] [0] [] [0] [] 1 ![1]
  gather_S50000_S16384x1_S16384_n_0_n_n_0_1_1_wf : GatherDims.WF S50000 S16384x1 S16384 [] [0] [] [0] [] 1 ![1]
  gather_S50000x64_S819200x1_S819200x64_1_0_n_n_0_1_164_wf : GatherDims.WF S50000x64 S819200x1 S819200x64 [1] [0] [] [0] [] 1 ![1, 64]
  scatter_S16384x64_S819200x1_S819200x64_1_0_0_1_wf : ScatterDims.WF S16384x64 S819200x1 S819200x64 [1] [0] [0] 1
  scatter_S16384_S819200x1_S819200_n_0_0_1_wf : ScatterDims.WF S16384 S819200x1 S819200 [] [0] [0] 1
  gather_S50000x64_S409600x1_S409600x64_1_0_n_n_0_1_164_wf : GatherDims.WF S50000x64 S409600x1 S409600x64 [1] [0] [] [0] [] 1 ![1, 64]
  scatter_S16384x64_S409600x1_S409600x64_1_0_0_1_wf : ScatterDims.WF S16384x64 S409600x1 S409600x64 [1] [0] [0] 1
  scatter_S16384_S409600x1_S409600_n_0_0_1_wf : ScatterDims.WF S16384 S409600x1 S409600 [] [0] [0] 1

variable [Facts₀]

def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf
def gather_S100000_S16384x1_S16384_n_0_n_n_0_1_1 : GatherDims S100000 S16384x1 S16384 where
  offsetDims := []
  collapsedSliceDims := [0]
  operandBatchingDims := []
  startIndicesBatchingDims := []
  startIndexMap := [0]
  indexVectorDim := 1
  sliceSizes := ![1]
  wf := gather_S100000_S16384x1_S16384_n_0_n_n_0_1_1_wf
def gather_S50000_S16384x1_S16384_n_0_n_n_0_1_1 : GatherDims S50000 S16384x1 S16384 where
  offsetDims := []
  collapsedSliceDims := [0]
  operandBatchingDims := []
  startIndicesBatchingDims := []
  startIndexMap := [0]
  indexVectorDim := 1
  sliceSizes := ![1]
  wf := gather_S50000_S16384x1_S16384_n_0_n_n_0_1_1_wf
def gather_S50000x64_S819200x1_S819200x64_1_0_n_n_0_1_164 : GatherDims S50000x64 S819200x1 S819200x64 where
  offsetDims := [1]
  collapsedSliceDims := [0]
  operandBatchingDims := []
  startIndicesBatchingDims := []
  startIndexMap := [0]
  indexVectorDim := 1
  sliceSizes := ![1, 64]
  wf := gather_S50000x64_S819200x1_S819200x64_1_0_n_n_0_1_164_wf
def scatter_S16384x64_S819200x1_S819200x64_1_0_0_1 : ScatterDims S16384x64 S819200x1 S819200x64 where
  updateWindowDims := [1]
  insertedWindowDims := [0]
  scatterDimsToOperandDims := [0]
  indexVectorDim := 1
  wf := scatter_S16384x64_S819200x1_S819200x64_1_0_0_1_wf
def scatter_S16384_S819200x1_S819200_n_0_0_1 : ScatterDims S16384 S819200x1 S819200 where
  updateWindowDims := []
  insertedWindowDims := [0]
  scatterDimsToOperandDims := [0]
  indexVectorDim := 1
  wf := scatter_S16384_S819200x1_S819200_n_0_0_1_wf
def gather_S50000x64_S409600x1_S409600x64_1_0_n_n_0_1_164 : GatherDims S50000x64 S409600x1 S409600x64 where
  offsetDims := [1]
  collapsedSliceDims := [0]
  operandBatchingDims := []
  startIndicesBatchingDims := []
  startIndexMap := [0]
  indexVectorDim := 1
  sliceSizes := ![1, 64]
  wf := gather_S50000x64_S409600x1_S409600x64_1_0_n_n_0_1_164_wf
def scatter_S16384x64_S409600x1_S409600x64_1_0_0_1 : ScatterDims S16384x64 S409600x1 S409600x64 where
  updateWindowDims := [1]
  insertedWindowDims := [0]
  scatterDimsToOperandDims := [0]
  indexVectorDim := 1
  wf := scatter_S16384x64_S409600x1_S409600x64_1_0_0_1_wf
def scatter_S16384_S409600x1_S409600_n_0_0_1 : ScatterDims S16384 S409600x1 S409600 where
  updateWindowDims := []
  insertedWindowDims := [0]
  scatterDimsToOperandDims := [0]
  indexVectorDim := 1
  wf := scatter_S16384_S409600x1_S409600_n_0_0_1_wf

class Facts : Prop extends Facts₀ where

variable [Facts]
-- ==== Proof.PreFacts.lean ====
import proofs.«414466_j73993696576172_1_alg».proof.Pre_finite_inputs
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.StableHlo Cert.Pre_finite_inputs

instance : Subsingleton S_.Idx := ⟨fun a b => funext fun d => d.elim0⟩

/-- Signed `0 ≤ w < n` with `n < 2³¹` pins the unsigned value too. -/
theorem toNat_lt_of_signed (w : BitVec 32) (n : ℕ) (hn : n < 2 ^ 31)
    (h0 : IntOp.cmpi .sge w 0#32 = 1#1) (h1 : IntOp.cmpi .slt w (BitVec.ofNat 32 n) = 1#1) : w.toNat < n := by
  rw [IntOp.cmpi_sge] at h0
  rw [IntOp.cmpi_slt, Predicate.toInt_ofNat_small n hn] at h1
  have hz : (0#32 : BitVec 32).toInt = 0 := by decide
  rw [hz] at h0
  have hw := w.isLt
  have e := BitVec.toInt_eq_toNat_cond w
  split at e <;> omega

/-- An all-true reduction of the range mask gives the bound at every element. -/
theorem lt_of_all {s : Shape} {axes : List (Fin s.rank)} (hb : S_.BroadcastsInDim s ![]) (hr : s.ReducesTo axes S_)
    (h0 : 0 < S_.numel) (x : IVec s 32) (n : ℕ) (hn : n < 2 ^ 31) (init : IVec S_ 1)
    (e : Host.reduce IntOp.andi
          (andi (cmpi .sge x (broadcastInDim s ![] hb (constantI S_ 32 0#32)))
            (cmpi .slt x (broadcastInDim s ![] hb (constantI S_ 32 (BitVec.ofNat 32 n))))) init hr h0 ValueIdx.ix0 = 1#1)
    (j : s.Idx) : (x j).toNat < n :=
  have ⟨e0, e1⟩ := IntOp.andi_eq_one.1 (Host.reduce_andi_all _ init hr h0 ValueIdx.ix0 e j)
  toNat_lt_of_signed (x j) n hn e0 e1

variable {F : FTy → Type} [FloatOps F] [Cert.Pre_finite_inputs.Facts]

/-- The last four of the precondition's ten tests are the range tests of the four ragged word arrays. -/
theorem ranges {a0 a1 : IVec S16384 32} {a2 a3 : IVec S819200 32} {a4 a5 : IVec S409600 32}
    {a6 : FVec F S100000x64 .f32} {a7 : FVec F S50000x64 .f32} {a8 : FVec F S100000 .f32} {a9 : FVec F S50000 .f32}
    {a10 a11 : FVec F S50000x64 .f32}
    (h : Cert.Pre_finite_inputs.fn (F := F) a0 a1 a2 a3 a4 a5 a6 a7 a8 a9 a10 a11 = (fun _ => 1#1)) :
    (∀ j, (a2 j).toNat < 50000) ∧ (∀ j, (a3 j).toNat < 16384) ∧ (∀ j, (a4 j).toNat < 50000) ∧ (∀ j, (a5 j).toNat < 16384) := by
  have e := congrFun h ValueIdx.ix0
  dsimp only [fn, fn_part1, fn_part2, fn_part3] at e
  obtain ⟨e49, e5⟩ := IntOp.andi_eq_one.1 e
  obtain ⟨e42, e4⟩ := IntOp.andi_eq_one.1 e49
  obtain ⟨e35, e3⟩ := IntOp.andi_eq_one.1 e42
  obtain ⟨-, e2⟩ := IntOp.andi_eq_one.1 e35
  exact ⟨lt_of_all _ _ _ a2 50000 (by decide) _ e2, lt_of_all _ _ _ a3 16384 (by decide) _ e3,
    lt_of_all _ _ _ a4 50000 (by decide) _ e4, lt_of_all _ _ _ a5 16384 (by decide) _ e5⟩

end Cert.PreFacts

end
-- ==== Proof.K.Defs.lean ====
import proofs.«414466_j73993696576172_1_alg».proof.Proof.Gen.Kernel.Skeleton
import proofs.«414466_j73993696576172_1_alg».proof.Proof.Gen.Kernel.Launch
import proofs.«414466_j73993696576172_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev Bf (c : Dev nD) {sp : Space} {S : Shape} {e : EltTy} (M : Memref sig .tc sp S e) : Type :=
  Buf (Elt F) (M.view.loc (c : Thread nD τ))

abbrev pt (c : Dev nD) {sp : Space} {S : Shape} {e : EltTy} (M : Memref sig .tc sp S e) (f : Bf (F := F) c M) :
    sProp (MT nD τ sig Unit (Elt F) ℕ (Pipeline.UD sig nD τ) ℕ) :=
  M.view.loc (c : Thread nD τ) ↦{fullShare} f

abbrev hbT0 : Memref sig .tc .hbm S50000x64 .f32 := Memref.whole main_arg10
abbrev scT0 : Memref sig .tc .vmem S50000x64 .f32 := Memref.whole cc0_scratch0
abbrev scS0 : Memref sig .tc .vmem S16384x64 .f32 := Memref.whole cc0_scratch1
abbrev scC0 : Memref sig .tc .vmem S16384x1 .f32 := Memref.whole cc0_scratch2
abbrev ms0_0 (t : Fin cfg0.N) : Memref sig .tc .smem S256 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16384x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16384x1 .f32 := win0_3.stage (cfg0.slots t 3)
abbrev hs0_3 (t : Fin cfg0.N) : (ms0_3 t).IsWhole := hstage0_3 ((cfg0.slots t 3).cast nbuf0_3)

abbrev isFirst0 (i : grid0.Coords) : BitVec 1 :=
  Scalar.cmpi .ne (Scalar.extui (Scalar.cmpi .eq (BitVec.ofNat 32 (i 0).val) 0#32)) 0#32

theorem test_eq_iff (a k : BitVec 32) :
    Scalar.cmpi .ne (Scalar.extui (Scalar.cmpi .eq a k)) 0#32 = 1#1 ↔ a = k := by
  show BitVec.ofBool ((BitVec.ofBool (a == k)).setWidth 32 != 0#32) = 1#1 ↔ a = k
  cases hb : (a == k)
  · exact ⟨fun h => absurd h (by decide), fun e => by simp [e] at hb⟩
  · exact ⟨fun _ => eq_of_beq hb, fun _ => by decide⟩

theorem ofNat_inj_small (n k : ℕ) (hn : n < 2 ^ 32) (hk : k < 2 ^ 32) :
    BitVec.ofNat 32 n = BitVec.ofNat 32 k ↔ n = k :=
  ⟨fun e => by have := congrArg BitVec.toNat e; simp only [BitVec.toNat_ofNat] at this; omega, fun e => e ▸ rfl⟩

theorem isFirst0_iff (i : grid0.Coords) : isFirst0 i = 1#1 ↔ (i 0).val = 0 := by
  have hi : (i 0).val < 3200 := (i 0).isLt
  exact (test_eq_iff _ _).trans (ofNat_inj_small _ 0 (by omega) (by omega))

theorem cond2_0_iff (i : grid0.Coords) : k0_cond2 i = 1#1 ↔ (i 0).val = 3199 := by
  have hi : (i 0).val < 3200 := (i 0).isLt
  show Scalar.cmpi .ne (Scalar.extui (Scalar.cmpi .eq (BitVec.ofNat 32 (i 0).val) 3199#32)) 0#32 = 1#1 ↔ _
  exact (test_eq_iff _ _).trans (ofNat_inj_small _ 3199 (by omega) (by omega))

/-- A row named by a word below `R` lies inside an array of `R` rows, whatever the row's width. -/
theorem chk_row (v : BitVec 32) (R C : ℕ) (h : v.toNat < R) :
    ∀ a : Fin 2, (![(Scalar.indexCast v).toNat, 0] : Fin 2 → Nat) a + (![1, C] : Fin 2 → Nat) a ≤ (![R, C] : Fin 2 → Nat) a := by
  intro a
  fin_cases a
  · show (Scalar.indexCast v).toNat + 1 ≤ R
    simp only [Scalar.indexCast]
    omega
  · show 0 + C ≤ C
    omega

theorem chk_tab (v : BitVec 32) (h : v.toNat < 50000) :
    ∀ a : Fin 2, (![(Scalar.indexCast v).toNat, 0] : Fin 2 → Nat) a + S1x64.size a ≤ S50000x64.size a :=
  chk_row v 50000 64 h

theorem chk_seg (v : BitVec 32) (h : v.toNat < 16384) :
    (∀ a : Fin 2, (![(Scalar.indexCast v).toNat, 0] : Fin 2 → Nat) a + S1x64.size a ≤ S16384x64.size a) ∧
    (∀ a : Fin 2, (![(Scalar.indexCast v).toNat, 0] : Fin 2 → Nat) a + S1x1.size a ≤ S16384x1.size a) :=
  ⟨chk_row v 16384 64 h, chk_row v 16384 1 h⟩

end Cert.Kernel.Hand

end
-- ==== Proof.K.PoolRun.lean ====
import proofs.«414466_j73993696576172_1_alg».proof.Proof.K.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (i : grid0.Coords)
  (M1 : Memref sig .tc .smem S256 .i32) (h1 : M1.IsWhole) (M2 : Memref sig .tc .smem S256 .i32) (h2 : M2.IsWhole)
  (M3 : Memref sig .tc .hbm S50000x64 .f32) (h3 : M3.IsWhole)
  (M4 : Memref sig .tc .vmem S16384x64 .f32) (h4 : M4.IsWhole) (M5 : Memref sig .tc .vmem S16384x1 .f32) (h5 : M5.IsWhole)
  (M6 : Memref sig .tc .vmem S50000x64 .f32) (h6 : M6.IsWhole) (M7 : Memref sig .tc .vmem S16384x64 .f32) (h7 : M7.IsWhole)
  (M8 : Memref sig .tc .vmem S16384x1 .f32) (h8 : M8.IsWhole) (M9 : DmaSems sig S_)
  (hA : isFirst0 i = 1#1) (hnA : ¬ (isFirst0 i = 1#1)) (hnC : ¬ (k0_cond2 i = 1#1)) (hC : k0_cond2 i = 1#1)
  (x1 x2 : Vec F S256 .i32) (hx1 : ∀ y, BitVec.toNat (x1 y) < 50000) (hx2 : ∀ y, BitVec.toNat (x2 y) < 16384)
  (T : Vec F S50000x64 .f32) (S : Vec F S16384x64 .f32) (C : Vec F S16384x1 .f32)

set_option maxHeartbeats 16000000 in
noncomputable def poolRunA (fh : Bf (F := F) c hbT0) :
    { W : Vec F S50000x64 .f32 × Vec F S16384x64 .f32 × Vec F S16384x1 .f32 //
      ∀ (Wt : Waits sig Unit) (Q : PUnit → sProp 𝕄),
        iprop(owns (c : Thread nD τ) M1 fullShare x1 ∗ owns (c : Thread nD τ) M2 fullShare x2
            ∗ (∃ d, owns (c : Thread nD τ) M6 fullShare d) ∗ (∃ d, owns (c : Thread nD τ) M7 fullShare d) ∗ (∃ d, owns (c : Thread nD τ) M8 fullShare d)
            ∗ semVal ((c : Thread nD τ), SemLoc.dma 6) 0 ∗ pt c hbT0 fh ∗ owes (c : Thread nD τ) 0 Wt
            ∗ (iprop(owns (c : Thread nD τ) M1 fullShare x1 ∗ owns (c : Thread nD τ) M2 fullShare x2
                ∗ owns (c : Thread nD τ) M6 fullShare W.1 ∗ owns (c : Thread nD τ) M7 fullShare W.2.1 ∗ owns (c : Thread nD τ) M8 fullShare W.2.2
                ∗ semVal ((c : Thread nD τ), SemLoc.dma 6) 0 ∗ pt c hbT0 fh ∗ (∃ W', owes (c : Thread nD τ) 0 W')) -∗ Q ⟨⟩))
          ⊢ wp frame (wpE (defs₀ (F := F)) Variants.none c none) Set.univ
              (cc0__pool_kernel i M1 h1 M2 h2 hbT0 (Memref.isWhole_whole _) M4 h4 M5 h5 M6 h6 M7 h7 M8 h8 cc0_scratch3) Q } := by
  clear hnA hC M9 T S C h3 M3
  refine ⟨⟨?_, ?_, ?_⟩, fun Wt Q => ?run⟩
  case run =>
    dsimp only
    unfold owns
    iintro ⟨⟨%f1, %hf1, H1⟩, ⟨%f2, %hf2, H2⟩, ⟨%d6, %f6, -, H6⟩, ⟨%d7, %f7, -, H7⟩, ⟨%d8, %f8, -, H8⟩, Hq, Hh, HW, Hk⟩
    obtain rfl := h1.eq_unread hf1
    obtain rfl := h2.eq_unread hf2
    sl_exec_parts! (disch := first | sl_exact hA | sl_exact hnC | (refine chk_tab _ ?_; sl_unfold_run_names; simp only [View.readAt_apply, Memref.IsWhole.read_unread]; exact hx1 _) | (refine chk_seg _ ?_; sl_unfold_run_names; simp only [View.readAt_apply, Memref.IsWhole.read_unread]; exact hx2 _))
    sl_step
    iapply Hk
    isplitl [H1]; · iexists _; iframe H1; ipureintro; exact h1.read_unread _
    isplitl [H2]; · iexists _; iframe H2; ipureintro; exact h2.read_unread _
    isplitl [H6]; · iexists _; iframe H6; ipureintro; exact rfl
    isplitl [H7]; · iexists _; iframe H7; ipureintro; exact rfl
    isplitl [H8]; · iexists _; iframe H8; ipureintro; exact rfl
    isplitl [Hq]; · iexact Hq
    isplitl [Hh]; · iexact Hh
    iexists _; iexact HW

set_option maxHeartbeats 16000000 in
noncomputable def poolRunB :
    { W : Vec F S16384x64 .f32 × Vec F S16384x1 .f32 //
      ∀ (E : Set ℕ) (Q : PUnit → sProp 𝕄),
        iprop(owns (c : Thread nD τ) M1 fullShare x1 ∗ owns (c : Thread nD τ) M2 fullShare x2 ∗ owns (c : Thread nD τ) M6 fullShare T
            ∗ owns (c : Thread nD τ) M7 fullShare S ∗ owns (c : Thread nD τ) M8 fullShare C
            ∗ (iprop(owns (c : Thread nD τ) M1 fullShare x1 ∗ owns (c : Thread nD τ) M2 fullShare x2 ∗ owns (c : Thread nD τ) M6 fullShare T
                ∗ owns (c : Thread nD τ) M7 fullShare W.1 ∗ owns (c : Thread nD τ) M8 fullShare W.2) -∗ Q ⟨⟩))
          ⊢ wp frame (wpE (defs₀ (F := F)) Variants.none c none) E
              (cc0__pool_kernel i M1 h1 M2 h2 M3 h3 M4 h4 M5 h5 M6 h6 M7 h7 M8 h8 M9) Q } := by
  clear hA hC
  refine ⟨⟨?_, ?_⟩, fun E Q => ?run⟩
  case run =>
    dsimp only
    unfold owns
    iintro ⟨⟨%f1, %hf1, H1⟩, ⟨%f2, %hf2, H2⟩, ⟨%f6, %hf6, H6⟩, ⟨%f7, %hf7, H7⟩, ⟨%f8, %hf8, H8⟩, Hk⟩
    obtain rfl := h1.eq_unread hf1
    obtain rfl := h2.eq_unread hf2
    obtain rfl := h6.eq_unread hf6
    obtain rfl := h7.eq_unread hf7
    obtain rfl := h8.eq_unread hf8
    sl_exec_parts! (disch := first | sl_exact hnA | sl_exact hnC | (refine chk_tab _ ?_; sl_unfold_run_names; simp only [View.readAt_apply, Memref.IsWhole.read_unread]; exact hx1 _) | (refine chk_seg _ ?_; sl_unfold_run_names; simp only [View.readAt_apply, Memref.IsWhole.read_unread]; exact hx2 _))
    sl_step
    iapply Hk
    isplitl [H1]; · iexists _; iframe H1; ipureintro; exact h1.read_unread _
    isplitl [H2]; · iexists _; iframe H2; ipureintro; exact h2.read_unread _
    isplitl [H6]; · iexists _; iframe H6; ipureintro; exact h6.read_unread _
    isplitl [H7]; · iexists _; iframe H7; ipureintro; exact rfl
    iexists _; iframe H8; ipureintro; exact rfl

set_option maxHeartbeats 16000000 in
noncomputable def poolRunC :
    { W : (Vec F S16384x64 .f32 × Vec F S16384x1 .f32) × (Vec F S16384x64 .f32 × Vec F S16384x1 .f32) //
      ∀ (E : Set ℕ) (Q : PUnit → sProp 𝕄),
        iprop(owns (c : Thread nD τ) M1 fullShare x1 ∗ owns (c : Thread nD τ) M2 fullShare x2 ∗ owns (c : Thread nD τ) M6 fullShare T
            ∗ owns (c : Thread nD τ) M7 fullShare S ∗ owns (c : Thread nD τ) M8 fullShare C
            ∗ (∃ d, owns (c : Thread nD τ) M4 fullShare d) ∗ (∃ d, owns (c : Thread nD τ) M5 fullShare d)
            ∗ (iprop(owns (c : Thread nD τ) M1 fullShare x1 ∗ owns (c : Thread nD τ) M2 fullShare x2 ∗ owns (c : Thread nD τ) M6 fullShare T
                ∗ owns (c : Thread nD τ) M7 fullShare W.1.1 ∗ owns (c : Thread nD τ) M8 fullShare W.1.2
                ∗ owns (c : Thread nD τ) M4 fullShare W.2.1 ∗ owns (c : Thread nD τ) M5 fullShare W.2.2) -∗ Q ⟨⟩))
          ⊢ wp frame (wpE (defs₀ (F := F)) Variants.none c none) E
              (cc0__pool_kernel i M1 h1 M2 h2 M3 h3 M4 h4 M5 h5 M6 h6 M7 h7 M8 h8 M9) Q } := by
  clear hA hnC
  refine ⟨⟨⟨?_, ?_⟩, ⟨?_, ?_⟩⟩, fun E Q => ?run⟩
  case run =>
    dsimp only
    unfold owns
    iintro ⟨⟨%f1, %hf1, H1⟩, ⟨%f2, %hf2, H2⟩, ⟨%f6, %hf6, H6⟩, ⟨%f7, %hf7, H7⟩, ⟨%f8, %hf8, H8⟩, ⟨%d4, %f4, -, H4⟩, ⟨%d5, %f5, -, H5⟩, Hk⟩
    obtain rfl := h1.eq_unread hf1
    obtain rfl := h2.eq_unread hf2
    obtain rfl := h6.eq_unread hf6
    obtain rfl := h7.eq_unread hf7
    obtain rfl := h8.eq_unread hf8
    sl_exec_parts! (disch := first | sl_exact hnA | sl_exact hC | (refine chk_tab _ ?_; sl_unfold_run_names; simp only [View.readAt_apply, Memref.IsWhole.read_unread]; exact hx1 _) | (refine chk_seg _ ?_; sl_unfold_run_names; simp only [View.readAt_apply, Memref.IsWhole.read_unread]; exact hx2 _))
    sl_step
    iapply Hk
    isplitl [H1]; · iexists _; iframe H1; ipureintro; exact h1.read_unread _
    isplitl [H2]; · iexists _; iframe H2; ipureintro; exact h2.read_unread _
    isplitl [H6]; · iexists _; iframe H6; ipureintro; exact h6.read_unread _
    isplitl [H7]; · iexists _; iframe H7; ipureintro; exact rfl
    isplitl [H8]; · iexists _; iframe H8; ipureintro; exact rfl
    isplitl [H4]; · iexists _; iframe H4; ipureintro; exact rfl
    iexists _; iframe H5; ipureintro; exact rfl

end Cert.Kernel.Hand

end
-- ==== Proof.K.Pool0Data.lean ====
import proofs.«414466_j73993696576172_1_alg».proof.Proof.K.PoolRun
import Idealize.ShloMosaic.Lib.Pipeline.FrameBody
import Idealize.ShloMosaic.Lib.Pipeline.Regions
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (hr1 : ∀ (c : Dev nD) (j : S819200.Idx), BitVec.toNat ((V c main_arg2 : S819200.Idx → BitVec 32) j) < 50000)
variable (hr2 : ∀ (c : Dev nD) (j : S819200.Idx), BitVec.toNat ((V c main_arg3 : S819200.Idx → BitVec 32) j) < 16384)

-- The grid has one axis, so point t has coordinate t.
theorem coord0_val (t : Fin cfg0.N) : ((grid0.coords t) 0).val = t.val := by
  have hN : t.val < 3200 := lt_of_lt_of_eq t.isLt (show cfg0.N = 3200 from N_0)
  show t.val / grid0.stride 0 % grid0.bound 0 = t.val
  rw [show grid0.stride 0 = 1 from by decide, show grid0.bound 0 = 3200 from rfl, Nat.div_one, Nat.mod_eq_of_lt hN]

-- Block t of window w, read from the array as it stands when the region begins.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

include hr1 in
theorem hx1_0 (c : Dev nD) (t : Fin cfg0.N) : ∀ y, BitVec.toNat ((iblk0 V c 0 t : Vec F S256 .i32) y) < 50000 := fun y => by
  unfold iblk0; rw [View.read_apply]; exact hr1 c _

include hr2 in
theorem hx2_0 (c : Dev nD) (t : Fin cfg0.N) : ∀ y, BitVec.toNat ((iblk0 V c 1 t : Vec F S256 .i32) y) < 16384 := fun y => by
  unfold iblk0; rw [View.read_apply]; exact hr2 c _

theorem first_of_zero (t : Fin cfg0.N) (h : t.val = 0) : isFirst0 (grid0.coords t) = 1#1 :=
  (isFirst0_iff _).mpr ((coord0_val t).trans h)
theorem not_first_of_pos (t : Fin cfg0.N) (h : t.val ≠ 0) : ¬ (isFirst0 (grid0.coords t) = 1#1) :=
  fun e => h ((coord0_val t).symm.trans ((isFirst0_iff _).mp e))
theorem last_of (t : Fin cfg0.N) (h : t.val = 3199) : k0_cond2 (grid0.coords t) = 1#1 :=
  (cond2_0_iff _).mpr ((coord0_val t).trans h)
theorem not_last_of (t : Fin cfg0.N) (h : t.val ≠ 3199) : ¬ (k0_cond2 (grid0.coords t) = 1#1) :=
  fun e => h ((coord0_val t).symm.trans ((cond2_0_iff _).mp e))

-- The body's three cases at grid point t: the first point (A), a middle point (B), the last point (C);
-- B and C start from a state s of the table and the two accumulators.
abbrev wA0 (c : Dev nD) (t : Fin cfg0.N) (hA : isFirst0 (grid0.coords t) = 1#1) (hnC : ¬ (k0_cond2 (grid0.coords t) = 1#1)) :=
  poolRunA c (grid0.coords t) (ms0_0 t) (hs0_0 t) (ms0_1 t) (hs0_1 t) (ms0_2 t) (hs0_2 t) (ms0_3 t) (hs0_3 t) scT0 (Memref.isWhole_whole _) scS0 (Memref.isWhole_whole _) scC0 (Memref.isWhole_whole _) hA hnC (iblk0 V c 0 t) (iblk0 V c 1 t) (hx1_0 V hr1 c t) (hx2_0 V hr2 c t) (V c main_arg10)

abbrev wB0 (c : Dev nD) (t : Fin cfg0.N) (hnA : ¬ (isFirst0 (grid0.coords t) = 1#1)) (hnC : ¬ (k0_cond2 (grid0.coords t) = 1#1)) (s : Vec F S50000x64 .f32 × Vec F S16384x64 .f32 × Vec F S16384x1 .f32) :=
  poolRunB c (grid0.coords t) (ms0_0 t) (hs0_0 t) (ms0_1 t) (hs0_1 t) hbT0 (Memref.isWhole_whole _) (ms0_2 t) (hs0_2 t) (ms0_3 t) (hs0_3 t) scT0 (Memref.isWhole_whole _) scS0 (Memref.isWhole_whole _) scC0 (Memref.isWhole_whole _) cc0_scratch3 hnA hnC (iblk0 V c 0 t) (iblk0 V c 1 t) (hx1_0 V hr1 c t) (hx2_0 V hr2 c t) s.1 s.2.1 s.2.2

abbrev wC0 (c : Dev nD) (t : Fin cfg0.N) (hnA : ¬ (isFirst0 (grid0.coords t) = 1#1)) (hC : k0_cond2 (grid0.coords t) = 1#1) (s : Vec F S50000x64 .f32 × Vec F S16384x64 .f32 × Vec F S16384x1 .f32) :=
  poolRunC c (grid0.coords t) (ms0_0 t) (hs0_0 t) (ms0_1 t) (hs0_1 t) hbT0 (Memref.isWhole_whole _) (ms0_2 t) (hs0_2 t) (ms0_3 t) (hs0_3 t) scT0 (Memref.isWhole_whole _) scS0 (Memref.isWhole_whole _) scC0 (Memref.isWhole_whole _) cc0_scratch3 hnA hC (iblk0 V c 0 t) (iblk0 V c 1 t) (hx1_0 V hr1 c t) (hx2_0 V hr2 c t) s.1 s.2.1 s.2.2

-- The table and the two accumulators after point n, by recursion on n: case A at 0, case C at 3199, case B between.
def stAt0 (c : Dev nD) : (n : ℕ) → n < cfg0.N → Vec F S50000x64 .f32 × Vec F S16384x64 .f32 × Vec F S16384x1 .f32
  | 0, hn => (wA0 V hr1 hr2 c ⟨0, hn⟩ (first_of_zero ⟨0, hn⟩ rfl) (not_last_of ⟨0, hn⟩ (show (0 : ℕ) ≠ 3199 from by decide))).1
  | n + 1, hn =>
    if h : n + 1 = 3199 then
      ((stAt0 c n (Nat.lt_of_succ_lt hn)).1,
        (wC0 V hr1 hr2 c ⟨n + 1, hn⟩ (not_first_of_pos ⟨n + 1, hn⟩ (Nat.succ_ne_zero n)) (last_of ⟨n + 1, hn⟩ h) (stAt0 c n (Nat.lt_of_succ_lt hn))).1.1)
    else
      ((stAt0 c n (Nat.lt_of_succ_lt hn)).1,
        (wB0 V hr1 hr2 c ⟨n + 1, hn⟩ (not_first_of_pos ⟨n + 1, hn⟩ (Nat.succ_ne_zero n)) (not_last_of ⟨n + 1, hn⟩ h) (stAt0 c n (Nat.lt_of_succ_lt hn))).1)

theorem stAt0_zero (c : Dev nD) (hn : 0 < cfg0.N) (hA : isFirst0 (grid0.coords ⟨0, hn⟩) = 1#1) (hnC : ¬ (k0_cond2 (grid0.coords ⟨0, hn⟩) = 1#1)) :
    stAt0 V hr1 hr2 c 0 hn = (wA0 V hr1 hr2 c ⟨0, hn⟩ hA hnC).1 := rfl

theorem stAt0_mid (c : Dev nD) (n : ℕ) (hn : n + 1 < cfg0.N) (h : n + 1 ≠ 3199)
    (hnA : ¬ (isFirst0 (grid0.coords ⟨n + 1, hn⟩) = 1#1)) (hnC : ¬ (k0_cond2 (grid0.coords ⟨n + 1, hn⟩) = 1#1)) :
    stAt0 V hr1 hr2 c (n + 1) hn = ((stAt0 V hr1 hr2 c n (Nat.lt_of_succ_lt hn)).1,
      (wB0 V hr1 hr2 c ⟨n + 1, hn⟩ hnA hnC (stAt0 V hr1 hr2 c n (Nat.lt_of_succ_lt hn))).1) :=
  (dif_neg h).trans rfl

theorem stAt0_last (c : Dev nD) (n : ℕ) (hn : n + 1 < cfg0.N) (h : n + 1 = 3199)
    (hnA : ¬ (isFirst0 (grid0.coords ⟨n + 1, hn⟩) = 1#1)) (hC : k0_cond2 (grid0.coords ⟨n + 1, hn⟩) = 1#1) :
    stAt0 V hr1 hr2 c (n + 1) hn = ((stAt0 V hr1 hr2 c n (Nat.lt_of_succ_lt hn)).1,
      (wC0 V hr1 hr2 c ⟨n + 1, hn⟩ hnA hC (stAt0 V hr1 hr2 c n (Nat.lt_of_succ_lt hn))).1.1) :=
  (dif_pos h).trans rfl

-- What point n leaves in the two output blocks; only the last point's value is ever used.
def outsAt0 (c : Dev nD) : (n : ℕ) → n < cfg0.N → Vec F S16384x64 .f32 × Vec F S16384x1 .f32
  | 0, hn => (stAt0 V hr1 hr2 c 0 hn).2
  | n + 1, hn =>
    if h : n + 1 = 3199 then
      (wC0 V hr1 hr2 c ⟨n + 1, hn⟩ (not_first_of_pos ⟨n + 1, hn⟩ (Nat.succ_ne_zero n)) (last_of ⟨n + 1, hn⟩ h) (stAt0 V hr1 hr2 c n (Nat.lt_of_succ_lt hn))).1.2
    else (stAt0 V hr1 hr2 c (n + 1) hn).2

theorem outsAt0_last (c : Dev nD) (n : ℕ) (hn : n + 1 < cfg0.N) (h : n + 1 = 3199)
    (hnA : ¬ (isFirst0 (grid0.coords ⟨n + 1, hn⟩) = 1#1)) (hC : k0_cond2 (grid0.coords ⟨n + 1, hn⟩) = 1#1) :
    outsAt0 V hr1 hr2 c (n + 1) hn = (wC0 V hr1 hr2 c ⟨n + 1, hn⟩ hnA hC (stAt0 V hr1 hr2 c n (Nat.lt_of_succ_lt hn))).1.2 :=
  (dif_pos h).trans rfl

-- From here on both are used through the equations above only.
attribute [irreducible] stAt0 outsAt0

abbrev osem0 : Fin 1 → SemLoc sig := fun _ => SemLoc.dma 6
theorem ownSemFacts0 : Pipeline.OwnSemFacts spec0 osem0 := by decide

abbrev own0 (c : Dev nD) : sProp 𝕄 :=
  Pipeline.ownSems0 (Ix := Unit) (Name := ℕ) (U := Pipeline.UD sig nD τ) (Lvl := ℕ) (Val := Elt F) (τ := τ) osem0 c

theorem ownSems00_eq (c : Dev nD) : (own0 c : sProp 𝕄) = iprop(semVal ((c : Thread nD τ), SemLoc.dma 6) 0) := by
  unfold own0; rw [Pipeline.ownSems0_eq_of_list c osem0 [0] (by decide) (by decide)]; rfl

def H0 : Finset (Ref sig .tc) := {main_arg10}
theorem H0_sub : H0 ⊆ Pipeline.restRefs sig spec0 := by decide

abbrev hbm0 (c : Dev nD) : sProp 𝕄 :=
  bigSep H0 (fun b => ((c : Thread nD τ).loc b) ↦{fullShare} V c b)

theorem hbmPts0_eq (c : Dev nD) : (hbm0 V c : sProp 𝕄) = iprop(pt c hbT0 (V c main_arg10)) := by
  unfold hbm0; rw [BI.bigSep_eq_bigSepL_of_eq [main_arg10] (by decide) (by decide)]; rfl

abbrev scrAny0 (c : Dev nD) : sProp 𝕄 :=
  iprop((∃ d, owns (c : Thread nD τ) scT0 fullShare d) ∗ (∃ d, owns (c : Thread nD τ) scS0 fullShare d) ∗ (∃ d, owns (c : Thread nD τ) scC0 fullShare d))

abbrev scrAt0 (c : Dev nD) (s : Vec F S50000x64 .f32 × Vec F S16384x64 .f32 × Vec F S16384x1 .f32) : sProp 𝕄 :=
  iprop(owns (c : Thread nD τ) scT0 fullShare s.1 ∗ owns (c : Thread nD τ) scS0 fullShare s.2.1 ∗ owns (c : Thread nD τ) scC0 fullShare s.2.2)

abbrev restBut0 (c : Dev nD) : sProp 𝕄 :=
  Pipeline.scopedRestBut (Ix := Unit) (Name := ℕ) (U := Pipeline.UD sig nD τ) (Lvl := ℕ) (Val := Elt F) spec0 c [cc0_scratch0, cc0_scratch1, cc0_scratch2]

abbrev scoped0 (c : Dev nD) : sProp 𝕄 :=
  Pipeline.scopedRest (Ix := Unit) (Name := ℕ) (U := Pipeline.UD sig nD τ) (Lvl := ℕ) (Val := Elt F) spec0 c

theorem scoped0_eq (c : Dev nD) : (scoped0 c : sProp 𝕄) = iprop(scrAny0 c ∗ restBut0 c) := by
  unfold scoped0 scrAny0 restBut0; rw [scopedRest0_split]; simp only [scT0, scS0, scC0, owns_whole]; try rfl

def PhiRest0 (c : Dev nD) : sProp 𝕄 :=
  iprop(restBut0 c ∗ (∃ r, prngReg c r) ∗ semVal ((c : Thread nD τ), SemLoc.dma 6) 0 ∗ pt c hbT0 (V c main_arg10))

-- Between points the three scratch arrays hold the state after the point before (anything before the first),
-- beside resources that never change.
def Phi0 (c : Dev nD) : (n : ℕ) → n ≤ cfg0.N → sProp 𝕄
  | 0, _ => iprop(scrAny0 c ∗ PhiRest0 V c)
  | n + 1, hn => iprop(scrAt0 c (stAt0 V hr1 hr2 c n hn) ∗ PhiRest0 V c)

theorem Phi0_zero (c : Dev nD) (n : ℕ) (h : n ≤ cfg0.N) (hz : n = 0) :
    Phi0 V hr1 hr2 c n h = iprop(scrAny0 c ∗ PhiRest0 V c) := by
  subst hz; rfl

theorem Phi0_pos (c : Dev nD) (n : ℕ) (h : n ≤ cfg0.N) (hz : n ≠ 0) :
    Phi0 V hr1 hr2 c n h = iprop(scrAt0 c (stAt0 V hr1 hr2 c (n - 1) (by omega)) ∗ PhiRest0 V c) := by
  cases n with
  | zero => exact absurd rfl hz
  | succ n => rfl

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V hr1 hr2 c t.val t.isLt).1
    | ⟨3, _⟩ => (outsAt0 V hr1 hr2 c t.val t.isLt).2
  Φ t := Phi0 V hr1 hr2 c t.val (Nat.le_of_lt_succ t.isLt)
  q _ := fullShare
  owed _ := 0

theorem A_eq0 (c : Dev nD) (w : Fin cfg0.W) : (dat0 V hr1 hr2 c).A w = V c (Pipeline.arrRef spec0 w) := rfl

theorem after0_2 (c : Dev nD) (t : Fin cfg0.N) : (dat0 V hr1 hr2 c).after 2 t = (outsAt0 V hr1 hr2 c t.val t.isLt).1 := rfl
theorem after0_3 (c : Dev nD) (t : Fin cfg0.N) : (dat0 V hr1 hr2 c).after 3 t = (outsAt0 V hr1 hr2 c t.val t.isLt).2 := rfl

theorem before0_0 (c : Dev nD) (t : Fin cfg0.N) (d) : (dat0 V hr1 hr2 c).before 0 t d = iblk0 V c 0 t :=
  (dat0 V hr1 hr2 c).before_in_eq_fetched 0 rfl (fun _ => rfl) (fun _ _ _ => rfl) (fun _ => rfl) t d
theorem before0_1 (c : Dev nD) (t : Fin cfg0.N) (d) : (dat0 V hr1 hr2 c).before 1 t d = iblk0 V c 1 t :=
  (dat0 V hr1 hr2 c).before_in_eq_fetched 1 rfl (fun _ => rfl) (fun _ _ _ => rfl) (fun _ => rfl) t d

end Cert.Kernel.Hand

end
-- ==== Proof.K.Pool0.lean ====
import proofs.«414466_j73993696576172_1_alg».proof.Proof.K.Pool0Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (hr1 : ∀ (c : Dev nD) (j : S819200.Idx), BitVec.toNat ((V c main_arg2 : S819200.Idx → BitVec 32) j) < 50000)
variable (hr2 : ∀ (c : Dev nD) (j : S819200.Idx), BitVec.toNat ((V c main_arg3 : S819200.Idx → BitVec 32) j) < 16384)

theorem idleAt0 (t : Fin cfg0.N) (h : ¬ (k0_cond2 (grid0.coords t) = 1#1)) : cfg0.idle 2 (grid0.coords t) = true := by
  show (!(k0_cond2 (grid0.coords t) == 1#1)) = true
  rw [Bool.not_eq_true', beq_eq_false_iff_ne]; exact h

theorem noFlush0 {w : Fin cfg0.W} (hw : w = 2 ∨ w = 3) (t : Fin cfg0.N) (h : t.val ≠ 3199) : (cfg0.win w).flush t = false := by
  have hN : t.val < 3200 := lt_of_lt_of_eq t.isLt (show cfg0.N = 3200 from N_0)
  rcases hw with rfl | rfl
  · exact Bool.eq_false_iff.mpr fun hf => h (by have := (flush0_2 t).mp hf; omega)
  · exact Bool.eq_false_iff.mpr fun hf => h (by have := (flush0_3 t).mp hf; omega)

set_option maxHeartbeats 4000000 in
theorem body_obligation0 (c : Dev nD) : BodyObligation (dat0 (F := F) V hr1 hr2 c) (defs₀ (F := F)) Variants.none () Set.univ := fun t => by
  rw [bigSep_W0, bigSep_W0]
  simp only [before0_0, before0_1]
  change iprop(Phi0 V hr1 hr2 c t.val (Nat.le_of_lt t.isLt) ∗ _) ⊢ wp _ _ _ (bodyAt0 t) fun _ =>
    iprop(iprop(scrAt0 c (stAt0 V hr1 hr2 c t.val t.isLt) ∗ PhiRest0 V c) ∗ (dat0 V hr1 hr2 c).owesAt () t.succ
      ∗ owns (c : Thread nD τ) (ms0_0 t) fullShare (iblk0 V c 0 t) ∗ owns (c : Thread nD τ) (ms0_1 t) fullShare (iblk0 V c 1 t)
      ∗ (dat0 V hr1 hr2 c).leavesExact 2 t ∗ (dat0 V hr1 hr2 c).leavesExact 3 t)
  unfold bodyAt0
  obtain ⟨n, hn⟩ := t
  cases n with
  | zero =>
    have h1 : (⟨0, hn⟩ : Fin cfg0.N).val ≠ 3199 := show (0 : ℕ) ≠ 3199 from by decide
    have hA := first_of_zero ⟨0, hn⟩ rfl
    have hnC := not_last_of ⟨0, hn⟩ h1
    unfold Dat.leavesExact
    rw [idleAt0 _ hnC, noFlush0 (.inl rfl) _ h1, noFlush0 (.inr rfl) _ h1, Phi0_zero V hr1 hr2 c _ _ rfl, stAt0_zero V hr1 hr2 c hn hA hnC]
    unfold PhiRest0 scrAny0 scrAt0 Dat.owesAt Pipeline.owesWithin
    rw [show (dat0 V hr1 hr2 c).owed _ = 0 from rfl, show (dat0 V hr1 hr2 c).owed _ = 0 from rfl]
    iintro ⟨⟨⟨HT, HS, HC⟩, HR, Hg, Hq, Hh⟩, ⟨%W, -, HW⟩, ⟨%d0, Ha⟩, ⟨%d1, Hb⟩, H2, H3⟩
    iapply ((wA0 V hr1 hr2 c ⟨0, hn⟩ hA hnC).2 W _)
    iframe Ha Hb HT HS HC Hq Hh HW
    iintro ⟨Ha, Hb, HT, HS, HC, Hq, Hh, ⟨%W', HW'⟩⟩
    iframe Ha Hb HT HS HC HR Hg Hq Hh H2 H3
    iexists W'; isplitr; · ipureintro; exact fun _ _ => Or.inl trivial
    iexact HW'
  | succ n =>
    have hnA := not_first_of_pos ⟨n + 1, hn⟩ (Nat.succ_ne_zero n)
    change iprop(iprop(scrAt0 c (stAt0 V hr1 hr2 c n (Nat.lt_of_succ_lt hn)) ∗ PhiRest0 V c) ∗ _) ⊢ wp _ _ _ _ fun _ =>
      iprop(_ ∗ (dat0 V hr1 hr2 c).owesAt () (Fin.castSucc ⟨n + 1, hn⟩) ∗ _)
    by_cases h1 : n + 1 = 3199
    · have hC := last_of ⟨n + 1, hn⟩ h1
      unfold Dat.leavesExact
      rw [show cfg0.idle 2 (grid0.coords ⟨n + 1, hn⟩) = false from by show (!(k0_cond2 (grid0.coords ⟨n + 1, hn⟩) == 1#1)) = false; rw [hC]; rfl, after0_2, after0_3, stAt0_last V hr1 hr2 c n hn h1 hnA hC, outsAt0_last V hr1 hr2 c n hn h1 hnA hC]
      dsimp only [scrAt0]
      iintro ⟨⟨⟨HT, HS, HC⟩, HR⟩, Ho, ⟨%d0, Ha⟩, ⟨%d1, Hb⟩, ⟨%d2, H2⟩, ⟨%d3, H3⟩⟩
      iapply ((wC0 V hr1 hr2 c ⟨n + 1, hn⟩ hnA hC (stAt0 V hr1 hr2 c n (Nat.lt_of_succ_lt hn))).2 Set.univ _)
      iframe Ha Hb HT HS HC
      isplitl [H2]; · iexists _; iexact H2
      isplitl [H3]; · iexists _; iexact H3
      iintro ⟨Ha, Hb, HT, HS, HC, H2, H3⟩
      iframe
    · have hnC := not_last_of ⟨n + 1, hn⟩ h1
      unfold Dat.leavesExact
      rw [idleAt0 _ hnC, noFlush0 (.inl rfl) _ h1, noFlush0 (.inr rfl) _ h1, stAt0_mid V hr1 hr2 c n hn h1 hnA hnC]
      dsimp only [scrAt0]
      iintro ⟨⟨⟨HT, HS, HC⟩, HR⟩, Ho, ⟨%d0, Ha⟩, ⟨%d1, Hb⟩, H2, H3⟩
      iapply ((wB0 V hr1 hr2 c ⟨n + 1, hn⟩ hnA hnC (stAt0 V hr1 hr2 c n (Nat.lt_of_succ_lt hn))).2 Set.univ _)
      iframe Ha Hb HT HS HC
      iintro ⟨Ha, Hb, HT, HS, HC⟩
      iframe

theorem hin0 (c : Dev nD) {P : sProp 𝕄} :
    iprop(iprop((∃ r, prngReg c r) ∗ own0 c ∗ hbm0 V c) ∗ P ∗ scoped0 c) ⊢ (dat0 V hr1 hr2 c).Φ 0 := by
  rw [show (dat0 V hr1 hr2 c).Φ 0 = Phi0 V hr1 hr2 c 0 (Nat.zero_le _) from rfl, Phi0_zero V hr1 hr2 c 0 _ rfl]
  rw [ownSems00_eq, hbmPts0_eq, scoped0_eq]
  unfold PhiRest0 scrAny0
  iintro ⟨⟨Hg, Hq, Hh⟩, -, ⟨⟨HT, HS, HC⟩, HR⟩⟩
  iframe

theorem hout0 (c : Dev nD) :
    (dat0 V hr1 hr2 c).Φ (Fin.last cfg0.N) ⊢ iprop(iprop((∃ r, prngReg c r) ∗ hbm0 V c) ∗ own0 c ∗ scoped0 c) := by
  rw [show (dat0 V hr1 hr2 c).Φ (Fin.last cfg0.N) = Phi0 V hr1 hr2 c (Fin.last cfg0.N).val (Nat.le_of_lt_succ (Fin.last cfg0.N).isLt) from rfl,
    Phi0_pos V hr1 hr2 c _ _ (by rw [Fin.val_last]; have : cfg0.N = 3200 := N_0; omega)]
  rw [ownSems00_eq, hbmPts0_eq, scoped0_eq]
  unfold PhiRest0 scrAny0
  iintro ⟨⟨HT, HS, HC⟩, HR, Hg, Hq, Hh⟩
  iframe Hg Hh Hq HR
  isplitl [HT]; · iexists _; iexact HT
  isplitl [HS]; · iexists _; iexact HS
  iexists _; iexact HC

end Cert.Kernel.Hand

end
-- ==== Proof.K.Defs1.lean ====
import proofs.«414466_j73993696576172_1_alg».proof.Proof.K.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev hbT1 : Memref sig .tc .hbm S50000x64 .f32 := Memref.whole main_arg11
abbrev scT1 : Memref sig .tc .vmem S50000x64 .f32 := Memref.whole cc1_scratch0
abbrev scS1 : Memref sig .tc .vmem S16384x64 .f32 := Memref.whole cc1_scratch1
abbrev scC1 : Memref sig .tc .vmem S16384x1 .f32 := Memref.whole cc1_scratch2
abbrev ms1_0 (t : Fin cfg1.N) : Memref sig .tc .smem S256 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S256 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16384x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16384x1 .f32 := win1_3.stage (cfg1.slots t 3)
abbrev hs1_3 (t : Fin cfg1.N) : (ms1_3 t).IsWhole := hstage1_3 ((cfg1.slots t 3).cast nbuf1_3)

abbrev isFirst1 (i : grid1.Coords) : BitVec 1 :=
  Scalar.cmpi .ne (Scalar.extui (Scalar.cmpi .eq (BitVec.ofNat 32 (i 0).val) 0#32)) 0#32

theorem isFirst1_iff (i : grid1.Coords) : isFirst1 i = 1#1 ↔ (i 0).val = 0 := by
  have hi : (i 0).val < 1600 := (i 0).isLt
  exact (test_eq_iff _ _).trans (ofNat_inj_small _ 0 (by omega) (by omega))

theorem cond2_1_iff (i : grid1.Coords) : k1_cond2 i = 1#1 ↔ (i 0).val = 1599 := by
  have hi : (i 0).val < 1600 := (i 0).isLt
  show Scalar.cmpi .ne (Scalar.extui (Scalar.cmpi .eq (BitVec.ofNat 32 (i 0).val) 1599#32)) 0#32 = 1#1 ↔ _
  exact (test_eq_iff _ _).trans (ofNat_inj_small _ 1599 (by omega) (by omega))

end Cert.Kernel.Hand

end
-- ==== Proof.K.PoolRun1.lean ====
import proofs.«414466_j73993696576172_1_alg».proof.Proof.K.Defs1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (i : grid1.Coords)
  (M1 : Memref sig .tc .smem S256 .i32) (h1 : M1.IsWhole) (M2 : Memref sig .tc .smem S256 .i32) (h2 : M2.IsWhole)
  (M3 : Memref sig .tc .hbm S50000x64 .f32) (h3 : M3.IsWhole)
  (M4 : Memref sig .tc .vmem S16384x64 .f32) (h4 : M4.IsWhole) (M5 : Memref sig .tc .vmem S16384x1 .f32) (h5 : M5.IsWhole)
  (M6 : Memref sig .tc .vmem S50000x64 .f32) (h6 : M6.IsWhole) (M7 : Memref sig .tc .vmem S16384x64 .f32) (h7 : M7.IsWhole)
  (M8 : Memref sig .tc .vmem S16384x1 .f32) (h8 : M8.IsWhole) (M9 : DmaSems sig S_)
  (hA : isFirst1 i = 1#1) (hnA : ¬ (isFirst1 i = 1#1)) (hnC : ¬ (k1_cond2 i = 1#1)) (hC : k1_cond2 i = 1#1)
  (x1 x2 : Vec F S256 .i32) (hx1 : ∀ y, BitVec.toNat (x1 y) < 50000) (hx2 : ∀ y, BitVec.toNat (x2 y) < 16384)
  (T : Vec F S50000x64 .f32) (S : Vec F S16384x64 .f32) (C : Vec F S16384x1 .f32)

set_option maxHeartbeats 16000000 in
noncomputable def poolRun1A (fh : Bf (F := F) c hbT1) :
    { W : Vec F S50000x64 .f32 × Vec F S16384x64 .f32 × Vec F S16384x1 .f32 //
      ∀ (Wt : Waits sig Unit) (Q : PUnit → sProp 𝕄),
        iprop(owns (c : Thread nD τ) M1 fullShare x1 ∗ owns (c : Thread nD τ) M2 fullShare x2
            ∗ (∃ d, owns (c : Thread nD τ) M6 fullShare d) ∗ (∃ d, owns (c : Thread nD τ) M7 fullShare d) ∗ (∃ d, owns (c : Thread nD τ) M8 fullShare d)
            ∗ semVal ((c : Thread nD τ), SemLoc.dma 13) 0 ∗ pt c hbT1 fh ∗ owes (c : Thread nD τ) 0 Wt
            ∗ (iprop(owns (c : Thread nD τ) M1 fullShare x1 ∗ owns (c : Thread nD τ) M2 fullShare x2
                ∗ owns (c : Thread nD τ) M6 fullShare W.1 ∗ owns (c : Thread nD τ) M7 fullShare W.2.1 ∗ owns (c : Thread nD τ) M8 fullShare W.2.2
                ∗ semVal ((c : Thread nD τ), SemLoc.dma 13) 0 ∗ pt c hbT1 fh ∗ (∃ W', owes (c : Thread nD τ) 0 W')) -∗ Q ⟨⟩))
          ⊢ wp frame (wpE (defs₀ (F := F)) Variants.none c none) Set.univ
              (cc1__pool_kernel i M1 h1 M2 h2 hbT1 (Memref.isWhole_whole _) M4 h4 M5 h5 M6 h6 M7 h7 M8 h8 cc1_scratch3) Q } := by
  clear hnA hC M9 T S C h3 M3
  refine ⟨⟨?_, ?_, ?_⟩, fun Wt Q => ?run⟩
  case run =>
    dsimp only
    unfold owns
    iintro ⟨⟨%f1, %hf1, H1⟩, ⟨%f2, %hf2, H2⟩, ⟨%d6, %f6, -, H6⟩, ⟨%d7, %f7, -, H7⟩, ⟨%d8, %f8, -, H8⟩, Hq, Hh, HW, Hk⟩
    obtain rfl := h1.eq_unread hf1
    obtain rfl := h2.eq_unread hf2
    sl_exec_parts! (disch := first | sl_exact hA | sl_exact hnC | (refine chk_tab _ ?_; sl_unfold_run_names; simp only [View.readAt_apply, Memref.IsWhole.read_unread]; exact hx1 _) | (refine chk_seg _ ?_; sl_unfold_run_names; simp only [View.readAt_apply, Memref.IsWhole.read_unread]; exact hx2 _))
    sl_step
    iapply Hk
    isplitl [H1]; · iexists _; iframe H1; ipureintro; exact h1.read_unread _
    isplitl [H2]; · iexists _; iframe H2; ipureintro; exact h2.read_unread _
    isplitl [H6]; · iexists _; iframe H6; ipureintro; exact rfl
    isplitl [H7]; · iexists _; iframe H7; ipureintro; exact rfl
    isplitl [H8]; · iexists _; iframe H8; ipureintro; exact rfl
    isplitl [Hq]; · iexact Hq
    isplitl [Hh]; · iexact Hh
    iexists _; iexact HW

set_option maxHeartbeats 16000000 in
noncomputable def poolRun1B :
    { W : Vec F S16384x64 .f32 × Vec F S16384x1 .f32 //
      ∀ (E : Set ℕ) (Q : PUnit → sProp 𝕄),
        iprop(owns (c : Thread nD τ) M1 fullShare x1 ∗ owns (c : Thread nD τ) M2 fullShare x2 ∗ owns (c : Thread nD τ) M6 fullShare T
            ∗ owns (c : Thread nD τ) M7 fullShare S ∗ owns (c : Thread nD τ) M8 fullShare C
            ∗ (iprop(owns (c : Thread nD τ) M1 fullShare x1 ∗ owns (c : Thread nD τ) M2 fullShare x2 ∗ owns (c : Thread nD τ) M6 fullShare T
                ∗ owns (c : Thread nD τ) M7 fullShare W.1 ∗ owns (c : Thread nD τ) M8 fullShare W.2) -∗ Q ⟨⟩))
          ⊢ wp frame (wpE (defs₀ (F := F)) Variants.none c none) E
              (cc1__pool_kernel i M1 h1 M2 h2 M3 h3 M4 h4 M5 h5 M6 h6 M7 h7 M8 h8 M9) Q } := by
  clear hA hC
  refine ⟨⟨?_, ?_⟩, fun E Q => ?run⟩
  case run =>
    dsimp only
    unfold owns
    iintro ⟨⟨%f1, %hf1, H1⟩, ⟨%f2, %hf2, H2⟩, ⟨%f6, %hf6, H6⟩, ⟨%f7, %hf7, H7⟩, ⟨%f8, %hf8, H8⟩, Hk⟩
    obtain rfl := h1.eq_unread hf1
    obtain rfl := h2.eq_unread hf2
    obtain rfl := h6.eq_unread hf6
    obtain rfl := h7.eq_unread hf7
    obtain rfl := h8.eq_unread hf8
    sl_exec_parts! (disch := first | sl_exact hnA | sl_exact hnC | (refine chk_tab _ ?_; sl_unfold_run_names; simp only [View.readAt_apply, Memref.IsWhole.read_unread]; exact hx1 _) | (refine chk_seg _ ?_; sl_unfold_run_names; simp only [View.readAt_apply, Memref.IsWhole.read_unread]; exact hx2 _))
    sl_step
    iapply Hk
    isplitl [H1]; · iexists _; iframe H1; ipureintro; exact h1.read_unread _
    isplitl [H2]; · iexists _; iframe H2; ipureintro; exact h2.read_unread _
    isplitl [H6]; · iexists _; iframe H6; ipureintro; exact h6.read_unread _
    isplitl [H7]; · iexists _; iframe H7; ipureintro; exact rfl
    iexists _; iframe H8; ipureintro; exact rfl

set_option maxHeartbeats 16000000 in
noncomputable def poolRun1C :
    { W : (Vec F S16384x64 .f32 × Vec F S16384x1 .f32) × (Vec F S16384x64 .f32 × Vec F S16384x1 .f32) //
      ∀ (E : Set ℕ) (Q : PUnit → sProp 𝕄),
        iprop(owns (c : Thread nD τ) M1 fullShare x1 ∗ owns (c : Thread nD τ) M2 fullShare x2 ∗ owns (c : Thread nD τ) M6 fullShare T
            ∗ owns (c : Thread nD τ) M7 fullShare S ∗ owns (c : Thread nD τ) M8 fullShare C
            ∗ (∃ d, owns (c : Thread nD τ) M4 fullShare d) ∗ (∃ d, owns (c : Thread nD τ) M5 fullShare d)
            ∗ (iprop(owns (c : Thread nD τ) M1 fullShare x1 ∗ owns (c : Thread nD τ) M2 fullShare x2 ∗ owns (c : Thread nD τ) M6 fullShare T
                ∗ owns (c : Thread nD τ) M7 fullShare W.1.1 ∗ owns (c : Thread nD τ) M8 fullShare W.1.2
                ∗ owns (c : Thread nD τ) M4 fullShare W.2.1 ∗ owns (c : Thread nD τ) M5 fullShare W.2.2) -∗ Q ⟨⟩))
          ⊢ wp frame (wpE (defs₀ (F := F)) Variants.none c none) E
              (cc1__pool_kernel i M1 h1 M2 h2 M3 h3 M4 h4 M5 h5 M6 h6 M7 h7 M8 h8 M9) Q } := by
  clear hA hnC
  refine ⟨⟨⟨?_, ?_⟩, ⟨?_, ?_⟩⟩, fun E Q => ?run⟩
  case run =>
    dsimp only
    unfold owns
    iintro ⟨⟨%f1, %hf1, H1⟩, ⟨%f2, %hf2, H2⟩, ⟨%f6, %hf6, H6⟩, ⟨%f7, %hf7, H7⟩, ⟨%f8, %hf8, H8⟩, ⟨%d4, %f4, -, H4⟩, ⟨%d5, %f5, -, H5⟩, Hk⟩
    obtain rfl := h1.eq_unread hf1
    obtain rfl := h2.eq_unread hf2
    obtain rfl := h6.eq_unread hf6
    obtain rfl := h7.eq_unread hf7
    obtain rfl := h8.eq_unread hf8
    sl_exec_parts! (disch := first | sl_exact hnA | sl_exact hC | (refine chk_tab _ ?_; sl_unfold_run_names; simp only [View.readAt_apply, Memref.IsWhole.read_unread]; exact hx1 _) | (refine chk_seg _ ?_; sl_unfold_run_names; simp only [View.readAt_apply, Memref.IsWhole.read_unread]; exact hx2 _))
    sl_step
    iapply Hk
    isplitl [H1]; · iexists _; iframe H1; ipureintro; exact h1.read_unread _
    isplitl [H2]; · iexists _; iframe H2; ipureintro; exact h2.read_unread _
    isplitl [H6]; · iexists _; iframe H6; ipureintro; exact h6.read_unread _
    isplitl [H7]; · iexists _; iframe H7; ipureintro; exact rfl
    isplitl [H8]; · iexists _; iframe H8; ipureintro; exact rfl
    isplitl [H4]; · iexists _; iframe H4; ipureintro; exact rfl
    iexists _; iframe H5; ipureintro; exact rfl

end Cert.Kernel.Hand

end
-- ==== Proof.K.Pool1Data.lean ====
import proofs.«414466_j73993696576172_1_alg».proof.Proof.K.PoolRun1
import Idealize.ShloMosaic.Lib.Pipeline.FrameBody
import Idealize.ShloMosaic.Lib.Pipeline.Regions
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (hr1 : ∀ (c : Dev nD) (j : S409600.Idx), BitVec.toNat ((V c main_arg4 : S409600.Idx → BitVec 32) j) < 50000)
variable (hr2 : ∀ (c : Dev nD) (j : S409600.Idx), BitVec.toNat ((V c main_arg5 : S409600.Idx → BitVec 32) j) < 16384)

-- The grid has one axis, so point t has coordinate t.
theorem coord1_val (t : Fin cfg1.N) : ((grid1.coords t) 0).val = t.val := by
  have hN : t.val < 1600 := lt_of_lt_of_eq t.isLt (show cfg1.N = 1600 from N_1)
  show t.val / grid1.stride 0 % grid1.bound 0 = t.val
  rw [show grid1.stride 0 = 1 from by decide, show grid1.bound 0 = 1600 from rfl, Nat.div_one, Nat.mod_eq_of_lt hN]

-- Block t of window w, read from the array as it stands when the region begins.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

include hr1 in
theorem hx1_01 (c : Dev nD) (t : Fin cfg1.N) : ∀ y, BitVec.toNat ((iblk1 V c 0 t : Vec F S256 .i32) y) < 50000 := fun y => by
  unfold iblk1; rw [View.read_apply]; exact hr1 c _

include hr2 in
theorem hx2_01 (c : Dev nD) (t : Fin cfg1.N) : ∀ y, BitVec.toNat ((iblk1 V c 1 t : Vec F S256 .i32) y) < 16384 := fun y => by
  unfold iblk1; rw [View.read_apply]; exact hr2 c _

theorem first_of_zero1 (t : Fin cfg1.N) (h : t.val = 0) : isFirst1 (grid1.coords t) = 1#1 :=
  (isFirst1_iff _).mpr ((coord1_val t).trans h)
theorem not_first_of_pos1 (t : Fin cfg1.N) (h : t.val ≠ 0) : ¬ (isFirst1 (grid1.coords t) = 1#1) :=
  fun e => h ((coord1_val t).symm.trans ((isFirst1_iff _).mp e))
theorem last_of1 (t : Fin cfg1.N) (h : t.val = 1599) : k1_cond2 (grid1.coords t) = 1#1 :=
  (cond2_1_iff _).mpr ((coord1_val t).trans h)
theorem not_last_of1 (t : Fin cfg1.N) (h : t.val ≠ 1599) : ¬ (k1_cond2 (grid1.coords t) = 1#1) :=
  fun e => h ((coord1_val t).symm.trans ((cond2_1_iff _).mp e))

-- The body's three cases at grid point t: the first point (A), a middle point (B), the last point (C);
-- B and C start from a state s of the table and the two accumulators.
abbrev wA1 (c : Dev nD) (t : Fin cfg1.N) (hA : isFirst1 (grid1.coords t) = 1#1) (hnC : ¬ (k1_cond2 (grid1.coords t) = 1#1)) :=
  poolRun1A c (grid1.coords t) (ms1_0 t) (hs1_0 t) (ms1_1 t) (hs1_1 t) (ms1_2 t) (hs1_2 t) (ms1_3 t) (hs1_3 t) scT1 (Memref.isWhole_whole _) scS1 (Memref.isWhole_whole _) scC1 (Memref.isWhole_whole _) hA hnC (iblk1 V c 0 t) (iblk1 V c 1 t) (hx1_01 V hr1 c t) (hx2_01 V hr2 c t) (V c main_arg11)

abbrev wB1 (c : Dev nD) (t : Fin cfg1.N) (hnA : ¬ (isFirst1 (grid1.coords t) = 1#1)) (hnC : ¬ (k1_cond2 (grid1.coords t) = 1#1)) (s : Vec F S50000x64 .f32 × Vec F S16384x64 .f32 × Vec F S16384x1 .f32) :=
  poolRun1B c (grid1.coords t) (ms1_0 t) (hs1_0 t) (ms1_1 t) (hs1_1 t) hbT1 (Memref.isWhole_whole _) (ms1_2 t) (hs1_2 t) (ms1_3 t) (hs1_3 t) scT1 (Memref.isWhole_whole _) scS1 (Memref.isWhole_whole _) scC1 (Memref.isWhole_whole _) cc1_scratch3 hnA hnC (iblk1 V c 0 t) (iblk1 V c 1 t) (hx1_01 V hr1 c t) (hx2_01 V hr2 c t) s.1 s.2.1 s.2.2

abbrev wC1 (c : Dev nD) (t : Fin cfg1.N) (hnA : ¬ (isFirst1 (grid1.coords t) = 1#1)) (hC : k1_cond2 (grid1.coords t) = 1#1) (s : Vec F S50000x64 .f32 × Vec F S16384x64 .f32 × Vec F S16384x1 .f32) :=
  poolRun1C c (grid1.coords t) (ms1_0 t) (hs1_0 t) (ms1_1 t) (hs1_1 t) hbT1 (Memref.isWhole_whole _) (ms1_2 t) (hs1_2 t) (ms1_3 t) (hs1_3 t) scT1 (Memref.isWhole_whole _) scS1 (Memref.isWhole_whole _) scC1 (Memref.isWhole_whole _) cc1_scratch3 hnA hC (iblk1 V c 0 t) (iblk1 V c 1 t) (hx1_01 V hr1 c t) (hx2_01 V hr2 c t) s.1 s.2.1 s.2.2

-- The table and the two accumulators after point n, by recursion on n: case A at 0, case C at 1599, case B between.
def stAt1 (c : Dev nD) : (n : ℕ) → n < cfg1.N → Vec F S50000x64 .f32 × Vec F S16384x64 .f32 × Vec F S16384x1 .f32
  | 0, hn => (wA1 V hr1 hr2 c ⟨0, hn⟩ (first_of_zero1 ⟨0, hn⟩ rfl) (not_last_of1 ⟨0, hn⟩ (show (0 : ℕ) ≠ 1599 from by decide))).1
  | n + 1, hn =>
    if h : n + 1 = 1599 then
      ((stAt1 c n (Nat.lt_of_succ_lt hn)).1,
        (wC1 V hr1 hr2 c ⟨n + 1, hn⟩ (not_first_of_pos1 ⟨n + 1, hn⟩ (Nat.succ_ne_zero n)) (last_of1 ⟨n + 1, hn⟩ h) (stAt1 c n (Nat.lt_of_succ_lt hn))).1.1)
    else
      ((stAt1 c n (Nat.lt_of_succ_lt hn)).1,
        (wB1 V hr1 hr2 c ⟨n + 1, hn⟩ (not_first_of_pos1 ⟨n + 1, hn⟩ (Nat.succ_ne_zero n)) (not_last_of1 ⟨n + 1, hn⟩ h) (stAt1 c n (Nat.lt_of_succ_lt hn))).1)

theorem stAt1_zero (c : Dev nD) (hn : 0 < cfg1.N) (hA : isFirst1 (grid1.coords ⟨0, hn⟩) = 1#1) (hnC : ¬ (k1_cond2 (grid1.coords ⟨0, hn⟩) = 1#1)) :
    stAt1 V hr1 hr2 c 0 hn = (wA1 V hr1 hr2 c ⟨0, hn⟩ hA hnC).1 := rfl

theorem stAt1_mid (c : Dev nD) (n : ℕ) (hn : n + 1 < cfg1.N) (h : n + 1 ≠ 1599)
    (hnA : ¬ (isFirst1 (grid1.coords ⟨n + 1, hn⟩) = 1#1)) (hnC : ¬ (k1_cond2 (grid1.coords ⟨n + 1, hn⟩) = 1#1)) :
    stAt1 V hr1 hr2 c (n + 1) hn = ((stAt1 V hr1 hr2 c n (Nat.lt_of_succ_lt hn)).1,
      (wB1 V hr1 hr2 c ⟨n + 1, hn⟩ hnA hnC (stAt1 V hr1 hr2 c n (Nat.lt_of_succ_lt hn))).1) :=
  (dif_neg h).trans rfl

theorem stAt1_last (c : Dev nD) (n : ℕ) (hn : n + 1 < cfg1.N) (h : n + 1 = 1599)
    (hnA : ¬ (isFirst1 (grid1.coords ⟨n + 1, hn⟩) = 1#1)) (hC : k1_cond2 (grid1.coords ⟨n + 1, hn⟩) = 1#1) :
    stAt1 V hr1 hr2 c (n + 1) hn = ((stAt1 V hr1 hr2 c n (Nat.lt_of_succ_lt hn)).1,
      (wC1 V hr1 hr2 c ⟨n + 1, hn⟩ hnA hC (stAt1 V hr1 hr2 c n (Nat.lt_of_succ_lt hn))).1.1) :=
  (dif_pos h).trans rfl

-- What point n leaves in the two output blocks; only the last point's value is ever used.
def outsAt1 (c : Dev nD) : (n : ℕ) → n < cfg1.N → Vec F S16384x64 .f32 × Vec F S16384x1 .f32
  | 0, hn => (stAt1 V hr1 hr2 c 0 hn).2
  | n + 1, hn =>
    if h : n + 1 = 1599 then
      (wC1 V hr1 hr2 c ⟨n + 1, hn⟩ (not_first_of_pos1 ⟨n + 1, hn⟩ (Nat.succ_ne_zero n)) (last_of1 ⟨n + 1, hn⟩ h) (stAt1 V hr1 hr2 c n (Nat.lt_of_succ_lt hn))).1.2
    else (stAt1 V hr1 hr2 c (n + 1) hn).2

theorem outsAt1_last (c : Dev nD) (n : ℕ) (hn : n + 1 < cfg1.N) (h : n + 1 = 1599)
    (hnA : ¬ (isFirst1 (grid1.coords ⟨n + 1, hn⟩) = 1#1)) (hC : k1_cond2 (grid1.coords ⟨n + 1, hn⟩) = 1#1) :
    outsAt1 V hr1 hr2 c (n + 1) hn = (wC1 V hr1 hr2 c ⟨n + 1, hn⟩ hnA hC (stAt1 V hr1 hr2 c n (Nat.lt_of_succ_lt hn))).1.2 :=
  (dif_pos h).trans rfl

-- From here on both are used through the equations above only.
attribute [irreducible] stAt1 outsAt1

abbrev osem1 : Fin 1 → SemLoc sig := fun _ => SemLoc.dma 13
theorem ownSemFacts1 : Pipeline.OwnSemFacts spec1 osem1 := by decide

abbrev own1 (c : Dev nD) : sProp 𝕄 :=
  Pipeline.ownSems0 (Ix := Unit) (Name := ℕ) (U := Pipeline.UD sig nD τ) (Lvl := ℕ) (Val := Elt F) (τ := τ) osem1 c

theorem ownSems00_eq1 (c : Dev nD) : (own1 c : sProp 𝕄) = iprop(semVal ((c : Thread nD τ), SemLoc.dma 13) 0) := by
  unfold own1; rw [Pipeline.ownSems0_eq_of_list c osem1 [0] (by decide) (by decide)]; rfl

def H1 : Finset (Ref sig .tc) := {main_arg11}
theorem H1_sub : H1 ⊆ Pipeline.restRefs sig spec1 := by decide

abbrev hbm1 (c : Dev nD) : sProp 𝕄 :=
  bigSep H1 (fun b => ((c : Thread nD τ).loc b) ↦{fullShare} V c b)

theorem hbmPts1_eq (c : Dev nD) : (hbm1 V c : sProp 𝕄) = iprop(pt c hbT1 (V c main_arg11)) := by
  unfold hbm1; rw [BI.bigSep_eq_bigSepL_of_eq [main_arg11] (by decide) (by decide)]; rfl

abbrev scrAny1 (c : Dev nD) : sProp 𝕄 :=
  iprop((∃ d, owns (c : Thread nD τ) scT1 fullShare d) ∗ (∃ d, owns (c : Thread nD τ) scS1 fullShare d) ∗ (∃ d, owns (c : Thread nD τ) scC1 fullShare d))

abbrev scrAt1 (c : Dev nD) (s : Vec F S50000x64 .f32 × Vec F S16384x64 .f32 × Vec F S16384x1 .f32) : sProp 𝕄 :=
  iprop(owns (c : Thread nD τ) scT1 fullShare s.1 ∗ owns (c : Thread nD τ) scS1 fullShare s.2.1 ∗ owns (c : Thread nD τ) scC1 fullShare s.2.2)

abbrev restBut1 (c : Dev nD) : sProp 𝕄 :=
  Pipeline.scopedRestBut (Ix := Unit) (Name := ℕ) (U := Pipeline.UD sig nD τ) (Lvl := ℕ) (Val := Elt F) spec1 c [cc1_scratch0, cc1_scratch1, cc1_scratch2]

abbrev scoped1 (c : Dev nD) : sProp 𝕄 :=
  Pipeline.scopedRest (Ix := Unit) (Name := ℕ) (U := Pipeline.UD sig nD τ) (Lvl := ℕ) (Val := Elt F) spec1 c

theorem scoped1_eq (c : Dev nD) : (scoped1 c : sProp 𝕄) = iprop(scrAny1 c ∗ restBut1 c) := by
  unfold scoped1 scrAny1 restBut1; rw [scopedRest1_split]; simp only [scT1, scS1, scC1, owns_whole]; try rfl

def PhiRest1 (c : Dev nD) : sProp 𝕄 :=
  iprop(restBut1 c ∗ (∃ r, prngReg c r) ∗ semVal ((c : Thread nD τ), SemLoc.dma 13) 0 ∗ pt c hbT1 (V c main_arg11))

-- Between points the three scratch arrays hold the state after the point before (anything before the first),
-- beside resources that never change.
def Phi1 (c : Dev nD) : (n : ℕ) → n ≤ cfg1.N → sProp 𝕄
  | 0, _ => iprop(scrAny1 c ∗ PhiRest1 V c)
  | n + 1, hn => iprop(scrAt1 c (stAt1 V hr1 hr2 c n hn) ∗ PhiRest1 V c)

theorem Phi1_zero (c : Dev nD) (n : ℕ) (h : n ≤ cfg1.N) (hz : n = 0) :
    Phi1 V hr1 hr2 c n h = iprop(scrAny1 c ∗ PhiRest1 V c) := by
  subst hz; rfl

theorem Phi1_pos (c : Dev nD) (n : ℕ) (h : n ≤ cfg1.N) (hz : n ≠ 0) :
    Phi1 V hr1 hr2 c n h = iprop(scrAt1 c (stAt1 V hr1 hr2 c (n - 1) (by omega)) ∗ PhiRest1 V c) := by
  cases n with
  | zero => exact absurd rfl hz
  | succ n => rfl

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V hr1 hr2 c t.val t.isLt).1
    | ⟨3, _⟩ => (outsAt1 V hr1 hr2 c t.val t.isLt).2
  Φ t := Phi1 V hr1 hr2 c t.val (Nat.le_of_lt_succ t.isLt)
  q _ := fullShare
  owed _ := 0

theorem A_eq1 (c : Dev nD) (w : Fin cfg1.W) : (dat1 V hr1 hr2 c).A w = V c (Pipeline.arrRef spec1 w) := rfl

theorem after1_2 (c : Dev nD) (t : Fin cfg1.N) : (dat1 V hr1 hr2 c).after 2 t = (outsAt1 V hr1 hr2 c t.val t.isLt).1 := rfl
theorem after1_3 (c : Dev nD) (t : Fin cfg1.N) : (dat1 V hr1 hr2 c).after 3 t = (outsAt1 V hr1 hr2 c t.val t.isLt).2 := rfl

theorem before1_0 (c : Dev nD) (t : Fin cfg1.N) (d) : (dat1 V hr1 hr2 c).before 0 t d = iblk1 V c 0 t :=
  (dat1 V hr1 hr2 c).before_in_eq_fetched 0 rfl (fun _ => rfl) (fun _ _ _ => rfl) (fun _ => rfl) t d
theorem before1_1 (c : Dev nD) (t : Fin cfg1.N) (d) : (dat1 V hr1 hr2 c).before 1 t d = iblk1 V c 1 t :=
  (dat1 V hr1 hr2 c).before_in_eq_fetched 1 rfl (fun _ => rfl) (fun _ _ _ => rfl) (fun _ => rfl) t d

end Cert.Kernel.Hand

end
-- ==== Proof.K.Pool1.lean ====
import proofs.«414466_j73993696576172_1_alg».proof.Proof.K.Pool1Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (hr1 : ∀ (c : Dev nD) (j : S409600.Idx), BitVec.toNat ((V c main_arg4 : S409600.Idx → BitVec 32) j) < 50000)
variable (hr2 : ∀ (c : Dev nD) (j : S409600.Idx), BitVec.toNat ((V c main_arg5 : S409600.Idx → BitVec 32) j) < 16384)

theorem idleAt1 (t : Fin cfg1.N) (h : ¬ (k1_cond2 (grid1.coords t) = 1#1)) : cfg1.idle 2 (grid1.coords t) = true := by
  show (!(k1_cond2 (grid1.coords t) == 1#1)) = true
  rw [Bool.not_eq_true', beq_eq_false_iff_ne]; exact h

theorem noFlush1 {w : Fin cfg1.W} (hw : w = 2 ∨ w = 3) (t : Fin cfg1.N) (h : t.val ≠ 1599) : (cfg1.win w).flush t = false := by
  have hN : t.val < 1600 := lt_of_lt_of_eq t.isLt (show cfg1.N = 1600 from N_1)
  rcases hw with rfl | rfl
  · exact Bool.eq_false_iff.mpr fun hf => h (by have := (flush1_2 t).mp hf; omega)
  · exact Bool.eq_false_iff.mpr fun hf => h (by have := (flush1_3 t).mp hf; omega)

set_option maxHeartbeats 4000000 in
theorem body_obligation1 (c : Dev nD) : BodyObligation (dat1 (F := F) V hr1 hr2 c) (defs₀ (F := F)) Variants.none () Set.univ := fun t => by
  rw [bigSep_W1, bigSep_W1]
  simp only [before1_0, before1_1]
  change iprop(Phi1 V hr1 hr2 c t.val (Nat.le_of_lt t.isLt) ∗ _) ⊢ wp _ _ _ (bodyAt1 t) fun _ =>
    iprop(iprop(scrAt1 c (stAt1 V hr1 hr2 c t.val t.isLt) ∗ PhiRest1 V c) ∗ (dat1 V hr1 hr2 c).owesAt () t.succ
      ∗ owns (c : Thread nD τ) (ms1_0 t) fullShare (iblk1 V c 0 t) ∗ owns (c : Thread nD τ) (ms1_1 t) fullShare (iblk1 V c 1 t)
      ∗ (dat1 V hr1 hr2 c).leavesExact 2 t ∗ (dat1 V hr1 hr2 c).leavesExact 3 t)
  unfold bodyAt1
  obtain ⟨n, hn⟩ := t
  cases n with
  | zero =>
    have h1 : (⟨0, hn⟩ : Fin cfg1.N).val ≠ 1599 := show (0 : ℕ) ≠ 1599 from by decide
    have hA := first_of_zero1 ⟨0, hn⟩ rfl
    have hnC := not_last_of1 ⟨0, hn⟩ h1
    unfold Dat.leavesExact
    rw [idleAt1 _ hnC, noFlush1 (.inl rfl) _ h1, noFlush1 (.inr rfl) _ h1, Phi1_zero V hr1 hr2 c _ _ rfl, stAt1_zero V hr1 hr2 c hn hA hnC]
    unfold PhiRest1 scrAny1 scrAt1 Dat.owesAt Pipeline.owesWithin
    rw [show (dat1 V hr1 hr2 c).owed _ = 0 from rfl, show (dat1 V hr1 hr2 c).owed _ = 0 from rfl]
    iintro ⟨⟨⟨HT, HS, HC⟩, HR, Hg, Hq, Hh⟩, ⟨%W, -, HW⟩, ⟨%d0, Ha⟩, ⟨%d1, Hb⟩, H2, H3⟩
    iapply ((wA1 V hr1 hr2 c ⟨0, hn⟩ hA hnC).2 W _)
    iframe Ha Hb HT HS HC Hq Hh HW
    iintro ⟨Ha, Hb, HT, HS, HC, Hq, Hh, ⟨%W', HW'⟩⟩
    iframe Ha Hb HT HS HC HR Hg Hq Hh H2 H3
    iexists W'; isplitr; · ipureintro; exact fun _ _ => Or.inl trivial
    iexact HW'
  | succ n =>
    have hnA := not_first_of_pos1 ⟨n + 1, hn⟩ (Nat.succ_ne_zero n)
    change iprop(iprop(scrAt1 c (stAt1 V hr1 hr2 c n (Nat.lt_of_succ_lt hn)) ∗ PhiRest1 V c) ∗ _) ⊢ wp _ _ _ _ fun _ =>
      iprop(_ ∗ (dat1 V hr1 hr2 c).owesAt () (Fin.castSucc ⟨n + 1, hn⟩) ∗ _)
    by_cases h1 : n + 1 = 1599
    · have hC := last_of1 ⟨n + 1, hn⟩ h1
      unfold Dat.leavesExact
      rw [show cfg1.idle 2 (grid1.coords ⟨n + 1, hn⟩) = false from by show (!(k1_cond2 (grid1.coords ⟨n + 1, hn⟩) == 1#1)) = false; rw [hC]; rfl, after1_2, after1_3, stAt1_last V hr1 hr2 c n hn h1 hnA hC, outsAt1_last V hr1 hr2 c n hn h1 hnA hC]
      dsimp only [scrAt1]
      iintro ⟨⟨⟨HT, HS, HC⟩, HR⟩, Ho, ⟨%d0, Ha⟩, ⟨%d1, Hb⟩, ⟨%d2, H2⟩, ⟨%d3, H3⟩⟩
      iapply ((wC1 V hr1 hr2 c ⟨n + 1, hn⟩ hnA hC (stAt1 V hr1 hr2 c n (Nat.lt_of_succ_lt hn))).2 Set.univ _)
      iframe Ha Hb HT HS HC
      isplitl [H2]; · iexists _; iexact H2
      isplitl [H3]; · iexists _; iexact H3
      iintro ⟨Ha, Hb, HT, HS, HC, H2, H3⟩
      iframe
    · have hnC := not_last_of1 ⟨n + 1, hn⟩ h1
      unfold Dat.leavesExact
      rw [idleAt1 _ hnC, noFlush1 (.inl rfl) _ h1, noFlush1 (.inr rfl) _ h1, stAt1_mid V hr1 hr2 c n hn h1 hnA hnC]
      dsimp only [scrAt1]
      iintro ⟨⟨⟨HT, HS, HC⟩, HR⟩, Ho, ⟨%d0, Ha⟩, ⟨%d1, Hb⟩, H2, H3⟩
      iapply ((wB1 V hr1 hr2 c ⟨n + 1, hn⟩ hnA hnC (stAt1 V hr1 hr2 c n (Nat.lt_of_succ_lt hn))).2 Set.univ _)
      iframe Ha Hb HT HS HC
      iintro ⟨Ha, Hb, HT, HS, HC⟩
      iframe

theorem hin1 (c : Dev nD) {P : sProp 𝕄} :
    iprop(iprop((∃ r, prngReg c r) ∗ own1 c ∗ hbm1 V c) ∗ P ∗ scoped1 c) ⊢ (dat1 V hr1 hr2 c).Φ 0 := by
  rw [show (dat1 V hr1 hr2 c).Φ 0 = Phi1 V hr1 hr2 c 0 (Nat.zero_le _) from rfl, Phi1_zero V hr1 hr2 c 0 _ rfl]
  rw [ownSems00_eq1, hbmPts1_eq, scoped1_eq]
  unfold PhiRest1 scrAny1
  iintro ⟨⟨Hg, Hq, Hh⟩, -, ⟨⟨HT, HS, HC⟩, HR⟩⟩
  iframe

theorem hout1 (c : Dev nD) :
    (dat1 V hr1 hr2 c).Φ (Fin.last cfg1.N) ⊢ iprop(iprop((∃ r, prngReg c r) ∗ hbm1 V c) ∗ own1 c ∗ scoped1 c) := by
  rw [show (dat1 V hr1 hr2 c).Φ (Fin.last cfg1.N) = Phi1 V hr1 hr2 c (Fin.last cfg1.N).val (Nat.le_of_lt_succ (Fin.last cfg1.N).isLt) from rfl,
    Phi1_pos V hr1 hr2 c _ _ (by rw [Fin.val_last]; have : cfg1.N = 1600 := N_1; omega)]
  rw [ownSems00_eq1, hbmPts1_eq, scoped1_eq]
  unfold PhiRest1 scrAny1
  iintro ⟨⟨HT, HS, HC⟩, HR, Hg, Hq, Hh⟩
  iframe Hg Hh Hq HR
  isplitl [HT]; · iexists _; iexact HT
  isplitl [HS]; · iexists _; iexact HS
  iexists _; iexact HC

end Cert.Kernel.Hand

end
-- ==== Proof.K.Combine.lean ====
import proofs.«414466_j73993696576172_1_alg».proof.Proof.Gen.Kernel.Skeleton
import proofs.«414466_j73993696576172_1_alg».proof.Proof.Gen.Kernel.Launch
import proofs.«414466_j73993696576172_1_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-- Window `w`'s block at point `t` of the array the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body stores at point `t`: its payload of the eight input blocks there. -/
def pay2 (c : Dev nD) (t : Fin cfg2.N) : Vec F S2048x1 .f32 :=
  k2_pay1 (k2_pay2 (iblk2 V c 1 t) (iblk2 V c 0 t) (iblk2 V c 3 t) (iblk2 V c 2 t) (iblk2 V c 4 t) (iblk2 V c 5 t) (iblk2 V c 6 t)) (iblk2 V c 7 t)

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => pay2 V c t
  Φ _ := Pipeline.ΦA spec2 c
  q _ := fullShare
  owed _ := 0

/-- For an input window, the contents the body finds at a point are the contents it leaves there. -/
theorem before2 (c : Dev nD) (t : Fin cfg2.N) (w : Fin 9) : w ≠ 8 → ∀ d, (dat2 V c).before w t d = (dat2 V c).after w t := by
  fin_cases w <;> intro hw d
  on_goal 9 => exact absurd rfl hw
  all_goals exact (dat2 V c).before_in_eq_fetched _ rfl (fun _ => rfl) (fun _ _ _ => rfl) (fun _ => rfl) t d

set_option maxHeartbeats 4000000 in
/-- The body loads its eight input blocks whole and stores its payload over the whole output block. -/
theorem body_obligation2 (c : Dev nD) : BodyObligation (dat2 (F := F) V c) (defs₀ (F := F)) Variants.none () Set.univ := fun t => by
  have h0 : (![0, 0] : Fin 2 → Nat) = fun _ => 0 := by funext a; fin_cases a <;> rfl
  have hb := before2 V c t
  have iW := inb_S2048x64_S2048x64_0_0
  have iC := inb_S2048x1_S2048x1_0_0
  rw [bigSep_W2, bigSep_W2, show (dat2 V c).Φ t.succ = (dat2 V c).Φ t.castSucc from rfl,
    show (dat2 V c).owesAt () t.succ = (dat2 V c).owesAt () t.castSucc from rfl]
  simp only [hb 0 (by decide), hb 1 (by decide), hb 2 (by decide), hb 3 (by decide), hb 4 (by decide), hb 5 (by decide), hb 6 (by decide), hb 7 (by decide)]
  change _ ⊢ wp _ _ _ (bodyAt2 t) _
  unfold bodyAt2
  simp only [cc2__combine_kernel_eq_skeleton]; unfold cc2__combine_kernel_skel
  simp only [k2_part1_eq_skeleton]; unfold k2_part1_skel
  unfold owns
  iintro ⟨HΦ, Ho, ⟨%d0, %f0, %hf0, Ha⟩, ⟨%d1, %f1, %hf1, Hb⟩, ⟨%d2, %f2, %hf2, Hc⟩, ⟨%d3, %f3, %hf3, Hd⟩, ⟨%d4, %f4, %hf4, He⟩, ⟨%d5, %f5, %hf5, Hf⟩, ⟨%d6, %f6, %hf6, Hg⟩, ⟨%d7, %f7, %hf7, Hh⟩, ⟨%d8, %f8, -, Hi⟩⟩
  sl_exec
  sl_step
  iframe HΦ Ho
  isplitl [Ha]; · iexists f0; iframe %hf0 Ha
  isplitl [Hb]; · iexists f1; iframe %hf1 Hb
  isplitl [Hc]; · iexists f2; iframe %hf2 Hc
  isplitl [Hd]; · iexists f3; iframe %hf3 Hd
  isplitl [He]; · iexists f4; iframe %hf4 He
  isplitl [Hf]; · iexists f5; iframe %hf5 Hf
  isplitl [Hg]; · iexists f6; iframe %hf6 Hg
  isplitl [Hh]; · iexists f7; iframe %hf7 Hh
  iexists _; isplitr
  swap; · iexact Hi
  ipureintro
  refine (View.read_writes_eq_canon _ _ _ fun y => ⟨_, List.mem_singleton_self _, ?_⟩).trans ?_
  · exact View.mem_set_unit_zero h0 iC y
  refine (View.canon_unit_zero h0 iC _).trans ?_
  show _ = pay2 V c t
  unfold pay2
  congr 2
  exacts [(View.ld_unit_zero h0 iC _).trans hf1, (View.ld_unit_zero h0 iW _).trans hf0, (View.ld_unit_zero h0 iC _).trans hf3,
    (View.ld_unit_zero h0 iW _).trans hf2, (View.ld_unit_zero h0 iW _).trans hf4, (View.ld_unit_zero h0 iW _).trans hf5,
    (View.ld_unit_zero h0 iC _).trans hf6, (View.ld_unit_zero h0 iC _).trans hf7]

end Cert.Kernel.Hand

end
-- ==== Proof.K.Assemble.lean ====
import proofs.«414466_j73993696576172_1_alg».proof.Proof.K.Pool0
import proofs.«414466_j73993696576172_1_alg».proof.Proof.K.Pool1
import proofs.«414466_j73993696576172_1_alg».proof.Proof.K.Combine
import proofs.«414466_j73993696576172_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat BodyObligation)

abbrev 𝒱₀ : Variants := Variants.none
abbrev PD (cfg : Pipeline.Cfg sig Λ₀) (c : Dev nD) := Dat τ (Elt F) Unit ℕ (Pipeline.UD sig nD τ) ℕ cfg c
abbrev L : GSem nD τ sig → Finset Unit := fun _ => ∅
abbrev lv : GSem nD τ sig → Unit → ℕ := fun _ _ => 0

abbrev vOf (W : Dev nD → Valuation τ sig (Elt F)) : (c : Dev nD) → (b : Ref sig .tc) → Buf (Elt F) ((c : Thread nD τ).loc b) :=
  fun c b => W c b

abbrev pts (W : Dev nD → Valuation τ sig (Elt F)) (c : Dev nD) (b : Ref sig .tc) : sProp 𝕄 :=
  ((c : Thread nD τ).loc b) ↦{fullShare} vOf W c b

abbrev R (c : Dev nD) : sProp 𝕄 := iprop((∃ r, prngReg c r) ∗ ∃ W, owes (c : Thread nD τ) (0 : CellTallies nD τ sig Unit) W)

abbrev Tst (W : Dev nD → Valuation τ sig (Elt F)) (c : Dev nD) : sProp 𝕄 :=
  iprop(StableHlo.held (c : Thread nD τ) (Pipeline.ucRefs τ sig) (W c) ∗ R c)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The valuation a region leaves: its arrays at the proof data's last contents, every other buffer unchanged. -/
def afterReg (p : Fin 3) (W : Dev nD → Valuation τ sig (Elt F))
    (D : (c : Dev nD) → PD (F := F) (cfgs p) c) (c : Dev nD) : Valuation τ sig (Elt F) :=
  Pipeline.withArrays (cfgs p).spec c (W c) fun w => (D c).arrAt w (cfgs p).N

section
variable {p : Fin 3} (W : Dev nD → Valuation τ sig (Elt F)) (D : (c : Dev nD) → PD (F := F) (cfgs p) c)

theorem afterReg_arr (ln : Pipeline.LaunchFacts (nD := nD) (τ := τ) cfgs p) (c : Dev nD) (w : Fin (cfgs p).W) :
    afterReg p W D c (Proc.devRef .tc (Pipeline.arrRef (cfgs p).spec w)) = (D c).arrAt w (cfgs p).N :=
  Pipeline.withArrays_arr _ ln.win.arr_inj c _ _ w

theorem afterReg_of_ne (c : Dev nD) (b : Ref sig .tc) (hb : ∀ w, Pipeline.arrRef (cfgs p).spec w ≠ b) :
    afterReg p W D c (Proc.devRef .tc b) = W c (Proc.devRef .tc b) :=
  Pipeline.withArrays_of_ne _ c _ _ b hb

abbrev Xof {K : Type} [Fintype K] (osem : K → SemLoc sig) (H : Finset (Ref sig .tc)) (c : Dev nD) : sProp 𝕄 :=
  iprop((∃ r, prngReg c r) ∗ Pipeline.ownSems0 osem c ∗ bigSep H (pts W c))
abbrev Yof (H : Finset (Ref sig .tc)) (c : Dev nD) : sProp 𝕄 := iprop((∃ r, prngReg c r) ∗ bigSep H (pts W c))
end

/-- Proof data that owes nothing and bounds no recorded pair: owing nothing is its `owesAt` at any point, -/
theorem owes_in {cfg : Pipeline.Cfg sig Λ₀} {c : Dev nD} (d : PD (F := F) cfg c) (t : Fin (cfg.N + 1))
    (h0 : d.owed t = 0) (hr : d.recorded t = Set.univ) :
    iprop(∃ W, owes (c : Thread nD τ) (0 : CellTallies nD τ sig Unit) W) ⊢ (d.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO

/-- and conversely. -/
theorem owes_out {cfg : Pipeline.Cfg sig Λ₀} {c : Dev nD} (d : PD (F := F) cfg c) (t : Fin (cfg.N + 1))
    (h0 : d.owed t = 0) :
    (d.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

/-- The unscoped buffers that are no array of region `p`: those in `H`, and the others. -/
theorem rest_split {p : Fin 3} (W : Dev nD → Valuation τ sig (Elt F)) {H : Finset (Ref sig .tc)} (hH : H ⊆ Pipeline.restRefs sig (cfgs p).spec) (c : Dev nD) :
    (Pipeline.unscopedRest (cfgs p).spec c (vOf W c) : sProp 𝕄)
      = iprop(bigSep H (pts W c) ∗ bigSep (Pipeline.restRefs sig (cfgs p).spec \ H) (pts W c)) := by
  unfold Pipeline.unscopedRest; exact BI.bigSep_sdiff_split hH

set_option backward.isDefEq.respectTransparency.types false in
/-- Region `p` as a segment from the thread state at `W` to the one at `afterReg p W (pd p)`, for any `p`. -/
def reg (pd : (p : Fin 3) → (c : Dev nD) → PD (F := F) (Pipeline.pin (pcfgs (F := F)) adm p) c)
    (p : Fin 3) (ln : Pipeline.LaunchFacts (nD := nD) (τ := τ) cfgs p) {K : Type} [Fintype K] (osem : K → SemLoc sig)
    (ho : Pipeline.OwnSemFacts (cfgs p).spec osem) (H : Finset (Ref sig .tc)) (hH : H ⊆ Pipeline.restRefs sig (cfgs p).spec)
    (W : Dev nD → Valuation τ sig (Elt F))
    (hb : ∀ c, BodyObligation (pd p c) (defs₀ (F := F)) 𝒱₀ () Set.univ)
    (hq : ∀ c w, (pd p c).q w = fullShare) (h0 : ∀ c t, (pd p c).owed t = 0) (hr : ∀ c t, (pd p c).recorded t = Set.univ)
    (hA : ∀ c w, (pd p c).A w = vOf W c (Pipeline.arrRef (cfgs p).spec w))
    (hin : ∀ c, iprop(Xof W osem H c ∗ Pipeline.prefHeld (pcfgs (F := F) p).pre c (fun _ => fullShare) (adm p).1
      ∗ Pipeline.scopedRest (cfgs p).spec c) ⊢ (pd p c).Φ 0)
    (hout : ∀ c, (pd p c).Φ (Fin.last (cfgs p).N) ⊢ iprop(Yof W H c
      ∗ Pipeline.ownSems0 osem c
      ∗ Pipeline.scopedRest (cfgs p).spec c)) :
    Pipeline.RegionSeg (pcfgs (F := F)) adm pd () defs₀ 𝒱₀ L lv p where
  win := ln.win.to₀
  block_pos := ln.block_pos
  stage_whole := ln.stage_whole
  K := K
  osem := osem
  ho := ho
  hbody c := (hb c).loose
  hwaits := Pipeline.hwaits_of_owed_zero _ _ _ _ L lv p h0
  pre := Tst W
  post := Tst (afterReg p W (pd p))
  X := Xof W osem H
  Y := Yof W H
  Z c := bigSep (Pipeline.restRefs sig (cfgs p).spec \ H) (pts W c)
  hentry c := by
    have hsplit := Pipeline.arrays_of_unscopedBufs (p := p) (pcfgs (F := F)) adm pd ln.win ln.arr_whole c
      ((pd p c).share_full (hq c)) (vOf W c) (hA c)
    rw [Pipeline.unscopedBufs_held] at hsplit
    have hR := rest_split W hH c
    iintro ⟨⟨Hub, Hp, HO⟩, Hos, -⟩
    ihave Hs := hsplit $$ Hub
    icases Hs with ⟨Ha, Hrest⟩
    ihave Hs' := (Entails.of_eq hR) $$ Hrest
    icases Hs' with ⟨HH, HR⟩
    imodintro
    isplitl [Ha]; · iexact Ha
    isplitr; · unfold Pipeline.prefHeld; rw [show (Finset.univ : Finset (Fin 0)) = ∅ from rfl, BI.bigSep_empty]; iempintro
    isplitl [HO]; · iapply (owes_in (pd p c) 0 (h0 c 0) (hr c 0)); iexact HO
    unfold Xof; iframe
  hin := hin
  hout := hout
  hexit c := by
    have hjoin := Pipeline.unscopedBufs_of_arrays (p := p) (pcfgs (F := F)) adm (Ix := Unit) (Name := ℕ) (U := Pipeline.UD sig nD τ) (Lvl := ℕ)
      ln.win ln.arr_whole c pd ((pd p c).share_full (hq c)) (vOf W c) (vOf (afterReg p W (pd p)) c) ((pd p c).arrAt · (cfgs p).N)
      (fun w => (afterReg_arr W (pd p) ln c w).symm)
      (fun b hb => afterReg_of_ne W (pd p) c b fun w e => hb (Finset.mem_image.mpr ⟨w, Finset.mem_univ _, e⟩))
    rw [Pipeline.unscopedBufs_held] at hjoin
    have hR := rest_split W hH c
    iintro ⟨Ha, HO, ⟨HY, HH⟩, HR⟩
    ihave Hrest := (Entails.of_eq hR.symm) $$ [HH HR]
    · iframe
    imodintro
    isplitl [Ha Hrest]; · iapply hjoin; iframe
    isplitl [HY]; · iexact HY
    iapply (owes_out (pd p c) (Fin.last _) (h0 c _)); iexact HO

variable (m : (ℓ : Loc nD τ sig) → Buf (Elt F) ℓ) (ρ : Dev nD → PrngReg)
variable (hm2 : ∀ (c : Dev nD) (j : S819200.Idx), BitVec.toNat ((m ((c : Thread nD τ).loc main_arg2) : S819200.Idx → BitVec 32) j) < 50000)
variable (hm3 : ∀ (c : Dev nD) (j : S819200.Idx), BitVec.toNat ((m ((c : Thread nD τ).loc main_arg3) : S819200.Idx → BitVec 32) j) < 16384)
variable (hm4 : ∀ (c : Dev nD) (j : S409600.Idx), BitVec.toNat ((m ((c : Thread nD τ).loc main_arg4) : S409600.Idx → BitVec 32) j) < 50000)
variable (hm5 : ∀ (c : Dev nD) (j : S409600.Idx), BitVec.toNat ((m ((c : Thread nD τ).loc main_arg5) : S409600.Idx → BitVec 32) j) < 16384)

abbrev W0 : Dev nD → Valuation τ sig (Elt F) := fun c b => m ((c : Dev nD), b)
abbrev V0 := vOf (W0 m)
abbrev D0 := dat0 (V0 m) hm2 hm3
def W1 := afterReg 0 (W0 m) (D0 m hm2 hm3)
abbrev V1 := vOf (W1 m hm2 hm3)

include hm4 in
theorem hv4 (c : Dev nD) (j : S409600.Idx) : BitVec.toNat ((V1 m hm2 hm3 c main_arg4 : S409600.Idx → BitVec 32) j) < 50000 := by
  rw [show V1 m hm2 hm3 c main_arg4 = V0 m c main_arg4 from afterReg_of_ne _ _ c main_arg4 (by decide)]; exact hm4 c j
include hm5 in
theorem hv5 (c : Dev nD) (j : S409600.Idx) : BitVec.toNat ((V1 m hm2 hm3 c main_arg5 : S409600.Idx → BitVec 32) j) < 16384 := by
  rw [show V1 m hm2 hm3 c main_arg5 = V0 m c main_arg5 from afterReg_of_ne _ _ c main_arg5 (by decide)]; exact hm5 c j

abbrev D1 := dat1 (V1 m hm2 hm3) (hv4 m hm2 hm3 hm4) (hv5 m hm2 hm3 hm5)
def W2 := afterReg 1 (W1 m hm2 hm3) (D1 m hm2 hm3 hm4 hm5)
abbrev W3 (c : Dev nD) : Valuation τ sig (Elt F) := StableHlo.after hostOps2 (W2 m hm2 hm3 hm4 hm5 c)
abbrev V3 := vOf (W3 m hm2 hm3 hm4 hm5)
abbrev D2 := dat2 (V3 m hm2 hm3 hm4 hm5)
def W4 := afterReg 2 (W3 m hm2 hm3 hm4 hm5) (D2 m hm2 hm3 hm4 hm5)
abbrev W5 (c : Dev nD) : Valuation τ sig (Elt F) := StableHlo.after hostOps3 (W4 m hm2 hm3 hm4 hm5 c)

def pdats : (p : Fin 3) → (c : Dev nD) → PD (F := F) (Pipeline.pin (pcfgs (F := F)) adm p) c
  | ⟨0, _⟩ => D0 m hm2 hm3
  | ⟨1, _⟩ => D1 m hm2 hm3 hm4 hm5
  | ⟨2, _⟩ => D2 m hm2 hm3 hm4 hm5

set_option backward.isDefEq.respectTransparency.types false in
def reg0 := reg (pdats m hm2 hm3 hm4 hm5) 0 launch0 osem0 ownSemFacts0 H0 H0_sub (W0 m) (body_obligation0 _ _ _)
  (fun _ _ => rfl) (fun _ _ => rfl) (fun _ _ => rfl) (fun _ _ => rfl) (fun c => hin0 _ _ _ c) (hout0 _ _ _)

set_option backward.isDefEq.respectTransparency.types false in
def reg1 := reg (pdats m hm2 hm3 hm4 hm5) 1 launch1 osem1 ownSemFacts1 H1 H1_sub (W1 m hm2 hm3) (body_obligation1 _ _ _)
  (fun _ _ => rfl) (fun _ _ => rfl) (fun _ _ => rfl) (fun _ _ => rfl) (fun c => hin1 _ _ _ c) (hout1 _ _ _)

set_option backward.isDefEq.respectTransparency.types false in
def reg2 := reg (pdats m hm2 hm3 hm4 hm5) 2 launch2 (fun k : PEmpty => k.elim) (Pipeline.OwnSemFacts.none _) ∅ (Finset.empty_subset _)
  (W3 m hm2 hm3 hm4 hm5) (body_obligation2 _) (fun _ _ => rfl) (fun _ _ => rfl) (fun _ _ => rfl) (fun _ _ => rfl)
  (fun c => by
    rw [show (pdats m hm2 hm3 hm4 hm5 2 c).Φ 0 = Pipeline.ΦA spec2 c from rfl]; unfold Pipeline.ΦA
    iintro ⟨⟨Hp, -⟩, -, Hr⟩; iframe)
  (fun c => by
    unfold Yof
    rw [Pipeline.ownSems0_none, BI.bigSep_empty, show (pdats m hm2 hm3 hm4 hm5 2 c).Φ (Fin.last _) = Pipeline.ΦA spec2 c from rfl]; unfold Pipeline.ΦA
    iintro ⟨Hr, Hp⟩; iframe; isplitr <;> iempintro)

abbrev segs : List (Pipeline.Seg (pcfgs (F := F)) adm (pdats m hm2 hm3 hm4 hm5) () defs₀ 𝒱₀ L lv) :=
  [ .region (reg0 m hm2 hm3 hm4 hm5),
    .region (reg1 m hm2 hm3 hm4 hm5),
    .host (hseg hostOps2 hostOps2_sub hostOps2_fresh (W2 m hm2 hm3 hm4 hm5)),
    .region (reg2 m hm2 hm3 hm4 hm5),
    .host (hseg hostOps3 hostOps3_sub hostOps3_fresh (W4 m hm2 hm3 hm4 hm5)) ]

theorem main_run (c : Dev nD) : main (F := F) c = Pipeline.Seg.run (segs m hm2 hm3 hm4 hm5) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m hm2 hm3 hm4 hm5 c b) :=
  Pipeline.θ_run_regions_kit (pcfgs (F := F)) adm (pdats m hm2 hm3 hm4 hm5) () cellOf_inj embL defs₀ 𝒱₀ L lv m ρ main (segs m hm2 hm3 hm4 hm5)
    (fun c Q => by rw [main_run m hm2 hm3 hm4 hm5 c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave Hs := (ownU_pair _ _) $$ Hu
      icases Hs with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := Tst (W0 m))
    (Tₙ := fun c => iprop(StableHlo.held (c : Thread nD τ) (Pipeline.ucRefs τ sig) (W5 m hm2 hm3 hm4 hm5 c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (W5 m hm2 hm3 hm4 hm5 c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m hm2 hm3 hm4 hm5 c b)
    (hfin := fun c s' => by
      iintro ⟨⟨Hh, -⟩, HSI⟩
      unfold StableHlo.held
      imodintro
      iapply (pointsTo_read_all (Pipeline.ucRefs τ sig) (fun b => (((c : Thread nD τ)).1, b)) (W5 m hm2 hm3 hm4 hm5 c) s')
      iframe)
    (hQ := fun s h => h)

end Cert.Kernel.Hand

end
-- ==== Proof.K.ReadOff.lean ====
import proofs.«414466_j73993696576172_1_alg».proof.Proof.K.Assemble

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)
variable (hm2 : ∀ (c : Dev nD) (j : S819200.Idx), BitVec.toNat ((m ((c : Thread nD τ).loc main_arg2) : S819200.Idx → BitVec 32) j) < 50000)
variable (hm3 : ∀ (c : Dev nD) (j : S819200.Idx), BitVec.toNat ((m ((c : Thread nD τ).loc main_arg3) : S819200.Idx → BitVec 32) j) < 16384)
variable (hm4 : ∀ (c : Dev nD) (j : S409600.Idx), BitVec.toNat ((m ((c : Thread nD τ).loc main_arg4) : S409600.Idx → BitVec 32) j) < 50000)
variable (hm5 : ∀ (c : Dev nD) (j : S409600.Idx), BitVec.toNat ((m ((c : Thread nD τ).loc main_arg5) : S409600.Idx → BitVec 32) j) < 16384)

/-- Decidable in one go: `r` is unscoped, no host operation writes it, and it is no array of the combine. -/
abbrev Quiet (r : Ref sig .tc) : Prop :=
  (¬ (Proc.devRef .tc r : DevRef τ sig).isScoped) ∧ r ∉ hostOps3_W ∧ (∀ w, Pipeline.arrRef (cfgs 2).spec w ≠ r) ∧ r ∉ hostOps2_W

theorem W2_kept (c : Dev nD) (r : Ref sig .tc) (h : (∀ w, Pipeline.arrRef (cfgs 1).spec w ≠ r) ∧ ∀ w, Pipeline.arrRef (cfgs 0).spec w ≠ r) :
    W2 m hm2 hm3 hm4 hm5 c (Proc.devRef .tc r) = m ((c : Thread nD τ).loc r) :=
  (afterReg_of_ne _ _ c r h.1).trans ((afterReg_of_ne _ _ c r h.2).trans rfl)

/-- A region leaves an array it only reads as it found it. -/
theorem afterReg_in {p : Fin 3} (W : Dev nD → Valuation τ sig (Elt F)) (D : (c : Dev nD) → Pipeline.Dat τ (Elt F) Unit ℕ (Pipeline.UD sig nD τ) ℕ (cfgs p) c)
    (ln : Pipeline.LaunchFacts (nD := nD) (τ := τ) cfgs p) (c : Dev nD) (w : Fin (cfgs p).W) (hw : ((cfgs p).win w).isOut = false)
    (hA : (D c).A w = vOf W c (Pipeline.arrRef (cfgs p).spec w)) :
    afterReg p W D c (Proc.devRef .tc (Pipeline.arrRef (cfgs p).spec w)) = W c (Proc.devRef .tc (Pipeline.arrRef (cfgs p).spec w)) :=
  (afterReg_arr W D ln c w).trans (((D c).arrAt_in w hw _).trans hA)

abbrev same (mem : (ℓ : Loc nD τ sig) → Buf (Elt F) ℓ) (c : Dev nD) (r : Ref sig .tc) : Prop :=
  mem ((c.tc : Thread nD τ).loc r) = m ((c.tc : Thread nD τ).loc r)

/-- The frame's post on core `c`: every argument array as launched. -/
abbrev ArgsKept (mem : (ℓ : Loc nD τ sig) → Buf (Elt F) ℓ) (c : Dev nD) : Prop :=
  same m mem c main_arg0 ∧ same m mem c main_arg1 ∧ same m mem c main_arg2 ∧ same m mem c main_arg3 ∧ same m mem c main_arg4 ∧ same m mem c main_arg5 ∧ same m mem c main_arg6 ∧ same m mem c main_arg7 ∧ same m mem c main_arg8 ∧ same m mem c main_arg9 ∧ same m mem c main_arg10 ∧ same m mem c main_arg11

/-- `r` read in such a memory: four steps back from the last valuation, none of which touches a quiet reference. -/
theorem kept (mem : (ℓ : Loc nD τ sig) → Buf (Elt F) ℓ)
    (h : ∀ c : Dev nD, ∀ b ∈ Pipeline.ucRefs τ sig, mem (((c : Thread nD τ)).1, b) = W5 m hm2 hm3 hm4 hm5 c b) (c : Dev nD)
    (r : Ref sig .tc) (hd : Quiet r) (e : W2 m hm2 hm3 hm4 hm5 c (Proc.devRef .tc r) = m ((c : Thread nD τ).loc r)) : same m mem c r :=
  (h c _ (mem_uc r hd.1)).trans <| (StableHlo.after_of_writes_sub hostOps3 _ hostOps3_writes hd.2.1).trans <|
    (afterReg_of_ne _ _ c r hd.2.2.1).trans <| (StableHlo.after_of_writes_sub hostOps2 _ hostOps2_writes hd.2.2.2).trans e

/-- Eight arguments are arrays of no region; the four word arrays are input windows of one pool and arrays of no other. -/
theorem argsKept (mem : (ℓ : Loc nD τ sig) → Buf (Elt F) ℓ)
    (h : ∀ c : Dev nD, ∀ b ∈ Pipeline.ucRefs τ sig, mem (((c : Thread nD τ)).1, b) = W5 m hm2 hm3 hm4 hm5 c b) (c : Dev nD) :
    ArgsKept m mem c :=
  have k := kept m hm2 hm3 hm4 hm5 mem h c
  have q := W2_kept m hm2 hm3 hm4 hm5 c
  have i0 := afterReg_in (p := 0) (W0 m) (D0 m hm2 hm3) launch0 c
  have i1 := afterReg_in (p := 1) (W1 m hm2 hm3) (D1 m hm2 hm3 hm4 hm5) launch1 c
  ⟨k main_arg0 (by decide) (q _ (by decide)), k main_arg1 (by decide) (q _ (by decide)),
   k main_arg2 (by decide) ((afterReg_of_ne _ _ c _ (by decide)).trans ((i0 0 rfl (A_eq0 _ _ _ c 0)).trans rfl)),
   k main_arg3 (by decide) ((afterReg_of_ne _ _ c _ (by decide)).trans ((i0 1 rfl (A_eq0 _ _ _ c 1)).trans rfl)),
   k main_arg4 (by decide) ((i1 0 rfl (A_eq1 _ _ _ c 0)).trans ((afterReg_of_ne _ _ c _ (by decide)).trans rfl)),
   k main_arg5 (by decide) ((i1 1 rfl (A_eq1 _ _ _ c 1)).trans ((afterReg_of_ne _ _ c _ (by decide)).trans rfl)),
   k main_arg6 (by decide) (q _ (by decide)), k main_arg7 (by decide) (q _ (by decide)),
   k main_arg8 (by decide) (q _ (by decide)), k main_arg9 (by decide) (q _ (by decide)),
   k main_arg10 (by decide) (q _ (by decide)), k main_arg11 (by decide) (q _ (by decide))⟩

include hm2 hm3 hm4 hm5 in
theorem frame : θ_run defs (onTc (τ := τ) (main (F := F))) ⟨m, fun _ => 0, ρ⟩ (fun r => ∀ c : Dev nD, ArgsKept m r.2.mem c) :=
  (θ_run defs _ _).mono (fun r h => argsKept m hm2 hm3 hm4 hm5 r.2.mem h) (run_all m ρ hm2 hm3 hm4 hm5)

end Cert.Kernel.Hand

end
-- ==== Proof.KI.Defs.lean ====
import proofs.«414466_j73993696576172_1_alg».proof.Proof.Gen.KernelIdeal.Skeleton
import proofs.«414466_j73993696576172_1_alg».proof.Proof.Gen.KernelIdeal.Launch
import proofs.«414466_j73993696576172_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev Bf (c : Dev nD) {sp : Space} {S : Shape} {e : EltTy} (M : Memref sig .tc sp S e) : Type :=
  Buf (Elt F) (M.view.loc (c : Thread nD τ))

abbrev pt (c : Dev nD) {sp : Space} {S : Shape} {e : EltTy} (M : Memref sig .tc sp S e) (f : Bf (F := F) c M) :
    sProp (MT nD τ sig Unit (Elt F) ℕ (Pipeline.UD sig nD τ) ℕ) :=
  M.view.loc (c : Thread nD τ) ↦{fullShare} f

abbrev hbT0 : Memref sig .tc .hbm S50000x64 .f32 := Memref.whole main_arg10
abbrev scT0 : Memref sig .tc .vmem S50000x64 .f32 := Memref.whole cc0_scratch0
abbrev scS0 : Memref sig .tc .vmem S16384x64 .f32 := Memref.whole cc0_scratch1
abbrev scC0 : Memref sig .tc .vmem S16384x1 .f32 := Memref.whole cc0_scratch2
abbrev ms0_0 (t : Fin cfg0.N) : Memref sig .tc .smem S256 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16384x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16384x1 .f32 := win0_3.stage (cfg0.slots t 3)
abbrev hs0_3 (t : Fin cfg0.N) : (ms0_3 t).IsWhole := hstage0_3 ((cfg0.slots t 3).cast nbuf0_3)

abbrev isFirst0 (i : grid0.Coords) : BitVec 1 :=
  Scalar.cmpi .ne (Scalar.extui (Scalar.cmpi .eq (BitVec.ofNat 32 (i 0).val) 0#32)) 0#32

theorem test_eq_iff (a k : BitVec 32) :
    Scalar.cmpi .ne (Scalar.extui (Scalar.cmpi .eq a k)) 0#32 = 1#1 ↔ a = k := by
  show BitVec.ofBool ((BitVec.ofBool (a == k)).setWidth 32 != 0#32) = 1#1 ↔ a = k
  cases hb : (a == k)
  · exact ⟨fun h => absurd h (by decide), fun e => by simp [e] at hb⟩
  · exact ⟨fun _ => eq_of_beq hb, fun _ => by decide⟩

theorem ofNat_inj_small (n k : ℕ) (hn : n < 2 ^ 32) (hk : k < 2 ^ 32) :
    BitVec.ofNat 32 n = BitVec.ofNat 32 k ↔ n = k :=
  ⟨fun e => by have := congrArg BitVec.toNat e; simp only [BitVec.toNat_ofNat] at this; omega, fun e => e ▸ rfl⟩

theorem isFirst0_iff (i : grid0.Coords) : isFirst0 i = 1#1 ↔ (i 0).val = 0 := by
  have hi : (i 0).val < 3200 := (i 0).isLt
  exact (test_eq_iff _ _).trans (ofNat_inj_small _ 0 (by omega) (by omega))

theorem cond2_0_iff (i : grid0.Coords) : k0_cond2 i = 1#1 ↔ (i 0).val = 3199 := by
  have hi : (i 0).val < 3200 := (i 0).isLt
  show Scalar.cmpi .ne (Scalar.extui (Scalar.cmpi .eq (BitVec.ofNat 32 (i 0).val) 3199#32)) 0#32 = 1#1 ↔ _
  exact (test_eq_iff _ _).trans (ofNat_inj_small _ 3199 (by omega) (by omega))

/-- A row named by a word below `R` lies inside an array of `R` rows, whatever the row's width. -/
theorem chk_row (v : BitVec 32) (R C : ℕ) (h : v.toNat < R) :
    ∀ a : Fin 2, (![(Scalar.indexCast v).toNat, 0] : Fin 2 → Nat) a + (![1, C] : Fin 2 → Nat) a ≤ (![R, C] : Fin 2 → Nat) a := by
  intro a
  fin_cases a
  · show (Scalar.indexCast v).toNat + 1 ≤ R
    simp only [Scalar.indexCast]
    omega
  · show 0 + C ≤ C
    omega

theorem chk_tab (v : BitVec 32) (h : v.toNat < 50000) :
    ∀ a : Fin 2, (![(Scalar.indexCast v).toNat, 0] : Fin 2 → Nat) a + S1x64.size a ≤ S50000x64.size a :=
  chk_row v 50000 64 h

theorem chk_seg (v : BitVec 32) (h : v.toNat < 16384) :
    (∀ a : Fin 2, (![(Scalar.indexCast v).toNat, 0] : Fin 2 → Nat) a + S1x64.size a ≤ S16384x64.size a) ∧
    (∀ a : Fin 2, (![(Scalar.indexCast v).toNat, 0] : Fin 2 → Nat) a + S1x1.size a ≤ S16384x1.size a) :=
  ⟨chk_row v 16384 64 h, chk_row v 16384 1 h⟩

end Cert.KernelIdeal.Hand

end
-- ==== Proof.KI.PoolRun.lean ====
import proofs.«414466_j73993696576172_1_alg».proof.Proof.KI.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (i : grid0.Coords)
  (M1 : Memref sig .tc .smem S256 .i32) (h1 : M1.IsWhole) (M2 : Memref sig .tc .smem S256 .i32) (h2 : M2.IsWhole)
  (M3 : Memref sig .tc .hbm S50000x64 .f32) (h3 : M3.IsWhole)
  (M4 : Memref sig .tc .vmem S16384x64 .f32) (h4 : M4.IsWhole) (M5 : Memref sig .tc .vmem S16384x1 .f32) (h5 : M5.IsWhole)
  (M6 : Memref sig .tc .vmem S50000x64 .f32) (h6 : M6.IsWhole) (M7 : Memref sig .tc .vmem S16384x64 .f32) (h7 : M7.IsWhole)
  (M8 : Memref sig .tc .vmem S16384x1 .f32) (h8 : M8.IsWhole) (M9 : DmaSems sig S_)
  (hA : isFirst0 i = 1#1) (hnA : ¬ (isFirst0 i = 1#1)) (hnC : ¬ (k0_cond2 i = 1#1)) (hC : k0_cond2 i = 1#1)
  (x1 x2 : Vec F S256 .i32) (hx1 : ∀ y, BitVec.toNat (x1 y) < 50000) (hx2 : ∀ y, BitVec.toNat (x2 y) < 16384)
  (T : Vec F S50000x64 .f32) (S : Vec F S16384x64 .f32) (C : Vec F S16384x1 .f32)

set_option maxHeartbeats 16000000 in
noncomputable def poolRunA (fh : Bf (F := F) c hbT0) :
    { W : Vec F S50000x64 .f32 × Vec F S16384x64 .f32 × Vec F S16384x1 .f32 //
      ∀ (Wt : Waits sig Unit) (Q : PUnit → sProp 𝕄),
        iprop(owns (c : Thread nD τ) M1 fullShare x1 ∗ owns (c : Thread nD τ) M2 fullShare x2
            ∗ (∃ d, owns (c : Thread nD τ) M6 fullShare d) ∗ (∃ d, owns (c : Thread nD τ) M7 fullShare d) ∗ (∃ d, owns (c : Thread nD τ) M8 fullShare d)
            ∗ semVal ((c : Thread nD τ), SemLoc.dma 6) 0 ∗ pt c hbT0 fh ∗ owes (c : Thread nD τ) 0 Wt
            ∗ (iprop(owns (c : Thread nD τ) M1 fullShare x1 ∗ owns (c : Thread nD τ) M2 fullShare x2
                ∗ owns (c : Thread nD τ) M6 fullShare W.1 ∗ owns (c : Thread nD τ) M7 fullShare W.2.1 ∗ owns (c : Thread nD τ) M8 fullShare W.2.2
                ∗ semVal ((c : Thread nD τ), SemLoc.dma 6) 0 ∗ pt c hbT0 fh ∗ (∃ W', owes (c : Thread nD τ) 0 W')) -∗ Q ⟨⟩))
          ⊢ wp frame (wpE (defs₀ (F := F)) Variants.none c none) Set.univ
              (cc0__pool_kernel i M1 h1 M2 h2 hbT0 (Memref.isWhole_whole _) M4 h4 M5 h5 M6 h6 M7 h7 M8 h8 cc0_scratch3) Q } := by
  clear hnA hC M9 T S C h3 M3
  refine ⟨⟨?_, ?_, ?_⟩, fun Wt Q => ?run⟩
  case run =>
    dsimp only
    unfold owns
    iintro ⟨⟨%f1, %hf1, H1⟩, ⟨%f2, %hf2, H2⟩, ⟨%d6, %f6, -, H6⟩, ⟨%d7, %f7, -, H7⟩, ⟨%d8, %f8, -, H8⟩, Hq, Hh, HW, Hk⟩
    obtain rfl := h1.eq_unread hf1
    obtain rfl := h2.eq_unread hf2
    sl_exec_parts! (disch := first | sl_exact hA | sl_exact hnC | (refine chk_tab _ ?_; sl_unfold_run_names; simp only [View.readAt_apply, Memref.IsWhole.read_unread]; exact hx1 _) | (refine chk_seg _ ?_; sl_unfold_run_names; simp only [View.readAt_apply, Memref.IsWhole.read_unread]; exact hx2 _))
    sl_step
    iapply Hk
    isplitl [H1]; · iexists _; iframe H1; ipureintro; exact h1.read_unread _
    isplitl [H2]; · iexists _; iframe H2; ipureintro; exact h2.read_unread _
    isplitl [H6]; · iexists _; iframe H6; ipureintro; exact rfl
    isplitl [H7]; · iexists _; iframe H7; ipureintro; exact rfl
    isplitl [H8]; · iexists _; iframe H8; ipureintro; exact rfl
    isplitl [Hq]; · iexact Hq
    isplitl [Hh]; · iexact Hh
    iexists _; iexact HW

set_option maxHeartbeats 16000000 in
noncomputable def poolRunB :
    { W : Vec F S16384x64 .f32 × Vec F S16384x1 .f32 //
      ∀ (E : Set ℕ) (Q : PUnit → sProp 𝕄),
        iprop(owns (c : Thread nD τ) M1 fullShare x1 ∗ owns (c : Thread nD τ) M2 fullShare x2 ∗ owns (c : Thread nD τ) M6 fullShare T
            ∗ owns (c : Thread nD τ) M7 fullShare S ∗ owns (c : Thread nD τ) M8 fullShare C
            ∗ (iprop(owns (c : Thread nD τ) M1 fullShare x1 ∗ owns (c : Thread nD τ) M2 fullShare x2 ∗ owns (c : Thread nD τ) M6 fullShare T
                ∗ owns (c : Thread nD τ) M7 fullShare W.1 ∗ owns (c : Thread nD τ) M8 fullShare W.2) -∗ Q ⟨⟩))
          ⊢ wp frame (wpE (defs₀ (F := F)) Variants.none c none) E
              (cc0__pool_kernel i M1 h1 M2 h2 M3 h3 M4 h4 M5 h5 M6 h6 M7 h7 M8 h8 M9) Q } := by
  clear hA hC
  refine ⟨⟨?_, ?_⟩, fun E Q => ?run⟩
  case run =>
    dsimp only
    unfold owns
    iintro ⟨⟨%f1, %hf1, H1⟩, ⟨%f2, %hf2, H2⟩, ⟨%f6, %hf6, H6⟩, ⟨%f7, %hf7, H7⟩, ⟨%f8, %hf8, H8⟩, Hk⟩
    obtain rfl := h1.eq_unread hf1
    obtain rfl := h2.eq_unread hf2
    obtain rfl := h6.eq_unread hf6
    obtain rfl := h7.eq_unread hf7
    obtain rfl := h8.eq_unread hf8
    sl_exec_parts! (disch := first | sl_exact hnA | sl_exact hnC | (refine chk_tab _ ?_; sl_unfold_run_names; simp only [View.readAt_apply, Memref.IsWhole.read_unread]; exact hx1 _) | (refine chk_seg _ ?_; sl_unfold_run_names; simp only [View.readAt_apply, Memref.IsWhole.read_unread]; exact hx2 _))
    sl_step
    iapply Hk
    isplitl [H1]; · iexists _; iframe H1; ipureintro; exact h1.read_unread _
    isplitl [H2]; · iexists _; iframe H2; ipureintro; exact h2.read_unread _
    isplitl [H6]; · iexists _; iframe H6; ipureintro; exact h6.read_unread _
    isplitl [H7]; · iexists _; iframe H7; ipureintro; exact rfl
    iexists _; iframe H8; ipureintro; exact rfl

set_option maxHeartbeats 16000000 in
noncomputable def poolRunC :
    { W : (Vec F S16384x64 .f32 × Vec F S16384x1 .f32) × (Vec F S16384x64 .f32 × Vec F S16384x1 .f32) //
      ∀ (E : Set ℕ) (Q : PUnit → sProp 𝕄),
        iprop(owns (c : Thread nD τ) M1 fullShare x1 ∗ owns (c : Thread nD τ) M2 fullShare x2 ∗ owns (c : Thread nD τ) M6 fullShare T
            ∗ owns (c : Thread nD τ) M7 fullShare S ∗ owns (c : Thread nD τ) M8 fullShare C
            ∗ (∃ d, owns (c : Thread nD τ) M4 fullShare d) ∗ (∃ d, owns (c : Thread nD τ) M5 fullShare d)
            ∗ (iprop(owns (c : Thread nD τ) M1 fullShare x1 ∗ owns (c : Thread nD τ) M2 fullShare x2 ∗ owns (c : Thread nD τ) M6 fullShare T
                ∗ owns (c : Thread nD τ) M7 fullShare W.1.1 ∗ owns (c : Thread nD τ) M8 fullShare W.1.2
                ∗ owns (c : Thread nD τ) M4 fullShare W.2.1 ∗ owns (c : Thread nD τ) M5 fullShare W.2.2) -∗ Q ⟨⟩))
          ⊢ wp frame (wpE (defs₀ (F := F)) Variants.none c none) E
              (cc0__pool_kernel i M1 h1 M2 h2 M3 h3 M4 h4 M5 h5 M6 h6 M7 h7 M8 h8 M9) Q } := by
  clear hA hnC
  refine ⟨⟨⟨?_, ?_⟩, ⟨?_, ?_⟩⟩, fun E Q => ?run⟩
  case run =>
    dsimp only
    unfold owns
    iintro ⟨⟨%f1, %hf1, H1⟩, ⟨%f2, %hf2, H2⟩, ⟨%f6, %hf6, H6⟩, ⟨%f7, %hf7, H7⟩, ⟨%f8, %hf8, H8⟩, ⟨%d4, %f4, -, H4⟩, ⟨%d5, %f5, -, H5⟩, Hk⟩
    obtain rfl := h1.eq_unread hf1
    obtain rfl := h2.eq_unread hf2
    obtain rfl := h6.eq_unread hf6
    obtain rfl := h7.eq_unread hf7
    obtain rfl := h8.eq_unread hf8
    sl_exec_parts! (disch := first | sl_exact hnA | sl_exact hC | (refine chk_tab _ ?_; sl_unfold_run_names; simp only [View.readAt_apply, Memref.IsWhole.read_unread]; exact hx1 _) | (refine chk_seg _ ?_; sl_unfold_run_names; simp only [View.readAt_apply, Memref.IsWhole.read_unread]; exact hx2 _))
    sl_step
    iapply Hk
    isplitl [H1]; · iexists _; iframe H1; ipureintro; exact h1.read_unread _
    isplitl [H2]; · iexists _; iframe H2; ipureintro; exact h2.read_unread _
    isplitl [H6]; · iexists _; iframe H6; ipureintro; exact h6.read_unread _
    isplitl [H7]; · iexists _; iframe H7; ipureintro; exact rfl
    isplitl [H8]; · iexists _; iframe H8; ipureintro; exact rfl
    isplitl [H4]; · iexists _; iframe H4; ipureintro; exact rfl
    iexists _; iframe H5; ipureintro; exact rfl

end Cert.KernelIdeal.Hand

end
-- ==== Proof.KI.Pool0Data.lean ====
import proofs.«414466_j73993696576172_1_alg».proof.Proof.KI.PoolRun
import Idealize.ShloMosaic.Lib.Pipeline.FrameBody
import Idealize.ShloMosaic.Lib.Pipeline.Regions
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (hr1 : ∀ (c : Dev nD) (j : S819200.Idx), BitVec.toNat ((V c main_arg2 : S819200.Idx → BitVec 32) j) < 50000)
variable (hr2 : ∀ (c : Dev nD) (j : S819200.Idx), BitVec.toNat ((V c main_arg3 : S819200.Idx → BitVec 32) j) < 16384)

-- The grid has one axis, so point t has coordinate t.
theorem coord0_val (t : Fin cfg0.N) : ((grid0.coords t) 0).val = t.val := by
  have hN : t.val < 3200 := lt_of_lt_of_eq t.isLt (show cfg0.N = 3200 from N_0)
  show t.val / grid0.stride 0 % grid0.bound 0 = t.val
  rw [show grid0.stride 0 = 1 from by decide, show grid0.bound 0 = 3200 from rfl, Nat.div_one, Nat.mod_eq_of_lt hN]

-- Block t of window w, read from the array as it stands when the region begins.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

include hr1 in
theorem hx1_0 (c : Dev nD) (t : Fin cfg0.N) : ∀ y, BitVec.toNat ((iblk0 V c 0 t : Vec F S256 .i32) y) < 50000 := fun y => by
  unfold iblk0; rw [View.read_apply]; exact hr1 c _

include hr2 in
theorem hx2_0 (c : Dev nD) (t : Fin cfg0.N) : ∀ y, BitVec.toNat ((iblk0 V c 1 t : Vec F S256 .i32) y) < 16384 := fun y => by
  unfold iblk0; rw [View.read_apply]; exact hr2 c _

theorem first_of_zero (t : Fin cfg0.N) (h : t.val = 0) : isFirst0 (grid0.coords t) = 1#1 :=
  (isFirst0_iff _).mpr ((coord0_val t).trans h)
theorem not_first_of_pos (t : Fin cfg0.N) (h : t.val ≠ 0) : ¬ (isFirst0 (grid0.coords t) = 1#1) :=
  fun e => h ((coord0_val t).symm.trans ((isFirst0_iff _).mp e))
theorem last_of (t : Fin cfg0.N) (h : t.val = 3199) : k0_cond2 (grid0.coords t) = 1#1 :=
  (cond2_0_iff _).mpr ((coord0_val t).trans h)
theorem not_last_of (t : Fin cfg0.N) (h : t.val ≠ 3199) : ¬ (k0_cond2 (grid0.coords t) = 1#1) :=
  fun e => h ((coord0_val t).symm.trans ((cond2_0_iff _).mp e))

-- The body's three cases at grid point t: the first point (A), a middle point (B), the last point (C);
-- B and C start from a state s of the table and the two accumulators.
abbrev wA0 (c : Dev nD) (t : Fin cfg0.N) (hA : isFirst0 (grid0.coords t) = 1#1) (hnC : ¬ (k0_cond2 (grid0.coords t) = 1#1)) :=
  poolRunA c (grid0.coords t) (ms0_0 t) (hs0_0 t) (ms0_1 t) (hs0_1 t) (ms0_2 t) (hs0_2 t) (ms0_3 t) (hs0_3 t) scT0 (Memref.isWhole_whole _) scS0 (Memref.isWhole_whole _) scC0 (Memref.isWhole_whole _) hA hnC (iblk0 V c 0 t) (iblk0 V c 1 t) (hx1_0 V hr1 c t) (hx2_0 V hr2 c t) (V c main_arg10)

abbrev wB0 (c : Dev nD) (t : Fin cfg0.N) (hnA : ¬ (isFirst0 (grid0.coords t) = 1#1)) (hnC : ¬ (k0_cond2 (grid0.coords t) = 1#1)) (s : Vec F S50000x64 .f32 × Vec F S16384x64 .f32 × Vec F S16384x1 .f32) :=
  poolRunB c (grid0.coords t) (ms0_0 t) (hs0_0 t) (ms0_1 t) (hs0_1 t) hbT0 (Memref.isWhole_whole _) (ms0_2 t) (hs0_2 t) (ms0_3 t) (hs0_3 t) scT0 (Memref.isWhole_whole _) scS0 (Memref.isWhole_whole _) scC0 (Memref.isWhole_whole _) cc0_scratch3 hnA hnC (iblk0 V c 0 t) (iblk0 V c 1 t) (hx1_0 V hr1 c t) (hx2_0 V hr2 c t) s.1 s.2.1 s.2.2

abbrev wC0 (c : Dev nD) (t : Fin cfg0.N) (hnA : ¬ (isFirst0 (grid0.coords t) = 1#1)) (hC : k0_cond2 (grid0.coords t) = 1#1) (s : Vec F S50000x64 .f32 × Vec F S16384x64 .f32 × Vec F S16384x1 .f32) :=
  poolRunC c (grid0.coords t) (ms0_0 t) (hs0_0 t) (ms0_1 t) (hs0_1 t) hbT0 (Memref.isWhole_whole _) (ms0_2 t) (hs0_2 t) (ms0_3 t) (hs0_3 t) scT0 (Memref.isWhole_whole _) scS0 (Memref.isWhole_whole _) scC0 (Memref.isWhole_whole _) cc0_scratch3 hnA hC (iblk0 V c 0 t) (iblk0 V c 1 t) (hx1_0 V hr1 c t) (hx2_0 V hr2 c t) s.1 s.2.1 s.2.2

-- The table and the two accumulators after point n, by recursion on n: case A at 0, case C at 3199, case B between.
def stAt0 (c : Dev nD) : (n : ℕ) → n < cfg0.N → Vec F S50000x64 .f32 × Vec F S16384x64 .f32 × Vec F S16384x1 .f32
  | 0, hn => (wA0 V hr1 hr2 c ⟨0, hn⟩ (first_of_zero ⟨0, hn⟩ rfl) (not_last_of ⟨0, hn⟩ (show (0 : ℕ) ≠ 3199 from by decide))).1
  | n + 1, hn =>
    if h : n + 1 = 3199 then
      ((stAt0 c n (Nat.lt_of_succ_lt hn)).1,
        (wC0 V hr1 hr2 c ⟨n + 1, hn⟩ (not_first_of_pos ⟨n + 1, hn⟩ (Nat.succ_ne_zero n)) (last_of ⟨n + 1, hn⟩ h) (stAt0 c n (Nat.lt_of_succ_lt hn))).1.1)
    else
      ((stAt0 c n (Nat.lt_of_succ_lt hn)).1,
        (wB0 V hr1 hr2 c ⟨n + 1, hn⟩ (not_first_of_pos ⟨n + 1, hn⟩ (Nat.succ_ne_zero n)) (not_last_of ⟨n + 1, hn⟩ h) (stAt0 c n (Nat.lt_of_succ_lt hn))).1)

theorem stAt0_zero (c : Dev nD) (hn : 0 < cfg0.N) (hA : isFirst0 (grid0.coords ⟨0, hn⟩) = 1#1) (hnC : ¬ (k0_cond2 (grid0.coords ⟨0, hn⟩) = 1#1)) :
    stAt0 V hr1 hr2 c 0 hn = (wA0 V hr1 hr2 c ⟨0, hn⟩ hA hnC).1 := rfl

theorem stAt0_mid (c : Dev nD) (n : ℕ) (hn : n + 1 < cfg0.N) (h : n + 1 ≠ 3199)
    (hnA : ¬ (isFirst0 (grid0.coords ⟨n + 1, hn⟩) = 1#1)) (hnC : ¬ (k0_cond2 (grid0.coords ⟨n + 1, hn⟩) = 1#1)) :
    stAt0 V hr1 hr2 c (n + 1) hn = ((stAt0 V hr1 hr2 c n (Nat.lt_of_succ_lt hn)).1,
      (wB0 V hr1 hr2 c ⟨n + 1, hn⟩ hnA hnC (stAt0 V hr1 hr2 c n (Nat.lt_of_succ_lt hn))).1) :=
  (dif_neg h).trans rfl

theorem stAt0_last (c : Dev nD) (n : ℕ) (hn : n + 1 < cfg0.N) (h : n + 1 = 3199)
    (hnA : ¬ (isFirst0 (grid0.coords ⟨n + 1, hn⟩) = 1#1)) (hC : k0_cond2 (grid0.coords ⟨n + 1, hn⟩) = 1#1) :
    stAt0 V hr1 hr2 c (n + 1) hn = ((stAt0 V hr1 hr2 c n (Nat.lt_of_succ_lt hn)).1,
      (wC0 V hr1 hr2 c ⟨n + 1, hn⟩ hnA hC (stAt0 V hr1 hr2 c n (Nat.lt_of_succ_lt hn))).1.1) :=
  (dif_pos h).trans rfl

-- What point n leaves in the two output blocks; only the last point's value is ever used.
def outsAt0 (c : Dev nD) : (n : ℕ) → n < cfg0.N → Vec F S16384x64 .f32 × Vec F S16384x1 .f32
  | 0, hn => (stAt0 V hr1 hr2 c 0 hn).2
  | n + 1, hn =>
    if h : n + 1 = 3199 then
      (wC0 V hr1 hr2 c ⟨n + 1, hn⟩ (not_first_of_pos ⟨n + 1, hn⟩ (Nat.succ_ne_zero n)) (last_of ⟨n + 1, hn⟩ h) (stAt0 V hr1 hr2 c n (Nat.lt_of_succ_lt hn))).1.2
    else (stAt0 V hr1 hr2 c (n + 1) hn).2

theorem outsAt0_last (c : Dev nD) (n : ℕ) (hn : n + 1 < cfg0.N) (h : n + 1 = 3199)
    (hnA : ¬ (isFirst0 (grid0.coords ⟨n + 1, hn⟩) = 1#1)) (hC : k0_cond2 (grid0.coords ⟨n + 1, hn⟩) = 1#1) :
    outsAt0 V hr1 hr2 c (n + 1) hn = (wC0 V hr1 hr2 c ⟨n + 1, hn⟩ hnA hC (stAt0 V hr1 hr2 c n (Nat.lt_of_succ_lt hn))).1.2 :=
  (dif_pos h).trans rfl

-- From here on both are used through the equations above only.
attribute [irreducible] stAt0 outsAt0

abbrev osem0 : Fin 1 → SemLoc sig := fun _ => SemLoc.dma 6
theorem ownSemFacts0 : Pipeline.OwnSemFacts spec0 osem0 := by decide

abbrev own0 (c : Dev nD) : sProp 𝕄 :=
  Pipeline.ownSems0 (Ix := Unit) (Name := ℕ) (U := Pipeline.UD sig nD τ) (Lvl := ℕ) (Val := Elt F) (τ := τ) osem0 c

theorem ownSems00_eq (c : Dev nD) : (own0 c : sProp 𝕄) = iprop(semVal ((c : Thread nD τ), SemLoc.dma 6) 0) := by
  unfold own0; rw [Pipeline.ownSems0_eq_of_list c osem0 [0] (by decide) (by decide)]; rfl

def H0 : Finset (Ref sig .tc) := {main_arg10}
theorem H0_sub : H0 ⊆ Pipeline.restRefs sig spec0 := by decide

abbrev hbm0 (c : Dev nD) : sProp 𝕄 :=
  bigSep H0 (fun b => ((c : Thread nD τ).loc b) ↦{fullShare} V c b)

theorem hbmPts0_eq (c : Dev nD) : (hbm0 V c : sProp 𝕄) = iprop(pt c hbT0 (V c main_arg10)) := by
  unfold hbm0; rw [BI.bigSep_eq_bigSepL_of_eq [main_arg10] (by decide) (by decide)]; rfl

abbrev scrAny0 (c : Dev nD) : sProp 𝕄 :=
  iprop((∃ d, owns (c : Thread nD τ) scT0 fullShare d) ∗ (∃ d, owns (c : Thread nD τ) scS0 fullShare d) ∗ (∃ d, owns (c : Thread nD τ) scC0 fullShare d))

abbrev scrAt0 (c : Dev nD) (s : Vec F S50000x64 .f32 × Vec F S16384x64 .f32 × Vec F S16384x1 .f32) : sProp 𝕄 :=
  iprop(owns (c : Thread nD τ) scT0 fullShare s.1 ∗ owns (c : Thread nD τ) scS0 fullShare s.2.1 ∗ owns (c : Thread nD τ) scC0 fullShare s.2.2)

abbrev restBut0 (c : Dev nD) : sProp 𝕄 :=
  Pipeline.scopedRestBut (Ix := Unit) (Name := ℕ) (U := Pipeline.UD sig nD τ) (Lvl := ℕ) (Val := Elt F) spec0 c [cc0_scratch0, cc0_scratch1, cc0_scratch2]

abbrev scoped0 (c : Dev nD) : sProp 𝕄 :=
  Pipeline.scopedRest (Ix := Unit) (Name := ℕ) (U := Pipeline.UD sig nD τ) (Lvl := ℕ) (Val := Elt F) spec0 c

theorem scoped0_eq (c : Dev nD) : (scoped0 c : sProp 𝕄) = iprop(scrAny0 c ∗ restBut0 c) := by
  unfold scoped0 scrAny0 restBut0; rw [scopedRest0_split]; simp only [scT0, scS0, scC0, owns_whole]; try rfl

def PhiRest0 (c : Dev nD) : sProp 𝕄 :=
  iprop(restBut0 c ∗ (∃ r, prngReg c r) ∗ semVal ((c : Thread nD τ), SemLoc.dma 6) 0 ∗ pt c hbT0 (V c main_arg10))

-- Between points the three scratch arrays hold the state after the point before (anything before the first),
-- beside resources that never change.
def Phi0 (c : Dev nD) : (n : ℕ) → n ≤ cfg0.N → sProp 𝕄
  | 0, _ => iprop(scrAny0 c ∗ PhiRest0 V c)
  | n + 1, hn => iprop(scrAt0 c (stAt0 V hr1 hr2 c n hn) ∗ PhiRest0 V c)

theorem Phi0_zero (c : Dev nD) (n : ℕ) (h : n ≤ cfg0.N) (hz : n = 0) :
    Phi0 V hr1 hr2 c n h = iprop(scrAny0 c ∗ PhiRest0 V c) := by
  subst hz; rfl

theorem Phi0_pos (c : Dev nD) (n : ℕ) (h : n ≤ cfg0.N) (hz : n ≠ 0) :
    Phi0 V hr1 hr2 c n h = iprop(scrAt0 c (stAt0 V hr1 hr2 c (n - 1) (by omega)) ∗ PhiRest0 V c) := by
  cases n with
  | zero => exact absurd rfl hz
  | succ n => rfl

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V hr1 hr2 c t.val t.isLt).1
    | ⟨3, _⟩ => (outsAt0 V hr1 hr2 c t.val t.isLt).2
  Φ t := Phi0 V hr1 hr2 c t.val (Nat.le_of_lt_succ t.isLt)
  q _ := fullShare
  owed _ := 0

theorem A_eq0 (c : Dev nD) (w : Fin cfg0.W) : (dat0 V hr1 hr2 c).A w = V c (Pipeline.arrRef spec0 w) := rfl

theorem after0_2 (c : Dev nD) (t : Fin cfg0.N) : (dat0 V hr1 hr2 c).after 2 t = (outsAt0 V hr1 hr2 c t.val t.isLt).1 := rfl
theorem after0_3 (c : Dev nD) (t : Fin cfg0.N) : (dat0 V hr1 hr2 c).after 3 t = (outsAt0 V hr1 hr2 c t.val t.isLt).2 := rfl

theorem before0_0 (c : Dev nD) (t : Fin cfg0.N) (d) : (dat0 V hr1 hr2 c).before 0 t d = iblk0 V c 0 t :=
  (dat0 V hr1 hr2 c).before_in_eq_fetched 0 rfl (fun _ => rfl) (fun _ _ _ => rfl) (fun _ => rfl) t d
theorem before0_1 (c : Dev nD) (t : Fin cfg0.N) (d) : (dat0 V hr1 hr2 c).before 1 t d = iblk0 V c 1 t :=
  (dat0 V hr1 hr2 c).before_in_eq_fetched 1 rfl (fun _ => rfl) (fun _ _ _ => rfl) (fun _ => rfl) t d

end Cert.KernelIdeal.Hand

end
-- ==== Proof.KI.Pool0.lean ====
import proofs.«414466_j73993696576172_1_alg».proof.Proof.KI.Pool0Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (hr1 : ∀ (c : Dev nD) (j : S819200.Idx), BitVec.toNat ((V c main_arg2 : S819200.Idx → BitVec 32) j) < 50000)
variable (hr2 : ∀ (c : Dev nD) (j : S819200.Idx), BitVec.toNat ((V c main_arg3 : S819200.Idx → BitVec 32) j) < 16384)

theorem idleAt0 (t : Fin cfg0.N) (h : ¬ (k0_cond2 (grid0.coords t) = 1#1)) : cfg0.idle 2 (grid0.coords t) = true := by
  show (!(k0_cond2 (grid0.coords t) == 1#1)) = true
  rw [Bool.not_eq_true', beq_eq_false_iff_ne]; exact h

theorem noFlush0 {w : Fin cfg0.W} (hw : w = 2 ∨ w = 3) (t : Fin cfg0.N) (h : t.val ≠ 3199) : (cfg0.win w).flush t = false := by
  have hN : t.val < 3200 := lt_of_lt_of_eq t.isLt (show cfg0.N = 3200 from N_0)
  rcases hw with rfl | rfl
  · exact Bool.eq_false_iff.mpr fun hf => h (by have := (flush0_2 t).mp hf; omega)
  · exact Bool.eq_false_iff.mpr fun hf => h (by have := (flush0_3 t).mp hf; omega)

set_option maxHeartbeats 4000000 in
theorem body_obligation0 (c : Dev nD) : BodyObligation (dat0 (F := F) V hr1 hr2 c) (defs₀ (F := F)) Variants.none () Set.univ := fun t => by
  rw [bigSep_W0, bigSep_W0]
  simp only [before0_0, before0_1]
  change iprop(Phi0 V hr1 hr2 c t.val (Nat.le_of_lt t.isLt) ∗ _) ⊢ wp _ _ _ (bodyAt0 t) fun _ =>
    iprop(iprop(scrAt0 c (stAt0 V hr1 hr2 c t.val t.isLt) ∗ PhiRest0 V c) ∗ (dat0 V hr1 hr2 c).owesAt () t.succ
      ∗ owns (c : Thread nD τ) (ms0_0 t) fullShare (iblk0 V c 0 t) ∗ owns (c : Thread nD τ) (ms0_1 t) fullShare (iblk0 V c 1 t)
      ∗ (dat0 V hr1 hr2 c).leavesExact 2 t ∗ (dat0 V hr1 hr2 c).leavesExact 3 t)
  unfold bodyAt0
  obtain ⟨n, hn⟩ := t
  cases n with
  | zero =>
    have h1 : (⟨0, hn⟩ : Fin cfg0.N).val ≠ 3199 := show (0 : ℕ) ≠ 3199 from by decide
    have hA := first_of_zero ⟨0, hn⟩ rfl
    have hnC := not_last_of ⟨0, hn⟩ h1
    unfold Dat.leavesExact
    rw [idleAt0 _ hnC, noFlush0 (.inl rfl) _ h1, noFlush0 (.inr rfl) _ h1, Phi0_zero V hr1 hr2 c _ _ rfl, stAt0_zero V hr1 hr2 c hn hA hnC]
    unfold PhiRest0 scrAny0 scrAt0 Dat.owesAt Pipeline.owesWithin
    rw [show (dat0 V hr1 hr2 c).owed _ = 0 from rfl, show (dat0 V hr1 hr2 c).owed _ = 0 from rfl]
    iintro ⟨⟨⟨HT, HS, HC⟩, HR, Hg, Hq, Hh⟩, ⟨%W, -, HW⟩, ⟨%d0, Ha⟩, ⟨%d1, Hb⟩, H2, H3⟩
    iapply ((wA0 V hr1 hr2 c ⟨0, hn⟩ hA hnC).2 W _)
    iframe Ha Hb HT HS HC Hq Hh HW
    iintro ⟨Ha, Hb, HT, HS, HC, Hq, Hh, ⟨%W', HW'⟩⟩
    iframe Ha Hb HT HS HC HR Hg Hq Hh H2 H3
    iexists W'; isplitr; · ipureintro; exact fun _ _ => Or.inl trivial
    iexact HW'
  | succ n =>
    have hnA := not_first_of_pos ⟨n + 1, hn⟩ (Nat.succ_ne_zero n)
    change iprop(iprop(scrAt0 c (stAt0 V hr1 hr2 c n (Nat.lt_of_succ_lt hn)) ∗ PhiRest0 V c) ∗ _) ⊢ wp _ _ _ _ fun _ =>
      iprop(_ ∗ (dat0 V hr1 hr2 c).owesAt () (Fin.castSucc ⟨n + 1, hn⟩) ∗ _)
    by_cases h1 : n + 1 = 3199
    · have hC := last_of ⟨n + 1, hn⟩ h1
      unfold Dat.leavesExact
      rw [show cfg0.idle 2 (grid0.coords ⟨n + 1, hn⟩) = false from by show (!(k0_cond2 (grid0.coords ⟨n + 1, hn⟩) == 1#1)) = false; rw [hC]; rfl, after0_2, after0_3, stAt0_last V hr1 hr2 c n hn h1 hnA hC, outsAt0_last V hr1 hr2 c n hn h1 hnA hC]
      dsimp only [scrAt0]
      iintro ⟨⟨⟨HT, HS, HC⟩, HR⟩, Ho, ⟨%d0, Ha⟩, ⟨%d1, Hb⟩, ⟨%d2, H2⟩, ⟨%d3, H3⟩⟩
      iapply ((wC0 V hr1 hr2 c ⟨n + 1, hn⟩ hnA hC (stAt0 V hr1 hr2 c n (Nat.lt_of_succ_lt hn))).2 Set.univ _)
      iframe Ha Hb HT HS HC
      isplitl [H2]; · iexists _; iexact H2
      isplitl [H3]; · iexists _; iexact H3
      iintro ⟨Ha, Hb, HT, HS, HC, H2, H3⟩
      iframe
    · have hnC := not_last_of ⟨n + 1, hn⟩ h1
      unfold Dat.leavesExact
      rw [idleAt0 _ hnC, noFlush0 (.inl rfl) _ h1, noFlush0 (.inr rfl) _ h1, stAt0_mid V hr1 hr2 c n hn h1 hnA hnC]
      dsimp only [scrAt0]
      iintro ⟨⟨⟨HT, HS, HC⟩, HR⟩, Ho, ⟨%d0, Ha⟩, ⟨%d1, Hb⟩, H2, H3⟩
      iapply ((wB0 V hr1 hr2 c ⟨n + 1, hn⟩ hnA hnC (stAt0 V hr1 hr2 c n (Nat.lt_of_succ_lt hn))).2 Set.univ _)
      iframe Ha Hb HT HS HC
      iintro ⟨Ha, Hb, HT, HS, HC⟩
      iframe

theorem hin0 (c : Dev nD) {P : sProp 𝕄} :
    iprop(iprop((∃ r, prngReg c r) ∗ own0 c ∗ hbm0 V c) ∗ P ∗ scoped0 c) ⊢ (dat0 V hr1 hr2 c).Φ 0 := by
  rw [show (dat0 V hr1 hr2 c).Φ 0 = Phi0 V hr1 hr2 c 0 (Nat.zero_le _) from rfl, Phi0_zero V hr1 hr2 c 0 _ rfl]
  rw [ownSems00_eq, hbmPts0_eq, scoped0_eq]
  unfold PhiRest0 scrAny0
  iintro ⟨⟨Hg, Hq, Hh⟩, -, ⟨⟨HT, HS, HC⟩, HR⟩⟩
  iframe

theorem hout0 (c : Dev nD) :
    (dat0 V hr1 hr2 c).Φ (Fin.last cfg0.N) ⊢ iprop(iprop((∃ r, prngReg c r) ∗ hbm0 V c) ∗ own0 c ∗ scoped0 c) := by
  rw [show (dat0 V hr1 hr2 c).Φ (Fin.last cfg0.N) = Phi0 V hr1 hr2 c (Fin.last cfg0.N).val (Nat.le_of_lt_succ (Fin.last cfg0.N).isLt) from rfl,
    Phi0_pos V hr1 hr2 c _ _ (by rw [Fin.val_last]; have : cfg0.N = 3200 := N_0; omega)]
  rw [ownSems00_eq, hbmPts0_eq, scoped0_eq]
  unfold PhiRest0 scrAny0
  iintro ⟨⟨HT, HS, HC⟩, HR, Hg, Hq, Hh⟩
  iframe Hg Hh Hq HR
  isplitl [HT]; · iexists _; iexact HT
  isplitl [HS]; · iexists _; iexact HS
  iexists _; iexact HC

end Cert.KernelIdeal.Hand

end
-- ==== Proof.KI.Defs1.lean ====
import proofs.«414466_j73993696576172_1_alg».proof.Proof.KI.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev hbT1 : Memref sig .tc .hbm S50000x64 .f32 := Memref.whole main_arg11
abbrev scT1 : Memref sig .tc .vmem S50000x64 .f32 := Memref.whole cc1_scratch0
abbrev scS1 : Memref sig .tc .vmem S16384x64 .f32 := Memref.whole cc1_scratch1
abbrev scC1 : Memref sig .tc .vmem S16384x1 .f32 := Memref.whole cc1_scratch2
abbrev ms1_0 (t : Fin cfg1.N) : Memref sig .tc .smem S256 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S256 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16384x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16384x1 .f32 := win1_3.stage (cfg1.slots t 3)
abbrev hs1_3 (t : Fin cfg1.N) : (ms1_3 t).IsWhole := hstage1_3 ((cfg1.slots t 3).cast nbuf1_3)

abbrev isFirst1 (i : grid1.Coords) : BitVec 1 :=
  Scalar.cmpi .ne (Scalar.extui (Scalar.cmpi .eq (BitVec.ofNat 32 (i 0).val) 0#32)) 0#32

theorem isFirst1_iff (i : grid1.Coords) : isFirst1 i = 1#1 ↔ (i 0).val = 0 := by
  have hi : (i 0).val < 1600 := (i 0).isLt
  exact (test_eq_iff _ _).trans (ofNat_inj_small _ 0 (by omega) (by omega))

theorem cond2_1_iff (i : grid1.Coords) : k1_cond2 i = 1#1 ↔ (i 0).val = 1599 := by
  have hi : (i 0).val < 1600 := (i 0).isLt
  show Scalar.cmpi .ne (Scalar.extui (Scalar.cmpi .eq (BitVec.ofNat 32 (i 0).val) 1599#32)) 0#32 = 1#1 ↔ _
  exact (test_eq_iff _ _).trans (ofNat_inj_small _ 1599 (by omega) (by omega))

end Cert.KernelIdeal.Hand

end
-- ==== Proof.KI.PoolRun1.lean ====
import proofs.«414466_j73993696576172_1_alg».proof.Proof.KI.Defs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (i : grid1.Coords)
  (M1 : Memref sig .tc .smem S256 .i32) (h1 : M1.IsWhole) (M2 : Memref sig .tc .smem S256 .i32) (h2 : M2.IsWhole)
  (M3 : Memref sig .tc .hbm S50000x64 .f32) (h3 : M3.IsWhole)
  (M4 : Memref sig .tc .vmem S16384x64 .f32) (h4 : M4.IsWhole) (M5 : Memref sig .tc .vmem S16384x1 .f32) (h5 : M5.IsWhole)
  (M6 : Memref sig .tc .vmem S50000x64 .f32) (h6 : M6.IsWhole) (M7 : Memref sig .tc .vmem S16384x64 .f32) (h7 : M7.IsWhole)
  (M8 : Memref sig .tc .vmem S16384x1 .f32) (h8 : M8.IsWhole) (M9 : DmaSems sig S_)
  (hA : isFirst1 i = 1#1) (hnA : ¬ (isFirst1 i = 1#1)) (hnC : ¬ (k1_cond2 i = 1#1)) (hC : k1_cond2 i = 1#1)
  (x1 x2 : Vec F S256 .i32) (hx1 : ∀ y, BitVec.toNat (x1 y) < 50000) (hx2 : ∀ y, BitVec.toNat (x2 y) < 16384)
  (T : Vec F S50000x64 .f32) (S : Vec F S16384x64 .f32) (C : Vec F S16384x1 .f32)

set_option maxHeartbeats 16000000 in
noncomputable def poolRun1A (fh : Bf (F := F) c hbT1) :
    { W : Vec F S50000x64 .f32 × Vec F S16384x64 .f32 × Vec F S16384x1 .f32 //
      ∀ (Wt : Waits sig Unit) (Q : PUnit → sProp 𝕄),
        iprop(owns (c : Thread nD τ) M1 fullShare x1 ∗ owns (c : Thread nD τ) M2 fullShare x2
            ∗ (∃ d, owns (c : Thread nD τ) M6 fullShare d) ∗ (∃ d, owns (c : Thread nD τ) M7 fullShare d) ∗ (∃ d, owns (c : Thread nD τ) M8 fullShare d)
            ∗ semVal ((c : Thread nD τ), SemLoc.dma 13) 0 ∗ pt c hbT1 fh ∗ owes (c : Thread nD τ) 0 Wt
            ∗ (iprop(owns (c : Thread nD τ) M1 fullShare x1 ∗ owns (c : Thread nD τ) M2 fullShare x2
                ∗ owns (c : Thread nD τ) M6 fullShare W.1 ∗ owns (c : Thread nD τ) M7 fullShare W.2.1 ∗ owns (c : Thread nD τ) M8 fullShare W.2.2
                ∗ semVal ((c : Thread nD τ), SemLoc.dma 13) 0 ∗ pt c hbT1 fh ∗ (∃ W', owes (c : Thread nD τ) 0 W')) -∗ Q ⟨⟩))
          ⊢ wp frame (wpE (defs₀ (F := F)) Variants.none c none) Set.univ
              (cc1__pool_kernel i M1 h1 M2 h2 hbT1 (Memref.isWhole_whole _) M4 h4 M5 h5 M6 h6 M7 h7 M8 h8 cc1_scratch3) Q } := by
  clear hnA hC M9 T S C h3 M3
  refine ⟨⟨?_, ?_, ?_⟩, fun Wt Q => ?run⟩
  case run =>
    dsimp only
    unfold owns
    iintro ⟨⟨%f1, %hf1, H1⟩, ⟨%f2, %hf2, H2⟩, ⟨%d6, %f6, -, H6⟩, ⟨%d7, %f7, -, H7⟩, ⟨%d8, %f8, -, H8⟩, Hq, Hh, HW, Hk⟩
    obtain rfl := h1.eq_unread hf1
    obtain rfl := h2.eq_unread hf2
    sl_exec_parts! (disch := first | sl_exact hA | sl_exact hnC | (refine chk_tab _ ?_; sl_unfold_run_names; simp only [View.readAt_apply, Memref.IsWhole.read_unread]; exact hx1 _) | (refine chk_seg _ ?_; sl_unfold_run_names; simp only [View.readAt_apply, Memref.IsWhole.read_unread]; exact hx2 _))
    sl_step
    iapply Hk
    isplitl [H1]; · iexists _; iframe H1; ipureintro; exact h1.read_unread _
    isplitl [H2]; · iexists _; iframe H2; ipureintro; exact h2.read_unread _
    isplitl [H6]; · iexists _; iframe H6; ipureintro; exact rfl
    isplitl [H7]; · iexists _; iframe H7; ipureintro; exact rfl
    isplitl [H8]; · iexists _; iframe H8; ipureintro; exact rfl
    isplitl [Hq]; · iexact Hq
    isplitl [Hh]; · iexact Hh
    iexists _; iexact HW

set_option maxHeartbeats 16000000 in
noncomputable def poolRun1B :
    { W : Vec F S16384x64 .f32 × Vec F S16384x1 .f32 //
      ∀ (E : Set ℕ) (Q : PUnit → sProp 𝕄),
        iprop(owns (c : Thread nD τ) M1 fullShare x1 ∗ owns (c : Thread nD τ) M2 fullShare x2 ∗ owns (c : Thread nD τ) M6 fullShare T
            ∗ owns (c : Thread nD τ) M7 fullShare S ∗ owns (c : Thread nD τ) M8 fullShare C
            ∗ (iprop(owns (c : Thread nD τ) M1 fullShare x1 ∗ owns (c : Thread nD τ) M2 fullShare x2 ∗ owns (c : Thread nD τ) M6 fullShare T
                ∗ owns (c : Thread nD τ) M7 fullShare W.1 ∗ owns (c : Thread nD τ) M8 fullShare W.2) -∗ Q ⟨⟩))
          ⊢ wp frame (wpE (defs₀ (F := F)) Variants.none c none) E
              (cc1__pool_kernel i M1 h1 M2 h2 M3 h3 M4 h4 M5 h5 M6 h6 M7 h7 M8 h8 M9) Q } := by
  clear hA hC
  refine ⟨⟨?_, ?_⟩, fun E Q => ?run⟩
  case run =>
    dsimp only
    unfold owns
    iintro ⟨⟨%f1, %hf1, H1⟩, ⟨%f2, %hf2, H2⟩, ⟨%f6, %hf6, H6⟩, ⟨%f7, %hf7, H7⟩, ⟨%f8, %hf8, H8⟩, Hk⟩
    obtain rfl := h1.eq_unread hf1
    obtain rfl := h2.eq_unread hf2
    obtain rfl := h6.eq_unread hf6
    obtain rfl := h7.eq_unread hf7
    obtain rfl := h8.eq_unread hf8
    sl_exec_parts! (disch := first | sl_exact hnA | sl_exact hnC | (refine chk_tab _ ?_; sl_unfold_run_names; simp only [View.readAt_apply, Memref.IsWhole.read_unread]; exact hx1 _) | (refine chk_seg _ ?_; sl_unfold_run_names; simp only [View.readAt_apply, Memref.IsWhole.read_unread]; exact hx2 _))
    sl_step
    iapply Hk
    isplitl [H1]; · iexists _; iframe H1; ipureintro; exact h1.read_unread _
    isplitl [H2]; · iexists _; iframe H2; ipureintro; exact h2.read_unread _
    isplitl [H6]; · iexists _; iframe H6; ipureintro; exact h6.read_unread _
    isplitl [H7]; · iexists _; iframe H7; ipureintro; exact rfl
    iexists _; iframe H8; ipureintro; exact rfl

set_option maxHeartbeats 16000000 in
noncomputable def poolRun1C :
    { W : (Vec F S16384x64 .f32 × Vec F S16384x1 .f32) × (Vec F S16384x64 .f32 × Vec F S16384x1 .f32) //
      ∀ (E : Set ℕ) (Q : PUnit → sProp 𝕄),
        iprop(owns (c : Thread nD τ) M1 fullShare x1 ∗ owns (c : Thread nD τ) M2 fullShare x2 ∗ owns (c : Thread nD τ) M6 fullShare T
            ∗ owns (c : Thread nD τ) M7 fullShare S ∗ owns (c : Thread nD τ) M8 fullShare C
            ∗ (∃ d, owns (c : Thread nD τ) M4 fullShare d) ∗ (∃ d, owns (c : Thread nD τ) M5 fullShare d)
            ∗ (iprop(owns (c : Thread nD τ) M1 fullShare x1 ∗ owns (c : Thread nD τ) M2 fullShare x2 ∗ owns (c : Thread nD τ) M6 fullShare T
                ∗ owns (c : Thread nD τ) M7 fullShare W.1.1 ∗ owns (c : Thread nD τ) M8 fullShare W.1.2
                ∗ owns (c : Thread nD τ) M4 fullShare W.2.1 ∗ owns (c : Thread nD τ) M5 fullShare W.2.2) -∗ Q ⟨⟩))
          ⊢ wp frame (wpE (defs₀ (F := F)) Variants.none c none) E
              (cc1__pool_kernel i M1 h1 M2 h2 M3 h3 M4 h4 M5 h5 M6 h6 M7 h7 M8 h8 M9) Q } := by
  clear hA hnC
  refine ⟨⟨⟨?_, ?_⟩, ⟨?_, ?_⟩⟩, fun E Q => ?run⟩
  case run =>
    dsimp only
    unfold owns
    iintro ⟨⟨%f1, %hf1, H1⟩, ⟨%f2, %hf2, H2⟩, ⟨%f6, %hf6, H6⟩, ⟨%f7, %hf7, H7⟩, ⟨%f8, %hf8, H8⟩, ⟨%d4, %f4, -, H4⟩, ⟨%d5, %f5, -, H5⟩, Hk⟩
    obtain rfl := h1.eq_unread hf1
    obtain rfl := h2.eq_unread hf2
    obtain rfl := h6.eq_unread hf6
    obtain rfl := h7.eq_unread hf7
    obtain rfl := h8.eq_unread hf8
    sl_exec_parts! (disch := first | sl_exact hnA | sl_exact hC | (refine chk_tab _ ?_; sl_unfold_run_names; simp only [View.readAt_apply, Memref.IsWhole.read_unread]; exact hx1 _) | (refine chk_seg _ ?_; sl_unfold_run_names; simp only [View.readAt_apply, Memref.IsWhole.read_unread]; exact hx2 _))
    sl_step
    iapply Hk
    isplitl [H1]; · iexists _; iframe H1; ipureintro; exact h1.read_unread _
    isplitl [H2]; · iexists _; iframe H2; ipureintro; exact h2.read_unread _
    isplitl [H6]; · iexists _; iframe H6; ipureintro; exact h6.read_unread _
    isplitl [H7]; · iexists _; iframe H7; ipureintro; exact rfl
    isplitl [H8]; · iexists _; iframe H8; ipureintro; exact rfl
    isplitl [H4]; · iexists _; iframe H4; ipureintro; exact rfl
    iexists _; iframe H5; ipureintro; exact rfl

end Cert.KernelIdeal.Hand

end
-- ==== Proof.KI.Pool1Data.lean ====
import proofs.«414466_j73993696576172_1_alg».proof.Proof.KI.PoolRun1
import Idealize.ShloMosaic.Lib.Pipeline.FrameBody
import Idealize.ShloMosaic.Lib.Pipeline.Regions
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (hr1 : ∀ (c : Dev nD) (j : S409600.Idx), BitVec.toNat ((V c main_arg4 : S409600.Idx → BitVec 32) j) < 50000)
variable (hr2 : ∀ (c : Dev nD) (j : S409600.Idx), BitVec.toNat ((V c main_arg5 : S409600.Idx → BitVec 32) j) < 16384)

-- The grid has one axis, so point t has coordinate t.
theorem coord1_val (t : Fin cfg1.N) : ((grid1.coords t) 0).val = t.val := by
  have hN : t.val < 1600 := lt_of_lt_of_eq t.isLt (show cfg1.N = 1600 from N_1)
  show t.val / grid1.stride 0 % grid1.bound 0 = t.val
  rw [show grid1.stride 0 = 1 from by decide, show grid1.bound 0 = 1600 from rfl, Nat.div_one, Nat.mod_eq_of_lt hN]

-- Block t of window w, read from the array as it stands when the region begins.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

include hr1 in
theorem hx1_01 (c : Dev nD) (t : Fin cfg1.N) : ∀ y, BitVec.toNat ((iblk1 V c 0 t : Vec F S256 .i32) y) < 50000 := fun y => by
  unfold iblk1; rw [View.read_apply]; exact hr1 c _

include hr2 in
theorem hx2_01 (c : Dev nD) (t : Fin cfg1.N) : ∀ y, BitVec.toNat ((iblk1 V c 1 t : Vec F S256 .i32) y) < 16384 := fun y => by
  unfold iblk1; rw [View.read_apply]; exact hr2 c _

theorem first_of_zero1 (t : Fin cfg1.N) (h : t.val = 0) : isFirst1 (grid1.coords t) = 1#1 :=
  (isFirst1_iff _).mpr ((coord1_val t).trans h)
theorem not_first_of_pos1 (t : Fin cfg1.N) (h : t.val ≠ 0) : ¬ (isFirst1 (grid1.coords t) = 1#1) :=
  fun e => h ((coord1_val t).symm.trans ((isFirst1_iff _).mp e))
theorem last_of1 (t : Fin cfg1.N) (h : t.val = 1599) : k1_cond2 (grid1.coords t) = 1#1 :=
  (cond2_1_iff _).mpr ((coord1_val t).trans h)
theorem not_last_of1 (t : Fin cfg1.N) (h : t.val ≠ 1599) : ¬ (k1_cond2 (grid1.coords t) = 1#1) :=
  fun e => h ((coord1_val t).symm.trans ((cond2_1_iff _).mp e))

-- The body's three cases at grid point t: the first point (A), a middle point (B), the last point (C);
-- B and C start from a state s of the table and the two accumulators.
abbrev wA1 (c : Dev nD) (t : Fin cfg1.N) (hA : isFirst1 (grid1.coords t) = 1#1) (hnC : ¬ (k1_cond2 (grid1.coords t) = 1#1)) :=
  poolRun1A c (grid1.coords t) (ms1_0 t) (hs1_0 t) (ms1_1 t) (hs1_1 t) (ms1_2 t) (hs1_2 t) (ms1_3 t) (hs1_3 t) scT1 (Memref.isWhole_whole _) scS1 (Memref.isWhole_whole _) scC1 (Memref.isWhole_whole _) hA hnC (iblk1 V c 0 t) (iblk1 V c 1 t) (hx1_01 V hr1 c t) (hx2_01 V hr2 c t) (V c main_arg11)

abbrev wB1 (c : Dev nD) (t : Fin cfg1.N) (hnA : ¬ (isFirst1 (grid1.coords t) = 1#1)) (hnC : ¬ (k1_cond2 (grid1.coords t) = 1#1)) (s : Vec F S50000x64 .f32 × Vec F S16384x64 .f32 × Vec F S16384x1 .f32) :=
  poolRun1B c (grid1.coords t) (ms1_0 t) (hs1_0 t) (ms1_1 t) (hs1_1 t) hbT1 (Memref.isWhole_whole _) (ms1_2 t) (hs1_2 t) (ms1_3 t) (hs1_3 t) scT1 (Memref.isWhole_whole _) scS1 (Memref.isWhole_whole _) scC1 (Memref.isWhole_whole _) cc1_scratch3 hnA hnC (iblk1 V c 0 t) (iblk1 V c 1 t) (hx1_01 V hr1 c t) (hx2_01 V hr2 c t) s.1 s.2.1 s.2.2

abbrev wC1 (c : Dev nD) (t : Fin cfg1.N) (hnA : ¬ (isFirst1 (grid1.coords t) = 1#1)) (hC : k1_cond2 (grid1.coords t) = 1#1) (s : Vec F S50000x64 .f32 × Vec F S16384x64 .f32 × Vec F S16384x1 .f32) :=
  poolRun1C c (grid1.coords t) (ms1_0 t) (hs1_0 t) (ms1_1 t) (hs1_1 t) hbT1 (Memref.isWhole_whole _) (ms1_2 t) (hs1_2 t) (ms1_3 t) (hs1_3 t) scT1 (Memref.isWhole_whole _) scS1 (Memref.isWhole_whole _) scC1 (Memref.isWhole_whole _) cc1_scratch3 hnA hC (iblk1 V c 0 t) (iblk1 V c 1 t) (hx1_01 V hr1 c t) (hx2_01 V hr2 c t) s.1 s.2.1 s.2.2

-- The table and the two accumulators after point n, by recursion on n: case A at 0, case C at 1599, case B between.
def stAt1 (c : Dev nD) : (n : ℕ) → n < cfg1.N → Vec F S50000x64 .f32 × Vec F S16384x64 .f32 × Vec F S16384x1 .f32
  | 0, hn => (wA1 V hr1 hr2 c ⟨0, hn⟩ (first_of_zero1 ⟨0, hn⟩ rfl) (not_last_of1 ⟨0, hn⟩ (show (0 : ℕ) ≠ 1599 from by decide))).1
  | n + 1, hn =>
    if h : n + 1 = 1599 then
      ((stAt1 c n (Nat.lt_of_succ_lt hn)).1,
        (wC1 V hr1 hr2 c ⟨n + 1, hn⟩ (not_first_of_pos1 ⟨n + 1, hn⟩ (Nat.succ_ne_zero n)) (last_of1 ⟨n + 1, hn⟩ h) (stAt1 c n (Nat.lt_of_succ_lt hn))).1.1)
    else
      ((stAt1 c n (Nat.lt_of_succ_lt hn)).1,
        (wB1 V hr1 hr2 c ⟨n + 1, hn⟩ (not_first_of_pos1 ⟨n + 1, hn⟩ (Nat.succ_ne_zero n)) (not_last_of1 ⟨n + 1, hn⟩ h) (stAt1 c n (Nat.lt_of_succ_lt hn))).1)

theorem stAt1_zero (c : Dev nD) (hn : 0 < cfg1.N) (hA : isFirst1 (grid1.coords ⟨0, hn⟩) = 1#1) (hnC : ¬ (k1_cond2 (grid1.coords ⟨0, hn⟩) = 1#1)) :
    stAt1 V hr1 hr2 c 0 hn = (wA1 V hr1 hr2 c ⟨0, hn⟩ hA hnC).1 := rfl

theorem stAt1_mid (c : Dev nD) (n : ℕ) (hn : n + 1 < cfg1.N) (h : n + 1 ≠ 1599)
    (hnA : ¬ (isFirst1 (grid1.coords ⟨n + 1, hn⟩) = 1#1)) (hnC : ¬ (k1_cond2 (grid1.coords ⟨n + 1, hn⟩) = 1#1)) :
    stAt1 V hr1 hr2 c (n + 1) hn = ((stAt1 V hr1 hr2 c n (Nat.lt_of_succ_lt hn)).1,
      (wB1 V hr1 hr2 c ⟨n + 1, hn⟩ hnA hnC (stAt1 V hr1 hr2 c n (Nat.lt_of_succ_lt hn))).1) :=
  (dif_neg h).trans rfl

theorem stAt1_last (c : Dev nD) (n : ℕ) (hn : n + 1 < cfg1.N) (h : n + 1 = 1599)
    (hnA : ¬ (isFirst1 (grid1.coords ⟨n + 1, hn⟩) = 1#1)) (hC : k1_cond2 (grid1.coords ⟨n + 1, hn⟩) = 1#1) :
    stAt1 V hr1 hr2 c (n + 1) hn = ((stAt1 V hr1 hr2 c n (Nat.lt_of_succ_lt hn)).1,
      (wC1 V hr1 hr2 c ⟨n + 1, hn⟩ hnA hC (stAt1 V hr1 hr2 c n (Nat.lt_of_succ_lt hn))).1.1) :=
  (dif_pos h).trans rfl

-- What point n leaves in the two output blocks; only the last point's value is ever used.
def outsAt1 (c : Dev nD) : (n : ℕ) → n < cfg1.N → Vec F S16384x64 .f32 × Vec F S16384x1 .f32
  | 0, hn => (stAt1 V hr1 hr2 c 0 hn).2
  | n + 1, hn =>
    if h : n + 1 = 1599 then
      (wC1 V hr1 hr2 c ⟨n + 1, hn⟩ (not_first_of_pos1 ⟨n + 1, hn⟩ (Nat.succ_ne_zero n)) (last_of1 ⟨n + 1, hn⟩ h) (stAt1 V hr1 hr2 c n (Nat.lt_of_succ_lt hn))).1.2
    else (stAt1 V hr1 hr2 c (n + 1) hn).2

theorem outsAt1_last (c : Dev nD) (n : ℕ) (hn : n + 1 < cfg1.N) (h : n + 1 = 1599)
    (hnA : ¬ (isFirst1 (grid1.coords ⟨n + 1, hn⟩) = 1#1)) (hC : k1_cond2 (grid1.coords ⟨n + 1, hn⟩) = 1#1) :
    outsAt1 V hr1 hr2 c (n + 1) hn = (wC1 V hr1 hr2 c ⟨n + 1, hn⟩ hnA hC (stAt1 V hr1 hr2 c n (Nat.lt_of_succ_lt hn))).1.2 :=
  (dif_pos h).trans rfl

-- From here on both are used through the equations above only.
attribute [irreducible] stAt1 outsAt1

abbrev osem1 : Fin 1 → SemLoc sig := fun _ => SemLoc.dma 13
theorem ownSemFacts1 : Pipeline.OwnSemFacts spec1 osem1 := by decide

abbrev own1 (c : Dev nD) : sProp 𝕄 :=
  Pipeline.ownSems0 (Ix := Unit) (Name := ℕ) (U := Pipeline.UD sig nD τ) (Lvl := ℕ) (Val := Elt F) (τ := τ) osem1 c

theorem ownSems00_eq1 (c : Dev nD) : (own1 c : sProp 𝕄) = iprop(semVal ((c : Thread nD τ), SemLoc.dma 13) 0) := by
  unfold own1; rw [Pipeline.ownSems0_eq_of_list c osem1 [0] (by decide) (by decide)]; rfl

def H1 : Finset (Ref sig .tc) := {main_arg11}
theorem H1_sub : H1 ⊆ Pipeline.restRefs sig spec1 := by decide

abbrev hbm1 (c : Dev nD) : sProp 𝕄 :=
  bigSep H1 (fun b => ((c : Thread nD τ).loc b) ↦{fullShare} V c b)

theorem hbmPts1_eq (c : Dev nD) : (hbm1 V c : sProp 𝕄) = iprop(pt c hbT1 (V c main_arg11)) := by
  unfold hbm1; rw [BI.bigSep_eq_bigSepL_of_eq [main_arg11] (by decide) (by decide)]; rfl

abbrev scrAny1 (c : Dev nD) : sProp 𝕄 :=
  iprop((∃ d, owns (c : Thread nD τ) scT1 fullShare d) ∗ (∃ d, owns (c : Thread nD τ) scS1 fullShare d) ∗ (∃ d, owns (c : Thread nD τ) scC1 fullShare d))

abbrev scrAt1 (c : Dev nD) (s : Vec F S50000x64 .f32 × Vec F S16384x64 .f32 × Vec F S16384x1 .f32) : sProp 𝕄 :=
  iprop(owns (c : Thread nD τ) scT1 fullShare s.1 ∗ owns (c : Thread nD τ) scS1 fullShare s.2.1 ∗ owns (c : Thread nD τ) scC1 fullShare s.2.2)

abbrev restBut1 (c : Dev nD) : sProp 𝕄 :=
  Pipeline.scopedRestBut (Ix := Unit) (Name := ℕ) (U := Pipeline.UD sig nD τ) (Lvl := ℕ) (Val := Elt F) spec1 c [cc1_scratch0, cc1_scratch1, cc1_scratch2]

abbrev scoped1 (c : Dev nD) : sProp 𝕄 :=
  Pipeline.scopedRest (Ix := Unit) (Name := ℕ) (U := Pipeline.UD sig nD τ) (Lvl := ℕ) (Val := Elt F) spec1 c

theorem scoped1_eq (c : Dev nD) : (scoped1 c : sProp 𝕄) = iprop(scrAny1 c ∗ restBut1 c) := by
  unfold scoped1 scrAny1 restBut1; rw [scopedRest1_split]; simp only [scT1, scS1, scC1, owns_whole]; try rfl

def PhiRest1 (c : Dev nD) : sProp 𝕄 :=
  iprop(restBut1 c ∗ (∃ r, prngReg c r) ∗ semVal ((c : Thread nD τ), SemLoc.dma 13) 0 ∗ pt c hbT1 (V c main_arg11))

-- Between points the three scratch arrays hold the state after the point before (anything before the first),
-- beside resources that never change.
def Phi1 (c : Dev nD) : (n : ℕ) → n ≤ cfg1.N → sProp 𝕄
  | 0, _ => iprop(scrAny1 c ∗ PhiRest1 V c)
  | n + 1, hn => iprop(scrAt1 c (stAt1 V hr1 hr2 c n hn) ∗ PhiRest1 V c)

theorem Phi1_zero (c : Dev nD) (n : ℕ) (h : n ≤ cfg1.N) (hz : n = 0) :
    Phi1 V hr1 hr2 c n h = iprop(scrAny1 c ∗ PhiRest1 V c) := by
  subst hz; rfl

theorem Phi1_pos (c : Dev nD) (n : ℕ) (h : n ≤ cfg1.N) (hz : n ≠ 0) :
    Phi1 V hr1 hr2 c n h = iprop(scrAt1 c (stAt1 V hr1 hr2 c (n - 1) (by omega)) ∗ PhiRest1 V c) := by
  cases n with
  | zero => exact absurd rfl hz
  | succ n => rfl

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V hr1 hr2 c t.val t.isLt).1
    | ⟨3, _⟩ => (outsAt1 V hr1 hr2 c t.val t.isLt).2
  Φ t := Phi1 V hr1 hr2 c t.val (Nat.le_of_lt_succ t.isLt)
  q _ := fullShare
  owed _ := 0

theorem A_eq1 (c : Dev nD) (w : Fin cfg1.W) : (dat1 V hr1 hr2 c).A w = V c (Pipeline.arrRef spec1 w) := rfl

theorem after1_2 (c : Dev nD) (t : Fin cfg1.N) : (dat1 V hr1 hr2 c).after 2 t = (outsAt1 V hr1 hr2 c t.val t.isLt).1 := rfl
theorem after1_3 (c : Dev nD) (t : Fin cfg1.N) : (dat1 V hr1 hr2 c).after 3 t = (outsAt1 V hr1 hr2 c t.val t.isLt).2 := rfl

theorem before1_0 (c : Dev nD) (t : Fin cfg1.N) (d) : (dat1 V hr1 hr2 c).before 0 t d = iblk1 V c 0 t :=
  (dat1 V hr1 hr2 c).before_in_eq_fetched 0 rfl (fun _ => rfl) (fun _ _ _ => rfl) (fun _ => rfl) t d
theorem before1_1 (c : Dev nD) (t : Fin cfg1.N) (d) : (dat1 V hr1 hr2 c).before 1 t d = iblk1 V c 1 t :=
  (dat1 V hr1 hr2 c).before_in_eq_fetched 1 rfl (fun _ => rfl) (fun _ _ _ => rfl) (fun _ => rfl) t d

end Cert.KernelIdeal.Hand

end
-- ==== Proof.KI.Pool1.lean ====
import proofs.«414466_j73993696576172_1_alg».proof.Proof.KI.Pool1Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (hr1 : ∀ (c : Dev nD) (j : S409600.Idx), BitVec.toNat ((V c main_arg4 : S409600.Idx → BitVec 32) j) < 50000)
variable (hr2 : ∀ (c : Dev nD) (j : S409600.Idx), BitVec.toNat ((V c main_arg5 : S409600.Idx → BitVec 32) j) < 16384)

theorem idleAt1 (t : Fin cfg1.N) (h : ¬ (k1_cond2 (grid1.coords t) = 1#1)) : cfg1.idle 2 (grid1.coords t) = true := by
  show (!(k1_cond2 (grid1.coords t) == 1#1)) = true
  rw [Bool.not_eq_true', beq_eq_false_iff_ne]; exact h

theorem noFlush1 {w : Fin cfg1.W} (hw : w = 2 ∨ w = 3) (t : Fin cfg1.N) (h : t.val ≠ 1599) : (cfg1.win w).flush t = false := by
  have hN : t.val < 1600 := lt_of_lt_of_eq t.isLt (show cfg1.N = 1600 from N_1)
  rcases hw with rfl | rfl
  · exact Bool.eq_false_iff.mpr fun hf => h (by have := (flush1_2 t).mp hf; omega)
  · exact Bool.eq_false_iff.mpr fun hf => h (by have := (flush1_3 t).mp hf; omega)

set_option maxHeartbeats 4000000 in
theorem body_obligation1 (c : Dev nD) : BodyObligation (dat1 (F := F) V hr1 hr2 c) (defs₀ (F := F)) Variants.none () Set.univ := fun t => by
  rw [bigSep_W1, bigSep_W1]
  simp only [before1_0, before1_1]
  change iprop(Phi1 V hr1 hr2 c t.val (Nat.le_of_lt t.isLt) ∗ _) ⊢ wp _ _ _ (bodyAt1 t) fun _ =>
    iprop(iprop(scrAt1 c (stAt1 V hr1 hr2 c t.val t.isLt) ∗ PhiRest1 V c) ∗ (dat1 V hr1 hr2 c).owesAt () t.succ
      ∗ owns (c : Thread nD τ) (ms1_0 t) fullShare (iblk1 V c 0 t) ∗ owns (c : Thread nD τ) (ms1_1 t) fullShare (iblk1 V c 1 t)
      ∗ (dat1 V hr1 hr2 c).leavesExact 2 t ∗ (dat1 V hr1 hr2 c).leavesExact 3 t)
  unfold bodyAt1
  obtain ⟨n, hn⟩ := t
  cases n with
  | zero =>
    have h1 : (⟨0, hn⟩ : Fin cfg1.N).val ≠ 1599 := show (0 : ℕ) ≠ 1599 from by decide
    have hA := first_of_zero1 ⟨0, hn⟩ rfl
    have hnC := not_last_of1 ⟨0, hn⟩ h1
    unfold Dat.leavesExact
    rw [idleAt1 _ hnC, noFlush1 (.inl rfl) _ h1, noFlush1 (.inr rfl) _ h1, Phi1_zero V hr1 hr2 c _ _ rfl, stAt1_zero V hr1 hr2 c hn hA hnC]
    unfold PhiRest1 scrAny1 scrAt1 Dat.owesAt Pipeline.owesWithin
    rw [show (dat1 V hr1 hr2 c).owed _ = 0 from rfl, show (dat1 V hr1 hr2 c).owed _ = 0 from rfl]
    iintro ⟨⟨⟨HT, HS, HC⟩, HR, Hg, Hq, Hh⟩, ⟨%W, -, HW⟩, ⟨%d0, Ha⟩, ⟨%d1, Hb⟩, H2, H3⟩
    iapply ((wA1 V hr1 hr2 c ⟨0, hn⟩ hA hnC).2 W _)
    iframe Ha Hb HT HS HC Hq Hh HW
    iintro ⟨Ha, Hb, HT, HS, HC, Hq, Hh, ⟨%W', HW'⟩⟩
    iframe Ha Hb HT HS HC HR Hg Hq Hh H2 H3
    iexists W'; isplitr; · ipureintro; exact fun _ _ => Or.inl trivial
    iexact HW'
  | succ n =>
    have hnA := not_first_of_pos1 ⟨n + 1, hn⟩ (Nat.succ_ne_zero n)
    change iprop(iprop(scrAt1 c (stAt1 V hr1 hr2 c n (Nat.lt_of_succ_lt hn)) ∗ PhiRest1 V c) ∗ _) ⊢ wp _ _ _ _ fun _ =>
      iprop(_ ∗ (dat1 V hr1 hr2 c).owesAt () (Fin.castSucc ⟨n + 1, hn⟩) ∗ _)
    by_cases h1 : n + 1 = 1599
    · have hC := last_of1 ⟨n + 1, hn⟩ h1
      unfold Dat.leavesExact
      rw [show cfg1.idle 2 (grid1.coords ⟨n + 1, hn⟩) = false from by show (!(k1_cond2 (grid1.coords ⟨n + 1, hn⟩) == 1#1)) = false; rw [hC]; rfl, after1_2, after1_3, stAt1_last V hr1 hr2 c n hn h1 hnA hC, outsAt1_last V hr1 hr2 c n hn h1 hnA hC]
      dsimp only [scrAt1]
      iintro ⟨⟨⟨HT, HS, HC⟩, HR⟩, Ho, ⟨%d0, Ha⟩, ⟨%d1, Hb⟩, ⟨%d2, H2⟩, ⟨%d3, H3⟩⟩
      iapply ((wC1 V hr1 hr2 c ⟨n + 1, hn⟩ hnA hC (stAt1 V hr1 hr2 c n (Nat.lt_of_succ_lt hn))).2 Set.univ _)
      iframe Ha Hb HT HS HC
      isplitl [H2]; · iexists _; iexact H2
      isplitl [H3]; · iexists _; iexact H3
      iintro ⟨Ha, Hb, HT, HS, HC, H2, H3⟩
      iframe
    · have hnC := not_last_of1 ⟨n + 1, hn⟩ h1
      unfold Dat.leavesExact
      rw [idleAt1 _ hnC, noFlush1 (.inl rfl) _ h1, noFlush1 (.inr rfl) _ h1, stAt1_mid V hr1 hr2 c n hn h1 hnA hnC]
      dsimp only [scrAt1]
      iintro ⟨⟨⟨HT, HS, HC⟩, HR⟩, Ho, ⟨%d0, Ha⟩, ⟨%d1, Hb⟩, H2, H3⟩
      iapply ((wB1 V hr1 hr2 c ⟨n + 1, hn⟩ hnA hnC (stAt1 V hr1 hr2 c n (Nat.lt_of_succ_lt hn))).2 Set.univ _)
      iframe Ha Hb HT HS HC
      iintro ⟨Ha, Hb, HT, HS, HC⟩
      iframe

theorem hin1 (c : Dev nD) {P : sProp 𝕄} :
    iprop(iprop((∃ r, prngReg c r) ∗ own1 c ∗ hbm1 V c) ∗ P ∗ scoped1 c) ⊢ (dat1 V hr1 hr2 c).Φ 0 := by
  rw [show (dat1 V hr1 hr2 c).Φ 0 = Phi1 V hr1 hr2 c 0 (Nat.zero_le _) from rfl, Phi1_zero V hr1 hr2 c 0 _ rfl]
  rw [ownSems00_eq1, hbmPts1_eq, scoped1_eq]
  unfold PhiRest1 scrAny1
  iintro ⟨⟨Hg, Hq, Hh⟩, -, ⟨⟨HT, HS, HC⟩, HR⟩⟩
  iframe

theorem hout1 (c : Dev nD) :
    (dat1 V hr1 hr2 c).Φ (Fin.last cfg1.N) ⊢ iprop(iprop((∃ r, prngReg c r) ∗ hbm1 V c) ∗ own1 c ∗ scoped1 c) := by
  rw [show (dat1 V hr1 hr2 c).Φ (Fin.last cfg1.N) = Phi1 V hr1 hr2 c (Fin.last cfg1.N).val (Nat.le_of_lt_succ (Fin.last cfg1.N).isLt) from rfl,
    Phi1_pos V hr1 hr2 c _ _ (by rw [Fin.val_last]; have : cfg1.N = 1600 := N_1; omega)]
  rw [ownSems00_eq1, hbmPts1_eq, scoped1_eq]
  unfold PhiRest1 scrAny1
  iintro ⟨⟨HT, HS, HC⟩, HR, Hg, Hq, Hh⟩
  iframe Hg Hh Hq HR
  isplitl [HT]; · iexists _; iexact HT
  isplitl [HS]; · iexists _; iexact HS
  iexists _; iexact HC

end Cert.KernelIdeal.Hand

end
-- ==== Proof.KI.Combine.lean ====
import proofs.«414466_j73993696576172_1_alg».proof.Proof.Gen.KernelIdeal.Skeleton
import proofs.«414466_j73993696576172_1_alg».proof.Proof.Gen.KernelIdeal.Launch
import proofs.«414466_j73993696576172_1_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-- Window `w`'s block at point `t` of the array the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body stores at point `t`: its payload of the eight input blocks there. -/
def pay2 (c : Dev nD) (t : Fin cfg2.N) : Vec F S2048x1 .f32 :=
  k2_pay1 (k2_pay2 (iblk2 V c 1 t) (iblk2 V c 0 t) (iblk2 V c 3 t) (iblk2 V c 2 t) (iblk2 V c 4 t) (iblk2 V c 5 t) (iblk2 V c 6 t)) (iblk2 V c 7 t)

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => pay2 V c t
  Φ _ := Pipeline.ΦA spec2 c
  q _ := fullShare
  owed _ := 0

/-- For an input window, the contents the body finds at a point are the contents it leaves there. -/
theorem before2 (c : Dev nD) (t : Fin cfg2.N) (w : Fin 9) : w ≠ 8 → ∀ d, (dat2 V c).before w t d = (dat2 V c).after w t := by
  fin_cases w <;> intro hw d
  on_goal 9 => exact absurd rfl hw
  all_goals exact (dat2 V c).before_in_eq_fetched _ rfl (fun _ => rfl) (fun _ _ _ => rfl) (fun _ => rfl) t d

set_option maxHeartbeats 4000000 in
/-- The body loads its eight input blocks whole and stores its payload over the whole output block. -/
theorem body_obligation2 (c : Dev nD) : BodyObligation (dat2 (F := F) V c) (defs₀ (F := F)) Variants.none () Set.univ := fun t => by
  have h0 : (![0, 0] : Fin 2 → Nat) = fun _ => 0 := by funext a; fin_cases a <;> rfl
  have hb := before2 V c t
  have iW := inb_S2048x64_S2048x64_0_0
  have iC := inb_S2048x1_S2048x1_0_0
  rw [bigSep_W2, bigSep_W2, show (dat2 V c).Φ t.succ = (dat2 V c).Φ t.castSucc from rfl,
    show (dat2 V c).owesAt () t.succ = (dat2 V c).owesAt () t.castSucc from rfl]
  simp only [hb 0 (by decide), hb 1 (by decide), hb 2 (by decide), hb 3 (by decide), hb 4 (by decide), hb 5 (by decide), hb 6 (by decide), hb 7 (by decide)]
  change _ ⊢ wp _ _ _ (bodyAt2 t) _
  unfold bodyAt2
  simp only [cc2__combine_kernel_eq_skeleton]; unfold cc2__combine_kernel_skel
  simp only [k2_part1_eq_skeleton]; unfold k2_part1_skel
  unfold owns
  iintro ⟨HΦ, Ho, ⟨%d0, %f0, %hf0, Ha⟩, ⟨%d1, %f1, %hf1, Hb⟩, ⟨%d2, %f2, %hf2, Hc⟩, ⟨%d3, %f3, %hf3, Hd⟩, ⟨%d4, %f4, %hf4, He⟩, ⟨%d5, %f5, %hf5, Hf⟩, ⟨%d6, %f6, %hf6, Hg⟩, ⟨%d7, %f7, %hf7, Hh⟩, ⟨%d8, %f8, -, Hi⟩⟩
  sl_exec
  sl_step
  iframe HΦ Ho
  isplitl [Ha]; · iexists f0; iframe %hf0 Ha
  isplitl [Hb]; · iexists f1; iframe %hf1 Hb
  isplitl [Hc]; · iexists f2; iframe %hf2 Hc
  isplitl [Hd]; · iexists f3; iframe %hf3 Hd
  isplitl [He]; · iexists f4; iframe %hf4 He
  isplitl [Hf]; · iexists f5; iframe %hf5 Hf
  isplitl [Hg]; · iexists f6; iframe %hf6 Hg
  isplitl [Hh]; · iexists f7; iframe %hf7 Hh
  iexists _; isplitr
  swap; · iexact Hi
  ipureintro
  refine (View.read_writes_eq_canon _ _ _ fun y => ⟨_, List.mem_singleton_self _, ?_⟩).trans ?_
  · exact View.mem_set_unit_zero h0 iC y
  refine (View.canon_unit_zero h0 iC _).trans ?_
  show _ = pay2 V c t
  unfold pay2
  congr 2
  exacts [(View.ld_unit_zero h0 iC _).trans hf1, (View.ld_unit_zero h0 iW _).trans hf0, (View.ld_unit_zero h0 iC _).trans hf3,
    (View.ld_unit_zero h0 iW _).trans hf2, (View.ld_unit_zero h0 iW _).trans hf4, (View.ld_unit_zero h0 iW _).trans hf5,
    (View.ld_unit_zero h0 iC _).trans hf6, (View.ld_unit_zero h0 iC _).trans hf7]

end Cert.KernelIdeal.Hand

end
-- ==== Proof.KI.Assemble.lean ====
import proofs.«414466_j73993696576172_1_alg».proof.Proof.KI.Pool0
import proofs.«414466_j73993696576172_1_alg».proof.Proof.KI.Pool1
import proofs.«414466_j73993696576172_1_alg».proof.Proof.KI.Combine
import proofs.«414466_j73993696576172_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat BodyObligation)

abbrev 𝒱₀ : Variants := Variants.none
abbrev PD (cfg : Pipeline.Cfg sig Λ₀) (c : Dev nD) := Dat τ (Elt F) Unit ℕ (Pipeline.UD sig nD τ) ℕ cfg c
abbrev L : GSem nD τ sig → Finset Unit := fun _ => ∅
abbrev lv : GSem nD τ sig → Unit → ℕ := fun _ _ => 0

abbrev vOf (W : Dev nD → Valuation τ sig (Elt F)) : (c : Dev nD) → (b : Ref sig .tc) → Buf (Elt F) ((c : Thread nD τ).loc b) :=
  fun c b => W c b

abbrev pts (W : Dev nD → Valuation τ sig (Elt F)) (c : Dev nD) (b : Ref sig .tc) : sProp 𝕄 :=
  ((c : Thread nD τ).loc b) ↦{fullShare} vOf W c b

abbrev R (c : Dev nD) : sProp 𝕄 := iprop((∃ r, prngReg c r) ∗ ∃ W, owes (c : Thread nD τ) (0 : CellTallies nD τ sig Unit) W)

abbrev Tst (W : Dev nD → Valuation τ sig (Elt F)) (c : Dev nD) : sProp 𝕄 :=
  iprop(StableHlo.held (c : Thread nD τ) (Pipeline.ucRefs τ sig) (W c) ∗ R c)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The valuation a region leaves: its arrays at the proof data's last contents, every other buffer unchanged. -/
def afterReg (p : Fin 3) (W : Dev nD → Valuation τ sig (Elt F))
    (D : (c : Dev nD) → PD (F := F) (cfgs p) c) (c : Dev nD) : Valuation τ sig (Elt F) :=
  Pipeline.withArrays (cfgs p).spec c (W c) fun w => (D c).arrAt w (cfgs p).N

section
variable {p : Fin 3} (W : Dev nD → Valuation τ sig (Elt F)) (D : (c : Dev nD) → PD (F := F) (cfgs p) c)

theorem afterReg_arr (ln : Pipeline.LaunchFacts (nD := nD) (τ := τ) cfgs p) (c : Dev nD) (w : Fin (cfgs p).W) :
    afterReg p W D c (Proc.devRef .tc (Pipeline.arrRef (cfgs p).spec w)) = (D c).arrAt w (cfgs p).N :=
  Pipeline.withArrays_arr _ ln.win.arr_inj c _ _ w

theorem afterReg_of_ne (c : Dev nD) (b : Ref sig .tc) (hb : ∀ w, Pipeline.arrRef (cfgs p).spec w ≠ b) :
    afterReg p W D c (Proc.devRef .tc b) = W c (Proc.devRef .tc b) :=
  Pipeline.withArrays_of_ne _ c _ _ b hb

abbrev Xof {K : Type} [Fintype K] (osem : K → SemLoc sig) (H : Finset (Ref sig .tc)) (c : Dev nD) : sProp 𝕄 :=
  iprop((∃ r, prngReg c r) ∗ Pipeline.ownSems0 osem c ∗ bigSep H (pts W c))
abbrev Yof (H : Finset (Ref sig .tc)) (c : Dev nD) : sProp 𝕄 := iprop((∃ r, prngReg c r) ∗ bigSep H (pts W c))
end

/-- Proof data that owes nothing and bounds no recorded pair: owing nothing is its `owesAt` at any point, -/
theorem owes_in {cfg : Pipeline.Cfg sig Λ₀} {c : Dev nD} (d : PD (F := F) cfg c) (t : Fin (cfg.N + 1))
    (h0 : d.owed t = 0) (hr : d.recorded t = Set.univ) :
    iprop(∃ W, owes (c : Thread nD τ) (0 : CellTallies nD τ sig Unit) W) ⊢ (d.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO

/-- and conversely. -/
theorem owes_out {cfg : Pipeline.Cfg sig Λ₀} {c : Dev nD} (d : PD (F := F) cfg c) (t : Fin (cfg.N + 1))
    (h0 : d.owed t = 0) :
    (d.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

/-- The unscoped buffers that are no array of region `p`: those in `H`, and the others. -/
theorem rest_split {p : Fin 3} (W : Dev nD → Valuation τ sig (Elt F)) {H : Finset (Ref sig .tc)} (hH : H ⊆ Pipeline.restRefs sig (cfgs p).spec) (c : Dev nD) :
    (Pipeline.unscopedRest (cfgs p).spec c (vOf W c) : sProp 𝕄)
      = iprop(bigSep H (pts W c) ∗ bigSep (Pipeline.restRefs sig (cfgs p).spec \ H) (pts W c)) := by
  unfold Pipeline.unscopedRest; exact BI.bigSep_sdiff_split hH

set_option backward.isDefEq.respectTransparency.types false in
/-- Region `p` as a segment from the thread state at `W` to the one at `afterReg p W (pd p)`, for any `p`. -/
def reg (pd : (p : Fin 3) → (c : Dev nD) → PD (F := F) (Pipeline.pin (pcfgs (F := F)) adm p) c)
    (p : Fin 3) (ln : Pipeline.LaunchFacts (nD := nD) (τ := τ) cfgs p) {K : Type} [Fintype K] (osem : K → SemLoc sig)
    (ho : Pipeline.OwnSemFacts (cfgs p).spec osem) (H : Finset (Ref sig .tc)) (hH : H ⊆ Pipeline.restRefs sig (cfgs p).spec)
    (W : Dev nD → Valuation τ sig (Elt F))
    (hb : ∀ c, BodyObligation (pd p c) (defs₀ (F := F)) 𝒱₀ () Set.univ)
    (hq : ∀ c w, (pd p c).q w = fullShare) (h0 : ∀ c t, (pd p c).owed t = 0) (hr : ∀ c t, (pd p c).recorded t = Set.univ)
    (hA : ∀ c w, (pd p c).A w = vOf W c (Pipeline.arrRef (cfgs p).spec w))
    (hin : ∀ c, iprop(Xof W osem H c ∗ Pipeline.prefHeld (pcfgs (F := F) p).pre c (fun _ => fullShare) (adm p).1
      ∗ Pipeline.scopedRest (cfgs p).spec c) ⊢ (pd p c).Φ 0)
    (hout : ∀ c, (pd p c).Φ (Fin.last (cfgs p).N) ⊢ iprop(Yof W H c
      ∗ Pipeline.ownSems0 osem c
      ∗ Pipeline.scopedRest (cfgs p).spec c)) :
    Pipeline.RegionSeg (pcfgs (F := F)) adm pd () defs₀ 𝒱₀ L lv p where
  win := ln.win.to₀
  block_pos := ln.block_pos
  stage_whole := ln.stage_whole
  K := K
  osem := osem
  ho := ho
  hbody c := (hb c).loose
  hwaits := Pipeline.hwaits_of_owed_zero _ _ _ _ L lv p h0
  pre := Tst W
  post := Tst (afterReg p W (pd p))
  X := Xof W osem H
  Y := Yof W H
  Z c := bigSep (Pipeline.restRefs sig (cfgs p).spec \ H) (pts W c)
  hentry c := by
    have hsplit := Pipeline.arrays_of_unscopedBufs (p := p) (pcfgs (F := F)) adm pd ln.win ln.arr_whole c
      ((pd p c).share_full (hq c)) (vOf W c) (hA c)
    rw [Pipeline.unscopedBufs_held] at hsplit
    have hR := rest_split W hH c
    iintro ⟨⟨Hub, Hp, HO⟩, Hos, -⟩
    ihave Hs := hsplit $$ Hub
    icases Hs with ⟨Ha, Hrest⟩
    ihave Hs' := (Entails.of_eq hR) $$ Hrest
    icases Hs' with ⟨HH, HR⟩
    imodintro
    isplitl [Ha]; · iexact Ha
    isplitr; · unfold Pipeline.prefHeld; rw [show (Finset.univ : Finset (Fin 0)) = ∅ from rfl, BI.bigSep_empty]; iempintro
    isplitl [HO]; · iapply (owes_in (pd p c) 0 (h0 c 0) (hr c 0)); iexact HO
    unfold Xof; iframe
  hin := hin
  hout := hout
  hexit c := by
    have hjoin := Pipeline.unscopedBufs_of_arrays (p := p) (pcfgs (F := F)) adm (Ix := Unit) (Name := ℕ) (U := Pipeline.UD sig nD τ) (Lvl := ℕ)
      ln.win ln.arr_whole c pd ((pd p c).share_full (hq c)) (vOf W c) (vOf (afterReg p W (pd p)) c) ((pd p c).arrAt · (cfgs p).N)
      (fun w => (afterReg_arr W (pd p) ln c w).symm)
      (fun b hb => afterReg_of_ne W (pd p) c b fun w e => hb (Finset.mem_image.mpr ⟨w, Finset.mem_univ _, e⟩))
    rw [Pipeline.unscopedBufs_held] at hjoin
    have hR := rest_split W hH c
    iintro ⟨Ha, HO, ⟨HY, HH⟩, HR⟩
    ihave Hrest := (Entails.of_eq hR.symm) $$ [HH HR]
    · iframe
    imodintro
    isplitl [Ha Hrest]; · iapply hjoin; iframe
    isplitl [HY]; · iexact HY
    iapply (owes_out (pd p c) (Fin.last _) (h0 c _)); iexact HO

variable (m : (ℓ : Loc nD τ sig) → Buf (Elt F) ℓ) (ρ : Dev nD → PrngReg)
variable (hm2 : ∀ (c : Dev nD) (j : S819200.Idx), BitVec.toNat ((m ((c : Thread nD τ).loc main_arg2) : S819200.Idx → BitVec 32) j) < 50000)
variable (hm3 : ∀ (c : Dev nD) (j : S819200.Idx), BitVec.toNat ((m ((c : Thread nD τ).loc main_arg3) : S819200.Idx → BitVec 32) j) < 16384)
variable (hm4 : ∀ (c : Dev nD) (j : S409600.Idx), BitVec.toNat ((m ((c : Thread nD τ).loc main_arg4) : S409600.Idx → BitVec 32) j) < 50000)
variable (hm5 : ∀ (c : Dev nD) (j : S409600.Idx), BitVec.toNat ((m ((c : Thread nD τ).loc main_arg5) : S409600.Idx → BitVec 32) j) < 16384)

abbrev W0 : Dev nD → Valuation τ sig (Elt F) := fun c b => m ((c : Dev nD), b)
abbrev V0 := vOf (W0 m)
abbrev D0 := dat0 (V0 m) hm2 hm3
def W1 := afterReg 0 (W0 m) (D0 m hm2 hm3)
abbrev V1 := vOf (W1 m hm2 hm3)

include hm4 in
theorem hv4 (c : Dev nD) (j : S409600.Idx) : BitVec.toNat ((V1 m hm2 hm3 c main_arg4 : S409600.Idx → BitVec 32) j) < 50000 := by
  rw [show V1 m hm2 hm3 c main_arg4 = V0 m c main_arg4 from afterReg_of_ne _ _ c main_arg4 (by decide)]; exact hm4 c j
include hm5 in
theorem hv5 (c : Dev nD) (j : S409600.Idx) : BitVec.toNat ((V1 m hm2 hm3 c main_arg5 : S409600.Idx → BitVec 32) j) < 16384 := by
  rw [show V1 m hm2 hm3 c main_arg5 = V0 m c main_arg5 from afterReg_of_ne _ _ c main_arg5 (by decide)]; exact hm5 c j

abbrev D1 := dat1 (V1 m hm2 hm3) (hv4 m hm2 hm3 hm4) (hv5 m hm2 hm3 hm5)
def W2 := afterReg 1 (W1 m hm2 hm3) (D1 m hm2 hm3 hm4 hm5)
abbrev W3 (c : Dev nD) : Valuation τ sig (Elt F) := StableHlo.after hostOps2 (W2 m hm2 hm3 hm4 hm5 c)
abbrev V3 := vOf (W3 m hm2 hm3 hm4 hm5)
abbrev D2 := dat2 (V3 m hm2 hm3 hm4 hm5)
def W4 := afterReg 2 (W3 m hm2 hm3 hm4 hm5) (D2 m hm2 hm3 hm4 hm5)
abbrev W5 (c : Dev nD) : Valuation τ sig (Elt F) := StableHlo.after hostOps3 (W4 m hm2 hm3 hm4 hm5 c)

def pdats : (p : Fin 3) → (c : Dev nD) → PD (F := F) (Pipeline.pin (pcfgs (F := F)) adm p) c
  | ⟨0, _⟩ => D0 m hm2 hm3
  | ⟨1, _⟩ => D1 m hm2 hm3 hm4 hm5
  | ⟨2, _⟩ => D2 m hm2 hm3 hm4 hm5

set_option backward.isDefEq.respectTransparency.types false in
def reg0 := reg (pdats m hm2 hm3 hm4 hm5) 0 launch0 osem0 ownSemFacts0 H0 H0_sub (W0 m) (body_obligation0 _ _ _)
  (fun _ _ => rfl) (fun _ _ => rfl) (fun _ _ => rfl) (fun _ _ => rfl) (fun c => hin0 _ _ _ c) (hout0 _ _ _)

set_option backward.isDefEq.respectTransparency.types false in
def reg1 := reg (pdats m hm2 hm3 hm4 hm5) 1 launch1 osem1 ownSemFacts1 H1 H1_sub (W1 m hm2 hm3) (body_obligation1 _ _ _)
  (fun _ _ => rfl) (fun _ _ => rfl) (fun _ _ => rfl) (fun _ _ => rfl) (fun c => hin1 _ _ _ c) (hout1 _ _ _)

set_option backward.isDefEq.respectTransparency.types false in
def reg2 := reg (pdats m hm2 hm3 hm4 hm5) 2 launch2 (fun k : PEmpty => k.elim) (Pipeline.OwnSemFacts.none _) ∅ (Finset.empty_subset _)
  (W3 m hm2 hm3 hm4 hm5) (body_obligation2 _) (fun _ _ => rfl) (fun _ _ => rfl) (fun _ _ => rfl) (fun _ _ => rfl)
  (fun c => by
    rw [show (pdats m hm2 hm3 hm4 hm5 2 c).Φ 0 = Pipeline.ΦA spec2 c from rfl]; unfold Pipeline.ΦA
    iintro ⟨⟨Hp, -⟩, -, Hr⟩; iframe)
  (fun c => by
    unfold Yof
    rw [Pipeline.ownSems0_none, BI.bigSep_empty, show (pdats m hm2 hm3 hm4 hm5 2 c).Φ (Fin.last _) = Pipeline.ΦA spec2 c from rfl]; unfold Pipeline.ΦA
    iintro ⟨Hr, Hp⟩; iframe; isplitr <;> iempintro)

abbrev segs : List (Pipeline.Seg (pcfgs (F := F)) adm (pdats m hm2 hm3 hm4 hm5) () defs₀ 𝒱₀ L lv) :=
  [ .region (reg0 m hm2 hm3 hm4 hm5),
    .region (reg1 m hm2 hm3 hm4 hm5),
    .host (hseg hostOps2 hostOps2_sub hostOps2_fresh (W2 m hm2 hm3 hm4 hm5)),
    .region (reg2 m hm2 hm3 hm4 hm5),
    .host (hseg hostOps3 hostOps3_sub hostOps3_fresh (W4 m hm2 hm3 hm4 hm5)) ]

theorem main_run (c : Dev nD) : main (F := F) c = Pipeline.Seg.run (segs m hm2 hm3 hm4 hm5) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m hm2 hm3 hm4 hm5 c b) :=
  Pipeline.θ_run_regions_kit (pcfgs (F := F)) adm (pdats m hm2 hm3 hm4 hm5) () cellOf_inj embL defs₀ 𝒱₀ L lv m ρ main (segs m hm2 hm3 hm4 hm5)
    (fun c Q => by rw [main_run m hm2 hm3 hm4 hm5 c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave Hs := (ownU_pair _ _) $$ Hu
      icases Hs with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := Tst (W0 m))
    (Tₙ := fun c => iprop(StableHlo.held (c : Thread nD τ) (Pipeline.ucRefs τ sig) (W5 m hm2 hm3 hm4 hm5 c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (W5 m hm2 hm3 hm4 hm5 c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m hm2 hm3 hm4 hm5 c b)
    (hfin := fun c s' => by
      iintro ⟨⟨Hh, -⟩, HSI⟩
      unfold StableHlo.held
      imodintro
      iapply (pointsTo_read_all (Pipeline.ucRefs τ sig) (fun b => (((c : Thread nD τ)).1, b)) (W5 m hm2 hm3 hm4 hm5 c) s')
      iframe)
    (hQ := fun s h => h)

end Cert.KernelIdeal.Hand

end
-- ==== Proof.KI.ReadOff.lean ====
import proofs.«414466_j73993696576172_1_alg».proof.Proof.KI.Assemble

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)
variable (hm2 : ∀ (c : Dev nD) (j : S819200.Idx), BitVec.toNat ((m ((c : Thread nD τ).loc main_arg2) : S819200.Idx → BitVec 32) j) < 50000)
variable (hm3 : ∀ (c : Dev nD) (j : S819200.Idx), BitVec.toNat ((m ((c : Thread nD τ).loc main_arg3) : S819200.Idx → BitVec 32) j) < 16384)
variable (hm4 : ∀ (c : Dev nD) (j : S409600.Idx), BitVec.toNat ((m ((c : Thread nD τ).loc main_arg4) : S409600.Idx → BitVec 32) j) < 50000)
variable (hm5 : ∀ (c : Dev nD) (j : S409600.Idx), BitVec.toNat ((m ((c : Thread nD τ).loc main_arg5) : S409600.Idx → BitVec 32) j) < 16384)

/-- Decidable in one go: `r` is unscoped, no host operation writes it, and it is no array of the combine. -/
abbrev Quiet (r : Ref sig .tc) : Prop :=
  (¬ (Proc.devRef .tc r : DevRef τ sig).isScoped) ∧ r ∉ hostOps3_W ∧ (∀ w, Pipeline.arrRef (cfgs 2).spec w ≠ r) ∧ r ∉ hostOps2_W

theorem W2_kept (c : Dev nD) (r : Ref sig .tc) (h : (∀ w, Pipeline.arrRef (cfgs 1).spec w ≠ r) ∧ ∀ w, Pipeline.arrRef (cfgs 0).spec w ≠ r) :
    W2 m hm2 hm3 hm4 hm5 c (Proc.devRef .tc r) = m ((c : Thread nD τ).loc r) :=
  (afterReg_of_ne _ _ c r h.1).trans ((afterReg_of_ne _ _ c r h.2).trans rfl)

/-- A region leaves an array it only reads as it found it. -/
theorem afterReg_in {p : Fin 3} (W : Dev nD → Valuation τ sig (Elt F)) (D : (c : Dev nD) → Pipeline.Dat τ (Elt F) Unit ℕ (Pipeline.UD sig nD τ) ℕ (cfgs p) c)
    (ln : Pipeline.LaunchFacts (nD := nD) (τ := τ) cfgs p) (c : Dev nD) (w : Fin (cfgs p).W) (hw : ((cfgs p).win w).isOut = false)
    (hA : (D c).A w = vOf W c (Pipeline.arrRef (cfgs p).spec w)) :
    afterReg p W D c (Proc.devRef .tc (Pipeline.arrRef (cfgs p).spec w)) = W c (Proc.devRef .tc (Pipeline.arrRef (cfgs p).spec w)) :=
  (afterReg_arr W D ln c w).trans (((D c).arrAt_in w hw _).trans hA)

abbrev same (mem : (ℓ : Loc nD τ sig) → Buf (Elt F) ℓ) (c : Dev nD) (r : Ref sig .tc) : Prop :=
  mem ((c.tc : Thread nD τ).loc r) = m ((c.tc : Thread nD τ).loc r)

/-- The frame's post on core `c`: every argument array as launched. -/
abbrev ArgsKept (mem : (ℓ : Loc nD τ sig) → Buf (Elt F) ℓ) (c : Dev nD) : Prop :=
  same m mem c main_arg0 ∧ same m mem c main_arg1 ∧ same m mem c main_arg2 ∧ same m mem c main_arg3 ∧ same m mem c main_arg4 ∧ same m mem c main_arg5 ∧ same m mem c main_arg6 ∧ same m mem c main_arg7 ∧ same m mem c main_arg8 ∧ same m mem c main_arg9 ∧ same m mem c main_arg10 ∧ same m mem c main_arg11

/-- `r` read in such a memory: four steps back from the last valuation, none of which touches a quiet reference. -/
theorem kept (mem : (ℓ : Loc nD τ sig) → Buf (Elt F) ℓ)
    (h : ∀ c : Dev nD, ∀ b ∈ Pipeline.ucRefs τ sig, mem (((c : Thread nD τ)).1, b) = W5 m hm2 hm3 hm4 hm5 c b) (c : Dev nD)
    (r : Ref sig .tc) (hd : Quiet r) (e : W2 m hm2 hm3 hm4 hm5 c (Proc.devRef .tc r) = m ((c : Thread nD τ).loc r)) : same m mem c r :=
  (h c _ (mem_uc r hd.1)).trans <| (StableHlo.after_of_writes_sub hostOps3 _ hostOps3_writes hd.2.1).trans <|
    (afterReg_of_ne _ _ c r hd.2.2.1).trans <| (StableHlo.after_of_writes_sub hostOps2 _ hostOps2_writes hd.2.2.2).trans e

/-- Eight arguments are arrays of no region; the four word arrays are input windows of one pool and arrays of no other. -/
theorem argsKept (mem : (ℓ : Loc nD τ sig) → Buf (Elt F) ℓ)
    (h : ∀ c : Dev nD, ∀ b ∈ Pipeline.ucRefs τ sig, mem (((c : Thread nD τ)).1, b) = W5 m hm2 hm3 hm4 hm5 c b) (c : Dev nD) :
    ArgsKept m mem c :=
  have k := kept m hm2 hm3 hm4 hm5 mem h c
  have q := W2_kept m hm2 hm3 hm4 hm5 c
  have i0 := afterReg_in (p := 0) (W0 m) (D0 m hm2 hm3) launch0 c
  have i1 := afterReg_in (p := 1) (W1 m hm2 hm3) (D1 m hm2 hm3 hm4 hm5) launch1 c
  ⟨k main_arg0 (by decide) (q _ (by decide)), k main_arg1 (by decide) (q _ (by decide)),
   k main_arg2 (by decide) ((afterReg_of_ne _ _ c _ (by decide)).trans ((i0 0 rfl (A_eq0 _ _ _ c 0)).trans rfl)),
   k main_arg3 (by decide) ((afterReg_of_ne _ _ c _ (by decide)).trans ((i0 1 rfl (A_eq0 _ _ _ c 1)).trans rfl)),
   k main_arg4 (by decide) ((i1 0 rfl (A_eq1 _ _ _ c 0)).trans ((afterReg_of_ne _ _ c _ (by decide)).trans rfl)),
   k main_arg5 (by decide) ((i1 1 rfl (A_eq1 _ _ _ c 1)).trans ((afterReg_of_ne _ _ c _ (by decide)).trans rfl)),
   k main_arg6 (by decide) (q _ (by decide)), k main_arg7 (by decide) (q _ (by decide)),
   k main_arg8 (by decide) (q _ (by decide)), k main_arg9 (by decide) (q _ (by decide)),
   k main_arg10 (by decide) (q _ (by decide)), k main_arg11 (by decide) (q _ (by decide))⟩

include hm2 hm3 hm4 hm5 in
theorem frame : θ_run defs (onTc (τ := τ) (main (F := F))) ⟨m, fun _ => 0, ρ⟩ (fun r => ∀ c : Dev nD, ArgsKept m r.2.mem c) :=
  (θ_run defs _ _).mono (fun r h => argsKept m hm2 hm3 hm4 hm5 r.2.mem h) (run_all m ρ hm2 hm3 hm4 hm5)

end Cert.KernelIdeal.Hand

end
-- ==== Proof.Spec.lean ====
import Idealize.ShloMosaic.PureOps.Ideal
import Idealize.ShloMosaic.PureOps.Ideal.Laws

noncomputable section

namespace Cert.Spec

open Idealize.ShloMosaic Finset

/-- An index word below zero counts back from `N`. -/
def wrapWord (N : ℕ) (w : BitVec 32) : BitVec 32 :=
  if w.slt 0#32 then w + BitVec.ofNat 32 N else w

/-- Which row of an axis of extent `N` a word picks: wrap, then clamp into the axis. -/
def takeRow (N : ℕ) (hN : 0 < N) (w : BitVec 32) : Fin N :=
  ⟨min (wrapWord N w).toInt.toNat (N - 1), by omega⟩

/-- Feature `k` of batch row `q`'s pool: add up the table rows named by the entries that carry segment `q`. -/
def poolSum {T : ℕ} (tab : Fin 50000 → Fin 64 → EReal) (idx seg : Fin T → BitVec 32) (q : Fin 16384) (k : Fin 64) : EReal :=
  ∑ e ∈ univ.filter (fun e : Fin T => (seg e).toNat = q.val),
    tab ⟨min (idx e).toNat 49999, Nat.lt_succ_of_le (Nat.min_le_right _ _)⟩ k

/-- How many entries carry segment `q`: a sum of ones, so that it is a value of the float type. -/
def poolCnt {T : ℕ} (seg : Fin T → BitVec 32) (q : Fin 16384) : EReal :=
  ∑ _e ∈ univ.filter (fun e : Fin T => (seg e).toNat = q.val), Ideal.ofBits .f32 0x3F800000#32

/-- The scale of a pool: 1/√size, and 0 where nothing was pooled. -/
def inv (c : EReal) : EReal :=
  if Ideal.cmp .ogt c (Ideal.ofBits .f32 0x00000000#32) = 1#1 then
    Ideal.rsqrt (max c (Ideal.ofBits .f32 0x3F800000#32))
  else Ideal.ofBits .f32 0x00000000#32

/-- What both programs compute at batch row `b`. -/
def G (sE pE : Fin 16384 → Fin 64 → EReal) (sB pB : Fin 16384 → EReal)
    (P1 : Fin 16384 → Fin 64 → EReal) (C1 : Fin 16384 → EReal)
    (P2 : Fin 16384 → Fin 64 → EReal) (C2 : Fin 16384 → EReal) (b : Fin 16384) : EReal :=
  (((∑ d : Fin 64, ((sE b d + P1 b d * inv (C1 b)) + P2 b d * inv (C2 b)) * pE b d) + sB b) + pB b)
    + Ideal.ofBits .f32 0x40747AE1#32

end Cert.Spec

end
-- ==== Proof.LibScatter.lean ====
import Idealize.ShloMosaic.PureOps.Ideal
import Idealize.ShloMosaic.PureOps.Ideal.Laws
import Idealize.ShloMosaic.Lib.ValueIdx

noncomputable section

namespace Gnn.Scatter

open Idealize.ShloMosaic Idealize.ShloMosaic.ValueIdx Finset

abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

abbrev rowScatter (M E C : Nat) (wf : ScatterDims.WF ⟨2, ![M, C]⟩ ⟨2, ![E, 1]⟩ ⟨2, ![E, C]⟩ [1] [0] [0] 1) :
    ScatterDims ⟨2, ![M, C]⟩ ⟨2, ![E, 1]⟩ ⟨2, ![E, C]⟩ where
  updateWindowDims := [1]
  insertedWindowDims := [0]
  scatterDimsToOperandDims := [0]
  indexVectorDim := 1
  wf := wf

abbrev vecScatter (M E : Nat) (wf : ScatterDims.WF ⟨1, ![M]⟩ ⟨2, ![E, 1]⟩ ⟨1, ![E]⟩ [] [0] [0] 1) :
    ScatterDims ⟨1, ![M]⟩ ⟨2, ![E, 1]⟩ ⟨1, ![E]⟩ where
  updateWindowDims := []
  insertedWindowDims := [0]
  scatterDimsToOperandDims := [0]
  indexVectorDim := 1
  wf := wf

theorem gather_row_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N E C wf) x idx (ix2 e k)
      = x (ix2 ⟨min (idx (ix2 e ⟨0, Nat.one_pos⟩)).toInt.toNat (N - 1), by omega⟩ k) := by
  unfold Host.gather
  congr 1
  funext a
  refine Fin.ext ?_
  show (rowGather N E C wf).start (ix2 e k) idx a + (rowGather N E C wf).batchCoord (ix2 e k) a
      + (rowGather N E C wf).offCoord (ix2 e k) a = _
  rw [GatherDims.batchCoord_eq_zero _ _ _ List.not_mem_nil, Nat.add_zero]
  match a with
  | ⟨0, h0⟩ =>
    rw [GatherDims.offCoord_eq_zero _ _ _
      (fun h => ((GatherDims.mem_sKept _ _).mp h).1 (List.mem_singleton.mpr rfl)), Nat.add_zero]
    unfold GatherDims.start
    rw [dif_pos (show (⟨0, h0⟩ : Fin 2) ∈ (rowGather N E C wf).startIndexMap from List.mem_singleton.mpr rfl)]
    have hsi : (rowGather N E C wf).siIdx (ix2 e k) ⟨List.idxOf (⟨0, h0⟩ : Fin 2) (rowGather N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, h1⟩ =>
    have hn : (⟨1, h1⟩ : Fin 2) ∉ (rowGather N E C wf).startIndexMap := fun h =>
      absurd (congrArg Fin.val (List.mem_singleton.mp h)) Nat.one_ne_zero
    have hk : (⟨1, h1⟩ : Fin 2) ∈ (rowGather N E C wf).sKept :=
      (GatherDims.mem_sKept _ _).mpr ⟨fun h => absurd (congrArg Fin.val (List.mem_singleton.mp h)) Nat.one_ne_zero,
        List.not_mem_nil⟩
    unfold GatherDims.start GatherDims.offCoord
    rw [dif_neg hn, dif_pos hk, Nat.zero_add]
    rfl

/-- An update lands on `t` exactly when start plus window is `t`'s coordinate on every axis (a coordinate of `t` is in range). -/
theorem resultIdx_iff {s si u : Shape} (d : ScatterDims s si u) {w : Nat} (j : u.Idx) (idx : IVec si w) (t : s.Idx) :
    d.resultIdx? j idx = some t ↔ ∀ a, d.start j idx a + (d.window j a : ℤ) = ((t a).val : ℤ) := by
  unfold ScatterDims.resultIdx?
  constructor
  · intro h a
    split at h
    · rename_i hall
      have e : (d.start j idx a + (d.window j a : ℤ)).toNat = (t a).val :=
        congrArg Fin.val (congrFun (Option.some.inj h) a)
      have := (hall a).1
      omega
    · exact absurd h (by simp)
  · intro h
    have hall : ∀ a, 0 ≤ d.start j idx a + (d.window j a : ℤ)
        ∧ d.start j idx a + (d.window j a : ℤ) < ((s.size a : ℕ) : ℤ) := fun a => by
      have := (t a).isLt
      rw [h a]; omega
    rw [dif_pos hall]
    refine congrArg some (funext fun a => Fin.ext ?_)
    show (d.start j idx a + (d.window j a : ℤ)).toNat = (t a).val
    rw [h a]; omega

section Row
variable {M E C w : Nat} (wf : ScatterDims.WF ⟨2, ![M, C]⟩ ⟨2, ![E, 1]⟩ ⟨2, ![E, C]⟩ [1] [0] [0] 1)
  (idx : IVec ⟨2, ![E, 1]⟩ w) (e : Fin E) (k' : Fin C)

private theorem row_land0 (h0 : 0 < 2) :
    (rowScatter M E C wf).start (ix2 e k') idx ⟨0, h0⟩ + ((rowScatter M E C wf).window (ix2 e k') ⟨0, h0⟩ : ℤ)
      = (idx (ix2 e ⟨0, Nat.one_pos⟩)).toInt := by
  have hm : (⟨0, h0⟩ : Fin 2) ∈ (rowScatter M E C wf).scatterDimsToOperandDims := List.mem_singleton.mpr rfl
  have hk : (⟨0, h0⟩ : Fin 2) ∉ (rowScatter M E C wf).sKept := fun h =>
    (List.mem_filter.mp h).2 |> fun h' => by simp at h'
  unfold ScatterDims.start ScatterDims.window
  rw [dif_pos hm, dif_neg hk]
  have hsi : (rowScatter M E C wf).siIdx (ix2 e k')
      ⟨List.idxOf (⟨0, h0⟩ : Fin 2) (rowScatter M E C wf).scatterDimsToOperandDims,
        List.idxOf_lt_length_iff.2 hm⟩ = ix2 e ⟨0, Nat.one_pos⟩ := by
    funext b; refine Fin.ext ?_
    match b with
    | ⟨0, _⟩ => rfl
    | ⟨1, _⟩ => rfl
  rw [hsi]
  simp

private theorem row_land1 (h1 : 1 < 2) :
    (rowScatter M E C wf).start (ix2 e k') idx ⟨1, h1⟩ + ((rowScatter M E C wf).window (ix2 e k') ⟨1, h1⟩ : ℤ)
      = (k'.val : ℤ) := by
  have hm : (⟨1, h1⟩ : Fin 2) ∉ (rowScatter M E C wf).scatterDimsToOperandDims := fun h =>
    absurd (congrArg Fin.val (List.mem_singleton.mp h)) Nat.one_ne_zero
  have hk : (⟨1, h1⟩ : Fin 2) ∈ (rowScatter M E C wf).sKept :=
    List.mem_filter.mpr ⟨List.mem_finRange _, by simp⟩
  unfold ScatterDims.start ScatterDims.window
  rw [dif_neg hm, dif_pos hk, Int.zero_add]
  rfl

private theorem row_resultIdx_iff (q : Fin M) (k : Fin C) :
    (rowScatter M E C wf).resultIdx? (ix2 e k') idx = some (ix2 q k)
      ↔ (idx (ix2 e ⟨0, Nat.one_pos⟩)).toInt = (q.val : ℤ) ∧ k' = k := by
  rw [resultIdx_iff]
  constructor
  · intro h
    have a0 := h ⟨0, Nat.zero_lt_two⟩
    have a1 := h ⟨1, Nat.one_lt_two⟩
    rw [row_land0] at a0
    rw [row_land1] at a1
    exact ⟨a0, Fin.ext (Int.ofNat.inj a1)⟩
  · rintro ⟨hq, rfl⟩ a
    match a with
    | ⟨0, _⟩ => rw [row_land0]; exact hq
    | ⟨1, _⟩ => rw [row_land1]

end Row

theorem scatterAdd_row_apply {M E C w : Nat}
    (wf : ScatterDims.WF ⟨2, ![M, C]⟩ ⟨2, ![E, 1]⟩ ⟨2, ![E, C]⟩ [1] [0] [0] 1)
    (x : (⟨2, ![M, C]⟩ : Shape).Idx → EReal) (idx : IVec ⟨2, ![E, 1]⟩ w) (upd : (⟨2, ![E, C]⟩ : Shape).Idx → EReal)
    (q : Fin M) (k : Fin C) :
    Ideal.hostScatterAdd (rowScatter M E C wf) x idx upd (ix2 q k)
      = x (ix2 q k) + ∑ e ∈ univ.filter (fun e : Fin E => (idx (ix2 e ⟨0, Nat.one_pos⟩)).toInt = (q.val : ℤ)), upd (ix2 e k) := by
  unfold Ideal.hostScatterAdd
  congr 1
  have key : ∀ j : (⟨2, ![E, C]⟩ : Shape).Idx, (rowScatter M E C wf).resultIdx? j idx = some (ix2 q k)
      ↔ (idx (ix2 (j 0) ⟨0, Nat.one_pos⟩)).toInt = (q.val : ℤ) ∧ j 1 = k := fun j => by
    conv_lhs => rw [eq_ix2 j]
    exact row_resultIdx_iff wf idx _ _ q k
  refine Finset.sum_nbij' (fun j => j 0) (fun e => ix2 e k) ?_ ?_ ?_ ?_ ?_
  · intro j hj
    exact Finset.mem_filter.mpr ⟨Finset.mem_univ _, ((key j).mp (Finset.mem_filter.mp hj).2).1⟩
  · intro e he
    exact Finset.mem_filter.mpr ⟨Finset.mem_univ _, (key _).mpr ⟨(Finset.mem_filter.mp he).2, rfl⟩⟩
  · intro j hj
    rw [← ((key j).mp (Finset.mem_filter.mp hj).2).2]
    exact (eq_ix2 j).symm
  · intro e _
    rfl
  · intro j hj
    rw [← ((key j).mp (Finset.mem_filter.mp hj).2).2]
    exact congrArg upd (eq_ix2 j)

section Vec
variable {M E w : Nat} (wf : ScatterDims.WF ⟨1, ![M]⟩ ⟨2, ![E, 1]⟩ ⟨1, ![E]⟩ [] [0] [0] 1)
  (idx : IVec ⟨2, ![E, 1]⟩ w) (e : Fin E)

private theorem vec_land0 (h0 : 0 < 1) :
    (vecScatter M E wf).start (ix1 e) idx ⟨0, h0⟩ + ((vecScatter M E wf).window (ix1 e) ⟨0, h0⟩ : ℤ)
      = (idx (ix2 e ⟨0, Nat.one_pos⟩)).toInt := by
  have hm : (⟨0, h0⟩ : Fin 1) ∈ (vecScatter M E wf).scatterDimsToOperandDims := List.mem_singleton.mpr rfl
  have hk : (⟨0, h0⟩ : Fin 1) ∉ (vecScatter M E wf).sKept := fun h =>
    (List.mem_filter.mp h).2 |> fun h' => by simp at h'
  unfold ScatterDims.start ScatterDims.window
  rw [dif_pos hm, dif_neg hk]
  have hsi : (vecScatter M E wf).siIdx (ix1 e)
      ⟨List.idxOf (⟨0, h0⟩ : Fin 1) (vecScatter M E wf).scatterDimsToOperandDims,
        List.idxOf_lt_length_iff.2 hm⟩ = ix2 e ⟨0, Nat.one_pos⟩ := by
    funext b; refine Fin.ext ?_
    match b with
    | ⟨0, _⟩ => rfl
    | ⟨1, _⟩ => rfl
  rw [hsi]
  simp

private theorem vec_resultIdx_iff (q : Fin M) :
    (vecScatter M E wf).resultIdx? (ix1 e) idx = some (ix1 q)
      ↔ (idx (ix2 e ⟨0, Nat.one_pos⟩)).toInt = (q.val : ℤ) := by
  rw [resultIdx_iff]
  constructor
  · intro h
    have a0 := h ⟨0, Nat.one_pos⟩
    rwa [vec_land0] at a0
  · intro hq a
    match a with
    | ⟨0, _⟩ => rw [vec_land0]; exact hq

end Vec

theorem scatterAdd_vec_apply {M E w : Nat}
    (wf : ScatterDims.WF ⟨1, ![M]⟩ ⟨2, ![E, 1]⟩ ⟨1, ![E]⟩ [] [0] [0] 1)
    (x : (⟨1, ![M]⟩ : Shape).Idx → EReal) (idx : IVec ⟨2, ![E, 1]⟩ w) (upd : (⟨1, ![E]⟩ : Shape).Idx → EReal) (q : Fin M) :
    Ideal.hostScatterAdd (vecScatter M E wf) x idx upd (ix1 q)
      = x (ix1 q) + ∑ e ∈ univ.filter (fun e : Fin E => (idx (ix2 e ⟨0, Nat.one_pos⟩)).toInt = (q.val : ℤ)), upd (ix1 e) := by
  unfold Ideal.hostScatterAdd
  congr 1
  refine Finset.sum_nbij' (fun j => j 0) (fun e => ix1 e) ?_ ?_ ?_ ?_ ?_
  · intro j hj
    have hj' := (Finset.mem_filter.mp hj).2
    rw [eq_ix1 j] at hj'
    exact Finset.mem_filter.mpr ⟨Finset.mem_univ _, (vec_resultIdx_iff wf idx _ q).mp hj'⟩
  · intro e he
    exact Finset.mem_filter.mpr ⟨Finset.mem_univ _, (vec_resultIdx_iff wf idx e q).mpr (Finset.mem_filter.mp he).2⟩
  · intro j _
    exact (eq_ix1 j).symm
  · intro e _
    rfl
  · intro j _
    exact congrArg upd (eq_ix1 j)

end Gnn.Scatter

end
-- ==== Proof.RefIdx.lean ====
import proofs.«414466_j73993696576172_1_alg».proof.Proof.Spec
import proofs.«414466_j73993696576172_1_alg».proof.Proof.LibScatter
import Idealize.ShloMosaic.Lib.StableHlo.Predicate

noncomputable section

namespace Cert.RefIdx

open Idealize.ShloMosaic Idealize.ShloMosaic.ValueIdx Idealize.ShloMosaic.StableHlo Finset Gnn.Scatter Cert.Spec

theorem toInt_of_small (w : BitVec 32) (h : w.toNat < 2 ^ 31) : w.toInt = (w.toNat : ℤ) := by
  rw [BitVec.toInt_eq_toNat_cond]
  split <;> omega

theorem wrapWord_of_small (N : ℕ) (w : BitVec 32) (h : w.toNat < 2 ^ 31) : wrapWord N w = w := by
  unfold wrapWord
  rw [if_neg]
  have := toInt_of_small w h
  simp only [BitVec.slt, decide_eq_true_eq, not_lt]
  rw [this]
  simp

theorem takeRow_val_of_lt (N : ℕ) (hN : 0 < N) (w : BitVec 32) (h : w.toNat < N) (hN' : N ≤ 2 ^ 31) :
    (takeRow N hN w).val = w.toNat := by
  show min (wrapWord N w).toInt.toNat (N - 1) = w.toNat
  rw [wrapWord_of_small N w (by omega), toInt_of_small w (by omega)]
  omega

theorem toInt_eq_iff_of_small (w : BitVec 32) (h : w.toNat < 2 ^ 31) (q : ℕ) : w.toInt = (q : ℤ) ↔ w.toNat = q := by
  rw [toInt_of_small w h]; omega

theorem ofFin_eq_ix1 {n : ℕ} (e : Fin n) : Shape.Idx.ofFin e = ix1 e :=
  funext fun a => by match a with | ⟨0, _⟩ => rfl

theorem ixP_eq_ix2 {n : ℕ} (e : Fin n) : Predicate.ixP e = ix2 e ⟨0, Nat.one_pos⟩ :=
  funext fun a => by match a with | ⟨0, _⟩ => rfl | ⟨1, _⟩ => rfl

/-- A vector laid out as a column reads its own entry: the library's column read, at this file's index spelling. -/
theorem col_apply {α : Type} {E : ℕ} (h : (⟨1, ![E]⟩ : Shape).BroadcastsInDim ⟨2, ![E, 1]⟩ ![0])
    (x : (⟨1, ![E]⟩ : Shape).Idx → α) (e : Fin E) :
    broadcastInDim ⟨2, ![E, 1]⟩ ![0] h x (ix2 e ⟨0, Nat.one_pos⟩) = x (ix1 e) := by
  rw [← ixP_eq_ix2, Predicate.bcast_col1, ofFin_eq_ix1]

theorem wrap_apply {E : ℕ} (N : ℕ) (ids z nn : IVec ⟨1, ![E]⟩ 32) (e : Fin E)
    (hz : z (ix1 e) = 0#32) (hnn : nn (ix1 e) = BitVec.ofNat 32 N) :
    select (cmpi .slt ids z) (addi ids nn) ids (ix1 e) = wrapWord N (ids (ix1 e)) := by
  rw [select_apply]
  show Scalar.select (IntOp.cmpi .slt (ids (ix1 e)) (z (ix1 e))) (IntOp.addi (ids (ix1 e)) (nn (ix1 e))) (ids (ix1 e)) = _
  rw [hz, hnn]
  unfold wrapWord Scalar.select IntOp.cmpi IntOp.addi
  by_cases h : (ids (ix1 e)).slt 0#32 <;> simp [h]

theorem wrapCol_apply {E : ℕ} (N : ℕ) (h : (⟨1, ![E]⟩ : Shape).BroadcastsInDim ⟨2, ![E, 1]⟩ ![0])
    (ids z nn : IVec ⟨1, ![E]⟩ 32) (hz : ∀ i, z i = 0#32) (hnn : ∀ i, nn i = BitVec.ofNat 32 N) (e : Fin E) :
    broadcastInDim ⟨2, ![E, 1]⟩ ![0] h (select (cmpi .slt ids z) (addi ids nn) ids) (ix2 e ⟨0, Nat.one_pos⟩)
      = wrapWord N (ids (ix1 e)) := by
  rw [col_apply, wrap_apply N ids z nn e (hz _) (hnn _)]

theorem take_rows_apply {α : Type} {N E C : ℕ} (hN : 0 < N)
    (wf : GatherDims.WF ⟨2, ![N, C]⟩ ⟨2, ![E, 1]⟩ ⟨2, ![E, C]⟩ [1] [0] [] [0] [] 1 ![1, C])
    (h : (⟨1, ![E]⟩ : Shape).BroadcastsInDim ⟨2, ![E, 1]⟩ ![0])
    (tab : (⟨2, ![N, C]⟩ : Shape).Idx → α) (ids z nn : IVec ⟨1, ![E]⟩ 32)
    (hz : ∀ i, z i = 0#32) (hnn : ∀ i, nn i = BitVec.ofNat 32 N) (e : Fin E) (k : Fin C) :
    Host.gather (rowGather N E C wf) tab
        (broadcastInDim ⟨2, ![E, 1]⟩ ![0] h (select (cmpi .slt ids z) (addi ids nn) ids)) (ix2 e k)
      = tab (ix2 (takeRow N hN (ids (ix1 e))) k) := by
  rw [gather_row_apply hN wf]
  refine congrArg (fun r => tab (ix2 r k)) (Fin.ext ?_)
  show min (broadcastInDim ⟨2, ![E, 1]⟩ ![0] h (select (cmpi .slt ids z) (addi ids nn) ids)
      (ix2 e ⟨0, Nat.one_pos⟩)).toInt.toNat (N - 1) = min (wrapWord N (ids (ix1 e))).toInt.toNat (N - 1)
  rw [wrapCol_apply N h ids z nn hz hnn]

/-- A take of entries, for any dimension record of that kind: the library's take, then the wrapped column. -/
theorem take_vec_apply {α : Type} {N E : ℕ} (hN : 0 < N) (d : GatherDims ⟨1, ![N]⟩ ⟨2, ![E, 1]⟩ ⟨1, ![E]⟩)
    (hc : d.collapsedSliceDims = [0]) (hob : d.operandBatchingDims = []) (hsm : d.startIndexMap = [0])
    (hiv : d.indexVectorDim = 1) (h : (⟨1, ![E]⟩ : Shape).BroadcastsInDim ⟨2, ![E, 1]⟩ ![0])
    (x : (⟨1, ![N]⟩ : Shape).Idx → α) (ids z nn : IVec ⟨1, ![E]⟩ 32)
    (hz : ∀ i, z i = 0#32) (hnn : ∀ i, nn i = BitVec.ofNat 32 N) (e : Fin E) :
    Host.gather d x (broadcastInDim ⟨2, ![E, 1]⟩ ![0] h (select (cmpi .slt ids z) (addi ids nn) ids)) (ix1 e)
      = x (ix1 (takeRow N hN (ids (ix1 e)))) := by
  refine ((congrArg (Host.gather d x _) (ofFin_eq_ix1 e).symm).trans (Predicate.gather_take d hc hob hsm hiv x _ e hN)).trans
    ((congrArg x (ofFin_eq_ix1 _)).trans (congrArg (fun r => x (ix1 r)) (Fin.ext ?_)))
  show min (broadcastInDim ⟨2, ![E, 1]⟩ ![0] h (select (cmpi .slt ids z) (addi ids nn) ids)
      (Predicate.ixP e)).toInt.toNat (N - 1) = min (wrapWord N (ids (ix1 e))).toInt.toNat (N - 1)
  rw [ixP_eq_ix2, wrapCol_apply N h ids z nn hz hnn]

/-- In-range segment words read signed are their values: the scatter's filter is the specification's. -/
theorem seg_filter {T : ℕ} (hb : (⟨1, ![T]⟩ : Shape).BroadcastsInDim ⟨2, ![T, 1]⟩ ![0]) (seg : IVec ⟨1, ![T]⟩ 32)
    (hseg : ∀ e, (seg (ix1 e)).toNat < 16384) (q : Fin 16384) :
    univ.filter (fun e : Fin T => (broadcastInDim ⟨2, ![T, 1]⟩ ![0] hb seg (ix2 e ⟨0, Nat.one_pos⟩)).toInt = (q.val : ℤ))
      = univ.filter (fun e : Fin T => (seg (ix1 e)).toNat = q.val) :=
  Finset.filter_congr fun e _ => by
    rw [col_apply]
    exact toInt_eq_iff_of_small _ (by have := hseg e; omega) q.val

/-- In range, wrap and clamp leave an index word alone, so the scatter-added takes are the specification's pooled sum. -/
theorem pool_apply {T : ℕ} {dg : GatherDims ⟨2, ![50000, 64]⟩ ⟨2, ![T, 1]⟩ ⟨2, ![T, 64]⟩}
    {ds : ScatterDims ⟨2, ![16384, 64]⟩ ⟨2, ![T, 1]⟩ ⟨2, ![T, 64]⟩}
    {wfg : GatherDims.WF ⟨2, ![50000, 64]⟩ ⟨2, ![T, 1]⟩ ⟨2, ![T, 64]⟩ [1] [0] [] [0] [] 1 ![1, 64]}
    {wfs : ScatterDims.WF ⟨2, ![16384, 64]⟩ ⟨2, ![T, 1]⟩ ⟨2, ![T, 64]⟩ [1] [0] [0] 1}
    (eg : dg = rowGather 50000 T 64 wfg) (es : ds = rowScatter 16384 T 64 wfs)
    (hb : (⟨1, ![T]⟩ : Shape).BroadcastsInDim ⟨2, ![T, 1]⟩ ![0])
    (tab : FVec Ideal ⟨2, ![50000, 64]⟩ .f32) (idx seg z nn : IVec ⟨1, ![T]⟩ 32)
    (zero : FVec Ideal ⟨2, ![16384, 64]⟩ .f32)
    (hz : ∀ i, z i = 0#32) (hnn : ∀ i, nn i = BitVec.ofNat 32 50000)
    (hzero : ∀ i, zero i = Ideal.ofBits .f32 0x00000000#32)
    (hidx : ∀ e, (idx (ix1 e)).toNat < 50000) (hseg : ∀ e, (seg (ix1 e)).toNat < 16384)
    (q : Fin 16384) (k : Fin 64) :
    Host.scatterAdd ds zero (broadcastInDim ⟨2, ![T, 1]⟩ ![0] hb seg)
        (Host.gather dg tab (broadcastInDim ⟨2, ![T, 1]⟩ ![0] hb (select (cmpi .slt idx z) (addi idx nn) idx))) (ix2 q k)
      = poolSum (fun r k => tab (ix2 r k)) (fun e => idx (ix1 e)) (fun e => seg (ix1 e)) q k := by
  rw [eg, es, Host.scatterAdd, Ideal.hostScatterAdd_def, scatterAdd_row_apply, hzero, Ideal.ofBits_zero_f32, zero_add,
    seg_filter hb seg hseg q]
  unfold poolSum
  refine Finset.sum_congr rfl (fun e _ => ?_)
  rw [take_rows_apply (by norm_num) _ hb tab idx z nn hz hnn e k]
  refine congrArg (fun r => tab (ix2 r k)) (Fin.ext ?_)
  show (takeRow 50000 _ (idx (ix1 e))).val = min (idx (ix1 e)).toNat 49999
  rw [takeRow_val_of_lt 50000 _ _ (hidx e) (by norm_num)]
  have := hidx e
  omega

theorem cnt_apply {T : ℕ} {dc : ScatterDims ⟨1, ![16384]⟩ ⟨2, ![T, 1]⟩ ⟨1, ![T]⟩}
    {wfc : ScatterDims.WF ⟨1, ![16384]⟩ ⟨2, ![T, 1]⟩ ⟨1, ![T]⟩ [] [0] [0] 1} (ec : dc = vecScatter 16384 T wfc) (hb : (⟨1, ![T]⟩ : Shape).BroadcastsInDim ⟨2, ![T, 1]⟩ ![0])
    (seg : IVec ⟨1, ![T]⟩ 32) (zero : FVec Ideal ⟨1, ![16384]⟩ .f32) (ones : FVec Ideal ⟨1, ![T]⟩ .f32)
    (hzero : ∀ i, zero i = Ideal.ofBits .f32 0x00000000#32) (hones : ∀ i, ones i = Ideal.ofBits .f32 0x3F800000#32)
    (hseg : ∀ e, (seg (ix1 e)).toNat < 16384) (q : Fin 16384) :
    Host.scatterAdd dc zero (broadcastInDim ⟨2, ![T, 1]⟩ ![0] hb seg) ones (ix1 q)
      = poolCnt (fun e => seg (ix1 e)) q := by
  rw [ec, Host.scatterAdd, Ideal.hostScatterAdd_def, scatterAdd_vec_apply, hzero, Ideal.ofBits_zero_f32, zero_add,
    seg_filter hb seg hseg q]
  unfold poolCnt
  exact Finset.sum_congr rfl (fun e _ => hones _)

theorem inv_apply {s : Shape} (cnt zero one fill : FVec Ideal s .f32) (i : s.Idx)
    (hzero : zero i = Ideal.ofBits .f32 0x00000000#32) (hone : one i = Ideal.ofBits .f32 0x3F800000#32)
    (hfill : fill i = Ideal.ofBits .f32 0x00000000#32) :
    select (cmpf .ogt cnt zero) (Host.rsqrt (maximumf cnt one)) fill i = inv (cnt i) := by
  rw [select_apply]
  show Scalar.select (FloatOps.cmpf .ogt (cnt i) (zero i))
    (FloatOps.hostUnary .rsqrt (FloatOps.maximumf (cnt i) (one i))) (fill i) = _
  rw [hzero, hone, hfill]
  rfl

end Cert.RefIdx

end
-- ==== Proof.KI.HostGlue.lean ====
import proofs.«414466_j73993696576172_1_alg».proof.Proof.Gen.KernelIdeal.Launch
import proofs.«414466_j73993696576172_1_alg».proof.Proof.RefIdx
import Idealize.ShloMosaic.Lib.StableHlo.Run
import Idealize.ShloMosaic.Lib.ValueLayout
import Idealize.ShloMosaic.Lib.Pipeline.Value

noncomputable section

namespace Cert.KernelIdeal.Hand

open Cert.KernelIdeal Cert.KernelIdeal.Gen Cert.RefIdx
open Idealize.ShloMosaic Idealize.ShloMosaic.TcCoe Idealize.ShloMosaic.ValueIdx

theorem toColumn_read {α : Type} {E : ℕ} (h : (⟨1, ![E]⟩ : Shape).ShapeCasts ⟨2, ![E, 1]⟩)
    (x : (⟨1, ![E]⟩ : Shape).Idx → α) (e : Fin E) (u : Fin 1) :
    shapeCast ⟨2, ![E, 1]⟩ x h (ix2 e u) = x (ix1 e) := by
  refine shapeCast_apply x h (ix2 e u) (ix1 e) ?_
  rw [Shape.rowMajor_val_one, Shape.rowMajor_val_two]
  show e.val = e.val * 1 + u.val
  omega

theorem ofColumn_read {α : Type} {E : ℕ} (h : (⟨2, ![E, 1]⟩ : Shape).ShapeCasts ⟨1, ![E]⟩)
    (x : (⟨2, ![E, 1]⟩ : Shape).Idx → α) (e : Fin E) :
    shapeCast ⟨1, ![E]⟩ x h (ix1 e) = x (ix2 e 0) := by
  refine shapeCast_apply x h (ix1 e) (ix2 e 0) ?_
  rw [Shape.rowMajor_val_one, Shape.rowMajor_val_two]
  show e.val * 1 + 0 = e.val
  omega

abbrev wrapCol (N : ℕ) (x : IVec S16384 32) : IVec S16384x1 32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 (BitVec.ofNat 32 N)))) x)

variable {F : FTy → Type} [FloatOps F]
variable (W : Valuation τ sig (Elt F))

theorem glue_v8 (b : Fin 16384) (d : Fin 64) :
    (StableHlo.after hostOps2 W main_v8 : S16384x64.Idx → Elt F .f32) (ix2 b d)
      = (W main_arg6 : S100000x64.Idx → Elt F .f32)
          (ix2 (Cert.Spec.takeRow 100000 (by omega) ((W main_arg0 : S16384.Idx → BitVec 32) (ix1 b))) d) := by
  rw [show (StableHlo.after hostOps2 W main_v8 : S16384x64.Idx → Elt F .f32)
      = Host.gather gather_S100000x64_S16384x1_S16384x64_1_0_n_n_0_1_164 (W main_arg6 : S100000x64.Idx → Elt F .f32)
          (wrapCol 100000 (W main_arg0 : S16384.Idx → BitVec 32)) from by after_results_simp <;> rfl]
  exact take_rows_apply (by omega) gather_S100000x64_S16384x1_S16384x64_1_0_n_n_0_1_164_wf _ _ _ _ _ (fun _ => rfl) (fun _ => rfl) b d

theorem glue_v15 (b : Fin 16384) (d : Fin 64) :
    (StableHlo.after hostOps2 W main_v15 : S16384x64.Idx → Elt F .f32) (ix2 b d)
      = (W main_arg7 : S50000x64.Idx → Elt F .f32)
          (ix2 (Cert.Spec.takeRow 50000 (by omega) ((W main_arg1 : S16384.Idx → BitVec 32) (ix1 b))) d) := by
  rw [show (StableHlo.after hostOps2 W main_v15 : S16384x64.Idx → Elt F .f32)
      = Host.gather gather_S50000x64_S16384x1_S16384x64_1_0_n_n_0_1_164 (W main_arg7 : S50000x64.Idx → Elt F .f32)
          (wrapCol 50000 (W main_arg1 : S16384.Idx → BitVec 32)) from by after_results_simp <;> rfl]
  exact take_rows_apply (by omega) gather_S50000x64_S16384x1_S16384x64_1_0_n_n_0_1_164_wf _ _ _ _ _ (fun _ => rfl) (fun _ => rfl) b d

theorem glue_v23 (b : Fin 16384) :
    (StableHlo.after hostOps2 W main_v23 : S16384x1.Idx → Elt F .f32) (ix2 b 0)
      = (W main_arg8 : S100000.Idx → Elt F .f32)
          (ix1 (Cert.Spec.takeRow 100000 (by omega) ((W main_arg0 : S16384.Idx → BitVec 32) (ix1 b)))) := by
  rw [show (StableHlo.after hostOps2 W main_v23 : S16384x1.Idx → Elt F .f32)
      = shapeCast S16384x1 (Host.gather gather_S100000_S16384x1_S16384_n_0_n_n_0_1_1 (W main_arg8 : S100000.Idx → Elt F .f32)
          (wrapCol 100000 (W main_arg0 : S16384.Idx → BitVec 32))) shapeCasts_S16384_S16384x1 from by after_results_simp <;> rfl,
    toColumn_read]
  exact take_vec_apply (by omega) gather_S100000_S16384x1_S16384_n_0_n_n_0_1_1 rfl rfl rfl rfl _ _ _ _ _ (fun _ => rfl) (fun _ => rfl) b

theorem glue_v31 (b : Fin 16384) :
    (StableHlo.after hostOps2 W main_v31 : S16384x1.Idx → Elt F .f32) (ix2 b 0)
      = (W main_arg9 : S50000.Idx → Elt F .f32)
          (ix1 (Cert.Spec.takeRow 50000 (by omega) ((W main_arg1 : S16384.Idx → BitVec 32) (ix1 b)))) := by
  rw [show (StableHlo.after hostOps2 W main_v31 : S16384x1.Idx → Elt F .f32)
      = shapeCast S16384x1 (Host.gather gather_S50000_S16384x1_S16384_n_0_n_n_0_1_1 (W main_arg9 : S50000.Idx → Elt F .f32)
          (wrapCol 50000 (W main_arg1 : S16384.Idx → BitVec 32))) shapeCasts_S16384_S16384x1 from by after_results_simp <;> rfl,
    toColumn_read]
  exact take_vec_apply (by omega) gather_S50000_S16384x1_S16384_n_0_n_n_0_1_1 rfl rfl rfl rfl _ _ _ _ _ (fun _ => rfl) (fun _ => rfl) b

theorem glue_v33 (W' : Valuation τ sig (Elt F)) (b : Fin 16384) :
    (StableHlo.after hostOps3 W' main_v33 : S16384.Idx → Elt F .f32) (ix1 b)
      = (W' main_v32 : S16384x1.Idx → Elt F .f32) (ix2 b 0) := by
  rw [show (StableHlo.after hostOps3 W' main_v33 : S16384.Idx → Elt F .f32)
      = shapeCast S16384 (W' main_v32 : S16384x1.Idx → Elt F .f32) shapeCasts_S16384x1_S16384 from by after_results_simp <;> rfl,
    ofColumn_read]

end Cert.KernelIdeal.Hand

end
-- ==== Proof.KI.CombineValue.lean ====
import proofs.«414466_j73993696576172_1_alg».proof.Proof.KI.Combine
import proofs.«414466_j73993696576172_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal.Gen
open Idealize.ShloMosaic Idealize.ShloMosaic.TcCoe Idealize.ShloMosaic.ValueIdx Idealize.SL.Sem
open Idealize.ShloMosaic.Pipeline (Dat)
open Finset

section Layout
variable {α : Type}

theorem shapeCast_col_apply (x : S2048.Idx → α) (h : S2048.ShapeCasts S2048x1) (p : Fin 2048) (u : Fin 1) :
    shapeCast S2048x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_col_apply (v : S2048x1.Idx → α) (h : S2048x1.Broadcasts S2048x64) (p : Fin 2048) (d : Fin 64) :
    broadcastTo S2048x64 v h (ix2 p d) = v (ix2 p (0 : Fin 1)) :=
  broadcastTo_apply v h (ix2 p d) (ix2 p (0 : Fin 1)) fun ax => match ax with
    | ⟨0, _⟩ => rfl
    | ⟨1, _⟩ => rfl

theorem rowsum_apply (src : FVec Ideal S2048x64 .f32) (h : S2048x64.Reduces [1] S2048) (hφ : FKind.Formats .f32)
    (hacc : (0x00000000#32 : BitVec 32) = FKind.add.neutral .f32 hφ) (p : Fin 2048) :
    multiReduction (F := Ideal) .add [1] S2048 src 0x00000000#32 h hφ hacc (ix1 p) = ∑ d : Fin 64, src (ix2 p d) :=
  (Ideal.multiReduction_add_single src 0x00000000#32 h hφ hacc (ix1 p)).trans
    (Finset.sum_congr rfl fun d _ => congrArg src (funext fun a => Fin.ext (match a with
      | ⟨0, _⟩ => rfl
      | ⟨1, _⟩ => rfl)))

end Layout

/-- The payload at row `p` of the block is the specification's expression of the eight blocks' rows `p`. -/
theorem pay_apply (x0 : Vec Ideal S2048x64 .f32) (x1 : Vec Ideal S2048x1 .f32) (x2 : Vec Ideal S2048x64 .f32)
    (x3 : Vec Ideal S2048x1 .f32) (x4 x5 : Vec Ideal S2048x64 .f32) (x6 x7 : Vec Ideal S2048x1 .f32) (p : Fin 2048) :
    k2_pay1 (F := Ideal) (k2_pay2 x1 x0 x3 x2 x4 x5 x6) x7 (ix2 p (0 : Fin 1))
      = Cert.Spec.G (fun _ d => x4 (ix2 p d)) (fun _ d => x5 (ix2 p d)) (fun _ => x6 (ix2 p (0 : Fin 1))) (fun _ => x7 (ix2 p (0 : Fin 1)))
          (fun _ d => x0 (ix2 p d)) (fun _ => x1 (ix2 p (0 : Fin 1))) (fun _ d => x2 (ix2 p d)) (fun _ => x3 (ix2 p (0 : Fin 1))) 0 := by
  unfold k2_pay1 k2_pay2 Cert.Spec.G
  simp only [shapeCast_self]
  refine congrArg (fun z => ((z + x6 (ix2 p (0 : Fin 1))) + x7 (ix2 p (0 : Fin 1))) + Ideal.ofBits .f32 0x40747AE1#32) ?_
  refine (shapeCast_col_apply _ shapeCasts_S2048_S2048x1 p 0).trans ?_
  refine (rowsum_apply _ reduces_S2048x64_S2048 _ _ p).trans ?_
  refine Finset.sum_congr rfl fun d _ => ?_
  exact congrArg₂ (fun a b => ((x4 (ix2 p d) + x0 (ix2 p d) * a) + x2 (ix2 p d) * b) * x5 (ix2 p d))
    (broadcastTo_col_apply _ broadcasts_S2048x1_S2048x64 p d) (broadcastTo_col_apply _ broadcasts_S2048x1_S2048x64 p d)

variable (V : (c : Dev nD) → (b : Ref sig .tc) → Buf (Elt Ideal) ((c : Thread nD τ).loc b))

abbrev arr2_0 (c : Dev nD) : Vec Ideal S16384x64 .f32 := V c (Pipeline.arrRef spec2 0)
abbrev arr2_1 (c : Dev nD) : Vec Ideal S16384x1 .f32 := V c (Pipeline.arrRef spec2 1)
abbrev arr2_2 (c : Dev nD) : Vec Ideal S16384x64 .f32 := V c (Pipeline.arrRef spec2 2)
abbrev arr2_3 (c : Dev nD) : Vec Ideal S16384x1 .f32 := V c (Pipeline.arrRef spec2 3)
abbrev arr2_4 (c : Dev nD) : Vec Ideal S16384x64 .f32 := V c (Pipeline.arrRef spec2 4)
abbrev arr2_5 (c : Dev nD) : Vec Ideal S16384x64 .f32 := V c (Pipeline.arrRef spec2 5)
abbrev arr2_6 (c : Dev nD) : Vec Ideal S16384x1 .f32 := V c (Pipeline.arrRef spec2 6)
abbrev arr2_7 (c : Dev nD) : Vec Ideal S16384x1 .f32 := V c (Pipeline.arrRef spec2 7)

/-- Row `p` of block `t`, as a row of the whole array. -/
def rowAt (t : Fin cfg2.N) (p : Fin 2048) : Fin 16384 := ⟨2048 * t.val + p.val, by have := lt_of_lt_of_eq t.isLt N_2; omega⟩

/-- Every window of the region has the same index map: block `t` on the rows, 0 on the second axis. -/
theorem tf2 : ∀ t : Fin grid2.N, cc2_transform_0 (grid2.coords t) = ![t.val, 0] := by decide +kernel

/-- An array index with coordinates `index * size + local`, for the index map `(t, 0)`, is `(rowAt t p, d)`. -/
theorem row_ext {n : ℕ} {ix : Fin 2 → ℕ} {t : Fin cfg2.N} (h : ix = ![t.val, 0]) (p : Fin 2048) (d : Fin n)
    (i : (⟨2, ![16384, n]⟩ : Shape).Idx) (hi : ∀ a, (i a : ℕ) = ix a * ![2048, n] a + 1 * (ix2 p d a : ℕ)) :
    i = ix2 (rowAt t p) d := by
  subst h; funext a; apply Fin.ext; rw [hi]
  match a with
  | ⟨0, _⟩ => show t.val * 2048 + 1 * p.val = 2048 * t.val + p.val; omega
  | ⟨1, _⟩ => show 0 * n + 1 * d.val = d.val; omega

/-- Reading an input block at row `p` reads the window's array at row `rowAt t p`. -/
theorem blks (c : Dev nD) (t : Fin cfg2.N) (p : Fin 2048) :
    (∀ d, iblk2 V c 0 t (ix2 p d) = arr2_0 V c (ix2 (rowAt t p) d))
    ∧ iblk2 V c 1 t (ix2 p (0 : Fin 1)) = arr2_1 V c (ix2 (rowAt t p) (0 : Fin 1))
    ∧ (∀ d, iblk2 V c 2 t (ix2 p d) = arr2_2 V c (ix2 (rowAt t p) d))
    ∧ iblk2 V c 3 t (ix2 p (0 : Fin 1)) = arr2_3 V c (ix2 (rowAt t p) (0 : Fin 1))
    ∧ (∀ d, iblk2 V c 4 t (ix2 p d) = arr2_4 V c (ix2 (rowAt t p) d))
    ∧ (∀ d, iblk2 V c 5 t (ix2 p d) = arr2_5 V c (ix2 (rowAt t p) d))
    ∧ iblk2 V c 6 t (ix2 p (0 : Fin 1)) = arr2_6 V c (ix2 (rowAt t p) (0 : Fin 1))
    ∧ iblk2 V c 7 t (ix2 p (0 : Fin 1)) = arr2_7 V c (ix2 (rowAt t p) (0 : Fin 1)) := by
  refine ⟨fun d => ?_, ?_, fun d => ?_, ?_, fun d => ?_, fun d => ?_, ?_, ?_⟩ <;>
    (unfold iblk2; rw [View.read_apply]; refine congrArg (V c _) (row_ext (tf2 t) p _ _ ?_); exact fun _ => rfl)

theorem emb2_8 (t : Fin cfg2.N) (p : Fin 2048) :
    (((cfg2.win 8).blk t).view.emb (ix2 p (0 : Fin 1)) : S16384x1.Idx) = ix2 (rowAt t p) (0 : Fin 1) :=
  row_ext (tf2 t) p 0 _ fun _ => rfl

/-- The candidate final output: row `b` holds `Cert.Spec.G` of the eight entry arrays at `b`. -/
def outArr (c : Dev nD) : Vec Ideal S16384x1 .f32 := fun i =>
  Cert.Spec.G (fun b d => arr2_4 V c (ix2 b d)) (fun b d => arr2_5 V c (ix2 b d))
    (fun b => arr2_6 V c (ix2 b (0 : Fin 1))) (fun b => arr2_7 V c (ix2 b (0 : Fin 1)))
    (fun b d => arr2_0 V c (ix2 b d)) (fun b => arr2_1 V c (ix2 b (0 : Fin 1)))
    (fun b d => arr2_2 V c (ix2 b d)) (fun b => arr2_3 V c (ix2 b (0 : Fin 1)))
    ⟨(i 0).val, (i 0).isLt⟩

theorem out_row (c : Dev nD) (t : Fin cfg2.N) (p : Fin 2048) :
    pay2 V c t (ix2 p (0 : Fin 1)) = outArr V c (ix2 (rowAt t p) (0 : Fin 1)) := by
  obtain ⟨e0, e1, e2, e3, e4, e5, e6, e7⟩ := blks V c t p
  refine (pay_apply _ _ _ _ _ _ _ _ p).trans ?_
  simp only [e0, e1, e2, e3, e4, e5, e6, e7]
  rfl

/-- Point `t` writes back block `t` of `outArr`. -/
theorem flushed2_8_eq (c : Dev nD) (t : Fin cfg2.N) :
    (dat2 (F := Ideal) V c).flushed 8 t = ((cfg2.win 8).blk t).view.read (Elt Ideal) (outArr V c) := by
  refine funext fun (j : S2048x1.Idx) => ?_
  obtain ⟨p, q, rfl⟩ : ∃ (p : Fin 2048) (q : Fin 1), j = ix2 p q := ⟨j 0, j 1, eq_ix2 j⟩
  obtain rfl : q = 0 := Subsingleton.elim _ _
  show pay2 V c t (ix2 p (0 : Fin 1)) = outArr V c (((cfg2.win 8).blk t).view.emb (ix2 p (0 : Fin 1)))
  rw [emb2_8 t p]
  exact out_row V c t p

theorem mem_blk2_8 (t : Fin cfg2.N) (i : S16384x1.Idx) :
    i ∈ ((cfg2.win 8).blk t).view.set ↔ ∀ a : Fin 2, win2_8.index t a * S2048x1.size a ≤ (i a).val ∧ (i a).val < win2_8.index t a * S2048x1.size a + S2048x1.size a := by
  show i ∈ ((View.whole main_v32).slice (win2_8.rect t)).set ↔ _
  rw [View.set_slice_whole, Rect.mem_set_unit]
  exact Iff.rfl

/-- The eight blocks tile the 16384 rows: row `r` belongs to block `r / 2048`. -/
theorem cover2_out (i : S16384x1.Idx) :
    ∃ t : Fin cfg2.N, (cfg2.win 8).flush t = true ∧ i ∈ ((cfg2.win 8).blk t).view.set := by
  have hi0 : (i 0).val < 16384 := (i 0).isLt
  have hi1 : (i 1).val < 1 := (i 1).isLt
  have hq : (i 0).val / 2048 < cfg2.N := lt_of_lt_of_eq (by omega : (i 0).val / 2048 < 8) N_2.symm
  have h : win2_8.index ⟨(i 0).val / 2048, hq⟩ = ![(i 0).val / 2048, 0] := tf2 _
  refine ⟨⟨(i 0).val / 2048, hq⟩, flush2_8 _, ?_⟩
  rw [mem_blk2_8, h]
  intro a
  match a with
  | ⟨0, _⟩ => show (i 0).val / 2048 * 2048 ≤ (i 0).val ∧ (i 0).val < (i 0).val / 2048 * 2048 + 2048; omega
  | ⟨1, _⟩ => show 0 * 1 ≤ (i 1).val ∧ (i 1).val < 0 * 1 + 1; omega

/-- The blocks written back cover the output array, so it ends holding the specification of the entry arrays. -/
theorem final2 (c : Dev nD) (b : Fin 16384) :
    (dat2 (F := Ideal) V c).arrAt 8 cfg2.N (ix2 b (0 : Fin 1))
      = Cert.Spec.G (fun b d => arr2_4 V c (ix2 b d)) (fun b d => arr2_5 V c (ix2 b d))
          (fun b => arr2_6 V c (ix2 b (0 : Fin 1))) (fun b => arr2_7 V c (ix2 b (0 : Fin 1)))
          (fun b d => arr2_0 V c (ix2 b d)) (fun b => arr2_1 V c (ix2 b (0 : Fin 1)))
          (fun b d => arr2_2 V c (ix2 b d)) (fun b => arr2_3 V c (ix2 b (0 : Fin 1))) b :=
  congrFun ((dat2 (F := Ideal) V c).arrAt_eq_of_cover 8 (outArr V c) (fun t _ => flushed2_8_eq V c t) (cover2_out))
    (ix2 b (0 : Fin 1))

end Cert.KernelIdeal.Hand

end
-- ==== Proof.KI.Pool0Out.lean ====
import proofs.«414466_j73993696576172_1_alg».proof.Proof.KI.Pool0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (hr1 : ∀ (c : Dev nD) (j : S819200.Idx), BitVec.toNat ((V c main_arg2 : S819200.Idx → BitVec 32) j) < 50000)
variable (hr2 : ∀ (c : Dev nD) (j : S819200.Idx), BitVec.toNat ((V c main_arg3 : S819200.Idx → BitVec 32) j) < 16384)

theorem last_lt0 : 3198 + 1 < cfg0.N := lt_of_lt_of_eq (by decide : 3198 + 1 < 3200) (show cfg0.N = 3200 from N_0).symm

-- The two output blocks after the last point.
def outAt0 (c : Dev nD) : Vec F S16384x64 .f32 × Vec F S16384x1 .f32 := outsAt0 V hr1 hr2 c (3198 + 1) last_lt0

theorem outAt0_eq (c : Dev nD) (hnA : ¬ (isFirst0 (grid0.coords ⟨3198 + 1, last_lt0⟩) = 1#1)) (hC : k0_cond2 (grid0.coords ⟨3198 + 1, last_lt0⟩) = 1#1) :
    outAt0 V hr1 hr2 c = (wC0 V hr1 hr2 c ⟨3198 + 1, last_lt0⟩ hnA hC (stAt0 V hr1 hr2 c 3198 (Nat.lt_of_succ_lt last_lt0))).1.2 :=
  outsAt0_last V hr1 hr2 c 3198 last_lt0 rfl hnA hC

theorem outsAt0_of_last (c : Dev nD) (t : Fin cfg0.N) (ht : t.val = 3198 + 1) :
    outsAt0 V hr1 hr2 c t.val t.isLt = outAt0 V hr1 hr2 c := by
  obtain ⟨k, hk⟩ := t
  obtain rfl : k = 3198 + 1 := ht
  rfl

theorem idx0_2 : ∀ (t : Fin cfg0.N) (a : Fin win0_2.shape.rank), win0_2.index t a = 0 :=
  (by decide +kernel : ∀ (t : Fin grid0.N) (a : Fin win0_2.shape.rank), win0_2.index t a = 0)
theorem idx0_3 : ∀ (t : Fin cfg0.N) (a : Fin win0_3.shape.rank), win0_3.index t a = 0 :=
  (by decide +kernel : ∀ (t : Fin grid0.N) (a : Fin win0_3.shape.rank), win0_3.index t a = 0)

-- Only the last point writes back, and its block is the whole array.
theorem flushed0_2 (c : Dev nD) (t : Fin cfg0.N) (hf : (cfg0.win 2).flush t = true) :
    (dat0 V hr1 hr2 c).flushed 2 t = ((cfg0.win 2).blk t).view.read (Elt F) (outAt0 V hr1 hr2 c).1 := by
  show (cfg0.win 2).cut (grid0.coords t) ((dat0 V hr1 hr2 c).after 2 t) = _
  rw [after0_2]
  have h3 : t.val % 3200 = 3199 := (flush0_2 t).mp hf
  have hN : t.val < 3200 := lt_of_lt_of_eq t.isLt (show cfg0.N = 3200 from N_0)
  rw [outsAt0_of_last V hr1 hr2 c t (by omega)]
  funext y
  show (outAt0 V hr1 hr2 c).1 _ = (outAt0 V hr1 hr2 c).1 (((cfg0.win 2).blk t).view.emb y)
  refine congrArg _ (funext fun a => Fin.ext ?_)
  exact (Window.rect_emb_val_of_index_zero win0_2 t a (idx0_2 t a) y).symm
theorem flushed0_3 (c : Dev nD) (t : Fin cfg0.N) (hf : (cfg0.win 3).flush t = true) :
    (dat0 V hr1 hr2 c).flushed 3 t = ((cfg0.win 3).blk t).view.read (Elt F) (outAt0 V hr1 hr2 c).2 := by
  show (cfg0.win 3).cut (grid0.coords t) ((dat0 V hr1 hr2 c).after 3 t) = _
  rw [after0_3]
  have h3 : t.val % 3200 = 3199 := (flush0_3 t).mp hf
  have hN : t.val < 3200 := lt_of_lt_of_eq t.isLt (show cfg0.N = 3200 from N_0)
  rw [outsAt0_of_last V hr1 hr2 c t (by omega)]
  funext y
  show (outAt0 V hr1 hr2 c).2 _ = (outAt0 V hr1 hr2 c).2 (((cfg0.win 3).blk t).view.emb y)
  refine congrArg _ (funext fun a => Fin.ext ?_)
  exact (Window.rect_emb_val_of_index_zero win0_3 t a (idx0_3 t a) y).symm

theorem cover0_2 (i : S16384x64.Idx) : ∃ t : Fin cfg0.N, (cfg0.win 2).flush t = true ∧ i ∈ ((cfg0.win 2).blk t).view.set := by
  have h0 : (i 0 : Nat) < 16384 := (i 0).isLt
  have h1 : (i 1 : Nat) < 64 := (i 1).isLt
  refine ⟨⟨3198 + 1, last_lt0⟩, (flush0_2 _).mpr (by decide), ?_⟩
  show i ∈ ((View.whole main_v0_0).slice (win0_2.rect ⟨3198 + 1, last_lt0⟩)).set
  rw [View.set_slice_whole, Rect.mem_set_unit]
  intro a; fin_cases a
  · show win0_2.index ⟨3198 + 1, last_lt0⟩ 0 * win0_2.size 0 ≤ (i 0 : Nat) ∧ (i 0 : Nat) < win0_2.index ⟨3198 + 1, last_lt0⟩ 0 * win0_2.size 0 + win0_2.xsize (grid0.coords ⟨3198 + 1, last_lt0⟩) 0
    rw [idx0_2 ⟨3198 + 1, last_lt0⟩ 0, show win0_2.xsize (grid0.coords ⟨3198 + 1, last_lt0⟩) 0 = 16384 from rfl]; omega
  · show win0_2.index ⟨3198 + 1, last_lt0⟩ 1 * win0_2.size 1 ≤ (i 1 : Nat) ∧ (i 1 : Nat) < win0_2.index ⟨3198 + 1, last_lt0⟩ 1 * win0_2.size 1 + win0_2.xsize (grid0.coords ⟨3198 + 1, last_lt0⟩) 1
    rw [idx0_2 ⟨3198 + 1, last_lt0⟩ 1, show win0_2.xsize (grid0.coords ⟨3198 + 1, last_lt0⟩) 1 = 64 from rfl]; omega
theorem cover0_3 (i : S16384x1.Idx) : ∃ t : Fin cfg0.N, (cfg0.win 3).flush t = true ∧ i ∈ ((cfg0.win 3).blk t).view.set := by
  have h0 : (i 0 : Nat) < 16384 := (i 0).isLt
  have h1 : (i 1 : Nat) < 1 := (i 1).isLt
  refine ⟨⟨3198 + 1, last_lt0⟩, (flush0_3 _).mpr (by decide), ?_⟩
  show i ∈ ((View.whole main_v0_1).slice (win0_3.rect ⟨3198 + 1, last_lt0⟩)).set
  rw [View.set_slice_whole, Rect.mem_set_unit]
  intro a; fin_cases a
  · show win0_3.index ⟨3198 + 1, last_lt0⟩ 0 * win0_3.size 0 ≤ (i 0 : Nat) ∧ (i 0 : Nat) < win0_3.index ⟨3198 + 1, last_lt0⟩ 0 * win0_3.size 0 + win0_3.xsize (grid0.coords ⟨3198 + 1, last_lt0⟩) 0
    rw [idx0_3 ⟨3198 + 1, last_lt0⟩ 0, show win0_3.xsize (grid0.coords ⟨3198 + 1, last_lt0⟩) 0 = 16384 from rfl]; omega
  · show win0_3.index ⟨3198 + 1, last_lt0⟩ 1 * win0_3.size 1 ≤ (i 1 : Nat) ∧ (i 1 : Nat) < win0_3.index ⟨3198 + 1, last_lt0⟩ 1 * win0_3.size 1 + win0_3.xsize (grid0.coords ⟨3198 + 1, last_lt0⟩) 1
    rw [idx0_3 ⟨3198 + 1, last_lt0⟩ 1, show win0_3.xsize (grid0.coords ⟨3198 + 1, last_lt0⟩) 1 = 1 from rfl]; omega

-- So after the region the sum array holds the last point's first output, the count array its second.
theorem arrAt0_2 (c : Dev nD) : (dat0 V hr1 hr2 c).arrAt 2 cfg0.N = (outAt0 V hr1 hr2 c).1 :=
  (dat0 V hr1 hr2 c).arrAt_eq_of_cover 2 (outAt0 V hr1 hr2 c).1 (fun t hf => flushed0_2 V hr1 hr2 c t hf) cover0_2

theorem arrAt0_3 (c : Dev nD) : (dat0 V hr1 hr2 c).arrAt 3 cfg0.N = (outAt0 V hr1 hr2 c).2 :=
  (dat0 V hr1 hr2 c).arrAt_eq_of_cover 3 (outAt0 V hr1 hr2 c).2 (fun t hf => flushed0_3 V hr1 hr2 c t hf) cover0_3

end Cert.KernelIdeal.Hand

end
-- ==== Proof.KI.PoolPieces.lean ====
import Idealize.ShloMosaic.Lib.WritesUnit
import Idealize.ShloMosaic.Lib.ValueIdx

noncomputable section

namespace Cert.KernelIdeal.Hand

open Idealize.ShloMosaic Idealize.ShloMosaic.ValueIdx
open Finset

variable {sig : RefSig} {κ : Kind} {sp : Space} {R K : ℕ} {e : EltTy} {Val : EltTy → Type} [AddCommMonoid (Val e)]

/-- Row stores over L₀, latest first: store n writes row r n as what the row held under the earlier stores plus a n. -/
inductive RowAcc (v : View sig κ sp ⟨2, ![R, K]⟩ e) (f : v.ty.Contents Val) (L₀ : List (View.Piece Val ⟨2, ![R, K]⟩ e))
    (r : ℕ → ℕ) (a : ℕ → Fin K → Val e) : ℕ → List (View.Piece Val ⟨2, ![R, K]⟩ e) → Prop
  | base : RowAcc v f L₀ r a 0 L₀
  | step {n : ℕ} {L : List (View.Piece Val ⟨2, ![R, K]⟩ e)} {off : Fin 2 → ℕ}
      {inb : ∀ a, off a + (![1, K] : Fin 2 → ℕ) a ≤ (⟨2, ![R, K]⟩ : Shape).size a}
      {w : (Rect.unit (s := ⟨2, ![R, K]⟩) off ![1, K] inb).shape.Idx → Val e} (hr : r n < R) :
      RowAcc v f L₀ r a n L → off = ![r n, 0] →
      (∀ k : Fin K, w (ix2 (0 : Fin 1) k) = v.read Val (v.writes Val f L) (ix2 (⟨r n, hr⟩ : Fin R) k) + a n k) →
      RowAcc v f L₀ r a (n + 1) (⟨Rect.unit off ![1, K] inb, w⟩ :: L)

/-- Addition commutes: an entry ends at what it held under L₀ plus the addends of the stores to its row. -/
theorem RowAcc.read {v : View sig κ sp ⟨2, ![R, K]⟩ e} {f : v.ty.Contents Val} {L₀ : List (View.Piece Val ⟨2, ![R, K]⟩ e)}
    {r : ℕ → ℕ} {a : ℕ → Fin K → Val e} {n : ℕ} {L : List (View.Piece Val ⟨2, ![R, K]⟩ e)}
    (h : RowAcc v f L₀ r a n L) (q : Fin R) (k : Fin K) :
    v.read Val (v.writes Val f L) (ix2 q k)
      = v.read Val (v.writes Val f L₀) (ix2 q k) + ∑ j ∈ (range n).filter (fun j => r j = q.val), a j k := by
  induction h with
  | base => rw [range_zero, filter_empty, sum_empty, add_zero]
  | @step n L off inb w hr _ hoff hw ih =>
    rw [range_add_one, filter_insert]
    by_cases hq : r n = q.val
    · obtain rfl : q = ⟨r n, hr⟩ := Fin.ext hq.symm
      rw [if_pos rfl, sum_insert fun hm => lt_irrefl n (mem_range.mp (mem_filter.mp hm).1),
        View.read_writes_cons_rows_of_mem v f inb w L _ (ix2 0 k) hoff rfl rfl, hw k, ih, add_assoc, add_comm (a n k)]
    · rw [if_neg hq, View.read_writes_cons_rows_of_not_mem v f inb w L _ hoff rfl (Nat.lt_or_gt_of_ne hq).symm, ih]

section Tiles
variable {M : Type*} [AddCommMonoid M] {T : ℕ} (p : Fin T → Prop) [DecidablePred p] (f : Fin T → M)

/-- The filtered sum's entries below m, the summand zero where the predicate fails or past the array. -/
def part (m : ℕ) : M := ∑ e ∈ range m, if h : e < T then (if p ⟨e, h⟩ then f ⟨e, h⟩ else 0) else 0

theorem part_all : part p f T = ∑ e ∈ univ.filter p, f e := by
  rw [sum_filter, sum_fin_eq_sum_range]
  rfl

/-- The entries below B·(n+1) are those below B·n and tile n, whose predicate and summand are the array's at B·n + j. -/
theorem part_tile {B : ℕ} (n : ℕ) (hT : B * n + B ≤ T) (r : Fin B → Prop) [DecidablePred r] (g : Fin B → M)
    (hr : ∀ j : Fin B, r j ↔ p ⟨B * n + j.val, by omega⟩) (hg : ∀ j : Fin B, g j = f ⟨B * n + j.val, by omega⟩) :
    part p f (B * (n + 1)) = part p f (B * n) + ∑ j ∈ univ.filter r, g j := by
  unfold part
  rw [Nat.mul_succ, sum_range_add, sum_filter, sum_fin_eq_sum_range]
  refine congrArg _ (sum_congr rfl fun j hj => ?_)
  have hj := mem_range.mp hj
  rw [dif_pos hj, dif_pos (by omega : B * n + j < T), hg]
  exact if_congr (hr ⟨j, hj⟩).symm rfl rfl

end Tiles

end Cert.KernelIdeal.Hand

end
-- ==== Proof.KI.PoolSteps.lean ====
import proofs.«414466_j73993696576172_1_alg».proof.Proof.Gen.KernelIdeal.Skeleton
import proofs.«414466_j73993696576172_1_alg».proof.Proof.KI.PoolPieces
import proofs.«414466_j73993696576172_1_alg».proof.Proof.Spec
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx
open Finset

def tileSum (T : Vec Ideal S50000x64 .f32) (x1 x2 : Vec Ideal S256 .i32) (q : Fin 16384) (k : Fin 64) : EReal :=
  ∑ j ∈ univ.filter (fun j : Fin 256 => BitVec.toNat (x2 (ix1 j)) = q.val), T (ix2 ⟨min (BitVec.toNat (x1 (ix1 j))) 49999, Nat.lt_succ_of_le (Nat.min_le_right _ _)⟩ k)
def tileCnt (x2 : Vec Ideal S256 .i32) (q : Fin 16384) : EReal :=
  ∑ _j ∈ univ.filter (fun j : Fin 256 => BitVec.toNat (x2 (ix1 j)) = q.val), Ideal.ofBits .f32 0x3F800000#32

def segRow (x2 : Vec Ideal S256 .i32) (j : ℕ) : ℕ := if h : j < 256 then BitVec.toNat (x2 (ix1 ⟨j, h⟩)) else 0

def tabRow (T : Vec Ideal S50000x64 .f32) (x1 : Vec Ideal S256 .i32) (j : ℕ) (k : Fin 64) : EReal :=
  if h : j < 256 then T (ix2 ⟨min (BitVec.toNat (x1 (ix1 ⟨j, h⟩))) 49999, Nat.lt_succ_of_le (Nat.min_le_right _ _)⟩ k) else 0

def oneRow (_ : ℕ) (_ : Fin 1) : EReal := Ideal.ofBits .f32 0x3F800000#32

theorem segRow_lt (x2 : Vec Ideal S256 .i32) (hx2 : ∀ y, BitVec.toNat (x2 y) < 16384) (j : ℕ) : segRow x2 j < 16384 := by
  unfold segRow
  split
  · exact hx2 _
  · omega

/-- A one-cell rectangle at cell j lies in the block; it holds a cell. -/
abbrev Inb (j : ℕ) : Prop := ∀ a, (![j] : Fin 1 → ℕ) a + S1.size a ≤ S256.size a
abbrev Pos {j : ℕ} (inb : Inb j) : Prop := 0 < (Rect.unit (s := S256) ![j] S1.size inb).toLoadRect.shape.numel

theorem lt_of_inb {j : ℕ} (inb : Inb j) : j < 256 := by
  have h : j + 1 ≤ 256 := inb 0
  omega

/-- The row number a one-cell load reads off a block held whole at x. -/
abbrev wordAt {sp : Space} (M : Memref sig .tc sp S256 .i32) (h : M.IsWhole) (x : Vec Ideal S256 .i32) (j : ℕ) (inb : Inb j)
    (hp : Pos inb) : ℕ :=
  (Scalar.indexCast (View.readAt (Elt Ideal) M.view (Rect.unit (s := S256) ![j] S1.size inb).toLoadRect (h.unread x)
    (Shape.Idx.first hp))).toNat

theorem word_eq {sp : Space} (M : Memref sig .tc sp S256 .i32) (h : M.IsWhole) (x : Vec Ideal S256 .i32) (j : ℕ) (inb : Inb j) (hp : Pos inb) :
    View.readAt (Elt Ideal) M.view (Rect.unit (s := S256) ![j] S1.size inb).toLoadRect (h.unread x) (Shape.Idx.first hp)
      = x (ix1 ⟨j, lt_of_inb inb⟩) := by
  rw [View.readAt_apply, Memref.IsWhole.read_unread]
  refine congrArg x (funext fun a => Fin.ext ?_)
  match a with
  | ⟨0, _⟩ => show j + 1 * 0 = j; omega

theorem segOff_eq {sp : Space} (M2 : Memref sig .tc sp S256 .i32) (h2 : M2.IsWhole) (x2 : Vec Ideal S256 .i32) (j : ℕ) (inb : Inb j)
    (hp : Pos inb) : (![wordAt M2 h2 x2 j inb hp, 0] : Fin 2 → ℕ) = ![segRow x2 j, 0] := by
  unfold wordAt segRow
  rw [word_eq M2 h2 x2 j inb hp, dif_pos (lt_of_inb inb)]
  rfl

theorem rowLoad_eq {sp : Space} {R K : ℕ} {e : EltTy} (v : View sig .tc sp ⟨2, ![R, K]⟩ e) (g : v.ty.Contents (Elt Ideal))
    (r : ℕ) (hr : r < R) (off : Fin 2 → ℕ) (hoff : off = ![r, 0])
    (inb : ∀ a, off a + (![1, K] : Fin 2 → ℕ) a ≤ (⟨2, ![R, K]⟩ : Shape).size a) (k : Fin K) :
    View.readAt (Elt Ideal) v (Rect.unit (s := ⟨2, ![R, K]⟩) off ![1, K] inb).toLoadRect g (ix2 (0 : Fin 1) k)
      = v.read (Elt Ideal) g (ix2 (⟨r, hr⟩ : Fin R) k) := by
  subst hoff
  rw [View.readAt_apply]
  refine congrArg (v.read (Elt Ideal) g) (funext fun a => Fin.ext ?_)
  match a with
  | ⟨0, _⟩ => show r + 1 * 0 = r; omega
  | ⟨1, _⟩ => show 0 + 1 * k.val = k.val; omega

theorem wholeLoad_eq {sp : Space} {R K : ℕ} {e : EltTy} (v : View sig .tc sp ⟨2, ![R, K]⟩ e) (g : v.ty.Contents (Elt Ideal))
    (inb : ∀ a, (![0, 0] : Fin 2 → ℕ) a + (![R, K] : Fin 2 → ℕ) a ≤ (⟨2, ![R, K]⟩ : Shape).size a) :
    View.readAt (Elt Ideal) v (Rect.unit (s := ⟨2, ![R, K]⟩) ![0, 0] ![R, K] inb).toLoadRect g = v.read (Elt Ideal) g := by
  funext y
  rw [View.readAt_apply]
  refine congrArg (v.read (Elt Ideal) g) (funext fun a => Fin.ext ?_)
  match a with
  | ⟨0, _⟩ => show 0 + 1 * (y 0).val = (y 0).val; omega
  | ⟨1, _⟩ => show 0 + 1 * (y 1).val = (y 1).val; omega

theorem wholeStore_eq {sp : Space} {R K : ℕ} {e : EltTy} (v : View sig .tc sp ⟨2, ![R, K]⟩ e) (f : v.ty.Contents (Elt Ideal))
    (inb : ∀ a, (![0, 0] : Fin 2 → ℕ) a + (![R, K] : Fin 2 → ℕ) a ≤ (⟨2, ![R, K]⟩ : Shape).size a)
    (w : (Rect.unit (s := ⟨2, ![R, K]⟩) ![0, 0] ![R, K] inb).shape.Idx → Elt Ideal e) (L : List (View.Piece (Elt Ideal) ⟨2, ![R, K]⟩ e)) :
    v.read (Elt Ideal) (v.writes (Elt Ideal) f (⟨Rect.unit ![0, 0] ![R, K] inb, w⟩ :: L)) = w :=
  funext fun y => View.read_writes_cons_unit_of_mem v f inb w L y y rfl
    (Fin.forall_fin_two.mpr ⟨(Nat.zero_add _).symm, (Nat.zero_add _).symm⟩)

/-- One more row store of a table row, its payload as the body computes it. -/
theorem RowAcc.row {sp7 : Space} {v7 : View sig .tc sp7 S16384x64 .f32} {f7 g7 : v7.ty.Contents (Elt Ideal)}
    {L₀ L : List (View.Piece (Elt Ideal) ⟨2, ![16384, 64]⟩ .f32)}
    {M6 : Memref sig .tc .vmem S50000x64 .f32} {g6 : M6.view.ty.Contents (Elt Ideal)} {T : Vec Ideal S50000x64 .f32}
    (hg6 : M6.view.read (Elt Ideal) g6 = T)
    {sp1 sp2 : Space} {M1 : Memref sig .tc sp1 S256 .i32} {h1 : M1.IsWhole} {x1 : Vec Ideal S256 .i32} (hx1 : ∀ y, BitVec.toNat (x1 y) < 50000)
    {M2 : Memref sig .tc sp2 S256 .i32} {h2 : M2.IsWhole} {x2 : Vec Ideal S256 .i32} (hx2 : ∀ y, BitVec.toNat (x2 y) < 16384)
    {j : ℕ} {inb1 : Inb j} {hp1 : Pos inb1} {inb2 : Inb j} {hp2 : Pos inb2} {off7 off6 : Fin 2 → ℕ}
    (hoff7 : off7 = ![wordAt M2 h2 x2 j inb2 hp2, 0]) (hoff6 : off6 = ![wordAt M1 h1 x1 j inb1 hp1, 0])
    {inb7 : ∀ a, off7 a + (![1, 64] : Fin 2 → ℕ) a ≤ S16384x64.size a} {inb6 : ∀ a, off6 a + (![1, 64] : Fin 2 → ℕ) a ≤ S50000x64.size a}
    (h : RowAcc (R := 16384) (K := 64) v7 f7 L₀ (segRow x2) (tabRow T x1) j L) (hg7 : g7 = v7.writes (Elt Ideal) f7 L := by rfl) :
    RowAcc (R := 16384) (K := 64) v7 f7 L₀ (segRow x2) (tabRow T x1) (j + 1) (⟨Rect.unit off7 ![1, 64] inb7, (shapeCast S1x64 (addf
        (shapeCast S64 (View.readAt (Elt Ideal) v7 (Rect.unit (s := S16384x64) off7 ![1, 64] inb7).toLoadRect g7) shapeCasts_S1x64_S64)
        (shapeCast S64 (View.readAt (Elt Ideal) M6.view (Rect.unit (s := S50000x64) off6 ![1, 64] inb6).toLoadRect g6) shapeCasts_S1x64_S64))
    shapeCasts_S64_S1x64 : FVec Ideal S1x64 .f32)⟩ :: L) := by
  subst hg7
  refine RowAcc.step (segRow_lt x2 hx2 j) h (hoff7.trans (segOff_eq M2 h2 x2 j inb2 hp2)) fun k => ?_
  have hj : j < 256 := lt_of_inb inb1
  have hk : (S64.rowMajor (ix1 k)).val = (S1x64.rowMajor (ix2 (0 : Fin 1) k)).val := by
    rw [Shape.rowMajor_val_one, Shape.rowMajor_val_two]
    show k.val = 0 * 64 + k.val
    omega
  unfold wordAt at hoff6
  rw [word_eq M1 h1 x1 j inb1 hp1] at hoff6
  rw [shapeCast_apply _ _ (ix2 (0 : Fin 1) k) (ix1 k) hk, addf_apply, shapeCast_apply _ _ (ix1 k) (ix2 (0 : Fin 1) k) hk.symm,
    shapeCast_apply _ _ (ix1 k) (ix2 (0 : Fin 1) k) hk.symm, rowLoad_eq v7 (v7.writes (Elt Ideal) f7 L) (segRow x2 j) (segRow_lt x2 hx2 j) off7 (hoff7.trans (segOff_eq M2 h2 x2 j inb2 hp2)) inb7 k,
    rowLoad_eq M6.view g6 _ (hx1 (ix1 ⟨j, hj⟩)) off6 hoff6 inb6 k, hg6]
  unfold tabRow
  rw [dif_pos hj]
  refine congrArg _ (congrArg T (funext fun a => Fin.ext ?_))
  match a with
  | ⟨0, _⟩ =>
    have := hx1 (ix1 ⟨j, hj⟩)
    show BitVec.toNat (x1 (ix1 ⟨j, hj⟩)) = min (BitVec.toNat (x1 (ix1 ⟨j, hj⟩))) 49999
    omega
  | ⟨1, _⟩ => rfl

/-- One more row store of a count plus one. -/
theorem RowAcc.one {sp8 : Space} {v8 : View sig .tc sp8 S16384x1 .f32} {f8 g8 : v8.ty.Contents (Elt Ideal)}
    {L₀ L : List (View.Piece (Elt Ideal) ⟨2, ![16384, 1]⟩ .f32)}
    {sp2 : Space} {M2 : Memref sig .tc sp2 S256 .i32} {h2 : M2.IsWhole} {x2 : Vec Ideal S256 .i32} (hx2 : ∀ y, BitVec.toNat (x2 y) < 16384)
    {j : ℕ} {inb2 : Inb j} {hp2 : Pos inb2} {off8 : Fin 2 → ℕ} (hoff8 : off8 = ![wordAt M2 h2 x2 j inb2 hp2, 0])
    {inb8 : ∀ a, off8 a + (![1, 1] : Fin 2 → ℕ) a ≤ S16384x1.size a}
    (h : RowAcc (R := 16384) (K := 1) v8 f8 L₀ (segRow x2) oneRow j L) (hg8 : g8 = v8.writes (Elt Ideal) f8 L := by rfl) :
    RowAcc (R := 16384) (K := 1) v8 f8 L₀ (segRow x2) oneRow (j + 1) (⟨Rect.unit off8 ![1, 1] inb8, (shapeCast S1x1 (addf
        (shapeCast S1 (View.readAt (Elt Ideal) v8 (Rect.unit (s := S16384x1) off8 ![1, 1] inb8).toLoadRect g8) shapeCasts_S1x1_S1)
      (broadcast S1 (Scalar.ofBits (F := Ideal) .f32 0x3F800000#32)))
    shapeCasts_S1_S1x1 : FVec Ideal S1x1 .f32)⟩ :: L) := by
  subst hg8
  refine RowAcc.step (segRow_lt x2 hx2 j) h (hoff8.trans (segOff_eq M2 h2 x2 j inb2 hp2)) fun k => ?_
  have hk : (S1.rowMajor (ix1 k)).val = (S1x1.rowMajor (ix2 (0 : Fin 1) k)).val := by
    rw [Shape.rowMajor_val_one, Shape.rowMajor_val_two]
    show k.val = 0 * 1 + k.val
    omega
  rw [shapeCast_apply _ _ (ix2 (0 : Fin 1) k) (ix1 k) hk, addf_apply, shapeCast_apply _ _ (ix1 k) (ix2 (0 : Fin 1) k) hk.symm,
    rowLoad_eq v8 (v8.writes (Elt Ideal) f8 L) (segRow x2 j) (segRow_lt x2 hx2 j) off8 (hoff8.trans (segOff_eq M2 h2 x2 j inb2 hp2)) inb8 k]
  rfl

/-- A stored zero reads zero at every entry. -/
theorem zeroPay {s : Shape} (hc : s.ShapeCasts s) (y : s.Idx) :
    (shapeCast s (broadcast s (Scalar.ofBits (F := Ideal) .f32 0x00000000#32)) hc : FVec Ideal s .f32) y = 0 := by
  rw [shapeCast_apply _ _ y y rfl, broadcast_apply]
  exact Ideal.ofBits_zero_f32

/-- 256 row stores of table rows leave each entry at what it held plus its tile sum. -/
theorem RowAcc.sum {sp : Space} {v : View sig .tc sp ⟨2, ![16384, 64]⟩ .f32} {f : v.ty.Contents (Elt Ideal)}
    {L₀ L : List (View.Piece (Elt Ideal) ⟨2, ![16384, 64]⟩ .f32)} {T : Vec Ideal S50000x64 .f32} {x1 x2 : Vec Ideal S256 .i32}
    (h : RowAcc v f L₀ (segRow x2) (tabRow T x1) 256 L) (q : Fin 16384) (k : Fin 64) {z : EReal}
    (hz : v.read (Elt Ideal) (v.writes (Elt Ideal) f L₀) (ix2 q k) = z) :
    v.read (Elt Ideal) (v.writes (Elt Ideal) f L) (ix2 q k) = z + tileSum T x1 x2 q k := by
  rw [h.read q k, hz]
  unfold tileSum
  rw [sum_filter, sum_filter, sum_range]
  refine congrArg _ (sum_congr rfl fun j _ => ?_)
  simp only [segRow, tabRow, dif_pos j.isLt]

theorem RowAcc.cnt {sp : Space} {v : View sig .tc sp ⟨2, ![16384, 1]⟩ .f32} {f : v.ty.Contents (Elt Ideal)}
    {L₀ L : List (View.Piece (Elt Ideal) ⟨2, ![16384, 1]⟩ .f32)} {x2 : Vec Ideal S256 .i32}
    (h : RowAcc v f L₀ (segRow x2) oneRow 256 L) (q : Fin 16384) {z : EReal}
    (hz : v.read (Elt Ideal) (v.writes (Elt Ideal) f L₀) (ix2 q 0) = z) :
    v.read (Elt Ideal) (v.writes (Elt Ideal) f L) (ix2 q 0) = z + tileCnt x2 q := by
  rw [h.read q 0, hz]
  unfold tileCnt
  rw [sum_filter, sum_filter, sum_range]
  refine congrArg _ (sum_congr rfl fun j _ => ?_)
  simp only [segRow, oneRow, dif_pos j.isLt]

/-- The state (table, sums, counts) holds the table and the pooled sums and counts of the entries below m. -/
def Pooled {T : ℕ} (Tab : Vec Ideal S50000x64 .f32) (X1 X2 : Fin T → BitVec 32) (m : ℕ)
    (s : Vec Ideal S50000x64 .f32 × Vec Ideal S16384x64 .f32 × Vec Ideal S16384x1 .f32) : Prop :=
  s.1 = Tab
    ∧ (∀ (q : Fin 16384) (k : Fin 64), s.2.1 (ix2 q k) = part (fun e => (X2 e).toNat = q.val)
        (fun e => Tab (ix2 ⟨min (X1 e).toNat 49999, Nat.lt_succ_of_le (Nat.min_le_right _ _)⟩ k)) m)
    ∧ ∀ q : Fin 16384, s.2.2 (ix2 q 0) = part (fun e => (X2 e).toNat = q.val) (fun _ => Ideal.ofBits .f32 0x3F800000#32) m

section Pooled
variable {T : ℕ} {Tab : Vec Ideal S50000x64 .f32} {X1 X2 : Fin T → BitVec 32}
  {s s' : Vec Ideal S50000x64 .f32 × Vec Ideal S16384x64 .f32 × Vec Ideal S16384x1 .f32}

theorem Pooled.zero (hT : s.1 = Tab) (hS : ∀ q k, s.2.1 (ix2 q k) = 0) (hC : ∀ q, s.2.2 (ix2 q 0) = 0) :
    Pooled Tab X1 X2 (256 * 0) s :=
  ⟨hT, fun q k => (hS q k).trans (sum_range_zero _).symm, fun q => (hC q).trans (sum_range_zero _).symm⟩

/-- One more point: the table kept, the point's tile added to the sums and the counts. -/
theorem Pooled.next {n : ℕ} (h : Pooled Tab X1 X2 (256 * n) s) (hn : 256 * n + 256 ≤ T) {x1 x2 : Vec Ideal S256 .i32}
    (hx1 : ∀ j : Fin 256, x1 (ix1 j) = X1 ⟨256 * n + j.val, by omega⟩)
    (hx2 : ∀ j : Fin 256, x2 (ix1 j) = X2 ⟨256 * n + j.val, by omega⟩) (hT : s'.1 = s.1)
    (hS : ∀ q k, s'.2.1 (ix2 q k) = s.2.1 (ix2 q k) + tileSum s.1 x1 x2 q k)
    (hC : ∀ q, s'.2.2 (ix2 q 0) = s.2.2 (ix2 q 0) + tileCnt x2 q) : Pooled Tab X1 X2 (256 * (n + 1)) s' := by
  obtain ⟨hT0, hS0, hC0⟩ := h
  refine ⟨hT.trans hT0, fun q k => ?_, fun q => ?_⟩
  · rw [hS, hS0, hT0]
    exact (part_tile _ _ n hn _ _ (fun j => by rw [hx2 j]) fun j => by simp only [hx1 j]).symm
  · rw [hC, hC0]
    exact (part_tile _ _ n hn _ _ (fun j => by rw [hx2 j]) fun _ => rfl).symm

theorem Pooled.sum {m : ℕ} (h : Pooled Tab X1 X2 m s) (hm : m = T) (q : Fin 16384) (k : Fin 64) :
    s.2.1 (ix2 q k) = Cert.Spec.poolSum (fun r k => Tab (ix2 r k)) X1 X2 q k := by
  subst hm
  exact (h.2.1 q k).trans (part_all _ _)

theorem Pooled.cnt {m : ℕ} (h : Pooled Tab X1 X2 m s) (hm : m = T) (q : Fin 16384) :
    s.2.2 (ix2 q 0) = Cert.Spec.poolCnt X2 q := by
  subst hm
  exact (h.2.2 q).trans (part_all _ _)

end Pooled

end Cert.KernelIdeal.Hand

end
-- ==== Proof.KI.PoolRunValue.lean ====
import proofs.«414466_j73993696576172_1_alg».proof.Proof.KI.PoolRun
import proofs.«414466_j73993696576172_1_alg».proof.Proof.KI.PoolSteps

set_option maxRecDepth 65536
set_option maxHeartbeats 4000000

noncomputable section

namespace Cert.KernelIdeal.Hand

open Cert.KernelIdeal Cert.KernelIdeal.Gen
open Idealize.ShloMosaic Idealize.ShloMosaic.ValueIdx
open Finset

variable (c : Dev nD) (i : grid0.Coords)
    (M1 : Memref sig .tc .smem S256 .i32) (h1 : M1.IsWhole) (M2 : Memref sig .tc .smem S256 .i32) (h2 : M2.IsWhole)
    (M3 : Memref sig .tc .hbm S50000x64 .f32) (h3 : M3.IsWhole)
    (M4 : Memref sig .tc .vmem S16384x64 .f32) (h4 : M4.IsWhole) (M5 : Memref sig .tc .vmem S16384x1 .f32) (h5 : M5.IsWhole)
    (M6 : Memref sig .tc .vmem S50000x64 .f32) (h6 : M6.IsWhole) (M7 : Memref sig .tc .vmem S16384x64 .f32) (h7 : M7.IsWhole)
    (M8 : Memref sig .tc .vmem S16384x1 .f32) (h8 : M8.IsWhole) (M9 : DmaSems sig S_)
    (hA : isFirst0 i = 1#1) (hnA : ¬ (isFirst0 i = 1#1)) (hC : k0_cond2 i = 1#1) (hnC : ¬ (k0_cond2 i = 1#1))
    (x1 x2 : Vec Ideal S256 .i32) (hx1 : ∀ y, BitVec.toNat (x1 y) < 50000) (hx2 : ∀ y, BitVec.toNat (x2 y) < 16384)
    (fh : Bf (F := Ideal) c hbT0) (T : Vec Ideal S50000x64 .f32) (S : Vec Ideal S16384x64 .f32) (C : Vec Ideal S16384x1 .f32)

theorem poolRunA_tab : (poolRunA (F := Ideal) c i M1 h1 M2 h2 M4 h4 M5 h5 M6 h6 M7 h7 M8 h8 hA hnC x1 x2 hx1 hx2 fh).1.1 = hbT0.view.read (Elt Ideal) fh :=
  View.read_writes_whole M6.view M6.view.junk _

theorem poolRunA_sum (q : Fin 16384) (k : Fin 64) :
    (poolRunA (F := Ideal) c i M1 h1 M2 h2 M4 h4 M5 h5 M6 h6 M7 h7 M8 h8 hA hnC x1 x2 hx1 hx2 fh).1.2.1 (ix2 q k) = 0 + tileSum (hbT0.view.read (Elt Ideal) fh) x1 x2 q k := by
  refine RowAcc.sum (v := M7.view) (f := M7.view.junk) (L₀ := poolRunA.sl.H7_1 (F := Ideal)) ?_ q k
    ((congrFun (wholeStore_eq M7.view M7.view.junk _ (k0_pay2 (F := Ideal)) []) _).trans (zeroPay _ _))
  iterate 256 refine RowAcc.row (View.read_writes_whole M6.view M6.view.junk _) hx1 hx2 rfl rfl ?_
  exact RowAcc.base

theorem poolRunA_cnt (q : Fin 16384) : (poolRunA (F := Ideal) c i M1 h1 M2 h2 M4 h4 M5 h5 M6 h6 M7 h7 M8 h8 hA hnC x1 x2 hx1 hx2 fh).1.2.2 (ix2 q 0) = 0 + tileCnt x2 q := by
  refine RowAcc.cnt (v := M8.view) (f := M8.view.junk) (L₀ := poolRunA.sl.H8_1 (F := Ideal)) ?_ q
    ((congrFun (wholeStore_eq M8.view M8.view.junk _ (k0_pay3 (F := Ideal)) []) _).trans (zeroPay _ _))
  iterate 256 refine RowAcc.one hx2 rfl ?_
  exact RowAcc.base

theorem poolRunB_sum (q : Fin 16384) (k : Fin 64) :
    (poolRunB (F := Ideal) c i M1 h1 M2 h2 M3 h3 M4 h4 M5 h5 M6 h6 M7 h7 M8 h8 M9 hnA hnC x1 x2 hx1 hx2 T S C).1.1 (ix2 q k) = S (ix2 q k) + tileSum T x1 x2 q k := by
  refine RowAcc.sum (v := M7.view) (f := h7.unread S) (L₀ := []) ?_ q k (congrFun (h7.read_unread S) _)
  iterate 256 refine RowAcc.row (h6.read_unread T) hx1 hx2 rfl rfl ?_
  exact RowAcc.base

theorem poolRunB_cnt (q : Fin 16384) : (poolRunB (F := Ideal) c i M1 h1 M2 h2 M3 h3 M4 h4 M5 h5 M6 h6 M7 h7 M8 h8 M9 hnA hnC x1 x2 hx1 hx2 T S C).1.2 (ix2 q 0) = C (ix2 q 0) + tileCnt x2 q := by
  refine RowAcc.cnt (v := M8.view) (f := h8.unread C) (L₀ := []) ?_ q (congrFun (h8.read_unread C) _)
  iterate 256 refine RowAcc.one hx2 rfl ?_
  exact RowAcc.base

theorem poolRunC_sum (q : Fin 16384) (k : Fin 64) :
    (poolRunC (F := Ideal) c i M1 h1 M2 h2 M3 h3 M4 h4 M5 h5 M6 h6 M7 h7 M8 h8 M9 hnA hC x1 x2 hx1 hx2 T S C).1.1.1 (ix2 q k) = S (ix2 q k) + tileSum T x1 x2 q k := by
  refine RowAcc.sum (v := M7.view) (f := h7.unread S) (L₀ := []) ?_ q k (congrFun (h7.read_unread S) _)
  iterate 256 refine RowAcc.row (h6.read_unread T) hx1 hx2 rfl rfl ?_
  exact RowAcc.base

theorem poolRunC_cnt (q : Fin 16384) : (poolRunC (F := Ideal) c i M1 h1 M2 h2 M3 h3 M4 h4 M5 h5 M6 h6 M7 h7 M8 h8 M9 hnA hC x1 x2 hx1 hx2 T S C).1.1.2 (ix2 q 0) = C (ix2 q 0) + tileCnt x2 q := by
  refine RowAcc.cnt (v := M8.view) (f := h8.unread C) (L₀ := []) ?_ q (congrFun (h8.read_unread C) _)
  iterate 256 refine RowAcc.one hx2 rfl ?_
  exact RowAcc.base

/-- The two output blocks are the accumulators copied whole. -/
theorem poolRunC_out : (poolRunC (F := Ideal) c i M1 h1 M2 h2 M3 h3 M4 h4 M5 h5 M6 h6 M7 h7 M8 h8 M9 hnA hC x1 x2 hx1 hx2 T S C).1.2 = (poolRunC (F := Ideal) c i M1 h1 M2 h2 M3 h3 M4 h4 M5 h5 M6 h6 M7 h7 M8 h8 M9 hnA hC x1 x2 hx1 hx2 T S C).1.1 :=
  Prod.ext ((wholeStore_eq M4.view _ _ _ _).trans (wholeLoad_eq M7.view _ _)) ((wholeStore_eq M5.view _ _ _ _).trans (wholeLoad_eq M8.view _ _))

end Cert.KernelIdeal.Hand

end
-- ==== Proof.KI.Pool0Value.lean ====
import proofs.«414466_j73993696576172_1_alg».proof.Proof.KI.Pool0Out
import proofs.«414466_j73993696576172_1_alg».proof.Proof.KI.PoolRunValue

noncomputable section

namespace Cert.KernelIdeal.Hand

open Cert.KernelIdeal Cert.KernelIdeal.Gen
open Idealize.ShloMosaic Idealize.ShloMosaic.TcCoe
open Finset Idealize.ShloMosaic.ValueIdx

attribute [local irreducible] poolRunA poolRunB poolRunC

section Blocks
variable {F : FTy → Type} [FloatOps F]
variable (V : (c : Dev nD) → (b : Ref sig .tc) → Buf (Elt F) ((c : Thread nD τ).loc b))

theorem index0_0 : ∀ t : Fin grid0.N, win0_0.index t 0 = t.val := by decide +kernel
theorem index0_1 : ∀ t : Fin grid0.N, win0_1.index t 0 = t.val := by decide +kernel

theorem point_lt (t : Fin cfg0.N) : t.val < 3200 := lt_of_lt_of_eq t.isLt N_0

theorem iblk0_0_apply (c : Dev nD) (t : Fin cfg0.N) (j : Fin 256) :
    (iblk0 V c 0 t : Vec F S256 .i32) (ix1 j)
      = (V c main_arg2 : S819200.Idx → BitVec 32) (ix1 ⟨256 * t.val + j.val, by have := point_lt t; omega⟩) :=
  congrArg (V c main_arg2 : S819200.Idx → BitVec 32) (funext fun a => Fin.ext (match a with
    | ⟨0, _⟩ => show win0_0.index t 0 * 256 + 1 * j.val = 256 * t.val + j.val by rw [index0_0 t]; omega))

theorem iblk0_1_apply (c : Dev nD) (t : Fin cfg0.N) (j : Fin 256) :
    (iblk0 V c 1 t : Vec F S256 .i32) (ix1 j)
      = (V c main_arg3 : S819200.Idx → BitVec 32) (ix1 ⟨256 * t.val + j.val, by have := point_lt t; omega⟩) :=
  congrArg (V c main_arg3 : S819200.Idx → BitVec 32) (funext fun a => Fin.ext (match a with
    | ⟨0, _⟩ => show win0_1.index t 0 * 256 + 1 * j.val = 256 * t.val + j.val by rw [index0_1 t]; omega))

end Blocks

section Value0
variable (V : (c : Dev nD) → (b : Ref sig .tc) → Buf (Elt Ideal) ((c : Thread nD τ).loc b))
variable (hr1 : ∀ (c : Dev nD) (j : S819200.Idx), BitVec.toNat ((V c main_arg2 : S819200.Idx → BitVec 32) j) < 50000)
variable (hr2 : ∀ (c : Dev nD) (j : S819200.Idx), BitVec.toNat ((V c main_arg3 : S819200.Idx → BitVec 32) j) < 16384)

/-- After point n the table is the table's array and the accumulators hold the entries below 256·(n+1). -/
theorem inv0 (c : Dev nD) : ∀ (n : ℕ) (h : n < cfg0.N),
    Pooled (V c main_arg10) (fun e => (V c main_arg2 : S819200.Idx → BitVec 32) (ix1 e))
      (fun e => (V c main_arg3 : S819200.Idx → BitVec 32) (ix1 e)) (256 * (n + 1)) (stAt0 V hr1 hr2 c n h)
  | 0, h => by
    rw [stAt0_zero V hr1 hr2 c h (first_of_zero _ rfl) (not_last_of _ (show (0 : ℕ) ≠ 3199 by decide))]
    exact (Pooled.zero (s := (hbT0.view.read (Elt Ideal) (V c main_arg10), fun _ => 0, fun _ => 0)) rfl (fun _ _ => rfl) fun _ => rfl).next (by decide)
      (iblk0_0_apply V c ⟨0, h⟩) (iblk0_1_apply V c ⟨0, h⟩) (poolRunA_tab ..)
      (fun q k => poolRunA_sum (q := q) (k := k) ..) fun q => poolRunA_cnt (q := q) ..
  | n + 1, h => by
    have hn : n + 1 < 3200 := point_lt ⟨n + 1, h⟩
    by_cases h' : n + 1 = 3199
    · rw [stAt0_last V hr1 hr2 c n h h' (not_first_of_pos _ n.succ_ne_zero) (last_of _ h')]
      exact (inv0 c n _).next (by omega) (iblk0_0_apply V c ⟨n + 1, h⟩) (iblk0_1_apply V c ⟨n + 1, h⟩) rfl
        (fun q k => poolRunC_sum (q := q) (k := k) ..) fun q => poolRunC_cnt (q := q) ..
    · rw [stAt0_mid V hr1 hr2 c n h h' (not_first_of_pos _ n.succ_ne_zero) (not_last_of _ h')]
      exact (inv0 c n _).next (by omega) (iblk0_0_apply V c ⟨n + 1, h⟩) (iblk0_1_apply V c ⟨n + 1, h⟩) rfl
        (fun q k => poolRunB_sum (q := q) (k := k) ..) fun q => poolRunB_cnt (q := q) ..

/-- The last point's output blocks are the accumulators it leaves, copied whole. -/
theorem outAt0_st (c : Dev nD) : outAt0 V hr1 hr2 c = (stAt0 V hr1 hr2 c (3198 + 1) last_lt0).2 := by
  have hA : ¬ (isFirst0 (grid0.coords ⟨3198 + 1, last_lt0⟩) = 1#1) := not_first_of_pos _ (Nat.succ_ne_zero 3198)
  have hC : k0_cond2 (grid0.coords ⟨3198 + 1, last_lt0⟩) = 1#1 := last_of _ rfl
  rw [outAt0_eq V hr1 hr2 c hA hC, stAt0_last V hr1 hr2 c 3198 last_lt0 rfl hA hC]
  exact poolRunC_out ..

theorem final0_sum (c : Dev nD) (q : Fin 16384) (k : Fin 64) :
    ((dat0 (F := Ideal) V hr1 hr2 c).arrAt 2 cfg0.N : S16384x64.Idx → EReal) (ix2 q k)
      = Cert.Spec.poolSum (fun r k => (V c main_arg10 : S50000x64.Idx → EReal) (ix2 r k))
          (fun e => (V c main_arg2 : S819200.Idx → BitVec 32) (ix1 e))
          (fun e => (V c main_arg3 : S819200.Idx → BitVec 32) (ix1 e)) q k := by
  rw [arrAt0_2, outAt0_st]
  exact (inv0 V hr1 hr2 c _ _).sum rfl q k

theorem final0_cnt (c : Dev nD) (q : Fin 16384) :
    ((dat0 (F := Ideal) V hr1 hr2 c).arrAt 3 cfg0.N : S16384x1.Idx → EReal) (ix2 q 0)
      = Cert.Spec.poolCnt (fun e => (V c main_arg3 : S819200.Idx → BitVec 32) (ix1 e)) q := by
  rw [arrAt0_3, outAt0_st]
  exact (inv0 V hr1 hr2 c _ _).cnt rfl q

end Value0

end Cert.KernelIdeal.Hand

end
-- ==== Proof.KI.Pool1Out.lean ====
import proofs.«414466_j73993696576172_1_alg».proof.Proof.KI.Pool1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (hr1 : ∀ (c : Dev nD) (j : S409600.Idx), BitVec.toNat ((V c main_arg4 : S409600.Idx → BitVec 32) j) < 50000)
variable (hr2 : ∀ (c : Dev nD) (j : S409600.Idx), BitVec.toNat ((V c main_arg5 : S409600.Idx → BitVec 32) j) < 16384)

theorem last_lt1 : 1598 + 1 < cfg1.N := lt_of_lt_of_eq (by decide : 1598 + 1 < 1600) (show cfg1.N = 1600 from N_1).symm

-- The two output blocks after the last point.
def outAt1 (c : Dev nD) : Vec F S16384x64 .f32 × Vec F S16384x1 .f32 := outsAt1 V hr1 hr2 c (1598 + 1) last_lt1

theorem outAt1_eq (c : Dev nD) (hnA : ¬ (isFirst1 (grid1.coords ⟨1598 + 1, last_lt1⟩) = 1#1)) (hC : k1_cond2 (grid1.coords ⟨1598 + 1, last_lt1⟩) = 1#1) :
    outAt1 V hr1 hr2 c = (wC1 V hr1 hr2 c ⟨1598 + 1, last_lt1⟩ hnA hC (stAt1 V hr1 hr2 c 1598 (Nat.lt_of_succ_lt last_lt1))).1.2 :=
  outsAt1_last V hr1 hr2 c 1598 last_lt1 rfl hnA hC

theorem outsAt1_of_last (c : Dev nD) (t : Fin cfg1.N) (ht : t.val = 1598 + 1) :
    outsAt1 V hr1 hr2 c t.val t.isLt = outAt1 V hr1 hr2 c := by
  obtain ⟨k, hk⟩ := t
  obtain rfl : k = 1598 + 1 := ht
  rfl

theorem idx1_2 : ∀ (t : Fin cfg1.N) (a : Fin win1_2.shape.rank), win1_2.index t a = 0 :=
  (by decide +kernel : ∀ (t : Fin grid1.N) (a : Fin win1_2.shape.rank), win1_2.index t a = 0)
theorem idx1_3 : ∀ (t : Fin cfg1.N) (a : Fin win1_3.shape.rank), win1_3.index t a = 0 :=
  (by decide +kernel : ∀ (t : Fin grid1.N) (a : Fin win1_3.shape.rank), win1_3.index t a = 0)

-- Only the last point writes back, and its block is the whole array.
theorem flushed1_2 (c : Dev nD) (t : Fin cfg1.N) (hf : (cfg1.win 2).flush t = true) :
    (dat1 V hr1 hr2 c).flushed 2 t = ((cfg1.win 2).blk t).view.read (Elt F) (outAt1 V hr1 hr2 c).1 := by
  show (cfg1.win 2).cut (grid1.coords t) ((dat1 V hr1 hr2 c).after 2 t) = _
  rw [after1_2]
  have h3 : t.val % 1600 = 1599 := (flush1_2 t).mp hf
  have hN : t.val < 1600 := lt_of_lt_of_eq t.isLt (show cfg1.N = 1600 from N_1)
  rw [outsAt1_of_last V hr1 hr2 c t (by omega)]
  funext y
  show (outAt1 V hr1 hr2 c).1 _ = (outAt1 V hr1 hr2 c).1 (((cfg1.win 2).blk t).view.emb y)
  refine congrArg _ (funext fun a => Fin.ext ?_)
  exact (Window.rect_emb_val_of_index_zero win1_2 t a (idx1_2 t a) y).symm
theorem flushed1_3 (c : Dev nD) (t : Fin cfg1.N) (hf : (cfg1.win 3).flush t = true) :
    (dat1 V hr1 hr2 c).flushed 3 t = ((cfg1.win 3).blk t).view.read (Elt F) (outAt1 V hr1 hr2 c).2 := by
  show (cfg1.win 3).cut (grid1.coords t) ((dat1 V hr1 hr2 c).after 3 t) = _
  rw [after1_3]
  have h3 : t.val % 1600 = 1599 := (flush1_3 t).mp hf
  have hN : t.val < 1600 := lt_of_lt_of_eq t.isLt (show cfg1.N = 1600 from N_1)
  rw [outsAt1_of_last V hr1 hr2 c t (by omega)]
  funext y
  show (outAt1 V hr1 hr2 c).2 _ = (outAt1 V hr1 hr2 c).2 (((cfg1.win 3).blk t).view.emb y)
  refine congrArg _ (funext fun a => Fin.ext ?_)
  exact (Window.rect_emb_val_of_index_zero win1_3 t a (idx1_3 t a) y).symm

theorem cover1_2 (i : S16384x64.Idx) : ∃ t : Fin cfg1.N, (cfg1.win 2).flush t = true ∧ i ∈ ((cfg1.win 2).blk t).view.set := by
  have h0 : (i 0 : Nat) < 16384 := (i 0).isLt
  have h1 : (i 1 : Nat) < 64 := (i 1).isLt
  refine ⟨⟨1598 + 1, last_lt1⟩, (flush1_2 _).mpr (by decide), ?_⟩
  show i ∈ ((View.whole main_v1_0).slice (win1_2.rect ⟨1598 + 1, last_lt1⟩)).set
  rw [View.set_slice_whole, Rect.mem_set_unit]
  intro a; fin_cases a
  · show win1_2.index ⟨1598 + 1, last_lt1⟩ 0 * win1_2.size 0 ≤ (i 0 : Nat) ∧ (i 0 : Nat) < win1_2.index ⟨1598 + 1, last_lt1⟩ 0 * win1_2.size 0 + win1_2.xsize (grid1.coords ⟨1598 + 1, last_lt1⟩) 0
    rw [idx1_2 ⟨1598 + 1, last_lt1⟩ 0, show win1_2.xsize (grid1.coords ⟨1598 + 1, last_lt1⟩) 0 = 16384 from rfl]; omega
  · show win1_2.index ⟨1598 + 1, last_lt1⟩ 1 * win1_2.size 1 ≤ (i 1 : Nat) ∧ (i 1 : Nat) < win1_2.index ⟨1598 + 1, last_lt1⟩ 1 * win1_2.size 1 + win1_2.xsize (grid1.coords ⟨1598 + 1, last_lt1⟩) 1
    rw [idx1_2 ⟨1598 + 1, last_lt1⟩ 1, show win1_2.xsize (grid1.coords ⟨1598 + 1, last_lt1⟩) 1 = 64 from rfl]; omega
theorem cover1_3 (i : S16384x1.Idx) : ∃ t : Fin cfg1.N, (cfg1.win 3).flush t = true ∧ i ∈ ((cfg1.win 3).blk t).view.set := by
  have h0 : (i 0 : Nat) < 16384 := (i 0).isLt
  have h1 : (i 1 : Nat) < 1 := (i 1).isLt
  refine ⟨⟨1598 + 1, last_lt1⟩, (flush1_3 _).mpr (by decide), ?_⟩
  show i ∈ ((View.whole main_v1_1).slice (win1_3.rect ⟨1598 + 1, last_lt1⟩)).set
  rw [View.set_slice_whole, Rect.mem_set_unit]
  intro a; fin_cases a
  · show win1_3.index ⟨1598 + 1, last_lt1⟩ 0 * win1_3.size 0 ≤ (i 0 : Nat) ∧ (i 0 : Nat) < win1_3.index ⟨1598 + 1, last_lt1⟩ 0 * win1_3.size 0 + win1_3.xsize (grid1.coords ⟨1598 + 1, last_lt1⟩) 0
    rw [idx1_3 ⟨1598 + 1, last_lt1⟩ 0, show win1_3.xsize (grid1.coords ⟨1598 + 1, last_lt1⟩) 0 = 16384 from rfl]; omega
  · show win1_3.index ⟨1598 + 1, last_lt1⟩ 1 * win1_3.size 1 ≤ (i 1 : Nat) ∧ (i 1 : Nat) < win1_3.index ⟨1598 + 1, last_lt1⟩ 1 * win1_3.size 1 + win1_3.xsize (grid1.coords ⟨1598 + 1, last_lt1⟩) 1
    rw [idx1_3 ⟨1598 + 1, last_lt1⟩ 1, show win1_3.xsize (grid1.coords ⟨1598 + 1, last_lt1⟩) 1 = 1 from rfl]; omega

-- So after the region the sum array holds the last point's first output, the count array its second.
theorem arrAt1_2 (c : Dev nD) : (dat1 V hr1 hr2 c).arrAt 2 cfg1.N = (outAt1 V hr1 hr2 c).1 :=
  (dat1 V hr1 hr2 c).arrAt_eq_of_cover 2 (outAt1 V hr1 hr2 c).1 (fun t hf => flushed1_2 V hr1 hr2 c t hf) cover1_2

theorem arrAt1_3 (c : Dev nD) : (dat1 V hr1 hr2 c).arrAt 3 cfg1.N = (outAt1 V hr1 hr2 c).2 :=
  (dat1 V hr1 hr2 c).arrAt_eq_of_cover 3 (outAt1 V hr1 hr2 c).2 (fun t hf => flushed1_3 V hr1 hr2 c t hf) cover1_3

end Cert.KernelIdeal.Hand

end
-- ==== Proof.KI.PoolRun1Value.lean ====
import proofs.«414466_j73993696576172_1_alg».proof.Proof.KI.PoolRun1
import proofs.«414466_j73993696576172_1_alg».proof.Proof.KI.PoolSteps

set_option maxRecDepth 65536
set_option maxHeartbeats 4000000

noncomputable section

namespace Cert.KernelIdeal.Hand

open Cert.KernelIdeal Cert.KernelIdeal.Gen
open Idealize.ShloMosaic Idealize.ShloMosaic.ValueIdx
open Finset

variable (c : Dev nD) (i : grid1.Coords)
    (M1 : Memref sig .tc .smem S256 .i32) (h1 : M1.IsWhole) (M2 : Memref sig .tc .smem S256 .i32) (h2 : M2.IsWhole)
    (M3 : Memref sig .tc .hbm S50000x64 .f32) (h3 : M3.IsWhole)
    (M4 : Memref sig .tc .vmem S16384x64 .f32) (h4 : M4.IsWhole) (M5 : Memref sig .tc .vmem S16384x1 .f32) (h5 : M5.IsWhole)
    (M6 : Memref sig .tc .vmem S50000x64 .f32) (h6 : M6.IsWhole) (M7 : Memref sig .tc .vmem S16384x64 .f32) (h7 : M7.IsWhole)
    (M8 : Memref sig .tc .vmem S16384x1 .f32) (h8 : M8.IsWhole) (M9 : DmaSems sig S_)
    (hA : isFirst1 i = 1#1) (hnA : ¬ (isFirst1 i = 1#1)) (hC : k1_cond2 i = 1#1) (hnC : ¬ (k1_cond2 i = 1#1))
    (x1 x2 : Vec Ideal S256 .i32) (hx1 : ∀ y, BitVec.toNat (x1 y) < 50000) (hx2 : ∀ y, BitVec.toNat (x2 y) < 16384)
    (fh : Bf (F := Ideal) c hbT1) (T : Vec Ideal S50000x64 .f32) (S : Vec Ideal S16384x64 .f32) (C : Vec Ideal S16384x1 .f32)

theorem poolRunA_tab1 : (poolRun1A (F := Ideal) c i M1 h1 M2 h2 M4 h4 M5 h5 M6 h6 M7 h7 M8 h8 hA hnC x1 x2 hx1 hx2 fh).1.1 = hbT1.view.read (Elt Ideal) fh :=
  View.read_writes_whole M6.view M6.view.junk _

theorem poolRunA_sum1 (q : Fin 16384) (k : Fin 64) :
    (poolRun1A (F := Ideal) c i M1 h1 M2 h2 M4 h4 M5 h5 M6 h6 M7 h7 M8 h8 hA hnC x1 x2 hx1 hx2 fh).1.2.1 (ix2 q k) = 0 + tileSum (hbT1.view.read (Elt Ideal) fh) x1 x2 q k := by
  refine RowAcc.sum (v := M7.view) (f := M7.view.junk) (L₀ := poolRun1A.sl.H7_1 (F := Ideal)) ?_ q k
    ((congrFun (wholeStore_eq M7.view M7.view.junk _ (k1_pay2 (F := Ideal)) []) _).trans (zeroPay _ _))
  iterate 256 refine RowAcc.row (View.read_writes_whole M6.view M6.view.junk _) hx1 hx2 rfl rfl ?_
  exact RowAcc.base

theorem poolRunA_cnt1 (q : Fin 16384) : (poolRun1A (F := Ideal) c i M1 h1 M2 h2 M4 h4 M5 h5 M6 h6 M7 h7 M8 h8 hA hnC x1 x2 hx1 hx2 fh).1.2.2 (ix2 q 0) = 0 + tileCnt x2 q := by
  refine RowAcc.cnt (v := M8.view) (f := M8.view.junk) (L₀ := poolRun1A.sl.H8_1 (F := Ideal)) ?_ q
    ((congrFun (wholeStore_eq M8.view M8.view.junk _ (k1_pay3 (F := Ideal)) []) _).trans (zeroPay _ _))
  iterate 256 refine RowAcc.one hx2 rfl ?_
  exact RowAcc.base

theorem poolRunB_sum1 (q : Fin 16384) (k : Fin 64) :
    (poolRun1B (F := Ideal) c i M1 h1 M2 h2 M3 h3 M4 h4 M5 h5 M6 h6 M7 h7 M8 h8 M9 hnA hnC x1 x2 hx1 hx2 T S C).1.1 (ix2 q k) = S (ix2 q k) + tileSum T x1 x2 q k := by
  refine RowAcc.sum (v := M7.view) (f := h7.unread S) (L₀ := []) ?_ q k (congrFun (h7.read_unread S) _)
  iterate 256 refine RowAcc.row (h6.read_unread T) hx1 hx2 rfl rfl ?_
  exact RowAcc.base

theorem poolRunB_cnt1 (q : Fin 16384) : (poolRun1B (F := Ideal) c i M1 h1 M2 h2 M3 h3 M4 h4 M5 h5 M6 h6 M7 h7 M8 h8 M9 hnA hnC x1 x2 hx1 hx2 T S C).1.2 (ix2 q 0) = C (ix2 q 0) + tileCnt x2 q := by
  refine RowAcc.cnt (v := M8.view) (f := h8.unread C) (L₀ := []) ?_ q (congrFun (h8.read_unread C) _)
  iterate 256 refine RowAcc.one hx2 rfl ?_
  exact RowAcc.base

theorem poolRunC_sum1 (q : Fin 16384) (k : Fin 64) :
    (poolRun1C (F := Ideal) c i M1 h1 M2 h2 M3 h3 M4 h4 M5 h5 M6 h6 M7 h7 M8 h8 M9 hnA hC x1 x2 hx1 hx2 T S C).1.1.1 (ix2 q k) = S (ix2 q k) + tileSum T x1 x2 q k := by
  refine RowAcc.sum (v := M7.view) (f := h7.unread S) (L₀ := []) ?_ q k (congrFun (h7.read_unread S) _)
  iterate 256 refine RowAcc.row (h6.read_unread T) hx1 hx2 rfl rfl ?_
  exact RowAcc.base

theorem poolRunC_cnt1 (q : Fin 16384) : (poolRun1C (F := Ideal) c i M1 h1 M2 h2 M3 h3 M4 h4 M5 h5 M6 h6 M7 h7 M8 h8 M9 hnA hC x1 x2 hx1 hx2 T S C).1.1.2 (ix2 q 0) = C (ix2 q 0) + tileCnt x2 q := by
  refine RowAcc.cnt (v := M8.view) (f := h8.unread C) (L₀ := []) ?_ q (congrFun (h8.read_unread C) _)
  iterate 256 refine RowAcc.one hx2 rfl ?_
  exact RowAcc.base

/-- The two output blocks are the accumulators copied whole. -/
theorem poolRunC_out1 : (poolRun1C (F := Ideal) c i M1 h1 M2 h2 M3 h3 M4 h4 M5 h5 M6 h6 M7 h7 M8 h8 M9 hnA hC x1 x2 hx1 hx2 T S C).1.2 = (poolRun1C (F := Ideal) c i M1 h1 M2 h2 M3 h3 M4 h4 M5 h5 M6 h6 M7 h7 M8 h8 M9 hnA hC x1 x2 hx1 hx2 T S C).1.1 :=
  Prod.ext ((wholeStore_eq M4.view _ _ _ _).trans (wholeLoad_eq M7.view _ _)) ((wholeStore_eq M5.view _ _ _ _).trans (wholeLoad_eq M8.view _ _))

end Cert.KernelIdeal.Hand

end
-- ==== Proof.KI.Pool1Value.lean ====
import proofs.«414466_j73993696576172_1_alg».proof.Proof.KI.Pool1Out
import proofs.«414466_j73993696576172_1_alg».proof.Proof.KI.PoolRun1Value

noncomputable section

namespace Cert.KernelIdeal.Hand

open Cert.KernelIdeal Cert.KernelIdeal.Gen
open Idealize.ShloMosaic Idealize.ShloMosaic.TcCoe
open Finset Idealize.ShloMosaic.ValueIdx

attribute [local irreducible] poolRun1A poolRun1B poolRun1C

section Blocks
variable {F : FTy → Type} [FloatOps F]
variable (V : (c : Dev nD) → (b : Ref sig .tc) → Buf (Elt F) ((c : Thread nD τ).loc b))

theorem index1_0 : ∀ t : Fin grid1.N, win1_0.index t 0 = t.val := by decide +kernel
theorem index1_1 : ∀ t : Fin grid1.N, win1_1.index t 0 = t.val := by decide +kernel

theorem point_lt1 (t : Fin cfg1.N) : t.val < 1600 := lt_of_lt_of_eq t.isLt N_1

theorem iblk1_0_apply (c : Dev nD) (t : Fin cfg1.N) (j : Fin 256) :
    (iblk1 V c 0 t : Vec F S256 .i32) (ix1 j)
      = (V c main_arg4 : S409600.Idx → BitVec 32) (ix1 ⟨256 * t.val + j.val, by have := point_lt1 t; omega⟩) :=
  congrArg (V c main_arg4 : S409600.Idx → BitVec 32) (funext fun a => Fin.ext (match a with
    | ⟨0, _⟩ => show win1_0.index t 0 * 256 + 1 * j.val = 256 * t.val + j.val by rw [index1_0 t]; omega))

theorem iblk1_1_apply (c : Dev nD) (t : Fin cfg1.N) (j : Fin 256) :
    (iblk1 V c 1 t : Vec F S256 .i32) (ix1 j)
      = (V c main_arg5 : S409600.Idx → BitVec 32) (ix1 ⟨256 * t.val + j.val, by have := point_lt1 t; omega⟩) :=
  congrArg (V c main_arg5 : S409600.Idx → BitVec 32) (funext fun a => Fin.ext (match a with
    | ⟨0, _⟩ => show win1_1.index t 0 * 256 + 1 * j.val = 256 * t.val + j.val by rw [index1_1 t]; omega))

end Blocks

section Value0
variable (V : (c : Dev nD) → (b : Ref sig .tc) → Buf (Elt Ideal) ((c : Thread nD τ).loc b))
variable (hr1 : ∀ (c : Dev nD) (j : S409600.Idx), BitVec.toNat ((V c main_arg4 : S409600.Idx → BitVec 32) j) < 50000)
variable (hr2 : ∀ (c : Dev nD) (j : S409600.Idx), BitVec.toNat ((V c main_arg5 : S409600.Idx → BitVec 32) j) < 16384)

/-- After point n the table is the table's array and the accumulators hold the entries below 256·(n+1). -/
theorem inv1 (c : Dev nD) : ∀ (n : ℕ) (h : n < cfg1.N),
    Pooled (V c main_arg11) (fun e => (V c main_arg4 : S409600.Idx → BitVec 32) (ix1 e))
      (fun e => (V c main_arg5 : S409600.Idx → BitVec 32) (ix1 e)) (256 * (n + 1)) (stAt1 V hr1 hr2 c n h)
  | 0, h => by
    rw [stAt1_zero V hr1 hr2 c h (first_of_zero1 _ rfl) (not_last_of1 _ (show (0 : ℕ) ≠ 1599 by decide))]
    exact (Pooled.zero (s := (hbT1.view.read (Elt Ideal) (V c main_arg11), fun _ => 0, fun _ => 0)) rfl (fun _ _ => rfl) fun _ => rfl).next (by decide)
      (iblk1_0_apply V c ⟨0, h⟩) (iblk1_1_apply V c ⟨0, h⟩) (poolRunA_tab1 ..)
      (fun q k => poolRunA_sum1 (q := q) (k := k) ..) fun q => poolRunA_cnt1 (q := q) ..
  | n + 1, h => by
    have hn : n + 1 < 1600 := point_lt1 ⟨n + 1, h⟩
    by_cases h' : n + 1 = 1599
    · rw [stAt1_last V hr1 hr2 c n h h' (not_first_of_pos1 _ n.succ_ne_zero) (last_of1 _ h')]
      exact (inv1 c n _).next (by omega) (iblk1_0_apply V c ⟨n + 1, h⟩) (iblk1_1_apply V c ⟨n + 1, h⟩) rfl
        (fun q k => poolRunC_sum1 (q := q) (k := k) ..) fun q => poolRunC_cnt1 (q := q) ..
    · rw [stAt1_mid V hr1 hr2 c n h h' (not_first_of_pos1 _ n.succ_ne_zero) (not_last_of1 _ h')]
      exact (inv1 c n _).next (by omega) (iblk1_0_apply V c ⟨n + 1, h⟩) (iblk1_1_apply V c ⟨n + 1, h⟩) rfl
        (fun q k => poolRunB_sum1 (q := q) (k := k) ..) fun q => poolRunB_cnt1 (q := q) ..

/-- The last point's output blocks are the accumulators it leaves, copied whole. -/
theorem outAt0_st1 (c : Dev nD) : outAt1 V hr1 hr2 c = (stAt1 V hr1 hr2 c (1598 + 1) last_lt1).2 := by
  have hA : ¬ (isFirst1 (grid1.coords ⟨1598 + 1, last_lt1⟩) = 1#1) := not_first_of_pos1 _ (Nat.succ_ne_zero 1598)
  have hC : k1_cond2 (grid1.coords ⟨1598 + 1, last_lt1⟩) = 1#1 := last_of1 _ rfl
  rw [outAt1_eq V hr1 hr2 c hA hC, stAt1_last V hr1 hr2 c 1598 last_lt1 rfl hA hC]
  exact poolRunC_out1 ..

theorem final1_sum (c : Dev nD) (q : Fin 16384) (k : Fin 64) :
    ((dat1 (F := Ideal) V hr1 hr2 c).arrAt 2 cfg1.N : S16384x64.Idx → EReal) (ix2 q k)
      = Cert.Spec.poolSum (fun r k => (V c main_arg11 : S50000x64.Idx → EReal) (ix2 r k))
          (fun e => (V c main_arg4 : S409600.Idx → BitVec 32) (ix1 e))
          (fun e => (V c main_arg5 : S409600.Idx → BitVec 32) (ix1 e)) q k := by
  rw [arrAt1_2, outAt0_st1]
  exact (inv1 V hr1 hr2 c _ _).sum rfl q k

theorem final1_cnt (c : Dev nD) (q : Fin 16384) :
    ((dat1 (F := Ideal) V hr1 hr2 c).arrAt 3 cfg1.N : S16384x1.Idx → EReal) (ix2 q 0)
      = Cert.Spec.poolCnt (fun e => (V c main_arg5 : S409600.Idx → BitVec 32) (ix1 e)) q := by
  rw [arrAt1_3, outAt0_st1]
  exact (inv1 V hr1 hr2 c _ _).cnt rfl q

end Value0

end Cert.KernelIdeal.Hand

end
-- ==== Proof.RefValue.lean ====
import proofs.«414466_j73993696576172_1_alg».proof.Proof.RefRead
import proofs.«414466_j73993696576172_1_alg».proof.Proof.RefIdx

noncomputable section

namespace Cert.ReferenceIdeal.RefValue

open Idealize.ShloMosaic Idealize.ShloMosaic.ValueIdx
open Cert.ReferenceIdeal.Read Cert.RefIdx Gnn.Scatter

def specOf (a0 : IVec S16384 32) (a1 : IVec S16384 32) (a2 : IVec S819200 32) (a3 : IVec S819200 32) (a4 : IVec S409600 32) (a5 : IVec S409600 32)
    (a6 : FVec Ideal S100000x64 .f32) (a7 : FVec Ideal S50000x64 .f32) (a8 : FVec Ideal S100000 .f32) (a9 : FVec Ideal S50000 .f32) (a10 a11 : FVec Ideal S50000x64 .f32) (b : Fin 16384) : EReal :=
  Cert.Spec.G (fun b d => a6 (ix2 (Cert.Spec.takeRow 100000 (by norm_num) (a0 (ix1 b))) d)) (fun b d => a7 (ix2 (Cert.Spec.takeRow 50000 (by norm_num) (a1 (ix1 b))) d))
    (fun b => a8 (ix1 (Cert.Spec.takeRow 100000 (by norm_num) (a0 (ix1 b))))) (fun b => a9 (ix1 (Cert.Spec.takeRow 50000 (by norm_num) (a1 (ix1 b)))))
    (Cert.Spec.poolSum (fun r k => a10 (ix2 r k)) (fun e => a2 (ix1 e)) (fun e => a3 (ix1 e))) (Cert.Spec.poolCnt (fun e => a3 (ix1 e)))
    (Cert.Spec.poolSum (fun r k => a11 (ix2 r k)) (fun e => a4 (ix1 e)) (fun e => a5 (ix1 e))) (Cert.Spec.poolCnt (fun e => a5 (ix1 e))) b

variable (x0 x1 : IVec S16384 32) (x2 x3 : IVec S819200 32) (x4 x5 : IVec S409600 32)
  (x6 : FVec Ideal S100000x64 .f32) (x7 : FVec Ideal S50000x64 .f32) (x8 : FVec Ideal S100000 .f32)
  (x9 : FVec Ideal S50000 .f32) (x10 x11 : FVec Ideal S50000x64 .f32)

theorem v6_at (b : Fin 16384) (d : Fin 64) :
    val_main_v6 (F := Ideal) x0 x6 (ix2 b d) = x6 (ix2 (Spec.takeRow 100000 (by norm_num) (x0 (ix1 b))) d) :=
  take_rows_apply (by norm_num) _ _ x6 x0 (val_main_v0 (F := Ideal)) (val_main_v2 (F := Ideal)) (fun _ => rfl) (fun _ => rfl) b d

theorem v13_at (b : Fin 16384) (d : Fin 64) :
    val_main_v13 (F := Ideal) x1 x7 (ix2 b d) = x7 (ix2 (Spec.takeRow 50000 (by norm_num) (x1 (ix1 b))) d) :=
  take_rows_apply (by norm_num) _ _ x7 x1 (val_main_v7 (F := Ideal)) (val_main_v9 (F := Ideal)) (fun _ => rfl) (fun _ => rfl) b d

theorem v20_at (b : Fin 16384) :
    val_main_v20 (F := Ideal) x0 x8 (ix1 b) = x8 (ix1 (Spec.takeRow 100000 (by norm_num) (x0 (ix1 b)))) :=
  take_vec_apply (by norm_num) gather_S100000_S16384x1_S16384_n_0_n_n_0_1_1 rfl rfl rfl rfl _ x8 x0
    (val_main_v14 (F := Ideal)) (val_main_v16 (F := Ideal)) (fun _ => rfl) (fun _ => rfl) b

theorem v27_at (b : Fin 16384) :
    val_main_v27 (F := Ideal) x1 x9 (ix1 b) = x9 (ix1 (Spec.takeRow 50000 (by norm_num) (x1 (ix1 b)))) :=
  take_vec_apply (by norm_num) gather_S50000_S16384x1_S16384_n_0_n_n_0_1_1 rfl rfl rfl rfl _ x9 x1
    (val_main_v21 (F := Ideal)) (val_main_v23 (F := Ideal)) (fun _ => rfl) (fun _ => rfl) b

theorem v37_at (hidx : ∀ e, (x2 (ix1 e)).toNat < 50000) (hseg : ∀ e, (x3 (ix1 e)).toNat < 16384) (q : Fin 16384) (k : Fin 64) :
    val_main_v37 (F := Ideal) x2 x3 x10 (ix2 q k)
      = Spec.poolSum (fun r k => x10 (ix2 r k)) (fun e => x2 (ix1 e)) (fun e => x3 (ix1 e)) q k :=
  pool_apply (by rfl) (by rfl) _ x10 x2 x3 (val_main_v28 (F := Ideal)) (val_main_v30 (F := Ideal)) (val_main_v35 (F := Ideal))
    (fun _ => rfl) (fun _ => rfl) (fun _ => rfl) hidx hseg q k

theorem v41_at (hseg : ∀ e, (x3 (ix1 e)).toNat < 16384) (q : Fin 16384) :
    val_main_v41 (F := Ideal) x3 (ix1 q) = Spec.poolCnt (fun e => x3 (ix1 e)) q :=
  cnt_apply (by rfl) _ x3 (val_main_v39 (F := Ideal)) (val_main_v38 (F := Ideal)) (fun _ => rfl) (fun _ => rfl) hseg q

theorem v49_at (q : Fin 16384) (k : Fin 64) :
    val_main_v49 (F := Ideal) x3 (ix2 q k) = Spec.inv (val_main_v41 (F := Ideal) x3 (ix1 q)) := by
  rw [val_main_v49_apply, val_main_v48_apply,
    show idx_main_v48 (idx_main_v49 (ix2 q k)) = ix1 q from funext fun a => by match a with | ⟨0, _⟩ => rfl]
  exact inv_apply (val_main_v41 (F := Ideal) x3) (val_main_v42 (F := Ideal)) (val_main_v44 (F := Ideal)) (val_main_call0_v1 (F := Ideal)) (ix1 q) rfl rfl rfl

theorem v60_at (hidx : ∀ e, (x4 (ix1 e)).toNat < 50000) (hseg : ∀ e, (x5 (ix1 e)).toNat < 16384) (q : Fin 16384) (k : Fin 64) :
    val_main_v60 (F := Ideal) x4 x5 x11 (ix2 q k)
      = Spec.poolSum (fun r k => x11 (ix2 r k)) (fun e => x4 (ix1 e)) (fun e => x5 (ix1 e)) q k :=
  pool_apply (by rfl) (by rfl) _ x11 x4 x5 (val_main_v51 (F := Ideal)) (val_main_v53 (F := Ideal)) (val_main_v58 (F := Ideal))
    (fun _ => rfl) (fun _ => rfl) (fun _ => rfl) hidx hseg q k

theorem v64_at (hseg : ∀ e, (x5 (ix1 e)).toNat < 16384) (q : Fin 16384) :
    val_main_v64 (F := Ideal) x5 (ix1 q) = Spec.poolCnt (fun e => x5 (ix1 e)) q :=
  cnt_apply (by rfl) _ x5 (val_main_v62 (F := Ideal)) (val_main_v61 (F := Ideal)) (fun _ => rfl) (fun _ => rfl) hseg q

theorem v72_at (q : Fin 16384) (k : Fin 64) :
    val_main_v72 (F := Ideal) x5 (ix2 q k) = Spec.inv (val_main_v64 (F := Ideal) x5 (ix1 q)) := by
  rw [val_main_v72_apply, val_main_v71_apply,
    show idx_main_v71 (idx_main_v72 (ix2 q k)) = ix1 q from funext fun a => by match a with | ⟨0, _⟩ => rfl]
  exact inv_apply (val_main_v64 (F := Ideal) x5) (val_main_v65 (F := Ideal)) (val_main_v67 (F := Ideal)) (val_main_call1_v1 (F := Ideal)) (ix1 q) rfl rfl rfl

/-- Stage by stage the reference's result at row `b` is the specification's `G`. -/
theorem ref_eq_spec (h2 : ∀ e, (x2 (ix1 e)).toNat < 50000) (h3 : ∀ e, (x3 (ix1 e)).toNat < 16384)
    (h4 : ∀ e, (x4 (ix1 e)).toNat < 50000) (h5 : ∀ e, (x5 (ix1 e)).toNat < 16384) (b : Fin 16384) :
    val_main_v81 (F := Ideal) x0 x1 x2 x3 x4 x5 x6 x7 x8 x9 x10 x11 (ix1 b)
      = specOf x0 x1 x2 x3 x4 x5 x6 x7 x8 x9 x10 x11 b := by
  have hk : ∀ k : Fin 64, val_main_v76 (F := Ideal) x0 x1 x2 x3 x4 x5 x6 x7 x10 x11 (idx_main_v77 (ix1 b) k)
      = ((x6 (ix2 (Spec.takeRow 100000 (by norm_num) (x0 (ix1 b))) k)
            + Spec.poolSum (fun r k => x10 (ix2 r k)) (fun e => x2 (ix1 e)) (fun e => x3 (ix1 e)) b k
              * Spec.inv (Spec.poolCnt (fun e => x3 (ix1 e)) b))
          + Spec.poolSum (fun r k => x11 (ix2 r k)) (fun e => x4 (ix1 e)) (fun e => x5 (ix1 e)) b k
              * Spec.inv (Spec.poolCnt (fun e => x5 (ix1 e)) b))
        * x7 (ix2 (Spec.takeRow 50000 (by norm_num) (x1 (ix1 b))) k) := fun k => by
    rw [show idx_main_v77 (ix1 b) k = ix2 b k from funext fun a => by match a with | ⟨0, _⟩ => rfl | ⟨1, _⟩ => rfl,
      val_main_v76_apply, val_main_v75_apply, val_main_v74_apply, val_main_v73_apply, val_main_v50_apply,
      v6_at, v13_at, v37_at x2 x3 x10 h2 h3, v49_at, v41_at x3 h3, v60_at x4 x5 x11 h4 h5, v72_at, v64_at x5 h5]
    rfl
  rw [val_main_v81_apply, val_main_v79_apply, val_main_v78_apply, val_main_v77_apply, v20_at, v27_at,
    show ∀ i, val_main_cst_22 (F := Ideal) i = 0 from fun _ => Ideal.ofBits_zero_f32, zero_add, Finset.sum_congr rfl fun k _ => hk k]
  rfl

end Cert.ReferenceIdeal.RefValue

end
-- ==== Proof.KI.KernelValue.lean ====
import proofs.«414466_j73993696576172_1_alg».proof.Proof.KI.ReadOff
import proofs.«414466_j73993696576172_1_alg».proof.Proof.KI.HostGlue
import proofs.«414466_j73993696576172_1_alg».proof.Proof.KI.CombineValue
import proofs.«414466_j73993696576172_1_alg».proof.Proof.KI.Pool0Value
import proofs.«414466_j73993696576172_1_alg».proof.Proof.KI.Pool1Value
import proofs.«414466_j73993696576172_1_alg».proof.Proof.RefValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable (m : (ℓ : Loc nD τ sig) → Buf (Elt Ideal) ℓ) (ρ : Dev nD → PrngReg)
variable (hm2 : ∀ (c : Dev nD) (j : S819200.Idx), BitVec.toNat ((m ((c : Thread nD τ).loc main_arg2) : S819200.Idx → BitVec 32) j) < 50000)
variable (hm3 : ∀ (c : Dev nD) (j : S819200.Idx), BitVec.toNat ((m ((c : Thread nD τ).loc main_arg3) : S819200.Idx → BitVec 32) j) < 16384)
variable (hm4 : ∀ (c : Dev nD) (j : S409600.Idx), BitVec.toNat ((m ((c : Thread nD τ).loc main_arg4) : S409600.Idx → BitVec 32) j) < 50000)
variable (hm5 : ∀ (c : Dev nD) (j : S409600.Idx), BitVec.toNat ((m ((c : Thread nD τ).loc main_arg5) : S409600.Idx → BitVec 32) j) < 16384)

theorem args_kept (mem : (ℓ : Loc nD τ sig) → Buf (Elt Ideal) ℓ)
    (h : ∀ c : Dev nD, ∀ b ∈ Pipeline.ucRefs τ sig, mem (((c : Thread nD τ)).1, b) = W5 m hm2 hm3 hm4 hm5 c b) (c : Dev nD) :
    ArgsKept m mem c := argsKept m hm2 hm3 hm4 hm5 mem h c

/-- The launch memory's array `r` on core `c`. -/
abbrev arg (c : Dev nD) (r : Ref sig .tc) := m ((c : Thread nD τ).loc r)

theorem in_sE (c : Dev nD) (b : Fin 16384) (d : Fin 64) :
    arr2_4 (V3 m hm2 hm3 hm4 hm5) c (ix2 b d)
      = (arg m c main_arg6 : S100000x64.Idx → EReal) (ix2 (Cert.Spec.takeRow 100000 (by norm_num) ((arg m c main_arg0 : S16384.Idx → BitVec 32) (ix1 b))) d) :=
  (glue_v8 (W2 m hm2 hm3 hm4 hm5 c) b d).trans (by rw [W2_kept m hm2 hm3 hm4 hm5 c main_arg6 (by decide), W2_kept m hm2 hm3 hm4 hm5 c main_arg0 (by decide)])

theorem in_pE (c : Dev nD) (b : Fin 16384) (d : Fin 64) :
    arr2_5 (V3 m hm2 hm3 hm4 hm5) c (ix2 b d)
      = (arg m c main_arg7 : S50000x64.Idx → EReal) (ix2 (Cert.Spec.takeRow 50000 (by norm_num) ((arg m c main_arg1 : S16384.Idx → BitVec 32) (ix1 b))) d) :=
  (glue_v15 (W2 m hm2 hm3 hm4 hm5 c) b d).trans (by rw [W2_kept m hm2 hm3 hm4 hm5 c main_arg7 (by decide), W2_kept m hm2 hm3 hm4 hm5 c main_arg1 (by decide)])

theorem in_sB (c : Dev nD) (b : Fin 16384) :
    arr2_6 (V3 m hm2 hm3 hm4 hm5) c (ix2 b 0)
      = (arg m c main_arg8 : S100000.Idx → EReal) (ix1 (Cert.Spec.takeRow 100000 (by norm_num) ((arg m c main_arg0 : S16384.Idx → BitVec 32) (ix1 b)))) :=
  (glue_v23 (W2 m hm2 hm3 hm4 hm5 c) b).trans (by rw [W2_kept m hm2 hm3 hm4 hm5 c main_arg8 (by decide), W2_kept m hm2 hm3 hm4 hm5 c main_arg0 (by decide)])

theorem in_pB (c : Dev nD) (b : Fin 16384) :
    arr2_7 (V3 m hm2 hm3 hm4 hm5) c (ix2 b 0)
      = (arg m c main_arg9 : S50000.Idx → EReal) (ix1 (Cert.Spec.takeRow 50000 (by norm_num) ((arg m c main_arg1 : S16384.Idx → BitVec 32) (ix1 b)))) :=
  (glue_v31 (W2 m hm2 hm3 hm4 hm5 c) b).trans (by rw [W2_kept m hm2 hm3 hm4 hm5 c main_arg9 (by decide), W2_kept m hm2 hm3 hm4 hm5 c main_arg1 (by decide)])

/-- An output of a pool region reaches the combine as the region left it: the host stretch does not write it. -/
theorem W3_out (c : Dev nD) (r : Ref sig .tc) (h : r ∉ hostOps2_W) :
    W3 m hm2 hm3 hm4 hm5 c (Proc.devRef .tc r) = W2 m hm2 hm3 hm4 hm5 c (Proc.devRef .tc r) :=
  StableHlo.after_of_writes_sub hostOps2 _ hostOps2_writes h

theorem in_P1 (c : Dev nD) (q : Fin 16384) (k : Fin 64) :
    arr2_0 (V3 m hm2 hm3 hm4 hm5) c (ix2 q k)
      = Cert.Spec.poolSum (fun r k => (arg m c main_arg10 : S50000x64.Idx → EReal) (ix2 r k))
          (fun e => (arg m c main_arg2 : S819200.Idx → BitVec 32) (ix1 e))
          (fun e => (arg m c main_arg3 : S819200.Idx → BitVec 32) (ix1 e)) q k := by
  rw [show arr2_0 (V3 m hm2 hm3 hm4 hm5) c = (D0 m hm2 hm3 c).arrAt 2 cfg0.N from
    (W3_out m hm2 hm3 hm4 hm5 c main_v0_0 (by decide)).trans ((afterReg_of_ne _ _ c main_v0_0 (by decide)).trans (afterReg_arr _ _ launch0 c 2))]
  exact final0_sum (V0 m) hm2 hm3 c q k

theorem in_C1 (c : Dev nD) (q : Fin 16384) :
    arr2_1 (V3 m hm2 hm3 hm4 hm5) c (ix2 q 0)
      = Cert.Spec.poolCnt (fun e => (arg m c main_arg3 : S819200.Idx → BitVec 32) (ix1 e)) q := by
  rw [show arr2_1 (V3 m hm2 hm3 hm4 hm5) c = (D0 m hm2 hm3 c).arrAt 3 cfg0.N from
    (W3_out m hm2 hm3 hm4 hm5 c main_v0_1 (by decide)).trans ((afterReg_of_ne _ _ c main_v0_1 (by decide)).trans (afterReg_arr _ _ launch0 c 3))]
  exact final0_cnt (V0 m) hm2 hm3 c q

/-- What the second pool region reads is still the launch memory's: the first has none of it among its arrays. -/
theorem V1_arg (c : Dev nD) (r : Ref sig .tc) (h : ∀ w, Pipeline.arrRef (cfgs 0).spec w ≠ r) :
    V1 m hm2 hm3 c r = arg m c r := afterReg_of_ne _ _ c r h

theorem in_P2 (c : Dev nD) (q : Fin 16384) (k : Fin 64) :
    arr2_2 (V3 m hm2 hm3 hm4 hm5) c (ix2 q k)
      = Cert.Spec.poolSum (fun r k => (arg m c main_arg11 : S50000x64.Idx → EReal) (ix2 r k))
          (fun e => (arg m c main_arg4 : S409600.Idx → BitVec 32) (ix1 e))
          (fun e => (arg m c main_arg5 : S409600.Idx → BitVec 32) (ix1 e)) q k := by
  rw [show arr2_2 (V3 m hm2 hm3 hm4 hm5) c = (D1 m hm2 hm3 hm4 hm5 c).arrAt 2 cfg1.N from
    (W3_out m hm2 hm3 hm4 hm5 c main_v1_0 (by decide)).trans (afterReg_arr _ _ launch1 c 2),
    final1_sum (V1 m hm2 hm3) (hv4 m hm2 hm3 hm4) (hv5 m hm2 hm3 hm5) c q k,
    V1_arg m hm2 hm3 c main_arg11 (by decide), V1_arg m hm2 hm3 c main_arg4 (by decide), V1_arg m hm2 hm3 c main_arg5 (by decide)]

theorem in_C2 (c : Dev nD) (q : Fin 16384) :
    arr2_3 (V3 m hm2 hm3 hm4 hm5) c (ix2 q 0)
      = Cert.Spec.poolCnt (fun e => (arg m c main_arg5 : S409600.Idx → BitVec 32) (ix1 e)) q := by
  rw [show arr2_3 (V3 m hm2 hm3 hm4 hm5) c = (D1 m hm2 hm3 hm4 hm5 c).arrAt 3 cfg1.N from
    (W3_out m hm2 hm3 hm4 hm5 c main_v1_1 (by decide)).trans (afterReg_arr _ _ launch1 c 3),
    final1_cnt (V1 m hm2 hm3) (hv4 m hm2 hm3 hm4) (hv5 m hm2 hm3 hm5) c q, V1_arg m hm2 hm3 c main_arg5 (by decide)]

theorem kernel_result (c : Dev nD) (b : Fin 16384) :
    (W5 m hm2 hm3 hm4 hm5 c main_v33 : S16384.Idx → EReal) (ix1 b)
      = Cert.ReferenceIdeal.RefValue.specOf
          (arg m c main_arg0) (arg m c main_arg1) (arg m c main_arg2) (arg m c main_arg3)
          (arg m c main_arg4) (arg m c main_arg5) (arg m c main_arg6) (arg m c main_arg7)
          (arg m c main_arg8) (arg m c main_arg9) (arg m c main_arg10) (arg m c main_arg11) b := by
  refine (glue_v33 (W4 m hm2 hm3 hm4 hm5 c) b).trans ?_
  rw [show (W4 m hm2 hm3 hm4 hm5 c main_v32 : S16384x1.Idx → EReal) = (D2 m hm2 hm3 hm4 hm5 c).arrAt 8 cfg2.N from afterReg_arr _ _ launch2 c 8,
    final2 (V3 m hm2 hm3 hm4 hm5) c b]
  unfold Cert.ReferenceIdeal.RefValue.specOf
  simp only [in_sE m hm2 hm3 hm4 hm5, in_pE m hm2 hm3 hm4 hm5, in_sB m hm2 hm3 hm4 hm5, in_pB m hm2 hm3 hm4 hm5, in_P1 m hm2 hm3 hm4 hm5, in_C1 m hm2 hm3 hm4 hm5, in_P2 m hm2 hm3 hm4 hm5, in_C2 m hm2 hm3 hm4 hm5]

end Cert.KernelIdeal.Hand

end
-- ==== Proof.lean ====
import proofs.«414466_j73993696576172_1_alg».proof.Defs
import proofs.«414466_j73993696576172_1_alg».proof.Proof.Gen.Kernel
import proofs.«414466_j73993696576172_1_alg».proof.Proof.Gen.KernelIdeal
import proofs.«414466_j73993696576172_1_alg».proof.Proof.Gen.ReferenceIdeal
import proofs.«414466_j73993696576172_1_alg».proof.Proof.Gen.Pre_finite_inputs
import proofs.«414466_j73993696576172_1_alg».proof.Proof.PreFacts
import proofs.«414466_j73993696576172_1_alg».proof.Proof.K.ReadOff
import proofs.«414466_j73993696576172_1_alg».proof.Proof.KI.KernelValue
import proofs.«414466_j73993696576172_1_alg».proof.Proof.RefValue
import Idealize.ShloMosaic.Adequacy
import Idealize.ShloMosaic.Init

noncomputable section

namespace Cert.Proof

open Idealize.ShloMosaic Idealize.ShloMosaic.TcCoe Idealize.SL.Sem Cert.PreFacts

theorem frame_K : Cert.frame_Kernel := fun m ρ h =>
  Cert.Kernel.Hand.frame (F := Bits) m ρ (fun c => (ranges (h c)).1) (fun c => (ranges (h c)).2.1)
    (fun c => (ranges (h c)).2.2.1) (fun c => (ranges (h c)).2.2.2)

theorem frame_KI : Cert.frame_KernelIdeal := fun m ρ h =>
  Cert.KernelIdeal.Hand.frame (F := Ideal) m ρ (fun c => (ranges (h c)).1) (fun c => (ranges (h c)).2.1)
    (fun c => (ranges (h c)).2.2.1) (fun c => (ranges (h c)).2.2.2)

theorem frame_R : Cert.frame_ReferenceIdeal := fun m ρ _ =>
  (θ_run Cert.ReferenceIdeal.defs _ _).mono (fun _ h c => (h c).2) (Cert.ReferenceIdeal.Value.run (F := Ideal) m ρ)

/-- Both programs end with the reference's own result term: it is the specification, and so is the kernel program's result. -/
theorem algebraic : Cert.algebraic_KernelIdeal_ReferenceIdeal := by
  intro m ρ m' ρ' hpre hagree
  have h2 := fun c => (ranges (hpre c)).1
  have h3 := fun c => (ranges (hpre c)).2.1
  have h4 := fun c => (ranges (hpre c)).2.2.1
  have h5 := fun c => (ranges (hpre c)).2.2.2
  refine ⟨Cert.ReferenceIdeal.Value.res_main_v81 m',
    (θ_run Cert.KernelIdeal.defs _ _).mono
      (fun s h c => ⟨?_, Cert.KernelIdeal.Hand.args_kept m h2 h3 h4 h5 s.2.mem h c⟩)
      (Cert.KernelIdeal.Hand.run_all (F := Ideal) m ρ h2 h3 h4 h5),
    Cert.ReferenceIdeal.Value.run (F := Ideal) m' ρ'⟩
  obtain ⟨e0, e1, e2, e3, e4, e5, e6, e7, e8, e9, ea, eb⟩ := hagree c
  rw [Cert.ReferenceIdeal.Read.val_main_v81_eq, e0, e1, e2, e3, e4, e5, e6, e7, e8, e9, ea, eb]
  refine (h c _ (Cert.KernelIdeal.Hand.mem_uc Cert.KernelIdeal.main_v33 (by decide))).trans ?_
  funext i
  rw [ValueIdx.eq_ix1 i]
  exact (Cert.KernelIdeal.Hand.kernel_result m h2 h3 h4 h5 c _).trans
    (Cert.ReferenceIdeal.RefValue.ref_eq_spec _ _ _ _ _ _ _ _ _ _ _ _ (fun _ => h2 c _) (fun _ => h3 c _)
      (fun _ => h4 c _) (fun _ => h5 c _) _).symm

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
